-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v294)) (v1 : (c : Dev Cert.KernelIdeal.nD) → Buf (Elt Ideal) ((c.tc : Thread Cert.KernelIdeal.nD Cert.KernelIdeal.τ).loc Cert.KernelIdeal.main_v319)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v294) = v0 c
          ∧ r.2.mem ((c.tc : Thread Cert.KernelIdeal.nD Cert.KernelIdeal.τ).loc Cert.KernelIdeal.main_v319) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v370) = v0 c
          ∧ r.2.mem ((c.tc : Thread Cert.ReferenceIdeal.nD Cert.ReferenceIdeal.τ).loc Cert.ReferenceIdeal.main_v395) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1 : Shape := ⟨2, ![10000, 1]⟩
abbrev S2x160000 : Shape := ⟨2, ![2, 160000]⟩
abbrev S160000x1 : Shape := ⟨2, ![160000, 1]⟩
abbrev S32000x128 : Shape := ⟨2, ![32000, 128]⟩
abbrev S20x128 : Shape := ⟨2, ![20, 128]⟩
abbrev S384x128 : Shape := ⟨2, ![384, 128]⟩
abbrev S128 : Shape := ⟨1, ![128]⟩
abbrev S256x384 : Shape := ⟨2, ![256, 384]⟩
abbrev S384 : Shape := ⟨1, ![384]⟩
abbrev S128x384 : Shape := ⟨2, ![128, 384]⟩
abbrev S128x1 : Shape := ⟨2, ![128, 1]⟩
abbrev S1 : Shape := ⟨1, ![1]⟩
abbrev S_ : Shape := ⟨0, ![]⟩

class Facts : Prop where
  bcast_S_S32000x128 : S_.BroadcastsInDim S32000x128 (![] : Fin 0 → Fin S32000x128.rank)
  reducesTo_S32000x128_S_d0_1 : S32000x128.ReducesTo [0, 1] S_
  h_S_ : 0 < S_.numel
  bcast_S_S20x128 : S_.BroadcastsInDim S20x128 (![] : Fin 0 → Fin S20x128.rank)
  reducesTo_S20x128_S_d0_1 : S20x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S256x384 : S_.BroadcastsInDim S256x384 (![] : Fin 0 → Fin S256x384.rank)
  reducesTo_S256x384_S_d0_1 : S256x384.ReducesTo [0, 1] S_
  bcast_S_S384 : S_.BroadcastsInDim S384 (![] : Fin 0 → Fin S384.rank)
  reducesTo_S384_S_d0 : S384.ReducesTo [0] S_
  bcast_S_S128x384 : S_.BroadcastsInDim S128x384 (![] : Fin 0 → Fin S128x384.rank)
  reducesTo_S128x384_S_d0_1 : S128x384.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S160000x1 : S_.BroadcastsInDim S160000x1 (![] : Fin 0 → Fin S160000x1.rank)
  reducesTo_S160000x1_S_d0_1 : S160000x1.ReducesTo [0, 1] S_

variable [Facts]

def fn_part3 {F : FTy → Type} [FloatOps F] (main_arg4 : IVec S160000x1 32) (main_arg5 : IVec S160000x1 32) (main_v48 : IVec S_ 1) (main_v50 : IVec S160000x1 1) : IVec S_ 1 :=
  let main_c_19 : IVec S_ 32 := constantI S_ 32 20#32
  let main_v51 : IVec S160000x1 32 := broadcastInDim S160000x1 ![] bcast_S_S160000x1 main_c_19
  let main_v52 : IVec S160000x1 1 := cmpi .slt main_arg4 main_v51
  let main_v53 : IVec S160000x1 1 := andi main_v50 main_v52
  let main_c_20 : IVec S_ 1 := constantI S_ 1 1#1
  let main_v54 : IVec S_ 1 := (fun x v => Host.reduce IntOp.andi x v reducesTo_S160000x1_S_d0_1 h_S_) main_v53 main_c_20
  let main_v55 : IVec S_ 1 := andi main_v48 main_v54
  let main_c_21 : IVec S_ 32 := constantI S_ 32 0#32
  let main_v56 : IVec S160000x1 32 := broadcastInDim S160000x1 ![] bcast_S_S160000x1 main_c_21
  let main_v57 : IVec S160000x1 1 := cmpi .sge main_arg5 main_v56
  let main_c_22 : IVec S_ 32 := constantI S_ 32 20#32
  let main_v58 : IVec S160000x1 32 := broadcastInDim S160000x1 ![] bcast_S_S160000x1 main_c_22
  let main_v59 : IVec S160000x1 1 := cmpi .slt main_arg5 main_v58
  let main_v60 : IVec S160000x1 1 := andi main_v57 main_v59
  let main_c_23 : IVec S_ 1 := constantI S_ 1 1#1
  let main_v61 : IVec S_ 1 := (fun x v => Host.reduce IntOp.andi x v reducesTo_S160000x1_S_d0_1 h_S_) main_v60 main_c_23
  let main_v62 : IVec S_ 1 := andi main_v55 main_v61
  main_v62

def fn_part2 {F : FTy → Type} [FloatOps F] (main_arg4 : IVec S160000x1 32) (main_arg5 : IVec S160000x1 32) (main_arg13 : FVec F S384 .f32) (main_arg14 : FVec F S128x1 .f32) (main_arg15 : FVec F S1 .f32) (main_v33 : IVec S_ 1) : IVec S_ 1 :=
  let main_v34 : FVec F S384 .f32 := Host.absf main_arg13
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128x1 .f32 := Host.absf main_arg14
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg15
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S160000x1 32 := broadcastInDim S160000x1 ![] bcast_S_S160000x1 main_c_18
  let main_v50 : IVec S160000x1 1 := cmpi .sge main_arg4 main_v49
  fn_part3 (F := F) main_arg4 main_arg5 main_v48 main_v50

def fn_part1 {F : FTy → Type} [FloatOps F] (main_arg4 : IVec S160000x1 32) (main_arg5 : IVec S160000x1 32) (main_arg10 : FVec F S256x384 .f32) (main_arg11 : FVec F S384 .f32) (main_arg12 : FVec F S128x384 .f32) (main_arg13 : FVec F S384 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x384 .f32 := Host.absf main_arg10
  let main_cst_6 : FVec F S_ .f32 := constant S_ .f32 0x7F800000#32
  let main_v20 : FVec F S256x384 .f32 := broadcastInDim S256x384 ![] bcast_S_S256x384 main_cst_6
  let main_v21 : IVec S256x384 1 := cmpf .olt main_v19 main_v20
  let main_c_7 : IVec S_ 1 := constantI S_ 1 1#1
  let main_v22 : IVec S_ 1 := (fun x v => Host.reduce IntOp.andi x v reducesTo_S256x384_S_d0_1 h_S_) main_v21 main_c_7
  let main_v23 : IVec S_ 1 := andi main_v18 main_v22
  let main_v24 : FVec F S384 .f32 := Host.absf main_arg11
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x384 .f32 := Host.absf main_arg12
  let main_cst_10 : FVec F S_ .f32 := constant S_ .f32 0x7F800000#32
  let main_v30 : FVec F S128x384 .f32 := broadcastInDim S128x384 ![] bcast_S_S128x384 main_cst_10
  let main_v31 : IVec S128x384 1 := cmpf .olt main_v29 main_v30
  let main_c_11 : IVec S_ 1 := constantI S_ 1 1#1
  let main_v32 : IVec S_ 1 := (fun x v => Host.reduce IntOp.andi x v reducesTo_S128x384_S_d0_1 h_S_) main_v31 main_c_11
  let main_v33 : IVec S_ 1 := andi main_v28 main_v32
  fn_part2 (F := F) main_arg4 main_arg5 main_arg13 main_arg14 main_arg15 main_v33

def fn {F : FTy → Type} [FloatOps F] (main_arg0 : IVec S10000x1 32) (main_arg1 : IVec S10000x1 32) (main_arg2 : IVec S2x160000 32) (main_arg3 : IVec S2x160000 32) (main_arg4 : IVec S160000x1 32) (main_arg5 : IVec S160000x1 32) (main_arg6 : FVec F S32000x128 .f32) (main_arg7 : FVec F S20x128 .f32) (main_arg8 : FVec F S384x128 .f32) (main_arg9 : FVec F S128 .f32) (main_arg10 : FVec F S256x384 .f32) (main_arg11 : FVec F S384 .f32) (main_arg12 : FVec F S128x384 .f32) (main_arg13 : FVec F S384 .f32) (main_arg14 : FVec F S128x1 .f32) (main_arg15 : FVec F S1 .f32) : IVec S_ 1 :=
  let main_v0 : FVec F S32000x128 .f32 := Host.absf main_arg6
  let main_cst : FVec F S_ .f32 := constant S_ .f32 0x7F800000#32
  let main_v1 : FVec F S32000x128 .f32 := broadcastInDim S32000x128 ![] bcast_S_S32000x128 main_cst
  let main_v2 : IVec S32000x128 1 := cmpf .olt main_v0 main_v1
  let main_c : IVec S_ 1 := constantI S_ 1 1#1
  let main_v3 : IVec S_ 1 := (fun x v => Host.reduce IntOp.andi x v reducesTo_S32000x128_S_d0_1 h_S_) main_v2 main_c
  let main_v4 : FVec F S20x128 .f32 := Host.absf main_arg7
  let main_cst_0 : FVec F S_ .f32 := constant S_ .f32 0x7F800000#32
  let main_v5 : FVec F S20x128 .f32 := broadcastInDim S20x128 ![] bcast_S_S20x128 main_cst_0
  let main_v6 : IVec S20x128 1 := cmpf .olt main_v4 main_v5
  let main_c_1 : IVec S_ 1 := constantI S_ 1 1#1
  let main_v7 : IVec S_ 1 := (fun x v => Host.reduce IntOp.andi x v reducesTo_S20x128_S_d0_1 h_S_) main_v6 main_c_1
  let main_v8 : IVec S_ 1 := andi main_v3 main_v7
  let main_v9 : FVec F S384x128 .f32 := Host.absf main_arg8
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg10 main_arg11 main_arg12 main_arg13 main_arg14 main_arg15 main_v13 main_v16
-- ==== Kernel.lean ====
abbrev S10000x1 : Shape := ⟨2, ![10000, 1]⟩
abbrev S2x160000 : Shape := ⟨2, ![2, 160000]⟩
abbrev S160000x1 : Shape := ⟨2, ![160000, 1]⟩
abbrev S32000x128 : Shape := ⟨2, ![32000, 128]⟩
abbrev S20x128 : Shape := ⟨2, ![20, 128]⟩
abbrev S384x128 : Shape := ⟨2, ![384, 128]⟩
abbrev S128 : Shape := ⟨1, ![128]⟩
abbrev S256x384 : Shape := ⟨2, ![256, 384]⟩
abbrev S384 : Shape := ⟨1, ![384]⟩
abbrev S128x384 : Shape := ⟨2, ![128, 384]⟩
abbrev S128x1 : Shape := ⟨2, ![128, 1]⟩
abbrev S1 : Shape := ⟨1, ![1]⟩
abbrev S10000 : Shape := ⟨1, ![10000]⟩
abbrev S_ : Shape := ⟨0, ![]⟩
abbrev S10000x128 : Shape := ⟨2, ![10000, 128]⟩
abbrev S128x128 : Shape := ⟨2, ![128, 128]⟩
abbrev S1x128 : Shape := ⟨2, ![1, 128]⟩
abbrev S1x160000 : Shape := ⟨2, ![1, 160000]⟩
abbrev S160000 : Shape := ⟨1, ![160000]⟩
abbrev S160000x128 : Shape := ⟨2, ![160000, 128]⟩
abbrev S4000x128 : Shape := ⟨2, ![4000, 128]⟩
abbrev S4000x1 : Shape := ⟨2, ![4000, 1]⟩
abbrev S4000x20 : Shape := ⟨2, ![4000, 20]⟩
abbrev S1000x128 : Shape := ⟨2, ![1000, 128]⟩
abbrev S2000x128 : Shape := ⟨2, ![2000, 128]⟩
abbrev S1000x1 : Shape := ⟨2, ![1000, 1]⟩
abbrev S1000x2000 : Shape := ⟨2, ![1000, 2000]⟩
abbrev S1000 : Shape := ⟨1, ![1000]⟩
abbrev S10000x256 : Shape := ⟨2, ![10000, 256]⟩
abbrev S10000x384 : Shape := ⟨2, ![10000, 384]⟩
abbrev S1x384 : Shape := ⟨2, ![1, 384]⟩
abbrev S1x1 : Shape := ⟨2, ![1, 1]⟩

abbrev nBuf : Space → Nat
  | .hbm => 392
  | .vmem => 80
  | .smem => 0
  | _ => 0

abbrev hbmTy0_0 (i : Nat) : BufTy := match i % 128 with
  | 0 => ⟨S10000x1, .i32⟩
  | 1 => ⟨S10000x1, .i32⟩
  | 2 => ⟨S2x160000, .i32⟩
  | 3 => ⟨S2x160000, .i32⟩
  | 4 => ⟨S160000x1, .i32⟩
  | 5 => ⟨S160000x1, .i32⟩
  | 6 => ⟨S32000x128, .f32⟩
  | 7 => ⟨S20x128, .f32⟩
  | 8 => ⟨S384x128, .f32⟩
  | 9 => ⟨S128, .f32⟩
  | 10 => ⟨S256x384, .f32⟩
  | 11 => ⟨S384, .f32⟩
  | 12 => ⟨S128x384, .f32⟩
  | 13 => ⟨S384, .f32⟩
  | 14 => ⟨S128x1, .f32⟩
  | 15 => ⟨S1, .f32⟩
  | 16 => ⟨S10000, .i32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S10000x1, .i32⟩
  | 25 => ⟨S10000x128, .f32⟩
  | 26 => ⟨S10000, .i32⟩
  | 27 => ⟨S_, .i32⟩
  | 28 => ⟨S10000, .i32⟩
  | 29 => ⟨S10000, .i1⟩
  | 30 => ⟨S_, .i32⟩
  | 31 => ⟨S10000, .i32⟩
  | 32 => ⟨S10000, .i32⟩
  | 33 => ⟨S10000, .i32⟩
  | 34 => ⟨S10000x1, .i32⟩
  | 35 => ⟨S10000x128, .f32⟩
  | 36 => ⟨S128x128, .f32⟩
  | 37 => ⟨S128x128, .bf16⟩
  | 38 => ⟨S128x128, .f32⟩
  | 39 => ⟨S128x128, .bf16⟩
  | 40 => ⟨S128x128, .f32⟩
  | 41 => ⟨S20x128, .f32⟩
  | 42 => ⟨S1x128, .f32⟩
  | 43 => ⟨S20x128, .f32⟩
  | 44 => ⟨S20x128, .f32⟩
  | 45 => ⟨S20x128, .bf16⟩
  | 46 => ⟨S10000x128, .bf16⟩
  | 47 => ⟨S10000x128, .bf16⟩
  | 48 => ⟨S1x160000, .i32⟩
  | 49 => ⟨S160000, .i32⟩
  | 50 => ⟨S1x160000, .i32⟩
  | 51 => ⟨S160000, .i32⟩
  | 52 => ⟨S_, .i32⟩
  | 53 => ⟨S160000, .i32⟩
  | 54 => ⟨S160000, .i1⟩
  | 55 => ⟨S_, .i32⟩
  | 56 => ⟨S160000, .i32⟩
  | 57 => ⟨S160000, .i32⟩
  | 58 => ⟨S160000, .i32⟩
  | 59 => ⟨S160000x1, .i32⟩
  | 60 => ⟨S160000x128, .bf16⟩
  | 61 => ⟨S_, .i32⟩
  | 62 => ⟨S160000, .i32⟩
  | 63 => ⟨S160000, .i1⟩
  | 64 => ⟨S_, .i32⟩
  | 65 => ⟨S160000, .i32⟩
  | 66 => ⟨S160000, .i32⟩
  | 67 => ⟨S160000, .i32⟩
  | 68 => ⟨S160000x1, .i32⟩
  | 69 => ⟨S160000x128, .bf16⟩
  | 70 => ⟨S160000x128, .f32⟩
  | 71 => ⟨S_, .f32⟩
  | 72 => ⟨S10000x128, .f32⟩
  | 73 => ⟨S160000x1, .i32⟩
  | 74 => ⟨S10000x128, .f32⟩
  | 75 => ⟨S1x160000, .i32⟩
  | 76 => ⟨S160000, .i32⟩
  | 77 => ⟨S1x160000, .i32⟩
  | 78 => ⟨S160000, .i32⟩
  | 79 => ⟨S_, .i32⟩
  | 80 => ⟨S160000, .i32⟩
  | 81 => ⟨S160000, .i1⟩
  | 82 => ⟨S_, .i32⟩
  | 83 => ⟨S160000, .i32⟩
  | 84 => ⟨S160000, .i32⟩
  | 85 => ⟨S160000, .i32⟩
  | 86 => ⟨S160000x1, .i32⟩
  | 87 => ⟨S160000x128, .bf16⟩
  | 88 => ⟨S_, .i32⟩
  | 89 => ⟨S160000, .i32⟩
  | 90 => ⟨S160000, .i1⟩
  | 91 => ⟨S_, .i32⟩
  | 92 => ⟨S160000, .i32⟩
  | 93 => ⟨S160000, .i32⟩
  | 94 => ⟨S160000, .i32⟩
  | 95 => ⟨S160000x1, .i32⟩
  | 96 => ⟨S160000x128, .bf16⟩
  | 97 => ⟨S160000x128, .f32⟩
  | 98 => ⟨S_, .f32⟩
  | 99 => ⟨S10000x128, .f32⟩
  | 100 => ⟨S160000x1, .i32⟩
  | 101 => ⟨S10000x128, .f32⟩
  | 102 => ⟨S10000x128, .f32⟩
  | 103 => ⟨S10000x128, .f32⟩
  | 104 => ⟨S10000x256, .f32⟩
  | 105 => ⟨S10000x384, .f32⟩
  | 106 => ⟨S1x384, .f32⟩
  | 107 => ⟨S10000x384, .f32⟩
  | 108 => ⟨S10000x384, .f32⟩
  | 109 => ⟨S10000x384, .f32⟩
  | 110 => ⟨S1x384, .f32⟩
  | 111 => ⟨S10000x384, .f32⟩
  | 112 => ⟨S10000x384, .f32⟩
  | 113 => ⟨S10000x128, .f32⟩
  | 114 => ⟨S10000x128, .f32⟩
  | 115 => ⟨S10000x128, .f32⟩
  | 116 => ⟨S10000x128, .f32⟩
  | 117 => ⟨S10000x128, .f32⟩
  | 118 => ⟨S10000x128, .f32⟩
  | 119 => ⟨S10000x128, .f32⟩
  | 120 => ⟨S10000x128, .f32⟩
  | 121 => ⟨S10000x128, .f32⟩
  | 122 => ⟨S_, .f32⟩
  | 123 => ⟨S10000x128, .f32⟩
  | 124 => ⟨S10000x128, .f32⟩
  | 125 => ⟨S_, .f32⟩
  | 126 => ⟨S10000x128, .f32⟩
  | 127 => ⟨S10000x128, .f32⟩
  | _ => ⟨S10000x1, .i32⟩

abbrev hbmTy0_1 (i : Nat) : BufTy := match i % 128 with
  | 0 => ⟨S10000x128, .f32⟩
  | 1 => ⟨S10000x128, .f32⟩
  | 2 => ⟨S10000x128, .f32⟩
  | 3 => ⟨S_, .f32⟩
  | 4 => ⟨S10000x128, .f32⟩
  | 5 => ⟨S10000x128, .f32⟩
  | 6 => ⟨S_, .f32⟩
  | 7 => ⟨S10000x128, .f32⟩
  | 8 => ⟨S10000x128, .f32⟩
  | 9 => ⟨S10000x128, .f32⟩
  | 10 => ⟨S10000x128, .f32⟩
  | 11 => ⟨S10000x128, .f32⟩
  | 12 => ⟨S_, .f32⟩
  | 13 => ⟨S10000x128, .f32⟩
  | 14 => ⟨S10000x128, .f32⟩
  | 15 => ⟨S10000x128, .f32⟩
  | 16 => ⟨S10000x128, .f32⟩
  | 17 => ⟨S10000x128, .f32⟩
  | 18 => ⟨S10000x256, .f32⟩
  | 19 => ⟨S10000x384, .f32⟩
  | 20 => ⟨S1x384, .f32⟩
  | 21 => ⟨S10000x384, .f32⟩
  | 22 => ⟨S10000x384, .f32⟩
  | 23 => ⟨S10000x384, .f32⟩
  | 24 => ⟨S1x384, .f32⟩
  | 25 => ⟨S10000x384, .f32⟩
  | 26 => ⟨S10000x384, .f32⟩
  | 27 => ⟨S10000x128, .f32⟩
  | 28 => ⟨S10000x128, .f32⟩
  | 29 => ⟨S10000x128, .f32⟩
  | 30 => ⟨S10000x128, .f32⟩
  | 31 => ⟨S10000x128, .f32⟩
  | 32 => ⟨S10000x128, .f32⟩
  | 33 => ⟨S10000x128, .f32⟩
  | 34 => ⟨S10000x128, .f32⟩
  | 35 => ⟨S10000x128, .f32⟩
  | 36 => ⟨S_, .f32⟩
  | 37 => ⟨S10000x128, .f32⟩
  | 38 => ⟨S10000x128, .f32⟩
  | 39 => ⟨S_, .f32⟩
  | 40 => ⟨S10000x128, .f32⟩
  | 41 => ⟨S10000x128, .f32⟩
  | 42 => ⟨S10000x128, .f32⟩
  | 43 => ⟨S10000x128, .f32⟩
  | 44 => ⟨S10000x128, .f32⟩
  | 45 => ⟨S_, .f32⟩
  | 46 => ⟨S10000x128, .f32⟩
  | 47 => ⟨S10000x128, .f32⟩
  | 48 => ⟨S_, .f32⟩
  | 49 => ⟨S10000x128, .f32⟩
  | 50 => ⟨S10000x128, .f32⟩
  | 51 => ⟨S10000x128, .f32⟩
  | 52 => ⟨S10000x128, .f32⟩
  | 53 => ⟨S10000x128, .f32⟩
  | 54 => ⟨S_, .f32⟩
  | 55 => ⟨S10000x128, .f32⟩
  | 56 => ⟨S10000x128, .f32⟩
  | 57 => ⟨S10000x128, .f32⟩
  | 58 => ⟨S10000x128, .f32⟩
  | 59 => ⟨S10000x128, .f32⟩
  | 60 => ⟨S10000x128, .bf16⟩
  | 61 => ⟨S10000x128, .bf16⟩
  | 62 => ⟨S1x160000, .i32⟩
  | 63 => ⟨S160000, .i32⟩
  | 64 => ⟨S1x160000, .i32⟩
  | 65 => ⟨S160000, .i32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000x128, .bf16⟩
  | 75 => ⟨S_, .i32⟩
  | 76 => ⟨S160000, .i32⟩
  | 77 => ⟨S160000, .i1⟩
  | 78 => ⟨S_, .i32⟩
  | 79 => ⟨S160000, .i32⟩
  | 80 => ⟨S160000, .i32⟩
  | 81 => ⟨S160000, .i32⟩
  | 82 => ⟨S160000x1, .i32⟩
  | 83 => ⟨S160000x128, .bf16⟩
  | 84 => ⟨S160000x128, .f32⟩
  | 85 => ⟨S_, .f32⟩
  | 86 => ⟨S10000x128, .f32⟩
  | 87 => ⟨S160000x1, .i32⟩
  | 88 => ⟨S10000x128, .f32⟩
  | 89 => ⟨S1x160000, .i32⟩
  | 90 => ⟨S160000, .i32⟩
  | 91 => ⟨S1x160000, .i32⟩
  | 92 => ⟨S160000, .i32⟩
  | 93 => ⟨S_, .i32⟩
  | 94 => ⟨S160000, .i32⟩
  | 95 => ⟨S160000, .i1⟩
  | 96 => ⟨S_, .i32⟩
  | 97 => ⟨S160000, .i32⟩
  | 98 => ⟨S160000, .i32⟩
  | 99 => ⟨S160000, .i32⟩
  | 100 => ⟨S160000x1, .i32⟩
  | 101 => ⟨S160000x128, .bf16⟩
  | 102 => ⟨S_, .i32⟩
  | 103 => ⟨S160000, .i32⟩
  | 104 => ⟨S160000, .i1⟩
  | 105 => ⟨S_, .i32⟩
  | 106 => ⟨S160000, .i32⟩
  | 107 => ⟨S160000, .i32⟩
  | 108 => ⟨S160000, .i32⟩
  | 109 => ⟨S160000x1, .i32⟩
  | 110 => ⟨S160000x128, .bf16⟩
  | 111 => ⟨S160000x128, .f32⟩
  | 112 => ⟨S_, .f32⟩
  | 113 => ⟨S10000x128, .f32⟩
  | 114 => ⟨S160000x1, .i32⟩
  | 115 => ⟨S10000x128, .f32⟩
  | 116 => ⟨S10000x128, .f32⟩
  | 117 => ⟨S10000x128, .f32⟩
  | 118 => ⟨S10000x256, .f32⟩
  | 119 => ⟨S10000x384, .f32⟩
  | 120 => ⟨S1x384, .f32⟩
  | 121 => ⟨S10000x384, .f32⟩
  | 122 => ⟨S10000x384, .f32⟩
  | 123 => ⟨S10000x384, .f32⟩
  | 124 => ⟨S1x384, .f32⟩
  | 125 => ⟨S10000x384, .f32⟩
  | 126 => ⟨S10000x384, .f32⟩
  | 127 => ⟨S10000x128, .f32⟩
  | _ => ⟨S10000x1, .i32⟩

abbrev hbmTy0_2 (i : Nat) : BufTy := match i % 128 with
  | 0 => ⟨S10000x128, .f32⟩
  | 1 => ⟨S10000x128, .f32⟩
  | 2 => ⟨S10000x128, .f32⟩
  | 3 => ⟨S10000x128, .f32⟩
  | 4 => ⟨S10000x128, .f32⟩
  | 5 => ⟨S10000x128, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S_, .f32⟩
  | 12 => ⟨S10000x128, .f32⟩
  | 13 => ⟨S10000x128, .f32⟩
  | 14 => ⟨S10000x128, .f32⟩
  | 15 => ⟨S10000x128, .f32⟩
  | 16 => ⟨S10000x128, .f32⟩
  | 17 => ⟨S_, .f32⟩
  | 18 => ⟨S10000x128, .f32⟩
  | 19 => ⟨S10000x128, .f32⟩
  | 20 => ⟨S_, .f32⟩
  | 21 => ⟨S10000x128, .f32⟩
  | 22 => ⟨S10000x128, .f32⟩
  | 23 => ⟨S10000x128, .f32⟩
  | 24 => ⟨S10000x128, .f32⟩
  | 25 => ⟨S10000x128, .f32⟩
  | 26 => ⟨S_, .f32⟩
  | 27 => ⟨S10000x128, .f32⟩
  | 28 => ⟨S10000x128, .f32⟩
  | 29 => ⟨S10000x128, .f32⟩
  | 30 => ⟨S10000x128, .f32⟩
  | 31 => ⟨S10000x128, .f32⟩
  | 32 => ⟨S10000x256, .f32⟩
  | 33 => ⟨S10000x384, .f32⟩
  | 34 => ⟨S1x384, .f32⟩
  | 35 => ⟨S10000x384, .f32⟩
  | 36 => ⟨S10000x384, .f32⟩
  | 37 => ⟨S10000x384, .f32⟩
  | 38 => ⟨S1x384, .f32⟩
  | 39 => ⟨S10000x384, .f32⟩
  | 40 => ⟨S10000x384, .f32⟩
  | 41 => ⟨S10000x128, .f32⟩
  | 42 => ⟨S10000x128, .f32⟩
  | 43 => ⟨S10000x128, .f32⟩
  | 44 => ⟨S10000x128, .f32⟩
  | 45 => ⟨S10000x128, .f32⟩
  | 46 => ⟨S10000x128, .f32⟩
  | 47 => ⟨S10000x128, .f32⟩
  | 48 => ⟨S10000x128, .f32⟩
  | 49 => ⟨S10000x128, .f32⟩
  | 50 => ⟨S_, .f32⟩
  | 51 => ⟨S10000x128, .f32⟩
  | 52 => ⟨S10000x128, .f32⟩
  | 53 => ⟨S_, .f32⟩
  | 54 => ⟨S10000x128, .f32⟩
  | 55 => ⟨S10000x128, .f32⟩
  | 56 => ⟨S10000x128, .f32⟩
  | 57 => ⟨S10000x128, .f32⟩
  | 58 => ⟨S10000x128, .f32⟩
  | 59 => ⟨S_, .f32⟩
  | 60 => ⟨S10000x128, .f32⟩
  | 61 => ⟨S10000x128, .f32⟩
  | 62 => ⟨S_, .f32⟩
  | 63 => ⟨S10000x128, .f32⟩
  | 64 => ⟨S10000x128, .f32⟩
  | 65 => ⟨S10000x128, .f32⟩
  | 66 => ⟨S10000x128, .f32⟩
  | 67 => ⟨S10000x128, .f32⟩
  | 68 => ⟨S_, .f32⟩
  | 69 => ⟨S10000x128, .f32⟩
  | 70 => ⟨S10000x128, .f32⟩
  | 71 => ⟨S10000x128, .f32⟩
  | 72 => ⟨S10000x128, .f32⟩
  | 73 => ⟨S10000x128, .f32⟩
  | 74 => ⟨S10000x1, .f32⟩
  | 75 => ⟨S1x1, .f32⟩
  | 76 => ⟨S10000x1, .f32⟩
  | 77 => ⟨S10000x1, .f32⟩
  | 78 => ⟨S10000x1, .f32⟩
  | 79 => ⟨S10000x1, .f32⟩
  | 80 => ⟨S_, .f32⟩
  | 81 => ⟨S10000x1, .f32⟩
  | 82 => ⟨S10000x1, .f32⟩
  | 83 => ⟨S_, .f32⟩
  | 84 => ⟨S10000x1, .f32⟩
  | 85 => ⟨S10000x1, .f32⟩
  | 86 => ⟨S_, .f32⟩
  | 87 => ⟨S1, .f32⟩
  | 88 => ⟨S_, .f32⟩
  | 89 => ⟨S1, .f32⟩
  | 90 => ⟨S1, .f32⟩
  | 91 => ⟨S1x1, .f32⟩
  | 92 => ⟨S10000x1, .f32⟩
  | 93 => ⟨S10000x1, .f32⟩
  | 94 => ⟨S10000x1, .f32⟩
  | 95 => ⟨S_, .f32⟩
  | 96 => ⟨S1, .f32⟩
  | 97 => ⟨S1x1, .f32⟩
  | 98 => ⟨S10000x1, .f32⟩
  | 99 => ⟨S10000x1, .f32⟩
  | 100 => ⟨S10000x128, .f32⟩
  | 101 => ⟨S10000x128, .f32⟩
  | 102 => ⟨S_, .f32⟩
  | 103 => ⟨S128, .f32⟩
  | 104 => ⟨S1x128, .f32⟩
  | 105 => ⟨S10000x1, .f32⟩
  | 106 => ⟨S1x1, .f32⟩
  | 107 => ⟨S10000x1, .f32⟩
  | 108 => ⟨S10000x1, .f32⟩
  | 109 => ⟨S10000x1, .f32⟩
  | 110 => ⟨S10000x1, .f32⟩
  | 111 => ⟨S_, .f32⟩
  | 112 => ⟨S10000x1, .f32⟩
  | 113 => ⟨S10000x1, .f32⟩
  | 114 => ⟨S_, .f32⟩
  | 115 => ⟨S10000x1, .f32⟩
  | 116 => ⟨S10000x1, .f32⟩
  | 117 => ⟨S_, .f32⟩
  | 118 => ⟨S1, .f32⟩
  | 119 => ⟨S_, .f32⟩
  | 120 => ⟨S1, .f32⟩
  | 121 => ⟨S1, .f32⟩
  | 122 => ⟨S1x1, .f32⟩
  | 123 => ⟨S10000x1, .f32⟩
  | 124 => ⟨S10000x1, .f32⟩
  | 125 => ⟨S10000x1, .f32⟩
  | 126 => ⟨S_, .f32⟩
  | 127 => ⟨S1, .f32⟩
  | _ => ⟨S10000x1, .i32⟩

abbrev hbmTy0_3 (i : Nat) : BufTy := match i % 128 with
  | 0 => ⟨S1x1, .f32⟩
  | 1 => ⟨S10000x1, .f32⟩
  | 2 => ⟨S10000x1, .f32⟩
  | 3 => ⟨S10000x128, .f32⟩
  | 4 => ⟨S10000x128, .f32⟩
  | 5 => ⟨S_, .f32⟩
  | 6 => ⟨S128, .f32⟩
  | 7 => ⟨S1x128, .f32⟩
  | _ => ⟨S10000x1, .i32⟩

abbrev hbmTy (i : Nat) : BufTy := match i / 128 with
  | 0 => hbmTy0_0 i
  | 1 => hbmTy0_1 i
  | 2 => hbmTy0_2 i
  | 3 => hbmTy0_3 i
  | _ => ⟨S10000x1, .i32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x1, .i32⟩
  | .local _ .vmem, ⟨5, _⟩ => ⟨S4000x1, .i32⟩
  | .local _ .vmem, ⟨6, _⟩ => ⟨S128x128, .bf16⟩
  | .local _ .vmem, ⟨7, _⟩ => ⟨S128x128, .bf16⟩
  | .local _ .vmem, ⟨8, _⟩ => ⟨S20x128, .bf16⟩
  | .local _ .vmem, ⟨9, _⟩ => ⟨S4000x128, .f32⟩
  | .local _ .vmem, ⟨10, _⟩ => ⟨S4000x128, .f32⟩
  | .local _ .vmem, ⟨11, _⟩ => ⟨S4000x128, .bf16⟩
  | .local _ .vmem, ⟨12, _⟩ => ⟨S4000x128, .bf16⟩
  | .local _ .vmem, ⟨13, _⟩ => ⟨S4000x128, .bf16⟩
  | .local _ .vmem, ⟨14, _⟩ => ⟨S4000x128, .bf16⟩
  | .local _ .vmem, ⟨15, _⟩ => ⟨S4000x1, .i32⟩
  | .local _ .vmem, ⟨16, _⟩ => ⟨S4000x1, .i32⟩
  | .local _ .vmem, ⟨17, _⟩ => ⟨S128x128, .bf16⟩
  | .local _ .vmem, ⟨18, _⟩ => ⟨S128x128, .bf16⟩
  | .local _ .vmem, ⟨19, _⟩ => ⟨S20x128, .bf16⟩
  | .local _ .vmem, ⟨20, _⟩ => ⟨S4000x128, .f32⟩
  | .local _ .vmem, ⟨21, _⟩ => ⟨S4000x128, .f32⟩
  | .local _ .vmem, ⟨22, _⟩ => ⟨S1000x128, .f32⟩
  | .local _ .vmem, ⟨23, _⟩ => ⟨S1000x128, .f32⟩
  | .local _ .vmem, ⟨24, _⟩ => ⟨S2000x128, .bf16⟩
  | .local _ .vmem, ⟨25, _⟩ => ⟨S2000x128, .bf16⟩
  | .local _ .vmem, ⟨26, _⟩ => ⟨S1000x128, .f32⟩
  | .local _ .vmem, ⟨27, _⟩ => ⟨S1000x128, .f32⟩
  | .local _ .vmem, ⟨28, _⟩ => ⟨S1000x1, .f32⟩
  | .local _ .vmem, ⟨29, _⟩ => ⟨S1000x1, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S2000x128, .bf16⟩
  | .local _ .vmem, ⟨34, _⟩ => ⟨S2000x128, .bf16⟩
  | .local _ .vmem, ⟨35, _⟩ => ⟨S1000x128, .f32⟩
  | .local _ .vmem, ⟨36, _⟩ => ⟨S1000x128, .f32⟩
  | .local _ .vmem, ⟨37, _⟩ => ⟨S1000x1, .f32⟩
  | .local _ .vmem, ⟨38, _⟩ => ⟨S1000x1, .f32⟩
  | .local _ .vmem, ⟨39, _⟩ => ⟨S1000x128, .f32⟩
  | .local _ .vmem, ⟨40, _⟩ => ⟨S4000x128, .bf16⟩
  | .local _ .vmem, ⟨41, _⟩ => ⟨S4000x128, .bf16⟩
  | .local _ .vmem, ⟨42, _⟩ => ⟨S4000x128, .bf16⟩
  | .local _ .vmem, ⟨43, _⟩ => ⟨S4000x128, .bf16⟩
  | .local _ .vmem, ⟨44, _⟩ => ⟨S4000x1, .i32⟩
  | .local _ .vmem, ⟨45, _⟩ => ⟨S4000x1, .i32⟩
  | .local _ .vmem, ⟨46, _⟩ => ⟨S128x128, .bf16⟩
  | .local _ .vmem, ⟨47, _⟩ => ⟨S128x128, .bf16⟩
  | .local _ .vmem, ⟨48, _⟩ => ⟨S20x128, .bf16⟩
  | .local _ .vmem, ⟨49, _⟩ => ⟨S4000x128, .f32⟩
  | .local _ .vmem, ⟨50, _⟩ => ⟨S4000x128, .f32⟩
  | .local _ .vmem, ⟨51, _⟩ => ⟨S4000x128, .bf16⟩
  | .local _ .vmem, ⟨52, _⟩ => ⟨S4000x128, .bf16⟩
  | .local _ .vmem, ⟨53, _⟩ => ⟨S4000x128, .bf16⟩
  | .local _ .vmem, ⟨54, _⟩ => ⟨S4000x128, .bf16⟩
  | .local _ .vmem, ⟨55, _⟩ => ⟨S4000x1, .i32⟩
  | .local _ .vmem, ⟨56, _⟩ => ⟨S4000x1, .i32⟩
  | .local _ .vmem, ⟨57, _⟩ => ⟨S128x128, .bf16⟩
  | .local _ .vmem, ⟨58, _⟩ => ⟨S128x128, .bf16⟩
  | .local _ .vmem, ⟨59, _⟩ => ⟨S20x128, .bf16⟩
  | .local _ .vmem, ⟨60, _⟩ => ⟨S4000x128, .f32⟩
  | .local _ .vmem, ⟨61, _⟩ => ⟨S4000x128, .f32⟩
  | .local _ .vmem, ⟨62, _⟩ => ⟨S1000x128, .f32⟩
  | .local _ .vmem, ⟨63, _⟩ => ⟨S1000x128, .f32⟩
  | .local _ .vmem, ⟨64, _⟩ => ⟨S2000x128, .bf16⟩
  | .local _ .vmem, ⟨65, _⟩ => ⟨S2000x128, .bf16⟩
  | .local _ .vmem, ⟨66, _⟩ => ⟨S1000x128, .f32⟩
  | .local _ .vmem, ⟨67, _⟩ => ⟨S1000x128, .f32⟩
  | .local _ .vmem, ⟨68, _⟩ => ⟨S1000x1, .f32⟩
  | .local _ .vmem, ⟨69, _⟩ => ⟨S1000x1, .f32⟩
  | .local _ .vmem, ⟨70, _⟩ => ⟨S1000x128, .f32⟩
  | .local _ .vmem, ⟨71, _⟩ => ⟨S1000x128, .f32⟩
  | .local _ .vmem, ⟨72, _⟩ => ⟨S1000x128, .f32⟩
  | .local _ .vmem, ⟨73, _⟩ => ⟨S2000x128, .bf16⟩
  | .local _ .vmem, ⟨74, _⟩ => ⟨S2000x128, .bf16⟩
  | .local _ .vmem, ⟨75, _⟩ => ⟨S1000x128, .f32⟩
  | .local _ .vmem, ⟨76, _⟩ => ⟨S1000x128, .f32⟩
  | .local _ .vmem, ⟨77, _⟩ => ⟨S1000x1, .f32⟩
  | .local _ .vmem, ⟨78, _⟩ => ⟨S1000x1, .f32⟩
  | .local _ .vmem, ⟨79, _⟩ => ⟨S1000x128, .f32⟩
  | _, _ => ⟨S10000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_3 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_5 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_7 : Ref sig .tc := ⟨.hbm, 79, rfl⟩
abbrev main_v54 : Ref sig .tc := ⟨.hbm, 80, rfl⟩
abbrev main_v55 : Ref sig .tc := ⟨.hbm, 81, rfl⟩
abbrev main_c_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_9 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_12 : Ref sig .tc := ⟨.hbm, 122, rfl⟩
abbrev main_v92 : Ref sig .tc := ⟨.hbm, 123, rfl⟩
abbrev main_v93 : Ref sig .tc := ⟨.hbm, 124, rfl⟩
abbrev main_cst_13 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_14 : Ref sig .tc := ⟨.hbm, 131, rfl⟩
abbrev main_v99 : Ref sig .tc := ⟨.hbm, 132, rfl⟩
abbrev main_v100 : Ref sig .tc := ⟨.hbm, 133, rfl⟩
abbrev main_cst_15 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_16 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_17 : Ref sig .tc := ⟨.hbm, 164, rfl⟩
abbrev main_v129 : Ref sig .tc := ⟨.hbm, 165, rfl⟩
abbrev main_v130 : Ref sig .tc := ⟨.hbm, 166, rfl⟩
abbrev main_cst_18 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_19 : Ref sig .tc := ⟨.hbm, 173, rfl⟩
abbrev main_v136 : Ref sig .tc := ⟨.hbm, 174, rfl⟩
abbrev main_v137 : Ref sig .tc := ⟨.hbm, 175, rfl⟩
abbrev main_cst_20 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_21 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_c_22 : Ref sig .tc := ⟨.hbm, 194, rfl⟩
abbrev main_v154 : Ref sig .tc := ⟨.hbm, 195, rfl⟩
abbrev main_v155 : Ref sig .tc := ⟨.hbm, 196, rfl⟩
abbrev main_c_23 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_c_24 : Ref sig .tc := ⟨.hbm, 203, rfl⟩
abbrev main_v161 : Ref sig .tc := ⟨.hbm, 204, rfl⟩
abbrev main_v162 : Ref sig .tc := ⟨.hbm, 205, rfl⟩
abbrev main_c_25 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_cst_26 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_c_27 : Ref sig .tc := ⟨.hbm, 221, rfl⟩
abbrev main_v176 : Ref sig .tc := ⟨.hbm, 222, rfl⟩
abbrev main_v177 : Ref sig .tc := ⟨.hbm, 223, rfl⟩
abbrev main_c_28 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_c_29 : Ref sig .tc := ⟨.hbm, 230, rfl⟩
abbrev main_v183 : Ref sig .tc := ⟨.hbm, 231, rfl⟩
abbrev main_v184 : Ref sig .tc := ⟨.hbm, 232, rfl⟩
abbrev main_c_30 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_31 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_cst_32 : Ref sig .tc := ⟨.hbm, 264, rfl⟩
abbrev main_v214 : Ref sig .tc := ⟨.hbm, 265, rfl⟩
abbrev main_v215 : Ref sig .tc := ⟨.hbm, 266, rfl⟩
abbrev main_cst_33 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_34 : Ref sig .tc := ⟨.hbm, 273, rfl⟩
abbrev main_v221 : Ref sig .tc := ⟨.hbm, 274, rfl⟩
abbrev main_v222 : Ref sig .tc := ⟨.hbm, 275, rfl⟩
abbrev main_cst_35 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_cst_36 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_cst_37 : Ref sig .tc := ⟨.hbm, 306, rfl⟩
abbrev main_v251 : Ref sig .tc := ⟨.hbm, 307, rfl⟩
abbrev main_v252 : Ref sig .tc := ⟨.hbm, 308, rfl⟩
abbrev main_cst_38 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_cst_39 : Ref sig .tc := ⟨.hbm, 315, rfl⟩
abbrev main_v258 : Ref sig .tc := ⟨.hbm, 316, rfl⟩
abbrev main_v259 : Ref sig .tc := ⟨.hbm, 317, rfl⟩
abbrev main_cst_40 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_cst_41 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_cst_42 : Ref sig .tc := ⟨.hbm, 336, rfl⟩
abbrev main_v276 : Ref sig .tc := ⟨.hbm, 337, rfl⟩
abbrev main_v277 : Ref sig .tc := ⟨.hbm, 338, rfl⟩
abbrev main_cst_43 : Ref sig .tc := ⟨.hbm, 339, rfl⟩
abbrev main_v278 : Ref sig .tc := ⟨.hbm, 340, rfl⟩
abbrev main_v279 : Ref sig .tc := ⟨.hbm, 341, rfl⟩
abbrev main_cst_44 : Ref sig .tc := ⟨.hbm, 342, rfl⟩
abbrev main_v280 : Ref sig .tc := ⟨.hbm, 343, rfl⟩
abbrev main_cst_45 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_cst_46 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_cst_47 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_cst_48 : Ref sig .tc := ⟨.hbm, 367, rfl⟩
abbrev main_v301 : Ref sig .tc := ⟨.hbm, 368, rfl⟩
abbrev main_v302 : Ref sig .tc := ⟨.hbm, 369, rfl⟩
abbrev main_cst_49 : Ref sig .tc := ⟨.hbm, 370, rfl⟩
abbrev main_v303 : Ref sig .tc := ⟨.hbm, 371, rfl⟩
abbrev main_v304 : Ref sig .tc := ⟨.hbm, 372, rfl⟩
abbrev main_cst_50 : Ref sig .tc := ⟨.hbm, 373, rfl⟩
abbrev main_v305 : Ref sig .tc := ⟨.hbm, 374, rfl⟩
abbrev main_cst_51 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_cst_52 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_cst_53 : Ref sig .tc := ⟨.hbm, 389, rfl⟩
abbrev main_v318 : Ref sig .tc := ⟨.hbm, 390, rfl⟩
abbrev main_v319 : Ref sig .tc := ⟨.hbm, 391, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_scratch0 : Ref sig .tc := ⟨.vmem, 28, rfl⟩
abbrev cc2_scratch1 : Ref sig .tc := ⟨.vmem, 29, rfl⟩
abbrev cc2_scratch2 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_scratch0 : Ref sig .tc := ⟨.vmem, 37, rfl⟩
abbrev cc3_scratch1 : Ref sig .tc := ⟨.vmem, 38, rfl⟩
abbrev cc3_scratch2 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg6_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg6_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg2_1 : Ref sig .tc := ⟨.vmem, 67, rfl⟩
abbrev cc6_scratch0 : Ref sig .tc := ⟨.vmem, 68, rfl⟩
abbrev cc6_scratch1 : Ref sig .tc := ⟨.vmem, 69, rfl⟩
abbrev cc6_scratch2 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg1_1 : Ref sig .tc := ⟨.vmem, 74, rfl⟩
abbrev cc7_stg2_0 : Ref sig .tc := ⟨.vmem, 75, rfl⟩
abbrev cc7_stg2_1 : Ref sig .tc := ⟨.vmem, 76, rfl⟩
abbrev cc7_scratch0 : Ref sig .tc := ⟨.vmem, 77, rfl⟩
abbrev cc7_scratch1 : Ref sig .tc := ⟨.vmem, 78, rfl⟩
abbrev cc7_scratch2 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem2_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S20x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![10, 5], ![false, false]⟩

def k2_cond2 (i : grid2.Coords) : BitVec 1 :=
  let arg1 : BitVec 32 := BitVec.ofNat 32 (i 1).val
  let c4_i32 : BitVec 32 := 4#32
  let v39 : BitVec 1 := Scalar.cmpi .eq arg1 c4_i32
  let v40 : BitVec 32 := Scalar.extui v39
  let c0_i32_21 : BitVec 32 := 0#32
  let v41 : BitVec 1 := Scalar.cmpi .ne v40 c0_i32_21
  v41

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![10, 5], ![false, false]⟩

def k3_cond2 (i : grid3.Coords) : BitVec 1 :=
  let arg1 : BitVec 32 := BitVec.ofNat 32 (i 1).val
  let c4_i32 : BitVec 32 := 4#32
  let v39 : BitVec 1 := Scalar.cmpi .eq arg1 c4_i32
  let v40 : BitVec 32 := Scalar.extui v39
  let c0_i32_21 : BitVec 32 := 0#32
  let v41 : BitVec 1 := Scalar.cmpi .ne v40 c0_i32_21
  v41

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S20x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S20x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨2, ![10, 5], ![false, false]⟩

def k6_cond2 (i : grid6.Coords) : BitVec 1 :=
  let arg1 : BitVec 32 := BitVec.ofNat 32 (i 1).val
  let c4_i32 : BitVec 32 := 4#32
  let v39 : BitVec 1 := Scalar.cmpi .eq arg1 c4_i32
  let v40 : BitVec 32 := Scalar.extui v39
  let c0_i32_21 : BitVec 32 := 0#32
  let v41 : BitVec 1 := Scalar.cmpi .ne v40 c0_i32_21
  v41

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S2000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![10, 5], ![false, false]⟩

def k7_cond2 (i : grid7.Coords) : BitVec 1 :=
  let arg1 : BitVec 32 := BitVec.ofNat 32 (i 1).val
  let c4_i32 : BitVec 32 := 4#32
  let v39 : BitVec 1 := Scalar.cmpi .eq arg1 c4_i32
  let v40 : BitVec 32 := Scalar.extui v39
  let c0_i32_21 : BitVec 32 := 0#32
  let v41 : BitVec 1 := Scalar.cmpi .ne v40 c0_i32_21
  v41

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2000x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

class Facts₀ : Prop where
  shapeCasts_S10000x1_S10000 : S10000x1.ShapeCasts S10000
  bcast_S_S10000 : S_.BroadcastsInDim S10000 (![] : Fin 0 → Fin S10000.rank)
  bcast_S10000_S10000x1_0 : S10000.BroadcastsInDim S10000x1 (![0] : Fin 1 → Fin S10000x1.rank)
  slices_S384x128_S128x128_0_0 : S384x128.Slices ![0, 0] S128x128
  bitsLt_bf16_f32 : FTy.bits .bf16 < FTy.bits .f32
  slices_S384x128_S128x128_128_0 : S384x128.Slices ![128, 0] S128x128
  slices_S384x128_S128x128_256_0 : S384x128.Slices ![256, 0] S128x128
  bcast_S128_S1x128_1 : S128.BroadcastsInDim S1x128 (![1] : Fin 1 → Fin S1x128.rank)
  bcast_S1x128_S20x128_0_1 : S1x128.BroadcastsInDim S20x128 (![0, 1] : Fin 2 → Fin S20x128.rank)
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  iota_S4000x20_d1_w32 : S4000x20.Iotas .tc 32 [1]
  broadcasts_S4000x1_S4000x20 : S4000x1.Broadcasts S4000x20
  natLt_1_32 : 1 < 32
  inb_S20x128_S20x128_0_0 : ∀ a, (![0, 0] : Fin 2 → Nat) a + S20x128.size a ≤ S20x128.size a
  h_S20x128 : 0 < S20x128.numel
  shapeCasts_S20x128_S20x128 : S20x128.ShapeCasts S20x128
  bcast_S_S10000x128 : S_.BroadcastsInDim S10000x128 (![] : Fin 0 → Fin S10000x128.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S1000x2000_S1000 : S1000x2000.Reduces [1] S1000
  shapeCasts_S1000_S1000x1 : S1000.ShapeCasts S1000x1
  broadcasts_S1000x1_S1000x2000 : S1000x1.Broadcasts S1000x2000
  broadcasts_S1000x1_S1000x128 : S1000x1.Broadcasts S1000x128
  concatenates_S10000x128_S10000x128_S10000x256_d1 : Shape.Concatenates [S10000x128, S10000x128] S10000x256 1
  bcast_S384_S1x384_1 : S384.BroadcastsInDim S1x384 (![1] : Fin 1 → Fin S1x384.rank)
  bcast_S1x384_S10000x384_0_1 : S1x384.BroadcastsInDim S10000x384 (![0, 1] : Fin 2 → Fin S10000x384.rank)
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  reducesTo_S10000x1_S1_d0 : S10000x1.ReducesTo [0] S1
  h_S_ : 0 < S_.numel
  bcast_S_S1 : S_.BroadcastsInDim S1 (![] : Fin 0 → Fin S1.rank)
  bcast_S10000x1_S10000x128_0_1 : S10000x1.BroadcastsInDim S10000x128 (![0, 1] : Fin 2 → Fin S10000x128.rank)
  reducesTo_S10000x128_S128_d0 : S10000x128.ReducesTo [0] S128
  gather_S32000x128_S10000x1_S10000x128_1_0_n_n_0_1_1128_wf : GatherDims.WF S32000x128 S10000x1 S10000x128 [1] [0] [] [0] [] 1 ![1, 128]
  dot_S20x128_S128x128_S20x128_1_0_0_1_n_n_wf : DotDims.WF S20x128 S128x128 S20x128 [1] [0] [0] [1] [] []
  gather_S10000x128_S160000x1_S160000x128_1_0_n_n_0_1_1128_wf : GatherDims.WF S10000x128 S160000x1 S160000x128 [1] [0] [] [0] [] 1 ![1, 128]
  dot_S4000x128_S128x128_S4000x128_1_0_0_1_n_n_wf : DotDims.WF S4000x128 S128x128 S4000x128 [1] [0] [0] [1] [] []
  dot_S4000x20_S20x128_S4000x128_1_0_0_1_n_n_wf : DotDims.WF S4000x20 S20x128 S4000x128 [1] [0] [0] [1] [] []
  scatter_S10000x128_S160000x1_S160000x128_1_0_0_1_wf : ScatterDims.WF S10000x128 S160000x1 S160000x128 [1] [0] [0] 1
  dot_S1000x128_S2000x128_S1000x2000_1_1_0_0_n_n_wf : DotDims.WF S1000x128 S2000x128 S1000x2000 [1] [1] [0] [0] [] []
  dot_S1000x2000_S2000x128_S1000x128_1_0_0_1_n_n_wf : DotDims.WF S1000x2000 S2000x128 S1000x128 [1] [0] [0] [1] [] []
  dot_S10000x256_S256x384_S10000x384_1_0_0_1_n_n_wf : DotDims.WF S10000x256 S256x384 S10000x384 [1] [0] [0] [1] [] []
  dot_S10000x128_S128x384_S10000x384_1_0_0_1_n_n_wf : DotDims.WF S10000x128 S128x384 S10000x384 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S160000x128.size a
  hwx0_0 : ∀ i : grid0.Coords, EltTy.bits .bf16 = 32 ∨ (Rect.block (s := S160000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S160000x128.size a
  hwx0_1 : ∀ i : grid0.Coords, EltTy.bits .bf16 = 32 ∨ (Rect.block (s := S160000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S160000x1.size a
  hwx0_2 : ∀ i : grid0.Coords, EltTy.bits .i32 = 32 ∨ (Rect.block (s := S160000x1) S4000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x128.size a ≤ S20x128.size a
  hwx0_5 : ∀ i : grid0.Coords, EltTy.bits .bf16 = 32 ∨ (Rect.block (s := S20x128) S20x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S160000x128.size a
  hwx0_6 : ∀ i : grid0.Coords, EltTy.bits .f32 = 32 ∨ (Rect.block (s := S160000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S160000x128.size a
  hwx1_0 : ∀ i : grid1.Coords, EltTy.bits .bf16 = 32 ∨ (Rect.block (s := S160000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S160000x128.size a
  hwx1_1 : ∀ i : grid1.Coords, EltTy.bits .bf16 = 32 ∨ (Rect.block (s := S160000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S160000x1.size a
  hwx1_2 : ∀ i : grid1.Coords, EltTy.bits .i32 = 32 ∨ (Rect.block (s := S160000x1) S4000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S20x128.size a ≤ S20x128.size a
  hwx1_5 : ∀ i : grid1.Coords, EltTy.bits .bf16 = 32 ∨ (Rect.block (s := S20x128) S20x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S160000x128.size a
  hwx1_6 : ∀ i : grid1.Coords, EltTy.bits .f32 = 32 ∨ (Rect.block (s := S160000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S10000x128.size a
  hwx2_1 : ∀ i : grid2.Coords, EltTy.bits .bf16 = 32 ∨ (Rect.block (s := S10000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S10000x128.size a
  hwx2_2 : ∀ i : grid2.Coords, EltTy.bits .f32 = 32 ∨ (Rect.block (s := S10000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S10000x128.size a
  hwx3_0 : ∀ i : grid3.Coords, EltTy.bits .f32 = 32 ∨ (Rect.block (s := S10000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S10000x128.size a
  hwx3_1 : ∀ i : grid3.Coords, EltTy.bits .bf16 = 32 ∨ (Rect.block (s := S10000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S10000x128.size a
  hwx3_2 : ∀ i : grid3.Coords, EltTy.bits .f32 = 32 ∨ (Rect.block (s := S10000x128) S1000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S160000x128.size a
  hwx4_0 : ∀ i : grid4.Coords, EltTy.bits .bf16 = 32 ∨ (Rect.block (s := S160000x128) S4000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S160000x128.size a
  hwx4_1 : ∀ i : grid4.Coords, EltTy.bits .bf16 = 32 ∨ (Rect.block (s := S160000x128) S4000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S160000x1.size a
  hwx4_2 : ∀ i : grid4.Coords, EltTy.bits .i32 = 32 ∨ (Rect.block (s := S160000x1) S4000x1.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S20x128.size a ≤ S20x128.size a
  hwx4_5 : ∀ i : grid4.Coords, EltTy.bits .bf16 = 32 ∨ (Rect.block (s := S20x128) S20x128.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S160000x128.size a
  hwx4_6 : ∀ i : grid4.Coords, EltTy.bits .f32 = 32 ∨ (Rect.block (s := S160000x128) S4000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S160000x128.size a
  hwx5_0 : ∀ i : grid5.Coords, EltTy.bits .bf16 = 32 ∨ (Rect.block (s := S160000x128) S4000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S160000x128.size a
  hwx5_1 : ∀ i : grid5.Coords, EltTy.bits .bf16 = 32 ∨ (Rect.block (s := S160000x128) S4000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S160000x1.size a
  hwx5_2 : ∀ i : grid5.Coords, EltTy.bits .i32 = 32 ∨ (Rect.block (s := S160000x1) S4000x1.size (cc5_transform_2 i) (hinb5_2 i)).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .bf16 = 32 ∨ (Rect.block (s := S128x128) S128x128.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S20x128.size a ≤ S20x128.size a
  hwx5_5 : ∀ i : grid5.Coords, EltTy.bits .bf16 = 32 ∨ (Rect.block (s := S20x128) S20x128.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S160000x128.size a
  hwx5_6 : ∀ i : grid5.Coords, EltTy.bits .f32 = 32 ∨ (Rect.block (s := S160000x128) S4000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S10000x128.size a
  hwx6_0 : ∀ i : grid6.Coords, EltTy.bits .f32 = 32 ∨ (Rect.block (s := S10000x128) S1000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S10000x128.size a
  hwx6_1 : ∀ i : grid6.Coords, EltTy.bits .bf16 = 32 ∨ (Rect.block (s := S10000x128) S2000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x128.size a ≤ S10000x128.size a
  hwx6_2 : ∀ i : grid6.Coords, EltTy.bits .f32 = 32 ∨ (Rect.block (s := S10000x128) S1000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S10000x128.size a
  hwx7_0 : ∀ i : grid7.Coords, EltTy.bits .f32 = 32 ∨ (Rect.block (s := S10000x128) S1000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S10000x128.size a
  hwx7_1 : ∀ i : grid7.Coords, EltTy.bits .bf16 = 32 ∨ (Rect.block (s := S10000x128) S2000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x128.size a ≤ S10000x128.size a
  hwx7_2 : ∀ i : grid7.Coords, EltTy.bits .f32 = 32 ∨ (Rect.block (s := S10000x128) S1000x128.size (cc7_transform_2 i) (hinb7_2 i)).WholeWords (EltTy.packing .f32)

variable [Facts₀]

def gather_S32000x128_S10000x1_S10000x128_1_0_n_n_0_1_1128 : GatherDims S32000x128 S10000x1 S10000x128 where
  offsetDims := [1]
  collapsedSliceDims := [0]
  operandBatchingDims := []
  startIndicesBatchingDims := []
  startIndexMap := [0]
  indexVectorDim := 1
  sliceSizes := ![1, 128]
  wf := gather_S32000x128_S10000x1_S10000x128_1_0_n_n_0_1_1128_wf
def dot_S20x128_S128x128_S20x128_1_0_0_1_n_n : DotDims S20x128 S128x128 S20x128 where
  lhsContracting := [1]
  rhsContracting := [0]
  lhsNonContracting := [0]
  rhsNonContracting := [1]
  lhsBatch := []
  rhsBatch := []
  wf := dot_S20x128_S128x128_S20x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x20_S20x128_S4000x128_1_0_0_1_n_n : DotDims S4000x20 S20x128 S4000x128 where
  lhsContracting := [1]
  rhsContracting := [0]
  lhsNonContracting := [0]
  rhsNonContracting := [1]
  lhsBatch := []
  rhsBatch := []
  wf := dot_S4000x20_S20x128_S4000x128_1_0_0_1_n_n_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S1000x128_S2000x128_S1000x2000_1_1_0_0_n_n : DotDims S1000x128 S2000x128 S1000x2000 where
  lhsContracting := [1]
  rhsContracting := [1]
  lhsNonContracting := [0]
  rhsNonContracting := [0]
  lhsBatch := []
  rhsBatch := []
  wf := dot_S1000x128_S2000x128_S1000x2000_1_1_0_0_n_n_wf
def dot_S1000x2000_S2000x128_S1000x128_1_0_0_1_n_n : DotDims S1000x2000 S2000x128 S1000x128 where
  lhsContracting := [1]
  rhsContracting := [0]
  lhsNonContracting := [0]
  rhsNonContracting := [1]
  lhsBatch := []
  rhsBatch := []
  wf := dot_S1000x2000_S2000x128_S1000x128_1_0_0_1_n_n_wf
def dot_S10000x256_S256x384_S10000x384_1_0_0_1_n_n : DotDims S10000x256 S256x384 S10000x384 where
  lhsContracting := [1]
  rhsContracting := [0]
  lhsNonContracting := [0]
  rhsNonContracting := [1]
  lhsBatch := []
  rhsBatch := []
  wf := dot_S10000x256_S256x384_S10000x384_1_0_0_1_n_n_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_v38) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S20x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v60) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S20x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v68) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v7) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v15) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v160) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v167) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v17) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v19) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v25) S20x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v168) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v182) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v189) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg5) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v17) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v19) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v25) S20x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v190) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v110) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v149) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v194) S1000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v147) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v148) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v195) S1000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

class Facts : Prop extends Facts₀ where

variable [Facts]
-- ==== ReferenceIdeal.lean ====
abbrev S10000x1 : Shape := ⟨2, ![10000, 1]⟩
abbrev S2x160000 : Shape := ⟨2, ![2, 160000]⟩
abbrev S160000x1 : Shape := ⟨2, ![160000, 1]⟩
abbrev S32000x128 : Shape := ⟨2, ![32000, 128]⟩
abbrev S20x128 : Shape := ⟨2, ![20, 128]⟩
abbrev S384x128 : Shape := ⟨2, ![384, 128]⟩
abbrev S128 : Shape := ⟨1, ![128]⟩
abbrev S256x384 : Shape := ⟨2, ![256, 384]⟩
abbrev S384 : Shape := ⟨1, ![384]⟩
abbrev S128x384 : Shape := ⟨2, ![128, 384]⟩
abbrev S128x1 : Shape := ⟨2, ![128, 1]⟩
abbrev S1 : Shape := ⟨1, ![1]⟩
abbrev S10000 : Shape := ⟨1, ![10000]⟩
abbrev S_ : Shape := ⟨0, ![]⟩
abbrev S10000x128 : Shape := ⟨2, ![10000, 128]⟩
abbrev S160000 : Shape := ⟨1, ![160000]⟩
abbrev S160000x128 : Shape := ⟨2, ![160000, 128]⟩
abbrev S1x160000 : Shape := ⟨2, ![1, 160000]⟩
abbrev S160000x384 : Shape := ⟨2, ![160000, 384]⟩
abbrev S1x128 : Shape := ⟨2, ![1, 128]⟩
abbrev S128x10000 : Shape := ⟨2, ![128, 10000]⟩
abbrev S10000x10000 : Shape := ⟨2, ![10000, 10000]⟩
abbrev S1x10000 : Shape := ⟨2, ![1, 10000]⟩
abbrev S10000x256 : Shape := ⟨2, ![10000, 256]⟩
abbrev S10000x384 : Shape := ⟨2, ![10000, 384]⟩
abbrev S1x384 : Shape := ⟨2, ![1, 384]⟩
abbrev S1x1 : Shape := ⟨2, ![1, 1]⟩

abbrev nBuf : Space → Nat
  | .hbm => 492
  | .vmem => 0
  | .smem => 0
  | _ => 0

abbrev hbmTy0_0 (i : Nat) : BufTy := match i % 128 with
  | 0 => ⟨S10000x1, .i32⟩
  | 1 => ⟨S10000x1, .i32⟩
  | 2 => ⟨S2x160000, .i32⟩
  | 3 => ⟨S2x160000, .i32⟩
  | 4 => ⟨S160000x1, .i32⟩
  | 5 => ⟨S160000x1, .i32⟩
  | 6 => ⟨S32000x128, .f32⟩
  | 7 => ⟨S20x128, .f32⟩
  | 8 => ⟨S384x128, .f32⟩
  | 9 => ⟨S128, .f32⟩
  | 10 => ⟨S256x384, .f32⟩
  | 11 => ⟨S384, .f32⟩
  | 12 => ⟨S128x384, .f32⟩
  | 13 => ⟨S384, .f32⟩
  | 14 => ⟨S128x1, .f32⟩
  | 15 => ⟨S1, .f32⟩
  | 16 => ⟨S10000, .i32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S10000x1, .i32⟩
  | 25 => ⟨S10000x128, .f32⟩
  | 26 => ⟨S10000, .i32⟩
  | 27 => ⟨S_, .i32⟩
  | 28 => ⟨S10000, .i32⟩
  | 29 => ⟨S10000, .i1⟩
  | 30 => ⟨S_, .i32⟩
  | 31 => ⟨S10000, .i32⟩
  | 32 => ⟨S10000, .i32⟩
  | 33 => ⟨S10000, .i32⟩
  | 34 => ⟨S10000x1, .i32⟩
  | 35 => ⟨S10000x128, .f32⟩
  | 36 => ⟨S160000, .i32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x128, .f32⟩
  | 46 => ⟨S160000, .i32⟩
  | 47 => ⟨S_, .i32⟩
  | 48 => ⟨S160000, .i32⟩
  | 49 => ⟨S160000, .i1⟩
  | 50 => ⟨S_, .i32⟩
  | 51 => ⟨S160000, .i32⟩
  | 52 => ⟨S160000, .i32⟩
  | 53 => ⟨S160000, .i32⟩
  | 54 => ⟨S160000x1, .i32⟩
  | 55 => ⟨S160000x128, .f32⟩
  | 56 => ⟨S1x160000, .i32⟩
  | 57 => ⟨S160000, .i32⟩
  | 58 => ⟨S1x160000, .i32⟩
  | 59 => ⟨S160000, .i32⟩
  | 60 => ⟨S_, .i32⟩
  | 61 => ⟨S160000, .i32⟩
  | 62 => ⟨S160000, .i1⟩
  | 63 => ⟨S_, .i32⟩
  | 64 => ⟨S160000, .i32⟩
  | 65 => ⟨S160000, .i32⟩
  | 66 => ⟨S160000, .i32⟩
  | 67 => ⟨S160000x1, .i32⟩
  | 68 => ⟨S160000x128, .f32⟩
  | 69 => ⟨S_, .i32⟩
  | 70 => ⟨S160000, .i32⟩
  | 71 => ⟨S160000, .i1⟩
  | 72 => ⟨S_, .i32⟩
  | 73 => ⟨S160000, .i32⟩
  | 74 => ⟨S160000, .i32⟩
  | 75 => ⟨S160000, .i32⟩
  | 76 => ⟨S160000x1, .i32⟩
  | 77 => ⟨S160000x128, .f32⟩
  | 78 => ⟨S160000x384, .f32⟩
  | 79 => ⟨S160000x128, .f32⟩
  | 80 => ⟨S1x128, .f32⟩
  | 81 => ⟨S160000x128, .f32⟩
  | 82 => ⟨S160000x128, .f32⟩
  | 83 => ⟨S_, .f32⟩
  | 84 => ⟨S160000x128, .f32⟩
  | 85 => ⟨S160000x128, .f32⟩
  | 86 => ⟨S_, .f32⟩
  | 87 => ⟨S10000x128, .f32⟩
  | 88 => ⟨S160000x1, .i32⟩
  | 89 => ⟨S10000x128, .f32⟩
  | 90 => ⟨S1x160000, .i32⟩
  | 91 => ⟨S160000, .i32⟩
  | 92 => ⟨S1x160000, .i32⟩
  | 93 => ⟨S160000, .i32⟩
  | 94 => ⟨S_, .i32⟩
  | 95 => ⟨S160000, .i32⟩
  | 96 => ⟨S160000, .i1⟩
  | 97 => ⟨S_, .i32⟩
  | 98 => ⟨S160000, .i32⟩
  | 99 => ⟨S160000, .i32⟩
  | 100 => ⟨S160000, .i32⟩
  | 101 => ⟨S160000x1, .i32⟩
  | 102 => ⟨S160000x128, .f32⟩
  | 103 => ⟨S_, .i32⟩
  | 104 => ⟨S160000, .i32⟩
  | 105 => ⟨S160000, .i1⟩
  | 106 => ⟨S_, .i32⟩
  | 107 => ⟨S160000, .i32⟩
  | 108 => ⟨S160000, .i32⟩
  | 109 => ⟨S160000, .i32⟩
  | 110 => ⟨S160000x1, .i32⟩
  | 111 => ⟨S160000x128, .f32⟩
  | 112 => ⟨S160000x384, .f32⟩
  | 113 => ⟨S160000x128, .f32⟩
  | 114 => ⟨S1x128, .f32⟩
  | 115 => ⟨S160000x128, .f32⟩
  | 116 => ⟨S160000x128, .f32⟩
  | 117 => ⟨S_, .f32⟩
  | 118 => ⟨S160000x128, .f32⟩
  | 119 => ⟨S160000x128, .f32⟩
  | 120 => ⟨S_, .f32⟩
  | 121 => ⟨S10000x128, .f32⟩
  | 122 => ⟨S160000x1, .i32⟩
  | 123 => ⟨S10000x128, .f32⟩
  | 124 => ⟨S128x10000, .f32⟩
  | 125 => ⟨S10000x10000, .f32⟩
  | 126 => ⟨S_, .f32⟩
  | 127 => ⟨S10000, .f32⟩
  | _ => ⟨S10000x1, .i32⟩

abbrev hbmTy0_1 (i : Nat) : BufTy := match i % 128 with
  | 0 => ⟨S_, .f32⟩
  | 1 => ⟨S10000, .f32⟩
  | 2 => ⟨S10000, .f32⟩
  | 3 => ⟨S10000x1, .f32⟩
  | 4 => ⟨S10000x10000, .f32⟩
  | 5 => ⟨S10000x10000, .f32⟩
  | 6 => ⟨S10000x10000, .f32⟩
  | 7 => ⟨S_, .f32⟩
  | 8 => ⟨S10000, .f32⟩
  | 9 => ⟨S10000x1, .f32⟩
  | 10 => ⟨S10000x10000, .f32⟩
  | 11 => ⟨S10000x10000, .f32⟩
  | 12 => ⟨S_, .f32⟩
  | 13 => ⟨S10000, .f32⟩
  | 14 => ⟨S_, .f32⟩
  | 15 => ⟨S10000, .f32⟩
  | 16 => ⟨S10000, .f32⟩
  | 17 => ⟨S1x10000, .f32⟩
  | 18 => ⟨S10000x10000, .f32⟩
  | 19 => ⟨S10000x10000, .f32⟩
  | 20 => ⟨S10000x10000, .f32⟩
  | 21 => ⟨S_, .f32⟩
  | 22 => ⟨S10000, .f32⟩
  | 23 => ⟨S1x10000, .f32⟩
  | 24 => ⟨S10000x10000, .f32⟩
  | 25 => ⟨S10000x10000, .f32⟩
  | 26 => ⟨S10000x10000, .f32⟩
  | 27 => ⟨S10000x128, .f32⟩
  | 28 => ⟨S10000x128, .f32⟩
  | 29 => ⟨S10000x128, .f32⟩
  | 30 => ⟨S10000x128, .f32⟩
  | 31 => ⟨S10000x256, .f32⟩
  | 32 => ⟨S10000x384, .f32⟩
  | 33 => ⟨S1x384, .f32⟩
  | 34 => ⟨S10000x384, .f32⟩
  | 35 => ⟨S10000x384, .f32⟩
  | 36 => ⟨S10000x384, .f32⟩
  | 37 => ⟨S1x384, .f32⟩
  | 38 => ⟨S10000x384, .f32⟩
  | 39 => ⟨S10000x384, .f32⟩
  | 40 => ⟨S10000x128, .f32⟩
  | 41 => ⟨S10000x128, .f32⟩
  | 42 => ⟨S10000x128, .f32⟩
  | 43 => ⟨S10000x128, .f32⟩
  | 44 => ⟨S10000x128, .f32⟩
  | 45 => ⟨S10000x128, .f32⟩
  | 46 => ⟨S10000x128, .f32⟩
  | 47 => ⟨S10000x128, .f32⟩
  | 48 => ⟨S10000x128, .f32⟩
  | 49 => ⟨S_, .f32⟩
  | 50 => ⟨S10000x128, .f32⟩
  | 51 => ⟨S10000x128, .f32⟩
  | 52 => ⟨S_, .f32⟩
  | 53 => ⟨S10000x128, .f32⟩
  | 54 => ⟨S10000x128, .f32⟩
  | 55 => ⟨S10000x128, .f32⟩
  | 56 => ⟨S10000x128, .f32⟩
  | 57 => ⟨S10000x128, .f32⟩
  | 58 => ⟨S_, .f32⟩
  | 59 => ⟨S10000x128, .f32⟩
  | 60 => ⟨S10000x128, .f32⟩
  | 61 => ⟨S_, .f32⟩
  | 62 => ⟨S10000x128, .f32⟩
  | 63 => ⟨S10000x128, .f32⟩
  | 64 => ⟨S10000x128, .f32⟩
  | 65 => ⟨S10000x128, .f32⟩
  | 66 => ⟨S10000x128, .f32⟩
  | 67 => ⟨S_, .f32⟩
  | 68 => ⟨S10000x128, .f32⟩
  | 69 => ⟨S10000x128, .f32⟩
  | 70 => ⟨S10000x128, .f32⟩
  | 71 => ⟨S10000x128, .f32⟩
  | 72 => ⟨S10000x128, .f32⟩
  | 73 => ⟨S10000x256, .f32⟩
  | 74 => ⟨S10000x384, .f32⟩
  | 75 => ⟨S1x384, .f32⟩
  | 76 => ⟨S10000x384, .f32⟩
  | 77 => ⟨S10000x384, .f32⟩
  | 78 => ⟨S10000x384, .f32⟩
  | 79 => ⟨S1x384, .f32⟩
  | 80 => ⟨S10000x384, .f32⟩
  | 81 => ⟨S10000x384, .f32⟩
  | 82 => ⟨S10000x128, .f32⟩
  | 83 => ⟨S10000x128, .f32⟩
  | 84 => ⟨S10000x128, .f32⟩
  | 85 => ⟨S10000x128, .f32⟩
  | 86 => ⟨S10000x128, .f32⟩
  | 87 => ⟨S10000x128, .f32⟩
  | 88 => ⟨S10000x128, .f32⟩
  | 89 => ⟨S10000x128, .f32⟩
  | 90 => ⟨S10000x128, .f32⟩
  | 91 => ⟨S_, .f32⟩
  | 92 => ⟨S10000x128, .f32⟩
  | 93 => ⟨S10000x128, .f32⟩
  | 94 => ⟨S_, .f32⟩
  | 95 => ⟨S10000x128, .f32⟩
  | 96 => ⟨S10000x128, .f32⟩
  | 97 => ⟨S10000x128, .f32⟩
  | 98 => ⟨S10000x128, .f32⟩
  | 99 => ⟨S10000x128, .f32⟩
  | 100 => ⟨S_, .f32⟩
  | 101 => ⟨S10000x128, .f32⟩
  | 102 => ⟨S10000x128, .f32⟩
  | 103 => ⟨S_, .f32⟩
  | 104 => ⟨S10000x128, .f32⟩
  | 105 => ⟨S10000x128, .f32⟩
  | 106 => ⟨S10000x128, .f32⟩
  | 107 => ⟨S10000x128, .f32⟩
  | 108 => ⟨S10000x128, .f32⟩
  | 109 => ⟨S_, .f32⟩
  | 110 => ⟨S10000x128, .f32⟩
  | 111 => ⟨S10000x128, .f32⟩
  | 112 => ⟨S10000x128, .f32⟩
  | 113 => ⟨S10000x128, .f32⟩
  | 114 => ⟨S10000x128, .f32⟩
  | 115 => ⟨S1x160000, .i32⟩
  | 116 => ⟨S160000, .i32⟩
  | 117 => ⟨S1x160000, .i32⟩
  | 118 => ⟨S160000, .i32⟩
  | 119 => ⟨S_, .i32⟩
  | 120 => ⟨S160000, .i32⟩
  | 121 => ⟨S160000, .i1⟩
  | 122 => ⟨S_, .i32⟩
  | 123 => ⟨S160000, .i32⟩
  | 124 => ⟨S160000, .i32⟩
  | 125 => ⟨S160000, .i32⟩
  | 126 => ⟨S160000x1, .i32⟩
  | 127 => ⟨S160000x128, .f32⟩
  | _ => ⟨S10000x1, .i32⟩

abbrev hbmTy0_2 (i : Nat) : BufTy := match i % 128 with
  | 0 => ⟨S_, .i32⟩
  | 1 => ⟨S160000, .i32⟩
  | 2 => ⟨S160000, .i1⟩
  | 3 => ⟨S_, .i32⟩
  | 4 => ⟨S160000, .i32⟩
  | 5 => ⟨S160000, .i32⟩
  | 6 => ⟨S160000, .i32⟩
  | 7 => ⟨S160000x1, .i32⟩
  | 8 => ⟨S160000x128, .f32⟩
  | 9 => ⟨S160000x384, .f32⟩
  | 10 => ⟨S160000x128, .f32⟩
  | 11 => ⟨S1x128, .f32⟩
  | 12 => ⟨S160000x128, .f32⟩
  | 13 => ⟨S160000x128, .f32⟩
  | 14 => ⟨S_, .f32⟩
  | 15 => ⟨S160000x128, .f32⟩
  | 16 => ⟨S160000x128, .f32⟩
  | 17 => ⟨S_, .f32⟩
  | 18 => ⟨S10000x128, .f32⟩
  | 19 => ⟨S160000x1, .i32⟩
  | 20 => ⟨S10000x128, .f32⟩
  | 21 => ⟨S1x160000, .i32⟩
  | 22 => ⟨S160000, .i32⟩
  | 23 => ⟨S1x160000, .i32⟩
  | 24 => ⟨S160000, .i32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x128, .f32⟩
  | 34 => ⟨S_, .i32⟩
  | 35 => ⟨S160000, .i32⟩
  | 36 => ⟨S160000, .i1⟩
  | 37 => ⟨S_, .i32⟩
  | 38 => ⟨S160000, .i32⟩
  | 39 => ⟨S160000, .i32⟩
  | 40 => ⟨S160000, .i32⟩
  | 41 => ⟨S160000x1, .i32⟩
  | 42 => ⟨S160000x128, .f32⟩
  | 43 => ⟨S160000x384, .f32⟩
  | 44 => ⟨S160000x128, .f32⟩
  | 45 => ⟨S1x128, .f32⟩
  | 46 => ⟨S160000x128, .f32⟩
  | 47 => ⟨S160000x128, .f32⟩
  | 48 => ⟨S_, .f32⟩
  | 49 => ⟨S160000x128, .f32⟩
  | 50 => ⟨S160000x128, .f32⟩
  | 51 => ⟨S_, .f32⟩
  | 52 => ⟨S10000x128, .f32⟩
  | 53 => ⟨S160000x1, .i32⟩
  | 54 => ⟨S10000x128, .f32⟩
  | 55 => ⟨S128x10000, .f32⟩
  | 56 => ⟨S10000x10000, .f32⟩
  | 57 => ⟨S_, .f32⟩
  | 58 => ⟨S10000, .f32⟩
  | 59 => ⟨S_, .f32⟩
  | 60 => ⟨S10000, .f32⟩
  | 61 => ⟨S10000, .f32⟩
  | 62 => ⟨S10000x1, .f32⟩
  | 63 => ⟨S10000x10000, .f32⟩
  | 64 => ⟨S10000x10000, .f32⟩
  | 65 => ⟨S10000x10000, .f32⟩
  | 66 => ⟨S_, .f32⟩
  | 67 => ⟨S10000, .f32⟩
  | 68 => ⟨S10000x1, .f32⟩
  | 69 => ⟨S10000x10000, .f32⟩
  | 70 => ⟨S10000x10000, .f32⟩
  | 71 => ⟨S_, .f32⟩
  | 72 => ⟨S10000, .f32⟩
  | 73 => ⟨S_, .f32⟩
  | 74 => ⟨S10000, .f32⟩
  | 75 => ⟨S10000, .f32⟩
  | 76 => ⟨S1x10000, .f32⟩
  | 77 => ⟨S10000x10000, .f32⟩
  | 78 => ⟨S10000x10000, .f32⟩
  | 79 => ⟨S10000x10000, .f32⟩
  | 80 => ⟨S_, .f32⟩
  | 81 => ⟨S10000, .f32⟩
  | 82 => ⟨S1x10000, .f32⟩
  | 83 => ⟨S10000x10000, .f32⟩
  | 84 => ⟨S10000x10000, .f32⟩
  | 85 => ⟨S10000x10000, .f32⟩
  | 86 => ⟨S10000x128, .f32⟩
  | 87 => ⟨S10000x128, .f32⟩
  | 88 => ⟨S10000x128, .f32⟩
  | 89 => ⟨S10000x128, .f32⟩
  | 90 => ⟨S10000x256, .f32⟩
  | 91 => ⟨S10000x384, .f32⟩
  | 92 => ⟨S1x384, .f32⟩
  | 93 => ⟨S10000x384, .f32⟩
  | 94 => ⟨S10000x384, .f32⟩
  | 95 => ⟨S10000x384, .f32⟩
  | 96 => ⟨S1x384, .f32⟩
  | 97 => ⟨S10000x384, .f32⟩
  | 98 => ⟨S10000x384, .f32⟩
  | 99 => ⟨S10000x128, .f32⟩
  | 100 => ⟨S10000x128, .f32⟩
  | 101 => ⟨S10000x128, .f32⟩
  | 102 => ⟨S10000x128, .f32⟩
  | 103 => ⟨S10000x128, .f32⟩
  | 104 => ⟨S10000x128, .f32⟩
  | 105 => ⟨S10000x128, .f32⟩
  | 106 => ⟨S10000x128, .f32⟩
  | 107 => ⟨S10000x128, .f32⟩
  | 108 => ⟨S_, .f32⟩
  | 109 => ⟨S10000x128, .f32⟩
  | 110 => ⟨S10000x128, .f32⟩
  | 111 => ⟨S_, .f32⟩
  | 112 => ⟨S10000x128, .f32⟩
  | 113 => ⟨S10000x128, .f32⟩
  | 114 => ⟨S10000x128, .f32⟩
  | 115 => ⟨S10000x128, .f32⟩
  | 116 => ⟨S10000x128, .f32⟩
  | 117 => ⟨S_, .f32⟩
  | 118 => ⟨S10000x128, .f32⟩
  | 119 => ⟨S10000x128, .f32⟩
  | 120 => ⟨S_, .f32⟩
  | 121 => ⟨S10000x128, .f32⟩
  | 122 => ⟨S10000x128, .f32⟩
  | 123 => ⟨S10000x128, .f32⟩
  | 124 => ⟨S10000x128, .f32⟩
  | 125 => ⟨S10000x128, .f32⟩
  | 126 => ⟨S_, .f32⟩
  | 127 => ⟨S10000x128, .f32⟩
  | _ => ⟨S10000x1, .i32⟩

abbrev hbmTy0_3 (i : Nat) : BufTy := match i % 128 with
  | 0 => ⟨S10000x128, .f32⟩
  | 1 => ⟨S10000x128, .f32⟩
  | 2 => ⟨S10000x128, .f32⟩
  | 3 => ⟨S10000x128, .f32⟩
  | 4 => ⟨S10000x256, .f32⟩
  | 5 => ⟨S10000x384, .f32⟩
  | 6 => ⟨S1x384, .f32⟩
  | 7 => ⟨S10000x384, .f32⟩
  | 8 => ⟨S10000x384, .f32⟩
  | 9 => ⟨S10000x384, .f32⟩
  | 10 => ⟨S1x384, .f32⟩
  | 11 => ⟨S10000x384, .f32⟩
  | 12 => ⟨S10000x384, .f32⟩
  | 13 => ⟨S10000x128, .f32⟩
  | 14 => ⟨S10000x128, .f32⟩
  | 15 => ⟨S10000x128, .f32⟩
  | 16 => ⟨S10000x128, .f32⟩
  | 17 => ⟨S10000x128, .f32⟩
  | 18 => ⟨S10000x128, .f32⟩
  | 19 => ⟨S10000x128, .f32⟩
  | 20 => ⟨S10000x128, .f32⟩
  | 21 => ⟨S10000x128, .f32⟩
  | 22 => ⟨S_, .f32⟩
  | 23 => ⟨S10000x128, .f32⟩
  | 24 => ⟨S10000x128, .f32⟩
  | 25 => ⟨S_, .f32⟩
  | 26 => ⟨S10000x128, .f32⟩
  | 27 => ⟨S10000x128, .f32⟩
  | 28 => ⟨S10000x128, .f32⟩
  | 29 => ⟨S10000x128, .f32⟩
  | 30 => ⟨S10000x128, .f32⟩
  | 31 => ⟨S_, .f32⟩
  | 32 => ⟨S10000x128, .f32⟩
  | 33 => ⟨S10000x128, .f32⟩
  | 34 => ⟨S_, .f32⟩
  | 35 => ⟨S10000x128, .f32⟩
  | 36 => ⟨S10000x128, .f32⟩
  | 37 => ⟨S10000x128, .f32⟩
  | 38 => ⟨S10000x128, .f32⟩
  | 39 => ⟨S10000x128, .f32⟩
  | 40 => ⟨S_, .f32⟩
  | 41 => ⟨S10000x128, .f32⟩
  | 42 => ⟨S10000x128, .f32⟩
  | 43 => ⟨S10000x128, .f32⟩
  | 44 => ⟨S10000x128, .f32⟩
  | 45 => ⟨S10000x128, .f32⟩
  | 46 => ⟨S10000x1, .f32⟩
  | 47 => ⟨S1x1, .f32⟩
  | 48 => ⟨S10000x1, .f32⟩
  | 49 => ⟨S10000x1, .f32⟩
  | 50 => ⟨S10000x1, .f32⟩
  | 51 => ⟨S10000x1, .f32⟩
  | 52 => ⟨S_, .f32⟩
  | 53 => ⟨S10000x1, .f32⟩
  | 54 => ⟨S10000x1, .f32⟩
  | 55 => ⟨S_, .f32⟩
  | 56 => ⟨S10000x1, .f32⟩
  | 57 => ⟨S10000x1, .f32⟩
  | 58 => ⟨S_, .f32⟩
  | 59 => ⟨S1, .f32⟩
  | 60 => ⟨S_, .f32⟩
  | 61 => ⟨S1, .f32⟩
  | 62 => ⟨S1, .f32⟩
  | 63 => ⟨S1x1, .f32⟩
  | 64 => ⟨S10000x1, .f32⟩
  | 65 => ⟨S10000x1, .f32⟩
  | 66 => ⟨S10000x1, .f32⟩
  | 67 => ⟨S_, .f32⟩
  | 68 => ⟨S1, .f32⟩
  | 69 => ⟨S1x1, .f32⟩
  | 70 => ⟨S10000x1, .f32⟩
  | 71 => ⟨S10000x1, .f32⟩
  | 72 => ⟨S10000x128, .f32⟩
  | 73 => ⟨S10000x128, .f32⟩
  | 74 => ⟨S_, .f32⟩
  | 75 => ⟨S128, .f32⟩
  | 76 => ⟨S1x128, .f32⟩
  | 77 => ⟨S10000x1, .f32⟩
  | 78 => ⟨S1x1, .f32⟩
  | 79 => ⟨S10000x1, .f32⟩
  | 80 => ⟨S10000x1, .f32⟩
  | 81 => ⟨S10000x1, .f32⟩
  | 82 => ⟨S10000x1, .f32⟩
  | 83 => ⟨S_, .f32⟩
  | 84 => ⟨S10000x1, .f32⟩
  | 85 => ⟨S10000x1, .f32⟩
  | 86 => ⟨S_, .f32⟩
  | 87 => ⟨S10000x1, .f32⟩
  | 88 => ⟨S10000x1, .f32⟩
  | 89 => ⟨S_, .f32⟩
  | 90 => ⟨S1, .f32⟩
  | 91 => ⟨S_, .f32⟩
  | 92 => ⟨S1, .f32⟩
  | 93 => ⟨S1, .f32⟩
  | 94 => ⟨S1x1, .f32⟩
  | 95 => ⟨S10000x1, .f32⟩
  | 96 => ⟨S10000x1, .f32⟩
  | 97 => ⟨S10000x1, .f32⟩
  | 98 => ⟨S_, .f32⟩
  | 99 => ⟨S1, .f32⟩
  | 100 => ⟨S1x1, .f32⟩
  | 101 => ⟨S10000x1, .f32⟩
  | 102 => ⟨S10000x1, .f32⟩
  | 103 => ⟨S10000x128, .f32⟩
  | 104 => ⟨S10000x128, .f32⟩
  | 105 => ⟨S_, .f32⟩
  | 106 => ⟨S128, .f32⟩
  | 107 => ⟨S1x128, .f32⟩
  | _ => ⟨S10000x1, .i32⟩

abbrev hbmTy (i : Nat) : BufTy := match i / 128 with
  | 0 => hbmTy0_0 i
  | 1 => hbmTy0_1 i
  | 2 => hbmTy0_2 i
  | 3 => hbmTy0_3 i
  | _ => ⟨S10000x1, .i32⟩

abbrev bufTy : (tb : Table) → Fin (tcTables nBuf tb) → BufTy
  | .hbm, ⟨i, _⟩ => hbmTy i
  | _, _ => ⟨S10000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call0_cst : Ref sig .tc := ⟨.hbm, 83, rfl⟩
abbrev main_call0_v0 : Ref sig .tc := ⟨.hbm, 84, rfl⟩
abbrev main_v55 : Ref sig .tc := ⟨.hbm, 85, rfl⟩
abbrev main_cst : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_13 : Ref sig .tc := ⟨.hbm, 103, rfl⟩
abbrev main_v70 : Ref sig .tc := ⟨.hbm, 104, rfl⟩
abbrev main_v71 : Ref sig .tc := ⟨.hbm, 105, rfl⟩
abbrev main_c_14 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call1_cst : Ref sig .tc := ⟨.hbm, 117, rfl⟩
abbrev main_call1_v0 : Ref sig .tc := ⟨.hbm, 118, rfl⟩
abbrev main_v82 : Ref sig .tc := ⟨.hbm, 119, rfl⟩
abbrev main_cst_15 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_16 : Ref sig .tc := ⟨.hbm, 126, rfl⟩
abbrev main_v88 : Ref sig .tc := ⟨.hbm, 127, rfl⟩
abbrev main_cst_17 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_19 : Ref sig .tc := ⟨.hbm, 140, rfl⟩
abbrev main_v99 : Ref sig .tc := ⟨.hbm, 141, rfl⟩
abbrev main_cst_20 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_21 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_22 : Ref sig .tc := ⟨.hbm, 177, rfl⟩
abbrev main_v133 : Ref sig .tc := ⟨.hbm, 178, rfl⟩
abbrev main_v134 : Ref sig .tc := ⟨.hbm, 179, rfl⟩
abbrev main_cst_23 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_24 : Ref sig .tc := ⟨.hbm, 186, rfl⟩
abbrev main_v140 : Ref sig .tc := ⟨.hbm, 187, rfl⟩
abbrev main_v141 : Ref sig .tc := ⟨.hbm, 188, rfl⟩
abbrev main_cst_25 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_26 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_27 : Ref sig .tc := ⟨.hbm, 219, rfl⟩
abbrev main_v170 : Ref sig .tc := ⟨.hbm, 220, rfl⟩
abbrev main_v171 : Ref sig .tc := ⟨.hbm, 221, rfl⟩
abbrev main_cst_28 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_29 : Ref sig .tc := ⟨.hbm, 228, rfl⟩
abbrev main_v177 : Ref sig .tc := ⟨.hbm, 229, rfl⟩
abbrev main_v178 : Ref sig .tc := ⟨.hbm, 230, rfl⟩
abbrev main_cst_30 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_31 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_c_32 : Ref sig .tc := ⟨.hbm, 247, rfl⟩
abbrev main_v193 : Ref sig .tc := ⟨.hbm, 248, rfl⟩
abbrev main_v194 : Ref sig .tc := ⟨.hbm, 249, rfl⟩
abbrev main_c_33 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_c_34 : Ref sig .tc := ⟨.hbm, 256, rfl⟩
abbrev main_v200 : Ref sig .tc := ⟨.hbm, 257, rfl⟩
abbrev main_v201 : Ref sig .tc := ⟨.hbm, 258, rfl⟩
abbrev main_c_35 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_call2_cst : Ref sig .tc := ⟨.hbm, 270, rfl⟩
abbrev main_call2_v0 : Ref sig .tc := ⟨.hbm, 271, rfl⟩
abbrev main_v212 : Ref sig .tc := ⟨.hbm, 272, rfl⟩
abbrev main_cst_36 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_c_37 : Ref sig .tc := ⟨.hbm, 281, rfl⟩
abbrev main_v220 : Ref sig .tc := ⟨.hbm, 282, rfl⟩
abbrev main_v221 : Ref sig .tc := ⟨.hbm, 283, rfl⟩
abbrev main_c_38 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_c_39 : Ref sig .tc := ⟨.hbm, 290, rfl⟩
abbrev main_v227 : Ref sig .tc := ⟨.hbm, 291, rfl⟩
abbrev main_v228 : Ref sig .tc := ⟨.hbm, 292, rfl⟩
abbrev main_c_40 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_call3_cst : Ref sig .tc := ⟨.hbm, 304, rfl⟩
abbrev main_call3_v0 : Ref sig .tc := ⟨.hbm, 305, rfl⟩
abbrev main_v239 : Ref sig .tc := ⟨.hbm, 306, rfl⟩
abbrev main_cst_41 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_cst_42 : Ref sig .tc := ⟨.hbm, 313, rfl⟩
abbrev main_v245 : Ref sig .tc := ⟨.hbm, 314, rfl⟩
abbrev main_cst_43 : Ref sig .tc := ⟨.hbm, 315, rfl⟩
abbrev main_v246 : Ref sig .tc := ⟨.hbm, 316, rfl⟩
abbrev main_v247 : Ref sig .tc := ⟨.hbm, 317, rfl⟩
abbrev main_v248 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_cst_44 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_cst_45 : Ref sig .tc := ⟨.hbm, 327, rfl⟩
abbrev main_v256 : Ref sig .tc := ⟨.hbm, 328, rfl⟩
abbrev main_cst_46 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_cst_47 : Ref sig .tc := ⟨.hbm, 336, rfl⟩
abbrev main_v263 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_v274 : Ref sig .tc := ⟨.hbm, 348, rfl⟩
abbrev main_v275 : Ref sig .tc := ⟨.hbm, 349, rfl⟩
abbrev main_v276 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_cst_48 : Ref sig .tc := ⟨.hbm, 364, rfl⟩
abbrev main_v290 : Ref sig .tc := ⟨.hbm, 365, rfl⟩
abbrev main_v291 : Ref sig .tc := ⟨.hbm, 366, rfl⟩
abbrev main_cst_49 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_cst_50 : Ref sig .tc := ⟨.hbm, 373, rfl⟩
abbrev main_v297 : Ref sig .tc := ⟨.hbm, 374, rfl⟩
abbrev main_v298 : Ref sig .tc := ⟨.hbm, 375, rfl⟩
abbrev main_cst_51 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_cst_52 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_v308 : Ref sig .tc := ⟨.hbm, 387, rfl⟩
abbrev main_v309 : Ref sig .tc := ⟨.hbm, 388, rfl⟩
abbrev main_v310 : Ref sig .tc := ⟨.hbm, 389, rfl⟩
abbrev main_v311 : Ref sig .tc := ⟨.hbm, 390, rfl⟩
abbrev main_v312 : Ref sig .tc := ⟨.hbm, 391, rfl⟩
abbrev main_v313 : Ref sig .tc := ⟨.hbm, 392, rfl⟩
abbrev main_v314 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_v318 : Ref sig .tc := ⟨.hbm, 397, rfl⟩
abbrev main_v319 : Ref sig .tc := ⟨.hbm, 398, rfl⟩
abbrev main_v320 : Ref sig .tc := ⟨.hbm, 399, rfl⟩
abbrev main_v321 : Ref sig .tc := ⟨.hbm, 400, rfl⟩
abbrev main_v322 : Ref sig .tc := ⟨.hbm, 401, rfl⟩
abbrev main_v323 : Ref sig .tc := ⟨.hbm, 402, rfl⟩
abbrev main_v324 : Ref sig .tc := ⟨.hbm, 403, rfl⟩
abbrev main_v325 : Ref sig .tc := ⟨.hbm, 404, rfl⟩
abbrev main_v326 : Ref sig .tc := ⟨.hbm, 405, rfl⟩
abbrev main_cst_53 : Ref sig .tc := ⟨.hbm, 406, rfl⟩
abbrev main_v327 : Ref sig .tc := ⟨.hbm, 407, rfl⟩
abbrev main_v328 : Ref sig .tc := ⟨.hbm, 408, rfl⟩
abbrev main_cst_54 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_cst_55 : Ref sig .tc := ⟨.hbm, 415, rfl⟩
abbrev main_v334 : Ref sig .tc := ⟨.hbm, 416, rfl⟩
abbrev main_v335 : Ref sig .tc := ⟨.hbm, 417, rfl⟩
abbrev main_cst_56 : Ref sig .tc := ⟨.hbm, 418, rfl⟩
abbrev main_v336 : Ref sig .tc := ⟨.hbm, 419, rfl⟩
abbrev main_v337 : Ref sig .tc := ⟨.hbm, 420, rfl⟩
abbrev main_v338 : Ref sig .tc := ⟨.hbm, 421, rfl⟩
abbrev main_v339 : Ref sig .tc := ⟨.hbm, 422, rfl⟩
abbrev main_v340 : Ref sig .tc := ⟨.hbm, 423, rfl⟩
abbrev main_cst_57 : Ref sig .tc := ⟨.hbm, 424, rfl⟩
abbrev main_v341 : Ref sig .tc := ⟨.hbm, 425, rfl⟩
abbrev main_v342 : Ref sig .tc := ⟨.hbm, 426, rfl⟩
abbrev main_v343 : Ref sig .tc := ⟨.hbm, 427, rfl⟩
abbrev main_v344 : Ref sig .tc := ⟨.hbm, 428, rfl⟩
abbrev main_v345 : Ref sig .tc := ⟨.hbm, 429, rfl⟩
abbrev main_v346 : Ref sig .tc := ⟨.hbm, 430, rfl⟩
abbrev main_v347 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_cst_58 : Ref sig .tc := ⟨.hbm, 436, rfl⟩
abbrev main_v352 : Ref sig .tc := ⟨.hbm, 437, rfl⟩
abbrev main_v353 : Ref sig .tc := ⟨.hbm, 438, rfl⟩
abbrev main_cst_59 : Ref sig .tc := ⟨.hbm, 439, rfl⟩
abbrev main_v354 : Ref sig .tc := ⟨.hbm, 440, rfl⟩
abbrev main_v355 : Ref sig .tc := ⟨.hbm, 441, rfl⟩
abbrev main_cst_60 : Ref sig .tc := ⟨.hbm, 442, rfl⟩
abbrev main_v356 : Ref sig .tc := ⟨.hbm, 443, rfl⟩
abbrev main_cst_61 : Ref sig .tc := ⟨.hbm, 444, rfl⟩
abbrev main_v357 : Ref sig .tc := ⟨.hbm, 445, rfl⟩
abbrev main_v358 : Ref sig .tc := ⟨.hbm, 446, rfl⟩
abbrev main_v359 : Ref sig .tc := ⟨.hbm, 447, rfl⟩
abbrev main_v360 : Ref sig .tc := ⟨.hbm, 448, rfl⟩
abbrev main_v361 : Ref sig .tc := ⟨.hbm, 449, rfl⟩
abbrev main_v362 : Ref sig .tc := ⟨.hbm, 450, rfl⟩
abbrev main_cst_62 : Ref sig .tc := ⟨.hbm, 451, rfl⟩
abbrev main_v363 : Ref sig .tc := ⟨.hbm, 452, rfl⟩
abbrev main_v364 : Ref sig .tc := ⟨.hbm, 453, rfl⟩
abbrev main_v365 : Ref sig .tc := ⟨.hbm, 454, rfl⟩
abbrev main_v366 : Ref sig .tc := ⟨.hbm, 455, rfl⟩
abbrev main_v367 : Ref sig .tc := ⟨.hbm, 456, rfl⟩
abbrev main_v368 : Ref sig .tc := ⟨.hbm, 457, rfl⟩
abbrev main_cst_63 : Ref sig .tc := ⟨.hbm, 458, rfl⟩
abbrev main_v369 : Ref sig .tc := ⟨.hbm, 459, rfl⟩
abbrev main_v370 : Ref sig .tc := ⟨.hbm, 460, rfl⟩
abbrev main_v371 : Ref sig .tc := ⟨.hbm, 461, rfl⟩
abbrev main_v372 : Ref sig .tc := ⟨.hbm, 462, rfl⟩
abbrev main_v373 : Ref sig .tc := ⟨.hbm, 463, rfl⟩
abbrev main_v374 : Ref sig .tc := ⟨.hbm, 464, rfl⟩
abbrev main_v375 : Ref sig .tc := ⟨.hbm, 465, rfl⟩
abbrev main_v376 : Ref sig .tc := ⟨.hbm, 466, rfl⟩
abbrev main_cst_64 : Ref sig .tc := ⟨.hbm, 467, rfl⟩
abbrev main_v377 : Ref sig .tc := ⟨.hbm, 468, rfl⟩
abbrev main_v378 : Ref sig .tc := ⟨.hbm, 469, rfl⟩
abbrev main_cst_65 : Ref sig .tc := ⟨.hbm, 470, rfl⟩
abbrev main_v379 : Ref sig .tc := ⟨.hbm, 471, rfl⟩
abbrev main_v380 : Ref sig .tc := ⟨.hbm, 472, rfl⟩
abbrev main_cst_66 : Ref sig .tc := ⟨.hbm, 473, rfl⟩
abbrev main_v381 : Ref sig .tc := ⟨.hbm, 474, rfl⟩
abbrev main_cst_67 : Ref sig .tc := ⟨.hbm, 475, rfl⟩
abbrev main_v382 : Ref sig .tc := ⟨.hbm, 476, rfl⟩
abbrev main_v383 : Ref sig .tc := ⟨.hbm, 477, rfl⟩
abbrev main_v384 : Ref sig .tc := ⟨.hbm, 478, rfl⟩
abbrev main_v385 : Ref sig .tc := ⟨.hbm, 479, rfl⟩
abbrev main_v386 : Ref sig .tc := ⟨.hbm, 480, rfl⟩
abbrev main_v387 : Ref sig .tc := ⟨.hbm, 481, rfl⟩
abbrev main_cst_68 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_v393 : Ref sig .tc := ⟨.hbm, 488, rfl⟩
abbrev main_cst_69 : Ref sig .tc := ⟨.hbm, 489, rfl⟩
abbrev main_v394 : Ref sig .tc := ⟨.hbm, 490, rfl⟩
abbrev main_v395 : Ref sig .tc := ⟨.hbm, 491, rfl⟩

abbrev nD : Nat := 1
abbrev τ : Topo := Topo.v7x

variable {F : FTy → Type} [FloatOps F]

class Facts₀ : Prop where
  shapeCasts_S10000x1_S10000 : S10000x1.ShapeCasts S10000
  bcast_S_S10000 : S_.BroadcastsInDim S10000 (![] : Fin 0 → Fin S10000.rank)
  bcast_S10000_S10000x1_0 : S10000.BroadcastsInDim S10000x1 (![0] : Fin 1 → Fin S10000x1.rank)
  shapeCasts_S160000x1_S160000 : S160000x1.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000x128_S160000x128_S160000x128_S160000x384_d1 : Shape.Concatenates [S160000x128, S160000x128, S160000x128] S160000x384 1
  bcast_S128_S1x128_1 : S128.BroadcastsInDim S1x128 (![1] : Fin 1 → Fin S1x128.rank)
  bcast_S1x128_S160000x128_0_1 : S1x128.BroadcastsInDim S160000x128 (![0, 1] : Fin 2 → Fin S160000x128.rank)
  bcast_S_S160000x128 : S_.BroadcastsInDim S160000x128 (![] : Fin 0 → Fin S160000x128.rank)
  bcast_S_S10000x128 : S_.BroadcastsInDim S10000x128 (![] : Fin 0 → Fin S10000x128.rank)
  transposes_S10000x128_S128x10000_1_0 : S10000x128.Transposes [1, 0] S128x10000
  reducesTo_S10000x10000_S10000_d1 : S10000x10000.ReducesTo [1] S10000
  h_S_ : 0 < S_.numel
  bcast_S10000x1_S10000x10000_0_1 : S10000x1.BroadcastsInDim S10000x10000 (![0, 1] : Fin 2 → Fin S10000x10000.rank)
  reducesTo_S10000x10000_S10000_d0 : S10000x10000.ReducesTo [0] S10000
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  transposes_S10000x10000_S10000x10000_1_0 : S10000x10000.Transposes [1, 0] S10000x10000
  concatenates_S10000x128_S10000x128_S10000x256_d1 : Shape.Concatenates [S10000x128, S10000x128] S10000x256 1
  bcast_S384_S1x384_1 : S384.BroadcastsInDim S1x384 (![1] : Fin 1 → Fin S1x384.rank)
  bcast_S1x384_S10000x384_0_1 : S1x384.BroadcastsInDim S10000x384 (![0, 1] : Fin 2 → Fin S10000x384.rank)
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  reducesTo_S10000x1_S1_d0 : S10000x1.ReducesTo [0] S1
  bcast_S_S1 : S_.BroadcastsInDim S1 (![] : Fin 0 → Fin S1.rank)
  bcast_S10000x1_S10000x128_0_1 : S10000x1.BroadcastsInDim S10000x128 (![0, 1] : Fin 2 → Fin S10000x128.rank)
  reducesTo_S10000x128_S128_d0 : S10000x128.ReducesTo [0] S128
  gather_S32000x128_S10000x1_S10000x128_1_0_n_n_0_1_1128_wf : GatherDims.WF S32000x128 S10000x1 S10000x128 [1] [0] [] [0] [] 1 ![1, 128]
  gather_S20x128_S160000x1_S160000x128_1_0_n_n_0_1_1128_wf : GatherDims.WF S20x128 S160000x1 S160000x128 [1] [0] [] [0] [] 1 ![1, 128]
  gather_S10000x128_S160000x1_S160000x128_1_0_n_n_0_1_1128_wf : GatherDims.WF S10000x128 S160000x1 S160000x128 [1] [0] [] [0] [] 1 ![1, 128]
  dot_S160000x384_S384x128_S160000x128_1_0_0_1_n_n_wf : DotDims.WF S160000x384 S384x128 S160000x128 [1] [0] [0] [1] [] []
  scatter_S10000x128_S160000x1_S160000x128_1_0_0_1_wf : ScatterDims.WF S10000x128 S160000x1 S160000x128 [1] [0] [0] 1
  dot_S10000x128_S128x10000_S10000x10000_1_0_0_1_n_n_wf : DotDims.WF S10000x128 S128x10000 S10000x10000 [1] [0] [0] [1] [] []
  dot_S10000x10000_S10000x128_S10000x128_1_0_0_1_n_n_wf : DotDims.WF S10000x10000 S10000x128 S10000x128 [1] [0] [0] [1] [] []
  dot_S10000x256_S256x384_S10000x384_1_0_0_1_n_n_wf : DotDims.WF S10000x256 S256x384 S10000x384 [1] [0] [0] [1] [] []
  dot_S10000x128_S128x384_S10000x384_1_0_0_1_n_n_wf : DotDims.WF S10000x128 S128x384 S10000x384 [1] [0] [0] [1] [] []
  dot_S10000x128_S128x1_S10000x1_1_0_0_1_n_n_wf : DotDims.WF S10000x128 S128x1 S10000x1 [1] [0] [0] [1] [] []

variable [Facts₀]

def gather_S32000x128_S10000x1_S10000x128_1_0_n_n_0_1_1128 : GatherDims S32000x128 S10000x1 S10000x128 where
  offsetDims := [1]
  collapsedSliceDims := [0]
  operandBatchingDims := []
  startIndicesBatchingDims := []
  startIndexMap := [0]
  indexVectorDim := 1
  sliceSizes := ![1, 128]
  wf := gather_S32000x128_S10000x1_S10000x128_1_0_n_n_0_1_1128_wf
def gather_S20x128_S160000x1_S160000x128_1_0_n_n_0_1_1128 : GatherDims S20x128 S160000x1 S160000x128 where
  offsetDims := [1]
  collapsedSliceDims := [0]
  operandBatchingDims := []
  startIndicesBatchingDims := []
  startIndexMap := [0]
  indexVectorDim := 1
  sliceSizes := ![1, 128]
  wf := gather_S20x128_S160000x1_S160000x128_1_0_n_n_0_1_1128_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def dot_S160000x384_S384x128_S160000x128_1_0_0_1_n_n : DotDims S160000x384 S384x128 S160000x128 where
  lhsContracting := [1]
  rhsContracting := [0]
  lhsNonContracting := [0]
  rhsNonContracting := [1]
  lhsBatch := []
  rhsBatch := []
  wf := dot_S160000x384_S384x128_S160000x128_1_0_0_1_n_n_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S10000x128_S128x10000_S10000x10000_1_0_0_1_n_n : DotDims S10000x128 S128x10000 S10000x10000 where
  lhsContracting := [1]
  rhsContracting := [0]
  lhsNonContracting := [0]
  rhsNonContracting := [1]
  lhsBatch := []
  rhsBatch := []
  wf := dot_S10000x128_S128x10000_S10000x10000_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x384_S10000x384_1_0_0_1_n_n : DotDims S10000x256 S256x384 S10000x384 where
  lhsContracting := [1]
  rhsContracting := [0]
  lhsNonContracting := [0]
  rhsNonContracting := [1]
  lhsBatch := []
  rhsBatch := []
  wf := dot_S10000x256_S256x384_S10000x384_1_0_0_1_n_n_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.K.Edge0.lean ====
/- The edge-MLP region 0 of @main, at a parameter V (the TensorCore's buffer contents when the region is entered).
   Windows 0, 1, 2 (destination features, source features, edge attribute) move with the grid point; windows 3, 4, 5
   (the two weight matrices and the attribute table) have a constant block index, so they are fetched once and their
   buffers keep the same block at every later point; window 6 is the output block. At every point the body reads the
   six input blocks and overwrites the whole output block with
     max(x_dst · W_dst + x_src · W_src + onehot(attr) · T, 0),
   a function of the six input blocks alone. Stated for any float model F. -/
import proofs.«407386_j15839839387945_2_alg».proof.Proof.Gen.Kernel.Launch
import proofs.«407386_j15839839387945_2_alg».proof.Proof.Gen.Kernel.Skeleton
import proofs.«407386_j15839839387945_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 4000 rows is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, for any proof data whose array is V's and whose
    body leaves the block in place. Where the window is fetched this is the fetch; where it is not, the block index
    has not moved since the last fetch and the body kept the buffer. Windows 0, 1, 2 are fetched at every point;
    windows 3, 4, 5 only at the first, their index being constant. No window is cut and none is ever idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! # The body's accesses: each is the whole of its buffer -/

abbrev r0_0 : Rect S4000x128 := Rect.unit (s := S4000x128) ![0, 0] S4000x128.size inb_S4000x128_S4000x128_0_0
abbrev r0_2 : Rect S4000x1 := Rect.unit (s := S4000x1) ![0, 0] S4000x1.size inb_S4000x1_S4000x1_0_0
abbrev r0_3 : Rect S128x128 := Rect.unit (s := S128x128) ![0, 0] S128x128.size inb_S128x128_S128x128_0_0
abbrev r0_5 : Rect S20x128 := Rect.unit (s := S20x128) ![0, 0] S20x128.size inb_S20x128_S20x128_0_0

/-! # What the body leaves in the output window's buffer -/

/-- The output block after the body, from the six input blocks: its single store, covering the block, of
    max(x0 · x3 + x1 · x4 + onehot(x2) · x5, 0). -/
def out0_6 (x0 x1 : Vec F S4000x128 .bf16) (x2 : Vec F S4000x1 .i32) (x3 x4 : Vec F S128x128 .bf16) (x5 : Vec F S20x128 .bf16) : Vec F S4000x128 .f32 :=
  View.canon [⟨r0_0, k0_pay1 (View.ld x0 r0_0) (View.ld x1 r0_0) (View.ld x3 r0_3) (View.ld x4 r0_3) (View.ld x2 r0_2) (View.ld x5 r0_5)⟩]

/-- The single store's rectangle is the whole block, so every index of the block lies in it. -/
theorem cover0_6 (p0 : Vec F S4000x128 .f32) (y : S4000x128.Idx) :
    ∃ pc ∈ ([⟨r0_0, p0⟩] : List (View.Piece (Elt F) S4000x128 .f32)), y ∈ pc.1.set :=
  View.cover_of_tiled [⟨r0_0, p0⟩] S4000x128.size (by rfl) y

/-! # The body's triple -/

set_option maxHeartbeats 1000000 in
/-- The body on whole buffers, the inputs' at contents x0 … x5 and the output's at anything, runs to a state with the
    inputs' unchanged and the output's at out0_6 x0 … x5: six loads of the inputs, a load of the output whose value
    is not used, and the one store. The grid coordinate is not read. -/
theorem sound_kernel0 (c : Dev nD) (E : Set ℕ) (i : grid0.Coords)
    (arg1 : Memref sig .tc .vmem S4000x128 .bf16) (harg1 : arg1.IsWhole) (arg2 : Memref sig .tc .vmem S4000x128 .bf16) (harg2 : arg2.IsWhole)
    (arg3 : Memref sig .tc .vmem S4000x1 .i32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S20x128 .bf16) (harg6 : arg6.IsWhole)
    (arg7 : Memref sig .tc .vmem S4000x128 .f32) (harg7 : arg7.IsWhole)
    (x0 x1 : Vec F S4000x128 .bf16) (x2 : Vec F S4000x1 .i32) (x3 x4 : Vec F S128x128 .bf16) (x5 : Vec F S20x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__edge_mlp_kernel i arg1 harg1 arg2 harg2 arg3 harg3 arg4 harg4 arg5 harg5 arg6 harg6 arg7 harg7) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! # The pipeline's proof data -/

/-- The proof data of pipeline 0 on core c: the arrays as the region finds them; after the body at point t each
    input's buffer at its block and the output's at out0_6 of the six input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! # The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Edge1.lean ====
/- The edge-MLP region 1 of @main, at a parameter V (the TensorCore's buffer contents when the region is entered).
   Windows 0, 1, 2 (destination features, source features, edge attribute) move with the grid point; windows 3, 4, 5
   (the two weight matrices and the attribute table) have a constant block index, so they are fetched once and their
   buffers keep the same block at every later point; window 6 is the output block. At every point the body reads the
   six input blocks and overwrites the whole output block with
     max(x_dst · W_dst + x_src · W_src + onehot(attr) · T, 0),
   a function of the six input blocks alone. Stated for any float model F. -/
import proofs.«407386_j15839839387945_2_alg».proof.Proof.Gen.Kernel.Launch
import proofs.«407386_j15839839387945_2_alg».proof.Proof.Gen.Kernel.Skeleton
import proofs.«407386_j15839839387945_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 4000 rows is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds its block at every point, for any proof data whose array is V's and whose
    body leaves the block in place. Where the window is fetched this is the fetch; where it is not, the block index
    has not moved since the last fetch and the body kept the buffer. Windows 0, 1, 2 are fetched at every point;
    windows 3, 4, 5 only at the first, their index being constant. No window is cut and none is ever idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! # The body's accesses: each is the whole of its buffer -/

abbrev r1_0 : Rect S4000x128 := Rect.unit (s := S4000x128) ![0, 0] S4000x128.size inb_S4000x128_S4000x128_0_0
abbrev r1_2 : Rect S4000x1 := Rect.unit (s := S4000x1) ![0, 0] S4000x1.size inb_S4000x1_S4000x1_0_0
abbrev r1_3 : Rect S128x128 := Rect.unit (s := S128x128) ![0, 0] S128x128.size inb_S128x128_S128x128_0_0
abbrev r1_5 : Rect S20x128 := Rect.unit (s := S20x128) ![0, 0] S20x128.size inb_S20x128_S20x128_0_0

/-! # What the body leaves in the output window's buffer -/

/-- The output block after the body, from the six input blocks: its single store, covering the block, of
    max(x0 · x3 + x1 · x4 + onehot(x2) · x5, 0). -/
def out1_6 (x0 x1 : Vec F S4000x128 .bf16) (x2 : Vec F S4000x1 .i32) (x3 x4 : Vec F S128x128 .bf16) (x5 : Vec F S20x128 .bf16) : Vec F S4000x128 .f32 :=
  View.canon [⟨r1_0, k1_pay1 (View.ld x0 r1_0) (View.ld x1 r1_0) (View.ld x3 r1_3) (View.ld x4 r1_3) (View.ld x2 r1_2) (View.ld x5 r1_5)⟩]

/-- The single store's rectangle is the whole block, so every index of the block lies in it. -/
theorem cover1_6 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

/-! # The body's triple -/

set_option maxHeartbeats 1000000 in
/-- The body on whole buffers, the inputs' at contents x0 … x5 and the output's at anything, runs to a state with the
    inputs' unchanged and the output's at out1_6 x0 … x5: six loads of the inputs, a load of the output whose value
    is not used, and the one store. The grid coordinate is not read. -/
theorem sound_kernel1 (c : Dev nD) (E : Set ℕ) (i : grid1.Coords)
    (arg1 : Memref sig .tc .vmem S4000x128 .bf16) (harg1 : arg1.IsWhole) (arg2 : Memref sig .tc .vmem S4000x128 .bf16) (harg2 : arg2.IsWhole)
    (arg3 : Memref sig .tc .vmem S4000x1 .i32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S20x128 .bf16) (harg6 : arg6.IsWhole)
    (arg7 : Memref sig .tc .vmem S4000x128 .f32) (harg7 : arg7.IsWhole)
    (x0 x1 : Vec F S4000x128 .bf16) (x2 : Vec F S4000x1 .i32) (x3 x4 : Vec F S128x128 .bf16) (x5 : Vec F S20x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__edge_mlp_kernel i arg1 harg1 arg2 harg2 arg3 harg3 arg4 harg4 arg5 harg5 arg6 harg6 arg7 harg7) K := by
  simp only [cc1__edge_mlp_kernel_eq_skeleton]; unfold cc1__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! # The pipeline's proof data -/

/-- The proof data of pipeline 1 on core c: the arrays as the region finds them; after the body at point t each
    input's buffer at its block and the output's at out1_6 of the six input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! # The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Edge4.lean ====
/- The edge-MLP region 4 of @main, at a parameter V (the TensorCore's buffer contents when the region is entered).
   Windows 0, 1, 2 (destination features, source features, edge attribute) move with the grid point; windows 3, 4, 5
   (the two weight matrices and the attribute table) have a constant block index, so they are fetched once and their
   buffers keep the same block at every later point; window 6 is the output block. At every point the body reads the
   six input blocks and overwrites the whole output block with
     max(x_dst · W_dst + x_src · W_src + onehot(attr) · T, 0),
   a function of the six input blocks alone. Stated for any float model F. -/
import proofs.«407386_j15839839387945_2_alg».proof.Proof.Gen.Kernel.Launch
import proofs.«407386_j15839839387945_2_alg».proof.Proof.Gen.Kernel.Skeleton
import proofs.«407386_j15839839387945_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 4000 rows is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: the windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current buffer holds its block at every point, for any proof data whose array is V's and whose
    body leaves the block in place. Where the window is fetched this is the fetch; where it is not, the block index
    has not moved since the last fetch and the body kept the buffer. Windows 0, 1, 2 are fetched at every point;
    windows 3, 4, 5 only at the first, their index being constant. No window is cut and none is ever idle. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! # The body's accesses: each is the whole of its buffer -/

abbrev r4_0 : Rect S4000x128 := Rect.unit (s := S4000x128) ![0, 0] S4000x128.size inb_S4000x128_S4000x128_0_0
abbrev r4_2 : Rect S4000x1 := Rect.unit (s := S4000x1) ![0, 0] S4000x1.size inb_S4000x1_S4000x1_0_0
abbrev r4_3 : Rect S128x128 := Rect.unit (s := S128x128) ![0, 0] S128x128.size inb_S128x128_S128x128_0_0
abbrev r4_5 : Rect S20x128 := Rect.unit (s := S20x128) ![0, 0] S20x128.size inb_S20x128_S20x128_0_0

/-! # What the body leaves in the output window's buffer -/

/-- The output block after the body, from the six input blocks: its single store, covering the block, of
    max(x0 · x3 + x1 · x4 + onehot(x2) · x5, 0). -/
def out4_6 (x0 x1 : Vec F S4000x128 .bf16) (x2 : Vec F S4000x1 .i32) (x3 x4 : Vec F S128x128 .bf16) (x5 : Vec F S20x128 .bf16) : Vec F S4000x128 .f32 :=
  View.canon [⟨r4_0, k4_pay1 (View.ld x0 r4_0) (View.ld x1 r4_0) (View.ld x3 r4_3) (View.ld x4 r4_3) (View.ld x2 r4_2) (View.ld x5 r4_5)⟩]

/-- The single store's rectangle is the whole block, so every index of the block lies in it. -/
theorem cover4_6 (p0 : Vec F S4000x128 .f32) (y : S4000x128.Idx) :
    ∃ pc ∈ ([⟨r4_0, p0⟩] : List (View.Piece (Elt F) S4000x128 .f32)), y ∈ pc.1.set :=
  View.cover_of_tiled [⟨r4_0, p0⟩] S4000x128.size (by rfl) y

/-! # The body's triple -/

set_option maxHeartbeats 1000000 in
/-- The body on whole buffers, the inputs' at contents x0 … x5 and the output's at anything, runs to a state with the
    inputs' unchanged and the output's at out4_6 x0 … x5: six loads of the inputs, a load of the output whose value
    is not used, and the one store. The grid coordinate is not read. -/
theorem sound_kernel4 (c : Dev nD) (E : Set ℕ) (i : grid4.Coords)
    (arg1 : Memref sig .tc .vmem S4000x128 .bf16) (harg1 : arg1.IsWhole) (arg2 : Memref sig .tc .vmem S4000x128 .bf16) (harg2 : arg2.IsWhole)
    (arg3 : Memref sig .tc .vmem S4000x1 .i32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S20x128 .bf16) (harg6 : arg6.IsWhole)
    (arg7 : Memref sig .tc .vmem S4000x128 .f32) (harg7 : arg7.IsWhole)
    (x0 x1 : Vec F S4000x128 .bf16) (x2 : Vec F S4000x1 .i32) (x3 x4 : Vec F S128x128 .bf16) (x5 : Vec F S20x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__edge_mlp_kernel i arg1 harg1 arg2 harg2 arg3 harg3 arg4 harg4 arg5 harg5 arg6 harg6 arg7 harg7) K := by
  simp only [cc4__edge_mlp_kernel_eq_skeleton]; unfold cc4__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! # The pipeline's proof data -/

/-- The proof data of pipeline 4 on core c: the arrays as the region finds them; after the body at point t each
    input's buffer at its block and the output's at out4_6 of the six input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

/-- Each input's current buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! # The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' buffers hold their blocks, so the body's triple applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.Edge5.lean ====
/- The edge-MLP region 5 of @main, at a parameter V (the TensorCore's buffer contents when the region is entered).
   Windows 0, 1, 2 (destination features, source features, edge attribute) move with the grid point; windows 3, 4, 5
   (the two weight matrices and the attribute table) have a constant block index, so they are fetched once and their
   buffers keep the same block at every later point; window 6 is the output block. At every point the body reads the
   six input blocks and overwrites the whole output block with
     max(x_dst · W_dst + x_src · W_src + onehot(attr) · T, 0),
   a function of the six input blocks alone. Stated for any float model F. -/
import proofs.«407386_j15839839387945_2_alg».proof.Proof.Gen.Kernel.Launch
import proofs.«407386_j15839839387945_2_alg».proof.Proof.Gen.Kernel.Skeleton
import proofs.«407386_j15839839387945_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 4000 rows is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: the windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current buffer holds its block at every point, for any proof data whose array is V's and whose
    body leaves the block in place. Where the window is fetched this is the fetch; where it is not, the block index
    has not moved since the last fetch and the body kept the buffer. Windows 0, 1, 2 are fetched at every point;
    windows 3, 4, 5 only at the first, their index being constant. No window is cut and none is ever idle. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! # The body's accesses: each is the whole of its buffer -/

abbrev r5_0 : Rect S4000x128 := Rect.unit (s := S4000x128) ![0, 0] S4000x128.size inb_S4000x128_S4000x128_0_0
abbrev r5_2 : Rect S4000x1 := Rect.unit (s := S4000x1) ![0, 0] S4000x1.size inb_S4000x1_S4000x1_0_0
abbrev r5_3 : Rect S128x128 := Rect.unit (s := S128x128) ![0, 0] S128x128.size inb_S128x128_S128x128_0_0
abbrev r5_5 : Rect S20x128 := Rect.unit (s := S20x128) ![0, 0] S20x128.size inb_S20x128_S20x128_0_0

/-! # What the body leaves in the output window's buffer -/

/-- The output block after the body, from the six input blocks: its single store, covering the block, of
    max(x0 · x3 + x1 · x4 + onehot(x2) · x5, 0). -/
def out5_6 (x0 x1 : Vec F S4000x128 .bf16) (x2 : Vec F S4000x1 .i32) (x3 x4 : Vec F S128x128 .bf16) (x5 : Vec F S20x128 .bf16) : Vec F S4000x128 .f32 :=
  View.canon [⟨r5_0, k5_pay1 (View.ld x0 r5_0) (View.ld x1 r5_0) (View.ld x3 r5_3) (View.ld x4 r5_3) (View.ld x2 r5_2) (View.ld x5 r5_5)⟩]

/-- The single store's rectangle is the whole block, so every index of the block lies in it. -/
theorem cover5_6 (p0 : Vec F S4000x128 .f32) (y : S4000x128.Idx) :
    ∃ pc ∈ ([⟨r5_0, p0⟩] : List (View.Piece (Elt F) S4000x128 .f32)), y ∈ pc.1.set :=
  View.cover_of_tiled [⟨r5_0, p0⟩] S4000x128.size (by rfl) y

/-! # The body's triple -/

set_option maxHeartbeats 1000000 in
/-- The body on whole buffers, the inputs' at contents x0 … x5 and the output's at anything, runs to a state with the
    inputs' unchanged and the output's at out5_6 x0 … x5: six loads of the inputs, a load of the output whose value
    is not used, and the one store. The grid coordinate is not read. -/
theorem sound_kernel5 (c : Dev nD) (E : Set ℕ) (i : grid5.Coords)
    (arg1 : Memref sig .tc .vmem S4000x128 .bf16) (harg1 : arg1.IsWhole) (arg2 : Memref sig .tc .vmem S4000x128 .bf16) (harg2 : arg2.IsWhole)
    (arg3 : Memref sig .tc .vmem S4000x1 .i32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S20x128 .bf16) (harg6 : arg6.IsWhole)
    (arg7 : Memref sig .tc .vmem S4000x128 .f32) (harg7 : arg7.IsWhole)
    (x0 x1 : Vec F S4000x128 .bf16) (x2 : Vec F S4000x1 .i32) (x3 x4 : Vec F S128x128 .bf16) (x5 : Vec F S20x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E
          (cc5__edge_mlp_kernel i arg1 harg1 arg2 harg2 arg3 harg3 arg4 harg4 arg5 harg5 arg6 harg6 arg7 harg7) K := by
  simp only [cc5__edge_mlp_kernel_eq_skeleton]; unfold cc5__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! # The pipeline's proof data -/

/-- The proof data of pipeline 5 on core c: the arrays as the region finds them; after the body at point t each
    input's buffer at its block and the output's at out5_6 of the six input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by dsimp only [dat5]

/-- Each input's current buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! # The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so the body's triple applies; the invariant and the
    core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.Attn2.lean ====
/-
  Region 2 of the program: one cross-attention call on the grid (10, 5). Point `t` works on query block `t / 5`
  (1000 rows) against key/value block `t % 5` (2000 rows) and carries three statistics between points: the running row
  maximum `m`, the running normaliser `l`, the running weighted sum `acc` (the online softmax). This module states, generic
  in the float model and at ANY contents `V` of the core's buffers at the region's entry: one step of the statistics as
  pure functions of the two blocks; the body's behaviour in its three cases (first, middle, last step of a row of the
  grid); what the statistics and the output block are after each point, by recursion on the point (`stAt2`); the
  invariant that carries the statistics from point to point; the proof data of the region and its body obligation.
-/
import proofs.«407386_j15839839387945_2_alg».proof.Proof.Gen.Kernel.Launch
import proofs.«407386_j15839839387945_2_alg».proof.Proof.Gen.Kernel.Skeleton
import proofs.«407386_j15839839387945_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block rectangle are zero on both axes. -/
theorem attnZeroOff2 : (![0, 0] : Fin 2 → Nat) = fun _ => 0 := funext fun a => by fin_cases a <;> rfl

/-- A buffer whose LAST store went through the whole-shape rectangle at zero offsets reads as that store's value,
    whatever the earlier stores and the prior contents were: the last store covers every index. -/
theorem attnLastStore2 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The two conditions of the body, decided over the grid

The grid is (10, 5): point `t` has key/value step `kv = t % 5`. The body resets its running statistics when `kv = 0`
and writes its output block when `kv = 4`. -/

/-- The reset condition (`kv = 0`), as the body computes it from the grid coordinates. -/
abbrev cond2_0 (i : grid2.Coords) : Prop := (Scalar.cmpi .ne (Scalar.extui (Scalar.cmpi .eq (BitVec.ofNat 32 (i 1).val) 0#32)) 0#32) = 1#1
/-- It holds exactly at the points ≡ 0 (mod 5). -/
theorem hcond2_0 : ∀ t : Fin cfg2.N, cond2_0 (grid2.coords t) ↔ t.val % 5 = 0 :=
  (by decide +kernel : ∀ t : Fin grid2.N, cond2_0 (grid2.coords t) ↔ t.val % 5 = 0)
/-- The finishing condition (`kv = 4`). -/
abbrev cond2_1 (i : grid2.Coords) : Prop := k2_cond2 i = 1#1
/-- It holds exactly at the points ≡ 4 (mod 5). -/
theorem hcond2_1 : ∀ t : Fin cfg2.N, cond2_1 (grid2.coords t) ↔ t.val % 5 = 4 :=
  (by decide +kernel : ∀ t : Fin grid2.N, cond2_1 (grid2.coords t) ↔ t.val % 5 = 4)

/-! ## One step of the online softmax, as pure functions of the blocks and the carried statistics

With `s = bf16(blk) · fullᵀ` the scores of a query block (rounded to bf16) against a key/value block, a step replaces the
running row maximum `m`, the running normaliser `l` and the running weighted sum `acc` by
`m' = max m (rowmax s)`, `l' = exp (m − m') · l + rowsum (exp (s − m'))`,
`acc' = exp (m − m') · acc + bf16(exp (s − m')) · full`;
the last step of a row of the grid leaves `blk − acc' / l'` in the output block. (Where floats are exact the two
roundings to bf16 are the identity.) -/

/-- The running maximum before the first key/value block: `−∞` in every row. -/
def mInit2 : Vec F S1000x1 .f32 := k2_pay4 (F := F)
/-- The running normaliser before the first key/value block: zero. -/
def lInit2 : Vec F S1000x1 .f32 := k2_pay5 (F := F)
/-- The running weighted sum before the first key/value block: zero. -/
def accInit2 : Vec F S1000x128 .f32 := k2_pay6 (F := F)
/-- The running maximum after a step: `max mPrev (rowmax s)`. -/
def mNext2 (blk : Vec F S1000x128 .f32) (full : Vec F S2000x128 .bf16) (mPrev : Vec F S1000x1 .f32) : Vec F S1000x1 .f32 :=
  k2_pay2 (k2_pay9 blk full mPrev)
/-- The running normaliser after a step: `exp (mPrev − m') · lPrev + rowsum (exp (s − m'))`. -/
def lNext2 (blk : Vec F S1000x128 .f32) (full : Vec F S2000x128 .bf16) (mPrev lPrev : Vec F S1000x1 .f32) : Vec F S1000x1 .f32 :=
  k2_pay12 blk full mPrev mPrev lPrev
/-- The running weighted sum after a step: `exp (mPrev − m') · accPrev + bf16(exp (s − m')) · full`. -/
def accNext2 (blk : Vec F S1000x128 .f32) (full : Vec F S2000x128 .bf16) (mPrev : Vec F S1000x1 .f32) (accPrev : Vec F S1000x128 .f32) : Vec F S1000x128 .f32 :=
  k2_pay1 (k2_pay13 blk full mPrev mPrev accPrev)
/-- The output block after the last step of a row of the grid: `blk − accFin / lFin`. -/
def outFin2 (blk : Vec F S1000x128 .f32) (lFin : Vec F S1000x1 .f32) (accFin : Vec F S1000x128 .f32) : Vec F S1000x128 .f32 :=
  k2_pay3 accFin lFin blk

/-! ## The body, case by case, on any whole memrefs -/

set_option maxHeartbeats 1000000 in
/-- A MIDDLE step (`0 < kv < 4`): from the two input blocks and the carried statistics `(xs0, xs1, xs2) = (m, l, acc)` the
    body leaves the statistics one step on, and does not touch the output block's buffer. Each of its three stores covers
    its whole buffer, so what a buffer reads afterwards is the stored value; each load before a store reads the contents
    the buffer came with. -/
theorem kernelRun2_B (c : Dev nD) (i : grid2.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond2_0 i) (hc1 : ¬cond2_1 i)
    (x0 : Vec F S1000x128 .f32) (x1 : Vec F S2000x128 .bf16) (xs0 xs1 : Vec F S1000x1 .f32) (xs2 : Vec F S1000x128 .f32)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1 ∗ owns (c : Thread nD τ) arg4 fullShare xi2
            ∗ owns (c : Thread nD τ) arg5 fullShare (mNext2 x0 x1 xs0) ∗ owns (c : Thread nD τ) arg6 fullShare (lNext2 x0 x1 xs0 xs1)
            ∗ owns (c : Thread nD τ) arg7 fullShare (accNext2 x0 x1 xs0 xs2)) -∗ K ⟨⟩))
      ⊢ wp frame (wpE (defs₀ (F := F)) Variants.none c none) E (cc2__cross_attn_kernel i arg2 harg2 arg3 harg3 arg4 harg4 arg5 harg5 arg6 harg6 arg7 harg7) K := by
  simp only [cc2__cross_attn_kernel_eq_skeleton]; unfold cc2__cross_attn_kernel_skel
  simp only [k2_part1_eq_skeleton]; unfold k2_part1_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext2
    refine (attnLastStore2 (S := S1000x1) _ _ attnZeroOff2 _ _ _).trans ?_
    dsimp only
    simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2]
  isplitl [HS1]
  · iexists _; isplitr
    swap; · iexact HS1
    ipureintro
    unfold lNext2
    refine (attnLastStore2 (S := S1000x1) _ _ attnZeroOff2 _ _ _).trans ?_
    dsimp only
    simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2]
  iexists _; isplitr
  swap; · iexact HS2
  ipureintro
  unfold accNext2
  refine (attnLastStore2 (S := S1000x128) _ _ attnZeroOff2 _ _ _).trans ?_
  dsimp only
  simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2]

set_option maxHeartbeats 1000000 in
/-- A FIRST step (`kv = 0`): whatever the three statistics buffers held, the body first stores the initial statistics
    `(−∞, 0, 0)` over them and then makes a step from those; the output block's buffer is not touched. A load after the
    reset reads the reset value (the reset store covers the buffer). -/
theorem kernelRun2_A (c : Dev nD) (i : grid2.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : cond2_0 i) (hc1 : ¬cond2_1 i)
    (x0 : Vec F S1000x128 .f32) (x1 : Vec F S2000x128 .bf16)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (mNext2 x0 x1 mInit2) ∗ owns (c : Thread nD τ) arg6 fullShare (lNext2 x0 x1 mInit2 lInit2)
            ∗ owns (c : Thread nD τ) arg7 fullShare (accNext2 x0 x1 mInit2 accInit2)) -∗ K ⟨⟩))
      ⊢ wp frame (wpE (defs₀ (F := F)) Variants.none c none) E (cc2__cross_attn_kernel i arg2 harg2 arg3 harg3 arg4 harg4 arg5 harg5 arg6 harg6 arg7 harg7) K := by
  simp only [cc2__cross_attn_kernel_eq_skeleton]; unfold cc2__cross_attn_kernel_skel
  simp only [k2_part1_eq_skeleton]; unfold k2_part1_skel
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext2 mInit2
    refine (attnLastStore2 (S := S1000x1) _ _ attnZeroOff2 _ _ _).trans ?_
    dsimp only
    sl_unfold_run_names
    simp only [View.readAt_eq_ld, harg2.read_unread, harg3.read_unread,
      View.ld_unit_zero (S := S1000x128) attnZeroOff2, View.ld_unit_zero (S := S2000x128) attnZeroOff2,
      View.readCov_unit_zero (S := S1000x1) _ attnZeroOff2, View.readCov_unit_zero (S := S1000x128) _ attnZeroOff2]
  isplitl [HS1]
  · iexists _; isplitr
    swap; · iexact HS1
    ipureintro
    unfold lNext2 mInit2 lInit2
    refine (attnLastStore2 (S := S1000x1) _ _ attnZeroOff2 _ _ _).trans ?_
    dsimp only
    sl_unfold_run_names
    simp only [View.readAt_eq_ld, harg2.read_unread, harg3.read_unread,
      View.ld_unit_zero (S := S1000x128) attnZeroOff2, View.ld_unit_zero (S := S2000x128) attnZeroOff2,
      View.readCov_unit_zero (S := S1000x1) _ attnZeroOff2, View.readCov_unit_zero (S := S1000x128) _ attnZeroOff2]
  iexists _; isplitr
  swap; · iexact HS2
  ipureintro
  unfold accNext2 mInit2 accInit2
  refine (attnLastStore2 (S := S1000x128) _ _ attnZeroOff2 _ _ _).trans ?_
  dsimp only
  sl_unfold_run_names
  simp only [View.readAt_eq_ld, harg2.read_unread, harg3.read_unread,
      View.ld_unit_zero (S := S1000x128) attnZeroOff2, View.ld_unit_zero (S := S2000x128) attnZeroOff2,
      View.readCov_unit_zero (S := S1000x1) _ attnZeroOff2, View.readCov_unit_zero (S := S1000x128) _ attnZeroOff2]

set_option maxHeartbeats 1000000 in
/-- A LAST step (`kv = 4`): a middle step, after which the body reads the statistics it has just stored and the query
    block, and stores `blk − acc' / l'` over the whole output block's buffer, whatever that held. -/
theorem kernelRun2_C (c : Dev nD) (i : grid2.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond2_0 i) (hc1 : cond2_1 i)
    (x0 : Vec F S1000x128 .f32) (x1 : Vec F S2000x128 .bf16) (xs0 xs1 : Vec F S1000x1 .f32) (xs2 : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outFin2 x0 (lNext2 x0 x1 xs0 xs1) (accNext2 x0 x1 xs0 xs2))
            ∗ owns (c : Thread nD τ) arg5 fullShare (mNext2 x0 x1 xs0) ∗ owns (c : Thread nD τ) arg6 fullShare (lNext2 x0 x1 xs0 xs1)
            ∗ owns (c : Thread nD τ) arg7 fullShare (accNext2 x0 x1 xs0 xs2)) -∗ K ⟨⟩))
      ⊢ wp frame (wpE (defs₀ (F := F)) Variants.none c none) E (cc2__cross_attn_kernel i arg2 harg2 arg3 harg3 arg4 harg4 arg5 harg5 arg6 harg6 arg7 harg7) K := by
  simp only [cc2__cross_attn_kernel_eq_skeleton]; unfold cc2__cross_attn_kernel_skel
  simp only [k2_part1_eq_skeleton]; unfold k2_part1_skel
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold outFin2 lNext2 accNext2
    refine (attnLastStore2 (S := S1000x128) _ _ attnZeroOff2 _ _ _).trans ?_
    dsimp only
    sl_unfold_run_names
    simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2,
      View.readCov_unit_zero (S := S1000x1) _ attnZeroOff2, View.readCov_unit_zero (S := S1000x128) _ attnZeroOff2]
  isplitl [HS0]
  · iexists _; isplitr
    swap; · iexact HS0
    ipureintro
    unfold mNext2
    refine (attnLastStore2 (S := S1000x1) _ _ attnZeroOff2 _ _ _).trans ?_
    dsimp only
    sl_unfold_run_names
    simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2,
      View.readCov_unit_zero (S := S1000x1) _ attnZeroOff2, View.readCov_unit_zero (S := S1000x128) _ attnZeroOff2]
  isplitl [HS1]
  · iexists _; isplitr
    swap; · iexact HS1
    ipureintro
    unfold lNext2
    refine (attnLastStore2 (S := S1000x1) _ _ attnZeroOff2 _ _ _).trans ?_
    dsimp only
    sl_unfold_run_names
    simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2,
      View.readCov_unit_zero (S := S1000x1) _ attnZeroOff2, View.readCov_unit_zero (S := S1000x128) _ attnZeroOff2]
  iexists _; isplitr
  swap; · iexact HS2
  ipureintro
  unfold accNext2
  refine (attnLastStore2 (S := S1000x128) _ _ attnZeroOff2 _ _ _).trans ?_
  dsimp only
  sl_unfold_run_names
  simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2,
      View.readCov_unit_zero (S := S1000x1) _ attnZeroOff2, View.readCov_unit_zero (S := S1000x128) _ attnZeroOff2]

variable (V : (c : Dev nD) → (b : Ref sig .tc) → Buf (Elt F) ((c : Thread nD τ).loc b))

/-! ## Where the windows are idle

The two inputs are read at every point. The output block is stored only at the last step of a row of the grid
(`kv = 4`), where it is also written back; at the other points its buffer is neither stored into nor written back. -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬t.val % 5 = 4 → cfg2.idle 2 (grid2.coords t) = true := by decide +kernel
theorem noFlush2_2 : ∀ t : Fin cfg2.N, ¬t.val % 5 = 4 → (cfg2.win 2).flush t = false := by decide +kernel
theorem liveAt2_2 : ∀ t : Fin cfg2.N, t.val % 5 = 4 → cfg2.idle 2 (grid2.coords t) = false := by decide +kernel

/-! ## The memrefs the body is called with -/

/-- Each window's current staging memref at point `t`, and its wholeness. -/
abbrev ms2_0 (t : Fin cfg2.N) : Memref sig .tc .vmem S1000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1000x128 .f32 := win2_2.stage (cfg2.slots t 2)
abbrev hs2_2 (t : Fin cfg2.N) : (ms2_2 t).IsWhole := hstage2_2 ((cfg2.slots t 2).cast nbuf2_2)
/-- The three buffers the body carries its statistics in between points: the running maximum, the running
    normaliser, the running weighted sum. -/
abbrev scM2_0 : Memref sig .tc .vmem S1000x1 .f32 := Memref.whole cc2_scratch0
abbrev scM2_1 : Memref sig .tc .vmem S1000x1 .f32 := Memref.whole cc2_scratch1
abbrev scM2_2 : Memref sig .tc .vmem S1000x128 .f32 := Memref.whole cc2_scratch2

/-- Every other scoped buffer of the core (the other regions' staging buffers and statistics), at some contents each:
    carried through this region unopened. -/
abbrev rest2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- What the region is entered with: the three statistics buffers at some contents each, the other scoped buffers, the
    generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ rest2 c) ∗ (∃ r, prngReg c r)) := by
  unfold Pipeline.ΦA; rw [scopedRest2_split]; simp only [scM2_0, scM2_1, scM2_2, owns_whole]; try rfl

/-! ## The windows' blocks -/

/-- Window `w`'s block at point `t`, read off its array as the region finds it (`V`): for window 0 the query rows
    `1000·(t / 5) …`, for window 1 the key/value rows `2000·(t % 5) …`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The query block's buffer holds the query block at EVERY point of a row of the grid, though it is fetched at the
    row's first point only: the block index does not move within the row and the body leaves the buffer as it was. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The key/value block's buffer holds the point's key/value block (fetched at every point). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body has computed after each point -/

/-- One point's work from the statistics `s = (m, l, acc)`: the output block `blk − acc' / l'` (what the body stores at
    the last step of a row; at the other points nothing reads this component), then `(m', l', acc')`. -/
def stStep2 (blk : Vec F S1000x128 .f32) (full : Vec F S2000x128 .bf16) (s : Vec F S1000x1 .f32 × Vec F S1000x1 .f32 × Vec F S1000x128 .f32) : Vec F S1000x128 .f32 × Vec F S1000x1 .f32 × Vec F S1000x1 .f32 × Vec F S1000x128 .f32 :=
  (outFin2 blk (lNext2 blk full s.1 s.2.1) (accNext2 blk full s.1 s.2.2), mNext2 blk full s.1, lNext2 blk full s.1 s.2.1, accNext2 blk full s.1 s.2.2)

/-- The statistics a row of the grid starts from: `(−∞, 0, 0)`. -/
def stInit2 : Vec F S1000x1 .f32 × Vec F S1000x1 .f32 × Vec F S1000x128 .f32 := (mInit2, lInit2, accInit2)

/-- THE ACCUMULATION: (output block, `m`, `l`, `acc`) after the body at point `n`, by recursion on the point. At the
    first step of a row (`n % 5 = 0`) the step starts from the initial statistics; at every other from what point
    `n − 1` left. The first component is the output block `blk − acc / l` of the statistics after the point: the body
    stores it at the last step of a row (`n % 5 = 4`), and only there is it read. -/
def stAt2 (c : Dev nD) : (n : ℕ) → n < cfg2.N → Vec F S1000x128 .f32 × Vec F S1000x1 .f32 × Vec F S1000x1 .f32 × Vec F S1000x128 .f32
  | 0, hn => stStep2 (iblk2 V c 0 ⟨0, hn⟩) (iblk2 V c 1 ⟨0, hn⟩) stInit2
  | n + 1, hn =>
    if (n + 1) % 5 = 0 then stStep2 (iblk2 V c 0 ⟨n + 1, hn⟩) (iblk2 V c 1 ⟨n + 1, hn⟩) stInit2
    else stStep2 (iblk2 V c 0 ⟨n + 1, hn⟩) (iblk2 V c 1 ⟨n + 1, hn⟩) (stAt2 c n (Nat.lt_of_succ_lt hn)).2

/-- At the first step of a row: one step from the initial statistics. -/
theorem stAt2_eq_first (c : Dev nD) (t : Fin cfg2.N) (h : t.val % 5 = 0) :
    stAt2 V c t.val t.isLt = stStep2 (iblk2 V c 0 t) (iblk2 V c 1 t) stInit2 := by
  obtain ⟨n, hn⟩ := t
  cases n with
  | zero => rfl
  | succ n => exact if_pos h

/-- At any other step: one step from what the point before left. -/
theorem stAt2_eq_step (c : Dev nD) (t : Fin cfg2.N) (h : ¬t.val % 5 = 0) :
    stAt2 V c t.val t.isLt = stStep2 (iblk2 V c 0 t) (iblk2 V c 1 t) (stAt2 V c (t.val - 1) (Nat.lt_of_le_of_lt (Nat.sub_le _ _) t.isLt)).2 := by
  obtain ⟨n, hn⟩ := t
  cases n with
  | zero => exact absurd (Nat.zero_mod _) h
  | succ n => exact if_neg h

/-- The statistics after the first step of a row. -/
theorem stAt2_first (c : Dev nD) (t : Fin cfg2.N) (h : t.val % 5 = 0) :
    (stAt2 V c t.val t.isLt).2 = (mNext2 (iblk2 V c 0 t) (iblk2 V c 1 t) mInit2, lNext2 (iblk2 V c 0 t) (iblk2 V c 1 t) mInit2 lInit2, accNext2 (iblk2 V c 0 t) (iblk2 V c 1 t) mInit2 accInit2) := by
  rw [stAt2_eq_first V c t h]; rfl

/-- The statistics after any other step, from those the point before left. -/
theorem stAt2_step (c : Dev nD) (t : Fin cfg2.N) (h : t.val % 5 ≠ 0) :
    (stAt2 V c t.val t.isLt).2 = (mNext2 (iblk2 V c 0 t) (iblk2 V c 1 t) (stAt2 V c (t.val - 1) (Nat.lt_of_le_of_lt (Nat.sub_le _ _) t.isLt)).2.1, lNext2 (iblk2 V c 0 t) (iblk2 V c 1 t) (stAt2 V c (t.val - 1) (Nat.lt_of_le_of_lt (Nat.sub_le _ _) t.isLt)).2.1 (stAt2 V c (t.val - 1) (Nat.lt_of_le_of_lt (Nat.sub_le _ _) t.isLt)).2.2.1, accNext2 (iblk2 V c 0 t) (iblk2 V c 1 t) (stAt2 V c (t.val - 1) (Nat.lt_of_le_of_lt (Nat.sub_le _ _) t.isLt)).2.1 (stAt2 V c (t.val - 1) (Nat.lt_of_le_of_lt (Nat.sub_le _ _) t.isLt)).2.2.2) := by
  rw [stAt2_eq_step V c t h]; rfl

/-- The output block the last step of a row stores: `blk − acc / l` of the statistics after that step. -/
theorem stAt2_out (c : Dev nD) (t : Fin cfg2.N) (h : t.val % 5 = 4) :
    (stAt2 V c t.val t.isLt).1 = outFin2 (iblk2 V c 0 t) (stAt2 V c t.val t.isLt).2.2.1 (stAt2 V c t.val t.isLt).2.2.2 := by
  rw [stAt2_eq_step V c t (by omega)]; rfl

/-! ## The invariant -/

/-- The region's invariant before position `n`: before the first point what the region is entered with; afterwards
    the three statistics buffers at what the point before left, the other scoped buffers and the generator register
    as they come. -/
def PhiS2 (c : Dev nD) : (n : ℕ) → n ≤ cfg2.N → sProp 𝕄
  | 0, _ => Pipeline.ΦA spec2 c
  | n + 1, hn => iprop(iprop(iprop(owns (c : Thread nD τ) scM2_0 fullShare (stAt2 V c n hn).2.1 ∗ owns (c : Thread nD τ) scM2_1 fullShare (stAt2 V c n hn).2.2.1 ∗ owns (c : Thread nD τ) scM2_2 fullShare (stAt2 V c n hn).2.2.2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (stAt2 V c n hn).2.1 ∗ owns (c : Thread nD τ) scM2_1 fullShare (stAt2 V c n hn).2.2.1 ∗ owns (c : Thread nD τ) scM2_2 fullShare (stAt2 V c n hn).2.2.2) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (stAt2 V c (n - 1) (by omega)).2.1 ∗ owns (c : Thread nD τ) scM2_1 fullShare (stAt2 V c (n - 1) (by omega)).2.2.1 ∗ owns (c : Thread nD τ) scM2_2 fullShare (stAt2 V c (n - 1) (by omega)).2.2.2) ∗ rest2 c) ∗ (∃ r, prngReg c r)) := by
  cases n with
  | zero => exact absurd rfl hz
  | succ n => rfl

/-! ## The pipeline's proof data -/

/-- The proof data of this region on core `c`: the arrays as the region finds them (`V`); after the body at point `t`
    each input's buffer at its block and the output's at `stAt2`'s first component; the invariant `PhiS2`; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (stAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (stAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' buffers hold their blocks; `t % 5` says which case the point is in. At the
    first step of a row the statistics buffers are handed over at whatever they hold (named or not) and come back
    one step from the initial statistics; at a later step they are handed over at what the point before left and come
    back one step on; at the last step the output block's buffer, at anything, comes back at `blk − acc / l`, and at
    the other steps it goes through untouched. The other scoped buffers, the generator register and the core's
    tallies go through unopened. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 50 := lt_of_lt_of_eq t.isLt (show cfg2.N = 50 from N_2)
  by_cases h0 : t.val % 5 = 0
  · have h4 : ¬t.val % 5 = 4 := by omega
    rw [Dat.leavesExact_idle (dat2 V c) 2 t (idleAt2_2 t h4) (noFlush2_2 t h4)]
    rw [stAt2_eq_first V c t h0]
    unfold stStep2 stInit2; dsimp only
    by_cases hz : t.val = 0
    · rw [PhiS2_castSucc V c t, PhiS2_zero V c _ _ hz, PhiA2_eq]
      iintro ⟨⟨⟨⟨HS0, HS1, HS2⟩, Hr⟩, Hg⟩, Ho, ⟨%d0, H0⟩, ⟨%d1, H1⟩, ⟨%d2, H2⟩⟩
      iapply (kernelRun2_A c (grid2.coords t) _ _ _ _ _ _ _ _ _ _ _ _ ((hcond2_0 t).mpr h0) (fun h => h4 ((hcond2_1 t).mp h)) (iblk2 V c 0 t) (iblk2 V c 1 t) _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨⟨HS0, HS1, HS2⟩, Hr⟩, Hg⟩, Ho, ⟨%d0, H0⟩, ⟨%d1, H1⟩, ⟨%d2, H2⟩⟩
      iapply (kernelRun2_A c (grid2.coords t) _ _ _ _ _ _ _ _ _ _ _ _ ((hcond2_0 t).mpr h0) (fun h => h4 ((hcond2_1 t).mp h)) (iblk2 V c 0 t) (iblk2 V c 1 t) _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
  · have hz : t.val ≠ 0 := fun h => h0 (by rw [h])
    rw [stAt2_eq_step V c t h0]
    unfold stStep2; dsimp only
    rw [PhiS2_castSucc V c t, PhiS2_pos V c _ _ hz]
    by_cases h4 : t.val % 5 = 4
    · rw [show (dat2 V c).leavesExact 2 t = owns (c : Thread nD τ) (ms2_2 t) fullShare ((dat2 V c).after 2 t) from by
        unfold Dat.leavesExact; rw [liveAt2_2 t h4], after2_2]
      rw [stAt2_eq_step V c t h0]
      unfold stStep2; dsimp only
      iintro ⟨⟨⟨⟨HS0, HS1, HS2⟩, Hr⟩, Hg⟩, Ho, ⟨%d0, H0⟩, ⟨%d1, H1⟩, ⟨%d2, H2⟩⟩
      iapply (kernelRun2_C c (grid2.coords t) _ _ _ _ _ _ _ _ _ _ _ _ (fun h => h0 ((hcond2_0 t).mp h)) ((hcond2_1 t).mpr h4) (iblk2 V c 0 t) (iblk2 V c 1 t) _ _ _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexact H2
    · rw [Dat.leavesExact_idle (dat2 V c) 2 t (idleAt2_2 t h4) (noFlush2_2 t h4)]
      iintro ⟨⟨⟨⟨HS0, HS1, HS2⟩, Hr⟩, Hg⟩, Ho, ⟨%d0, H0⟩, ⟨%d1, H1⟩, ⟨%d2, H2⟩⟩
      iapply (kernelRun2_B c (grid2.coords t) _ _ _ _ _ _ _ _ _ _ _ _ (fun h => h0 ((hcond2_0 t).mp h)) (fun h => h4 ((hcond2_1 t).mp h)) (iblk2 V c 0 t) (iblk2 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the region was entered with: the statistics' named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 50 := N_2; omega)

end Cert.Kernel.Hand

end
-- ==== Proof.K.Attn3.lean ====
/-
  Region 3 of the program: one cross-attention call on the grid (10, 5). Point `t` works on query block `t / 5`
  (1000 rows) against key/value block `t % 5` (2000 rows) and carries three statistics between points: the running row
  maximum `m`, the running normaliser `l`, the running weighted sum `acc` (the online softmax). This module states, generic
  in the float model and at ANY contents `V` of the core's buffers at the region's entry: one step of the statistics as
  pure functions of the two blocks; the body's behaviour in its three cases (first, middle, last step of a row of the
  grid); what the statistics and the output block are after each point, by recursion on the point (`stAt3`); the
  invariant that carries the statistics from point to point; the proof data of the region and its body obligation.
-/
import proofs.«407386_j15839839387945_2_alg».proof.Proof.Gen.Kernel.Launch
import proofs.«407386_j15839839387945_2_alg».proof.Proof.Gen.Kernel.Skeleton
import proofs.«407386_j15839839387945_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block rectangle are zero on both axes. -/
theorem attnZeroOff3 : (![0, 0] : Fin 2 → Nat) = fun _ => 0 := funext fun a => by fin_cases a <;> rfl

/-- A buffer whose LAST store went through the whole-shape rectangle at zero offsets reads as that store's value,
    whatever the earlier stores and the prior contents were: the last store covers every index. -/
theorem attnLastStore3 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The two conditions of the body, decided over the grid

The grid is (10, 5): point `t` has key/value step `kv = t % 5`. The body resets its running statistics when `kv = 0`
and writes its output block when `kv = 4`. -/

/-- The reset condition (`kv = 0`), as the body computes it from the grid coordinates. -/
abbrev cond3_0 (i : grid3.Coords) : Prop := (Scalar.cmpi .ne (Scalar.extui (Scalar.cmpi .eq (BitVec.ofNat 32 (i 1).val) 0#32)) 0#32) = 1#1
/-- It holds exactly at the points ≡ 0 (mod 5). -/
theorem hcond3_0 : ∀ t : Fin cfg3.N, cond3_0 (grid3.coords t) ↔ t.val % 5 = 0 :=
  (by decide +kernel : ∀ t : Fin grid3.N, cond3_0 (grid3.coords t) ↔ t.val % 5 = 0)
/-- The finishing condition (`kv = 4`). -/
abbrev cond3_1 (i : grid3.Coords) : Prop := k3_cond2 i = 1#1
/-- It holds exactly at the points ≡ 4 (mod 5). -/
theorem hcond3_1 : ∀ t : Fin cfg3.N, cond3_1 (grid3.coords t) ↔ t.val % 5 = 4 :=
  (by decide +kernel : ∀ t : Fin grid3.N, cond3_1 (grid3.coords t) ↔ t.val % 5 = 4)

/-! ## One step of the online softmax, as pure functions of the blocks and the carried statistics

With `s = bf16(blk) · fullᵀ` the scores of a query block (rounded to bf16) against a key/value block, a step replaces the
running row maximum `m`, the running normaliser `l` and the running weighted sum `acc` by
`m' = max m (rowmax s)`, `l' = exp (m − m') · l + rowsum (exp (s − m'))`,
`acc' = exp (m − m') · acc + bf16(exp (s − m')) · full`;
the last step of a row of the grid leaves `blk − acc' / l'` in the output block. (Where floats are exact the two
roundings to bf16 are the identity.) -/

/-- The running maximum before the first key/value block: `−∞` in every row. -/
def mInit3 : Vec F S1000x1 .f32 := k3_pay4 (F := F)
/-- The running normaliser before the first key/value block: zero. -/
def lInit3 : Vec F S1000x1 .f32 := k3_pay5 (F := F)
/-- The running weighted sum before the first key/value block: zero. -/
def accInit3 : Vec F S1000x128 .f32 := k3_pay6 (F := F)
/-- The running maximum after a step: `max mPrev (rowmax s)`. -/
def mNext3 (blk : Vec F S1000x128 .f32) (full : Vec F S2000x128 .bf16) (mPrev : Vec F S1000x1 .f32) : Vec F S1000x1 .f32 :=
  k3_pay2 (k3_pay9 blk full mPrev)
/-- The running normaliser after a step: `exp (mPrev − m') · lPrev + rowsum (exp (s − m'))`. -/
def lNext3 (blk : Vec F S1000x128 .f32) (full : Vec F S2000x128 .bf16) (mPrev lPrev : Vec F S1000x1 .f32) : Vec F S1000x1 .f32 :=
  k3_pay12 blk full mPrev mPrev lPrev
/-- The running weighted sum after a step: `exp (mPrev − m') · accPrev + bf16(exp (s − m')) · full`. -/
def accNext3 (blk : Vec F S1000x128 .f32) (full : Vec F S2000x128 .bf16) (mPrev : Vec F S1000x1 .f32) (accPrev : Vec F S1000x128 .f32) : Vec F S1000x128 .f32 :=
  k3_pay1 (k3_pay13 blk full mPrev mPrev accPrev)
/-- The output block after the last step of a row of the grid: `blk − accFin / lFin`. -/
def outFin3 (blk : Vec F S1000x128 .f32) (lFin : Vec F S1000x1 .f32) (accFin : Vec F S1000x128 .f32) : Vec F S1000x128 .f32 :=
  k3_pay3 accFin lFin blk

/-! ## The body, case by case, on any whole memrefs -/

set_option maxHeartbeats 1000000 in
/-- A MIDDLE step (`0 < kv < 4`): from the two input blocks and the carried statistics `(xs0, xs1, xs2) = (m, l, acc)` the
    body leaves the statistics one step on, and does not touch the output block's buffer. Each of its three stores covers
    its whole buffer, so what a buffer reads afterwards is the stored value; each load before a store reads the contents
    the buffer came with. -/
theorem kernelRun3_B (c : Dev nD) (i : grid3.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond3_0 i) (hc1 : ¬cond3_1 i)
    (x0 : Vec F S1000x128 .f32) (x1 : Vec F S2000x128 .bf16) (xs0 xs1 : Vec F S1000x1 .f32) (xs2 : Vec F S1000x128 .f32)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1 ∗ owns (c : Thread nD τ) arg4 fullShare xi2
            ∗ owns (c : Thread nD τ) arg5 fullShare (mNext3 x0 x1 xs0) ∗ owns (c : Thread nD τ) arg6 fullShare (lNext3 x0 x1 xs0 xs1)
            ∗ owns (c : Thread nD τ) arg7 fullShare (accNext3 x0 x1 xs0 xs2)) -∗ K ⟨⟩))
      ⊢ wp frame (wpE (defs₀ (F := F)) Variants.none c none) E (cc3__cross_attn_kernel i arg2 harg2 arg3 harg3 arg4 harg4 arg5 harg5 arg6 harg6 arg7 harg7) K := by
  simp only [cc3__cross_attn_kernel_eq_skeleton]; unfold cc3__cross_attn_kernel_skel
  simp only [k3_part1_eq_skeleton]; unfold k3_part1_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext3
    refine (attnLastStore3 (S := S1000x1) _ _ attnZeroOff3 _ _ _).trans ?_
    dsimp only
    simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3]
  isplitl [HS1]
  · iexists _; isplitr
    swap; · iexact HS1
    ipureintro
    unfold lNext3
    refine (attnLastStore3 (S := S1000x1) _ _ attnZeroOff3 _ _ _).trans ?_
    dsimp only
    simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3]
  iexists _; isplitr
  swap; · iexact HS2
  ipureintro
  unfold accNext3
  refine (attnLastStore3 (S := S1000x128) _ _ attnZeroOff3 _ _ _).trans ?_
  dsimp only
  simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3]

set_option maxHeartbeats 1000000 in
/-- A FIRST step (`kv = 0`): whatever the three statistics buffers held, the body first stores the initial statistics
    `(−∞, 0, 0)` over them and then makes a step from those; the output block's buffer is not touched. A load after the
    reset reads the reset value (the reset store covers the buffer). -/
theorem kernelRun3_A (c : Dev nD) (i : grid3.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : cond3_0 i) (hc1 : ¬cond3_1 i)
    (x0 : Vec F S1000x128 .f32) (x1 : Vec F S2000x128 .bf16)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (mNext3 x0 x1 mInit3) ∗ owns (c : Thread nD τ) arg6 fullShare (lNext3 x0 x1 mInit3 lInit3)
            ∗ owns (c : Thread nD τ) arg7 fullShare (accNext3 x0 x1 mInit3 accInit3)) -∗ K ⟨⟩))
      ⊢ wp frame (wpE (defs₀ (F := F)) Variants.none c none) E (cc3__cross_attn_kernel i arg2 harg2 arg3 harg3 arg4 harg4 arg5 harg5 arg6 harg6 arg7 harg7) K := by
  simp only [cc3__cross_attn_kernel_eq_skeleton]; unfold cc3__cross_attn_kernel_skel
  simp only [k3_part1_eq_skeleton]; unfold k3_part1_skel
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext3 mInit3
    refine (attnLastStore3 (S := S1000x1) _ _ attnZeroOff3 _ _ _).trans ?_
    dsimp only
    sl_unfold_run_names
    simp only [View.readAt_eq_ld, harg2.read_unread, harg3.read_unread,
      View.ld_unit_zero (S := S1000x128) attnZeroOff3, View.ld_unit_zero (S := S2000x128) attnZeroOff3,
      View.readCov_unit_zero (S := S1000x1) _ attnZeroOff3, View.readCov_unit_zero (S := S1000x128) _ attnZeroOff3]
  isplitl [HS1]
  · iexists _; isplitr
    swap; · iexact HS1
    ipureintro
    unfold lNext3 mInit3 lInit3
    refine (attnLastStore3 (S := S1000x1) _ _ attnZeroOff3 _ _ _).trans ?_
    dsimp only
    sl_unfold_run_names
    simp only [View.readAt_eq_ld, harg2.read_unread, harg3.read_unread,
      View.ld_unit_zero (S := S1000x128) attnZeroOff3, View.ld_unit_zero (S := S2000x128) attnZeroOff3,
      View.readCov_unit_zero (S := S1000x1) _ attnZeroOff3, View.readCov_unit_zero (S := S1000x128) _ attnZeroOff3]
  iexists _; isplitr
  swap; · iexact HS2
  ipureintro
  unfold accNext3 mInit3 accInit3
  refine (attnLastStore3 (S := S1000x128) _ _ attnZeroOff3 _ _ _).trans ?_
  dsimp only
  sl_unfold_run_names
  simp only [View.readAt_eq_ld, harg2.read_unread, harg3.read_unread,
      View.ld_unit_zero (S := S1000x128) attnZeroOff3, View.ld_unit_zero (S := S2000x128) attnZeroOff3,
      View.readCov_unit_zero (S := S1000x1) _ attnZeroOff3, View.readCov_unit_zero (S := S1000x128) _ attnZeroOff3]

set_option maxHeartbeats 1000000 in
/-- A LAST step (`kv = 4`): a middle step, after which the body reads the statistics it has just stored and the query
    block, and stores `blk − acc' / l'` over the whole output block's buffer, whatever that held. -/
theorem kernelRun3_C (c : Dev nD) (i : grid3.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond3_0 i) (hc1 : cond3_1 i)
    (x0 : Vec F S1000x128 .f32) (x1 : Vec F S2000x128 .bf16) (xs0 xs1 : Vec F S1000x1 .f32) (xs2 : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outFin3 x0 (lNext3 x0 x1 xs0 xs1) (accNext3 x0 x1 xs0 xs2))
            ∗ owns (c : Thread nD τ) arg5 fullShare (mNext3 x0 x1 xs0) ∗ owns (c : Thread nD τ) arg6 fullShare (lNext3 x0 x1 xs0 xs1)
            ∗ owns (c : Thread nD τ) arg7 fullShare (accNext3 x0 x1 xs0 xs2)) -∗ K ⟨⟩))
      ⊢ wp frame (wpE (defs₀ (F := F)) Variants.none c none) E (cc3__cross_attn_kernel i arg2 harg2 arg3 harg3 arg4 harg4 arg5 harg5 arg6 harg6 arg7 harg7) K := by
  simp only [cc3__cross_attn_kernel_eq_skeleton]; unfold cc3__cross_attn_kernel_skel
  simp only [k3_part1_eq_skeleton]; unfold k3_part1_skel
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold outFin3 lNext3 accNext3
    refine (attnLastStore3 (S := S1000x128) _ _ attnZeroOff3 _ _ _).trans ?_
    dsimp only
    sl_unfold_run_names
    simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3,
      View.readCov_unit_zero (S := S1000x1) _ attnZeroOff3, View.readCov_unit_zero (S := S1000x128) _ attnZeroOff3]
  isplitl [HS0]
  · iexists _; isplitr
    swap; · iexact HS0
    ipureintro
    unfold mNext3
    refine (attnLastStore3 (S := S1000x1) _ _ attnZeroOff3 _ _ _).trans ?_
    dsimp only
    sl_unfold_run_names
    simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3,
      View.readCov_unit_zero (S := S1000x1) _ attnZeroOff3, View.readCov_unit_zero (S := S1000x128) _ attnZeroOff3]
  isplitl [HS1]
  · iexists _; isplitr
    swap; · iexact HS1
    ipureintro
    unfold lNext3
    refine (attnLastStore3 (S := S1000x1) _ _ attnZeroOff3 _ _ _).trans ?_
    dsimp only
    sl_unfold_run_names
    simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3,
      View.readCov_unit_zero (S := S1000x1) _ attnZeroOff3, View.readCov_unit_zero (S := S1000x128) _ attnZeroOff3]
  iexists _; isplitr
  swap; · iexact HS2
  ipureintro
  unfold accNext3
  refine (attnLastStore3 (S := S1000x128) _ _ attnZeroOff3 _ _ _).trans ?_
  dsimp only
  sl_unfold_run_names
  simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3,
      View.readCov_unit_zero (S := S1000x1) _ attnZeroOff3, View.readCov_unit_zero (S := S1000x128) _ attnZeroOff3]

variable (V : (c : Dev nD) → (b : Ref sig .tc) → Buf (Elt F) ((c : Thread nD τ).loc b))

/-! ## Where the windows are idle

The two inputs are read at every point. The output block is stored only at the last step of a row of the grid
(`kv = 4`), where it is also written back; at the other points its buffer is neither stored into nor written back. -/

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬t.val % 5 = 4 → cfg3.idle 2 (grid3.coords t) = true := by decide +kernel
theorem noFlush3_2 : ∀ t : Fin cfg3.N, ¬t.val % 5 = 4 → (cfg3.win 2).flush t = false := by decide +kernel
theorem liveAt3_2 : ∀ t : Fin cfg3.N, t.val % 5 = 4 → cfg3.idle 2 (grid3.coords t) = false := by decide +kernel

/-! ## The memrefs the body is called with -/

/-- Each window's current staging memref at point `t`, and its wholeness. -/
abbrev ms3_0 (t : Fin cfg3.N) : Memref sig .tc .vmem S1000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1000x128 .f32 := win3_2.stage (cfg3.slots t 2)
abbrev hs3_2 (t : Fin cfg3.N) : (ms3_2 t).IsWhole := hstage3_2 ((cfg3.slots t 2).cast nbuf3_2)
/-- The three buffers the body carries its statistics in between points: the running maximum, the running
    normaliser, the running weighted sum. -/
abbrev scM3_0 : Memref sig .tc .vmem S1000x1 .f32 := Memref.whole cc3_scratch0
abbrev scM3_1 : Memref sig .tc .vmem S1000x1 .f32 := Memref.whole cc3_scratch1
abbrev scM3_2 : Memref sig .tc .vmem S1000x128 .f32 := Memref.whole cc3_scratch2

/-- Every other scoped buffer of the core (the other regions' staging buffers and statistics), at some contents each:
    carried through this region unopened. -/
abbrev rest3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- What the region is entered with: the three statistics buffers at some contents each, the other scoped buffers, the
    generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ rest3 c) ∗ (∃ r, prngReg c r)) := by
  unfold Pipeline.ΦA; rw [scopedRest3_split]; simp only [scM3_0, scM3_1, scM3_2, owns_whole]; try rfl

/-! ## The windows' blocks -/

/-- Window `w`'s block at point `t`, read off its array as the region finds it (`V`): for window 0 the query rows
    `1000·(t / 5) …`, for window 1 the key/value rows `2000·(t % 5) …`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query block's buffer holds the query block at EVERY point of a row of the grid, though it is fetched at the
    row's first point only: the block index does not move within the row and the body leaves the buffer as it was. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The key/value block's buffer holds the point's key/value block (fetched at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body has computed after each point -/

/-- One point's work from the statistics `s = (m, l, acc)`: the output block `blk − acc' / l'` (what the body stores at
    the last step of a row; at the other points nothing reads this component), then `(m', l', acc')`. -/
def stStep3 (blk : Vec F S1000x128 .f32) (full : Vec F S2000x128 .bf16) (s : Vec F S1000x1 .f32 × Vec F S1000x1 .f32 × Vec F S1000x128 .f32) : Vec F S1000x128 .f32 × Vec F S1000x1 .f32 × Vec F S1000x1 .f32 × Vec F S1000x128 .f32 :=
  (outFin3 blk (lNext3 blk full s.1 s.2.1) (accNext3 blk full s.1 s.2.2), mNext3 blk full s.1, lNext3 blk full s.1 s.2.1, accNext3 blk full s.1 s.2.2)

/-- The statistics a row of the grid starts from: `(−∞, 0, 0)`. -/
def stInit3 : Vec F S1000x1 .f32 × Vec F S1000x1 .f32 × Vec F S1000x128 .f32 := (mInit3, lInit3, accInit3)

/-- THE ACCUMULATION: (output block, `m`, `l`, `acc`) after the body at point `n`, by recursion on the point. At the
    first step of a row (`n % 5 = 0`) the step starts from the initial statistics; at every other from what point
    `n − 1` left. The first component is the output block `blk − acc / l` of the statistics after the point: the body
    stores it at the last step of a row (`n % 5 = 4`), and only there is it read. -/
def stAt3 (c : Dev nD) : (n : ℕ) → n < cfg3.N → Vec F S1000x128 .f32 × Vec F S1000x1 .f32 × Vec F S1000x1 .f32 × Vec F S1000x128 .f32
  | 0, hn => stStep3 (iblk3 V c 0 ⟨0, hn⟩) (iblk3 V c 1 ⟨0, hn⟩) stInit3
  | n + 1, hn =>
    if (n + 1) % 5 = 0 then stStep3 (iblk3 V c 0 ⟨n + 1, hn⟩) (iblk3 V c 1 ⟨n + 1, hn⟩) stInit3
    else stStep3 (iblk3 V c 0 ⟨n + 1, hn⟩) (iblk3 V c 1 ⟨n + 1, hn⟩) (stAt3 c n (Nat.lt_of_succ_lt hn)).2

/-- At the first step of a row: one step from the initial statistics. -/
theorem stAt3_eq_first (c : Dev nD) (t : Fin cfg3.N) (h : t.val % 5 = 0) :
    stAt3 V c t.val t.isLt = stStep3 (iblk3 V c 0 t) (iblk3 V c 1 t) stInit3 := by
  obtain ⟨n, hn⟩ := t
  cases n with
  | zero => rfl
  | succ n => exact if_pos h

/-- At any other step: one step from what the point before left. -/
theorem stAt3_eq_step (c : Dev nD) (t : Fin cfg3.N) (h : ¬t.val % 5 = 0) :
    stAt3 V c t.val t.isLt = stStep3 (iblk3 V c 0 t) (iblk3 V c 1 t) (stAt3 V c (t.val - 1) (Nat.lt_of_le_of_lt (Nat.sub_le _ _) t.isLt)).2 := by
  obtain ⟨n, hn⟩ := t
  cases n with
  | zero => exact absurd (Nat.zero_mod _) h
  | succ n => exact if_neg h

/-- The statistics after the first step of a row. -/
theorem stAt3_first (c : Dev nD) (t : Fin cfg3.N) (h : t.val % 5 = 0) :
    (stAt3 V c t.val t.isLt).2 = (mNext3 (iblk3 V c 0 t) (iblk3 V c 1 t) mInit3, lNext3 (iblk3 V c 0 t) (iblk3 V c 1 t) mInit3 lInit3, accNext3 (iblk3 V c 0 t) (iblk3 V c 1 t) mInit3 accInit3) := by
  rw [stAt3_eq_first V c t h]; rfl

/-- The statistics after any other step, from those the point before left. -/
theorem stAt3_step (c : Dev nD) (t : Fin cfg3.N) (h : t.val % 5 ≠ 0) :
    (stAt3 V c t.val t.isLt).2 = (mNext3 (iblk3 V c 0 t) (iblk3 V c 1 t) (stAt3 V c (t.val - 1) (Nat.lt_of_le_of_lt (Nat.sub_le _ _) t.isLt)).2.1, lNext3 (iblk3 V c 0 t) (iblk3 V c 1 t) (stAt3 V c (t.val - 1) (Nat.lt_of_le_of_lt (Nat.sub_le _ _) t.isLt)).2.1 (stAt3 V c (t.val - 1) (Nat.lt_of_le_of_lt (Nat.sub_le _ _) t.isLt)).2.2.1, accNext3 (iblk3 V c 0 t) (iblk3 V c 1 t) (stAt3 V c (t.val - 1) (Nat.lt_of_le_of_lt (Nat.sub_le _ _) t.isLt)).2.1 (stAt3 V c (t.val - 1) (Nat.lt_of_le_of_lt (Nat.sub_le _ _) t.isLt)).2.2.2) := by
  rw [stAt3_eq_step V c t h]; rfl

/-- The output block the last step of a row stores: `blk − acc / l` of the statistics after that step. -/
theorem stAt3_out (c : Dev nD) (t : Fin cfg3.N) (h : t.val % 5 = 4) :
    (stAt3 V c t.val t.isLt).1 = outFin3 (iblk3 V c 0 t) (stAt3 V c t.val t.isLt).2.2.1 (stAt3 V c t.val t.isLt).2.2.2 := by
  rw [stAt3_eq_step V c t (by omega)]; rfl

/-! ## The invariant -/

/-- The region's invariant before position `n`: before the first point what the region is entered with; afterwards
    the three statistics buffers at what the point before left, the other scoped buffers and the generator register
    as they come. -/
def PhiS3 (c : Dev nD) : (n : ℕ) → n ≤ cfg3.N → sProp 𝕄
  | 0, _ => Pipeline.ΦA spec3 c
  | n + 1, hn => iprop(iprop(iprop(owns (c : Thread nD τ) scM3_0 fullShare (stAt3 V c n hn).2.1 ∗ owns (c : Thread nD τ) scM3_1 fullShare (stAt3 V c n hn).2.2.1 ∗ owns (c : Thread nD τ) scM3_2 fullShare (stAt3 V c n hn).2.2.2) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (stAt3 V c n hn).2.1 ∗ owns (c : Thread nD τ) scM3_1 fullShare (stAt3 V c n hn).2.2.1 ∗ owns (c : Thread nD τ) scM3_2 fullShare (stAt3 V c n hn).2.2.2) ∗ rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (stAt3 V c (n - 1) (by omega)).2.1 ∗ owns (c : Thread nD τ) scM3_1 fullShare (stAt3 V c (n - 1) (by omega)).2.2.1 ∗ owns (c : Thread nD τ) scM3_2 fullShare (stAt3 V c (n - 1) (by omega)).2.2.2) ∗ rest3 c) ∗ (∃ r, prngReg c r)) := by
  cases n with
  | zero => exact absurd rfl hz
  | succ n => rfl

/-! ## The pipeline's proof data -/

/-- The proof data of this region on core `c`: the arrays as the region finds them (`V`); after the body at point `t`
    each input's buffer at its block and the output's at `stAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (stAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (stAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' buffers hold their blocks; `t % 5` says which case the point is in. At the
    first step of a row the statistics buffers are handed over at whatever they hold (named or not) and come back
    one step from the initial statistics; at a later step they are handed over at what the point before left and come
    back one step on; at the last step the output block's buffer, at anything, comes back at `blk − acc / l`, and at
    the other steps it goes through untouched. The other scoped buffers, the generator register and the core's
    tallies go through unopened. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  have hN : t.val < 50 := lt_of_lt_of_eq t.isLt (show cfg3.N = 50 from N_3)
  by_cases h0 : t.val % 5 = 0
  · have h4 : ¬t.val % 5 = 4 := by omega
    rw [Dat.leavesExact_idle (dat3 V c) 2 t (idleAt3_2 t h4) (noFlush3_2 t h4)]
    rw [stAt3_eq_first V c t h0]
    unfold stStep3 stInit3; dsimp only
    by_cases hz : t.val = 0
    · rw [PhiS3_castSucc V c t, PhiS3_zero V c _ _ hz, PhiA3_eq]
      iintro ⟨⟨⟨⟨HS0, HS1, HS2⟩, Hr⟩, Hg⟩, Ho, ⟨%d0, H0⟩, ⟨%d1, H1⟩, ⟨%d2, H2⟩⟩
      iapply (kernelRun3_A c (grid3.coords t) _ _ _ _ _ _ _ _ _ _ _ _ ((hcond3_0 t).mpr h0) (fun h => h4 ((hcond3_1 t).mp h)) (iblk3 V c 0 t) (iblk3 V c 1 t) _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨⟨HS0, HS1, HS2⟩, Hr⟩, Hg⟩, Ho, ⟨%d0, H0⟩, ⟨%d1, H1⟩, ⟨%d2, H2⟩⟩
      iapply (kernelRun3_A c (grid3.coords t) _ _ _ _ _ _ _ _ _ _ _ _ ((hcond3_0 t).mpr h0) (fun h => h4 ((hcond3_1 t).mp h)) (iblk3 V c 0 t) (iblk3 V c 1 t) _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
  · have hz : t.val ≠ 0 := fun h => h0 (by rw [h])
    rw [stAt3_eq_step V c t h0]
    unfold stStep3; dsimp only
    rw [PhiS3_castSucc V c t, PhiS3_pos V c _ _ hz]
    by_cases h4 : t.val % 5 = 4
    · rw [show (dat3 V c).leavesExact 2 t = owns (c : Thread nD τ) (ms3_2 t) fullShare ((dat3 V c).after 2 t) from by
        unfold Dat.leavesExact; rw [liveAt3_2 t h4], after3_2]
      rw [stAt3_eq_step V c t h0]
      unfold stStep3; dsimp only
      iintro ⟨⟨⟨⟨HS0, HS1, HS2⟩, Hr⟩, Hg⟩, Ho, ⟨%d0, H0⟩, ⟨%d1, H1⟩, ⟨%d2, H2⟩⟩
      iapply (kernelRun3_C c (grid3.coords t) _ _ _ _ _ _ _ _ _ _ _ _ (fun h => h0 ((hcond3_0 t).mp h)) ((hcond3_1 t).mpr h4) (iblk3 V c 0 t) (iblk3 V c 1 t) _ _ _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexact H2
    · rw [Dat.leavesExact_idle (dat3 V c) 2 t (idleAt3_2 t h4) (noFlush3_2 t h4)]
      iintro ⟨⟨⟨⟨HS0, HS1, HS2⟩, Hr⟩, Hg⟩, Ho, ⟨%d0, H0⟩, ⟨%d1, H1⟩, ⟨%d2, H2⟩⟩
      iapply (kernelRun3_B c (grid3.coords t) _ _ _ _ _ _ _ _ _ _ _ _ (fun h => h0 ((hcond3_0 t).mp h)) (fun h => h4 ((hcond3_1 t).mp h)) (iblk3 V c 0 t) (iblk3 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives back what the region was entered with: the statistics' named
    contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 50 := N_3; omega)

end Cert.Kernel.Hand

end
-- ==== Proof.K.Attn6.lean ====
/-
  Region 6 of the program: one cross-attention call on the grid (10, 5). Point `t` works on query block `t / 5`
  (1000 rows) against key/value block `t % 5` (2000 rows) and carries three statistics between points: the running row
  maximum `m`, the running normaliser `l`, the running weighted sum `acc` (the online softmax). This module states, generic
  in the float model and at ANY contents `V` of the core's buffers at the region's entry: one step of the statistics as
  pure functions of the two blocks; the body's behaviour in its three cases (first, middle, last step of a row of the
  grid); what the statistics and the output block are after each point, by recursion on the point (`stAt6`); the
  invariant that carries the statistics from point to point; the proof data of the region and its body obligation.
-/
import proofs.«407386_j15839839387945_2_alg».proof.Proof.Gen.Kernel.Launch
import proofs.«407386_j15839839387945_2_alg».proof.Proof.Gen.Kernel.Skeleton
import proofs.«407386_j15839839387945_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block rectangle are zero on both axes. -/
theorem attnZeroOff6 : (![0, 0] : Fin 2 → Nat) = fun _ => 0 := funext fun a => by fin_cases a <;> rfl

/-- A buffer whose LAST store went through the whole-shape rectangle at zero offsets reads as that store's value,
    whatever the earlier stores and the prior contents were: the last store covers every index. -/
theorem attnLastStore6 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The two conditions of the body, decided over the grid

The grid is (10, 5): point `t` has key/value step `kv = t % 5`. The body resets its running statistics when `kv = 0`
and writes its output block when `kv = 4`. -/

/-- The reset condition (`kv = 0`), as the body computes it from the grid coordinates. -/
abbrev cond6_0 (i : grid6.Coords) : Prop := (Scalar.cmpi .ne (Scalar.extui (Scalar.cmpi .eq (BitVec.ofNat 32 (i 1).val) 0#32)) 0#32) = 1#1
/-- It holds exactly at the points ≡ 0 (mod 5). -/
theorem hcond6_0 : ∀ t : Fin cfg6.N, cond6_0 (grid6.coords t) ↔ t.val % 5 = 0 :=
  (by decide +kernel : ∀ t : Fin grid6.N, cond6_0 (grid6.coords t) ↔ t.val % 5 = 0)
/-- The finishing condition (`kv = 4`). -/
abbrev cond6_1 (i : grid6.Coords) : Prop := k6_cond2 i = 1#1
/-- It holds exactly at the points ≡ 4 (mod 5). -/
theorem hcond6_1 : ∀ t : Fin cfg6.N, cond6_1 (grid6.coords t) ↔ t.val % 5 = 4 :=
  (by decide +kernel : ∀ t : Fin grid6.N, cond6_1 (grid6.coords t) ↔ t.val % 5 = 4)

/-! ## One step of the online softmax, as pure functions of the blocks and the carried statistics

With `s = bf16(blk) · fullᵀ` the scores of a query block (rounded to bf16) against a key/value block, a step replaces the
running row maximum `m`, the running normaliser `l` and the running weighted sum `acc` by
`m' = max m (rowmax s)`, `l' = exp (m − m') · l + rowsum (exp (s − m'))`,
`acc' = exp (m − m') · acc + bf16(exp (s − m')) · full`;
the last step of a row of the grid leaves `blk − acc' / l'` in the output block. (Where floats are exact the two
roundings to bf16 are the identity.) -/

/-- The running maximum before the first key/value block: `−∞` in every row. -/
def mInit6 : Vec F S1000x1 .f32 := k6_pay4 (F := F)
/-- The running normaliser before the first key/value block: zero. -/
def lInit6 : Vec F S1000x1 .f32 := k6_pay5 (F := F)
/-- The running weighted sum before the first key/value block: zero. -/
def accInit6 : Vec F S1000x128 .f32 := k6_pay6 (F := F)
/-- The running maximum after a step: `max mPrev (rowmax s)`. -/
def mNext6 (blk : Vec F S1000x128 .f32) (full : Vec F S2000x128 .bf16) (mPrev : Vec F S1000x1 .f32) : Vec F S1000x1 .f32 :=
  k6_pay2 (k6_pay9 blk full mPrev)
/-- The running normaliser after a step: `exp (mPrev − m') · lPrev + rowsum (exp (s − m'))`. -/
def lNext6 (blk : Vec F S1000x128 .f32) (full : Vec F S2000x128 .bf16) (mPrev lPrev : Vec F S1000x1 .f32) : Vec F S1000x1 .f32 :=
  k6_pay12 blk full mPrev mPrev lPrev
/-- The running weighted sum after a step: `exp (mPrev − m') · accPrev + bf16(exp (s − m')) · full`. -/
def accNext6 (blk : Vec F S1000x128 .f32) (full : Vec F S2000x128 .bf16) (mPrev : Vec F S1000x1 .f32) (accPrev : Vec F S1000x128 .f32) : Vec F S1000x128 .f32 :=
  k6_pay1 (k6_pay13 blk full mPrev mPrev accPrev)
/-- The output block after the last step of a row of the grid: `blk − accFin / lFin`. -/
def outFin6 (blk : Vec F S1000x128 .f32) (lFin : Vec F S1000x1 .f32) (accFin : Vec F S1000x128 .f32) : Vec F S1000x128 .f32 :=
  k6_pay3 accFin lFin blk

/-! ## The body, case by case, on any whole memrefs -/

set_option maxHeartbeats 1000000 in
/-- A MIDDLE step (`0 < kv < 4`): from the two input blocks and the carried statistics `(xs0, xs1, xs2) = (m, l, acc)` the
    body leaves the statistics one step on, and does not touch the output block's buffer. Each of its three stores covers
    its whole buffer, so what a buffer reads afterwards is the stored value; each load before a store reads the contents
    the buffer came with. -/
theorem kernelRun6_B (c : Dev nD) (i : grid6.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond6_0 i) (hc1 : ¬cond6_1 i)
    (x0 : Vec F S1000x128 .f32) (x1 : Vec F S2000x128 .bf16) (xs0 xs1 : Vec F S1000x1 .f32) (xs2 : Vec F S1000x128 .f32)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1 ∗ owns (c : Thread nD τ) arg4 fullShare xi2
            ∗ owns (c : Thread nD τ) arg5 fullShare (mNext6 x0 x1 xs0) ∗ owns (c : Thread nD τ) arg6 fullShare (lNext6 x0 x1 xs0 xs1)
            ∗ owns (c : Thread nD τ) arg7 fullShare (accNext6 x0 x1 xs0 xs2)) -∗ K ⟨⟩))
      ⊢ wp frame (wpE (defs₀ (F := F)) Variants.none c none) E (cc6__cross_attn_kernel i arg2 harg2 arg3 harg3 arg4 harg4 arg5 harg5 arg6 harg6 arg7 harg7) K := by
  simp only [cc6__cross_attn_kernel_eq_skeleton]; unfold cc6__cross_attn_kernel_skel
  simp only [k6_part1_eq_skeleton]; unfold k6_part1_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext6
    refine (attnLastStore6 (S := S1000x1) _ _ attnZeroOff6 _ _ _).trans ?_
    dsimp only
    simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6]
  isplitl [HS1]
  · iexists _; isplitr
    swap; · iexact HS1
    ipureintro
    unfold lNext6
    refine (attnLastStore6 (S := S1000x1) _ _ attnZeroOff6 _ _ _).trans ?_
    dsimp only
    simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6]
  iexists _; isplitr
  swap; · iexact HS2
  ipureintro
  unfold accNext6
  refine (attnLastStore6 (S := S1000x128) _ _ attnZeroOff6 _ _ _).trans ?_
  dsimp only
  simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6]

set_option maxHeartbeats 1000000 in
/-- A FIRST step (`kv = 0`): whatever the three statistics buffers held, the body first stores the initial statistics
    `(−∞, 0, 0)` over them and then makes a step from those; the output block's buffer is not touched. A load after the
    reset reads the reset value (the reset store covers the buffer). -/
theorem kernelRun6_A (c : Dev nD) (i : grid6.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : cond6_0 i) (hc1 : ¬cond6_1 i)
    (x0 : Vec F S1000x128 .f32) (x1 : Vec F S2000x128 .bf16)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (mNext6 x0 x1 mInit6) ∗ owns (c : Thread nD τ) arg6 fullShare (lNext6 x0 x1 mInit6 lInit6)
            ∗ owns (c : Thread nD τ) arg7 fullShare (accNext6 x0 x1 mInit6 accInit6)) -∗ K ⟨⟩))
      ⊢ wp frame (wpE (defs₀ (F := F)) Variants.none c none) E (cc6__cross_attn_kernel i arg2 harg2 arg3 harg3 arg4 harg4 arg5 harg5 arg6 harg6 arg7 harg7) K := by
  simp only [cc6__cross_attn_kernel_eq_skeleton]; unfold cc6__cross_attn_kernel_skel
  simp only [k6_part1_eq_skeleton]; unfold k6_part1_skel
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext6 mInit6
    refine (attnLastStore6 (S := S1000x1) _ _ attnZeroOff6 _ _ _).trans ?_
    dsimp only
    sl_unfold_run_names
    simp only [View.readAt_eq_ld, harg2.read_unread, harg3.read_unread,
      View.ld_unit_zero (S := S1000x128) attnZeroOff6, View.ld_unit_zero (S := S2000x128) attnZeroOff6,
      View.readCov_unit_zero (S := S1000x1) _ attnZeroOff6, View.readCov_unit_zero (S := S1000x128) _ attnZeroOff6]
  isplitl [HS1]
  · iexists _; isplitr
    swap; · iexact HS1
    ipureintro
    unfold lNext6 mInit6 lInit6
    refine (attnLastStore6 (S := S1000x1) _ _ attnZeroOff6 _ _ _).trans ?_
    dsimp only
    sl_unfold_run_names
    simp only [View.readAt_eq_ld, harg2.read_unread, harg3.read_unread,
      View.ld_unit_zero (S := S1000x128) attnZeroOff6, View.ld_unit_zero (S := S2000x128) attnZeroOff6,
      View.readCov_unit_zero (S := S1000x1) _ attnZeroOff6, View.readCov_unit_zero (S := S1000x128) _ attnZeroOff6]
  iexists _; isplitr
  swap; · iexact HS2
  ipureintro
  unfold accNext6 mInit6 accInit6
  refine (attnLastStore6 (S := S1000x128) _ _ attnZeroOff6 _ _ _).trans ?_
  dsimp only
  sl_unfold_run_names
  simp only [View.readAt_eq_ld, harg2.read_unread, harg3.read_unread,
      View.ld_unit_zero (S := S1000x128) attnZeroOff6, View.ld_unit_zero (S := S2000x128) attnZeroOff6,
      View.readCov_unit_zero (S := S1000x1) _ attnZeroOff6, View.readCov_unit_zero (S := S1000x128) _ attnZeroOff6]

set_option maxHeartbeats 1000000 in
/-- A LAST step (`kv = 4`): a middle step, after which the body reads the statistics it has just stored and the query
    block, and stores `blk − acc' / l'` over the whole output block's buffer, whatever that held. -/
theorem kernelRun6_C (c : Dev nD) (i : grid6.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond6_0 i) (hc1 : cond6_1 i)
    (x0 : Vec F S1000x128 .f32) (x1 : Vec F S2000x128 .bf16) (xs0 xs1 : Vec F S1000x1 .f32) (xs2 : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outFin6 x0 (lNext6 x0 x1 xs0 xs1) (accNext6 x0 x1 xs0 xs2))
            ∗ owns (c : Thread nD τ) arg5 fullShare (mNext6 x0 x1 xs0) ∗ owns (c : Thread nD τ) arg6 fullShare (lNext6 x0 x1 xs0 xs1)
            ∗ owns (c : Thread nD τ) arg7 fullShare (accNext6 x0 x1 xs0 xs2)) -∗ K ⟨⟩))
      ⊢ wp frame (wpE (defs₀ (F := F)) Variants.none c none) E (cc6__cross_attn_kernel i arg2 harg2 arg3 harg3 arg4 harg4 arg5 harg5 arg6 harg6 arg7 harg7) K := by
  simp only [cc6__cross_attn_kernel_eq_skeleton]; unfold cc6__cross_attn_kernel_skel
  simp only [k6_part1_eq_skeleton]; unfold k6_part1_skel
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold outFin6 lNext6 accNext6
    refine (attnLastStore6 (S := S1000x128) _ _ attnZeroOff6 _ _ _).trans ?_
    dsimp only
    sl_unfold_run_names
    simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6,
      View.readCov_unit_zero (S := S1000x1) _ attnZeroOff6, View.readCov_unit_zero (S := S1000x128) _ attnZeroOff6]
  isplitl [HS0]
  · iexists _; isplitr
    swap; · iexact HS0
    ipureintro
    unfold mNext6
    refine (attnLastStore6 (S := S1000x1) _ _ attnZeroOff6 _ _ _).trans ?_
    dsimp only
    sl_unfold_run_names
    simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6,
      View.readCov_unit_zero (S := S1000x1) _ attnZeroOff6, View.readCov_unit_zero (S := S1000x128) _ attnZeroOff6]
  isplitl [HS1]
  · iexists _; isplitr
    swap; · iexact HS1
    ipureintro
    unfold lNext6
    refine (attnLastStore6 (S := S1000x1) _ _ attnZeroOff6 _ _ _).trans ?_
    dsimp only
    sl_unfold_run_names
    simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6,
      View.readCov_unit_zero (S := S1000x1) _ attnZeroOff6, View.readCov_unit_zero (S := S1000x128) _ attnZeroOff6]
  iexists _; isplitr
  swap; · iexact HS2
  ipureintro
  unfold accNext6
  refine (attnLastStore6 (S := S1000x128) _ _ attnZeroOff6 _ _ _).trans ?_
  dsimp only
  sl_unfold_run_names
  simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6,
      View.readCov_unit_zero (S := S1000x1) _ attnZeroOff6, View.readCov_unit_zero (S := S1000x128) _ attnZeroOff6]

variable (V : (c : Dev nD) → (b : Ref sig .tc) → Buf (Elt F) ((c : Thread nD τ).loc b))

/-! ## Where the windows are idle

The two inputs are read at every point. The output block is stored only at the last step of a row of the grid
(`kv = 4`), where it is also written back; at the other points its buffer is neither stored into nor written back. -/

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬t.val % 5 = 4 → cfg6.idle 2 (grid6.coords t) = true := by decide +kernel
theorem noFlush6_2 : ∀ t : Fin cfg6.N, ¬t.val % 5 = 4 → (cfg6.win 2).flush t = false := by decide +kernel
theorem liveAt6_2 : ∀ t : Fin cfg6.N, t.val % 5 = 4 → cfg6.idle 2 (grid6.coords t) = false := by decide +kernel

/-! ## The memrefs the body is called with -/

/-- Each window's current staging memref at point `t`, and its wholeness. -/
abbrev ms6_0 (t : Fin cfg6.N) : Memref sig .tc .vmem S1000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x128 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1000x128 .f32 := win6_2.stage (cfg6.slots t 2)
abbrev hs6_2 (t : Fin cfg6.N) : (ms6_2 t).IsWhole := hstage6_2 ((cfg6.slots t 2).cast nbuf6_2)
/-- The three buffers the body carries its statistics in between points: the running maximum, the running
    normaliser, the running weighted sum. -/
abbrev scM6_0 : Memref sig .tc .vmem S1000x1 .f32 := Memref.whole cc6_scratch0
abbrev scM6_1 : Memref sig .tc .vmem S1000x1 .f32 := Memref.whole cc6_scratch1
abbrev scM6_2 : Memref sig .tc .vmem S1000x128 .f32 := Memref.whole cc6_scratch2

/-- Every other scoped buffer of the core (the other regions' staging buffers and statistics), at some contents each:
    carried through this region unopened. -/
abbrev rest6 (c : Dev nD) : sProp 𝕄 :=
  Pipeline.scopedRestBut (Ix := Unit) (Name := ℕ) (U := UR sig nD τ) (Lvl := ℕ) (Val := Elt F) spec6 c [cc6_scratch0, cc6_scratch1, cc6_scratch2]

/-- What the region is entered with: the three statistics buffers at some contents each, the other scoped buffers, the
    generator register at some state. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d) ∗ (∃ d, owns (c : Thread nD τ) scM6_2 fullShare d)) ∗ rest6 c) ∗ (∃ r, prngReg c r)) := by
  unfold Pipeline.ΦA; rw [scopedRest6_split]; simp only [scM6_0, scM6_1, scM6_2, owns_whole]; try rfl

/-! ## The windows' blocks -/

/-- Window `w`'s block at point `t`, read off its array as the region finds it (`V`): for window 0 the query rows
    `1000·(t / 5) …`, for window 1 the key/value rows `2000·(t % 5) …`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The query block's buffer holds the query block at EVERY point of a row of the grid, though it is fetched at the
    row's first point only: the block index does not move within the row and the body leaves the buffer as it was. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The key/value block's buffer holds the point's key/value block (fetched at every point). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What the body has computed after each point -/

/-- One point's work from the statistics `s = (m, l, acc)`: the output block `blk − acc' / l'` (what the body stores at
    the last step of a row; at the other points nothing reads this component), then `(m', l', acc')`. -/
def stStep6 (blk : Vec F S1000x128 .f32) (full : Vec F S2000x128 .bf16) (s : Vec F S1000x1 .f32 × Vec F S1000x1 .f32 × Vec F S1000x128 .f32) : Vec F S1000x128 .f32 × Vec F S1000x1 .f32 × Vec F S1000x1 .f32 × Vec F S1000x128 .f32 :=
  (outFin6 blk (lNext6 blk full s.1 s.2.1) (accNext6 blk full s.1 s.2.2), mNext6 blk full s.1, lNext6 blk full s.1 s.2.1, accNext6 blk full s.1 s.2.2)

/-- The statistics a row of the grid starts from: `(−∞, 0, 0)`. -/
def stInit6 : Vec F S1000x1 .f32 × Vec F S1000x1 .f32 × Vec F S1000x128 .f32 := (mInit6, lInit6, accInit6)

/-- THE ACCUMULATION: (output block, `m`, `l`, `acc`) after the body at point `n`, by recursion on the point. At the
    first step of a row (`n % 5 = 0`) the step starts from the initial statistics; at every other from what point
    `n − 1` left. The first component is the output block `blk − acc / l` of the statistics after the point: the body
    stores it at the last step of a row (`n % 5 = 4`), and only there is it read. -/
def stAt6 (c : Dev nD) : (n : ℕ) → n < cfg6.N → Vec F S1000x128 .f32 × Vec F S1000x1 .f32 × Vec F S1000x1 .f32 × Vec F S1000x128 .f32
  | 0, hn => stStep6 (iblk6 V c 0 ⟨0, hn⟩) (iblk6 V c 1 ⟨0, hn⟩) stInit6
  | n + 1, hn =>
    if (n + 1) % 5 = 0 then stStep6 (iblk6 V c 0 ⟨n + 1, hn⟩) (iblk6 V c 1 ⟨n + 1, hn⟩) stInit6
    else stStep6 (iblk6 V c 0 ⟨n + 1, hn⟩) (iblk6 V c 1 ⟨n + 1, hn⟩) (stAt6 c n (Nat.lt_of_succ_lt hn)).2

/-- At the first step of a row: one step from the initial statistics. -/
theorem stAt6_eq_first (c : Dev nD) (t : Fin cfg6.N) (h : t.val % 5 = 0) :
    stAt6 V c t.val t.isLt = stStep6 (iblk6 V c 0 t) (iblk6 V c 1 t) stInit6 := by
  obtain ⟨n, hn⟩ := t
  cases n with
  | zero => rfl
  | succ n => exact if_pos h

/-- At any other step: one step from what the point before left. -/
theorem stAt6_eq_step (c : Dev nD) (t : Fin cfg6.N) (h : ¬t.val % 5 = 0) :
    stAt6 V c t.val t.isLt = stStep6 (iblk6 V c 0 t) (iblk6 V c 1 t) (stAt6 V c (t.val - 1) (Nat.lt_of_le_of_lt (Nat.sub_le _ _) t.isLt)).2 := by
  obtain ⟨n, hn⟩ := t
  cases n with
  | zero => exact absurd (Nat.zero_mod _) h
  | succ n => exact if_neg h

/-- The statistics after the first step of a row. -/
theorem stAt6_first (c : Dev nD) (t : Fin cfg6.N) (h : t.val % 5 = 0) :
    (stAt6 V c t.val t.isLt).2 = (mNext6 (iblk6 V c 0 t) (iblk6 V c 1 t) mInit6, lNext6 (iblk6 V c 0 t) (iblk6 V c 1 t) mInit6 lInit6, accNext6 (iblk6 V c 0 t) (iblk6 V c 1 t) mInit6 accInit6) := by
  rw [stAt6_eq_first V c t h]; rfl

/-- The statistics after any other step, from those the point before left. -/
theorem stAt6_step (c : Dev nD) (t : Fin cfg6.N) (h : t.val % 5 ≠ 0) :
    (stAt6 V c t.val t.isLt).2 = (mNext6 (iblk6 V c 0 t) (iblk6 V c 1 t) (stAt6 V c (t.val - 1) (Nat.lt_of_le_of_lt (Nat.sub_le _ _) t.isLt)).2.1, lNext6 (iblk6 V c 0 t) (iblk6 V c 1 t) (stAt6 V c (t.val - 1) (Nat.lt_of_le_of_lt (Nat.sub_le _ _) t.isLt)).2.1 (stAt6 V c (t.val - 1) (Nat.lt_of_le_of_lt (Nat.sub_le _ _) t.isLt)).2.2.1, accNext6 (iblk6 V c 0 t) (iblk6 V c 1 t) (stAt6 V c (t.val - 1) (Nat.lt_of_le_of_lt (Nat.sub_le _ _) t.isLt)).2.1 (stAt6 V c (t.val - 1) (Nat.lt_of_le_of_lt (Nat.sub_le _ _) t.isLt)).2.2.2) := by
  rw [stAt6_eq_step V c t h]; rfl

/-- The output block the last step of a row stores: `blk − acc / l` of the statistics after that step. -/
theorem stAt6_out (c : Dev nD) (t : Fin cfg6.N) (h : t.val % 5 = 4) :
    (stAt6 V c t.val t.isLt).1 = outFin6 (iblk6 V c 0 t) (stAt6 V c t.val t.isLt).2.2.1 (stAt6 V c t.val t.isLt).2.2.2 := by
  rw [stAt6_eq_step V c t (by omega)]; rfl

/-! ## The invariant -/

/-- The region's invariant before position `n`: before the first point what the region is entered with; afterwards
    the three statistics buffers at what the point before left, the other scoped buffers and the generator register
    as they come. -/
def PhiS6 (c : Dev nD) : (n : ℕ) → n ≤ cfg6.N → sProp 𝕄
  | 0, _ => Pipeline.ΦA spec6 c
  | n + 1, hn => iprop(iprop(iprop(owns (c : Thread nD τ) scM6_0 fullShare (stAt6 V c n hn).2.1 ∗ owns (c : Thread nD τ) scM6_1 fullShare (stAt6 V c n hn).2.2.1 ∗ owns (c : Thread nD τ) scM6_2 fullShare (stAt6 V c n hn).2.2.2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (stAt6 V c n hn).2.1 ∗ owns (c : Thread nD τ) scM6_1 fullShare (stAt6 V c n hn).2.2.1 ∗ owns (c : Thread nD τ) scM6_2 fullShare (stAt6 V c n hn).2.2.2) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (stAt6 V c (n - 1) (by omega)).2.1 ∗ owns (c : Thread nD τ) scM6_1 fullShare (stAt6 V c (n - 1) (by omega)).2.2.1 ∗ owns (c : Thread nD τ) scM6_2 fullShare (stAt6 V c (n - 1) (by omega)).2.2.2) ∗ rest6 c) ∗ (∃ r, prngReg c r)) := by
  cases n with
  | zero => exact absurd rfl hz
  | succ n => rfl

/-! ## The pipeline's proof data -/

/-- The proof data of this region on core `c`: the arrays as the region finds them (`V`); after the body at point `t`
    each input's buffer at its block and the output's at `stAt6`'s first component; the invariant `PhiS6`; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (stAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (stAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point. The inputs' buffers hold their blocks; `t % 5` says which case the point is in. At the
    first step of a row the statistics buffers are handed over at whatever they hold (named or not) and come back
    one step from the initial statistics; at a later step they are handed over at what the point before left and come
    back one step on; at the last step the output block's buffer, at anything, comes back at `blk − acc / l`, and at
    the other steps it goes through untouched. The other scoped buffers, the generator register and the core's
    tallies go through unopened. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 50 := lt_of_lt_of_eq t.isLt (show cfg6.N = 50 from N_6)
  by_cases h0 : t.val % 5 = 0
  · have h4 : ¬t.val % 5 = 4 := by omega
    rw [Dat.leavesExact_idle (dat6 V c) 2 t (idleAt6_2 t h4) (noFlush6_2 t h4)]
    rw [stAt6_eq_first V c t h0]
    unfold stStep6 stInit6; dsimp only
    by_cases hz : t.val = 0
    · rw [PhiS6_castSucc V c t, PhiS6_zero V c _ _ hz, PhiA6_eq]
      iintro ⟨⟨⟨⟨HS0, HS1, HS2⟩, Hr⟩, Hg⟩, Ho, ⟨%d0, H0⟩, ⟨%d1, H1⟩, ⟨%d2, H2⟩⟩
      iapply (kernelRun6_A c (grid6.coords t) _ _ _ _ _ _ _ _ _ _ _ _ ((hcond6_0 t).mpr h0) (fun h => h4 ((hcond6_1 t).mp h)) (iblk6 V c 0 t) (iblk6 V c 1 t) _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
    · rw [PhiS6_castSucc V c t, PhiS6_pos V c _ _ hz]
      iintro ⟨⟨⟨⟨HS0, HS1, HS2⟩, Hr⟩, Hg⟩, Ho, ⟨%d0, H0⟩, ⟨%d1, H1⟩, ⟨%d2, H2⟩⟩
      iapply (kernelRun6_A c (grid6.coords t) _ _ _ _ _ _ _ _ _ _ _ _ ((hcond6_0 t).mpr h0) (fun h => h4 ((hcond6_1 t).mp h)) (iblk6 V c 0 t) (iblk6 V c 1 t) _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
  · have hz : t.val ≠ 0 := fun h => h0 (by rw [h])
    rw [stAt6_eq_step V c t h0]
    unfold stStep6; dsimp only
    rw [PhiS6_castSucc V c t, PhiS6_pos V c _ _ hz]
    by_cases h4 : t.val % 5 = 4
    · rw [show (dat6 V c).leavesExact 2 t = owns (c : Thread nD τ) (ms6_2 t) fullShare ((dat6 V c).after 2 t) from by
        unfold Dat.leavesExact; rw [liveAt6_2 t h4], after6_2]
      rw [stAt6_eq_step V c t h0]
      unfold stStep6; dsimp only
      iintro ⟨⟨⟨⟨HS0, HS1, HS2⟩, Hr⟩, Hg⟩, Ho, ⟨%d0, H0⟩, ⟨%d1, H1⟩, ⟨%d2, H2⟩⟩
      iapply (kernelRun6_C c (grid6.coords t) _ _ _ _ _ _ _ _ _ _ _ _ (fun h => h0 ((hcond6_0 t).mp h)) ((hcond6_1 t).mpr h4) (iblk6 V c 0 t) (iblk6 V c 1 t) _ _ _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexact H2
    · rw [Dat.leavesExact_idle (dat6 V c) 2 t (idleAt6_2 t h4) (noFlush6_2 t h4)]
      iintro ⟨⟨⟨⟨HS0, HS1, HS2⟩, Hr⟩, Hg⟩, Ho, ⟨%d0, H0⟩, ⟨%d1, H1⟩, ⟨%d2, H2⟩⟩
      iapply (kernelRun6_B c (grid6.coords t) _ _ _ _ _ _ _ _ _ _ _ _ (fun h => h0 ((hcond6_0 t).mp h)) (fun h => h4 ((hcond6_1 t).mp h)) (iblk6 V c 0 t) (iblk6 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives back what the region was entered with: the statistics' named
    contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 50 := N_6; omega)

end Cert.Kernel.Hand

end
-- ==== Proof.K.Attn7.lean ====
/-
  Region 7 of the program: one cross-attention call on the grid (10, 5). Point `t` works on query block `t / 5`
  (1000 rows) against key/value block `t % 5` (2000 rows) and carries three statistics between points: the running row
  maximum `m`, the running normaliser `l`, the running weighted sum `acc` (the online softmax). This module states, generic
  in the float model and at ANY contents `V` of the core's buffers at the region's entry: one step of the statistics as
  pure functions of the two blocks; the body's behaviour in its three cases (first, middle, last step of a row of the
  grid); what the statistics and the output block are after each point, by recursion on the point (`stAt7`); the
  invariant that carries the statistics from point to point; the proof data of the region and its body obligation.
-/
import proofs.«407386_j15839839387945_2_alg».proof.Proof.Gen.Kernel.Launch
import proofs.«407386_j15839839387945_2_alg».proof.Proof.Gen.Kernel.Skeleton
import proofs.«407386_j15839839387945_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block rectangle are zero on both axes. -/
theorem attnZeroOff7 : (![0, 0] : Fin 2 → Nat) = fun _ => 0 := funext fun a => by fin_cases a <;> rfl

/-- A buffer whose LAST store went through the whole-shape rectangle at zero offsets reads as that store's value,
    whatever the earlier stores and the prior contents were: the last store covers every index. -/
theorem attnLastStore7 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The two conditions of the body, decided over the grid

The grid is (10, 5): point `t` has key/value step `kv = t % 5`. The body resets its running statistics when `kv = 0`
and writes its output block when `kv = 4`. -/

/-- The reset condition (`kv = 0`), as the body computes it from the grid coordinates. -/
abbrev cond7_0 (i : grid7.Coords) : Prop := (Scalar.cmpi .ne (Scalar.extui (Scalar.cmpi .eq (BitVec.ofNat 32 (i 1).val) 0#32)) 0#32) = 1#1
/-- It holds exactly at the points ≡ 0 (mod 5). -/
theorem hcond7_0 : ∀ t : Fin cfg7.N, cond7_0 (grid7.coords t) ↔ t.val % 5 = 0 :=
  (by decide +kernel : ∀ t : Fin grid7.N, cond7_0 (grid7.coords t) ↔ t.val % 5 = 0)
/-- The finishing condition (`kv = 4`). -/
abbrev cond7_1 (i : grid7.Coords) : Prop := k7_cond2 i = 1#1
/-- It holds exactly at the points ≡ 4 (mod 5). -/
theorem hcond7_1 : ∀ t : Fin cfg7.N, cond7_1 (grid7.coords t) ↔ t.val % 5 = 4 :=
  (by decide +kernel : ∀ t : Fin grid7.N, cond7_1 (grid7.coords t) ↔ t.val % 5 = 4)

/-! ## One step of the online softmax, as pure functions of the blocks and the carried statistics

With `s = bf16(blk) · fullᵀ` the scores of a query block (rounded to bf16) against a key/value block, a step replaces the
running row maximum `m`, the running normaliser `l` and the running weighted sum `acc` by
`m' = max m (rowmax s)`, `l' = exp (m − m') · l + rowsum (exp (s − m'))`,
`acc' = exp (m − m') · acc + bf16(exp (s − m')) · full`;
the last step of a row of the grid leaves `blk − acc' / l'` in the output block. (Where floats are exact the two
roundings to bf16 are the identity.) -/

/-- The running maximum before the first key/value block: `−∞` in every row. -/
def mInit7 : Vec F S1000x1 .f32 := k7_pay4 (F := F)
/-- The running normaliser before the first key/value block: zero. -/
def lInit7 : Vec F S1000x1 .f32 := k7_pay5 (F := F)
/-- The running weighted sum before the first key/value block: zero. -/
def accInit7 : Vec F S1000x128 .f32 := k7_pay6 (F := F)
/-- The running maximum after a step: `max mPrev (rowmax s)`. -/
def mNext7 (blk : Vec F S1000x128 .f32) (full : Vec F S2000x128 .bf16) (mPrev : Vec F S1000x1 .f32) : Vec F S1000x1 .f32 :=
  k7_pay2 (k7_pay9 blk full mPrev)
/-- The running normaliser after a step: `exp (mPrev − m') · lPrev + rowsum (exp (s − m'))`. -/
def lNext7 (blk : Vec F S1000x128 .f32) (full : Vec F S2000x128 .bf16) (mPrev lPrev : Vec F S1000x1 .f32) : Vec F S1000x1 .f32 :=
  k7_pay12 blk full mPrev mPrev lPrev
/-- The running weighted sum after a step: `exp (mPrev − m') · accPrev + bf16(exp (s − m')) · full`. -/
def accNext7 (blk : Vec F S1000x128 .f32) (full : Vec F S2000x128 .bf16) (mPrev : Vec F S1000x1 .f32) (accPrev : Vec F S1000x128 .f32) : Vec F S1000x128 .f32 :=
  k7_pay1 (k7_pay13 blk full mPrev mPrev accPrev)
/-- The output block after the last step of a row of the grid: `blk − accFin / lFin`. -/
def outFin7 (blk : Vec F S1000x128 .f32) (lFin : Vec F S1000x1 .f32) (accFin : Vec F S1000x128 .f32) : Vec F S1000x128 .f32 :=
  k7_pay3 accFin lFin blk

/-! ## The body, case by case, on any whole memrefs -/

set_option maxHeartbeats 1000000 in
/-- A MIDDLE step (`0 < kv < 4`): from the two input blocks and the carried statistics `(xs0, xs1, xs2) = (m, l, acc)` the
    body leaves the statistics one step on, and does not touch the output block's buffer. Each of its three stores covers
    its whole buffer, so what a buffer reads afterwards is the stored value; each load before a store reads the contents
    the buffer came with. -/
theorem kernelRun7_B (c : Dev nD) (i : grid7.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond7_0 i) (hc1 : ¬cond7_1 i)
    (x0 : Vec F S1000x128 .f32) (x1 : Vec F S2000x128 .bf16) (xs0 xs1 : Vec F S1000x1 .f32) (xs2 : Vec F S1000x128 .f32)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1 ∗ owns (c : Thread nD τ) arg4 fullShare xi2
            ∗ owns (c : Thread nD τ) arg5 fullShare (mNext7 x0 x1 xs0) ∗ owns (c : Thread nD τ) arg6 fullShare (lNext7 x0 x1 xs0 xs1)
            ∗ owns (c : Thread nD τ) arg7 fullShare (accNext7 x0 x1 xs0 xs2)) -∗ K ⟨⟩))
      ⊢ wp frame (wpE (defs₀ (F := F)) Variants.none c none) E (cc7__cross_attn_kernel i arg2 harg2 arg3 harg3 arg4 harg4 arg5 harg5 arg6 harg6 arg7 harg7) K := by
  simp only [cc7__cross_attn_kernel_eq_skeleton]; unfold cc7__cross_attn_kernel_skel
  simp only [k7_part1_eq_skeleton]; unfold k7_part1_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext7
    refine (attnLastStore7 (S := S1000x1) _ _ attnZeroOff7 _ _ _).trans ?_
    dsimp only
    simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7]
  isplitl [HS1]
  · iexists _; isplitr
    swap; · iexact HS1
    ipureintro
    unfold lNext7
    refine (attnLastStore7 (S := S1000x1) _ _ attnZeroOff7 _ _ _).trans ?_
    dsimp only
    simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7]
  iexists _; isplitr
  swap; · iexact HS2
  ipureintro
  unfold accNext7
  refine (attnLastStore7 (S := S1000x128) _ _ attnZeroOff7 _ _ _).trans ?_
  dsimp only
  simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7]

set_option maxHeartbeats 1000000 in
/-- A FIRST step (`kv = 0`): whatever the three statistics buffers held, the body first stores the initial statistics
    `(−∞, 0, 0)` over them and then makes a step from those; the output block's buffer is not touched. A load after the
    reset reads the reset value (the reset store covers the buffer). -/
theorem kernelRun7_A (c : Dev nD) (i : grid7.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : cond7_0 i) (hc1 : ¬cond7_1 i)
    (x0 : Vec F S1000x128 .f32) (x1 : Vec F S2000x128 .bf16)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (mNext7 x0 x1 mInit7) ∗ owns (c : Thread nD τ) arg6 fullShare (lNext7 x0 x1 mInit7 lInit7)
            ∗ owns (c : Thread nD τ) arg7 fullShare (accNext7 x0 x1 mInit7 accInit7)) -∗ K ⟨⟩))
      ⊢ wp frame (wpE (defs₀ (F := F)) Variants.none c none) E (cc7__cross_attn_kernel i arg2 harg2 arg3 harg3 arg4 harg4 arg5 harg5 arg6 harg6 arg7 harg7) K := by
  simp only [cc7__cross_attn_kernel_eq_skeleton]; unfold cc7__cross_attn_kernel_skel
  simp only [k7_part1_eq_skeleton]; unfold k7_part1_skel
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext7 mInit7
    refine (attnLastStore7 (S := S1000x1) _ _ attnZeroOff7 _ _ _).trans ?_
    dsimp only
    sl_unfold_run_names
    simp only [View.readAt_eq_ld, harg2.read_unread, harg3.read_unread,
      View.ld_unit_zero (S := S1000x128) attnZeroOff7, View.ld_unit_zero (S := S2000x128) attnZeroOff7,
      View.readCov_unit_zero (S := S1000x1) _ attnZeroOff7, View.readCov_unit_zero (S := S1000x128) _ attnZeroOff7]
  isplitl [HS1]
  · iexists _; isplitr
    swap; · iexact HS1
    ipureintro
    unfold lNext7 mInit7 lInit7
    refine (attnLastStore7 (S := S1000x1) _ _ attnZeroOff7 _ _ _).trans ?_
    dsimp only
    sl_unfold_run_names
    simp only [View.readAt_eq_ld, harg2.read_unread, harg3.read_unread,
      View.ld_unit_zero (S := S1000x128) attnZeroOff7, View.ld_unit_zero (S := S2000x128) attnZeroOff7,
      View.readCov_unit_zero (S := S1000x1) _ attnZeroOff7, View.readCov_unit_zero (S := S1000x128) _ attnZeroOff7]
  iexists _; isplitr
  swap; · iexact HS2
  ipureintro
  unfold accNext7 mInit7 accInit7
  refine (attnLastStore7 (S := S1000x128) _ _ attnZeroOff7 _ _ _).trans ?_
  dsimp only
  sl_unfold_run_names
  simp only [View.readAt_eq_ld, harg2.read_unread, harg3.read_unread,
      View.ld_unit_zero (S := S1000x128) attnZeroOff7, View.ld_unit_zero (S := S2000x128) attnZeroOff7,
      View.readCov_unit_zero (S := S1000x1) _ attnZeroOff7, View.readCov_unit_zero (S := S1000x128) _ attnZeroOff7]

set_option maxHeartbeats 1000000 in
/-- A LAST step (`kv = 4`): a middle step, after which the body reads the statistics it has just stored and the query
    block, and stores `blk − acc' / l'` over the whole output block's buffer, whatever that held. -/
theorem kernelRun7_C (c : Dev nD) (i : grid7.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond7_0 i) (hc1 : cond7_1 i)
    (x0 : Vec F S1000x128 .f32) (x1 : Vec F S2000x128 .bf16) (xs0 xs1 : Vec F S1000x1 .f32) (xs2 : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outFin7 x0 (lNext7 x0 x1 xs0 xs1) (accNext7 x0 x1 xs0 xs2))
            ∗ owns (c : Thread nD τ) arg5 fullShare (mNext7 x0 x1 xs0) ∗ owns (c : Thread nD τ) arg6 fullShare (lNext7 x0 x1 xs0 xs1)
            ∗ owns (c : Thread nD τ) arg7 fullShare (accNext7 x0 x1 xs0 xs2)) -∗ K ⟨⟩))
      ⊢ wp frame (wpE (defs₀ (F := F)) Variants.none c none) E (cc7__cross_attn_kernel i arg2 harg2 arg3 harg3 arg4 harg4 arg5 harg5 arg6 harg6 arg7 harg7) K := by
  simp only [cc7__cross_attn_kernel_eq_skeleton]; unfold cc7__cross_attn_kernel_skel
  simp only [k7_part1_eq_skeleton]; unfold k7_part1_skel
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold outFin7 lNext7 accNext7
    refine (attnLastStore7 (S := S1000x128) _ _ attnZeroOff7 _ _ _).trans ?_
    dsimp only
    sl_unfold_run_names
    simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7,
      View.readCov_unit_zero (S := S1000x1) _ attnZeroOff7, View.readCov_unit_zero (S := S1000x128) _ attnZeroOff7]
  isplitl [HS0]
  · iexists _; isplitr
    swap; · iexact HS0
    ipureintro
    unfold mNext7
    refine (attnLastStore7 (S := S1000x1) _ _ attnZeroOff7 _ _ _).trans ?_
    dsimp only
    sl_unfold_run_names
    simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7,
      View.readCov_unit_zero (S := S1000x1) _ attnZeroOff7, View.readCov_unit_zero (S := S1000x128) _ attnZeroOff7]
  isplitl [HS1]
  · iexists _; isplitr
    swap; · iexact HS1
    ipureintro
    unfold lNext7
    refine (attnLastStore7 (S := S1000x1) _ _ attnZeroOff7 _ _ _).trans ?_
    dsimp only
    sl_unfold_run_names
    simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7,
      View.readCov_unit_zero (S := S1000x1) _ attnZeroOff7, View.readCov_unit_zero (S := S1000x128) _ attnZeroOff7]
  iexists _; isplitr
  swap; · iexact HS2
  ipureintro
  unfold accNext7
  refine (attnLastStore7 (S := S1000x128) _ _ attnZeroOff7 _ _ _).trans ?_
  dsimp only
  sl_unfold_run_names
  simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7,
      View.readCov_unit_zero (S := S1000x1) _ attnZeroOff7, View.readCov_unit_zero (S := S1000x128) _ attnZeroOff7]

variable (V : (c : Dev nD) → (b : Ref sig .tc) → Buf (Elt F) ((c : Thread nD τ).loc b))

/-! ## Where the windows are idle

The two inputs are read at every point. The output block is stored only at the last step of a row of the grid
(`kv = 4`), where it is also written back; at the other points its buffer is neither stored into nor written back. -/

theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬t.val % 5 = 4 → cfg7.idle 2 (grid7.coords t) = true := by decide +kernel
theorem noFlush7_2 : ∀ t : Fin cfg7.N, ¬t.val % 5 = 4 → (cfg7.win 2).flush t = false := by decide +kernel
theorem liveAt7_2 : ∀ t : Fin cfg7.N, t.val % 5 = 4 → cfg7.idle 2 (grid7.coords t) = false := by decide +kernel

/-! ## The memrefs the body is called with -/

/-- Each window's current staging memref at point `t`, and its wholeness. -/
abbrev ms7_0 (t : Fin cfg7.N) : Memref sig .tc .vmem S1000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2000x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1000x128 .f32 := win7_2.stage (cfg7.slots t 2)
abbrev hs7_2 (t : Fin cfg7.N) : (ms7_2 t).IsWhole := hstage7_2 ((cfg7.slots t 2).cast nbuf7_2)
/-- The three buffers the body carries its statistics in between points: the running maximum, the running
    normaliser, the running weighted sum. -/
abbrev scM7_0 : Memref sig .tc .vmem S1000x1 .f32 := Memref.whole cc7_scratch0
abbrev scM7_1 : Memref sig .tc .vmem S1000x1 .f32 := Memref.whole cc7_scratch1
abbrev scM7_2 : Memref sig .tc .vmem S1000x128 .f32 := Memref.whole cc7_scratch2

/-- Every other scoped buffer of the core (the other regions' staging buffers and statistics), at some contents each:
    carried through this region unopened. -/
abbrev rest7 (c : Dev nD) : sProp 𝕄 :=
  Pipeline.scopedRestBut (Ix := Unit) (Name := ℕ) (U := UR sig nD τ) (Lvl := ℕ) (Val := Elt F) spec7 c [cc7_scratch0, cc7_scratch1, cc7_scratch2]

/-- What the region is entered with: the three statistics buffers at some contents each, the other scoped buffers, the
    generator register at some state. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d) ∗ (∃ d, owns (c : Thread nD τ) scM7_2 fullShare d)) ∗ rest7 c) ∗ (∃ r, prngReg c r)) := by
  unfold Pipeline.ΦA; rw [scopedRest7_split]; simp only [scM7_0, scM7_1, scM7_2, owns_whole]; try rfl

/-! ## The windows' blocks -/

/-- Window `w`'s block at point `t`, read off its array as the region finds it (`V`): for window 0 the query rows
    `1000·(t / 5) …`, for window 1 the key/value rows `2000·(t % 5) …`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The query block's buffer holds the query block at EVERY point of a row of the grid, though it is fetched at the
    row's first point only: the block index does not move within the row and the body leaves the buffer as it was. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The key/value block's buffer holds the point's key/value block (fetched at every point). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What the body has computed after each point -/

/-- One point's work from the statistics `s = (m, l, acc)`: the output block `blk − acc' / l'` (what the body stores at
    the last step of a row; at the other points nothing reads this component), then `(m', l', acc')`. -/
def stStep7 (blk : Vec F S1000x128 .f32) (full : Vec F S2000x128 .bf16) (s : Vec F S1000x1 .f32 × Vec F S1000x1 .f32 × Vec F S1000x128 .f32) : Vec F S1000x128 .f32 × Vec F S1000x1 .f32 × Vec F S1000x1 .f32 × Vec F S1000x128 .f32 :=
  (outFin7 blk (lNext7 blk full s.1 s.2.1) (accNext7 blk full s.1 s.2.2), mNext7 blk full s.1, lNext7 blk full s.1 s.2.1, accNext7 blk full s.1 s.2.2)

/-- The statistics a row of the grid starts from: `(−∞, 0, 0)`. -/
def stInit7 : Vec F S1000x1 .f32 × Vec F S1000x1 .f32 × Vec F S1000x128 .f32 := (mInit7, lInit7, accInit7)

/-- THE ACCUMULATION: (output block, `m`, `l`, `acc`) after the body at point `n`, by recursion on the point. At the
    first step of a row (`n % 5 = 0`) the step starts from the initial statistics; at every other from what point
    `n − 1` left. The first component is the output block `blk − acc / l` of the statistics after the point: the body
    stores it at the last step of a row (`n % 5 = 4`), and only there is it read. -/
def stAt7 (c : Dev nD) : (n : ℕ) → n < cfg7.N → Vec F S1000x128 .f32 × Vec F S1000x1 .f32 × Vec F S1000x1 .f32 × Vec F S1000x128 .f32
  | 0, hn => stStep7 (iblk7 V c 0 ⟨0, hn⟩) (iblk7 V c 1 ⟨0, hn⟩) stInit7
  | n + 1, hn =>
    if (n + 1) % 5 = 0 then stStep7 (iblk7 V c 0 ⟨n + 1, hn⟩) (iblk7 V c 1 ⟨n + 1, hn⟩) stInit7
    else stStep7 (iblk7 V c 0 ⟨n + 1, hn⟩) (iblk7 V c 1 ⟨n + 1, hn⟩) (stAt7 c n (Nat.lt_of_succ_lt hn)).2

/-- At the first step of a row: one step from the initial statistics. -/
theorem stAt7_eq_first (c : Dev nD) (t : Fin cfg7.N) (h : t.val % 5 = 0) :
    stAt7 V c t.val t.isLt = stStep7 (iblk7 V c 0 t) (iblk7 V c 1 t) stInit7 := by
  obtain ⟨n, hn⟩ := t
  cases n with
  | zero => rfl
  | succ n => exact if_pos h

/-- At any other step: one step from what the point before left. -/
theorem stAt7_eq_step (c : Dev nD) (t : Fin cfg7.N) (h : ¬t.val % 5 = 0) :
    stAt7 V c t.val t.isLt = stStep7 (iblk7 V c 0 t) (iblk7 V c 1 t) (stAt7 V c (t.val - 1) (Nat.lt_of_le_of_lt (Nat.sub_le _ _) t.isLt)).2 := by
  obtain ⟨n, hn⟩ := t
  cases n with
  | zero => exact absurd (Nat.zero_mod _) h
  | succ n => exact if_neg h

/-- The statistics after the first step of a row. -/
theorem stAt7_first (c : Dev nD) (t : Fin cfg7.N) (h : t.val % 5 = 0) :
    (stAt7 V c t.val t.isLt).2 = (mNext7 (iblk7 V c 0 t) (iblk7 V c 1 t) mInit7, lNext7 (iblk7 V c 0 t) (iblk7 V c 1 t) mInit7 lInit7, accNext7 (iblk7 V c 0 t) (iblk7 V c 1 t) mInit7 accInit7) := by
  rw [stAt7_eq_first V c t h]; rfl

/-- The statistics after any other step, from those the point before left. -/
theorem stAt7_step (c : Dev nD) (t : Fin cfg7.N) (h : t.val % 5 ≠ 0) :
    (stAt7 V c t.val t.isLt).2 = (mNext7 (iblk7 V c 0 t) (iblk7 V c 1 t) (stAt7 V c (t.val - 1) (Nat.lt_of_le_of_lt (Nat.sub_le _ _) t.isLt)).2.1, lNext7 (iblk7 V c 0 t) (iblk7 V c 1 t) (stAt7 V c (t.val - 1) (Nat.lt_of_le_of_lt (Nat.sub_le _ _) t.isLt)).2.1 (stAt7 V c (t.val - 1) (Nat.lt_of_le_of_lt (Nat.sub_le _ _) t.isLt)).2.2.1, accNext7 (iblk7 V c 0 t) (iblk7 V c 1 t) (stAt7 V c (t.val - 1) (Nat.lt_of_le_of_lt (Nat.sub_le _ _) t.isLt)).2.1 (stAt7 V c (t.val - 1) (Nat.lt_of_le_of_lt (Nat.sub_le _ _) t.isLt)).2.2.2) := by
  rw [stAt7_eq_step V c t h]; rfl

/-- The output block the last step of a row stores: `blk − acc / l` of the statistics after that step. -/
theorem stAt7_out (c : Dev nD) (t : Fin cfg7.N) (h : t.val % 5 = 4) :
    (stAt7 V c t.val t.isLt).1 = outFin7 (iblk7 V c 0 t) (stAt7 V c t.val t.isLt).2.2.1 (stAt7 V c t.val t.isLt).2.2.2 := by
  rw [stAt7_eq_step V c t (by omega)]; rfl

/-! ## The invariant -/

/-- The region's invariant before position `n`: before the first point what the region is entered with; afterwards
    the three statistics buffers at what the point before left, the other scoped buffers and the generator register
    as they come. -/
def PhiS7 (c : Dev nD) : (n : ℕ) → n ≤ cfg7.N → sProp 𝕄
  | 0, _ => Pipeline.ΦA spec7 c
  | n + 1, hn => iprop(iprop(iprop(owns (c : Thread nD τ) scM7_0 fullShare (stAt7 V c n hn).2.1 ∗ owns (c : Thread nD τ) scM7_1 fullShare (stAt7 V c n hn).2.2.1 ∗ owns (c : Thread nD τ) scM7_2 fullShare (stAt7 V c n hn).2.2.2) ∗ rest7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (stAt7 V c n hn).2.1 ∗ owns (c : Thread nD τ) scM7_1 fullShare (stAt7 V c n hn).2.2.1 ∗ owns (c : Thread nD τ) scM7_2 fullShare (stAt7 V c n hn).2.2.2) ∗ rest7 c) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (stAt7 V c (n - 1) (by omega)).2.1 ∗ owns (c : Thread nD τ) scM7_1 fullShare (stAt7 V c (n - 1) (by omega)).2.2.1 ∗ owns (c : Thread nD τ) scM7_2 fullShare (stAt7 V c (n - 1) (by omega)).2.2.2) ∗ rest7 c) ∗ (∃ r, prngReg c r)) := by
  cases n with
  | zero => exact absurd rfl hz
  | succ n => rfl

/-! ## The pipeline's proof data -/

/-- The proof data of this region on core `c`: the arrays as the region finds them (`V`); after the body at point `t`
    each input's buffer at its block and the output's at `stAt7`'s first component; the invariant `PhiS7`; nothing
    owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (stAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (stAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point. The inputs' buffers hold their blocks; `t % 5` says which case the point is in. At the
    first step of a row the statistics buffers are handed over at whatever they hold (named or not) and come back
    one step from the initial statistics; at a later step they are handed over at what the point before left and come
    back one step on; at the last step the output block's buffer, at anything, comes back at `blk − acc / l`, and at
    the other steps it goes through untouched. The other scoped buffers, the generator register and the core's
    tallies go through unopened. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  have hN : t.val < 50 := lt_of_lt_of_eq t.isLt (show cfg7.N = 50 from N_7)
  by_cases h0 : t.val % 5 = 0
  · have h4 : ¬t.val % 5 = 4 := by omega
    rw [Dat.leavesExact_idle (dat7 V c) 2 t (idleAt7_2 t h4) (noFlush7_2 t h4)]
    rw [stAt7_eq_first V c t h0]
    unfold stStep7 stInit7; dsimp only
    by_cases hz : t.val = 0
    · rw [PhiS7_castSucc V c t, PhiS7_zero V c _ _ hz, PhiA7_eq]
      iintro ⟨⟨⟨⟨HS0, HS1, HS2⟩, Hr⟩, Hg⟩, Ho, ⟨%d0, H0⟩, ⟨%d1, H1⟩, ⟨%d2, H2⟩⟩
      iapply (kernelRun7_A c (grid7.coords t) _ _ _ _ _ _ _ _ _ _ _ _ ((hcond7_0 t).mpr h0) (fun h => h4 ((hcond7_1 t).mp h)) (iblk7 V c 0 t) (iblk7 V c 1 t) _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
    · rw [PhiS7_castSucc V c t, PhiS7_pos V c _ _ hz]
      iintro ⟨⟨⟨⟨HS0, HS1, HS2⟩, Hr⟩, Hg⟩, Ho, ⟨%d0, H0⟩, ⟨%d1, H1⟩, ⟨%d2, H2⟩⟩
      iapply (kernelRun7_A c (grid7.coords t) _ _ _ _ _ _ _ _ _ _ _ _ ((hcond7_0 t).mpr h0) (fun h => h4 ((hcond7_1 t).mp h)) (iblk7 V c 0 t) (iblk7 V c 1 t) _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
  · have hz : t.val ≠ 0 := fun h => h0 (by rw [h])
    rw [stAt7_eq_step V c t h0]
    unfold stStep7; dsimp only
    rw [PhiS7_castSucc V c t, PhiS7_pos V c _ _ hz]
    by_cases h4 : t.val % 5 = 4
    · rw [show (dat7 V c).leavesExact 2 t = owns (c : Thread nD τ) (ms7_2 t) fullShare ((dat7 V c).after 2 t) from by
        unfold Dat.leavesExact; rw [liveAt7_2 t h4], after7_2]
      rw [stAt7_eq_step V c t h0]
      unfold stStep7; dsimp only
      iintro ⟨⟨⟨⟨HS0, HS1, HS2⟩, Hr⟩, Hg⟩, Ho, ⟨%d0, H0⟩, ⟨%d1, H1⟩, ⟨%d2, H2⟩⟩
      iapply (kernelRun7_C c (grid7.coords t) _ _ _ _ _ _ _ _ _ _ _ _ (fun h => h0 ((hcond7_0 t).mp h)) ((hcond7_1 t).mpr h4) (iblk7 V c 0 t) (iblk7 V c 1 t) _ _ _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexact H2
    · rw [Dat.leavesExact_idle (dat7 V c) 2 t (idleAt7_2 t h4) (noFlush7_2 t h4)]
      iintro ⟨⟨⟨⟨HS0, HS1, HS2⟩, Hr⟩, Hg⟩, Ho, ⟨%d0, H0⟩, ⟨%d1, H1⟩, ⟨%d2, H2⟩⟩
      iapply (kernelRun7_B c (grid7.coords t) _ _ _ _ _ _ _ _ _ _ _ _ (fun h => h0 ((hcond7_0 t).mp h)) (fun h => h4 ((hcond7_1 t).mp h)) (iblk7 V c 0 t) (iblk7 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2

/-- The body obligation, at every point. -/
theorem body_obligation7 (c : Dev nD) : BodyObligation (dat7 (F := F) V c) (defs₀ (F := F)) Variants.none () Set.univ := fun t => by
  rw [bigSep_W7, bigSep_W7]
  exact sound_body7 V c t

/-- What the region is entered with is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives back what the region was entered with: the statistics' named
    contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 50 := N_7; omega)

end Cert.Kernel.Hand

end
-- ==== Proof.K.RunFold.lean ====
import proofs.«407386_j15839839387945_2_alg».proof.Proof.K.Edge0
import proofs.«407386_j15839839387945_2_alg».proof.Proof.K.Edge1
import proofs.«407386_j15839839387945_2_alg».proof.Proof.K.Edge4
import proofs.«407386_j15839839387945_2_alg».proof.Proof.K.Edge5
import proofs.«407386_j15839839387945_2_alg».proof.Proof.K.Attn2
import proofs.«407386_j15839839387945_2_alg».proof.Proof.K.Attn3
import proofs.«407386_j15839839387945_2_alg».proof.Proof.K.Attn6
import proofs.«407386_j15839839387945_2_alg».proof.Proof.K.Attn7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch hostOps1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch hostOps2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the host stretch hostOps4. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b

/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After the host stretch hostOps5. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b

/-- At region 5's exit: its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- After the host stretch hostOps6. -/
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b

/-- At region 6's exit: its arrays at what the pipeline leaves, every other buffer as entered. -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
abbrev V13 : (c : Dev nD) → (b : Ref sig .tc) → Buf (Elt F) ((c : Thread nD τ).loc b) := fun c b => W13 m ρ c b
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

/-- At region 7's exit: its arrays at what the pipeline leaves, every other buffer as entered. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
abbrev V14 : (c : Dev nD) → (b : Ref sig .tc) → Buf (Elt F) ((c : Thread nD τ).loc b) := fun c b => W14 m ρ c b
theorem hF7 (c : Dev nD) (w : Fin cfg7.W) : (dat7 (V13 m ρ) c).arrAt w cfg7.N = V14 m ρ c (Pipeline.arrRef spec7 w) :=
  (W14_arr m ρ c w).symm
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)

/-- After the host stretch hostOps8. -/
abbrev W15 : Dev nD → Valuation τ sig (Elt F) := fun c => StableHlo.after hostOps8 (W14 m ρ c)
abbrev V15 : (c : Dev nD) → (b : Ref sig .tc) → Buf (Elt F) ((c : Thread nD τ).loc b) := fun c b => W15 m ρ c b

/-! ## The proof data family -/

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
  | ⟨7, _⟩ => fun c => dat7 (V13 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

end Cert.Kernel.Hand

end
-- ==== Proof.K.RunRegs.lean ====
import proofs.«407386_j15839839387945_2_alg».proof.Proof.K.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
set_option maxHeartbeats 2000000 in
theorem hostOps0_fresh : (hostOps0 : List (HloOp τ sig (Elt F))).Forall fun op => op.fresh = ∅ := by
  simp only [List.Forall]; repeat' constructor
set_option maxHeartbeats 2000000 in
theorem hostOps1_fresh : (hostOps1 : List (HloOp τ sig (Elt F))).Forall fun op => op.fresh = ∅ := by
  simp only [List.Forall]; repeat' constructor
set_option maxHeartbeats 2000000 in
theorem hostOps2_fresh : (hostOps2 : List (HloOp τ sig (Elt F))).Forall fun op => op.fresh = ∅ := by
  simp only [List.Forall]; repeat' constructor
set_option maxHeartbeats 2000000 in
theorem hostOps4_fresh : (hostOps4 : List (HloOp τ sig (Elt F))).Forall fun op => op.fresh = ∅ := by
  simp only [List.Forall]; repeat' constructor
set_option maxHeartbeats 2000000 in
theorem hostOps5_fresh : (hostOps5 : List (HloOp τ sig (Elt F))).Forall fun op => op.fresh = ∅ := by
  simp only [List.Forall]; repeat' constructor
set_option maxHeartbeats 2000000 in
theorem hostOps6_fresh : (hostOps6 : List (HloOp τ sig (Elt F))).Forall fun op => op.fresh = ∅ := by
  simp only [List.Forall]; repeat' constructor
set_option maxHeartbeats 2000000 in
theorem hostOps8_fresh : (hostOps8 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine (show _ ⊢ Pipeline.ΦA spec2 c from ?_).trans (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V6 m ρ) c).Φ 0 from rfl]
    refine (show _ ⊢ Pipeline.ΦA spec3 c from ?_).trans (hin3 (V6 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (V6 m ρ) c).Φ (Fin.last cfg3.N) from rfl]
    refine (hout3 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V12 m ρ) c).Φ 0 from rfl]
    refine (show _ ⊢ Pipeline.ΦA spec6 c from ?_).trans (hin6 (V12 m ρ) c)
    unfold Pipeline.ΦA
    iintro ⟨Hp, -, Hr⟩
    isplitl [Hr]; · iexact Hr
    iexact Hp
  hout c := by
    rw [Pipeline.ownSems0_none, show (pdats m ρ 6 c).Φ (Fin.last _) = (dat6 (V12 m ρ) c).Φ (Fin.last cfg6.N) from rfl]
    refine (hout6 (V12 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V13 m ρ) c).Φ 0 from rfl]
    refine (show _ ⊢ Pipeline.ΦA spec7 c from ?_).trans (hin7 (V13 m ρ) c)
    unfold Pipeline.ΦA
    iintro ⟨Hp, -, Hr⟩
    isplitl [Hr]; · iexact Hr
    iexact Hp
  hout c := by
    rw [Pipeline.ownSems0_none, show (pdats m ρ 7 c).Φ (Fin.last _) = (dat7 (V13 m ρ) c).Φ (Fin.last cfg7.N) from rfl]
    refine (hout7 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunMain.lean ====
import proofs.«407386_j15839839387945_2_alg».proof.Proof.K.RunRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Tₙ (c : Dev nD) : sProp 𝕄 := iprop(StableHlo.held (c : Thread nD τ) (Pipeline.ucRefs τ sig) (W15 m ρ c) ∗ ∃ r, prngReg c r)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .region (reg7 m ρ),
    .host (hseg hostOps8 hostOps8_sub hostOps8_fresh (W14 m ρ)) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c b hb => h c b hb)

end Cert.Kernel.Hand

end
-- ==== Proof.K.RunArgs.lean ====
import proofs.«407386_j15839839387945_2_alg».proof.Proof.K.RunFold
import Idealize.ShloMosaic.Lib.StableHlo.Run

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]

abbrev hostOps0_writes : List (Ref sig .tc) :=
  [main_v0, main_c, main_v1, main_v2, main_c_0, main_v3, main_v4, main_v5, main_v6, main_v7,
   main_v8, main_c_1, main_v9, main_v10, main_c_2, main_v11, main_v12, main_v13, main_v14, main_v15,
   main_v16, main_v17, main_v18, main_v19, main_v20, main_v21, main_v22, main_v23, main_v24, main_v25,
   main_v26, main_v27, main_v28, main_v29, main_v30, main_v31, main_c_3, main_v32, main_v33, main_c_4,
   main_v34, main_v35, main_v36, main_v37, main_v38, main_c_5, main_v39, main_v40, main_c_6, main_v41,
   main_v42, main_v43, main_v44, main_v45]

set_option maxHeartbeats 4000000 in
-- Every operation of the stretch writes one buffer of the list, so a buffer outside it is left as it was.
theorem hostOps0_keep (W : Valuation τ sig (Elt F)) (r : Ref sig .tc) (hr : r ∉ hostOps0_writes) :
    StableHlo.after (hostOps0 (F := F)) W (Proc.devRef .tc r) = W (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps1_writes : List (Ref sig .tc) :=
  [main_cst, main_v47, main_v48, main_v49, main_v50, main_v51, main_v52, main_v53, main_c_7, main_v54,
   main_v55, main_c_8, main_v56, main_v57, main_v58, main_v59, main_v60, main_c_9, main_v61, main_v62,
   main_c_10, main_v63, main_v64, main_v65, main_v66, main_v67]

set_option maxHeartbeats 4000000 in
theorem hostOps1_keep (W : Valuation τ sig (Elt F)) (r : Ref sig .tc) (hr : r ∉ hostOps1_writes) :
    StableHlo.after (hostOps1 (F := F)) W (Proc.devRef .tc r) = W (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps2_writes : List (Ref sig .tc) :=
  [main_cst_11, main_v69, main_v70, main_v71]

set_option maxHeartbeats 4000000 in
theorem hostOps2_keep (W : Valuation τ sig (Elt F)) (r : Ref sig .tc) (hr : r ∉ hostOps2_writes) :
    StableHlo.after (hostOps2 (F := F)) W (Proc.devRef .tc r) = W (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps4_writes : List (Ref sig .tc) :=
  [main_v74, main_v75, main_v76, main_v77, main_v78, main_v79, main_v80, main_v81, main_v82, main_v83,
   main_v84, main_v85, main_v86, main_v87, main_v88, main_v89, main_v90, main_v91, main_cst_12, main_v92,
   main_v93, main_cst_13, main_v94, main_v95, main_v96, main_v97, main_v98, main_cst_14, main_v99, main_v100,
   main_cst_15, main_v101, main_v102, main_v103, main_v104, main_v105, main_cst_16, main_v106, main_v107, main_v108,
   main_v109, main_v110, main_v111, main_v112, main_v113, main_v114, main_v115, main_v116, main_v117, main_v118,
   main_v119, main_v120, main_v121, main_v122, main_v123, main_v124, main_v125, main_v126, main_v127, main_v128,
   main_cst_17, main_v129, main_v130, main_cst_18, main_v131, main_v132, main_v133, main_v134, main_v135, main_cst_19,
   main_v136, main_v137, main_cst_20, main_v138, main_v139, main_v140, main_v141, main_v142, main_cst_21, main_v143,
   main_v144, main_v145, main_v146, main_v147, main_v148, main_v149, main_v150, main_v151, main_v152, main_v153,
   main_c_22, main_v154, main_v155, main_c_23, main_v156, main_v157, main_v158, main_v159, main_v160, main_c_24,
   main_v161, main_v162, main_c_25, main_v163, main_v164, main_v165, main_v166, main_v167]

set_option maxHeartbeats 4000000 in
theorem hostOps4_keep (W : Valuation τ sig (Elt F)) (r : Ref sig .tc) (hr : r ∉ hostOps4_writes) :
    StableHlo.after (hostOps4 (F := F)) W (Proc.devRef .tc r) = W (Proc.devRef .tc r) :=
  StableHlo.after_of_forall_not_mem (b := Proc.devRef .tc r) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps5_writes : List (Ref sig .tc) :=
  [main_cst_26, main_v169, main_v170, main_v171, main_v172, main_v173, main_v174, main_v175, main_c_27, main_v176,
   main_v177, main_c_28, main_v178, main_v179, main_v180, main_v181, main_v182, main_c_29, main_v183, main_v184,
   main_c_30, main_v185, main_v186, main_v187, main_v188, main_v189]

set_option maxHeartbeats 4000000 in
theorem hostOps5_keep (W : Valuation τ sig (Elt F)) (r : Ref sig .tc) (hr : r ∉ hostOps5_writes) :
    StableHlo.after (hostOps5 (F := F)) W (Proc.devRef .tc r) = W (Proc.devRef .tc r) :=
  StableHlo.after_of_forall_not_mem (b := Proc.devRef .tc r) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps6_writes : List (Ref sig .tc) :=
  [main_cst_31, main_v191, main_v192, main_v193]

set_option maxHeartbeats 4000000 in
theorem hostOps6_keep (W : Valuation τ sig (Elt F)) (r : Ref sig .tc) (hr : r ∉ hostOps6_writes) :
    StableHlo.after (hostOps6 (F := F)) W (Proc.devRef .tc r) = W (Proc.devRef .tc r) :=
  StableHlo.after_of_forall_not_mem (b := Proc.devRef .tc r) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps8_writes : List (Ref sig .tc) :=
  [main_v196, main_v197, main_v198, main_v199, main_v200, main_v201, main_v202, main_v203, main_v204, main_v205,
   main_v206, main_v207, main_v208, main_v209, main_v210, main_v211, main_v212, main_v213, main_cst_32, main_v214,
   main_v215, main_cst_33, main_v216, main_v217, main_v218, main_v219, main_v220, main_cst_34, main_v221, main_v222,
   main_cst_35, main_v223, main_v224, main_v225, main_v226, main_v227, main_cst_36, main_v228, main_v229, main_v230,
   main_v231, main_v232, main_v233, main_v234, main_v235, main_v236, main_v237, main_v238, main_v239, main_v240,
   main_v241, main_v242, main_v243, main_v244, main_v245, main_v246, main_v247, main_v248, main_v249, main_v250,
   main_cst_37, main_v251, main_v252, main_cst_38, main_v253, main_v254, main_v255, main_v256, main_v257, main_cst_39,
   main_v258, main_v259, main_cst_40, main_v260, main_v261, main_v262, main_v263, main_v264, main_cst_41, main_v265,
   main_v266, main_v267, main_v268, main_v269, main_v270, main_v271, main_v272, main_v273, main_v274, main_v275,
   main_cst_42, main_v276, main_v277, main_cst_43, main_v278, main_v279, main_cst_44, main_v280, main_cst_45, main_v281,
   main_v282, main_v283, main_v284, main_v285, main_v286, main_cst_46, main_v287, main_v288, main_v289, main_v290,
   main_v291, main_v292, main_cst_47, main_v293, main_v294, main_v295, main_v296, main_v297, main_v298, main_v299,
   main_v300, main_cst_48, main_v301, main_v302, main_cst_49, main_v303, main_v304, main_cst_50, main_v305, main_cst_51,
   main_v306, main_v307, main_v308, main_v309, main_v310, main_v311, main_cst_52, main_v312, main_v313, main_v314,
   main_v315, main_v316, main_v317, main_cst_53, main_v318, main_v319]

set_option maxHeartbeats 4000000 in
theorem hostOps8_keep (W : Valuation τ sig (Elt F)) (r : Ref sig .tc) (hr : r ∉ hostOps8_writes) :
    StableHlo.after (hostOps8 (F := F)) W (Proc.devRef .tc r) = W (Proc.devRef .tc r) :=
  StableHlo.after_of_forall_not_mem (b := Proc.devRef .tc r) _ _ (List.forall_iff_forall_mem.mp (by
    simp only [hostOps8, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

variable (m : (ℓ : Loc nD τ sig) → Buf (Elt F) ℓ) (ρ : Dev nD → PrngReg)

-- Across a region only its output arrays change.
theorem W2_keep (c : Dev nD) (b : Ref sig .tc)
    (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

theorem W4_keep (c : Dev nD) (b : Ref sig .tc)
    (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

theorem W6_keep (c : Dev nD) (b : Ref sig .tc)
    (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩

theorem W7_keep (c : Dev nD) (b : Ref sig .tc)
    (hb : ∀ w, Pipeline.arrRef spec3 w = b → (cfg3.win w).isOut = false) :
    W7 m ρ c (Proc.devRef .tc b) = W6 m ρ c (Proc.devRef .tc b) := by
  by_cases h : ∃ w, Pipeline.arrRef spec3 w = b
  · obtain ⟨w, rfl⟩ := h
    exact (W7_arr m ρ c w).trans (((dat3 (V6 m ρ) c).arrAt_in w (hb w rfl) _).trans (A_eq3 (V6 m ρ) c w))
  · exact W7_of_ne m ρ c b fun w e => h ⟨w, e⟩

theorem W9_keep (c : Dev nD) (b : Ref sig .tc)
    (hb : ∀ w, Pipeline.arrRef spec4 w = b → (cfg4.win w).isOut = false) :
    W9 m ρ c (Proc.devRef .tc b) = W8 m ρ c (Proc.devRef .tc b) := by
  by_cases h : ∃ w, Pipeline.arrRef spec4 w = b
  · obtain ⟨w, rfl⟩ := h
    exact (W9_arr m ρ c w).trans (((dat4 (V8 m ρ) c).arrAt_in w (hb w rfl) _).trans (A_eq4 (V8 m ρ) c w))
  · exact W9_of_ne m ρ c b fun w e => h ⟨w, e⟩

theorem W11_keep (c : Dev nD) (b : Ref sig .tc)
    (hb : ∀ w, Pipeline.arrRef spec5 w = b → (cfg5.win w).isOut = false) :
    W11 m ρ c (Proc.devRef .tc b) = W10 m ρ c (Proc.devRef .tc b) := by
  by_cases h : ∃ w, Pipeline.arrRef spec5 w = b
  · obtain ⟨w, rfl⟩ := h
    exact (W11_arr m ρ c w).trans (((dat5 (V10 m ρ) c).arrAt_in w (hb w rfl) _).trans (A_eq5 (V10 m ρ) c w))
  · exact W11_of_ne m ρ c b fun w e => h ⟨w, e⟩

theorem W13_keep (c : Dev nD) (b : Ref sig .tc)
    (hb : ∀ w, Pipeline.arrRef spec6 w = b → (cfg6.win w).isOut = false) :
    W13 m ρ c (Proc.devRef .tc b) = W12 m ρ c (Proc.devRef .tc b) := by
  by_cases h : ∃ w, Pipeline.arrRef spec6 w = b
  · obtain ⟨w, rfl⟩ := h
    exact (W13_arr m ρ c w).trans (((dat6 (V12 m ρ) c).arrAt_in w (hb w rfl) _).trans (A_eq6 (V12 m ρ) c w))
  · exact W13_of_ne m ρ c b fun w e => h ⟨w, e⟩

theorem W14_keep (c : Dev nD) (b : Ref sig .tc)
    (hb : ∀ w, Pipeline.arrRef spec7 w = b → (cfg7.win w).isOut = false) :
    W14 m ρ c (Proc.devRef .tc b) = W13 m ρ c (Proc.devRef .tc b) := by
  by_cases h : ∃ w, Pipeline.arrRef spec7 w = b
  · obtain ⟨w, rfl⟩ := h
    exact (W14_arr m ρ c w).trans (((dat7 (V13 m ρ) c).arrAt_in w (hb w rfl) _).trans (A_eq7 (V13 m ρ) c w))
  · exact W14_of_ne m ρ c b fun w e => h ⟨w, e⟩

-- The buffer contents at boundary j of the run (past the last boundary, the last).
def Wat : ℕ → Dev nD → Valuation τ sig (Elt F)
  | 0 => W0 m ρ | 1 => W1 m ρ | 2 => W2 m ρ | 3 => W3 m ρ | 4 => W4 m ρ | 5 => W5 m ρ | 6 => W6 m ρ | 7 => W7 m ρ
  | 8 => W8 m ρ | 9 => W9 m ρ | 10 => W10 m ρ | 11 => W11 m ρ | 12 => W12 m ρ | 13 => W13 m ρ | 14 => W14 m ρ
  | _ => W15 m ρ

-- Whether the segment from boundary j to boundary j + 1 leaves buffer b alone.
def keeps (b : Ref sig .tc) : ℕ → Bool
  | 0 => decide (b ∉ hostOps0_writes)
  | 1 => decide (∀ w, Pipeline.arrRef spec0 w = b → (cfg0.win w).isOut = false)
  | 2 => decide (b ∉ hostOps1_writes)
  | 3 => decide (∀ w, Pipeline.arrRef spec1 w = b → (cfg1.win w).isOut = false)
  | 4 => decide (b ∉ hostOps2_writes)
  | 5 => decide (∀ w, Pipeline.arrRef spec2 w = b → (cfg2.win w).isOut = false)
  | 6 => decide (∀ w, Pipeline.arrRef spec3 w = b → (cfg3.win w).isOut = false)
  | 7 => decide (b ∉ hostOps4_writes)
  | 8 => decide (∀ w, Pipeline.arrRef spec4 w = b → (cfg4.win w).isOut = false)
  | 9 => decide (b ∉ hostOps5_writes)
  | 10 => decide (∀ w, Pipeline.arrRef spec5 w = b → (cfg5.win w).isOut = false)
  | 11 => decide (b ∉ hostOps6_writes)
  | 12 => decide (∀ w, Pipeline.arrRef spec6 w = b → (cfg6.win w).isOut = false)
  | 13 => decide (∀ w, Pipeline.arrRef spec7 w = b → (cfg7.win w).isOut = false)
  | 14 => decide (b ∉ hostOps8_writes)
  | _ => true

theorem Wat_succ (c : Dev nD) (b : Ref sig .tc) :
    ∀ j, keeps b j = true → Wat m ρ (j + 1) c (Proc.devRef .tc b) = Wat m ρ j c (Proc.devRef .tc b)
  | 0, h => hostOps0_keep (W0 m ρ c) b (of_decide_eq_true h)
  | 1, h => W2_keep m ρ c b (of_decide_eq_true h)
  | 2, h => hostOps1_keep (W2 m ρ c) b (of_decide_eq_true h)
  | 3, h => W4_keep m ρ c b (of_decide_eq_true h)
  | 4, h => hostOps2_keep (W4 m ρ c) b (of_decide_eq_true h)
  | 5, h => W6_keep m ρ c b (of_decide_eq_true h)
  | 6, h => W7_keep m ρ c b (of_decide_eq_true h)
  | 7, h => hostOps4_keep (W7 m ρ c) b (of_decide_eq_true h)
  | 8, h => W9_keep m ρ c b (of_decide_eq_true h)
  | 9, h => hostOps5_keep (W9 m ρ c) b (of_decide_eq_true h)
  | 10, h => W11_keep m ρ c b (of_decide_eq_true h)
  | 11, h => hostOps6_keep (W11 m ρ c) b (of_decide_eq_true h)
  | 12, h => W13_keep m ρ c b (of_decide_eq_true h)
  | 13, h => W14_keep m ρ c b (of_decide_eq_true h)
  | 14, h => hostOps8_keep (W14 m ρ c) b (of_decide_eq_true h)
  | _ + 15, _ => rfl

-- A buffer that every segment between boundaries i and j leaves alone holds at j what it held at i.
theorem carry (c : Dev nD) (b : Ref sig .tc) (i j : ℕ) (h : i ≤ j ∧ ∀ k, i ≤ k → k < j → keeps b k = true) :
    Wat m ρ j c (Proc.devRef .tc b) = Wat m ρ i c (Proc.devRef .tc b) := by
  obtain ⟨hij, h⟩ := h
  induction j, hij using Nat.le_induction with
  | base => rfl
  | succ j hj ih =>
    exact (Wat_succ m ρ c b j (h j hj (Nat.lt_succ_self j))).trans (ih fun k hk hkj => h k hk (Nat.lt_succ_of_lt hkj))

-- An argument of the program, which no segment writes, ends as launched.
theorem W15_arg (c : Dev nD) (b : Ref sig .tc) (h : 0 ≤ 15 ∧ ∀ k, 0 ≤ k → k < 15 → keeps b k = true) :
    W15 m ρ c (Proc.devRef .tc b) = m ((c : Thread nD τ).loc b) :=
  carry m ρ c b 0 15 h

end Cert.Kernel.Hand

end
-- ==== Proof.KI.Edge0.lean ====
import proofs.«407386_j15839839387945_2_alg».proof.Proof.Gen.KernelIdeal.Launch
import proofs.«407386_j15839839387945_2_alg».proof.Proof.Gen.KernelIdeal.Skeleton
import proofs.«407386_j15839839387945_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S4000x128 := Rect.unit (s := S4000x128) ![0, 0] S4000x128.size inb_S4000x128_S4000x128_0_0
abbrev r0_2 : Rect S4000x1 := Rect.unit (s := S4000x1) ![0, 0] S4000x1.size inb_S4000x1_S4000x1_0_0
abbrev r0_3 : Rect S128x128 := Rect.unit (s := S128x128) ![0, 0] S128x128.size inb_S128x128_S128x128_0_0
abbrev r0_5 : Rect S20x128 := Rect.unit (s := S20x128) ![0, 0] S20x128.size inb_S20x128_S20x128_0_0

def out0_6 (x0 x1 : Vec F S4000x128 .bf16) (x2 : Vec F S4000x1 .i32) (x3 x4 : Vec F S128x128 .bf16) (x5 : Vec F S20x128 .bf16) : Vec F S4000x128 .f32 :=
  View.canon [⟨r0_0, k0_pay1 (View.ld x0 r0_0) (View.ld x1 r0_0) (View.ld x3 r0_3) (View.ld x4 r0_3) (View.ld x2 r0_2) (View.ld x5 r0_5)⟩]

theorem cover0_6 (p0 : Vec F S4000x128 .f32) (y : S4000x128.Idx) :
    ∃ pc ∈ ([⟨r0_0, p0⟩] : List (View.Piece (Elt F) S4000x128 .f32)), y ∈ pc.1.set :=
  View.cover_of_tiled [⟨r0_0, p0⟩] S4000x128.size (by rfl) y

set_option maxHeartbeats 1000000 in

theorem sound_kernel0 (c : Dev nD) (E : Set ℕ) (i : grid0.Coords)
    (arg1 : Memref sig .tc .vmem S4000x128 .bf16) (harg1 : arg1.IsWhole) (arg2 : Memref sig .tc .vmem S4000x128 .bf16) (harg2 : arg2.IsWhole)
    (arg3 : Memref sig .tc .vmem S4000x1 .i32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S20x128 .bf16) (harg6 : arg6.IsWhole)
    (arg7 : Memref sig .tc .vmem S4000x128 .f32) (harg7 : arg7.IsWhole)
    (x0 x1 : Vec F S4000x128 .bf16) (x2 : Vec F S4000x1 .i32) (x3 x4 : Vec F S128x128 .bf16) (x5 : Vec F S20x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__edge_mlp_kernel i arg1 harg1 arg2 harg2 arg3 harg3 arg4 harg4 arg5 harg5 arg6 harg6 arg7 harg7) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Edge1.lean ====
/- The edge-MLP region 1 of @main, at a parameter V (the TensorCore's buffer contents when the region is entered).
   Windows 0, 1, 2 (destination features, source features, edge attribute) move with the grid point; windows 3, 4, 5
   (the two weight matrices and the attribute table) have a constant block index, so they are fetched once and their
   buffers keep the same block at every later point; window 6 is the output block. At every point the body reads the
   six input blocks and overwrites the whole output block with
     max(x_dst · W_dst + x_src · W_src + onehot(attr) · T, 0),
   a function of the six input blocks alone. Stated for any float model F. -/
import proofs.«407386_j15839839387945_2_alg».proof.Proof.Gen.KernelIdeal.Launch
import proofs.«407386_j15839839387945_2_alg».proof.Proof.Gen.KernelIdeal.Skeleton
import proofs.«407386_j15839839387945_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 4000 rows is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current buffer holds its block at every point, for any proof data whose array is V's and whose
    body leaves the block in place. Where the window is fetched this is the fetch; where it is not, the block index
    has not moved since the last fetch and the body kept the buffer. Windows 0, 1, 2 are fetched at every point;
    windows 3, 4, 5 only at the first, their index being constant. No window is cut and none is ever idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! # The body's accesses: each is the whole of its buffer -/

abbrev r1_0 : Rect S4000x128 := Rect.unit (s := S4000x128) ![0, 0] S4000x128.size inb_S4000x128_S4000x128_0_0
abbrev r1_2 : Rect S4000x1 := Rect.unit (s := S4000x1) ![0, 0] S4000x1.size inb_S4000x1_S4000x1_0_0
abbrev r1_3 : Rect S128x128 := Rect.unit (s := S128x128) ![0, 0] S128x128.size inb_S128x128_S128x128_0_0
abbrev r1_5 : Rect S20x128 := Rect.unit (s := S20x128) ![0, 0] S20x128.size inb_S20x128_S20x128_0_0

/-! # What the body leaves in the output window's buffer -/

/-- The output block after the body, from the six input blocks: its single store, covering the block, of
    max(x0 · x3 + x1 · x4 + onehot(x2) · x5, 0). -/
def out1_6 (x0 x1 : Vec F S4000x128 .bf16) (x2 : Vec F S4000x1 .i32) (x3 x4 : Vec F S128x128 .bf16) (x5 : Vec F S20x128 .bf16) : Vec F S4000x128 .f32 :=
  View.canon [⟨r1_0, k1_pay1 (View.ld x0 r1_0) (View.ld x1 r1_0) (View.ld x3 r1_3) (View.ld x4 r1_3) (View.ld x2 r1_2) (View.ld x5 r1_5)⟩]

/-- The single store's rectangle is the whole block, so every index of the block lies in it. -/
theorem cover1_6 (p0 : Vec F S4000x128 .f32) (y : S4000x128.Idx) :
    ∃ pc ∈ ([⟨r1_0, p0⟩] : List (View.Piece (Elt F) S4000x128 .f32)), y ∈ pc.1.set :=
  View.cover_of_tiled [⟨r1_0, p0⟩] S4000x128.size (by rfl) y

/-! # The body's triple -/

set_option maxHeartbeats 1000000 in
/-- The body on whole buffers, the inputs' at contents x0 … x5 and the output's at anything, runs to a state with the
    inputs' unchanged and the output's at out1_6 x0 … x5: six loads of the inputs, a load of the output whose value
    is not used, and the one store. The grid coordinate is not read. -/
theorem sound_kernel1 (c : Dev nD) (E : Set ℕ) (i : grid1.Coords)
    (arg1 : Memref sig .tc .vmem S4000x128 .bf16) (harg1 : arg1.IsWhole) (arg2 : Memref sig .tc .vmem S4000x128 .bf16) (harg2 : arg2.IsWhole)
    (arg3 : Memref sig .tc .vmem S4000x1 .i32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S20x128 .bf16) (harg6 : arg6.IsWhole)
    (arg7 : Memref sig .tc .vmem S4000x128 .f32) (harg7 : arg7.IsWhole)
    (x0 x1 : Vec F S4000x128 .bf16) (x2 : Vec F S4000x1 .i32) (x3 x4 : Vec F S128x128 .bf16) (x5 : Vec F S20x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__edge_mlp_kernel i arg1 harg1 arg2 harg2 arg3 harg3 arg4 harg4 arg5 harg5 arg6 harg6 arg7 harg7) K := by
  simp only [cc1__edge_mlp_kernel_eq_skeleton]; unfold cc1__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! # The pipeline's proof data -/

/-- The proof data of pipeline 1 on core c: the arrays as the region finds them; after the body at point t each
    input's buffer at its block and the output's at out1_6 of the six input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! # The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Edge4.lean ====
/- The edge-MLP region 4 of @main, at a parameter V (the TensorCore's buffer contents when the region is entered).
   Windows 0, 1, 2 (destination features, source features, edge attribute) move with the grid point; windows 3, 4, 5
   (the two weight matrices and the attribute table) have a constant block index, so they are fetched once and their
   buffers keep the same block at every later point; window 6 is the output block. At every point the body reads the
   six input blocks and overwrites the whole output block with
     max(x_dst · W_dst + x_src · W_src + onehot(attr) · T, 0),
   a function of the six input blocks alone. Stated for any float model F. -/
import proofs.«407386_j15839839387945_2_alg».proof.Proof.Gen.KernelIdeal.Launch
import proofs.«407386_j15839839387945_2_alg».proof.Proof.Gen.KernelIdeal.Skeleton
import proofs.«407386_j15839839387945_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 4000 rows is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 4: the windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's current buffer holds its block at every point, for any proof data whose array is V's and whose
    body leaves the block in place. Where the window is fetched this is the fetch; where it is not, the block index
    has not moved since the last fetch and the body kept the buffer. Windows 0, 1, 2 are fetched at every point;
    windows 3, 4, 5 only at the first, their index being constant. No window is cut and none is ever idle. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! # The body's accesses: each is the whole of its buffer -/

abbrev r4_0 : Rect S4000x128 := Rect.unit (s := S4000x128) ![0, 0] S4000x128.size inb_S4000x128_S4000x128_0_0
abbrev r4_2 : Rect S4000x1 := Rect.unit (s := S4000x1) ![0, 0] S4000x1.size inb_S4000x1_S4000x1_0_0
abbrev r4_3 : Rect S128x128 := Rect.unit (s := S128x128) ![0, 0] S128x128.size inb_S128x128_S128x128_0_0
abbrev r4_5 : Rect S20x128 := Rect.unit (s := S20x128) ![0, 0] S20x128.size inb_S20x128_S20x128_0_0

/-! # What the body leaves in the output window's buffer -/

/-- The output block after the body, from the six input blocks: its single store, covering the block, of
    max(x0 · x3 + x1 · x4 + onehot(x2) · x5, 0). -/
def out4_6 (x0 x1 : Vec F S4000x128 .bf16) (x2 : Vec F S4000x1 .i32) (x3 x4 : Vec F S128x128 .bf16) (x5 : Vec F S20x128 .bf16) : Vec F S4000x128 .f32 :=
  View.canon [⟨r4_0, k4_pay1 (View.ld x0 r4_0) (View.ld x1 r4_0) (View.ld x3 r4_3) (View.ld x4 r4_3) (View.ld x2 r4_2) (View.ld x5 r4_5)⟩]

/-- The single store's rectangle is the whole block, so every index of the block lies in it. -/
theorem cover4_6 (p0 : Vec F S4000x128 .f32) (y : S4000x128.Idx) :
    ∃ pc ∈ ([⟨r4_0, p0⟩] : List (View.Piece (Elt F) S4000x128 .f32)), y ∈ pc.1.set :=
  View.cover_of_tiled [⟨r4_0, p0⟩] S4000x128.size (by rfl) y

/-! # The body's triple -/

set_option maxHeartbeats 1000000 in
/-- The body on whole buffers, the inputs' at contents x0 … x5 and the output's at anything, runs to a state with the
    inputs' unchanged and the output's at out4_6 x0 … x5: six loads of the inputs, a load of the output whose value
    is not used, and the one store. The grid coordinate is not read. -/
theorem sound_kernel4 (c : Dev nD) (E : Set ℕ) (i : grid4.Coords)
    (arg1 : Memref sig .tc .vmem S4000x128 .bf16) (harg1 : arg1.IsWhole) (arg2 : Memref sig .tc .vmem S4000x128 .bf16) (harg2 : arg2.IsWhole)
    (arg3 : Memref sig .tc .vmem S4000x1 .i32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S20x128 .bf16) (harg6 : arg6.IsWhole)
    (arg7 : Memref sig .tc .vmem S4000x128 .f32) (harg7 : arg7.IsWhole)
    (x0 x1 : Vec F S4000x128 .bf16) (x2 : Vec F S4000x1 .i32) (x3 x4 : Vec F S128x128 .bf16) (x5 : Vec F S20x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__edge_mlp_kernel i arg1 harg1 arg2 harg2 arg3 harg3 arg4 harg4 arg5 harg5 arg6 harg6 arg7 harg7) K := by
  simp only [cc4__edge_mlp_kernel_eq_skeleton]; unfold cc4__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! # The pipeline's proof data -/

/-- The proof data of pipeline 4 on core c: the arrays as the region finds them; after the body at point t each
    input's buffer at its block and the output's at out4_6 of the six input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

/-- Each input's current buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! # The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' buffers hold their blocks, so the body's triple applies; the invariant and the
    core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Edge5.lean ====
/- The edge-MLP region 5 of @main, at a parameter V (the TensorCore's buffer contents when the region is entered).
   Windows 0, 1, 2 (destination features, source features, edge attribute) move with the grid point; windows 3, 4, 5
   (the two weight matrices and the attribute table) have a constant block index, so they are fetched once and their
   buffers keep the same block at every later point; window 6 is the output block. At every point the body reads the
   six input blocks and overwrites the whole output block with
     max(x_dst · W_dst + x_src · W_src + onehot(attr) · T, 0),
   a function of the six input blocks alone. Stated for any float model F. -/
import proofs.«407386_j15839839387945_2_alg».proof.Proof.Gen.KernelIdeal.Launch
import proofs.«407386_j15839839387945_2_alg».proof.Proof.Gen.KernelIdeal.Skeleton
import proofs.«407386_j15839839387945_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of 4000 rows is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: the windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current buffer holds its block at every point, for any proof data whose array is V's and whose
    body leaves the block in place. Where the window is fetched this is the fetch; where it is not, the block index
    has not moved since the last fetch and the body kept the buffer. Windows 0, 1, 2 are fetched at every point;
    windows 3, 4, 5 only at the first, their index being constant. No window is cut and none is ever idle. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! # The body's accesses: each is the whole of its buffer -/

abbrev r5_0 : Rect S4000x128 := Rect.unit (s := S4000x128) ![0, 0] S4000x128.size inb_S4000x128_S4000x128_0_0
abbrev r5_2 : Rect S4000x1 := Rect.unit (s := S4000x1) ![0, 0] S4000x1.size inb_S4000x1_S4000x1_0_0
abbrev r5_3 : Rect S128x128 := Rect.unit (s := S128x128) ![0, 0] S128x128.size inb_S128x128_S128x128_0_0
abbrev r5_5 : Rect S20x128 := Rect.unit (s := S20x128) ![0, 0] S20x128.size inb_S20x128_S20x128_0_0

/-! # What the body leaves in the output window's buffer -/

/-- The output block after the body, from the six input blocks: its single store, covering the block, of
    max(x0 · x3 + x1 · x4 + onehot(x2) · x5, 0). -/
def out5_6 (x0 x1 : Vec F S4000x128 .bf16) (x2 : Vec F S4000x1 .i32) (x3 x4 : Vec F S128x128 .bf16) (x5 : Vec F S20x128 .bf16) : Vec F S4000x128 .f32 :=
  View.canon [⟨r5_0, k5_pay1 (View.ld x0 r5_0) (View.ld x1 r5_0) (View.ld x3 r5_3) (View.ld x4 r5_3) (View.ld x2 r5_2) (View.ld x5 r5_5)⟩]

/-- The single store's rectangle is the whole block, so every index of the block lies in it. -/
theorem cover5_6 (p0 : Vec F S4000x128 .f32) (y : S4000x128.Idx) :
    ∃ pc ∈ ([⟨r5_0, p0⟩] : List (View.Piece (Elt F) S4000x128 .f32)), y ∈ pc.1.set :=
  View.cover_of_tiled [⟨r5_0, p0⟩] S4000x128.size (by rfl) y

/-! # The body's triple -/

set_option maxHeartbeats 1000000 in
/-- The body on whole buffers, the inputs' at contents x0 … x5 and the output's at anything, runs to a state with the
    inputs' unchanged and the output's at out5_6 x0 … x5: six loads of the inputs, a load of the output whose value
    is not used, and the one store. The grid coordinate is not read. -/
theorem sound_kernel5 (c : Dev nD) (E : Set ℕ) (i : grid5.Coords)
    (arg1 : Memref sig .tc .vmem S4000x128 .bf16) (harg1 : arg1.IsWhole) (arg2 : Memref sig .tc .vmem S4000x128 .bf16) (harg2 : arg2.IsWhole)
    (arg3 : Memref sig .tc .vmem S4000x1 .i32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S20x128 .bf16) (harg6 : arg6.IsWhole)
    (arg7 : Memref sig .tc .vmem S4000x128 .f32) (harg7 : arg7.IsWhole)
    (x0 x1 : Vec F S4000x128 .bf16) (x2 : Vec F S4000x1 .i32) (x3 x4 : Vec F S128x128 .bf16) (x5 : Vec F S20x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E
          (cc5__edge_mlp_kernel i arg1 harg1 arg2 harg2 arg3 harg3 arg4 harg4 arg5 harg5 arg6 harg6 arg7 harg7) K := by
  simp only [cc5__edge_mlp_kernel_eq_skeleton]; unfold cc5__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! # The pipeline's proof data -/

/-- The proof data of pipeline 5 on core c: the arrays as the region finds them; after the body at point t each
    input's buffer at its block and the output's at out5_6 of the six input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by dsimp only [dat5]

/-- Each input's current buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! # The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' buffers hold their blocks, so the body's triple applies; the invariant and the
    core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.Attn2.lean ====
import proofs.«407386_j15839839387945_2_alg».proof.Proof.Gen.KernelIdeal.Launch
import proofs.«407386_j15839839387945_2_alg».proof.Proof.Gen.KernelIdeal.Skeleton
import proofs.«407386_j15839839387945_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem attnZeroOff2 : (![0, 0] : Fin 2 → Nat) = fun _ => 0 := funext fun a => by fin_cases a <;> rfl

theorem attnLastStore2 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 5 = 0 :=
  (by decide +kernel : ∀ t : Fin grid2.N, cond2_0 (grid2.coords t) ↔ t.val % 5 = 0)

abbrev cond2_1 (i : grid2.Coords) : Prop := k2_cond2 i = 1#1

theorem hcond2_1 : ∀ t : Fin cfg2.N, cond2_1 (grid2.coords t) ↔ t.val % 5 = 4 :=
  (by decide +kernel : ∀ t : Fin grid2.N, cond2_1 (grid2.coords t) ↔ t.val % 5 = 4)

def mInit2 : Vec F S1000x1 .f32 := k2_pay4 (F := F)

def lInit2 : Vec F S1000x1 .f32 := k2_pay5 (F := F)

def accInit2 : Vec F S1000x128 .f32 := k2_pay6 (F := F)

def mNext2 (blk : Vec F S1000x128 .f32) (full : Vec F S2000x128 .bf16) (mPrev : Vec F S1000x1 .f32) : Vec F S1000x1 .f32 :=
  k2_pay2 (k2_pay9 blk full mPrev)

def lNext2 (blk : Vec F S1000x128 .f32) (full : Vec F S2000x128 .bf16) (mPrev lPrev : Vec F S1000x1 .f32) : Vec F S1000x1 .f32 :=
  k2_pay12 blk full mPrev mPrev lPrev

def accNext2 (blk : Vec F S1000x128 .f32) (full : Vec F S2000x128 .bf16) (mPrev : Vec F S1000x1 .f32) (accPrev : Vec F S1000x128 .f32) : Vec F S1000x128 .f32 :=
  k2_pay1 (k2_pay13 blk full mPrev mPrev accPrev)

def outFin2 (blk : Vec F S1000x128 .f32) (lFin : Vec F S1000x1 .f32) (accFin : Vec F S1000x128 .f32) : Vec F S1000x128 .f32 :=
  k2_pay3 accFin lFin blk

set_option maxHeartbeats 1000000 in

theorem kernelRun2_B (c : Dev nD) (i : grid2.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond2_0 i) (hc1 : ¬cond2_1 i)
    (x0 : Vec F S1000x128 .f32) (x1 : Vec F S2000x128 .bf16) (xs0 xs1 : Vec F S1000x1 .f32) (xs2 : Vec F S1000x128 .f32)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1 ∗ owns (c : Thread nD τ) arg4 fullShare xi2
            ∗ owns (c : Thread nD τ) arg5 fullShare (mNext2 x0 x1 xs0) ∗ owns (c : Thread nD τ) arg6 fullShare (lNext2 x0 x1 xs0 xs1)
            ∗ owns (c : Thread nD τ) arg7 fullShare (accNext2 x0 x1 xs0 xs2)) -∗ K ⟨⟩))
      ⊢ wp frame (wpE (defs₀ (F := F)) Variants.none c none) E (cc2__cross_attn_kernel i arg2 harg2 arg3 harg3 arg4 harg4 arg5 harg5 arg6 harg6 arg7 harg7) K := by
  simp only [cc2__cross_attn_kernel_eq_skeleton]; unfold cc2__cross_attn_kernel_skel
  simp only [k2_part1_eq_skeleton]; unfold k2_part1_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext2
    refine (attnLastStore2 (S := S1000x1) _ _ attnZeroOff2 _ _ _).trans ?_
    dsimp only
    simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2]
  isplitl [HS1]
  · iexists _; isplitr
    swap; · iexact HS1
    ipureintro
    unfold lNext2
    refine (attnLastStore2 (S := S1000x1) _ _ attnZeroOff2 _ _ _).trans ?_
    dsimp only
    simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2]
  iexists _; isplitr
  swap; · iexact HS2
  ipureintro
  unfold accNext2
  refine (attnLastStore2 (S := S1000x128) _ _ attnZeroOff2 _ _ _).trans ?_
  dsimp only
  simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2]

set_option maxHeartbeats 1000000 in

theorem kernelRun2_A (c : Dev nD) (i : grid2.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : cond2_0 i) (hc1 : ¬cond2_1 i)
    (x0 : Vec F S1000x128 .f32) (x1 : Vec F S2000x128 .bf16)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (mNext2 x0 x1 mInit2) ∗ owns (c : Thread nD τ) arg6 fullShare (lNext2 x0 x1 mInit2 lInit2)
            ∗ owns (c : Thread nD τ) arg7 fullShare (accNext2 x0 x1 mInit2 accInit2)) -∗ K ⟨⟩))
      ⊢ wp frame (wpE (defs₀ (F := F)) Variants.none c none) E (cc2__cross_attn_kernel i arg2 harg2 arg3 harg3 arg4 harg4 arg5 harg5 arg6 harg6 arg7 harg7) K := by
  simp only [cc2__cross_attn_kernel_eq_skeleton]; unfold cc2__cross_attn_kernel_skel
  simp only [k2_part1_eq_skeleton]; unfold k2_part1_skel
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext2 mInit2
    refine (attnLastStore2 (S := S1000x1) _ _ attnZeroOff2 _ _ _).trans ?_
    dsimp only
    sl_unfold_run_names
    simp only [View.readAt_eq_ld, harg2.read_unread, harg3.read_unread,
      View.ld_unit_zero (S := S1000x128) attnZeroOff2, View.ld_unit_zero (S := S2000x128) attnZeroOff2,
      View.readCov_unit_zero (S := S1000x1) _ attnZeroOff2, View.readCov_unit_zero (S := S1000x128) _ attnZeroOff2]
  isplitl [HS1]
  · iexists _; isplitr
    swap; · iexact HS1
    ipureintro
    unfold lNext2 mInit2 lInit2
    refine (attnLastStore2 (S := S1000x1) _ _ attnZeroOff2 _ _ _).trans ?_
    dsimp only
    sl_unfold_run_names
    simp only [View.readAt_eq_ld, harg2.read_unread, harg3.read_unread,
      View.ld_unit_zero (S := S1000x128) attnZeroOff2, View.ld_unit_zero (S := S2000x128) attnZeroOff2,
      View.readCov_unit_zero (S := S1000x1) _ attnZeroOff2, View.readCov_unit_zero (S := S1000x128) _ attnZeroOff2]
  iexists _; isplitr
  swap; · iexact HS2
  ipureintro
  unfold accNext2 mInit2 accInit2
  refine (attnLastStore2 (S := S1000x128) _ _ attnZeroOff2 _ _ _).trans ?_
  dsimp only
  sl_unfold_run_names
  simp only [View.readAt_eq_ld, harg2.read_unread, harg3.read_unread,
      View.ld_unit_zero (S := S1000x128) attnZeroOff2, View.ld_unit_zero (S := S2000x128) attnZeroOff2,
      View.readCov_unit_zero (S := S1000x1) _ attnZeroOff2, View.readCov_unit_zero (S := S1000x128) _ attnZeroOff2]

set_option maxHeartbeats 1000000 in

theorem kernelRun2_C (c : Dev nD) (i : grid2.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond2_0 i) (hc1 : cond2_1 i)
    (x0 : Vec F S1000x128 .f32) (x1 : Vec F S2000x128 .bf16) (xs0 xs1 : Vec F S1000x1 .f32) (xs2 : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outFin2 x0 (lNext2 x0 x1 xs0 xs1) (accNext2 x0 x1 xs0 xs2))
            ∗ owns (c : Thread nD τ) arg5 fullShare (mNext2 x0 x1 xs0) ∗ owns (c : Thread nD τ) arg6 fullShare (lNext2 x0 x1 xs0 xs1)
            ∗ owns (c : Thread nD τ) arg7 fullShare (accNext2 x0 x1 xs0 xs2)) -∗ K ⟨⟩))
      ⊢ wp frame (wpE (defs₀ (F := F)) Variants.none c none) E (cc2__cross_attn_kernel i arg2 harg2 arg3 harg3 arg4 harg4 arg5 harg5 arg6 harg6 arg7 harg7) K := by
  simp only [cc2__cross_attn_kernel_eq_skeleton]; unfold cc2__cross_attn_kernel_skel
  simp only [k2_part1_eq_skeleton]; unfold k2_part1_skel
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold outFin2 lNext2 accNext2
    refine (attnLastStore2 (S := S1000x128) _ _ attnZeroOff2 _ _ _).trans ?_
    dsimp only
    sl_unfold_run_names
    simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2,
      View.readCov_unit_zero (S := S1000x1) _ attnZeroOff2, View.readCov_unit_zero (S := S1000x128) _ attnZeroOff2]
  isplitl [HS0]
  · iexists _; isplitr
    swap; · iexact HS0
    ipureintro
    unfold mNext2
    refine (attnLastStore2 (S := S1000x1) _ _ attnZeroOff2 _ _ _).trans ?_
    dsimp only
    sl_unfold_run_names
    simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2,
      View.readCov_unit_zero (S := S1000x1) _ attnZeroOff2, View.readCov_unit_zero (S := S1000x128) _ attnZeroOff2]
  isplitl [HS1]
  · iexists _; isplitr
    swap; · iexact HS1
    ipureintro
    unfold lNext2
    refine (attnLastStore2 (S := S1000x1) _ _ attnZeroOff2 _ _ _).trans ?_
    dsimp only
    sl_unfold_run_names
    simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2,
      View.readCov_unit_zero (S := S1000x1) _ attnZeroOff2, View.readCov_unit_zero (S := S1000x128) _ attnZeroOff2]
  iexists _; isplitr
  swap; · iexact HS2
  ipureintro
  unfold accNext2
  refine (attnLastStore2 (S := S1000x128) _ _ attnZeroOff2 _ _ _).trans ?_
  dsimp only
  sl_unfold_run_names
  simp only [View.readAt_eq_ld, harg2.read_unread, harg3.read_unread, harg5.read_unread, harg6.read_unread, harg7.read_unread,
      View.ld_unit_zero (S := S1000x128) attnZeroOff2, View.ld_unit_zero (S := S2000x128) attnZeroOff2, View.ld_unit_zero (S := S1000x1) attnZeroOff2,
      View.readCov_unit_zero (S := S1000x1) _ attnZeroOff2, View.readCov_unit_zero (S := S1000x128) _ attnZeroOff2]

variable (V : (c : Dev nD) → (b : Ref sig .tc) → Buf (Elt F) ((c : Thread nD τ).loc b))

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬t.val % 5 = 4 → cfg2.idle 2 (grid2.coords t) = true := by decide +kernel
theorem noFlush2_2 : ∀ t : Fin cfg2.N, ¬t.val % 5 = 4 → (cfg2.win 2).flush t = false := by decide +kernel
theorem liveAt2_2 : ∀ t : Fin cfg2.N, t.val % 5 = 4 → cfg2.idle 2 (grid2.coords t) = false := by decide +kernel

abbrev ms2_0 (t : Fin cfg2.N) : Memref sig .tc .vmem S1000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1000x128 .f32 := win2_2.stage (cfg2.slots t 2)
abbrev hs2_2 (t : Fin cfg2.N) : (ms2_2 t).IsWhole := hstage2_2 ((cfg2.slots t 2).cast nbuf2_2)

abbrev scM2_0 : Memref sig .tc .vmem S1000x1 .f32 := Memref.whole cc2_scratch0
abbrev scM2_1 : Memref sig .tc .vmem S1000x1 .f32 := Memref.whole cc2_scratch1
abbrev scM2_2 : Memref sig .tc .vmem S1000x128 .f32 := Memref.whole cc2_scratch2

abbrev rest2 (c : Dev nD) : sProp 𝕄 :=
  Pipeline.scopedRestBut (Ix := Unit) (Name := ℕ) (U := UR sig nD τ) (Lvl := ℕ) (Val := Elt F) spec2 c [cc2_scratch0, cc2_scratch1, cc2_scratch2]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d)) ∗ rest2 c) ∗ (∃ r, prngReg c r)) := by
  unfold Pipeline.ΦA; rw [scopedRest2_split]; simp only [scM2_0, scM2_1, scM2_2, owns_whole]; try rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

def stStep2 (blk : Vec F S1000x128 .f32) (full : Vec F S2000x128 .bf16) (s : Vec F S1000x1 .f32 × Vec F S1000x1 .f32 × Vec F S1000x128 .f32) : Vec F S1000x128 .f32 × Vec F S1000x1 .f32 × Vec F S1000x1 .f32 × Vec F S1000x128 .f32 :=
  (outFin2 blk (lNext2 blk full s.1 s.2.1) (accNext2 blk full s.1 s.2.2), mNext2 blk full s.1, lNext2 blk full s.1 s.2.1, accNext2 blk full s.1 s.2.2)

def stInit2 : Vec F S1000x1 .f32 × Vec F S1000x1 .f32 × Vec F S1000x128 .f32 := (mInit2, lInit2, accInit2)

def stAt2 (c : Dev nD) : (n : ℕ) → n < cfg2.N → Vec F S1000x128 .f32 × Vec F S1000x1 .f32 × Vec F S1000x1 .f32 × Vec F S1000x128 .f32
  | 0, hn => stStep2 (iblk2 V c 0 ⟨0, hn⟩) (iblk2 V c 1 ⟨0, hn⟩) stInit2
  | n + 1, hn =>
    if (n + 1) % 5 = 0 then stStep2 (iblk2 V c 0 ⟨n + 1, hn⟩) (iblk2 V c 1 ⟨n + 1, hn⟩) stInit2
    else stStep2 (iblk2 V c 0 ⟨n + 1, hn⟩) (iblk2 V c 1 ⟨n + 1, hn⟩) (stAt2 c n (Nat.lt_of_succ_lt hn)).2

theorem stAt2_eq_first (c : Dev nD) (t : Fin cfg2.N) (h : t.val % 5 = 0) :
    stAt2 V c t.val t.isLt = stStep2 (iblk2 V c 0 t) (iblk2 V c 1 t) stInit2 := by
  obtain ⟨n, hn⟩ := t
  cases n with
  | zero => rfl
  | succ n => exact if_pos h

theorem stAt2_eq_step (c : Dev nD) (t : Fin cfg2.N) (h : ¬t.val % 5 = 0) :
    stAt2 V c t.val t.isLt = stStep2 (iblk2 V c 0 t) (iblk2 V c 1 t) (stAt2 V c (t.val - 1) (Nat.lt_of_le_of_lt (Nat.sub_le _ _) t.isLt)).2 := by
  obtain ⟨n, hn⟩ := t
  cases n with
  | zero => exact absurd (Nat.zero_mod _) h
  | succ n => exact if_neg h

theorem stAt2_first (c : Dev nD) (t : Fin cfg2.N) (h : t.val % 5 = 0) :
    (stAt2 V c t.val t.isLt).2 = (mNext2 (iblk2 V c 0 t) (iblk2 V c 1 t) mInit2, lNext2 (iblk2 V c 0 t) (iblk2 V c 1 t) mInit2 lInit2, accNext2 (iblk2 V c 0 t) (iblk2 V c 1 t) mInit2 accInit2) := by
  rw [stAt2_eq_first V c t h]; rfl

theorem stAt2_step (c : Dev nD) (t : Fin cfg2.N) (h : t.val % 5 ≠ 0) :
    (stAt2 V c t.val t.isLt).2 = (mNext2 (iblk2 V c 0 t) (iblk2 V c 1 t) (stAt2 V c (t.val - 1) (Nat.lt_of_le_of_lt (Nat.sub_le _ _) t.isLt)).2.1, lNext2 (iblk2 V c 0 t) (iblk2 V c 1 t) (stAt2 V c (t.val - 1) (Nat.lt_of_le_of_lt (Nat.sub_le _ _) t.isLt)).2.1 (stAt2 V c (t.val - 1) (Nat.lt_of_le_of_lt (Nat.sub_le _ _) t.isLt)).2.2.1, accNext2 (iblk2 V c 0 t) (iblk2 V c 1 t) (stAt2 V c (t.val - 1) (Nat.lt_of_le_of_lt (Nat.sub_le _ _) t.isLt)).2.1 (stAt2 V c (t.val - 1) (Nat.lt_of_le_of_lt (Nat.sub_le _ _) t.isLt)).2.2.2) := by
  rw [stAt2_eq_step V c t h]; rfl

theorem stAt2_out (c : Dev nD) (t : Fin cfg2.N) (h : t.val % 5 = 4) :
    (stAt2 V c t.val t.isLt).1 = outFin2 (iblk2 V c 0 t) (stAt2 V c t.val t.isLt).2.2.1 (stAt2 V c t.val t.isLt).2.2.2 := by
  rw [stAt2_eq_step V c t (by omega)]; rfl

def PhiS2 (c : Dev nD) : (n : ℕ) → n ≤ cfg2.N → sProp 𝕄
  | 0, _ => Pipeline.ΦA spec2 c
  | n + 1, hn => iprop(iprop(iprop(owns (c : Thread nD τ) scM2_0 fullShare (stAt2 V c n hn).2.1 ∗ owns (c : Thread nD τ) scM2_1 fullShare (stAt2 V c n hn).2.2.1 ∗ owns (c : Thread nD τ) scM2_2 fullShare (stAt2 V c n hn).2.2.2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (stAt2 V c n hn).2.1 ∗ owns (c : Thread nD τ) scM2_1 fullShare (stAt2 V c n hn).2.2.1 ∗ owns (c : Thread nD τ) scM2_2 fullShare (stAt2 V c n hn).2.2.2) ∗ rest2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (stAt2 V c (n - 1) (by omega)).2.1 ∗ owns (c : Thread nD τ) scM2_1 fullShare (stAt2 V c (n - 1) (by omega)).2.2.1 ∗ owns (c : Thread nD τ) scM2_2 fullShare (stAt2 V c (n - 1) (by omega)).2.2.2) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (stAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (stAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 50 := lt_of_lt_of_eq t.isLt (show cfg2.N = 50 from N_2)
  by_cases h0 : t.val % 5 = 0
  · have h4 : ¬t.val % 5 = 4 := by omega
    rw [Dat.leavesExact_idle (dat2 V c) 2 t (idleAt2_2 t h4) (noFlush2_2 t h4)]
    rw [stAt2_eq_first V c t h0]
    unfold stStep2 stInit2; dsimp only
    by_cases hz : t.val = 0
    · rw [PhiS2_castSucc V c t, PhiS2_zero V c _ _ hz, PhiA2_eq]
      iintro ⟨⟨⟨⟨HS0, HS1, HS2⟩, Hr⟩, Hg⟩, Ho, ⟨%d0, H0⟩, ⟨%d1, H1⟩, ⟨%d2, H2⟩⟩
      iapply (kernelRun2_A c (grid2.coords t) _ _ _ _ _ _ _ _ _ _ _ _ ((hcond2_0 t).mpr h0) (fun h => h4 ((hcond2_1 t).mp h)) (iblk2 V c 0 t) (iblk2 V c 1 t) _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨⟨HS0, HS1, HS2⟩, Hr⟩, Hg⟩, Ho, ⟨%d0, H0⟩, ⟨%d1, H1⟩, ⟨%d2, H2⟩⟩
      iapply (kernelRun2_A c (grid2.coords t) _ _ _ _ _ _ _ _ _ _ _ _ ((hcond2_0 t).mpr h0) (fun h => h4 ((hcond2_1 t).mp h)) (iblk2 V c 0 t) (iblk2 V c 1 t) _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
  · have hz : t.val ≠ 0 := fun h => h0 (by rw [h])
    rw [stAt2_eq_step V c t h0]
    unfold stStep2; dsimp only
    rw [PhiS2_castSucc V c t, PhiS2_pos V c _ _ hz]
    by_cases h4 : t.val % 5 = 4
    · rw [show (dat2 V c).leavesExact 2 t = owns (c : Thread nD τ) (ms2_2 t) fullShare ((dat2 V c).after 2 t) from by
        unfold Dat.leavesExact; rw [liveAt2_2 t h4], after2_2]
      rw [stAt2_eq_step V c t h0]
      unfold stStep2; dsimp only
      iintro ⟨⟨⟨⟨HS0, HS1, HS2⟩, Hr⟩, Hg⟩, Ho, ⟨%d0, H0⟩, ⟨%d1, H1⟩, ⟨%d2, H2⟩⟩
      iapply (kernelRun2_C c (grid2.coords t) _ _ _ _ _ _ _ _ _ _ _ _ (fun h => h0 ((hcond2_0 t).mp h)) ((hcond2_1 t).mpr h4) (iblk2 V c 0 t) (iblk2 V c 1 t) _ _ _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexact H2
    · rw [Dat.leavesExact_idle (dat2 V c) 2 t (idleAt2_2 t h4) (noFlush2_2 t h4)]
      iintro ⟨⟨⟨⟨HS0, HS1, HS2⟩, Hr⟩, Hg⟩, Ho, ⟨%d0, H0⟩, ⟨%d1, H1⟩, ⟨%d2, H2⟩⟩
      iapply (kernelRun2_B c (grid2.coords t) _ _ _ _ _ _ _ _ _ _ _ _ (fun h => h0 ((hcond2_0 t).mp h)) (fun h => h4 ((hcond2_1 t).mp h)) (iblk2 V c 0 t) (iblk2 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

theorem hout2 (c : Dev nD) : (dat2 V c).Φ (Fin.last cfg2.N) ⊢ Pipeline.ΦA spec2 c :=
  Phi_out2 V c _ (by rw [Fin.val_last]; have : cfg2.N = 50 := N_2; omega)

end Cert.KernelIdeal.Hand

end
-- ==== Proof.KI.Attn3.lean ====
/-
  Region 3 of the program: one cross-attention call on the grid (10, 5). Point `t` works on query block `t / 5`
  (1000 rows) against key/value block `t % 5` (2000 rows) and carries three statistics between points: the running row
  maximum `m`, the running normaliser `l`, the running weighted sum `acc` (the online softmax). This module states, generic
  in the float model and at ANY contents `V` of the core's buffers at the region's entry: one step of the statistics as
  pure functions of the two blocks; the body's behaviour in its three cases (first, middle, last step of a row of the
  grid); what the statistics and the output block are after each point, by recursion on the point (`stAt3`); the
  invariant that carries the statistics from point to point; the proof data of the region and its body obligation.
-/
import proofs.«407386_j15839839387945_2_alg».proof.Proof.Gen.KernelIdeal.Launch
import proofs.«407386_j15839839387945_2_alg».proof.Proof.Gen.KernelIdeal.Skeleton
import proofs.«407386_j15839839387945_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block rectangle are zero on both axes. -/
theorem attnZeroOff3 : (![0, 0] : Fin 2 → Nat) = fun _ => 0 := funext fun a => by fin_cases a <;> rfl

/-- A buffer whose LAST store went through the whole-shape rectangle at zero offsets reads as that store's value,
    whatever the earlier stores and the prior contents were: the last store covers every index. -/
theorem attnLastStore3 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The two conditions of the body, decided over the grid

The grid is (10, 5): point `t` has key/value step `kv = t % 5`. The body resets its running statistics when `kv = 0`
and writes its output block when `kv = 4`. -/

/-- The reset condition (`kv = 0`), as the body computes it from the grid coordinates. -/
abbrev cond3_0 (i : grid3.Coords) : Prop := (Scalar.cmpi .ne (Scalar.extui (Scalar.cmpi .eq (BitVec.ofNat 32 (i 1).val) 0#32)) 0#32) = 1#1
/-- It holds exactly at the points ≡ 0 (mod 5). -/
theorem hcond3_0 : ∀ t : Fin cfg3.N, cond3_0 (grid3.coords t) ↔ t.val % 5 = 0 :=
  (by decide +kernel : ∀ t : Fin grid3.N, cond3_0 (grid3.coords t) ↔ t.val % 5 = 0)
/-- The finishing condition (`kv = 4`). -/
abbrev cond3_1 (i : grid3.Coords) : Prop := k3_cond2 i = 1#1
/-- It holds exactly at the points ≡ 4 (mod 5). -/
theorem hcond3_1 : ∀ t : Fin cfg3.N, cond3_1 (grid3.coords t) ↔ t.val % 5 = 4 :=
  (by decide +kernel : ∀ t : Fin grid3.N, cond3_1 (grid3.coords t) ↔ t.val % 5 = 4)

/-! ## One step of the online softmax, as pure functions of the blocks and the carried statistics

With `s = bf16(blk) · fullᵀ` the scores of a query block (rounded to bf16) against a key/value block, a step replaces the
running row maximum `m`, the running normaliser `l` and the running weighted sum `acc` by
`m' = max m (rowmax s)`, `l' = exp (m − m') · l + rowsum (exp (s − m'))`,
`acc' = exp (m − m') · acc + bf16(exp (s − m')) · full`;
the last step of a row of the grid leaves `blk − acc' / l'` in the output block. (Where floats are exact the two
roundings to bf16 are the identity.) -/

/-- The running maximum before the first key/value block: `−∞` in every row. -/
def mInit3 : Vec F S1000x1 .f32 := k3_pay4 (F := F)
/-- The running normaliser before the first key/value block: zero. -/
def lInit3 : Vec F S1000x1 .f32 := k3_pay5 (F := F)
/-- The running weighted sum before the first key/value block: zero. -/
def accInit3 : Vec F S1000x128 .f32 := k3_pay6 (F := F)
/-- The running maximum after a step: `max mPrev (rowmax s)`. -/
def mNext3 (blk : Vec F S1000x128 .f32) (full : Vec F S2000x128 .bf16) (mPrev : Vec F S1000x1 .f32) : Vec F S1000x1 .f32 :=
  k3_pay2 (k3_pay9 blk full mPrev)
/-- The running normaliser after a step: `exp (mPrev − m') · lPrev + rowsum (exp (s − m'))`. -/
def lNext3 (blk : Vec F S1000x128 .f32) (full : Vec F S2000x128 .bf16) (mPrev lPrev : Vec F S1000x1 .f32) : Vec F S1000x1 .f32 :=
  k3_pay12 blk full mPrev mPrev lPrev
/-- The running weighted sum after a step: `exp (mPrev − m') · accPrev + bf16(exp (s − m')) · full`. -/
def accNext3 (blk : Vec F S1000x128 .f32) (full : Vec F S2000x128 .bf16) (mPrev : Vec F S1000x1 .f32) (accPrev : Vec F S1000x128 .f32) : Vec F S1000x128 .f32 :=
  k3_pay1 (k3_pay13 blk full mPrev mPrev accPrev)
/-- The output block after the last step of a row of the grid: `blk − accFin / lFin`. -/
def outFin3 (blk : Vec F S1000x128 .f32) (lFin : Vec F S1000x1 .f32) (accFin : Vec F S1000x128 .f32) : Vec F S1000x128 .f32 :=
  k3_pay3 accFin lFin blk

/-! ## The body, case by case, on any whole memrefs -/

set_option maxHeartbeats 1000000 in
/-- A MIDDLE step (`0 < kv < 4`): from the two input blocks and the carried statistics `(xs0, xs1, xs2) = (m, l, acc)` the
    body leaves the statistics one step on, and does not touch the output block's buffer. Each of its three stores covers
    its whole buffer, so what a buffer reads afterwards is the stored value; each load before a store reads the contents
    the buffer came with. -/
theorem kernelRun3_B (c : Dev nD) (i : grid3.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond3_0 i) (hc1 : ¬cond3_1 i)
    (x0 : Vec F S1000x128 .f32) (x1 : Vec F S2000x128 .bf16) (xs0 xs1 : Vec F S1000x1 .f32) (xs2 : Vec F S1000x128 .f32)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1 ∗ owns (c : Thread nD τ) arg4 fullShare xi2
            ∗ owns (c : Thread nD τ) arg5 fullShare (mNext3 x0 x1 xs0) ∗ owns (c : Thread nD τ) arg6 fullShare (lNext3 x0 x1 xs0 xs1)
            ∗ owns (c : Thread nD τ) arg7 fullShare (accNext3 x0 x1 xs0 xs2)) -∗ K ⟨⟩))
      ⊢ wp frame (wpE (defs₀ (F := F)) Variants.none c none) E (cc3__cross_attn_kernel i arg2 harg2 arg3 harg3 arg4 harg4 arg5 harg5 arg6 harg6 arg7 harg7) K := by
  simp only [cc3__cross_attn_kernel_eq_skeleton]; unfold cc3__cross_attn_kernel_skel
  simp only [k3_part1_eq_skeleton]; unfold k3_part1_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext3
    refine (attnLastStore3 (S := S1000x1) _ _ attnZeroOff3 _ _ _).trans ?_
    dsimp only
    simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3]
  isplitl [HS1]
  · iexists _; isplitr
    swap; · iexact HS1
    ipureintro
    unfold lNext3
    refine (attnLastStore3 (S := S1000x1) _ _ attnZeroOff3 _ _ _).trans ?_
    dsimp only
    simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3]
  iexists _; isplitr
  swap; · iexact HS2
  ipureintro
  unfold accNext3
  refine (attnLastStore3 (S := S1000x128) _ _ attnZeroOff3 _ _ _).trans ?_
  dsimp only
  simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3]

set_option maxHeartbeats 1000000 in
/-- A FIRST step (`kv = 0`): whatever the three statistics buffers held, the body first stores the initial statistics
    `(−∞, 0, 0)` over them and then makes a step from those; the output block's buffer is not touched. A load after the
    reset reads the reset value (the reset store covers the buffer). -/
theorem kernelRun3_A (c : Dev nD) (i : grid3.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : cond3_0 i) (hc1 : ¬cond3_1 i)
    (x0 : Vec F S1000x128 .f32) (x1 : Vec F S2000x128 .bf16)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (mNext3 x0 x1 mInit3) ∗ owns (c : Thread nD τ) arg6 fullShare (lNext3 x0 x1 mInit3 lInit3)
            ∗ owns (c : Thread nD τ) arg7 fullShare (accNext3 x0 x1 mInit3 accInit3)) -∗ K ⟨⟩))
      ⊢ wp frame (wpE (defs₀ (F := F)) Variants.none c none) E (cc3__cross_attn_kernel i arg2 harg2 arg3 harg3 arg4 harg4 arg5 harg5 arg6 harg6 arg7 harg7) K := by
  simp only [cc3__cross_attn_kernel_eq_skeleton]; unfold cc3__cross_attn_kernel_skel
  simp only [k3_part1_eq_skeleton]; unfold k3_part1_skel
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext3 mInit3
    refine (attnLastStore3 (S := S1000x1) _ _ attnZeroOff3 _ _ _).trans ?_
    dsimp only
    sl_unfold_run_names
    simp only [View.readAt_eq_ld, harg2.read_unread, harg3.read_unread,
      View.ld_unit_zero (S := S1000x128) attnZeroOff3, View.ld_unit_zero (S := S2000x128) attnZeroOff3,
      View.readCov_unit_zero (S := S1000x1) _ attnZeroOff3, View.readCov_unit_zero (S := S1000x128) _ attnZeroOff3]
  isplitl [HS1]
  · iexists _; isplitr
    swap; · iexact HS1
    ipureintro
    unfold lNext3 mInit3 lInit3
    refine (attnLastStore3 (S := S1000x1) _ _ attnZeroOff3 _ _ _).trans ?_
    dsimp only
    sl_unfold_run_names
    simp only [View.readAt_eq_ld, harg2.read_unread, harg3.read_unread,
      View.ld_unit_zero (S := S1000x128) attnZeroOff3, View.ld_unit_zero (S := S2000x128) attnZeroOff3,
      View.readCov_unit_zero (S := S1000x1) _ attnZeroOff3, View.readCov_unit_zero (S := S1000x128) _ attnZeroOff3]
  iexists _; isplitr
  swap; · iexact HS2
  ipureintro
  unfold accNext3 mInit3 accInit3
  refine (attnLastStore3 (S := S1000x128) _ _ attnZeroOff3 _ _ _).trans ?_
  dsimp only
  sl_unfold_run_names
  simp only [View.readAt_eq_ld, harg2.read_unread, harg3.read_unread,
      View.ld_unit_zero (S := S1000x128) attnZeroOff3, View.ld_unit_zero (S := S2000x128) attnZeroOff3,
      View.readCov_unit_zero (S := S1000x1) _ attnZeroOff3, View.readCov_unit_zero (S := S1000x128) _ attnZeroOff3]

set_option maxHeartbeats 1000000 in
/-- A LAST step (`kv = 4`): a middle step, after which the body reads the statistics it has just stored and the query
    block, and stores `blk − acc' / l'` over the whole output block's buffer, whatever that held. -/
theorem kernelRun3_C (c : Dev nD) (i : grid3.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond3_0 i) (hc1 : cond3_1 i)
    (x0 : Vec F S1000x128 .f32) (x1 : Vec F S2000x128 .bf16) (xs0 xs1 : Vec F S1000x1 .f32) (xs2 : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outFin3 x0 (lNext3 x0 x1 xs0 xs1) (accNext3 x0 x1 xs0 xs2))
            ∗ owns (c : Thread nD τ) arg5 fullShare (mNext3 x0 x1 xs0) ∗ owns (c : Thread nD τ) arg6 fullShare (lNext3 x0 x1 xs0 xs1)
            ∗ owns (c : Thread nD τ) arg7 fullShare (accNext3 x0 x1 xs0 xs2)) -∗ K ⟨⟩))
      ⊢ wp frame (wpE (defs₀ (F := F)) Variants.none c none) E (cc3__cross_attn_kernel i arg2 harg2 arg3 harg3 arg4 harg4 arg5 harg5 arg6 harg6 arg7 harg7) K := by
  simp only [cc3__cross_attn_kernel_eq_skeleton]; unfold cc3__cross_attn_kernel_skel
  simp only [k3_part1_eq_skeleton]; unfold k3_part1_skel
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold outFin3 lNext3 accNext3
    refine (attnLastStore3 (S := S1000x128) _ _ attnZeroOff3 _ _ _).trans ?_
    dsimp only
    sl_unfold_run_names
    simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3,
      View.readCov_unit_zero (S := S1000x1) _ attnZeroOff3, View.readCov_unit_zero (S := S1000x128) _ attnZeroOff3]
  isplitl [HS0]
  · iexists _; isplitr
    swap; · iexact HS0
    ipureintro
    unfold mNext3
    refine (attnLastStore3 (S := S1000x1) _ _ attnZeroOff3 _ _ _).trans ?_
    dsimp only
    sl_unfold_run_names
    simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3,
      View.readCov_unit_zero (S := S1000x1) _ attnZeroOff3, View.readCov_unit_zero (S := S1000x128) _ attnZeroOff3]
  isplitl [HS1]
  · iexists _; isplitr
    swap; · iexact HS1
    ipureintro
    unfold lNext3
    refine (attnLastStore3 (S := S1000x1) _ _ attnZeroOff3 _ _ _).trans ?_
    dsimp only
    sl_unfold_run_names
    simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3,
      View.readCov_unit_zero (S := S1000x1) _ attnZeroOff3, View.readCov_unit_zero (S := S1000x128) _ attnZeroOff3]
  iexists _; isplitr
  swap; · iexact HS2
  ipureintro
  unfold accNext3
  refine (attnLastStore3 (S := S1000x128) _ _ attnZeroOff3 _ _ _).trans ?_
  dsimp only
  sl_unfold_run_names
  simp only [View.readAt_eq_ld, harg2.read_unread, harg3.read_unread, harg5.read_unread, harg6.read_unread, harg7.read_unread,
      View.ld_unit_zero (S := S1000x128) attnZeroOff3, View.ld_unit_zero (S := S2000x128) attnZeroOff3, View.ld_unit_zero (S := S1000x1) attnZeroOff3,
      View.readCov_unit_zero (S := S1000x1) _ attnZeroOff3, View.readCov_unit_zero (S := S1000x128) _ attnZeroOff3]

variable (V : (c : Dev nD) → (b : Ref sig .tc) → Buf (Elt F) ((c : Thread nD τ).loc b))

/-! ## Where the windows are idle

The two inputs are read at every point. The output block is stored only at the last step of a row of the grid
(`kv = 4`), where it is also written back; at the other points its buffer is neither stored into nor written back. -/

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬t.val % 5 = 4 → cfg3.idle 2 (grid3.coords t) = true := by decide +kernel
theorem noFlush3_2 : ∀ t : Fin cfg3.N, ¬t.val % 5 = 4 → (cfg3.win 2).flush t = false := by decide +kernel
theorem liveAt3_2 : ∀ t : Fin cfg3.N, t.val % 5 = 4 → cfg3.idle 2 (grid3.coords t) = false := by decide +kernel

/-! ## The memrefs the body is called with -/

/-- Each window's current staging memref at point `t`, and its wholeness. -/
abbrev ms3_0 (t : Fin cfg3.N) : Memref sig .tc .vmem S1000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1000x128 .f32 := win3_2.stage (cfg3.slots t 2)
abbrev hs3_2 (t : Fin cfg3.N) : (ms3_2 t).IsWhole := hstage3_2 ((cfg3.slots t 2).cast nbuf3_2)
/-- The three buffers the body carries its statistics in between points: the running maximum, the running
    normaliser, the running weighted sum. -/
abbrev scM3_0 : Memref sig .tc .vmem S1000x1 .f32 := Memref.whole cc3_scratch0
abbrev scM3_1 : Memref sig .tc .vmem S1000x1 .f32 := Memref.whole cc3_scratch1
abbrev scM3_2 : Memref sig .tc .vmem S1000x128 .f32 := Memref.whole cc3_scratch2

/-- Every other scoped buffer of the core (the other regions' staging buffers and statistics), at some contents each:
    carried through this region unopened. -/
abbrev rest3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- What the region is entered with: the three statistics buffers at some contents each, the other scoped buffers, the
    generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d)) ∗ rest3 c) ∗ (∃ r, prngReg c r)) := by
  unfold Pipeline.ΦA; rw [scopedRest3_split]; simp only [scM3_0, scM3_1, scM3_2, owns_whole]; try rfl

/-! ## The windows' blocks -/

/-- Window `w`'s block at point `t`, read off its array as the region finds it (`V`): for window 0 the query rows
    `1000·(t / 5) …`, for window 1 the key/value rows `2000·(t % 5) …`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The query block's buffer holds the query block at EVERY point of a row of the grid, though it is fetched at the
    row's first point only: the block index does not move within the row and the body leaves the buffer as it was. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The key/value block's buffer holds the point's key/value block (fetched at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the body has computed after each point -/

/-- One point's work from the statistics `s = (m, l, acc)`: the output block `blk − acc' / l'` (what the body stores at
    the last step of a row; at the other points nothing reads this component), then `(m', l', acc')`. -/
def stStep3 (blk : Vec F S1000x128 .f32) (full : Vec F S2000x128 .bf16) (s : Vec F S1000x1 .f32 × Vec F S1000x1 .f32 × Vec F S1000x128 .f32) : Vec F S1000x128 .f32 × Vec F S1000x1 .f32 × Vec F S1000x1 .f32 × Vec F S1000x128 .f32 :=
  (outFin3 blk (lNext3 blk full s.1 s.2.1) (accNext3 blk full s.1 s.2.2), mNext3 blk full s.1, lNext3 blk full s.1 s.2.1, accNext3 blk full s.1 s.2.2)

/-- The statistics a row of the grid starts from: `(−∞, 0, 0)`. -/
def stInit3 : Vec F S1000x1 .f32 × Vec F S1000x1 .f32 × Vec F S1000x128 .f32 := (mInit3, lInit3, accInit3)

/-- THE ACCUMULATION: (output block, `m`, `l`, `acc`) after the body at point `n`, by recursion on the point. At the
    first step of a row (`n % 5 = 0`) the step starts from the initial statistics; at every other from what point
    `n − 1` left. The first component is the output block `blk − acc / l` of the statistics after the point: the body
    stores it at the last step of a row (`n % 5 = 4`), and only there is it read. -/
def stAt3 (c : Dev nD) : (n : ℕ) → n < cfg3.N → Vec F S1000x128 .f32 × Vec F S1000x1 .f32 × Vec F S1000x1 .f32 × Vec F S1000x128 .f32
  | 0, hn => stStep3 (iblk3 V c 0 ⟨0, hn⟩) (iblk3 V c 1 ⟨0, hn⟩) stInit3
  | n + 1, hn =>
    if (n + 1) % 5 = 0 then stStep3 (iblk3 V c 0 ⟨n + 1, hn⟩) (iblk3 V c 1 ⟨n + 1, hn⟩) stInit3
    else stStep3 (iblk3 V c 0 ⟨n + 1, hn⟩) (iblk3 V c 1 ⟨n + 1, hn⟩) (stAt3 c n (Nat.lt_of_succ_lt hn)).2

/-- At the first step of a row: one step from the initial statistics. -/
theorem stAt3_eq_first (c : Dev nD) (t : Fin cfg3.N) (h : t.val % 5 = 0) :
    stAt3 V c t.val t.isLt = stStep3 (iblk3 V c 0 t) (iblk3 V c 1 t) stInit3 := by
  obtain ⟨n, hn⟩ := t
  cases n with
  | zero => rfl
  | succ n => exact if_pos h

/-- At any other step: one step from what the point before left. -/
theorem stAt3_eq_step (c : Dev nD) (t : Fin cfg3.N) (h : ¬t.val % 5 = 0) :
    stAt3 V c t.val t.isLt = stStep3 (iblk3 V c 0 t) (iblk3 V c 1 t) (stAt3 V c (t.val - 1) (Nat.lt_of_le_of_lt (Nat.sub_le _ _) t.isLt)).2 := by
  obtain ⟨n, hn⟩ := t
  cases n with
  | zero => exact absurd (Nat.zero_mod _) h
  | succ n => exact if_neg h

/-- The statistics after the first step of a row. -/
theorem stAt3_first (c : Dev nD) (t : Fin cfg3.N) (h : t.val % 5 = 0) :
    (stAt3 V c t.val t.isLt).2 = (mNext3 (iblk3 V c 0 t) (iblk3 V c 1 t) mInit3, lNext3 (iblk3 V c 0 t) (iblk3 V c 1 t) mInit3 lInit3, accNext3 (iblk3 V c 0 t) (iblk3 V c 1 t) mInit3 accInit3) := by
  rw [stAt3_eq_first V c t h]; rfl

/-- The statistics after any other step, from those the point before left. -/
theorem stAt3_step (c : Dev nD) (t : Fin cfg3.N) (h : t.val % 5 ≠ 0) :
    (stAt3 V c t.val t.isLt).2 = (mNext3 (iblk3 V c 0 t) (iblk3 V c 1 t) (stAt3 V c (t.val - 1) (Nat.lt_of_le_of_lt (Nat.sub_le _ _) t.isLt)).2.1, lNext3 (iblk3 V c 0 t) (iblk3 V c 1 t) (stAt3 V c (t.val - 1) (Nat.lt_of_le_of_lt (Nat.sub_le _ _) t.isLt)).2.1 (stAt3 V c (t.val - 1) (Nat.lt_of_le_of_lt (Nat.sub_le _ _) t.isLt)).2.2.1, accNext3 (iblk3 V c 0 t) (iblk3 V c 1 t) (stAt3 V c (t.val - 1) (Nat.lt_of_le_of_lt (Nat.sub_le _ _) t.isLt)).2.1 (stAt3 V c (t.val - 1) (Nat.lt_of_le_of_lt (Nat.sub_le _ _) t.isLt)).2.2.2) := by
  rw [stAt3_eq_step V c t h]; rfl

/-- The output block the last step of a row stores: `blk − acc / l` of the statistics after that step. -/
theorem stAt3_out (c : Dev nD) (t : Fin cfg3.N) (h : t.val % 5 = 4) :
    (stAt3 V c t.val t.isLt).1 = outFin3 (iblk3 V c 0 t) (stAt3 V c t.val t.isLt).2.2.1 (stAt3 V c t.val t.isLt).2.2.2 := by
  rw [stAt3_eq_step V c t (by omega)]; rfl

/-! ## The invariant -/

/-- The region's invariant before position `n`: before the first point what the region is entered with; afterwards
    the three statistics buffers at what the point before left, the other scoped buffers and the generator register
    as they come. -/
def PhiS3 (c : Dev nD) : (n : ℕ) → n ≤ cfg3.N → sProp 𝕄
  | 0, _ => Pipeline.ΦA spec3 c
  | n + 1, hn => iprop(iprop(iprop(owns (c : Thread nD τ) scM3_0 fullShare (stAt3 V c n hn).2.1 ∗ owns (c : Thread nD τ) scM3_1 fullShare (stAt3 V c n hn).2.2.1 ∗ owns (c : Thread nD τ) scM3_2 fullShare (stAt3 V c n hn).2.2.2) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (stAt3 V c n hn).2.1 ∗ owns (c : Thread nD τ) scM3_1 fullShare (stAt3 V c n hn).2.2.1 ∗ owns (c : Thread nD τ) scM3_2 fullShare (stAt3 V c n hn).2.2.2) ∗ rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (stAt3 V c (n - 1) (by omega)).2.1 ∗ owns (c : Thread nD τ) scM3_1 fullShare (stAt3 V c (n - 1) (by omega)).2.2.1 ∗ owns (c : Thread nD τ) scM3_2 fullShare (stAt3 V c (n - 1) (by omega)).2.2.2) ∗ rest3 c) ∗ (∃ r, prngReg c r)) := by
  cases n with
  | zero => exact absurd rfl hz
  | succ n => rfl

/-! ## The pipeline's proof data -/

/-- The proof data of this region on core `c`: the arrays as the region finds them (`V`); after the body at point `t`
    each input's buffer at its block and the output's at `stAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (stAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (stAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' buffers hold their blocks; `t % 5` says which case the point is in. At the
    first step of a row the statistics buffers are handed over at whatever they hold (named or not) and come back
    one step from the initial statistics; at a later step they are handed over at what the point before left and come
    back one step on; at the last step the output block's buffer, at anything, comes back at `blk − acc / l`, and at
    the other steps it goes through untouched. The other scoped buffers, the generator register and the core's
    tallies go through unopened. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  have hN : t.val < 50 := lt_of_lt_of_eq t.isLt (show cfg3.N = 50 from N_3)
  by_cases h0 : t.val % 5 = 0
  · have h4 : ¬t.val % 5 = 4 := by omega
    rw [Dat.leavesExact_idle (dat3 V c) 2 t (idleAt3_2 t h4) (noFlush3_2 t h4)]
    rw [stAt3_eq_first V c t h0]
    unfold stStep3 stInit3; dsimp only
    by_cases hz : t.val = 0
    · rw [PhiS3_castSucc V c t, PhiS3_zero V c _ _ hz, PhiA3_eq]
      iintro ⟨⟨⟨⟨HS0, HS1, HS2⟩, Hr⟩, Hg⟩, Ho, ⟨%d0, H0⟩, ⟨%d1, H1⟩, ⟨%d2, H2⟩⟩
      iapply (kernelRun3_A c (grid3.coords t) _ _ _ _ _ _ _ _ _ _ _ _ ((hcond3_0 t).mpr h0) (fun h => h4 ((hcond3_1 t).mp h)) (iblk3 V c 0 t) (iblk3 V c 1 t) _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
    · rw [PhiS3_castSucc V c t, PhiS3_pos V c _ _ hz]
      iintro ⟨⟨⟨⟨HS0, HS1, HS2⟩, Hr⟩, Hg⟩, Ho, ⟨%d0, H0⟩, ⟨%d1, H1⟩, ⟨%d2, H2⟩⟩
      iapply (kernelRun3_A c (grid3.coords t) _ _ _ _ _ _ _ _ _ _ _ _ ((hcond3_0 t).mpr h0) (fun h => h4 ((hcond3_1 t).mp h)) (iblk3 V c 0 t) (iblk3 V c 1 t) _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
  · have hz : t.val ≠ 0 := fun h => h0 (by rw [h])
    rw [stAt3_eq_step V c t h0]
    unfold stStep3; dsimp only
    rw [PhiS3_castSucc V c t, PhiS3_pos V c _ _ hz]
    by_cases h4 : t.val % 5 = 4
    · rw [show (dat3 V c).leavesExact 2 t = owns (c : Thread nD τ) (ms3_2 t) fullShare ((dat3 V c).after 2 t) from by
        unfold Dat.leavesExact; rw [liveAt3_2 t h4], after3_2]
      rw [stAt3_eq_step V c t h0]
      unfold stStep3; dsimp only
      iintro ⟨⟨⟨⟨HS0, HS1, HS2⟩, Hr⟩, Hg⟩, Ho, ⟨%d0, H0⟩, ⟨%d1, H1⟩, ⟨%d2, H2⟩⟩
      iapply (kernelRun3_C c (grid3.coords t) _ _ _ _ _ _ _ _ _ _ _ _ (fun h => h0 ((hcond3_0 t).mp h)) ((hcond3_1 t).mpr h4) (iblk3 V c 0 t) (iblk3 V c 1 t) _ _ _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexact H2
    · rw [Dat.leavesExact_idle (dat3 V c) 2 t (idleAt3_2 t h4) (noFlush3_2 t h4)]
      iintro ⟨⟨⟨⟨HS0, HS1, HS2⟩, Hr⟩, Hg⟩, Ho, ⟨%d0, H0⟩, ⟨%d1, H1⟩, ⟨%d2, H2⟩⟩
      iapply (kernelRun3_B c (grid3.coords t) _ _ _ _ _ _ _ _ _ _ _ _ (fun h => h0 ((hcond3_0 t).mp h)) (fun h => h4 ((hcond3_1 t).mp h)) (iblk3 V c 0 t) (iblk3 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives back what the region was entered with: the statistics' named
    contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 50 := N_3; omega)

end Cert.KernelIdeal.Hand

end
-- ==== Proof.KI.Attn6.lean ====
/-
  Region 6 of the program: one cross-attention call on the grid (10, 5). Point `t` works on query block `t / 5`
  (1000 rows) against key/value block `t % 5` (2000 rows) and carries three statistics between points: the running row
  maximum `m`, the running normaliser `l`, the running weighted sum `acc` (the online softmax). This module states, generic
  in the float model and at ANY contents `V` of the core's buffers at the region's entry: one step of the statistics as
  pure functions of the two blocks; the body's behaviour in its three cases (first, middle, last step of a row of the
  grid); what the statistics and the output block are after each point, by recursion on the point (`stAt6`); the
  invariant that carries the statistics from point to point; the proof data of the region and its body obligation.
-/
import proofs.«407386_j15839839387945_2_alg».proof.Proof.Gen.KernelIdeal.Launch
import proofs.«407386_j15839839387945_2_alg».proof.Proof.Gen.KernelIdeal.Skeleton
import proofs.«407386_j15839839387945_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block rectangle are zero on both axes. -/
theorem attnZeroOff6 : (![0, 0] : Fin 2 → Nat) = fun _ => 0 := funext fun a => by fin_cases a <;> rfl

/-- A buffer whose LAST store went through the whole-shape rectangle at zero offsets reads as that store's value,
    whatever the earlier stores and the prior contents were: the last store covers every index. -/
theorem attnLastStore6 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The two conditions of the body, decided over the grid

The grid is (10, 5): point `t` has key/value step `kv = t % 5`. The body resets its running statistics when `kv = 0`
and writes its output block when `kv = 4`. -/

/-- The reset condition (`kv = 0`), as the body computes it from the grid coordinates. -/
abbrev cond6_0 (i : grid6.Coords) : Prop := (Scalar.cmpi .ne (Scalar.extui (Scalar.cmpi .eq (BitVec.ofNat 32 (i 1).val) 0#32)) 0#32) = 1#1
/-- It holds exactly at the points ≡ 0 (mod 5). -/
theorem hcond6_0 : ∀ t : Fin cfg6.N, cond6_0 (grid6.coords t) ↔ t.val % 5 = 0 :=
  (by decide +kernel : ∀ t : Fin grid6.N, cond6_0 (grid6.coords t) ↔ t.val % 5 = 0)
/-- The finishing condition (`kv = 4`). -/
abbrev cond6_1 (i : grid6.Coords) : Prop := k6_cond2 i = 1#1
/-- It holds exactly at the points ≡ 4 (mod 5). -/
theorem hcond6_1 : ∀ t : Fin cfg6.N, cond6_1 (grid6.coords t) ↔ t.val % 5 = 4 :=
  (by decide +kernel : ∀ t : Fin grid6.N, cond6_1 (grid6.coords t) ↔ t.val % 5 = 4)

/-! ## One step of the online softmax, as pure functions of the blocks and the carried statistics

With `s = bf16(blk) · fullᵀ` the scores of a query block (rounded to bf16) against a key/value block, a step replaces the
running row maximum `m`, the running normaliser `l` and the running weighted sum `acc` by
`m' = max m (rowmax s)`, `l' = exp (m − m') · l + rowsum (exp (s − m'))`,
`acc' = exp (m − m') · acc + bf16(exp (s − m')) · full`;
the last step of a row of the grid leaves `blk − acc' / l'` in the output block. (Where floats are exact the two
roundings to bf16 are the identity.) -/

/-- The running maximum before the first key/value block: `−∞` in every row. -/
def mInit6 : Vec F S1000x1 .f32 := k6_pay4 (F := F)
/-- The running normaliser before the first key/value block: zero. -/
def lInit6 : Vec F S1000x1 .f32 := k6_pay5 (F := F)
/-- The running weighted sum before the first key/value block: zero. -/
def accInit6 : Vec F S1000x128 .f32 := k6_pay6 (F := F)
/-- The running maximum after a step: `max mPrev (rowmax s)`. -/
def mNext6 (blk : Vec F S1000x128 .f32) (full : Vec F S2000x128 .bf16) (mPrev : Vec F S1000x1 .f32) : Vec F S1000x1 .f32 :=
  k6_pay2 (k6_pay9 blk full mPrev)
/-- The running normaliser after a step: `exp (mPrev − m') · lPrev + rowsum (exp (s − m'))`. -/
def lNext6 (blk : Vec F S1000x128 .f32) (full : Vec F S2000x128 .bf16) (mPrev lPrev : Vec F S1000x1 .f32) : Vec F S1000x1 .f32 :=
  k6_pay12 blk full mPrev mPrev lPrev
/-- The running weighted sum after a step: `exp (mPrev − m') · accPrev + bf16(exp (s − m')) · full`. -/
def accNext6 (blk : Vec F S1000x128 .f32) (full : Vec F S2000x128 .bf16) (mPrev : Vec F S1000x1 .f32) (accPrev : Vec F S1000x128 .f32) : Vec F S1000x128 .f32 :=
  k6_pay1 (k6_pay13 blk full mPrev mPrev accPrev)
/-- The output block after the last step of a row of the grid: `blk − accFin / lFin`. -/
def outFin6 (blk : Vec F S1000x128 .f32) (lFin : Vec F S1000x1 .f32) (accFin : Vec F S1000x128 .f32) : Vec F S1000x128 .f32 :=
  k6_pay3 accFin lFin blk

/-! ## The body, case by case, on any whole memrefs -/

set_option maxHeartbeats 1000000 in
/-- A MIDDLE step (`0 < kv < 4`): from the two input blocks and the carried statistics `(xs0, xs1, xs2) = (m, l, acc)` the
    body leaves the statistics one step on, and does not touch the output block's buffer. Each of its three stores covers
    its whole buffer, so what a buffer reads afterwards is the stored value; each load before a store reads the contents
    the buffer came with. -/
theorem kernelRun6_B (c : Dev nD) (i : grid6.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond6_0 i) (hc1 : ¬cond6_1 i)
    (x0 : Vec F S1000x128 .f32) (x1 : Vec F S2000x128 .bf16) (xs0 xs1 : Vec F S1000x1 .f32) (xs2 : Vec F S1000x128 .f32)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1 ∗ owns (c : Thread nD τ) arg4 fullShare xi2
            ∗ owns (c : Thread nD τ) arg5 fullShare (mNext6 x0 x1 xs0) ∗ owns (c : Thread nD τ) arg6 fullShare (lNext6 x0 x1 xs0 xs1)
            ∗ owns (c : Thread nD τ) arg7 fullShare (accNext6 x0 x1 xs0 xs2)) -∗ K ⟨⟩))
      ⊢ wp frame (wpE (defs₀ (F := F)) Variants.none c none) E (cc6__cross_attn_kernel i arg2 harg2 arg3 harg3 arg4 harg4 arg5 harg5 arg6 harg6 arg7 harg7) K := by
  simp only [cc6__cross_attn_kernel_eq_skeleton]; unfold cc6__cross_attn_kernel_skel
  simp only [k6_part1_eq_skeleton]; unfold k6_part1_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext6
    refine (attnLastStore6 (S := S1000x1) _ _ attnZeroOff6 _ _ _).trans ?_
    dsimp only
    simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6]
  isplitl [HS1]
  · iexists _; isplitr
    swap; · iexact HS1
    ipureintro
    unfold lNext6
    refine (attnLastStore6 (S := S1000x1) _ _ attnZeroOff6 _ _ _).trans ?_
    dsimp only
    simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6]
  iexists _; isplitr
  swap; · iexact HS2
  ipureintro
  unfold accNext6
  refine (attnLastStore6 (S := S1000x128) _ _ attnZeroOff6 _ _ _).trans ?_
  dsimp only
  simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6]

set_option maxHeartbeats 1000000 in
/-- A FIRST step (`kv = 0`): whatever the three statistics buffers held, the body first stores the initial statistics
    `(−∞, 0, 0)` over them and then makes a step from those; the output block's buffer is not touched. A load after the
    reset reads the reset value (the reset store covers the buffer). -/
theorem kernelRun6_A (c : Dev nD) (i : grid6.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : cond6_0 i) (hc1 : ¬cond6_1 i)
    (x0 : Vec F S1000x128 .f32) (x1 : Vec F S2000x128 .bf16)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (mNext6 x0 x1 mInit6) ∗ owns (c : Thread nD τ) arg6 fullShare (lNext6 x0 x1 mInit6 lInit6)
            ∗ owns (c : Thread nD τ) arg7 fullShare (accNext6 x0 x1 mInit6 accInit6)) -∗ K ⟨⟩))
      ⊢ wp frame (wpE (defs₀ (F := F)) Variants.none c none) E (cc6__cross_attn_kernel i arg2 harg2 arg3 harg3 arg4 harg4 arg5 harg5 arg6 harg6 arg7 harg7) K := by
  simp only [cc6__cross_attn_kernel_eq_skeleton]; unfold cc6__cross_attn_kernel_skel
  simp only [k6_part1_eq_skeleton]; unfold k6_part1_skel
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext6 mInit6
    refine (attnLastStore6 (S := S1000x1) _ _ attnZeroOff6 _ _ _).trans ?_
    dsimp only
    sl_unfold_run_names
    simp only [View.readAt_eq_ld, harg2.read_unread, harg3.read_unread,
      View.ld_unit_zero (S := S1000x128) attnZeroOff6, View.ld_unit_zero (S := S2000x128) attnZeroOff6,
      View.readCov_unit_zero (S := S1000x1) _ attnZeroOff6, View.readCov_unit_zero (S := S1000x128) _ attnZeroOff6]
  isplitl [HS1]
  · iexists _; isplitr
    swap; · iexact HS1
    ipureintro
    unfold lNext6 mInit6 lInit6
    refine (attnLastStore6 (S := S1000x1) _ _ attnZeroOff6 _ _ _).trans ?_
    dsimp only
    sl_unfold_run_names
    simp only [View.readAt_eq_ld, harg2.read_unread, harg3.read_unread,
      View.ld_unit_zero (S := S1000x128) attnZeroOff6, View.ld_unit_zero (S := S2000x128) attnZeroOff6,
      View.readCov_unit_zero (S := S1000x1) _ attnZeroOff6, View.readCov_unit_zero (S := S1000x128) _ attnZeroOff6]
  iexists _; isplitr
  swap; · iexact HS2
  ipureintro
  unfold accNext6 mInit6 accInit6
  refine (attnLastStore6 (S := S1000x128) _ _ attnZeroOff6 _ _ _).trans ?_
  dsimp only
  sl_unfold_run_names
  simp only [View.readAt_eq_ld, harg2.read_unread, harg3.read_unread,
      View.ld_unit_zero (S := S1000x128) attnZeroOff6, View.ld_unit_zero (S := S2000x128) attnZeroOff6,
      View.readCov_unit_zero (S := S1000x1) _ attnZeroOff6, View.readCov_unit_zero (S := S1000x128) _ attnZeroOff6]

set_option maxHeartbeats 1000000 in
/-- A LAST step (`kv = 4`): a middle step, after which the body reads the statistics it has just stored and the query
    block, and stores `blk − acc' / l'` over the whole output block's buffer, whatever that held. -/
theorem kernelRun6_C (c : Dev nD) (i : grid6.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond6_0 i) (hc1 : cond6_1 i)
    (x0 : Vec F S1000x128 .f32) (x1 : Vec F S2000x128 .bf16) (xs0 xs1 : Vec F S1000x1 .f32) (xs2 : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outFin6 x0 (lNext6 x0 x1 xs0 xs1) (accNext6 x0 x1 xs0 xs2))
            ∗ owns (c : Thread nD τ) arg5 fullShare (mNext6 x0 x1 xs0) ∗ owns (c : Thread nD τ) arg6 fullShare (lNext6 x0 x1 xs0 xs1)
            ∗ owns (c : Thread nD τ) arg7 fullShare (accNext6 x0 x1 xs0 xs2)) -∗ K ⟨⟩))
      ⊢ wp frame (wpE (defs₀ (F := F)) Variants.none c none) E (cc6__cross_attn_kernel i arg2 harg2 arg3 harg3 arg4 harg4 arg5 harg5 arg6 harg6 arg7 harg7) K := by
  simp only [cc6__cross_attn_kernel_eq_skeleton]; unfold cc6__cross_attn_kernel_skel
  simp only [k6_part1_eq_skeleton]; unfold k6_part1_skel
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold outFin6 lNext6 accNext6
    refine (attnLastStore6 (S := S1000x128) _ _ attnZeroOff6 _ _ _).trans ?_
    dsimp only
    sl_unfold_run_names
    simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6,
      View.readCov_unit_zero (S := S1000x1) _ attnZeroOff6, View.readCov_unit_zero (S := S1000x128) _ attnZeroOff6]
  isplitl [HS0]
  · iexists _; isplitr
    swap; · iexact HS0
    ipureintro
    unfold mNext6
    refine (attnLastStore6 (S := S1000x1) _ _ attnZeroOff6 _ _ _).trans ?_
    dsimp only
    sl_unfold_run_names
    simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6,
      View.readCov_unit_zero (S := S1000x1) _ attnZeroOff6, View.readCov_unit_zero (S := S1000x128) _ attnZeroOff6]
  isplitl [HS1]
  · iexists _; isplitr
    swap; · iexact HS1
    ipureintro
    unfold lNext6
    refine (attnLastStore6 (S := S1000x1) _ _ attnZeroOff6 _ _ _).trans ?_
    dsimp only
    sl_unfold_run_names
    simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6,
      View.readCov_unit_zero (S := S1000x1) _ attnZeroOff6, View.readCov_unit_zero (S := S1000x128) _ attnZeroOff6]
  iexists _; isplitr
  swap; · iexact HS2
  ipureintro
  unfold accNext6
  refine (attnLastStore6 (S := S1000x128) _ _ attnZeroOff6 _ _ _).trans ?_
  dsimp only
  sl_unfold_run_names
  simp only [View.readAt_eq_ld, harg2.read_unread, harg3.read_unread, harg5.read_unread, harg6.read_unread, harg7.read_unread,
      View.ld_unit_zero (S := S1000x128) attnZeroOff6, View.ld_unit_zero (S := S2000x128) attnZeroOff6, View.ld_unit_zero (S := S1000x1) attnZeroOff6,
      View.readCov_unit_zero (S := S1000x1) _ attnZeroOff6, View.readCov_unit_zero (S := S1000x128) _ attnZeroOff6]

variable (V : (c : Dev nD) → (b : Ref sig .tc) → Buf (Elt F) ((c : Thread nD τ).loc b))

/-! ## Where the windows are idle

The two inputs are read at every point. The output block is stored only at the last step of a row of the grid
(`kv = 4`), where it is also written back; at the other points its buffer is neither stored into nor written back. -/

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬t.val % 5 = 4 → cfg6.idle 2 (grid6.coords t) = true := by decide +kernel
theorem noFlush6_2 : ∀ t : Fin cfg6.N, ¬t.val % 5 = 4 → (cfg6.win 2).flush t = false := by decide +kernel
theorem liveAt6_2 : ∀ t : Fin cfg6.N, t.val % 5 = 4 → cfg6.idle 2 (grid6.coords t) = false := by decide +kernel

/-! ## The memrefs the body is called with -/

/-- Each window's current staging memref at point `t`, and its wholeness. -/
abbrev ms6_0 (t : Fin cfg6.N) : Memref sig .tc .vmem S1000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2000x128 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1000x128 .f32 := win6_2.stage (cfg6.slots t 2)
abbrev hs6_2 (t : Fin cfg6.N) : (ms6_2 t).IsWhole := hstage6_2 ((cfg6.slots t 2).cast nbuf6_2)
/-- The three buffers the body carries its statistics in between points: the running maximum, the running
    normaliser, the running weighted sum. -/
abbrev scM6_0 : Memref sig .tc .vmem S1000x1 .f32 := Memref.whole cc6_scratch0
abbrev scM6_1 : Memref sig .tc .vmem S1000x1 .f32 := Memref.whole cc6_scratch1
abbrev scM6_2 : Memref sig .tc .vmem S1000x128 .f32 := Memref.whole cc6_scratch2

/-- Every other scoped buffer of the core (the other regions' staging buffers and statistics), at some contents each:
    carried through this region unopened. -/
abbrev rest6 (c : Dev nD) : sProp 𝕄 :=
  Pipeline.scopedRestBut (Ix := Unit) (Name := ℕ) (U := UR sig nD τ) (Lvl := ℕ) (Val := Elt F) spec6 c [cc6_scratch0, cc6_scratch1, cc6_scratch2]

/-- What the region is entered with: the three statistics buffers at some contents each, the other scoped buffers, the
    generator register at some state. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d) ∗ (∃ d, owns (c : Thread nD τ) scM6_2 fullShare d)) ∗ rest6 c) ∗ (∃ r, prngReg c r)) := by
  unfold Pipeline.ΦA; rw [scopedRest6_split]; simp only [scM6_0, scM6_1, scM6_2, owns_whole]; try rfl

/-! ## The windows' blocks -/

/-- Window `w`'s block at point `t`, read off its array as the region finds it (`V`): for window 0 the query rows
    `1000·(t / 5) …`, for window 1 the key/value rows `2000·(t % 5) …`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The query block's buffer holds the query block at EVERY point of a row of the grid, though it is fetched at the
    row's first point only: the block index does not move within the row and the body leaves the buffer as it was. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The key/value block's buffer holds the point's key/value block (fetched at every point). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## What the body has computed after each point -/

/-- One point's work from the statistics `s = (m, l, acc)`: the output block `blk − acc' / l'` (what the body stores at
    the last step of a row; at the other points nothing reads this component), then `(m', l', acc')`. -/
def stStep6 (blk : Vec F S1000x128 .f32) (full : Vec F S2000x128 .bf16) (s : Vec F S1000x1 .f32 × Vec F S1000x1 .f32 × Vec F S1000x128 .f32) : Vec F S1000x128 .f32 × Vec F S1000x1 .f32 × Vec F S1000x1 .f32 × Vec F S1000x128 .f32 :=
  (outFin6 blk (lNext6 blk full s.1 s.2.1) (accNext6 blk full s.1 s.2.2), mNext6 blk full s.1, lNext6 blk full s.1 s.2.1, accNext6 blk full s.1 s.2.2)

/-- The statistics a row of the grid starts from: `(−∞, 0, 0)`. -/
def stInit6 : Vec F S1000x1 .f32 × Vec F S1000x1 .f32 × Vec F S1000x128 .f32 := (mInit6, lInit6, accInit6)

/-- THE ACCUMULATION: (output block, `m`, `l`, `acc`) after the body at point `n`, by recursion on the point. At the
    first step of a row (`n % 5 = 0`) the step starts from the initial statistics; at every other from what point
    `n − 1` left. The first component is the output block `blk − acc / l` of the statistics after the point: the body
    stores it at the last step of a row (`n % 5 = 4`), and only there is it read. -/
def stAt6 (c : Dev nD) : (n : ℕ) → n < cfg6.N → Vec F S1000x128 .f32 × Vec F S1000x1 .f32 × Vec F S1000x1 .f32 × Vec F S1000x128 .f32
  | 0, hn => stStep6 (iblk6 V c 0 ⟨0, hn⟩) (iblk6 V c 1 ⟨0, hn⟩) stInit6
  | n + 1, hn =>
    if (n + 1) % 5 = 0 then stStep6 (iblk6 V c 0 ⟨n + 1, hn⟩) (iblk6 V c 1 ⟨n + 1, hn⟩) stInit6
    else stStep6 (iblk6 V c 0 ⟨n + 1, hn⟩) (iblk6 V c 1 ⟨n + 1, hn⟩) (stAt6 c n (Nat.lt_of_succ_lt hn)).2

/-- At the first step of a row: one step from the initial statistics. -/
theorem stAt6_eq_first (c : Dev nD) (t : Fin cfg6.N) (h : t.val % 5 = 0) :
    stAt6 V c t.val t.isLt = stStep6 (iblk6 V c 0 t) (iblk6 V c 1 t) stInit6 := by
  obtain ⟨n, hn⟩ := t
  cases n with
  | zero => rfl
  | succ n => exact if_pos h

/-- At any other step: one step from what the point before left. -/
theorem stAt6_eq_step (c : Dev nD) (t : Fin cfg6.N) (h : ¬t.val % 5 = 0) :
    stAt6 V c t.val t.isLt = stStep6 (iblk6 V c 0 t) (iblk6 V c 1 t) (stAt6 V c (t.val - 1) (Nat.lt_of_le_of_lt (Nat.sub_le _ _) t.isLt)).2 := by
  obtain ⟨n, hn⟩ := t
  cases n with
  | zero => exact absurd (Nat.zero_mod _) h
  | succ n => exact if_neg h

/-- The statistics after the first step of a row. -/
theorem stAt6_first (c : Dev nD) (t : Fin cfg6.N) (h : t.val % 5 = 0) :
    (stAt6 V c t.val t.isLt).2 = (mNext6 (iblk6 V c 0 t) (iblk6 V c 1 t) mInit6, lNext6 (iblk6 V c 0 t) (iblk6 V c 1 t) mInit6 lInit6, accNext6 (iblk6 V c 0 t) (iblk6 V c 1 t) mInit6 accInit6) := by
  rw [stAt6_eq_first V c t h]; rfl

/-- The statistics after any other step, from those the point before left. -/
theorem stAt6_step (c : Dev nD) (t : Fin cfg6.N) (h : t.val % 5 ≠ 0) :
    (stAt6 V c t.val t.isLt).2 = (mNext6 (iblk6 V c 0 t) (iblk6 V c 1 t) (stAt6 V c (t.val - 1) (Nat.lt_of_le_of_lt (Nat.sub_le _ _) t.isLt)).2.1, lNext6 (iblk6 V c 0 t) (iblk6 V c 1 t) (stAt6 V c (t.val - 1) (Nat.lt_of_le_of_lt (Nat.sub_le _ _) t.isLt)).2.1 (stAt6 V c (t.val - 1) (Nat.lt_of_le_of_lt (Nat.sub_le _ _) t.isLt)).2.2.1, accNext6 (iblk6 V c 0 t) (iblk6 V c 1 t) (stAt6 V c (t.val - 1) (Nat.lt_of_le_of_lt (Nat.sub_le _ _) t.isLt)).2.1 (stAt6 V c (t.val - 1) (Nat.lt_of_le_of_lt (Nat.sub_le _ _) t.isLt)).2.2.2) := by
  rw [stAt6_eq_step V c t h]; rfl

/-- The output block the last step of a row stores: `blk − acc / l` of the statistics after that step. -/
theorem stAt6_out (c : Dev nD) (t : Fin cfg6.N) (h : t.val % 5 = 4) :
    (stAt6 V c t.val t.isLt).1 = outFin6 (iblk6 V c 0 t) (stAt6 V c t.val t.isLt).2.2.1 (stAt6 V c t.val t.isLt).2.2.2 := by
  rw [stAt6_eq_step V c t (by omega)]; rfl

/-! ## The invariant -/

/-- The region's invariant before position `n`: before the first point what the region is entered with; afterwards
    the three statistics buffers at what the point before left, the other scoped buffers and the generator register
    as they come. -/
def PhiS6 (c : Dev nD) : (n : ℕ) → n ≤ cfg6.N → sProp 𝕄
  | 0, _ => Pipeline.ΦA spec6 c
  | n + 1, hn => iprop(iprop(iprop(owns (c : Thread nD τ) scM6_0 fullShare (stAt6 V c n hn).2.1 ∗ owns (c : Thread nD τ) scM6_1 fullShare (stAt6 V c n hn).2.2.1 ∗ owns (c : Thread nD τ) scM6_2 fullShare (stAt6 V c n hn).2.2.2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (stAt6 V c n hn).2.1 ∗ owns (c : Thread nD τ) scM6_1 fullShare (stAt6 V c n hn).2.2.1 ∗ owns (c : Thread nD τ) scM6_2 fullShare (stAt6 V c n hn).2.2.2) ∗ rest6 c) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (stAt6 V c (n - 1) (by omega)).2.1 ∗ owns (c : Thread nD τ) scM6_1 fullShare (stAt6 V c (n - 1) (by omega)).2.2.1 ∗ owns (c : Thread nD τ) scM6_2 fullShare (stAt6 V c (n - 1) (by omega)).2.2.2) ∗ rest6 c) ∗ (∃ r, prngReg c r)) := by
  cases n with
  | zero => exact absurd rfl hz
  | succ n => rfl

/-! ## The pipeline's proof data -/

/-- The proof data of this region on core `c`: the arrays as the region finds them (`V`); after the body at point `t`
    each input's buffer at its block and the output's at `stAt6`'s first component; the invariant `PhiS6`; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (stAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (stAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point. The inputs' buffers hold their blocks; `t % 5` says which case the point is in. At the
    first step of a row the statistics buffers are handed over at whatever they hold (named or not) and come back
    one step from the initial statistics; at a later step they are handed over at what the point before left and come
    back one step on; at the last step the output block's buffer, at anything, comes back at `blk − acc / l`, and at
    the other steps it goes through untouched. The other scoped buffers, the generator register and the core's
    tallies go through unopened. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 50 := lt_of_lt_of_eq t.isLt (show cfg6.N = 50 from N_6)
  by_cases h0 : t.val % 5 = 0
  · have h4 : ¬t.val % 5 = 4 := by omega
    rw [Dat.leavesExact_idle (dat6 V c) 2 t (idleAt6_2 t h4) (noFlush6_2 t h4)]
    rw [stAt6_eq_first V c t h0]
    unfold stStep6 stInit6; dsimp only
    by_cases hz : t.val = 0
    · rw [PhiS6_castSucc V c t, PhiS6_zero V c _ _ hz, PhiA6_eq]
      iintro ⟨⟨⟨⟨HS0, HS1, HS2⟩, Hr⟩, Hg⟩, Ho, ⟨%d0, H0⟩, ⟨%d1, H1⟩, ⟨%d2, H2⟩⟩
      iapply (kernelRun6_A c (grid6.coords t) _ _ _ _ _ _ _ _ _ _ _ _ ((hcond6_0 t).mpr h0) (fun h => h4 ((hcond6_1 t).mp h)) (iblk6 V c 0 t) (iblk6 V c 1 t) _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
    · rw [PhiS6_castSucc V c t, PhiS6_pos V c _ _ hz]
      iintro ⟨⟨⟨⟨HS0, HS1, HS2⟩, Hr⟩, Hg⟩, Ho, ⟨%d0, H0⟩, ⟨%d1, H1⟩, ⟨%d2, H2⟩⟩
      iapply (kernelRun6_A c (grid6.coords t) _ _ _ _ _ _ _ _ _ _ _ _ ((hcond6_0 t).mpr h0) (fun h => h4 ((hcond6_1 t).mp h)) (iblk6 V c 0 t) (iblk6 V c 1 t) _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
  · have hz : t.val ≠ 0 := fun h => h0 (by rw [h])
    rw [stAt6_eq_step V c t h0]
    unfold stStep6; dsimp only
    rw [PhiS6_castSucc V c t, PhiS6_pos V c _ _ hz]
    by_cases h4 : t.val % 5 = 4
    · rw [show (dat6 V c).leavesExact 2 t = owns (c : Thread nD τ) (ms6_2 t) fullShare ((dat6 V c).after 2 t) from by
        unfold Dat.leavesExact; rw [liveAt6_2 t h4], after6_2]
      rw [stAt6_eq_step V c t h0]
      unfold stStep6; dsimp only
      iintro ⟨⟨⟨⟨HS0, HS1, HS2⟩, Hr⟩, Hg⟩, Ho, ⟨%d0, H0⟩, ⟨%d1, H1⟩, ⟨%d2, H2⟩⟩
      iapply (kernelRun6_C c (grid6.coords t) _ _ _ _ _ _ _ _ _ _ _ _ (fun h => h0 ((hcond6_0 t).mp h)) ((hcond6_1 t).mpr h4) (iblk6 V c 0 t) (iblk6 V c 1 t) _ _ _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexact H2
    · rw [Dat.leavesExact_idle (dat6 V c) 2 t (idleAt6_2 t h4) (noFlush6_2 t h4)]
      iintro ⟨⟨⟨⟨HS0, HS1, HS2⟩, Hr⟩, Hg⟩, Ho, ⟨%d0, H0⟩, ⟨%d1, H1⟩, ⟨%d2, H2⟩⟩
      iapply (kernelRun6_B c (grid6.coords t) _ _ _ _ _ _ _ _ _ _ _ _ (fun h => h0 ((hcond6_0 t).mp h)) (fun h => h4 ((hcond6_1 t).mp h)) (iblk6 V c 0 t) (iblk6 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

/-- What the region is entered with is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives back what the region was entered with: the statistics' named
    contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 50 := N_6; omega)

end Cert.KernelIdeal.Hand

end
-- ==== Proof.KI.Attn7.lean ====
/-
  Region 7 of the program: one cross-attention call on the grid (10, 5). Point `t` works on query block `t / 5`
  (1000 rows) against key/value block `t % 5` (2000 rows) and carries three statistics between points: the running row
  maximum `m`, the running normaliser `l`, the running weighted sum `acc` (the online softmax). This module states, generic
  in the float model and at ANY contents `V` of the core's buffers at the region's entry: one step of the statistics as
  pure functions of the two blocks; the body's behaviour in its three cases (first, middle, last step of a row of the
  grid); what the statistics and the output block are after each point, by recursion on the point (`stAt7`); the
  invariant that carries the statistics from point to point; the proof data of the region and its body obligation.
-/
import proofs.«407386_j15839839387945_2_alg».proof.Proof.Gen.KernelIdeal.Launch
import proofs.«407386_j15839839387945_2_alg».proof.Proof.Gen.KernelIdeal.Skeleton
import proofs.«407386_j15839839387945_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-block rectangle are zero on both axes. -/
theorem attnZeroOff7 : (![0, 0] : Fin 2 → Nat) = fun _ => 0 := funext fun a => by fin_cases a <;> rfl

/-- A buffer whose LAST store went through the whole-shape rectangle at zero offsets reads as that store's value,
    whatever the earlier stores and the prior contents were: the last store covers every index. -/
theorem attnLastStore7 {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-! ## The two conditions of the body, decided over the grid

The grid is (10, 5): point `t` has key/value step `kv = t % 5`. The body resets its running statistics when `kv = 0`
and writes its output block when `kv = 4`. -/

/-- The reset condition (`kv = 0`), as the body computes it from the grid coordinates. -/
abbrev cond7_0 (i : grid7.Coords) : Prop := (Scalar.cmpi .ne (Scalar.extui (Scalar.cmpi .eq (BitVec.ofNat 32 (i 1).val) 0#32)) 0#32) = 1#1
/-- It holds exactly at the points ≡ 0 (mod 5). -/
theorem hcond7_0 : ∀ t : Fin cfg7.N, cond7_0 (grid7.coords t) ↔ t.val % 5 = 0 :=
  (by decide +kernel : ∀ t : Fin grid7.N, cond7_0 (grid7.coords t) ↔ t.val % 5 = 0)
/-- The finishing condition (`kv = 4`). -/
abbrev cond7_1 (i : grid7.Coords) : Prop := k7_cond2 i = 1#1
/-- It holds exactly at the points ≡ 4 (mod 5). -/
theorem hcond7_1 : ∀ t : Fin cfg7.N, cond7_1 (grid7.coords t) ↔ t.val % 5 = 4 :=
  (by decide +kernel : ∀ t : Fin grid7.N, cond7_1 (grid7.coords t) ↔ t.val % 5 = 4)

/-! ## One step of the online softmax, as pure functions of the blocks and the carried statistics

With `s = bf16(blk) · fullᵀ` the scores of a query block (rounded to bf16) against a key/value block, a step replaces the
running row maximum `m`, the running normaliser `l` and the running weighted sum `acc` by
`m' = max m (rowmax s)`, `l' = exp (m − m') · l + rowsum (exp (s − m'))`,
`acc' = exp (m − m') · acc + bf16(exp (s − m')) · full`;
the last step of a row of the grid leaves `blk − acc' / l'` in the output block. (Where floats are exact the two
roundings to bf16 are the identity.) -/

/-- The running maximum before the first key/value block: `−∞` in every row. -/
def mInit7 : Vec F S1000x1 .f32 := k7_pay4 (F := F)
/-- The running normaliser before the first key/value block: zero. -/
def lInit7 : Vec F S1000x1 .f32 := k7_pay5 (F := F)
/-- The running weighted sum before the first key/value block: zero. -/
def accInit7 : Vec F S1000x128 .f32 := k7_pay6 (F := F)
/-- The running maximum after a step: `max mPrev (rowmax s)`. -/
def mNext7 (blk : Vec F S1000x128 .f32) (full : Vec F S2000x128 .bf16) (mPrev : Vec F S1000x1 .f32) : Vec F S1000x1 .f32 :=
  k7_pay2 (k7_pay9 blk full mPrev)
/-- The running normaliser after a step: `exp (mPrev − m') · lPrev + rowsum (exp (s − m'))`. -/
def lNext7 (blk : Vec F S1000x128 .f32) (full : Vec F S2000x128 .bf16) (mPrev lPrev : Vec F S1000x1 .f32) : Vec F S1000x1 .f32 :=
  k7_pay12 blk full mPrev mPrev lPrev
/-- The running weighted sum after a step: `exp (mPrev − m') · accPrev + bf16(exp (s − m')) · full`. -/
def accNext7 (blk : Vec F S1000x128 .f32) (full : Vec F S2000x128 .bf16) (mPrev : Vec F S1000x1 .f32) (accPrev : Vec F S1000x128 .f32) : Vec F S1000x128 .f32 :=
  k7_pay1 (k7_pay13 blk full mPrev mPrev accPrev)
/-- The output block after the last step of a row of the grid: `blk − accFin / lFin`. -/
def outFin7 (blk : Vec F S1000x128 .f32) (lFin : Vec F S1000x1 .f32) (accFin : Vec F S1000x128 .f32) : Vec F S1000x128 .f32 :=
  k7_pay3 accFin lFin blk

/-! ## The body, case by case, on any whole memrefs -/

set_option maxHeartbeats 1000000 in
/-- A MIDDLE step (`0 < kv < 4`): from the two input blocks and the carried statistics `(xs0, xs1, xs2) = (m, l, acc)` the
    body leaves the statistics one step on, and does not touch the output block's buffer. Each of its three stores covers
    its whole buffer, so what a buffer reads afterwards is the stored value; each load before a store reads the contents
    the buffer came with. -/
theorem kernelRun7_B (c : Dev nD) (i : grid7.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond7_0 i) (hc1 : ¬cond7_1 i)
    (x0 : Vec F S1000x128 .f32) (x1 : Vec F S2000x128 .bf16) (xs0 xs1 : Vec F S1000x1 .f32) (xs2 : Vec F S1000x128 .f32)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1 ∗ owns (c : Thread nD τ) arg4 fullShare xi2
            ∗ owns (c : Thread nD τ) arg5 fullShare (mNext7 x0 x1 xs0) ∗ owns (c : Thread nD τ) arg6 fullShare (lNext7 x0 x1 xs0 xs1)
            ∗ owns (c : Thread nD τ) arg7 fullShare (accNext7 x0 x1 xs0 xs2)) -∗ K ⟨⟩))
      ⊢ wp frame (wpE (defs₀ (F := F)) Variants.none c none) E (cc7__cross_attn_kernel i arg2 harg2 arg3 harg3 arg4 harg4 arg5 harg5 arg6 harg6 arg7 harg7) K := by
  simp only [cc7__cross_attn_kernel_eq_skeleton]; unfold cc7__cross_attn_kernel_skel
  simp only [k7_part1_eq_skeleton]; unfold k7_part1_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext7
    refine (attnLastStore7 (S := S1000x1) _ _ attnZeroOff7 _ _ _).trans ?_
    dsimp only
    simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7]
  isplitl [HS1]
  · iexists _; isplitr
    swap; · iexact HS1
    ipureintro
    unfold lNext7
    refine (attnLastStore7 (S := S1000x1) _ _ attnZeroOff7 _ _ _).trans ?_
    dsimp only
    simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7]
  iexists _; isplitr
  swap; · iexact HS2
  ipureintro
  unfold accNext7
  refine (attnLastStore7 (S := S1000x128) _ _ attnZeroOff7 _ _ _).trans ?_
  dsimp only
  simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7]

set_option maxHeartbeats 1000000 in
/-- A FIRST step (`kv = 0`): whatever the three statistics buffers held, the body first stores the initial statistics
    `(−∞, 0, 0)` over them and then makes a step from those; the output block's buffer is not touched. A load after the
    reset reads the reset value (the reset store covers the buffer). -/
theorem kernelRun7_A (c : Dev nD) (i : grid7.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : cond7_0 i) (hc1 : ¬cond7_1 i)
    (x0 : Vec F S1000x128 .f32) (x1 : Vec F S2000x128 .bf16)
    (xi2 : Vec F S1000x128 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (mNext7 x0 x1 mInit7) ∗ owns (c : Thread nD τ) arg6 fullShare (lNext7 x0 x1 mInit7 lInit7)
            ∗ owns (c : Thread nD τ) arg7 fullShare (accNext7 x0 x1 mInit7 accInit7)) -∗ K ⟨⟩))
      ⊢ wp frame (wpE (defs₀ (F := F)) Variants.none c none) E (cc7__cross_attn_kernel i arg2 harg2 arg3 harg3 arg4 harg4 arg5 harg5 arg6 harg6 arg7 harg7) K := by
  simp only [cc7__cross_attn_kernel_eq_skeleton]; unfold cc7__cross_attn_kernel_skel
  simp only [k7_part1_eq_skeleton]; unfold k7_part1_skel
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    unfold mNext7 mInit7
    refine (attnLastStore7 (S := S1000x1) _ _ attnZeroOff7 _ _ _).trans ?_
    dsimp only
    sl_unfold_run_names
    simp only [View.readAt_eq_ld, harg2.read_unread, harg3.read_unread,
      View.ld_unit_zero (S := S1000x128) attnZeroOff7, View.ld_unit_zero (S := S2000x128) attnZeroOff7,
      View.readCov_unit_zero (S := S1000x1) _ attnZeroOff7, View.readCov_unit_zero (S := S1000x128) _ attnZeroOff7]
  isplitl [HS1]
  · iexists _; isplitr
    swap; · iexact HS1
    ipureintro
    unfold lNext7 mInit7 lInit7
    refine (attnLastStore7 (S := S1000x1) _ _ attnZeroOff7 _ _ _).trans ?_
    dsimp only
    sl_unfold_run_names
    simp only [View.readAt_eq_ld, harg2.read_unread, harg3.read_unread,
      View.ld_unit_zero (S := S1000x128) attnZeroOff7, View.ld_unit_zero (S := S2000x128) attnZeroOff7,
      View.readCov_unit_zero (S := S1000x1) _ attnZeroOff7, View.readCov_unit_zero (S := S1000x128) _ attnZeroOff7]
  iexists _; isplitr
  swap; · iexact HS2
  ipureintro
  unfold accNext7 mInit7 accInit7
  refine (attnLastStore7 (S := S1000x128) _ _ attnZeroOff7 _ _ _).trans ?_
  dsimp only
  sl_unfold_run_names
  simp only [View.readAt_eq_ld, harg2.read_unread, harg3.read_unread,
      View.ld_unit_zero (S := S1000x128) attnZeroOff7, View.ld_unit_zero (S := S2000x128) attnZeroOff7,
      View.readCov_unit_zero (S := S1000x1) _ attnZeroOff7, View.readCov_unit_zero (S := S1000x128) _ attnZeroOff7]

set_option maxHeartbeats 1000000 in
/-- A LAST step (`kv = 4`): a middle step, after which the body reads the statistics it has just stored and the query
    block, and stores `blk − acc' / l'` over the whole output block's buffer, whatever that held. -/
theorem kernelRun7_C (c : Dev nD) (i : grid7.Coords)
    (arg2 : Memref sig .tc .vmem S1000x128 .f32) (harg2 : arg2.IsWhole) (arg3 : Memref sig .tc .vmem S2000x128 .bf16) (harg3 : arg3.IsWhole)
    (arg4 : Memref sig .tc .vmem S1000x128 .f32) (harg4 : arg4.IsWhole) (arg5 : Memref sig .tc .vmem S1000x1 .f32) (harg5 : arg5.IsWhole)
    (arg6 : Memref sig .tc .vmem S1000x1 .f32) (harg6 : arg6.IsWhole) (arg7 : Memref sig .tc .vmem S1000x128 .f32) (harg7 : arg7.IsWhole)
    (hc0 : ¬cond7_0 i) (hc1 : cond7_1 i)
    (x0 : Vec F S1000x128 .f32) (x1 : Vec F S2000x128 .bf16) (xs0 xs1 : Vec F S1000x1 .f32) (xs2 : Vec F S1000x128 .f32)
    (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1
            ∗ owns (c : Thread nD τ) arg4 fullShare (outFin7 x0 (lNext7 x0 x1 xs0 xs1) (accNext7 x0 x1 xs0 xs2))
            ∗ owns (c : Thread nD τ) arg5 fullShare (mNext7 x0 x1 xs0) ∗ owns (c : Thread nD τ) arg6 fullShare (lNext7 x0 x1 xs0 xs1)
            ∗ owns (c : Thread nD τ) arg7 fullShare (accNext7 x0 x1 xs0 xs2)) -∗ K ⟨⟩))
      ⊢ wp frame (wpE (defs₀ (F := F)) Variants.none c none) E (cc7__cross_attn_kernel i arg2 harg2 arg3 harg3 arg4 harg4 arg5 harg5 arg6 harg6 arg7 harg7) K := by
  simp only [cc7__cross_attn_kernel_eq_skeleton]; unfold cc7__cross_attn_kernel_skel
  simp only [k7_part1_eq_skeleton]; unfold k7_part1_skel
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg5.eq_unread hfs0; obtain rfl := harg6.eq_unread hfs1; obtain rfl := harg7.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold outFin7 lNext7 accNext7
    refine (attnLastStore7 (S := S1000x128) _ _ attnZeroOff7 _ _ _).trans ?_
    dsimp only
    sl_unfold_run_names
    simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7,
      View.readCov_unit_zero (S := S1000x1) _ attnZeroOff7, View.readCov_unit_zero (S := S1000x128) _ attnZeroOff7]
  isplitl [HS0]
  · iexists _; isplitr
    swap; · iexact HS0
    ipureintro
    unfold mNext7
    refine (attnLastStore7 (S := S1000x1) _ _ attnZeroOff7 _ _ _).trans ?_
    dsimp only
    sl_unfold_run_names
    simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7,
      View.readCov_unit_zero (S := S1000x1) _ attnZeroOff7, View.readCov_unit_zero (S := S1000x128) _ attnZeroOff7]
  isplitl [HS1]
  · iexists _; isplitr
    swap; · iexact HS1
    ipureintro
    unfold lNext7
    refine (attnLastStore7 (S := S1000x1) _ _ attnZeroOff7 _ _ _).trans ?_
    dsimp only
    sl_unfold_run_names
    simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7,
      View.readCov_unit_zero (S := S1000x1) _ attnZeroOff7, View.readCov_unit_zero (S := S1000x128) _ attnZeroOff7]
  iexists _; isplitr
  swap; · iexact HS2
  ipureintro
  unfold accNext7
  refine (attnLastStore7 (S := S1000x128) _ _ attnZeroOff7 _ _ _).trans ?_
  dsimp only
  sl_unfold_run_names
  simp only [View.readAt_eq_ld, harg2.read_unread, harg3.read_unread, harg5.read_unread, harg6.read_unread, harg7.read_unread,
      View.ld_unit_zero (S := S1000x128) attnZeroOff7, View.ld_unit_zero (S := S2000x128) attnZeroOff7, View.ld_unit_zero (S := S1000x1) attnZeroOff7,
      View.readCov_unit_zero (S := S1000x1) _ attnZeroOff7, View.readCov_unit_zero (S := S1000x128) _ attnZeroOff7]

variable (V : (c : Dev nD) → (b : Ref sig .tc) → Buf (Elt F) ((c : Thread nD τ).loc b))

/-! ## Where the windows are idle

The two inputs are read at every point. The output block is stored only at the last step of a row of the grid
(`kv = 4`), where it is also written back; at the other points its buffer is neither stored into nor written back. -/

theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬t.val % 5 = 4 → cfg7.idle 2 (grid7.coords t) = true := by decide +kernel
theorem noFlush7_2 : ∀ t : Fin cfg7.N, ¬t.val % 5 = 4 → (cfg7.win 2).flush t = false := by decide +kernel
theorem liveAt7_2 : ∀ t : Fin cfg7.N, t.val % 5 = 4 → cfg7.idle 2 (grid7.coords t) = false := by decide +kernel

/-! ## The memrefs the body is called with -/

/-- Each window's current staging memref at point `t`, and its wholeness. -/
abbrev ms7_0 (t : Fin cfg7.N) : Memref sig .tc .vmem S1000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S2000x128 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1000x128 .f32 := win7_2.stage (cfg7.slots t 2)
abbrev hs7_2 (t : Fin cfg7.N) : (ms7_2 t).IsWhole := hstage7_2 ((cfg7.slots t 2).cast nbuf7_2)
/-- The three buffers the body carries its statistics in between points: the running maximum, the running
    normaliser, the running weighted sum. -/
abbrev scM7_0 : Memref sig .tc .vmem S1000x1 .f32 := Memref.whole cc7_scratch0
abbrev scM7_1 : Memref sig .tc .vmem S1000x1 .f32 := Memref.whole cc7_scratch1
abbrev scM7_2 : Memref sig .tc .vmem S1000x128 .f32 := Memref.whole cc7_scratch2

/-- Every other scoped buffer of the core (the other regions' staging buffers and statistics), at some contents each:
    carried through this region unopened. -/
abbrev rest7 (c : Dev nD) : sProp 𝕄 :=
  Pipeline.scopedRestBut (Ix := Unit) (Name := ℕ) (U := UR sig nD τ) (Lvl := ℕ) (Val := Elt F) spec7 c [cc7_scratch0, cc7_scratch1, cc7_scratch2]

/-- What the region is entered with: the three statistics buffers at some contents each, the other scoped buffers, the
    generator register at some state. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d) ∗ (∃ d, owns (c : Thread nD τ) scM7_2 fullShare d)) ∗ rest7 c) ∗ (∃ r, prngReg c r)) := by
  unfold Pipeline.ΦA; rw [scopedRest7_split]; simp only [scM7_0, scM7_1, scM7_2, owns_whole]; try rfl

/-! ## The windows' blocks -/

/-- Window `w`'s block at point `t`, read off its array as the region finds it (`V`): for window 0 the query rows
    `1000·(t / 5) …`, for window 1 the key/value rows `2000·(t % 5) …`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The query block's buffer holds the query block at EVERY point of a row of the grid, though it is fetched at the
    row's first point only: the block index does not move within the row and the body leaves the buffer as it was. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The key/value block's buffer holds the point's key/value block (fetched at every point). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## What the body has computed after each point -/

/-- One point's work from the statistics `s = (m, l, acc)`: the output block `blk − acc' / l'` (what the body stores at
    the last step of a row; at the other points nothing reads this component), then `(m', l', acc')`. -/
def stStep7 (blk : Vec F S1000x128 .f32) (full : Vec F S2000x128 .bf16) (s : Vec F S1000x1 .f32 × Vec F S1000x1 .f32 × Vec F S1000x128 .f32) : Vec F S1000x128 .f32 × Vec F S1000x1 .f32 × Vec F S1000x1 .f32 × Vec F S1000x128 .f32 :=
  (outFin7 blk (lNext7 blk full s.1 s.2.1) (accNext7 blk full s.1 s.2.2), mNext7 blk full s.1, lNext7 blk full s.1 s.2.1, accNext7 blk full s.1 s.2.2)

/-- The statistics a row of the grid starts from: `(−∞, 0, 0)`. -/
def stInit7 : Vec F S1000x1 .f32 × Vec F S1000x1 .f32 × Vec F S1000x128 .f32 := (mInit7, lInit7, accInit7)

/-- THE ACCUMULATION: (output block, `m`, `l`, `acc`) after the body at point `n`, by recursion on the point. At the
    first step of a row (`n % 5 = 0`) the step starts from the initial statistics; at every other from what point
    `n − 1` left. The first component is the output block `blk − acc / l` of the statistics after the point: the body
    stores it at the last step of a row (`n % 5 = 4`), and only there is it read. -/
def stAt7 (c : Dev nD) : (n : ℕ) → n < cfg7.N → Vec F S1000x128 .f32 × Vec F S1000x1 .f32 × Vec F S1000x1 .f32 × Vec F S1000x128 .f32
  | 0, hn => stStep7 (iblk7 V c 0 ⟨0, hn⟩) (iblk7 V c 1 ⟨0, hn⟩) stInit7
  | n + 1, hn =>
    if (n + 1) % 5 = 0 then stStep7 (iblk7 V c 0 ⟨n + 1, hn⟩) (iblk7 V c 1 ⟨n + 1, hn⟩) stInit7
    else stStep7 (iblk7 V c 0 ⟨n + 1, hn⟩) (iblk7 V c 1 ⟨n + 1, hn⟩) (stAt7 c n (Nat.lt_of_succ_lt hn)).2

/-- At the first step of a row: one step from the initial statistics. -/
theorem stAt7_eq_first (c : Dev nD) (t : Fin cfg7.N) (h : t.val % 5 = 0) :
    stAt7 V c t.val t.isLt = stStep7 (iblk7 V c 0 t) (iblk7 V c 1 t) stInit7 := by
  obtain ⟨n, hn⟩ := t
  cases n with
  | zero => rfl
  | succ n => exact if_pos h

/-- At any other step: one step from what the point before left. -/
theorem stAt7_eq_step (c : Dev nD) (t : Fin cfg7.N) (h : ¬t.val % 5 = 0) :
    stAt7 V c t.val t.isLt = stStep7 (iblk7 V c 0 t) (iblk7 V c 1 t) (stAt7 V c (t.val - 1) (Nat.lt_of_le_of_lt (Nat.sub_le _ _) t.isLt)).2 := by
  obtain ⟨n, hn⟩ := t
  cases n with
  | zero => exact absurd (Nat.zero_mod _) h
  | succ n => exact if_neg h

/-- The statistics after the first step of a row. -/
theorem stAt7_first (c : Dev nD) (t : Fin cfg7.N) (h : t.val % 5 = 0) :
    (stAt7 V c t.val t.isLt).2 = (mNext7 (iblk7 V c 0 t) (iblk7 V c 1 t) mInit7, lNext7 (iblk7 V c 0 t) (iblk7 V c 1 t) mInit7 lInit7, accNext7 (iblk7 V c 0 t) (iblk7 V c 1 t) mInit7 accInit7) := by
  rw [stAt7_eq_first V c t h]; rfl

/-- The statistics after any other step, from those the point before left. -/
theorem stAt7_step (c : Dev nD) (t : Fin cfg7.N) (h : t.val % 5 ≠ 0) :
    (stAt7 V c t.val t.isLt).2 = (mNext7 (iblk7 V c 0 t) (iblk7 V c 1 t) (stAt7 V c (t.val - 1) (Nat.lt_of_le_of_lt (Nat.sub_le _ _) t.isLt)).2.1, lNext7 (iblk7 V c 0 t) (iblk7 V c 1 t) (stAt7 V c (t.val - 1) (Nat.lt_of_le_of_lt (Nat.sub_le _ _) t.isLt)).2.1 (stAt7 V c (t.val - 1) (Nat.lt_of_le_of_lt (Nat.sub_le _ _) t.isLt)).2.2.1, accNext7 (iblk7 V c 0 t) (iblk7 V c 1 t) (stAt7 V c (t.val - 1) (Nat.lt_of_le_of_lt (Nat.sub_le _ _) t.isLt)).2.1 (stAt7 V c (t.val - 1) (Nat.lt_of_le_of_lt (Nat.sub_le _ _) t.isLt)).2.2.2) := by
  rw [stAt7_eq_step V c t h]; rfl

/-- The output block the last step of a row stores: `blk − acc / l` of the statistics after that step. -/
theorem stAt7_out (c : Dev nD) (t : Fin cfg7.N) (h : t.val % 5 = 4) :
    (stAt7 V c t.val t.isLt).1 = outFin7 (iblk7 V c 0 t) (stAt7 V c t.val t.isLt).2.2.1 (stAt7 V c t.val t.isLt).2.2.2 := by
  rw [stAt7_eq_step V c t (by omega)]; rfl

/-! ## The invariant -/

/-- The region's invariant before position `n`: before the first point what the region is entered with; afterwards
    the three statistics buffers at what the point before left, the other scoped buffers and the generator register
    as they come. -/
def PhiS7 (c : Dev nD) : (n : ℕ) → n ≤ cfg7.N → sProp 𝕄
  | 0, _ => Pipeline.ΦA spec7 c
  | n + 1, hn => iprop(iprop(iprop(owns (c : Thread nD τ) scM7_0 fullShare (stAt7 V c n hn).2.1 ∗ owns (c : Thread nD τ) scM7_1 fullShare (stAt7 V c n hn).2.2.1 ∗ owns (c : Thread nD τ) scM7_2 fullShare (stAt7 V c n hn).2.2.2) ∗ rest7 c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (stAt7 V c n hn).2.1 ∗ owns (c : Thread nD τ) scM7_1 fullShare (stAt7 V c n hn).2.2.1 ∗ owns (c : Thread nD τ) scM7_2 fullShare (stAt7 V c n hn).2.2.2) ∗ rest7 c) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (stAt7 V c (n - 1) (by omega)).2.1 ∗ owns (c : Thread nD τ) scM7_1 fullShare (stAt7 V c (n - 1) (by omega)).2.2.1 ∗ owns (c : Thread nD τ) scM7_2 fullShare (stAt7 V c (n - 1) (by omega)).2.2.2) ∗ rest7 c) ∗ (∃ r, prngReg c r)) := by
  cases n with
  | zero => exact absurd rfl hz
  | succ n => rfl

/-! ## The pipeline's proof data -/

/-- The proof data of this region on core `c`: the arrays as the region finds them (`V`); after the body at point `t`
    each input's buffer at its block and the output's at `stAt7`'s first component; the invariant `PhiS7`; nothing
    owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (stAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (stAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4800000 in
/-- The body at any point. The inputs' buffers hold their blocks; `t % 5` says which case the point is in. At the
    first step of a row the statistics buffers are handed over at whatever they hold (named or not) and come back
    one step from the initial statistics; at a later step they are handed over at what the point before left and come
    back one step on; at the last step the output block's buffer, at anything, comes back at `blk − acc / l`, and at
    the other steps it goes through untouched. The other scoped buffers, the generator register and the core's
    tallies go through unopened. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = PhiS7 V c (t.val + 1) t.isLt from rfl, PhiS7_succ]
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  have hN : t.val < 50 := lt_of_lt_of_eq t.isLt (show cfg7.N = 50 from N_7)
  by_cases h0 : t.val % 5 = 0
  · have h4 : ¬t.val % 5 = 4 := by omega
    rw [Dat.leavesExact_idle (dat7 V c) 2 t (idleAt7_2 t h4) (noFlush7_2 t h4)]
    rw [stAt7_eq_first V c t h0]
    unfold stStep7 stInit7; dsimp only
    by_cases hz : t.val = 0
    · rw [PhiS7_castSucc V c t, PhiS7_zero V c _ _ hz, PhiA7_eq]
      iintro ⟨⟨⟨⟨HS0, HS1, HS2⟩, Hr⟩, Hg⟩, Ho, ⟨%d0, H0⟩, ⟨%d1, H1⟩, ⟨%d2, H2⟩⟩
      iapply (kernelRun7_A c (grid7.coords t) _ _ _ _ _ _ _ _ _ _ _ _ ((hcond7_0 t).mpr h0) (fun h => h4 ((hcond7_1 t).mp h)) (iblk7 V c 0 t) (iblk7 V c 1 t) _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
    · rw [PhiS7_castSucc V c t, PhiS7_pos V c _ _ hz]
      iintro ⟨⟨⟨⟨HS0, HS1, HS2⟩, Hr⟩, Hg⟩, Ho, ⟨%d0, H0⟩, ⟨%d1, H1⟩, ⟨%d2, H2⟩⟩
      iapply (kernelRun7_A c (grid7.coords t) _ _ _ _ _ _ _ _ _ _ _ _ ((hcond7_0 t).mpr h0) (fun h => h4 ((hcond7_1 t).mp h)) (iblk7 V c 0 t) (iblk7 V c 1 t) _ Set.univ _)
      isplitl [H0]; · iexact H0
      isplitl [H1]; · iexact H1
      isplitl [H2]; · iexact H2
      isplitl [HS0]; · iexists _; iexact HS0
      isplitl [HS1]; · iexists _; iexact HS1
      isplitl [HS2]; · iexists _; iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2
  · have hz : t.val ≠ 0 := fun h => h0 (by rw [h])
    rw [stAt7_eq_step V c t h0]
    unfold stStep7; dsimp only
    rw [PhiS7_castSucc V c t, PhiS7_pos V c _ _ hz]
    by_cases h4 : t.val % 5 = 4
    · rw [show (dat7 V c).leavesExact 2 t = owns (c : Thread nD τ) (ms7_2 t) fullShare ((dat7 V c).after 2 t) from by
        unfold Dat.leavesExact; rw [liveAt7_2 t h4], after7_2]
      rw [stAt7_eq_step V c t h0]
      unfold stStep7; dsimp only
      iintro ⟨⟨⟨⟨HS0, HS1, HS2⟩, Hr⟩, Hg⟩, Ho, ⟨%d0, H0⟩, ⟨%d1, H1⟩, ⟨%d2, H2⟩⟩
      iapply (kernelRun7_C c (grid7.coords t) _ _ _ _ _ _ _ _ _ _ _ _ (fun h => h0 ((hcond7_0 t).mp h)) ((hcond7_1 t).mpr h4) (iblk7 V c 0 t) (iblk7 V c 1 t) _ _ _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexact H2
    · rw [Dat.leavesExact_idle (dat7 V c) 2 t (idleAt7_2 t h4) (noFlush7_2 t h4)]
      iintro ⟨⟨⟨⟨HS0, HS1, HS2⟩, Hr⟩, Hg⟩, Ho, ⟨%d0, H0⟩, ⟨%d1, H1⟩, ⟨%d2, H2⟩⟩
      iapply (kernelRun7_B c (grid7.coords t) _ _ _ _ _ _ _ _ _ _ _ _ (fun h => h0 ((hcond7_0 t).mp h)) (fun h => h4 ((hcond7_1 t).mp h)) (iblk7 V c 0 t) (iblk7 V c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hr Hg]
      · isplitl [HS0 HS1 HS2 Hr]
        · isplitl [HS0 HS1 HS2]
          · isplitl [HS0]; · iexact HS0
            isplitl [HS1]; · iexact HS1
            iexact HS2
          iexact Hr
        iexact Hg
      isplitl [Ho]; · iexact Ho
      isplitl [H0]; · iexact H0
      isplitl [H1]; · iexact H1
      iexists _; iexact H2

/-- The body obligation, at every point. -/
theorem body_obligation7 (c : Dev nD) : BodyObligation (dat7 (F := F) V c) (defs₀ (F := F)) Variants.none () Set.univ := fun t => by
  rw [bigSep_W7, bigSep_W7]
  exact sound_body7 V c t

/-- What the region is entered with is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives back what the region was entered with: the statistics' named
    contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 50 := N_7; omega)

end Cert.KernelIdeal.Hand

end
-- ==== Proof.KI.RunFold.lean ====
import proofs.«407386_j15839839387945_2_alg».proof.Proof.KI.Edge0
import proofs.«407386_j15839839387945_2_alg».proof.Proof.KI.Edge1
import proofs.«407386_j15839839387945_2_alg».proof.Proof.KI.Edge4
import proofs.«407386_j15839839387945_2_alg».proof.Proof.KI.Edge5
import proofs.«407386_j15839839387945_2_alg».proof.Proof.KI.Attn2
import proofs.«407386_j15839839387945_2_alg».proof.Proof.KI.Attn3
import proofs.«407386_j15839839387945_2_alg».proof.Proof.KI.Attn6
import proofs.«407386_j15839839387945_2_alg».proof.Proof.KI.Attn7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the host stretch hostOps0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch hostOps1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch hostOps2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After the host stretch hostOps4. -/
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b

/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After the host stretch hostOps5. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b

/-- At region 5's exit: its arrays at what the pipeline leaves, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- After the host stretch hostOps6. -/
abbrev W12 : Dev nD → Valuation τ sig (Elt F) := fun c => StableHlo.after hostOps6 (W11 m ρ c)
abbrev V12 : (c : Dev nD) → (b : Ref sig .tc) → Buf (Elt F) ((c : Thread nD τ).loc b) := fun c b => W12 m ρ c b

/-- At region 6's exit: its arrays at what the pipeline leaves, every other buffer as entered. -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
abbrev V13 : (c : Dev nD) → (b : Ref sig .tc) → Buf (Elt F) ((c : Thread nD τ).loc b) := fun c b => W13 m ρ c b
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

/-- At region 7's exit: its arrays at what the pipeline leaves, every other buffer as entered. -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
abbrev V14 : (c : Dev nD) → (b : Ref sig .tc) → Buf (Elt F) ((c : Thread nD τ).loc b) := fun c b => W14 m ρ c b
theorem hF7 (c : Dev nD) (w : Fin cfg7.W) : (dat7 (V13 m ρ) c).arrAt w cfg7.N = V14 m ρ c (Pipeline.arrRef spec7 w) :=
  (W14_arr m ρ c w).symm
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)

/-- After the host stretch hostOps8. -/
abbrev W15 : Dev nD → Valuation τ sig (Elt F) := fun c => StableHlo.after hostOps8 (W14 m ρ c)
abbrev V15 : (c : Dev nD) → (b : Ref sig .tc) → Buf (Elt F) ((c : Thread nD τ).loc b) := fun c b => W15 m ρ c b

/-! ## The proof data family -/

/-- No pipeline has a prefetched table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V8 m ρ) c
  | ⟨5, _⟩ => fun c => dat5 (V10 m ρ) c
  | ⟨6, _⟩ => fun c => dat6 (V12 m ρ) c
  | ⟨7, _⟩ => fun c => dat7 (V13 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

end Cert.KernelIdeal.Hand

end
-- ==== Proof.KI.RunRegs.lean ====
import proofs.«407386_j15839839387945_2_alg».proof.Proof.KI.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
set_option maxHeartbeats 2000000 in
theorem hostOps0_fresh : (hostOps0 : List (HloOp τ sig (Elt F))).Forall fun op => op.fresh = ∅ := by
  simp only [List.Forall]; repeat' constructor
set_option maxHeartbeats 2000000 in
theorem hostOps1_fresh : (hostOps1 : List (HloOp τ sig (Elt F))).Forall fun op => op.fresh = ∅ := by
  simp only [List.Forall]; repeat' constructor
set_option maxHeartbeats 2000000 in
theorem hostOps2_fresh : (hostOps2 : List (HloOp τ sig (Elt F))).Forall fun op => op.fresh = ∅ := by
  simp only [List.Forall]; repeat' constructor
set_option maxHeartbeats 2000000 in
theorem hostOps4_fresh : (hostOps4 : List (HloOp τ sig (Elt F))).Forall fun op => op.fresh = ∅ := by
  simp only [List.Forall]; repeat' constructor
set_option maxHeartbeats 2000000 in
theorem hostOps5_fresh : (hostOps5 : List (HloOp τ sig (Elt F))).Forall fun op => op.fresh = ∅ := by
  simp only [List.Forall]; repeat' constructor
set_option maxHeartbeats 2000000 in
theorem hostOps6_fresh : (hostOps6 : List (HloOp τ sig (Elt F))).Forall fun op => op.fresh = ∅ := by
  simp only [List.Forall]; repeat' constructor
set_option maxHeartbeats 2000000 in
theorem hostOps8_fresh : (hostOps8 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine (show _ ⊢ Pipeline.ΦA spec2 c from ?_).trans (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V6 m ρ) c).Φ 0 from rfl]
    refine (show _ ⊢ Pipeline.ΦA spec3 c from ?_).trans (hin3 (V6 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (V6 m ρ) c).Φ (Fin.last cfg3.N) from rfl]
    refine (hout3 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V12 m ρ) c).Φ 0 from rfl]
    refine (show _ ⊢ Pipeline.ΦA spec6 c from ?_).trans (hin6 (V12 m ρ) c)
    unfold Pipeline.ΦA
    iintro ⟨Hp, -, Hr⟩
    isplitl [Hr]; · iexact Hr
    iexact Hp
  hout c := by
    rw [Pipeline.ownSems0_none, show (pdats m ρ 6 c).Φ (Fin.last _) = (dat6 (V12 m ρ) c).Φ (Fin.last cfg6.N) from rfl]
    refine (hout6 (V12 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V13 m ρ) c).Φ 0 from rfl]
    refine (show _ ⊢ Pipeline.ΦA spec7 c from ?_).trans (hin7 (V13 m ρ) c)
    unfold Pipeline.ΦA
    iintro ⟨Hp, -, Hr⟩
    isplitl [Hr]; · iexact Hr
    iexact Hp
  hout c := by
    rw [Pipeline.ownSems0_none, show (pdats m ρ 7 c).Φ (Fin.last _) = (dat7 (V13 m ρ) c).Φ (Fin.last cfg7.N) from rfl]
    refine (hout7 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunMain.lean ====
import proofs.«407386_j15839839387945_2_alg».proof.Proof.KI.RunRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Tₙ (c : Dev nD) : sProp 𝕄 := iprop(StableHlo.held (c : Thread nD τ) (Pipeline.ucRefs τ sig) (W15 m ρ c) ∗ ∃ r, prngReg c r)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .region (reg7 m ρ),
    .host (hseg hostOps8 hostOps8_sub hostOps8_fresh (W14 m ρ)) ]

set_option maxHeartbeats 4000000 in
theorem main_run (c : Dev nD) : main (F := F) c = Pipeline.Seg.run (segs m ρ) := (main_chain c).trans (by chain_rfl)

set_option backward.isDefEq.respectTransparency.types false in
set_option maxHeartbeats 4000000 in
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c b hb => h c b hb)

end Cert.KernelIdeal.Hand

end
-- ==== Proof.KI.RunArgs.lean ====
import proofs.«407386_j15839839387945_2_alg».proof.Proof.KI.RunFold
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

abbrev hostOps0_writes : List (Ref sig .tc) :=
  [main_v0, main_c, main_v1, main_v2, main_c_0, main_v3, main_v4, main_v5, main_v6, main_v7,
   main_v8, main_c_1, main_v9, main_v10, main_c_2, main_v11, main_v12, main_v13, main_v14, main_v15,
   main_v16, main_v17, main_v18, main_v19, main_v20, main_v21, main_v22, main_v23, main_v24, main_v25,
   main_v26, main_v27, main_v28, main_v29, main_v30, main_v31, main_c_3, main_v32, main_v33, main_c_4,
   main_v34, main_v35, main_v36, main_v37, main_v38, main_c_5, main_v39, main_v40, main_c_6, main_v41,
   main_v42, main_v43, main_v44, main_v45]

set_option maxHeartbeats 4000000 in
-- Every operation of the stretch writes one buffer of the list, so a buffer outside it is left as it was.
theorem hostOps0_keep (W : Valuation τ sig (Elt F)) (r : Ref sig .tc) (hr : r ∉ hostOps0_writes) :
    StableHlo.after (hostOps0 (F := F)) W (Proc.devRef .tc r) = W (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps1_writes : List (Ref sig .tc) :=
  [main_cst, main_v47, main_v48, main_v49, main_v50, main_v51, main_v52, main_v53, main_c_7, main_v54,
   main_v55, main_c_8, main_v56, main_v57, main_v58, main_v59, main_v60, main_c_9, main_v61, main_v62,
   main_c_10, main_v63, main_v64, main_v65, main_v66, main_v67]

set_option maxHeartbeats 4000000 in
theorem hostOps1_keep (W : Valuation τ sig (Elt F)) (r : Ref sig .tc) (hr : r ∉ hostOps1_writes) :
    StableHlo.after (hostOps1 (F := F)) W (Proc.devRef .tc r) = W (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps2_writes : List (Ref sig .tc) :=
  [main_cst_11, main_v69, main_v70, main_v71]

set_option maxHeartbeats 4000000 in
theorem hostOps2_keep (W : Valuation τ sig (Elt F)) (r : Ref sig .tc) (hr : r ∉ hostOps2_writes) :
    StableHlo.after (hostOps2 (F := F)) W (Proc.devRef .tc r) = W (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps4_writes : List (Ref sig .tc) :=
  [main_v74, main_v75, main_v76, main_v77, main_v78, main_v79, main_v80, main_v81, main_v82, main_v83,
   main_v84, main_v85, main_v86, main_v87, main_v88, main_v89, main_v90, main_v91, main_cst_12, main_v92,
   main_v93, main_cst_13, main_v94, main_v95, main_v96, main_v97, main_v98, main_cst_14, main_v99, main_v100,
   main_cst_15, main_v101, main_v102, main_v103, main_v104, main_v105, main_cst_16, main_v106, main_v107, main_v108,
   main_v109, main_v110, main_v111, main_v112, main_v113, main_v114, main_v115, main_v116, main_v117, main_v118,
   main_v119, main_v120, main_v121, main_v122, main_v123, main_v124, main_v125, main_v126, main_v127, main_v128,
   main_cst_17, main_v129, main_v130, main_cst_18, main_v131, main_v132, main_v133, main_v134, main_v135, main_cst_19,
   main_v136, main_v137, main_cst_20, main_v138, main_v139, main_v140, main_v141, main_v142, main_cst_21, main_v143,
   main_v144, main_v145, main_v146, main_v147, main_v148, main_v149, main_v150, main_v151, main_v152, main_v153,
   main_c_22, main_v154, main_v155, main_c_23, main_v156, main_v157, main_v158, main_v159, main_v160, main_c_24,
   main_v161, main_v162, main_c_25, main_v163, main_v164, main_v165, main_v166, main_v167]

set_option maxHeartbeats 4000000 in
theorem hostOps4_keep (W : Valuation τ sig (Elt F)) (r : Ref sig .tc) (hr : r ∉ hostOps4_writes) :
    StableHlo.after (hostOps4 (F := F)) W (Proc.devRef .tc r) = W (Proc.devRef .tc r) :=
  StableHlo.after_of_forall_not_mem (b := Proc.devRef .tc r) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps5_writes : List (Ref sig .tc) :=
  [main_cst_26, main_v169, main_v170, main_v171, main_v172, main_v173, main_v174, main_v175, main_c_27, main_v176,
   main_v177, main_c_28, main_v178, main_v179, main_v180, main_v181, main_v182, main_c_29, main_v183, main_v184,
   main_c_30, main_v185, main_v186, main_v187, main_v188, main_v189]

set_option maxHeartbeats 4000000 in
theorem hostOps5_keep (W : Valuation τ sig (Elt F)) (r : Ref sig .tc) (hr : r ∉ hostOps5_writes) :
    StableHlo.after (hostOps5 (F := F)) W (Proc.devRef .tc r) = W (Proc.devRef .tc r) :=
  StableHlo.after_of_forall_not_mem (b := Proc.devRef .tc r) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps6_writes : List (Ref sig .tc) :=
  [main_cst_31, main_v191, main_v192, main_v193]

set_option maxHeartbeats 4000000 in
theorem hostOps6_keep (W : Valuation τ sig (Elt F)) (r : Ref sig .tc) (hr : r ∉ hostOps6_writes) :
    StableHlo.after (hostOps6 (F := F)) W (Proc.devRef .tc r) = W (Proc.devRef .tc r) :=
  StableHlo.after_of_forall_not_mem (b := Proc.devRef .tc r) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

abbrev hostOps8_writes : List (Ref sig .tc) :=
  [main_v196, main_v197, main_v198, main_v199, main_v200, main_v201, main_v202, main_v203, main_v204, main_v205,
   main_v206, main_v207, main_v208, main_v209, main_v210, main_v211, main_v212, main_v213, main_cst_32, main_v214,
   main_v215, main_cst_33, main_v216, main_v217, main_v218, main_v219, main_v220, main_cst_34, main_v221, main_v222,
   main_cst_35, main_v223, main_v224, main_v225, main_v226, main_v227, main_cst_36, main_v228, main_v229, main_v230,
   main_v231, main_v232, main_v233, main_v234, main_v235, main_v236, main_v237, main_v238, main_v239, main_v240,
   main_v241, main_v242, main_v243, main_v244, main_v245, main_v246, main_v247, main_v248, main_v249, main_v250,
   main_cst_37, main_v251, main_v252, main_cst_38, main_v253, main_v254, main_v255, main_v256, main_v257, main_cst_39,
   main_v258, main_v259, main_cst_40, main_v260, main_v261, main_v262, main_v263, main_v264, main_cst_41, main_v265,
   main_v266, main_v267, main_v268, main_v269, main_v270, main_v271, main_v272, main_v273, main_v274, main_v275,
   main_cst_42, main_v276, main_v277, main_cst_43, main_v278, main_v279, main_cst_44, main_v280, main_cst_45, main_v281,
   main_v282, main_v283, main_v284, main_v285, main_v286, main_cst_46, main_v287, main_v288, main_v289, main_v290,
   main_v291, main_v292, main_cst_47, main_v293, main_v294, main_v295, main_v296, main_v297, main_v298, main_v299,
   main_v300, main_cst_48, main_v301, main_v302, main_cst_49, main_v303, main_v304, main_cst_50, main_v305, main_cst_51,
   main_v306, main_v307, main_v308, main_v309, main_v310, main_v311, main_cst_52, main_v312, main_v313, main_v314,
   main_v315, main_v316, main_v317, main_cst_53, main_v318, main_v319]

set_option maxHeartbeats 4000000 in
theorem hostOps8_keep (W : Valuation τ sig (Elt F)) (r : Ref sig .tc) (hr : r ∉ hostOps8_writes) :
    StableHlo.after (hostOps8 (F := F)) W (Proc.devRef .tc r) = W (Proc.devRef .tc r) :=
  StableHlo.after_of_forall_not_mem (b := Proc.devRef .tc r) _ _ (List.forall_iff_forall_mem.mp (by
    simp only [hostOps8, List.Forall, StableHlo.nullary_writes, StableHlo.unary_writes, StableHlo.binary_writes,
      StableHlo.ternary_writes, StableHlo.reshape_writes, Finset.mem_singleton]
    repeat' apply And.intro
    all_goals (refine StableHlo.devRef_ne_of_ne fun h => hr ?_; subst h; decide)))

variable (m : (ℓ : Loc nD τ sig) → Buf (Elt F) ℓ) (ρ : Dev nD → PrngReg)

-- Across a region only its output arrays change.
theorem W2_keep (c : Dev nD) (b : Ref sig .tc)
    (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

theorem W4_keep (c : Dev nD) (b : Ref sig .tc)
    (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

theorem W6_keep (c : Dev nD) (b : Ref sig .tc)
    (hb : ∀ w, Pipeline.arrRef spec2 w = b → (cfg2.win w).isOut = false) :
    W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (hb w rfl) _).trans (A_eq2 (V5 m ρ) c w))
  · exact W6_of_ne m ρ c b fun w e => h ⟨w, e⟩

theorem W7_keep (c : Dev nD) (b : Ref sig .tc)
    (hb : ∀ w, Pipeline.arrRef spec3 w = b → (cfg3.win w).isOut = false) :
    W7 m ρ c (Proc.devRef .tc b) = W6 m ρ c (Proc.devRef .tc b) := by
  by_cases h : ∃ w, Pipeline.arrRef spec3 w = b
  · obtain ⟨w, rfl⟩ := h
    exact (W7_arr m ρ c w).trans (((dat3 (V6 m ρ) c).arrAt_in w (hb w rfl) _).trans (A_eq3 (V6 m ρ) c w))
  · exact W7_of_ne m ρ c b fun w e => h ⟨w, e⟩

theorem W9_keep (c : Dev nD) (b : Ref sig .tc)
    (hb : ∀ w, Pipeline.arrRef spec4 w = b → (cfg4.win w).isOut = false) :
    W9 m ρ c (Proc.devRef .tc b) = W8 m ρ c (Proc.devRef .tc b) := by
  by_cases h : ∃ w, Pipeline.arrRef spec4 w = b
  · obtain ⟨w, rfl⟩ := h
    exact (W9_arr m ρ c w).trans (((dat4 (V8 m ρ) c).arrAt_in w (hb w rfl) _).trans (A_eq4 (V8 m ρ) c w))
  · exact W9_of_ne m ρ c b fun w e => h ⟨w, e⟩

theorem W11_keep (c : Dev nD) (b : Ref sig .tc)
    (hb : ∀ w, Pipeline.arrRef spec5 w = b → (cfg5.win w).isOut = false) :
    W11 m ρ c (Proc.devRef .tc b) = W10 m ρ c (Proc.devRef .tc b) := by
  by_cases h : ∃ w, Pipeline.arrRef spec5 w = b
  · obtain ⟨w, rfl⟩ := h
    exact (W11_arr m ρ c w).trans (((dat5 (V10 m ρ) c).arrAt_in w (hb w rfl) _).trans (A_eq5 (V10 m ρ) c w))
  · exact W11_of_ne m ρ c b fun w e => h ⟨w, e⟩

theorem W13_keep (c : Dev nD) (b : Ref sig .tc)
    (hb : ∀ w, Pipeline.arrRef spec6 w = b → (cfg6.win w).isOut = false) :
    W13 m ρ c (Proc.devRef .tc b) = W12 m ρ c (Proc.devRef .tc b) := by
  by_cases h : ∃ w, Pipeline.arrRef spec6 w = b
  · obtain ⟨w, rfl⟩ := h
    exact (W13_arr m ρ c w).trans (((dat6 (V12 m ρ) c).arrAt_in w (hb w rfl) _).trans (A_eq6 (V12 m ρ) c w))
  · exact W13_of_ne m ρ c b fun w e => h ⟨w, e⟩

theorem W14_keep (c : Dev nD) (b : Ref sig .tc)
    (hb : ∀ w, Pipeline.arrRef spec7 w = b → (cfg7.win w).isOut = false) :
    W14 m ρ c (Proc.devRef .tc b) = W13 m ρ c (Proc.devRef .tc b) := by
  by_cases h : ∃ w, Pipeline.arrRef spec7 w = b
  · obtain ⟨w, rfl⟩ := h
    exact (W14_arr m ρ c w).trans (((dat7 (V13 m ρ) c).arrAt_in w (hb w rfl) _).trans (A_eq7 (V13 m ρ) c w))
  · exact W14_of_ne m ρ c b fun w e => h ⟨w, e⟩

-- The buffer contents at boundary j of the run (past the last boundary, the last).
def Wat : ℕ → Dev nD → Valuation τ sig (Elt F)
  | 0 => W0 m ρ | 1 => W1 m ρ | 2 => W2 m ρ | 3 => W3 m ρ | 4 => W4 m ρ | 5 => W5 m ρ | 6 => W6 m ρ | 7 => W7 m ρ
  | 8 => W8 m ρ | 9 => W9 m ρ | 10 => W10 m ρ | 11 => W11 m ρ | 12 => W12 m ρ | 13 => W13 m ρ | 14 => W14 m ρ
  | _ => W15 m ρ

-- Whether the segment from boundary j to boundary j + 1 leaves buffer b alone.
def keeps (b : Ref sig .tc) : ℕ → Bool
  | 0 => decide (b ∉ hostOps0_writes)
  | 1 => decide (∀ w, Pipeline.arrRef spec0 w = b → (cfg0.win w).isOut = false)
  | 2 => decide (b ∉ hostOps1_writes)
  | 3 => decide (∀ w, Pipeline.arrRef spec1 w = b → (cfg1.win w).isOut = false)
  | 4 => decide (b ∉ hostOps2_writes)
  | 5 => decide (∀ w, Pipeline.arrRef spec2 w = b → (cfg2.win w).isOut = false)
  | 6 => decide (∀ w, Pipeline.arrRef spec3 w = b → (cfg3.win w).isOut = false)
  | 7 => decide (b ∉ hostOps4_writes)
  | 8 => decide (∀ w, Pipeline.arrRef spec4 w = b → (cfg4.win w).isOut = false)
  | 9 => decide (b ∉ hostOps5_writes)
  | 10 => decide (∀ w, Pipeline.arrRef spec5 w = b → (cfg5.win w).isOut = false)
  | 11 => decide (b ∉ hostOps6_writes)
  | 12 => decide (∀ w, Pipeline.arrRef spec6 w = b → (cfg6.win w).isOut = false)
  | 13 => decide (∀ w, Pipeline.arrRef spec7 w = b → (cfg7.win w).isOut = false)
  | 14 => decide (b ∉ hostOps8_writes)
  | _ => true

theorem Wat_succ (c : Dev nD) (b : Ref sig .tc) :
    ∀ j, keeps b j = true → Wat m ρ (j + 1) c (Proc.devRef .tc b) = Wat m ρ j c (Proc.devRef .tc b)
  | 0, h => hostOps0_keep (W0 m ρ c) b (of_decide_eq_true h)
  | 1, h => W2_keep m ρ c b (of_decide_eq_true h)
  | 2, h => hostOps1_keep (W2 m ρ c) b (of_decide_eq_true h)
  | 3, h => W4_keep m ρ c b (of_decide_eq_true h)
  | 4, h => hostOps2_keep (W4 m ρ c) b (of_decide_eq_true h)
  | 5, h => W6_keep m ρ c b (of_decide_eq_true h)
  | 6, h => W7_keep m ρ c b (of_decide_eq_true h)
  | 7, h => hostOps4_keep (W7 m ρ c) b (of_decide_eq_true h)
  | 8, h => W9_keep m ρ c b (of_decide_eq_true h)
  | 9, h => hostOps5_keep (W9 m ρ c) b (of_decide_eq_true h)
  | 10, h => W11_keep m ρ c b (of_decide_eq_true h)
  | 11, h => hostOps6_keep (W11 m ρ c) b (of_decide_eq_true h)
  | 12, h => W13_keep m ρ c b (of_decide_eq_true h)
  | 13, h => W14_keep m ρ c b (of_decide_eq_true h)
  | 14, h => hostOps8_keep (W14 m ρ c) b (of_decide_eq_true h)
  | _ + 15, _ => rfl

-- A buffer that every segment between boundaries i and j leaves alone holds at j what it held at i.
theorem carry (c : Dev nD) (b : Ref sig .tc) (i j : ℕ) (h : i ≤ j ∧ ∀ k, i ≤ k → k < j → keeps b k = true) :
    Wat m ρ j c (Proc.devRef .tc b) = Wat m ρ i c (Proc.devRef .tc b) := by
  obtain ⟨hij, h⟩ := h
  induction j, hij using Nat.le_induction with
  | base => rfl
  | succ j hj ih =>
    exact (Wat_succ m ρ c b j (h j hj (Nat.lt_succ_self j))).trans (ih fun k hk hkj => h k hk (Nat.lt_succ_of_lt hkj))

-- An argument of the program, which no segment writes, ends as launched.
theorem W15_arg (c : Dev nD) (b : Ref sig .tc) (h : 0 ≤ 15 ∧ ∀ k, 0 ≤ k → k < 15 → keeps b k = true) :
    W15 m ρ c (Proc.devRef .tc b) = m ((c : Thread nD τ).loc b) :=
  carry m ρ c b 0 15 h

end Cert.KernelIdeal.Hand

end
-- ==== Proof.Val.Host0.lean ====
import proofs.«407386_j15839839387945_2_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal.Laws

set_option maxRecDepth 8192

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx
open scoped BigOperators

section Structural

variable {F : FTy → Type} [FloatOps F]

abbrev nodeCol (x : (⟨S10000x1, .i32⟩ : BufTy).Contents (Elt F)) : (⟨S10000x1, .i32⟩ : BufTy).Contents (Elt F) :=
  broadcastInDim S10000x1 ![0] bcast_S10000_S10000x1_0
    (select
      (cmpi .slt (shapeCast S10000 x shapeCasts_S10000x1_S10000) (broadcastInDim S10000 ![] bcast_S_S10000 (constantI S_ 32 0#32)))
      (addi (shapeCast S10000 x shapeCasts_S10000x1_S10000) (broadcastInDim S10000 ![] bcast_S_S10000 (constantI S_ 32 32000#32)))
      (shapeCast S10000 x shapeCasts_S10000x1_S10000))

abbrev edgeCol (r : (⟨S1x160000, .i32⟩ : BufTy).Contents (Elt F)) : (⟨S160000x1, .i32⟩ : BufTy).Contents (Elt F) :=
  broadcastInDim S160000x1 ![0] bcast_S160000_S160000x1_0
    (select
      (cmpi .slt (shapeCast S160000 r shapeCasts_S1x160000_S160000) (broadcastInDim S160000 ![] bcast_S_S160000 (constantI S_ 32 0#32)))
      (addi (shapeCast S160000 r shapeCasts_S1x160000_S160000) (broadcastInDim S160000 ![] bcast_S_S160000 (constantI S_ 32 10000#32)))
      (shapeCast S160000 r shapeCasts_S1x160000_S160000))

abbrev edgeRow0 (x : (⟨S2x160000, .i32⟩ : BufTy).Contents (Elt F)) : (⟨S1x160000, .i32⟩ : BufTy).Contents (Elt F) :=
  extractStridedSlice S1x160000 ![0, 0] x slices_S2x160000_S1x160000_0_0

abbrev edgeRow1 (x : (⟨S2x160000, .i32⟩ : BufTy).Contents (Elt F)) : (⟨S1x160000, .i32⟩ : BufTy).Contents (Elt F) :=
  extractStridedSlice S1x160000 ![1, 0] x slices_S2x160000_S1x160000_1_0

variable (W : Valuation τ sig (Elt F))

set_option maxHeartbeats 1000000 in

theorem host0_v7 : StableHlo.after (hostOps0 (F := F)) W (Proc.devRef .tc main_v7)
    = Host.gather gather_S32000x128_S10000x1_S10000x128_1_0_n_n_0_1_1128 (W (Proc.devRef .tc main_arg6)) (nodeCol (W (Proc.devRef .tc main_arg0))) := by
  after_results_simp; rfl

set_option maxHeartbeats 1000000 in

theorem host0_v15 : StableHlo.after (hostOps0 (F := F)) W (Proc.devRef .tc main_v15)
    = Host.gather gather_S32000x128_S10000x1_S10000x128_1_0_n_n_0_1_1128 (W (Proc.devRef .tc main_arg6)) (nodeCol (W (Proc.devRef .tc main_arg1))) := by
  after_results_simp; rfl

set_option maxHeartbeats 1000000 in

theorem host0_v17 : StableHlo.after (hostOps0 (F := F)) W (Proc.devRef .tc main_v17)
    = truncf .bf16 (extractStridedSlice S128x128 ![0, 0] (W (Proc.devRef .tc main_arg8)) slices_S384x128_S128x128_0_0) bitsLt_bf16_f32 := by
  after_results_simp

set_option maxHeartbeats 1000000 in

theorem host0_v19 : StableHlo.after (hostOps0 (F := F)) W (Proc.devRef .tc main_v19)
    = truncf .bf16 (extractStridedSlice S128x128 ![128, 0] (W (Proc.devRef .tc main_arg8)) slices_S384x128_S128x128_128_0) bitsLt_bf16_f32 := by
  after_results_simp

set_option maxHeartbeats 1000000 in

theorem host0_v25 : StableHlo.after (hostOps0 (F := F)) W (Proc.devRef .tc main_v25)
    = truncf .bf16
        (addf
          (Host.dotGeneral dot_S20x128_S128x128_S20x128_1_0_0_1_n_n none (W (Proc.devRef .tc main_arg7))
            (extractStridedSlice S128x128 ![256, 0] (W (Proc.devRef .tc main_arg8)) slices_S384x128_S128x128_256_0))
          (broadcastInDim S20x128 ![0, 1] bcast_S1x128_S20x128_0_1
            (broadcastInDim S1x128 ![1] bcast_S128_S1x128_1 (W (Proc.devRef .tc main_arg9)))))
        bitsLt_bf16_f32 := by
  after_results_simp

set_option maxHeartbeats 1000000 in

theorem host0_v26 : StableHlo.after (hostOps0 (F := F)) W (Proc.devRef .tc main_v26)
    = truncf .bf16 (StableHlo.after (hostOps0 (F := F)) W (Proc.devRef .tc main_v7)) bitsLt_bf16_f32 := by
  after_results_simp

set_option maxHeartbeats 1000000 in

theorem host0_v27 : StableHlo.after (hostOps0 (F := F)) W (Proc.devRef .tc main_v27)
    = truncf .bf16 (StableHlo.after (hostOps0 (F := F)) W (Proc.devRef .tc main_v15)) bitsLt_bf16_f32 := by
  after_results_simp

set_option maxHeartbeats 1000000 in

theorem host0_v38 : StableHlo.after (hostOps0 (F := F)) W (Proc.devRef .tc main_v38)
    = Host.gather gather_S10000x128_S160000x1_S160000x128_1_0_n_n_0_1_1128
        (StableHlo.after (hostOps0 (F := F)) W (Proc.devRef .tc main_v26)) (edgeCol (edgeRow1 (W (Proc.devRef .tc main_arg2)))) := by
  after_results_simp; rfl

set_option maxHeartbeats 1000000 in

theorem host0_v45 : StableHlo.after (hostOps0 (F := F)) W (Proc.devRef .tc main_v45)
    = Host.gather gather_S10000x128_S160000x1_S160000x128_1_0_n_n_0_1_1128
        (StableHlo.after (hostOps0 (F := F)) W (Proc.devRef .tc main_v26)) (edgeCol (edgeRow0 (W (Proc.devRef .tc main_arg2)))) := by
  after_results_simp; rfl

end Structural

section Exact

variable (W : Valuation τ sig (Elt Ideal))

abbrev h0_E : S20x128.Idx → EReal := W (Proc.devRef .tc main_arg7)

abbrev h0_W : S384x128.Idx → EReal := W (Proc.devRef .tc main_arg8)

abbrev h0_b : S128.Idx → EReal := W (Proc.devRef .tc main_arg9)

abbrev h0_wdst : S128x128.Idx → EReal := StableHlo.after (hostOps0 (F := Ideal)) W (Proc.devRef .tc main_v17)

abbrev h0_wsrc : S128x128.Idx → EReal := StableHlo.after (hostOps0 (F := Ideal)) W (Proc.devRef .tc main_v19)

abbrev h0_tab : S20x128.Idx → EReal := StableHlo.after (hostOps0 (F := Ideal)) W (Proc.devRef .tc main_v25)

abbrev h0_x1 : S10000x128.Idx → EReal := StableHlo.after (hostOps0 (F := Ideal)) W (Proc.devRef .tc main_v7)
abbrev h0_x2 : S10000x128.Idx → EReal := StableHlo.after (hostOps0 (F := Ideal)) W (Proc.devRef .tc main_v15)

abbrev h0_x1n : S10000x128.Idx → EReal := StableHlo.after (hostOps0 (F := Ideal)) W (Proc.devRef .tc main_v26)
abbrev h0_x2n : S10000x128.Idx → EReal := StableHlo.after (hostOps0 (F := Ideal)) W (Proc.devRef .tc main_v27)

abbrev h0_xdst : S160000x128.Idx → EReal := StableHlo.after (hostOps0 (F := Ideal)) W (Proc.devRef .tc main_v38)
abbrev h0_xsrc : S160000x128.Idx → EReal := StableHlo.after (hostOps0 (F := Ideal)) W (Proc.devRef .tc main_v45)

theorem host0_v17_apply (k d : Fin 128) :
    h0_wdst W (ix2 k d) = h0_W W (ix2 (⟨k.val, by omega⟩ : Fin 384) d) := by
  show (StableHlo.after (hostOps0 (F := Ideal)) W (Proc.devRef .tc main_v17)) (ix2 k d) = _
  rw [host0_v17]
  show extractStridedSlice S128x128 ![0, 0] (W (Proc.devRef .tc main_arg8)) slices_S384x128_S128x128_0_0 (ix2 k d) = _
  exact extractStridedSlice_apply ![0, 0] _ slices_S384x128_S128x128_0_0 (ix2 k d) (ix2 (⟨k.val, by omega⟩ : Fin 384) d) (fun a => match a with
    | ⟨0, _⟩ => by show k.val = 0 + k.val; omega
    | ⟨1, _⟩ => by show d.val = 0 + d.val; omega)

theorem host0_v19_apply (k d : Fin 128) :
    h0_wsrc W (ix2 k d) = h0_W W (ix2 (⟨128 + k.val, by omega⟩ : Fin 384) d) := by
  show (StableHlo.after (hostOps0 (F := Ideal)) W (Proc.devRef .tc main_v19)) (ix2 k d) = _
  rw [host0_v19]
  show extractStridedSlice S128x128 ![128, 0] (W (Proc.devRef .tc main_arg8)) slices_S384x128_S128x128_128_0 (ix2 k d) = _
  exact extractStridedSlice_apply ![128, 0] _ slices_S384x128_S128x128_128_0 (ix2 k d) (ix2 (⟨128 + k.val, by omega⟩ : Fin 384) d) (fun a => match a with
    | ⟨0, _⟩ => by show 128 + k.val = 128 + k.val; rfl
    | ⟨1, _⟩ => by show d.val = 0 + d.val; omega)

theorem lhs_v21_0 (i : S20x128.Idx) (q : dot_S20x128_S128x128_S20x128_1_0_0_1_n_n.contr.Idx) :
    (dot_S20x128_S128x128_S20x128_1_0_0_1_n_n.lhsIdx i q 0).val = (i 0).val := by
  unfold DotDims.lhsIdx
  rw [dif_neg (show ¬(0 : Fin S20x128.rank) ∈ dot_S20x128_S128x128_S20x128_1_0_0_1_n_n.lhsBatch by decide), dif_pos (show (0 : Fin S20x128.rank) ∈ dot_S20x128_S128x128_S20x128_1_0_0_1_n_n.lhsNonContracting by decide)]
  rfl
theorem lhs_v21_1 (i : S20x128.Idx) (q : dot_S20x128_S128x128_S20x128_1_0_0_1_n_n.contr.Idx) :
    (dot_S20x128_S128x128_S20x128_1_0_0_1_n_n.lhsIdx i q 1).val = (q ⟨0, by decide⟩).val :=
  dot_S20x128_S128x128_S20x128_1_0_0_1_n_n.lhsIdx_val_of_single rfl i q
theorem rhs_v21_0 (i : S20x128.Idx) (q : dot_S20x128_S128x128_S20x128_1_0_0_1_n_n.contr.Idx) :
    (dot_S20x128_S128x128_S20x128_1_0_0_1_n_n.rhsIdx i q 0).val = (q ⟨0, by decide⟩).val :=
  dot_S20x128_S128x128_S20x128_1_0_0_1_n_n.rhsIdx_val_of_single rfl i q
theorem rhs_v21_1 (i : S20x128.Idx) (q : dot_S20x128_S128x128_S20x128_1_0_0_1_n_n.contr.Idx) :
    (dot_S20x128_S128x128_S20x128_1_0_0_1_n_n.rhsIdx i q 1).val = (i 1).val := by
  unfold DotDims.rhsIdx
  rw [dif_neg (show ¬(1 : Fin S128x128.rank) ∈ dot_S20x128_S128x128_S20x128_1_0_0_1_n_n.rhsBatch by decide), dif_pos (show (1 : Fin S128x128.rank) ∈ dot_S20x128_S128x128_S20x128_1_0_0_1_n_n.rhsNonContracting by decide)]
  rfl

theorem dot_v21_apply (A : FVec Ideal S20x128 .f32) (B : FVec Ideal S128x128 .f32) (j : Fin 20) (d : Fin 128) :
    (Host.dotGeneral dot_S20x128_S128x128_S20x128_1_0_0_1_n_n none A B : FVec Ideal S20x128 .f32) (ix2 j d)
      = ∑ k : Fin 128, (A (ix2 j k) : EReal) * (B (ix2 k d) : EReal) := by
  simp only [Host.dotGeneral]
  rw [Ideal.dotGeneral_apply, ← Equiv.sum_comp (ValueIdx.contrEquiv1 dot_S20x128_S128x128_S20x128_1_0_0_1_n_n 128 rfl rfl).symm]
  refine Finset.sum_congr rfl fun k _ => ?_
  have hk := ValueIdx.contrEquiv1_symm_val dot_S20x128_S128x128_S20x128_1_0_0_1_n_n 128 rfl rfl k
  have el : dot_S20x128_S128x128_S20x128_1_0_0_1_n_n.lhsIdx (ix2 j d) ((ValueIdx.contrEquiv1 dot_S20x128_S128x128_S20x128_1_0_0_1_n_n 128 rfl rfl).symm k) = ix2 j k := funext fun a => Fin.ext (by
    match a with
    | ⟨0, _⟩ => exact lhs_v21_0 _ _
    | ⟨1, _⟩ => exact (lhs_v21_1 _ _).trans hk)
  have er : dot_S20x128_S128x128_S20x128_1_0_0_1_n_n.rhsIdx (ix2 j d) ((ValueIdx.contrEquiv1 dot_S20x128_S128x128_S20x128_1_0_0_1_n_n 128 rfl rfl).symm k) = ix2 k d := funext fun a => Fin.ext (by
    match a with
    | ⟨0, _⟩ => exact (rhs_v21_0 _ _).trans hk
    | ⟨1, _⟩ => exact rhs_v21_1 _ _)
  rw [el, er]

theorem slice256_apply (x : S384x128.Idx → EReal) (k d : Fin 128) :
    extractStridedSlice S128x128 ![256, 0] x slices_S384x128_S128x128_256_0 (ix2 k d) = x (ix2 (⟨256 + k.val, by omega⟩ : Fin 384) d) :=
  extractStridedSlice_apply ![256, 0] x slices_S384x128_S128x128_256_0 (ix2 k d) (ix2 (⟨256 + k.val, by omega⟩ : Fin 384) d) (fun a => match a with
    | ⟨0, _⟩ => by show 256 + k.val = 256 + k.val; rfl
    | ⟨1, _⟩ => by show d.val = 0 + d.val; omega)

theorem biasRows_apply (x : S128.Idx → EReal) (j : Fin 20) (d : Fin 128) :
    broadcastInDim S20x128 ![0, 1] bcast_S1x128_S20x128_0_1 (broadcastInDim S1x128 ![1] bcast_S128_S1x128_1 x) (ix2 j d) = x (ix1 d) := by
  rw [broadcastInDim_apply ![0, 1] bcast_S1x128_S20x128_0_1 _ (ix2 j d) (ix2 (0 : Fin 1) d) (fun a => match a with
      | ⟨0, _⟩ => by show (0 : Nat) = if (1 : Nat) = 1 then 0 else j.val; rw [if_pos rfl]
      | ⟨1, _⟩ => by show d.val = if (128 : Nat) = 1 then 0 else d.val; rw [if_neg (by decide)])]
  exact broadcastInDim_apply ![1] bcast_S128_S1x128_1 x (ix2 (0 : Fin 1) d) (ix1 d) (fun a => match a with
    | ⟨0, _⟩ => by show d.val = if (128 : Nat) = 1 then 0 else d.val; rw [if_neg (by decide)])

theorem host0_v25_apply (j : Fin 20) (d : Fin 128) :
    h0_tab W (ix2 j d)
      = (∑ k : Fin 128, h0_E W (ix2 j k) * h0_W W (ix2 (⟨256 + k.val, by omega⟩ : Fin 384) d)) + h0_b W (ix1 d) := by
  show (StableHlo.after (hostOps0 (F := Ideal)) W (Proc.devRef .tc main_v25)) (ix2 j d) = _
  rw [host0_v25]
  have h1 := dot_v21_apply (W (Proc.devRef .tc main_arg7))
    (extractStridedSlice S128x128 ![256, 0] (W (Proc.devRef .tc main_arg8)) slices_S384x128_S128x128_256_0) j d
  have h2 := biasRows_apply (W (Proc.devRef .tc main_arg9)) j d
  show (Host.dotGeneral dot_S20x128_S128x128_S20x128_1_0_0_1_n_n none (W (Proc.devRef .tc main_arg7))
          (extractStridedSlice S128x128 ![256, 0] (W (Proc.devRef .tc main_arg8)) slices_S384x128_S128x128_256_0) : FVec Ideal S20x128 .f32) (ix2 j d)
        + broadcastInDim S20x128 ![0, 1] bcast_S1x128_S20x128_0_1
            (broadcastInDim S1x128 ![1] bcast_S128_S1x128_1 (W (Proc.devRef .tc main_arg9))) (ix2 j d) = _
  rw [h1, h2]
  refine congrArg (· + _) (Finset.sum_congr rfl fun k _ => ?_)
  show h0_E W (ix2 j k) * extractStridedSlice S128x128 ![256, 0] (h0_W W) slices_S384x128_S128x128_256_0 (ix2 k d) = _
  rw [slice256_apply]

theorem host0_v26_apply (i : S10000x128.Idx) : h0_x1n W i = h0_x1 W i := by
  show (StableHlo.after (hostOps0 (F := Ideal)) W (Proc.devRef .tc main_v26)) i = _
  rw [host0_v26]; rfl

theorem host0_v27_apply (i : S10000x128.Idx) : h0_x2n W i = h0_x2 W i := by
  show (StableHlo.after (hostOps0 (F := Ideal)) W (Proc.devRef .tc main_v27)) i = _
  rw [host0_v27]; rfl

theorem host0_v26_fun : h0_x1n W = h0_x1 W := funext (host0_v26_apply W)
theorem host0_v27_fun : h0_x2n W = h0_x2 W := funext (host0_v27_apply W)

theorem host0_v38_exact : h0_xdst W
    = Host.gather gather_S10000x128_S160000x1_S160000x128_1_0_n_n_0_1_1128 (h0_x1 W) (edgeCol (F := Ideal) (edgeRow1 (W (Proc.devRef .tc main_arg2)))) := by
  show StableHlo.after (hostOps0 (F := Ideal)) W (Proc.devRef .tc main_v38) = _
  rw [host0_v38, host0_v26]; rfl
theorem host0_v45_exact : h0_xsrc W
    = Host.gather gather_S10000x128_S160000x1_S160000x128_1_0_n_n_0_1_1128 (h0_x1 W) (edgeCol (F := Ideal) (edgeRow0 (W (Proc.devRef .tc main_arg2)))) := by
  show StableHlo.after (hostOps0 (F := Ideal)) W (Proc.devRef .tc main_v45) = _
  rw [host0_v45, host0_v26]; rfl

end Exact

end Cert.KernelIdeal.Val
-- ==== Proof.RefRead.lean ====
import proofs.«407386_j15839839387945_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

-- The sixteen arguments of the program, named once for every stage below.
variable (x0 x1 : (⟨S10000x1, .i32⟩ : BufTy).Contents (Elt F)) (x2 x3 : (⟨S2x160000, .i32⟩ : BufTy).Contents (Elt F))
  (x4 x5 : (⟨S160000x1, .i32⟩ : BufTy).Contents (Elt F)) (x6 : (⟨S32000x128, .f32⟩ : BufTy).Contents (Elt F))
  (x7 : (⟨S20x128, .f32⟩ : BufTy).Contents (Elt F)) (x8 : (⟨S384x128, .f32⟩ : BufTy).Contents (Elt F))
  (x9 : (⟨S128, .f32⟩ : BufTy).Contents (Elt F)) (x10 : (⟨S256x384, .f32⟩ : BufTy).Contents (Elt F))
  (x11 : (⟨S384, .f32⟩ : BufTy).Contents (Elt F)) (x12 : (⟨S128x384, .f32⟩ : BufTy).Contents (Elt F))
  (x13 : (⟨S384, .f32⟩ : BufTy).Contents (Elt F)) (x14 : (⟨S128x1, .f32⟩ : BufTy).Contents (Elt F))
  (x15 : (⟨S1, .f32⟩ : BufTy).Contents (Elt F))

def val_main_v0 : (⟨S10000, .i32⟩ : BufTy).Contents (Elt F) :=
  shapeCast _ (x0) shapeCasts_S10000x1_S10000

def val_main_c : (⟨S_, .i32⟩ : BufTy).Contents (Elt F) :=
  constantI S_ 32 0#32

def val_main_v1 : (⟨S10000, .i32⟩ : BufTy).Contents (Elt F) :=
  broadcastInDim S10000 ![] bcast_S_S10000 (val_main_c (F := F))

def val_main_v2 : (⟨S10000, .i1⟩ : BufTy).Contents (Elt F) :=
  cmpi .slt (val_main_v0 (F := F) x0) (val_main_v1 (F := F))

def val_main_c_0 : (⟨S_, .i32⟩ : BufTy).Contents (Elt F) :=
  constantI S_ 32 32000#32

def val_main_v3 : (⟨S10000, .i32⟩ : BufTy).Contents (Elt F) :=
  broadcastInDim S10000 ![] bcast_S_S10000 (val_main_c_0 (F := F))

def val_main_v4 : (⟨S10000, .i32⟩ : BufTy).Contents (Elt F) :=
  addi (val_main_v0 (F := F) x0) (val_main_v3 (F := F))

def val_main_v5 : (⟨S10000, .i32⟩ : BufTy).Contents (Elt F) :=
  select (val_main_v2 (F := F) x0) (val_main_v4 (F := F) x0) (val_main_v0 (F := F) x0)

def val_main_v6 : (⟨S10000x1, .i32⟩ : BufTy).Contents (Elt F) :=
  broadcastInDim S10000x1 ![0] bcast_S10000_S10000x1_0 (val_main_v5 (F := F) x0)

def val_main_v7 : (⟨S10000x128, .f32⟩ : BufTy).Contents (Elt F) :=
  Host.gather gather_S32000x128_S10000x1_S10000x128_1_0_n_n_0_1_1128 (x6) (val_main_v6 (F := F) x0)

def val_main_v8 : (⟨S10000, .i32⟩ : BufTy).Contents (Elt F) :=
  shapeCast _ (x1) shapeCasts_S10000x1_S10000

def val_main_c_1 : (⟨S_, .i32⟩ : BufTy).Contents (Elt F) :=
  constantI S_ 32 0#32

def val_main_v9 : (⟨S10000, .i32⟩ : BufTy).Contents (Elt F) :=
  broadcastInDim S10000 ![] bcast_S_S10000 (val_main_c_1 (F := F))

def val_main_v10 : (⟨S10000, .i1⟩ : BufTy).Contents (Elt F) :=
  cmpi .slt (val_main_v8 (F := F) x1) (val_main_v9 (F := F))

def val_main_c_2 : (⟨S_, .i32⟩ : BufTy).Contents (Elt F) :=
  constantI S_ 32 32000#32

def val_main_v11 : (⟨S10000, .i32⟩ : BufTy).Contents (Elt F) :=
  broadcastInDim S10000 ![] bcast_S_S10000 (val_main_c_2 (F := F))

def val_main_v12 : (⟨S10000, .i32⟩ : BufTy).Contents (Elt F) :=
  addi (val_main_v8 (F := F) x1) (val_main_v11 (F := F))

def val_main_v13 : (⟨S10000, .i32⟩ : BufTy).Contents (Elt F) :=
  select (val_main_v10 (F := F) x1) (val_main_v12 (F := F) x1) (val_main_v8 (F := F) x1)

def val_main_v14 : (⟨S10000x1, .i32⟩ : BufTy).Contents (Elt F) :=
  broadcastInDim S10000x1 ![0] bcast_S10000_S10000x1_0 (val_main_v13 (F := F) x1)

def val_main_v15 : (⟨S10000x128, .f32⟩ : BufTy).Contents (Elt F) :=
  Host.gather gather_S32000x128_S10000x1_S10000x128_1_0_n_n_0_1_1128 (x6) (val_main_v14 (F := F) x1)

def val_main_v16 : (⟨S160000, .i32⟩ : BufTy).Contents (Elt F) :=
  shapeCast _ (x4) shapeCasts_S160000x1_S160000

def val_main_c_3 : (⟨S_, .i32⟩ : BufTy).Contents (Elt F) :=
  constantI S_ 32 0#32

def val_main_v17 : (⟨S160000, .i32⟩ : BufTy).Contents (Elt F) :=
  broadcastInDim S160000 ![] bcast_S_S160000 (val_main_c_3 (F := F))

def val_main_v18 : (⟨S160000, .i1⟩ : BufTy).Contents (Elt F) :=
  cmpi .slt (val_main_v16 (F := F) x4) (val_main_v17 (F := F))

def val_main_c_4 : (⟨S_, .i32⟩ : BufTy).Contents (Elt F) :=
  constantI S_ 32 20#32

def val_main_v19 : (⟨S160000, .i32⟩ : BufTy).Contents (Elt F) :=
  broadcastInDim S160000 ![] bcast_S_S160000 (val_main_c_4 (F := F))

def val_main_v20 : (⟨S160000, .i32⟩ : BufTy).Contents (Elt F) :=
  addi (val_main_v16 (F := F) x4) (val_main_v19 (F := F))

def val_main_v21 : (⟨S160000, .i32⟩ : BufTy).Contents (Elt F) :=
  select (val_main_v18 (F := F) x4) (val_main_v20 (F := F) x4) (val_main_v16 (F := F) x4)

def val_main_v22 : (⟨S160000x1, .i32⟩ : BufTy).Contents (Elt F) :=
  broadcastInDim S160000x1 ![0] bcast_S160000_S160000x1_0 (val_main_v21 (F := F) x4)

def val_main_v23 : (⟨S160000x128, .f32⟩ : BufTy).Contents (Elt F) :=
  Host.gather gather_S20x128_S160000x1_S160000x128_1_0_n_n_0_1_1128 (x7) (val_main_v22 (F := F) x4)

def val_main_v24 : (⟨S160000, .i32⟩ : BufTy).Contents (Elt F) :=
  shapeCast _ (x5) shapeCasts_S160000x1_S160000

def val_main_c_5 : (⟨S_, .i32⟩ : BufTy).Contents (Elt F) :=
  constantI S_ 32 0#32

def val_main_v25 : (⟨S160000, .i32⟩ : BufTy).Contents (Elt F) :=
  broadcastInDim S160000 ![] bcast_S_S160000 (val_main_c_5 (F := F))

def val_main_v26 : (⟨S160000, .i1⟩ : BufTy).Contents (Elt F) :=
  cmpi .slt (val_main_v24 (F := F) x5) (val_main_v25 (F := F))

def val_main_c_6 : (⟨S_, .i32⟩ : BufTy).Contents (Elt F) :=
  constantI S_ 32 20#32

def val_main_v27 : (⟨S160000, .i32⟩ : BufTy).Contents (Elt F) :=
  broadcastInDim S160000 ![] bcast_S_S160000 (val_main_c_6 (F := F))

def val_main_v28 : (⟨S160000, .i32⟩ : BufTy).Contents (Elt F) :=
  addi (val_main_v24 (F := F) x5) (val_main_v27 (F := F))

def val_main_v29 : (⟨S160000, .i32⟩ : BufTy).Contents (Elt F) :=
  select (val_main_v26 (F := F) x5) (val_main_v28 (F := F) x5) (val_main_v24 (F := F) x5)

def val_main_v30 : (⟨S160000x1, .i32⟩ : BufTy).Contents (Elt F) :=
  broadcastInDim S160000x1 ![0] bcast_S160000_S160000x1_0 (val_main_v29 (F := F) x5)

def val_main_v31 : (⟨S160000x128, .f32⟩ : BufTy).Contents (Elt F) :=
  Host.gather gather_S20x128_S160000x1_S160000x128_1_0_n_n_0_1_1128 (x7) (val_main_v30 (F := F) x5)

def val_main_v32 : (⟨S1x160000, .i32⟩ : BufTy).Contents (Elt F) :=
  extractStridedSlice S1x160000 ![0, 0] (x2) slices_S2x160000_S1x160000_0_0

def val_main_v33 : (⟨S160000, .i32⟩ : BufTy).Contents (Elt F) :=
  shapeCast _ (val_main_v32 (F := F) x2) shapeCasts_S1x160000_S160000

def val_main_v34 : (⟨S1x160000, .i32⟩ : BufTy).Contents (Elt F) :=
  extractStridedSlice S1x160000 ![1, 0] (x2) slices_S2x160000_S1x160000_1_0

def val_main_v35 : (⟨S160000, .i32⟩ : BufTy).Contents (Elt F) :=
  shapeCast _ (val_main_v34 (F := F) x2) shapeCasts_S1x160000_S160000

def val_main_c_7 : (⟨S_, .i32⟩ : BufTy).Contents (Elt F) :=
  constantI S_ 32 0#32

def val_main_v36 : (⟨S160000, .i32⟩ : BufTy).Contents (Elt F) :=
  broadcastInDim S160000 ![] bcast_S_S160000 (val_main_c_7 (F := F))

def val_main_v37 : (⟨S160000, .i1⟩ : BufTy).Contents (Elt F) :=
  cmpi .slt (val_main_v35 (F := F) x2) (val_main_v36 (F := F))

def val_main_c_8 : (⟨S_, .i32⟩ : BufTy).Contents (Elt F) :=
  constantI S_ 32 10000#32

def val_main_v38 : (⟨S160000, .i32⟩ : BufTy).Contents (Elt F) :=
  broadcastInDim S160000 ![] bcast_S_S160000 (val_main_c_8 (F := F))

def val_main_v39 : (⟨S160000, .i32⟩ : BufTy).Contents (Elt F) :=
  addi (val_main_v35 (F := F) x2) (val_main_v38 (F := F))

def val_main_v40 : (⟨S160000, .i32⟩ : BufTy).Contents (Elt F) :=
  select (val_main_v37 (F := F) x2) (val_main_v39 (F := F) x2) (val_main_v35 (F := F) x2)

def val_main_v41 : (⟨S160000x1, .i32⟩ : BufTy).Contents (Elt F) :=
  broadcastInDim S160000x1 ![0] bcast_S160000_S160000x1_0 (val_main_v40 (F := F) x2)

def val_main_v42 : (⟨S160000x128, .f32⟩ : BufTy).Contents (Elt F) :=
  Host.gather gather_S10000x128_S160000x1_S160000x128_1_0_n_n_0_1_1128 (val_main_v7 (F := F) x0 x6) (val_main_v41 (F := F) x2)

def val_main_c_9 : (⟨S_, .i32⟩ : BufTy).Contents (Elt F) :=
  constantI S_ 32 0#32

def val_main_v43 : (⟨S160000, .i32⟩ : BufTy).Contents (Elt F) :=
  broadcastInDim S160000 ![] bcast_S_S160000 (val_main_c_9 (F := F))

def val_main_v44 : (⟨S160000, .i1⟩ : BufTy).Contents (Elt F) :=
  cmpi .slt (val_main_v33 (F := F) x2) (val_main_v43 (F := F))

def val_main_c_10 : (⟨S_, .i32⟩ : BufTy).Contents (Elt F) :=
  constantI S_ 32 10000#32

def val_main_v45 : (⟨S160000, .i32⟩ : BufTy).Contents (Elt F) :=
  broadcastInDim S160000 ![] bcast_S_S160000 (val_main_c_10 (F := F))

def val_main_v46 : (⟨S160000, .i32⟩ : BufTy).Contents (Elt F) :=
  addi (val_main_v33 (F := F) x2) (val_main_v45 (F := F))

def val_main_v47 : (⟨S160000, .i32⟩ : BufTy).Contents (Elt F) :=
  select (val_main_v44 (F := F) x2) (val_main_v46 (F := F) x2) (val_main_v33 (F := F) x2)

def val_main_v48 : (⟨S160000x1, .i32⟩ : BufTy).Contents (Elt F) :=
  broadcastInDim S160000x1 ![0] bcast_S160000_S160000x1_0 (val_main_v47 (F := F) x2)

def val_main_v49 : (⟨S160000x128, .f32⟩ : BufTy).Contents (Elt F) :=
  Host.gather gather_S10000x128_S160000x1_S160000x128_1_0_n_n_0_1_1128 (val_main_v7 (F := F) x0 x6) (val_main_v48 (F := F) x2)

def val_main_v50 : (⟨S160000x384, .f32⟩ : BufTy).Contents (Elt F) :=
  concatenate S160000x384 1 [⟨S160000x128, (val_main_v42 (F := F) x0 x2 x6)⟩, ⟨S160000x128, (val_main_v49 (F := F) x0 x2 x6)⟩, ⟨S160000x128, (val_main_v23 (F := F) x4 x7)⟩] concatenates_S160000x128_S160000x128_S160000x128_S160000x384_d1

def val_main_v51 : (⟨S160000x128, .f32⟩ : BufTy).Contents (Elt F) :=
  Host.dotGeneral dot_S160000x384_S384x128_S160000x128_1_0_0_1_n_n none (val_main_v50 (F := F) x0 x2 x4 x6 x7) (x8)

def val_main_v52 : (⟨S1x128, .f32⟩ : BufTy).Contents (Elt F) :=
  broadcastInDim S1x128 ![1] bcast_S128_S1x128_1 (x9)

def val_main_v53 : (⟨S160000x128, .f32⟩ : BufTy).Contents (Elt F) :=
  broadcastInDim S160000x128 ![0, 1] bcast_S1x128_S160000x128_0_1 (val_main_v52 (F := F) x9)

def val_main_v54 : (⟨S160000x128, .f32⟩ : BufTy).Contents (Elt F) :=
  addf (val_main_v51 (F := F) x0 x2 x4 x6 x7 x8) (val_main_v53 (F := F) x9)

def val_main_call0_cst : (⟨S_, .f32⟩ : BufTy).Contents (Elt F) :=
  constant S_ .f32 0x00000000#32

def val_main_call0_v0 : (⟨S160000x128, .f32⟩ : BufTy).Contents (Elt F) :=
  broadcastInDim S160000x128 ![] bcast_S_S160000x128 (val_main_call0_cst (F := F))

def val_main_v55 : (⟨S160000x128, .f32⟩ : BufTy).Contents (Elt F) :=
  maximumf (val_main_v54 (F := F) x0 x2 x4 x6 x7 x8 x9) (val_main_call0_v0 (F := F))

def val_main_cst : (⟨S_, .f32⟩ : BufTy).Contents (Elt F) :=
  constant S_ .f32 0x00000000#32

def val_main_v56 : (⟨S10000x128, .f32⟩ : BufTy).Contents (Elt F) :=
  broadcastInDim S10000x128 ![] bcast_S_S10000x128 (val_main_cst (F := F))

def val_main_v57 : (⟨S160000x1, .i32⟩ : BufTy).Contents (Elt F) :=
  broadcastInDim S160000x1 ![0] bcast_S160000_S160000x1_0 (val_main_v35 (F := F) x2)

def val_main_v58 : (⟨S10000x128, .f32⟩ : BufTy).Contents (Elt F) :=
  Host.scatterAdd scatter_S10000x128_S160000x1_S160000x128_1_0_0_1 (val_main_v56 (F := F)) (val_main_v57 (F := F) x2) (val_main_v55 (F := F) x0 x2 x4 x6 x7 x8 x9)

def val_main_v59 : (⟨S1x160000, .i32⟩ : BufTy).Contents (Elt F) :=
  extractStridedSlice S1x160000 ![0, 0] (x3) slices_S2x160000_S1x160000_0_0

def val_main_v60 : (⟨S160000, .i32⟩ : BufTy).Contents (Elt F) :=
  shapeCast _ (val_main_v59 (F := F) x3) shapeCasts_S1x160000_S160000

def val_main_v61 : (⟨S1x160000, .i32⟩ : BufTy).Contents (Elt F) :=
  extractStridedSlice S1x160000 ![1, 0] (x3) slices_S2x160000_S1x160000_1_0

def val_main_v62 : (⟨S160000, .i32⟩ : BufTy).Contents (Elt F) :=
  shapeCast _ (val_main_v61 (F := F) x3) shapeCasts_S1x160000_S160000

def val_main_c_11 : (⟨S_, .i32⟩ : BufTy).Contents (Elt F) :=
  constantI S_ 32 0#32

def val_main_v63 : (⟨S160000, .i32⟩ : BufTy).Contents (Elt F) :=
  broadcastInDim S160000 ![] bcast_S_S160000 (val_main_c_11 (F := F))

def val_main_v64 : (⟨S160000, .i1⟩ : BufTy).Contents (Elt F) :=
  cmpi .slt (val_main_v62 (F := F) x3) (val_main_v63 (F := F))

def val_main_c_12 : (⟨S_, .i32⟩ : BufTy).Contents (Elt F) :=
  constantI S_ 32 10000#32

def val_main_v65 : (⟨S160000, .i32⟩ : BufTy).Contents (Elt F) :=
  broadcastInDim S160000 ![] bcast_S_S160000 (val_main_c_12 (F := F))

def val_main_v66 : (⟨S160000, .i32⟩ : BufTy).Contents (Elt F) :=
  addi (val_main_v62 (F := F) x3) (val_main_v65 (F := F))

def val_main_v67 : (⟨S160000, .i32⟩ : BufTy).Contents (Elt F) :=
  select (val_main_v64 (F := F) x3) (val_main_v66 (F := F) x3) (val_main_v62 (F := F) x3)

def val_main_v68 : (⟨S160000x1, .i32⟩ : BufTy).Contents (Elt F) :=
  broadcastInDim S160000x1 ![0] bcast_S160000_S160000x1_0 (val_main_v67 (F := F) x3)

def val_main_v69 : (⟨S160000x128, .f32⟩ : BufTy).Contents (Elt F) :=
  Host.gather gather_S10000x128_S160000x1_S160000x128_1_0_n_n_0_1_1128 (val_main_v15 (F := F) x1 x6) (val_main_v68 (F := F) x3)

def val_main_c_13 : (⟨S_, .i32⟩ : BufTy).Contents (Elt F) :=
  constantI S_ 32 0#32

def val_main_v70 : (⟨S160000, .i32⟩ : BufTy).Contents (Elt F) :=
  broadcastInDim S160000 ![] bcast_S_S160000 (val_main_c_13 (F := F))

def val_main_v71 : (⟨S160000, .i1⟩ : BufTy).Contents (Elt F) :=
  cmpi .slt (val_main_v60 (F := F) x3) (val_main_v70 (F := F))

def val_main_c_14 : (⟨S_, .i32⟩ : BufTy).Contents (Elt F) :=
  constantI S_ 32 10000#32

def val_main_v72 : (⟨S160000, .i32⟩ : BufTy).Contents (Elt F) :=
  broadcastInDim S160000 ![] bcast_S_S160000 (val_main_c_14 (F := F))

def val_main_v73 : (⟨S160000, .i32⟩ : BufTy).Contents (Elt F) :=
  addi (val_main_v60 (F := F) x3) (val_main_v72 (F := F))

def val_main_v74 : (⟨S160000, .i32⟩ : BufTy).Contents (Elt F) :=
  select (val_main_v71 (F := F) x3) (val_main_v73 (F := F) x3) (val_main_v60 (F := F) x3)

def val_main_v75 : (⟨S160000x1, .i32⟩ : BufTy).Contents (Elt F) :=
  broadcastInDim S160000x1 ![0] bcast_S160000_S160000x1_0 (val_main_v74 (F := F) x3)

def val_main_v76 : (⟨S160000x128, .f32⟩ : BufTy).Contents (Elt F) :=
  Host.gather gather_S10000x128_S160000x1_S160000x128_1_0_n_n_0_1_1128 (val_main_v15 (F := F) x1 x6) (val_main_v75 (F := F) x3)

def val_main_v77 : (⟨S160000x384, .f32⟩ : BufTy).Contents (Elt F) :=
  concatenate S160000x384 1 [⟨S160000x128, (val_main_v69 (F := F) x1 x3 x6)⟩, ⟨S160000x128, (val_main_v76 (F := F) x1 x3 x6)⟩, ⟨S160000x128, (val_main_v31 (F := F) x5 x7)⟩] concatenates_S160000x128_S160000x128_S160000x128_S160000x384_d1

def val_main_v78 : (⟨S160000x128, .f32⟩ : BufTy).Contents (Elt F) :=
  Host.dotGeneral dot_S160000x384_S384x128_S160000x128_1_0_0_1_n_n none (val_main_v77 (F := F) x1 x3 x5 x6 x7) (x8)

def val_main_v79 : (⟨S1x128, .f32⟩ : BufTy).Contents (Elt F) :=
  broadcastInDim S1x128 ![1] bcast_S128_S1x128_1 (x9)

def val_main_v80 : (⟨S160000x128, .f32⟩ : BufTy).Contents (Elt F) :=
  broadcastInDim S160000x128 ![0, 1] bcast_S1x128_S160000x128_0_1 (val_main_v79 (F := F) x9)

def val_main_v81 : (⟨S160000x128, .f32⟩ : BufTy).Contents (Elt F) :=
  addf (val_main_v78 (F := F) x1 x3 x5 x6 x7 x8) (val_main_v80 (F := F) x9)

def val_main_call1_cst : (⟨S_, .f32⟩ : BufTy).Contents (Elt F) :=
  constant S_ .f32 0x00000000#32

def val_main_call1_v0 : (⟨S160000x128, .f32⟩ : BufTy).Contents (Elt F) :=
  broadcastInDim S160000x128 ![] bcast_S_S160000x128 (val_main_call1_cst (F := F))

def val_main_v82 : (⟨S160000x128, .f32⟩ : BufTy).Contents (Elt F) :=
  maximumf (val_main_v81 (F := F) x1 x3 x5 x6 x7 x8 x9) (val_main_call1_v0 (F := F))

def val_main_cst_15 : (⟨S_, .f32⟩ : BufTy).Contents (Elt F) :=
  constant S_ .f32 0x00000000#32

def val_main_v83 : (⟨S10000x128, .f32⟩ : BufTy).Contents (Elt F) :=
  broadcastInDim S10000x128 ![] bcast_S_S10000x128 (val_main_cst_15 (F := F))

def val_main_v84 : (⟨S160000x1, .i32⟩ : BufTy).Contents (Elt F) :=
  broadcastInDim S160000x1 ![0] bcast_S160000_S160000x1_0 (val_main_v62 (F := F) x3)

def val_main_v85 : (⟨S10000x128, .f32⟩ : BufTy).Contents (Elt F) :=
  Host.scatterAdd scatter_S10000x128_S160000x1_S160000x128_1_0_0_1 (val_main_v83 (F := F)) (val_main_v84 (F := F) x3) (val_main_v82 (F := F) x1 x3 x5 x6 x7 x8 x9)

def val_main_v86 : (⟨S128x10000, .f32⟩ : BufTy).Contents (Elt F) :=
  transpose S128x10000 [1, 0] (val_main_v15 (F := F) x1 x6) transposes_S10000x128_S128x10000_1_0

def val_main_v87 : (⟨S10000x10000, .f32⟩ : BufTy).Contents (Elt F) :=
  Host.dotGeneral dot_S10000x128_S128x10000_S10000x10000_1_0_0_1_n_n none (val_main_v7 (F := F) x0 x6) (val_main_v86 (F := F) x1 x6)

def val_main_cst_16 : (⟨S_, .f32⟩ : BufTy).Contents (Elt F) :=
  constant S_ .f32 0xFF800000#32

def val_main_v88 : (⟨S10000, .f32⟩ : BufTy).Contents (Elt F) :=
  Host.reduce FloatOps.maximumf (val_main_v87 (F := F) x0 x1 x6) (val_main_cst_16 (F := F)) reducesTo_S10000x10000_S10000_d1 h_S_

def val_main_cst_17 : (⟨S_, .f32⟩ : BufTy).Contents (Elt F) :=
  constant S_ .f32 0xFF800000#32

def val_main_v89 : (⟨S10000, .f32⟩ : BufTy).Contents (Elt F) :=
  broadcastInDim S10000 ![] bcast_S_S10000 (val_main_cst_17 (F := F))

def val_main_v90 : (⟨S10000, .f32⟩ : BufTy).Contents (Elt F) :=
  maximumf (val_main_v89 (F := F)) (val_main_v88 (F := F) x0 x1 x6)

def val_main_v91 : (⟨S10000x1, .f32⟩ : BufTy).Contents (Elt F) :=
  broadcastInDim S10000x1 ![0] bcast_S10000_S10000x1_0 (val_main_v90 (F := F) x0 x1 x6)

def val_main_v92 : (⟨S10000x10000, .f32⟩ : BufTy).Contents (Elt F) :=
  broadcastInDim S10000x10000 ![0, 1] bcast_S10000x1_S10000x10000_0_1 (val_main_v91 (F := F) x0 x1 x6)

def val_main_v93 : (⟨S10000x10000, .f32⟩ : BufTy).Contents (Elt F) :=
  subf (val_main_v87 (F := F) x0 x1 x6) (val_main_v92 (F := F) x0 x1 x6)

def val_main_v94 : (⟨S10000x10000, .f32⟩ : BufTy).Contents (Elt F) :=
  Host.exp (val_main_v93 (F := F) x0 x1 x6)

def val_main_cst_18 : (⟨S_, .f32⟩ : BufTy).Contents (Elt F) :=
  constant S_ .f32 0x00000000#32

def val_main_v95 : (⟨S10000, .f32⟩ : BufTy).Contents (Elt F) :=
  Host.reduceAdd (val_main_v94 (F := F) x0 x1 x6) (val_main_cst_18 (F := F)) reducesTo_S10000x10000_S10000_d1 h_S_

def val_main_v96 : (⟨S10000x1, .f32⟩ : BufTy).Contents (Elt F) :=
  broadcastInDim S10000x1 ![0] bcast_S10000_S10000x1_0 (val_main_v95 (F := F) x0 x1 x6)

def val_main_v97 : (⟨S10000x10000, .f32⟩ : BufTy).Contents (Elt F) :=
  broadcastInDim S10000x10000 ![0, 1] bcast_S10000x1_S10000x10000_0_1 (val_main_v96 (F := F) x0 x1 x6)

def val_main_v98 : (⟨S10000x10000, .f32⟩ : BufTy).Contents (Elt F) :=
  Host.divf (val_main_v94 (F := F) x0 x1 x6) (val_main_v97 (F := F) x0 x1 x6)

def val_main_cst_19 : (⟨S_, .f32⟩ : BufTy).Contents (Elt F) :=
  constant S_ .f32 0xFF800000#32

def val_main_v99 : (⟨S10000, .f32⟩ : BufTy).Contents (Elt F) :=
  Host.reduce FloatOps.maximumf (val_main_v87 (F := F) x0 x1 x6) (val_main_cst_19 (F := F)) reducesTo_S10000x10000_S10000_d0 h_S_

def val_main_cst_20 : (⟨S_, .f32⟩ : BufTy).Contents (Elt F) :=
  constant S_ .f32 0xFF800000#32

def val_main_v100 : (⟨S10000, .f32⟩ : BufTy).Contents (Elt F) :=
  broadcastInDim S10000 ![] bcast_S_S10000 (val_main_cst_20 (F := F))

def val_main_v101 : (⟨S10000, .f32⟩ : BufTy).Contents (Elt F) :=
  maximumf (val_main_v100 (F := F)) (val_main_v99 (F := F) x0 x1 x6)

def val_main_v102 : (⟨S1x10000, .f32⟩ : BufTy).Contents (Elt F) :=
  broadcastInDim S1x10000 ![1] bcast_S10000_S1x10000_1 (val_main_v101 (F := F) x0 x1 x6)

def val_main_v103 : (⟨S10000x10000, .f32⟩ : BufTy).Contents (Elt F) :=
  broadcastInDim S10000x10000 ![0, 1] bcast_S1x10000_S10000x10000_0_1 (val_main_v102 (F := F) x0 x1 x6)

def val_main_v104 : (⟨S10000x10000, .f32⟩ : BufTy).Contents (Elt F) :=
  subf (val_main_v87 (F := F) x0 x1 x6) (val_main_v103 (F := F) x0 x1 x6)

def val_main_v105 : (⟨S10000x10000, .f32⟩ : BufTy).Contents (Elt F) :=
  Host.exp (val_main_v104 (F := F) x0 x1 x6)

def val_main_cst_21 : (⟨S_, .f32⟩ : BufTy).Contents (Elt F) :=
  constant S_ .f32 0x00000000#32

def val_main_v106 : (⟨S10000, .f32⟩ : BufTy).Contents (Elt F) :=
  Host.reduceAdd (val_main_v105 (F := F) x0 x1 x6) (val_main_cst_21 (F := F)) reducesTo_S10000x10000_S10000_d0 h_S_

def val_main_v107 : (⟨S1x10000, .f32⟩ : BufTy).Contents (Elt F) :=
  broadcastInDim S1x10000 ![1] bcast_S10000_S1x10000_1 (val_main_v106 (F := F) x0 x1 x6)

def val_main_v108 : (⟨S10000x10000, .f32⟩ : BufTy).Contents (Elt F) :=
  broadcastInDim S10000x10000 ![0, 1] bcast_S1x10000_S10000x10000_0_1 (val_main_v107 (F := F) x0 x1 x6)

def val_main_v109 : (⟨S10000x10000, .f32⟩ : BufTy).Contents (Elt F) :=
  Host.divf (val_main_v105 (F := F) x0 x1 x6) (val_main_v108 (F := F) x0 x1 x6)

def val_main_v110 : (⟨S10000x10000, .f32⟩ : BufTy).Contents (Elt F) :=
  transpose S10000x10000 [1, 0] (val_main_v109 (F := F) x0 x1 x6) transposes_S10000x10000_S10000x10000_1_0

def val_main_v111 : (⟨S10000x128, .f32⟩ : BufTy).Contents (Elt F) :=
  Host.dotGeneral dot_S10000x10000_S10000x128_S10000x128_1_0_0_1_n_n none (val_main_v98 (F := F) x0 x1 x6) (val_main_v15 (F := F) x1 x6)

def val_main_v112 : (⟨S10000x128, .f32⟩ : BufTy).Contents (Elt F) :=
  subf (val_main_v7 (F := F) x0 x6) (val_main_v111 (F := F) x0 x1 x6)

def val_main_v113 : (⟨S10000x128, .f32⟩ : BufTy).Contents (Elt F) :=
  Host.dotGeneral dot_S10000x10000_S10000x128_S10000x128_1_0_0_1_n_n none (val_main_v110 (F := F) x0 x1 x6) (val_main_v7 (F := F) x0 x6)

def val_main_v114 : (⟨S10000x128, .f32⟩ : BufTy).Contents (Elt F) :=
  subf (val_main_v15 (F := F) x1 x6) (val_main_v113 (F := F) x0 x1 x6)

def val_main_v115 : (⟨S10000x256, .f32⟩ : BufTy).Contents (Elt F) :=
  concatenate S10000x256 1 [⟨S10000x128, (val_main_v58 (F := F) x0 x2 x4 x6 x7 x8 x9)⟩, ⟨S10000x128, (val_main_v112 (F := F) x0 x1 x6)⟩] concatenates_S10000x128_S10000x128_S10000x256_d1

def val_main_v116 : (⟨S10000x384, .f32⟩ : BufTy).Contents (Elt F) :=
  Host.dotGeneral dot_S10000x256_S256x384_S10000x384_1_0_0_1_n_n none (val_main_v115 (F := F) x0 x1 x2 x4 x6 x7 x8 x9) (x10)

def val_main_v117 : (⟨S1x384, .f32⟩ : BufTy).Contents (Elt F) :=
  broadcastInDim S1x384 ![1] bcast_S384_S1x384_1 (x11)

def val_main_v118 : (⟨S10000x384, .f32⟩ : BufTy).Contents (Elt F) :=
  broadcastInDim S10000x384 ![0, 1] bcast_S1x384_S10000x384_0_1 (val_main_v117 (F := F) x11)

def val_main_v119 : (⟨S10000x384, .f32⟩ : BufTy).Contents (Elt F) :=
  addf (val_main_v116 (F := F) x0 x1 x2 x4 x6 x7 x8 x9 x10) (val_main_v118 (F := F) x11)

def val_main_v120 : (⟨S10000x384, .f32⟩ : BufTy).Contents (Elt F) :=
  Host.dotGeneral dot_S10000x128_S128x384_S10000x384_1_0_0_1_n_n none (val_main_v7 (F := F) x0 x6) (x12)

def val_main_v121 : (⟨S1x384, .f32⟩ : BufTy).Contents (Elt F) :=
  broadcastInDim S1x384 ![1] bcast_S384_S1x384_1 (x13)

def val_main_v122 : (⟨S10000x384, .f32⟩ : BufTy).Contents (Elt F) :=
  broadcastInDim S10000x384 ![0, 1] bcast_S1x384_S10000x384_0_1 (val_main_v121 (F := F) x13)

def val_main_v123 : (⟨S10000x384, .f32⟩ : BufTy).Contents (Elt F) :=
  addf (val_main_v120 (F := F) x0 x6 x12) (val_main_v122 (F := F) x13)

def val_main_v124 : (⟨S10000x128, .f32⟩ : BufTy).Contents (Elt F) :=
  extractStridedSlice S10000x128 ![0, 0] (val_main_v119 (F := F) x0 x1 x2 x4 x6 x7 x8 x9 x10 x11) slices_S10000x384_S10000x128_0_0

def val_main_v125 : (⟨S10000x128, .f32⟩ : BufTy).Contents (Elt F) :=
  extractStridedSlice S10000x128 ![0, 128] (val_main_v119 (F := F) x0 x1 x2 x4 x6 x7 x8 x9 x10 x11) slices_S10000x384_S10000x128_0_128

def val_main_v126 : (⟨S10000x128, .f32⟩ : BufTy).Contents (Elt F) :=
  extractStridedSlice S10000x128 ![0, 256] (val_main_v119 (F := F) x0 x1 x2 x4 x6 x7 x8 x9 x10 x11) slices_S10000x384_S10000x128_0_256

def val_main_v127 : (⟨S10000x128, .f32⟩ : BufTy).Contents (Elt F) :=
  extractStridedSlice S10000x128 ![0, 0] (val_main_v123 (F := F) x0 x6 x12 x13) slices_S10000x384_S10000x128_0_0

def val_main_v128 : (⟨S10000x128, .f32⟩ : BufTy).Contents (Elt F) :=
  extractStridedSlice S10000x128 ![0, 128] (val_main_v123 (F := F) x0 x6 x12 x13) slices_S10000x384_S10000x128_0_128

def val_main_v129 : (⟨S10000x128, .f32⟩ : BufTy).Contents (Elt F) :=
  extractStridedSlice S10000x128 ![0, 256] (val_main_v123 (F := F) x0 x6 x12 x13) slices_S10000x384_S10000x128_0_256

def val_main_v130 : (⟨S10000x128, .f32⟩ : BufTy).Contents (Elt F) :=
  addf (val_main_v124 (F := F) x0 x1 x2 x4 x6 x7 x8 x9 x10 x11) (val_main_v127 (F := F) x0 x6 x12 x13)

def val_main_v131 : (⟨S10000x128, .f32⟩ : BufTy).Contents (Elt F) :=
  Host.negf (val_main_v130 (F := F) x0 x1 x2 x4 x6 x7 x8 x9 x10 x11 x12 x13)

def val_main_v132 : (⟨S10000x128, .f32⟩ : BufTy).Contents (Elt F) :=
  Host.exp (val_main_v131 (F := F) x0 x1 x2 x4 x6 x7 x8 x9 x10 x11 x12 x13)

def val_main_cst_22 : (⟨S_, .f32⟩ : BufTy).Contents (Elt F) :=
  constant S_ .f32 0x3F800000#32

def val_main_v133 : (⟨S10000x128, .f32⟩ : BufTy).Contents (Elt F) :=
  broadcastInDim S10000x128 ![] bcast_S_S10000x128 (val_main_cst_22 (F := F))

def val_main_v134 : (⟨S10000x128, .f32⟩ : BufTy).Contents (Elt F) :=
  addf (val_main_v133 (F := F)) (val_main_v132 (F := F) x0 x1 x2 x4 x6 x7 x8 x9 x10 x11 x12 x13)

def val_main_cst_23 : (⟨S_, .f32⟩ : BufTy).Contents (Elt F) :=
  constant S_ .f32 0x3F800000#32

def val_main_v135 : (⟨S10000x128, .f32⟩ : BufTy).Contents (Elt F) :=
  broadcastInDim S10000x128 ![] bcast_S_S10000x128 (val_main_cst_23 (F := F))

def val_main_v136 : (⟨S10000x128, .f32⟩ : BufTy).Contents (Elt F) :=
  Host.divf (val_main_v135 (F := F)) (val_main_v134 (F := F) x0 x1 x2 x4 x6 x7 x8 x9 x10 x11 x12 x13)

def val_main_v137 : (⟨S10000x128, .f32⟩ : BufTy).Contents (Elt F) :=
  addf (val_main_v125 (F := F) x0 x1 x2 x4 x6 x7 x8 x9 x10 x11) (val_main_v128 (F := F) x0 x6 x12 x13)

def val_main_v138 : (⟨S10000x128, .f32⟩ : BufTy).Contents (Elt F) :=
  Host.negf (val_main_v137 (F := F) x0 x1 x2 x4 x6 x7 x8 x9 x10 x11 x12 x13)
theorem val_main_v138_apply (i : S10000x128.Idx) :
    val_main_v138 (F := F) x0 x1 x2 x4 x6 x7 x8 x9 x10 x11 x12 x13 i = FloatOps.hostNegf (val_main_v137 (F := F) x0 x1 x2 x4 x6 x7 x8 x9 x10 x11 x12 x13 i) := rfl

def val_main_v139 : (⟨S10000x128, .f32⟩ : BufTy).Contents (Elt F) :=
  Host.exp (val_main_v138 (F := F) x0 x1 x2 x4 x6 x7 x8 x9 x10 x11 x12 x13)
theorem val_main_v139_apply (i : S10000x128.Idx) :
    val_main_v139 (F := F) x0 x1 x2 x4 x6 x7 x8 x9 x10 x11 x12 x13 i = FloatOps.hostUnary .exp (val_main_v138 (F := F) x0 x1 x2 x4 x6 x7 x8 x9 x10 x11 x12 x13 i) := rfl

def val_main_cst_24 : (⟨S_, .f32⟩ : BufTy).Contents (Elt F) :=
  constant S_ .f32 0x3F800000#32
theorem val_main_cst_24_apply (i : S_.Idx) :
    val_main_cst_24 (F := F) i = FloatOps.ofBits .f32 0x3F800000#32 := rfl

def val_main_v140 : (⟨S10000x128, .f32⟩ : BufTy).Contents (Elt F) :=
  broadcastInDim S10000x128 ![] bcast_S_S10000x128 (val_main_cst_24 (F := F))
abbrev idx_main_v140 (i : S10000x128.Idx) : S_.Idx := fun a => a.elim0
theorem val_main_v140_apply (i : S10000x128.Idx) :
    val_main_v140 (F := F) i = val_main_cst_24 (F := F) (idx_main_v140 i) := by
  unfold val_main_v140
  generalize val_main_cst_24 (F := F) = y
  exact broadcastInDim_apply _ bcast_S_S10000x128 y i (idx_main_v140 i) (fun a => a.elim0)

def val_main_v141 : (⟨S10000x128, .f32⟩ : BufTy).Contents (Elt F) :=
  addf (val_main_v140 (F := F)) (val_main_v139 (F := F) x0 x1 x2 x4 x6 x7 x8 x9 x10 x11 x12 x13)
theorem val_main_v141_apply (i : S10000x128.Idx) :
    val_main_v141 (F := F) x0 x1 x2 x4 x6 x7 x8 x9 x10 x11 x12 x13 i = FloatOps.addf (val_main_v140 (F := F) i) (val_main_v139 (F := F) x0 x1 x2 x4 x6 x7 x8 x9 x10 x11 x12 x13 i) := rfl

def val_main_cst_25 : (⟨S_, .f32⟩ : BufTy).Contents (Elt F) :=
  constant S_ .f32 0x3F800000#32
theorem val_main_cst_25_apply (i : S_.Idx) :
    val_main_cst_25 (F := F) i = FloatOps.ofBits .f32 0x3F800000#32 := rfl

def val_main_v142 : (⟨S10000x128, .f32⟩ : BufTy).Contents (Elt F) :=
  broadcastInDim S10000x128 ![] bcast_S_S10000x128 (val_main_cst_25 (F := F))
abbrev idx_main_v142 (i : S10000x128.Idx) : S_.Idx := fun a => a.elim0
theorem val_main_v142_apply (i : S10000x128.Idx) :
    val_main_v142 (F := F) i = val_main_cst_25 (F := F) (idx_main_v142 i) := by
  unfold val_main_v142
  generalize val_main_cst_25 (F := F) = y
  exact broadcastInDim_apply _ bcast_S_S10000x128 y i (idx_main_v142 i) (fun a => a.elim0)

def val_main_v143 : (⟨S10000x128, .f32⟩ : BufTy).Contents (Elt F) :=
  Host.divf (val_main_v142 (F := F)) (val_main_v141 (F := F) x0 x1 x2 x4 x6 x7 x8 x9 x10 x11 x12 x13)
theorem val_main_v143_apply (i : S10000x128.Idx) :
    val_main_v143 (F := F) x0 x1 x2 x4 x6 x7 x8 x9 x10 x11 x12 x13 i = FloatOps.hostDivf (val_main_v142 (F := F) i) (val_main_v141 (F := F) x0 x1 x2 x4 x6 x7 x8 x9 x10 x11 x12 x13 i) := rfl

def val_main_v144 : (⟨S10000x128, .f32⟩ : BufTy).Contents (Elt F) :=
  mulf (val_main_v136 (F := F) x0 x1 x2 x4 x6 x7 x8 x9 x10 x11 x12 x13) (val_main_v129 (F := F) x0 x6 x12 x13)

def val_main_v145 : (⟨S10000x128, .f32⟩ : BufTy).Contents (Elt F) :=
  addf (val_main_v126 (F := F) x0 x1 x2 x4 x6 x7 x8 x9 x10 x11) (val_main_v144 (F := F) x0 x1 x2 x4 x6 x7 x8 x9 x10 x11 x12 x13)

def val_main_v146 : (⟨S10000x128, .f32⟩ : BufTy).Contents (Elt F) :=
  Host.tanh (val_main_v145 (F := F) x0 x1 x2 x4 x6 x7 x8 x9 x10 x11 x12 x13)
theorem val_main_v146_apply (i : S10000x128.Idx) :
    val_main_v146 (F := F) x0 x1 x2 x4 x6 x7 x8 x9 x10 x11 x12 x13 i = FloatOps.hostUnary .tanh (val_main_v145 (F := F) x0 x1 x2 x4 x6 x7 x8 x9 x10 x11 x12 x13 i) := rfl

def val_main_cst_26 : (⟨S_, .f32⟩ : BufTy).Contents (Elt F) :=
  constant S_ .f32 0x3F800000#32
theorem val_main_cst_26_apply (i : S_.Idx) :
    val_main_cst_26 (F := F) i = FloatOps.ofBits .f32 0x3F800000#32 := rfl

def val_main_v147 : (⟨S10000x128, .f32⟩ : BufTy).Contents (Elt F) :=
  broadcastInDim S10000x128 ![] bcast_S_S10000x128 (val_main_cst_26 (F := F))
abbrev idx_main_v147 (i : S10000x128.Idx) : S_.Idx := fun a => a.elim0
theorem val_main_v147_apply (i : S10000x128.Idx) :
    val_main_v147 (F := F) i = val_main_cst_26 (F := F) (idx_main_v147 i) := by
  unfold val_main_v147
  generalize val_main_cst_26 (F := F) = y
  exact broadcastInDim_apply _ bcast_S_S10000x128 y i (idx_main_v147 i) (fun a => a.elim0)

def val_main_v148 : (⟨S10000x128, .f32⟩ : BufTy).Contents (Elt F) :=
  subf (val_main_v147 (F := F)) (val_main_v143 (F := F) x0 x1 x2 x4 x6 x7 x8 x9 x10 x11 x12 x13)
theorem val_main_v148_apply (i : S10000x128.Idx) :
    val_main_v148 (F := F) x0 x1 x2 x4 x6 x7 x8 x9 x10 x11 x12 x13 i = FloatOps.subf (val_main_v147 (F := F) i) (val_main_v143 (F := F) x0 x1 x2 x4 x6 x7 x8 x9 x10 x11 x12 x13 i) := rfl

def val_main_v149 : (⟨S10000x128, .f32⟩ : BufTy).Contents (Elt F) :=
  mulf (val_main_v148 (F := F) x0 x1 x2 x4 x6 x7 x8 x9 x10 x11 x12 x13) (val_main_v146 (F := F) x0 x1 x2 x4 x6 x7 x8 x9 x10 x11 x12 x13)
theorem val_main_v149_apply (i : S10000x128.Idx) :
    val_main_v149 (F := F) x0 x1 x2 x4 x6 x7 x8 x9 x10 x11 x12 x13 i = FloatOps.mulf (val_main_v148 (F := F) x0 x1 x2 x4 x6 x7 x8 x9 x10 x11 x12 x13 i) (val_main_v146 (F := F) x0 x1 x2 x4 x6 x7 x8 x9 x10 x11 x12 x13 i) := rfl

def val_main_v150 : (⟨S10000x128, .f32⟩ : BufTy).Contents (Elt F) :=
  mulf (val_main_v143 (F := F) x0 x1 x2 x4 x6 x7 x8 x9 x10 x11 x12 x13) (val_main_v7 (F := F) x0 x6)
theorem val_main_v150_apply (i : S10000x128.Idx) :
    val_main_v150 (F := F) x0 x1 x2 x4 x6 x7 x8 x9 x10 x11 x12 x13 i = FloatOps.mulf (val_main_v143 (F := F) x0 x1 x2 x4 x6 x7 x8 x9 x10 x11 x12 x13 i) (val_main_v7 (F := F) x0 x6 i) := rfl

def val_main_v151 : (⟨S10000x128, .f32⟩ : BufTy).Contents (Elt F) :=
  addf (val_main_v149 (F := F) x0 x1 x2 x4 x6 x7 x8 x9 x10 x11 x12 x13) (val_main_v150 (F := F) x0 x1 x2 x4 x6 x7 x8 x9 x10 x11 x12 x13)
theorem val_main_v151_apply (i : S10000x128.Idx) :
    val_main_v151 (F := F) x0 x1 x2 x4 x6 x7 x8 x9 x10 x11 x12 x13 i = FloatOps.addf (val_main_v149 (F := F) x0 x1 x2 x4 x6 x7 x8 x9 x10 x11 x12 x13 i) (val_main_v150 (F := F) x0 x1 x2 x4 x6 x7 x8 x9 x10 x11 x12 x13 i) := rfl

def val_main_v152 : (⟨S10000x256, .f32⟩ : BufTy).Contents (Elt F) :=
  concatenate S10000x256 1 [⟨S10000x128, (val_main_v85 (F := F) x1 x3 x5 x6 x7 x8 x9)⟩, ⟨S10000x128, (val_main_v114 (F := F) x0 x1 x6)⟩] concatenates_S10000x128_S10000x128_S10000x256_d1

def val_main_v153 : (⟨S10000x384, .f32⟩ : BufTy).Contents (Elt F) :=
  Host.dotGeneral dot_S10000x256_S256x384_S10000x384_1_0_0_1_n_n none (val_main_v152 (F := F) x0 x1 x3 x5 x6 x7 x8 x9) (x10)

def val_main_v154 : (⟨S1x384, .f32⟩ : BufTy).Contents (Elt F) :=
  broadcastInDim S1x384 ![1] bcast_S384_S1x384_1 (x11)

def val_main_v155 : (⟨S10000x384, .f32⟩ : BufTy).Contents (Elt F) :=
  broadcastInDim S10000x384 ![0, 1] bcast_S1x384_S10000x384_0_1 (val_main_v154 (F := F) x11)

def val_main_v156 : (⟨S10000x384, .f32⟩ : BufTy).Contents (Elt F) :=
  addf (val_main_v153 (F := F) x0 x1 x3 x5 x6 x7 x8 x9 x10) (val_main_v155 (F := F) x11)

def val_main_v157 : (⟨S10000x384, .f32⟩ : BufTy).Contents (Elt F) :=
  Host.dotGeneral dot_S10000x128_S128x384_S10000x384_1_0_0_1_n_n none (val_main_v15 (F := F) x1 x6) (x12)

def val_main_v158 : (⟨S1x384, .f32⟩ : BufTy).Contents (Elt F) :=
  broadcastInDim S1x384 ![1] bcast_S384_S1x384_1 (x13)

def val_main_v159 : (⟨S10000x384, .f32⟩ : BufTy).Contents (Elt F) :=
  broadcastInDim S10000x384 ![0, 1] bcast_S1x384_S10000x384_0_1 (val_main_v158 (F := F) x13)

def val_main_v160 : (⟨S10000x384, .f32⟩ : BufTy).Contents (Elt F) :=
  addf (val_main_v157 (F := F) x1 x6 x12) (val_main_v159 (F := F) x13)

def val_main_v161 : (⟨S10000x128, .f32⟩ : BufTy).Contents (Elt F) :=
  extractStridedSlice S10000x128 ![0, 0] (val_main_v156 (F := F) x0 x1 x3 x5 x6 x7 x8 x9 x10 x11) slices_S10000x384_S10000x128_0_0

def val_main_v162 : (⟨S10000x128, .f32⟩ : BufTy).Contents (Elt F) :=
  extractStridedSlice S10000x128 ![0, 128] (val_main_v156 (F := F) x0 x1 x3 x5 x6 x7 x8 x9 x10 x11) slices_S10000x384_S10000x128_0_128

def val_main_v163 : (⟨S10000x128, .f32⟩ : BufTy).Contents (Elt F) :=
  extractStridedSlice S10000x128 ![0, 256] (val_main_v156 (F := F) x0 x1 x3 x5 x6 x7 x8 x9 x10 x11) slices_S10000x384_S10000x128_0_256

def val_main_v164 : (⟨S10000x128, .f32⟩ : BufTy).Contents (Elt F) :=
  extractStridedSlice S10000x128 ![0, 0] (val_main_v160 (F := F) x1 x6 x12 x13) slices_S10000x384_S10000x128_0_0

def val_main_v165 : (⟨S10000x128, .f32⟩ : BufTy).Contents (Elt F) :=
  extractStridedSlice S10000x128 ![0, 128] (val_main_v160 (F := F) x1 x6 x12 x13) slices_S10000x384_S10000x128_0_128

def val_main_v166 : (⟨S10000x128, .f32⟩ : BufTy).Contents (Elt F) :=
  extractStridedSlice S10000x128 ![0, 256] (val_main_v160 (F := F) x1 x6 x12 x13) slices_S10000x384_S10000x128_0_256

def val_main_v167 : (⟨S10000x128, .f32⟩ : BufTy).Contents (Elt F) :=
  addf (val_main_v161 (F := F) x0 x1 x3 x5 x6 x7 x8 x9 x10 x11) (val_main_v164 (F := F) x1 x6 x12 x13)

def val_main_v168 : (⟨S10000x128, .f32⟩ : BufTy).Contents (Elt F) :=
  Host.negf (val_main_v167 (F := F) x0 x1 x3 x5 x6 x7 x8 x9 x10 x11 x12 x13)

def val_main_v169 : (⟨S10000x128, .f32⟩ : BufTy).Contents (Elt F) :=
  Host.exp (val_main_v168 (F := F) x0 x1 x3 x5 x6 x7 x8 x9 x10 x11 x12 x13)

def val_main_cst_27 : (⟨S_, .f32⟩ : BufTy).Contents (Elt F) :=
  constant S_ .f32 0x3F800000#32

def val_main_v170 : (⟨S10000x128, .f32⟩ : BufTy).Contents (Elt F) :=
  broadcastInDim S10000x128 ![] bcast_S_S10000x128 (val_main_cst_27 (F := F))

def val_main_v171 : (⟨S10000x128, .f32⟩ : BufTy).Contents (Elt F) :=
  addf (val_main_v170 (F := F)) (val_main_v169 (F := F) x0 x1 x3 x5 x6 x7 x8 x9 x10 x11 x12 x13)

def val_main_cst_28 : (⟨S_, .f32⟩ : BufTy).Contents (Elt F) :=
  constant S_ .f32 0x3F800000#32

def val_main_v172 : (⟨S10000x128, .f32⟩ : BufTy).Contents (Elt F) :=
  broadcastInDim S10000x128 ![] bcast_S_S10000x128 (val_main_cst_28 (F := F))

def val_main_v173 : (⟨S10000x128, .f32⟩ : BufTy).Contents (Elt F) :=
  Host.divf (val_main_v172 (F := F)) (val_main_v171 (F := F) x0 x1 x3 x5 x6 x7 x8 x9 x10 x11 x12 x13)

def val_main_v174 : (⟨S10000x128, .f32⟩ : BufTy).Contents (Elt F) :=
  addf (val_main_v162 (F := F) x0 x1 x3 x5 x6 x7 x8 x9 x10 x11) (val_main_v165 (F := F) x1 x6 x12 x13)

def val_main_v175 : (⟨S10000x128, .f32⟩ : BufTy).Contents (Elt F) :=
  Host.negf (val_main_v174 (F := F) x0 x1 x3 x5 x6 x7 x8 x9 x10 x11 x12 x13)
theorem val_main_v175_apply (i : S10000x128.Idx) :
    val_main_v175 (F := F) x0 x1 x3 x5 x6 x7 x8 x9 x10 x11 x12 x13 i = FloatOps.hostNegf (val_main_v174 (F := F) x0 x1 x3 x5 x6 x7 x8 x9 x10 x11 x12 x13 i) := rfl

def val_main_v176 : (⟨S10000x128, .f32⟩ : BufTy).Contents (Elt F) :=
  Host.exp (val_main_v175 (F := F) x0 x1 x3 x5 x6 x7 x8 x9 x10 x11 x12 x13)
theorem val_main_v176_apply (i : S10000x128.Idx) :
    val_main_v176 (F := F) x0 x1 x3 x5 x6 x7 x8 x9 x10 x11 x12 x13 i = FloatOps.hostUnary .exp (val_main_v175 (F := F) x0 x1 x3 x5 x6 x7 x8 x9 x10 x11 x12 x13 i) := rfl

def val_main_cst_29 : (⟨S_, .f32⟩ : BufTy).Contents (Elt F) :=
  constant S_ .f32 0x3F800000#32
theorem val_main_cst_29_apply (i : S_.Idx) :
    val_main_cst_29 (F := F) i = FloatOps.ofBits .f32 0x3F800000#32 := rfl

def val_main_v177 : (⟨S10000x128, .f32⟩ : BufTy).Contents (Elt F) :=
  broadcastInDim S10000x128 ![] bcast_S_S10000x128 (val_main_cst_29 (F := F))
abbrev idx_main_v177 (i : S10000x128.Idx) : S_.Idx := fun a => a.elim0
theorem val_main_v177_apply (i : S10000x128.Idx) :
    val_main_v177 (F := F) i = val_main_cst_29 (F := F) (idx_main_v177 i) := by
  unfold val_main_v177
  generalize val_main_cst_29 (F := F) = y
  exact broadcastInDim_apply _ bcast_S_S10000x128 y i (idx_main_v177 i) (fun a => a.elim0)

def val_main_v178 : (⟨S10000x128, .f32⟩ : BufTy).Contents (Elt F) :=
  addf (val_main_v177 (F := F)) (val_main_v176 (F := F) x0 x1 x3 x5 x6 x7 x8 x9 x10 x11 x12 x13)
theorem val_main_v178_apply (i : S10000x128.Idx) :
    val_main_v178 (F := F) x0 x1 x3 x5 x6 x7 x8 x9 x10 x11 x12 x13 i = FloatOps.addf (val_main_v177 (F := F) i) (val_main_v176 (F := F) x0 x1 x3 x5 x6 x7 x8 x9 x10 x11 x12 x13 i) := rfl

def val_main_cst_30 : (⟨S_, .f32⟩ : BufTy).Contents (Elt F) :=
  constant S_ .f32 0x3F800000#32
theorem val_main_cst_30_apply (i : S_.Idx) :
    val_main_cst_30 (F := F) i = FloatOps.ofBits .f32 0x3F800000#32 := rfl

def val_main_v179 : (⟨S10000x128, .f32⟩ : BufTy).Contents (Elt F) :=
  broadcastInDim S10000x128 ![] bcast_S_S10000x128 (val_main_cst_30 (F := F))
abbrev idx_main_v179 (i : S10000x128.Idx) : S_.Idx := fun a => a.elim0
theorem val_main_v179_apply (i : S10000x128.Idx) :
    val_main_v179 (F := F) i = val_main_cst_30 (F := F) (idx_main_v179 i) := by
  unfold val_main_v179
  generalize val_main_cst_30 (F := F) = y
  exact broadcastInDim_apply _ bcast_S_S10000x128 y i (idx_main_v179 i) (fun a => a.elim0)

def val_main_v180 : (⟨S10000x128, .f32⟩ : BufTy).Contents (Elt F) :=
  Host.divf (val_main_v179 (F := F)) (val_main_v178 (F := F) x0 x1 x3 x5 x6 x7 x8 x9 x10 x11 x12 x13)
theorem val_main_v180_apply (i : S10000x128.Idx) :
    val_main_v180 (F := F) x0 x1 x3 x5 x6 x7 x8 x9 x10 x11 x12 x13 i = FloatOps.hostDivf (val_main_v179 (F := F) i) (val_main_v178 (F := F) x0 x1 x3 x5 x6 x7 x8 x9 x10 x11 x12 x13 i) := rfl

def val_main_v181 : (⟨S10000x128, .f32⟩ : BufTy).Contents (Elt F) :=
  mulf (val_main_v173 (F := F) x0 x1 x3 x5 x6 x7 x8 x9 x10 x11 x12 x13) (val_main_v166 (F := F) x1 x6 x12 x13)

def val_main_v182 : (⟨S10000x128, .f32⟩ : BufTy).Contents (Elt F) :=
  addf (val_main_v163 (F := F) x0 x1 x3 x5 x6 x7 x8 x9 x10 x11) (val_main_v181 (F := F) x0 x1 x3 x5 x6 x7 x8 x9 x10 x11 x12 x13)

def val_main_v183 : (⟨S10000x128, .f32⟩ : BufTy).Contents (Elt F) :=
  Host.tanh (val_main_v182 (F := F) x0 x1 x3 x5 x6 x7 x8 x9 x10 x11 x12 x13)
theorem val_main_v183_apply (i : S10000x128.Idx) :
    val_main_v183 (F := F) x0 x1 x3 x5 x6 x7 x8 x9 x10 x11 x12 x13 i = FloatOps.hostUnary .tanh (val_main_v182 (F := F) x0 x1 x3 x5 x6 x7 x8 x9 x10 x11 x12 x13 i) := rfl

def val_main_cst_31 : (⟨S_, .f32⟩ : BufTy).Contents (Elt F) :=
  constant S_ .f32 0x3F800000#32
theorem val_main_cst_31_apply (i : S_.Idx) :
    val_main_cst_31 (F := F) i = FloatOps.ofBits .f32 0x3F800000#32 := rfl

def val_main_v184 : (⟨S10000x128, .f32⟩ : BufTy).Contents (Elt F) :=
  broadcastInDim S10000x128 ![] bcast_S_S10000x128 (val_main_cst_31 (F := F))
abbrev idx_main_v184 (i : S10000x128.Idx) : S_.Idx := fun a => a.elim0
theorem val_main_v184_apply (i : S10000x128.Idx) :
    val_main_v184 (F := F) i = val_main_cst_31 (F := F) (idx_main_v184 i) := by
  unfold val_main_v184
  generalize val_main_cst_31 (F := F) = y
  exact broadcastInDim_apply _ bcast_S_S10000x128 y i (idx_main_v184 i) (fun a => a.elim0)

def val_main_v185 : (⟨S10000x128, .f32⟩ : BufTy).Contents (Elt F) :=
  subf (val_main_v184 (F := F)) (val_main_v180 (F := F) x0 x1 x3 x5 x6 x7 x8 x9 x10 x11 x12 x13)
theorem val_main_v185_apply (i : S10000x128.Idx) :
    val_main_v185 (F := F) x0 x1 x3 x5 x6 x7 x8 x9 x10 x11 x12 x13 i = FloatOps.subf (val_main_v184 (F := F) i) (val_main_v180 (F := F) x0 x1 x3 x5 x6 x7 x8 x9 x10 x11 x12 x13 i) := rfl

def val_main_v186 : (⟨S10000x128, .f32⟩ : BufTy).Contents (Elt F) :=
  mulf (val_main_v185 (F := F) x0 x1 x3 x5 x6 x7 x8 x9 x10 x11 x12 x13) (val_main_v183 (F := F) x0 x1 x3 x5 x6 x7 x8 x9 x10 x11 x12 x13)
theorem val_main_v186_apply (i : S10000x128.Idx) :
    val_main_v186 (F := F) x0 x1 x3 x5 x6 x7 x8 x9 x10 x11 x12 x13 i = FloatOps.mulf (val_main_v185 (F := F) x0 x1 x3 x5 x6 x7 x8 x9 x10 x11 x12 x13 i) (val_main_v183 (F := F) x0 x1 x3 x5 x6 x7 x8 x9 x10 x11 x12 x13 i) := rfl

def val_main_v187 : (⟨S10000x128, .f32⟩ : BufTy).Contents (Elt F) :=
  mulf (val_main_v180 (F := F) x0 x1 x3 x5 x6 x7 x8 x9 x10 x11 x12 x13) (val_main_v15 (F := F) x1 x6)
theorem val_main_v187_apply (i : S10000x128.Idx) :
    val_main_v187 (F := F) x0 x1 x3 x5 x6 x7 x8 x9 x10 x11 x12 x13 i = FloatOps.mulf (val_main_v180 (F := F) x0 x1 x3 x5 x6 x7 x8 x9 x10 x11 x12 x13 i) (val_main_v15 (F := F) x1 x6 i) := rfl

def val_main_v188 : (⟨S10000x128, .f32⟩ : BufTy).Contents (Elt F) :=
  addf (val_main_v186 (F := F) x0 x1 x3 x5 x6 x7 x8 x9 x10 x11 x12 x13) (val_main_v187 (F := F) x0 x1 x3 x5 x6 x7 x8 x9 x10 x11 x12 x13)
theorem val_main_v188_apply (i : S10000x128.Idx) :
    val_main_v188 (F := F) x0 x1 x3 x5 x6 x7 x8 x9 x10 x11 x12 x13 i = FloatOps.addf (val_main_v186 (F := F) x0 x1 x3 x5 x6 x7 x8 x9 x10 x11 x12 x13 i) (val_main_v187 (F := F) x0 x1 x3 x5 x6 x7 x8 x9 x10 x11 x12 x13 i) := rfl

def val_main_v189 : (⟨S1x160000, .i32⟩ : BufTy).Contents (Elt F) :=
  extractStridedSlice S1x160000 ![0, 0] (x2) slices_S2x160000_S1x160000_0_0

def val_main_v190 : (⟨S160000, .i32⟩ : BufTy).Contents (Elt F) :=
  shapeCast _ (val_main_v189 (F := F) x2) shapeCasts_S1x160000_S160000

def val_main_v191 : (⟨S1x160000, .i32⟩ : BufTy).Contents (Elt F) :=
  extractStridedSlice S1x160000 ![1, 0] (x2) slices_S2x160000_S1x160000_1_0

def val_main_v192 : (⟨S160000, .i32⟩ : BufTy).Contents (Elt F) :=
  shapeCast _ (val_main_v191 (F := F) x2) shapeCasts_S1x160000_S160000

def val_main_c_32 : (⟨S_, .i32⟩ : BufTy).Contents (Elt F) :=
  constantI S_ 32 0#32

def val_main_v193 : (⟨S160000, .i32⟩ : BufTy).Contents (Elt F) :=
  broadcastInDim S160000 ![] bcast_S_S160000 (val_main_c_32 (F := F))

def val_main_v194 : (⟨S160000, .i1⟩ : BufTy).Contents (Elt F) :=
  cmpi .slt (val_main_v192 (F := F) x2) (val_main_v193 (F := F))

def val_main_c_33 : (⟨S_, .i32⟩ : BufTy).Contents (Elt F) :=
  constantI S_ 32 10000#32

def val_main_v195 : (⟨S160000, .i32⟩ : BufTy).Contents (Elt F) :=
  broadcastInDim S160000 ![] bcast_S_S160000 (val_main_c_33 (F := F))

def val_main_v196 : (⟨S160000, .i32⟩ : BufTy).Contents (Elt F) :=
  addi (val_main_v192 (F := F) x2) (val_main_v195 (F := F))

def val_main_v197 : (⟨S160000, .i32⟩ : BufTy).Contents (Elt F) :=
  select (val_main_v194 (F := F) x2) (val_main_v196 (F := F) x2) (val_main_v192 (F := F) x2)

def val_main_v198 : (⟨S160000x1, .i32⟩ : BufTy).Contents (Elt F) :=
  broadcastInDim S160000x1 ![0] bcast_S160000_S160000x1_0 (val_main_v197 (F := F) x2)

def val_main_v199 : (⟨S160000x128, .f32⟩ : BufTy).Contents (Elt F) :=
  Host.gather gather_S10000x128_S160000x1_S160000x128_1_0_n_n_0_1_1128 (val_main_v151 (F := F) x0 x1 x2 x4 x6 x7 x8 x9 x10 x11 x12 x13) (val_main_v198 (F := F) x2)

def val_main_c_34 : (⟨S_, .i32⟩ : BufTy).Contents (Elt F) :=
  constantI S_ 32 0#32

def val_main_v200 : (⟨S160000, .i32⟩ : BufTy).Contents (Elt F) :=
  broadcastInDim S160000 ![] bcast_S_S160000 (val_main_c_34 (F := F))

def val_main_v201 : (⟨S160000, .i1⟩ : BufTy).Contents (Elt F) :=
  cmpi .slt (val_main_v190 (F := F) x2) (val_main_v200 (F := F))

def val_main_c_35 : (⟨S_, .i32⟩ : BufTy).Contents (Elt F) :=
  constantI S_ 32 10000#32

def val_main_v202 : (⟨S160000, .i32⟩ : BufTy).Contents (Elt F) :=
  broadcastInDim S160000 ![] bcast_S_S160000 (val_main_c_35 (F := F))

def val_main_v203 : (⟨S160000, .i32⟩ : BufTy).Contents (Elt F) :=
  addi (val_main_v190 (F := F) x2) (val_main_v202 (F := F))

def val_main_v204 : (⟨S160000, .i32⟩ : BufTy).Contents (Elt F) :=
  select (val_main_v201 (F := F) x2) (val_main_v203 (F := F) x2) (val_main_v190 (F := F) x2)

def val_main_v205 : (⟨S160000x1, .i32⟩ : BufTy).Contents (Elt F) :=
  broadcastInDim S160000x1 ![0] bcast_S160000_S160000x1_0 (val_main_v204 (F := F) x2)

def val_main_v206 : (⟨S160000x128, .f32⟩ : BufTy).Contents (Elt F) :=
  Host.gather gather_S10000x128_S160000x1_S160000x128_1_0_n_n_0_1_1128 (val_main_v151 (F := F) x0 x1 x2 x4 x6 x7 x8 x9 x10 x11 x12 x13) (val_main_v205 (F := F) x2)

def val_main_v207 : (⟨S160000x384, .f32⟩ : BufTy).Contents (Elt F) :=
  concatenate S160000x384 1 [⟨S160000x128, (val_main_v199 (F := F) x0 x1 x2 x4 x6 x7 x8 x9 x10 x11 x12 x13)⟩, ⟨S160000x128, (val_main_v206 (F := F) x0 x1 x2 x4 x6 x7 x8 x9 x10 x11 x12 x13)⟩, ⟨S160000x128, (val_main_v23 (F := F) x4 x7)⟩] concatenates_S160000x128_S160000x128_S160000x128_S160000x384_d1

def val_main_v208 : (⟨S160000x128, .f32⟩ : BufTy).Contents (Elt F) :=
  Host.dotGeneral dot_S160000x384_S384x128_S160000x128_1_0_0_1_n_n none (val_main_v207 (F := F) x0 x1 x2 x4 x6 x7 x8 x9 x10 x11 x12 x13) (x8)

def val_main_v209 : (⟨S1x128, .f32⟩ : BufTy).Contents (Elt F) :=
  broadcastInDim S1x128 ![1] bcast_S128_S1x128_1 (x9)

def val_main_v210 : (⟨S160000x128, .f32⟩ : BufTy).Contents (Elt F) :=
  broadcastInDim S160000x128 ![0, 1] bcast_S1x128_S160000x128_0_1 (val_main_v209 (F := F) x9)

def val_main_v211 : (⟨S160000x128, .f32⟩ : BufTy).Contents (Elt F) :=
  addf (val_main_v208 (F := F) x0 x1 x2 x4 x6 x7 x8 x9 x10 x11 x12 x13) (val_main_v210 (F := F) x9)

def val_main_call2_cst : (⟨S_, .f32⟩ : BufTy).Contents (Elt F) :=
  constant S_ .f32 0x00000000#32

def val_main_call2_v0 : (⟨S160000x128, .f32⟩ : BufTy).Contents (Elt F) :=
  broadcastInDim S160000x128 ![] bcast_S_S160000x128 (val_main_call2_cst (F := F))

def val_main_v212 : (⟨S160000x128, .f32⟩ : BufTy).Contents (Elt F) :=
  maximumf (val_main_v211 (F := F) x0 x1 x2 x4 x6 x7 x8 x9 x10 x11 x12 x13) (val_main_call2_v0 (F := F))

def val_main_cst_36 : (⟨S_, .f32⟩ : BufTy).Contents (Elt F) :=
  constant S_ .f32 0x00000000#32

def val_main_v213 : (⟨S10000x128, .f32⟩ : BufTy).Contents (Elt F) :=
  broadcastInDim S10000x128 ![] bcast_S_S10000x128 (val_main_cst_36 (F := F))

def val_main_v214 : (⟨S160000x1, .i32⟩ : BufTy).Contents (Elt F) :=
  broadcastInDim S160000x1 ![0] bcast_S160000_S160000x1_0 (val_main_v192 (F := F) x2)

def val_main_v215 : (⟨S10000x128, .f32⟩ : BufTy).Contents (Elt F) :=
  Host.scatterAdd scatter_S10000x128_S160000x1_S160000x128_1_0_0_1 (val_main_v213 (F := F)) (val_main_v214 (F := F) x2) (val_main_v212 (F := F) x0 x1 x2 x4 x6 x7 x8 x9 x10 x11 x12 x13)

def val_main_v216 : (⟨S1x160000, .i32⟩ : BufTy).Contents (Elt F) :=
  extractStridedSlice S1x160000 ![0, 0] (x3) slices_S2x160000_S1x160000_0_0

def val_main_v217 : (⟨S160000, .i32⟩ : BufTy).Contents (Elt F) :=
  shapeCast _ (val_main_v216 (F := F) x3) shapeCasts_S1x160000_S160000

def val_main_v218 : (⟨S1x160000, .i32⟩ : BufTy).Contents (Elt F) :=
  extractStridedSlice S1x160000 ![1, 0] (x3) slices_S2x160000_S1x160000_1_0

def val_main_v219 : (⟨S160000, .i32⟩ : BufTy).Contents (Elt F) :=
  shapeCast _ (val_main_v218 (F := F) x3) shapeCasts_S1x160000_S160000

def val_main_c_37 : (⟨S_, .i32⟩ : BufTy).Contents (Elt F) :=
  constantI S_ 32 0#32

def val_main_v220 : (⟨S160000, .i32⟩ : BufTy).Contents (Elt F) :=
  broadcastInDim S160000 ![] bcast_S_S160000 (val_main_c_37 (F := F))

def val_main_v221 : (⟨S160000, .i1⟩ : BufTy).Contents (Elt F) :=
  cmpi .slt (val_main_v219 (F := F) x3) (val_main_v220 (F := F))

def val_main_c_38 : (⟨S_, .i32⟩ : BufTy).Contents (Elt F) :=
  constantI S_ 32 10000#32

def val_main_v222 : (⟨S160000, .i32⟩ : BufTy).Contents (Elt F) :=
  broadcastInDim S160000 ![] bcast_S_S160000 (val_main_c_38 (F := F))

def val_main_v223 : (⟨S160000, .i32⟩ : BufTy).Contents (Elt F) :=
  addi (val_main_v219 (F := F) x3) (val_main_v222 (F := F))

def val_main_v224 : (⟨S160000, .i32⟩ : BufTy).Contents (Elt F) :=
  select (val_main_v221 (F := F) x3) (val_main_v223 (F := F) x3) (val_main_v219 (F := F) x3)

def val_main_v225 : (⟨S160000x1, .i32⟩ : BufTy).Contents (Elt F) :=
  broadcastInDim S160000x1 ![0] bcast_S160000_S160000x1_0 (val_main_v224 (F := F) x3)

def val_main_v226 : (⟨S160000x128, .f32⟩ : BufTy).Contents (Elt F) :=
  Host.gather gather_S10000x128_S160000x1_S160000x128_1_0_n_n_0_1_1128 (val_main_v188 (F := F) x0 x1 x3 x5 x6 x7 x8 x9 x10 x11 x12 x13) (val_main_v225 (F := F) x3)

def val_main_c_39 : (⟨S_, .i32⟩ : BufTy).Contents (Elt F) :=
  constantI S_ 32 0#32

def val_main_v227 : (⟨S160000, .i32⟩ : BufTy).Contents (Elt F) :=
  broadcastInDim S160000 ![] bcast_S_S160000 (val_main_c_39 (F := F))

def val_main_v228 : (⟨S160000, .i1⟩ : BufTy).Contents (Elt F) :=
  cmpi .slt (val_main_v217 (F := F) x3) (val_main_v227 (F := F))

def val_main_c_40 : (⟨S_, .i32⟩ : BufTy).Contents (Elt F) :=
  constantI S_ 32 10000#32

def val_main_v229 : (⟨S160000, .i32⟩ : BufTy).Contents (Elt F) :=
  broadcastInDim S160000 ![] bcast_S_S160000 (val_main_c_40 (F := F))

def val_main_v230 : (⟨S160000, .i32⟩ : BufTy).Contents (Elt F) :=
  addi (val_main_v217 (F := F) x3) (val_main_v229 (F := F))

def val_main_v231 : (⟨S160000, .i32⟩ : BufTy).Contents (Elt F) :=
  select (val_main_v228 (F := F) x3) (val_main_v230 (F := F) x3) (val_main_v217 (F := F) x3)

def val_main_v232 : (⟨S160000x1, .i32⟩ : BufTy).Contents (Elt F) :=
  broadcastInDim S160000x1 ![0] bcast_S160000_S160000x1_0 (val_main_v231 (F := F) x3)

def val_main_v233 : (⟨S160000x128, .f32⟩ : BufTy).Contents (Elt F) :=
  Host.gather gather_S10000x128_S160000x1_S160000x128_1_0_n_n_0_1_1128 (val_main_v188 (F := F) x0 x1 x3 x5 x6 x7 x8 x9 x10 x11 x12 x13) (val_main_v232 (F := F) x3)

def val_main_v234 : (⟨S160000x384, .f32⟩ : BufTy).Contents (Elt F) :=
  concatenate S160000x384 1 [⟨S160000x128, (val_main_v226 (F := F) x0 x1 x3 x5 x6 x7 x8 x9 x10 x11 x12 x13)⟩, ⟨S160000x128, (val_main_v233 (F := F) x0 x1 x3 x5 x6 x7 x8 x9 x10 x11 x12 x13)⟩, ⟨S160000x128, (val_main_v31 (F := F) x5 x7)⟩] concatenates_S160000x128_S160000x128_S160000x128_S160000x384_d1

def val_main_v235 : (⟨S160000x128, .f32⟩ : BufTy).Contents (Elt F) :=
  Host.dotGeneral dot_S160000x384_S384x128_S160000x128_1_0_0_1_n_n none (val_main_v234 (F := F) x0 x1 x3 x5 x6 x7 x8 x9 x10 x11 x12 x13) (x8)

def val_main_v236 : (⟨S1x128, .f32⟩ : BufTy).Contents (Elt F) :=
  broadcastInDim S1x128 ![1] bcast_S128_S1x128_1 (x9)

def val_main_v237 : (⟨S160000x128, .f32⟩ : BufTy).Contents (Elt F) :=
  broadcastInDim S160000x128 ![0, 1] bcast_S1x128_S160000x128_0_1 (val_main_v236 (F := F) x9)

def val_main_v238 : (⟨S160000x128, .f32⟩ : BufTy).Contents (Elt F) :=
  addf (val_main_v235 (F := F) x0 x1 x3 x5 x6 x7 x8 x9 x10 x11 x12 x13) (val_main_v237 (F := F) x9)

def val_main_call3_cst : (⟨S_, .f32⟩ : BufTy).Contents (Elt F) :=
  constant S_ .f32 0x00000000#32

def val_main_call3_v0 : (⟨S160000x128, .f32⟩ : BufTy).Contents (Elt F) :=
  broadcastInDim S160000x128 ![] bcast_S_S160000x128 (val_main_call3_cst (F := F))

def val_main_v239 : (⟨S160000x128, .f32⟩ : BufTy).Contents (Elt F) :=
  maximumf (val_main_v238 (F := F) x0 x1 x3 x5 x6 x7 x8 x9 x10 x11 x12 x13) (val_main_call3_v0 (F := F))

def val_main_cst_41 : (⟨S_, .f32⟩ : BufTy).Contents (Elt F) :=
  constant S_ .f32 0x00000000#32

def val_main_v240 : (⟨S10000x128, .f32⟩ : BufTy).Contents (Elt F) :=
  broadcastInDim S10000x128 ![] bcast_S_S10000x128 (val_main_cst_41 (F := F))

def val_main_v241 : (⟨S160000x1, .i32⟩ : BufTy).Contents (Elt F) :=
  broadcastInDim S160000x1 ![0] bcast_S160000_S160000x1_0 (val_main_v219 (F := F) x3)

def val_main_v242 : (⟨S10000x128, .f32⟩ : BufTy).Contents (Elt F) :=
  Host.scatterAdd scatter_S10000x128_S160000x1_S160000x128_1_0_0_1 (val_main_v240 (F := F)) (val_main_v241 (F := F) x3) (val_main_v239 (F := F) x0 x1 x3 x5 x6 x7 x8 x9 x10 x11 x12 x13)

def val_main_v243 : (⟨S128x10000, .f32⟩ : BufTy).Contents (Elt F) :=
  transpose S128x10000 [1, 0] (val_main_v188 (F := F) x0 x1 x3 x5 x6 x7 x8 x9 x10 x11 x12 x13) transposes_S10000x128_S128x10000_1_0

def val_main_v244 : (⟨S10000x10000, .f32⟩ : BufTy).Contents (Elt F) :=
  Host.dotGeneral dot_S10000x128_S128x10000_S10000x10000_1_0_0_1_n_n none (val_main_v151 (F := F) x0 x1 x2 x4 x6 x7 x8 x9 x10 x11 x12 x13) (val_main_v243 (F := F) x0 x1 x3 x5 x6 x7 x8 x9 x10 x11 x12 x13)

def val_main_cst_42 : (⟨S_, .f32⟩ : BufTy).Contents (Elt F) :=
  constant S_ .f32 0xFF800000#32

def val_main_v245 : (⟨S10000, .f32⟩ : BufTy).Contents (Elt F) :=
  Host.reduce FloatOps.maximumf (val_main_v244 (F := F) x0 x1 x2 x3 x4 x5 x6 x7 x8 x9 x10 x11 x12 x13) (val_main_cst_42 (F := F)) reducesTo_S10000x10000_S10000_d1 h_S_

def val_main_cst_43 : (⟨S_, .f32⟩ : BufTy).Contents (Elt F) :=
  constant S_ .f32 0xFF800000#32

def val_main_v246 : (⟨S10000, .f32⟩ : BufTy).Contents (Elt F) :=
  broadcastInDim S10000 ![] bcast_S_S10000 (val_main_cst_43 (F := F))

def val_main_v247 : (⟨S10000, .f32⟩ : BufTy).Contents (Elt F) :=
  maximumf (val_main_v246 (F := F)) (val_main_v245 (F := F) x0 x1 x2 x3 x4 x5 x6 x7 x8 x9 x10 x11 x12 x13)

def val_main_v248 : (⟨S10000x1, .f32⟩ : BufTy).Contents (Elt F) :=
  broadcastInDim S10000x1 ![0] bcast_S10000_S10000x1_0 (val_main_v247 (F := F) x0 x1 x2 x3 x4 x5 x6 x7 x8 x9 x10 x11 x12 x13)

def val_main_v249 : (⟨S10000x10000, .f32⟩ : BufTy).Contents (Elt F) :=
  broadcastInDim S10000x10000 ![0, 1] bcast_S10000x1_S10000x10000_0_1 (val_main_v248 (F := F) x0 x1 x2 x3 x4 x5 x6 x7 x8 x9 x10 x11 x12 x13)

def val_main_v250 : (⟨S10000x10000, .f32⟩ : BufTy).Contents (Elt F) :=
  subf (val_main_v244 (F := F) x0 x1 x2 x3 x4 x5 x6 x7 x8 x9 x10 x11 x12 x13) (val_main_v249 (F := F) x0 x1 x2 x3 x4 x5 x6 x7 x8 x9 x10 x11 x12 x13)

def val_main_v251 : (⟨S10000x10000, .f32⟩ : BufTy).Contents (Elt F) :=
  Host.exp (val_main_v250 (F := F) x0 x1 x2 x3 x4 x5 x6 x7 x8 x9 x10 x11 x12 x13)

def val_main_cst_44 : (⟨S_, .f32⟩ : BufTy).Contents (Elt F) :=
  constant S_ .f32 0x00000000#32

def val_main_v252 : (⟨S10000, .f32⟩ : BufTy).Contents (Elt F) :=
  Host.reduceAdd (val_main_v251 (F := F) x0 x1 x2 x3 x4 x5 x6 x7 x8 x9 x10 x11 x12 x13) (val_main_cst_44 (F := F)) reducesTo_S10000x10000_S10000_d1 h_S_

def val_main_v253 : (⟨S10000x1, .f32⟩ : BufTy).Contents (Elt F) :=
  broadcastInDim S10000x1 ![0] bcast_S10000_S10000x1_0 (val_main_v252 (F := F) x0 x1 x2 x3 x4 x5 x6 x7 x8 x9 x10 x11 x12 x13)

def val_main_v254 : (⟨S10000x10000, .f32⟩ : BufTy).Contents (Elt F) :=
  broadcastInDim S10000x10000 ![0, 1] bcast_S10000x1_S10000x10000_0_1 (val_main_v253 (F := F) x0 x1 x2 x3 x4 x5 x6 x7 x8 x9 x10 x11 x12 x13)

def val_main_v255 : (⟨S10000x10000, .f32⟩ : BufTy).Contents (Elt F) :=
  Host.divf (val_main_v251 (F := F) x0 x1 x2 x3 x4 x5 x6 x7 x8 x9 x10 x11 x12 x13) (val_main_v254 (F := F) x0 x1 x2 x3 x4 x5 x6 x7 x8 x9 x10 x11 x12 x13)

def val_main_cst_45 : (⟨S_, .f32⟩ : BufTy).Contents (Elt F) :=
  constant S_ .f32 0xFF800000#32

def val_main_v256 : (⟨S10000, .f32⟩ : BufTy).Contents (Elt F) :=
  Host.reduce FloatOps.maximumf (val_main_v244 (F := F) x0 x1 x2 x3 x4 x5 x6 x7 x8 x9 x10 x11 x12 x13) (val_main_cst_45 (F := F)) reducesTo_S10000x10000_S10000_d0 h_S_

def val_main_cst_46 : (⟨S_, .f32⟩ : BufTy).Contents (Elt F) :=
  constant S_ .f32 0xFF800000#32

def val_main_v257 : (⟨S10000, .f32⟩ : BufTy).Contents (Elt F) :=
  broadcastInDim S10000 ![] bcast_S_S10000 (val_main_cst_46 (F := F))

def val_main_v258 : (⟨S10000, .f32⟩ : BufTy).Contents (Elt F) :=
  maximumf (val_main_v257 (F := F)) (val_main_v256 (F := F) x0 x1 x2 x3 x4 x5 x6 x7 x8 x9 x10 x11 x12 x13)

def val_main_v259 : (⟨S1x10000, .f32⟩ : BufTy).Contents (Elt F) :=
  broadcastInDim S1x10000 ![1] bcast_S10000_S1x10000_1 (val_main_v258 (F := F) x0 x1 x2 x3 x4 x5 x6 x7 x8 x9 x10 x11 x12 x13)

def val_main_v260 : (⟨S10000x10000, .f32⟩ : BufTy).Contents (Elt F) :=
  broadcastInDim S10000x10000 ![0, 1] bcast_S1x10000_S10000x10000_0_1 (val_main_v259 (F := F) x0 x1 x2 x3 x4 x5 x6 x7 x8 x9 x10 x11 x12 x13)

def val_main_v261 : (⟨S10000x10000, .f32⟩ : BufTy).Contents (Elt F) :=
  subf (val_main_v244 (F := F) x0 x1 x2 x3 x4 x5 x6 x7 x8 x9 x10 x11 x12 x13) (val_main_v260 (F := F) x0 x1 x2 x3 x4 x5 x6 x7 x8 x9 x10 x11 x12 x13)

def val_main_v262 : (⟨S10000x10000, .f32⟩ : BufTy).Contents (Elt F) :=
  Host.exp (val_main_v261 (F := F) x0 x1 x2 x3 x4 x5 x6 x7 x8 x9 x10 x11 x12 x13)

def val_main_cst_47 : (⟨S_, .f32⟩ : BufTy).Contents (Elt F) :=
  constant S_ .f32 0x00000000#32

def val_main_v263 : (⟨S10000, .f32⟩ : BufTy).Contents (Elt F) :=
  Host.reduceAdd (val_main_v262 (F := F) x0 x1 x2 x3 x4 x5 x6 x7 x8 x9 x10 x11 x12 x13) (val_main_cst_47 (F := F)) reducesTo_S10000x10000_S10000_d0 h_S_

def val_main_v264 : (⟨S1x10000, .f32⟩ : BufTy).Contents (Elt F) :=
  broadcastInDim S1x10000 ![1] bcast_S10000_S1x10000_1 (val_main_v263 (F := F) x0 x1 x2 x3 x4 x5 x6 x7 x8 x9 x10 x11 x12 x13)

def val_main_v265 : (⟨S10000x10000, .f32⟩ : BufTy).Contents (Elt F) :=
  broadcastInDim S10000x10000 ![0, 1] bcast_S1x10000_S10000x10000_0_1 (val_main_v264 (F := F) x0 x1 x2 x3 x4 x5 x6 x7 x8 x9 x10 x11 x12 x13)

def val_main_v266 : (⟨S10000x10000, .f32⟩ : BufTy).Contents (Elt F) :=
  Host.divf (val_main_v262 (F := F) x0 x1 x2 x3 x4 x5 x6 x7 x8 x9 x10 x11 x12 x13) (val_main_v265 (F := F) x0 x1 x2 x3 x4 x5 x6 x7 x8 x9 x10 x11 x12 x13)

def val_main_v267 : (⟨S10000x10000, .f32⟩ : BufTy).Contents (Elt F) :=
  transpose S10000x10000 [1, 0] (val_main_v266 (F := F) x0 x1 x2 x3 x4 x5 x6 x7 x8 x9 x10 x11 x12 x13) transposes_S10000x10000_S10000x10000_1_0

def val_main_v268 : (⟨S10000x128, .f32⟩ : BufTy).Contents (Elt F) :=
  Host.dotGeneral dot_S10000x10000_S10000x128_S10000x128_1_0_0_1_n_n none (val_main_v255 (F := F) x0 x1 x2 x3 x4 x5 x6 x7 x8 x9 x10 x11 x12 x13) (val_main_v188 (F := F) x0 x1 x3 x5 x6 x7 x8 x9 x10 x11 x12 x13)

def val_main_v269 : (⟨S10000x128, .f32⟩ : BufTy).Contents (Elt F) :=
  subf (val_main_v151 (F := F) x0 x1 x2 x4 x6 x7 x8 x9 x10 x11 x12 x13) (val_main_v268 (F := F) x0 x1 x2 x3 x4 x5 x6 x7 x8 x9 x10 x11 x12 x13)

def val_main_v270 : (⟨S10000x128, .f32⟩ : BufTy).Contents (Elt F) :=
  Host.dotGeneral dot_S10000x10000_S10000x128_S10000x128_1_0_0_1_n_n none (val_main_v267 (F := F) x0 x1 x2 x3 x4 x5 x6 x7 x8 x9 x10 x11 x12 x13) (val_main_v151 (F := F) x0 x1 x2 x4 x6 x7 x8 x9 x10 x11 x12 x13)

def val_main_v271 : (⟨S10000x128, .f32⟩ : BufTy).Contents (Elt F) :=
  subf (val_main_v188 (F := F) x0 x1 x3 x5 x6 x7 x8 x9 x10 x11 x12 x13) (val_main_v270 (F := F) x0 x1 x2 x3 x4 x5 x6 x7 x8 x9 x10 x11 x12 x13)

def val_main_v272 : (⟨S10000x256, .f32⟩ : BufTy).Contents (Elt F) :=
  concatenate S10000x256 1 [⟨S10000x128, (val_main_v215 (F := F) x0 x1 x2 x4 x6 x7 x8 x9 x10 x11 x12 x13)⟩, ⟨S10000x128, (val_main_v269 (F := F) x0 x1 x2 x3 x4 x5 x6 x7 x8 x9 x10 x11 x12 x13)⟩] concatenates_S10000x128_S10000x128_S10000x256_d1

def val_main_v273 : (⟨S10000x384, .f32⟩ : BufTy).Contents (Elt F) :=
  Host.dotGeneral dot_S10000x256_S256x384_S10000x384_1_0_0_1_n_n none (val_main_v272 (F := F) x0 x1 x2 x3 x4 x5 x6 x7 x8 x9 x10 x11 x12 x13) (x10)

def val_main_v274 : (⟨S1x384, .f32⟩ : BufTy).Contents (Elt F) :=
  broadcastInDim S1x384 ![1] bcast_S384_S1x384_1 (x11)

def val_main_v275 : (⟨S10000x384, .f32⟩ : BufTy).Contents (Elt F) :=
  broadcastInDim S10000x384 ![0, 1] bcast_S1x384_S10000x384_0_1 (val_main_v274 (F := F) x11)

def val_main_v276 : (⟨S10000x384, .f32⟩ : BufTy).Contents (Elt F) :=
  addf (val_main_v273 (F := F) x0 x1 x2 x3 x4 x5 x6 x7 x8 x9 x10 x11 x12 x13) (val_main_v275 (F := F) x11)

def val_main_v277 : (⟨S10000x384, .f32⟩ : BufTy).Contents (Elt F) :=
  Host.dotGeneral dot_S10000x128_S128x384_S10000x384_1_0_0_1_n_n none (val_main_v151 (F := F) x0 x1 x2 x4 x6 x7 x8 x9 x10 x11 x12 x13) (x12)

def val_main_v278 : (⟨S1x384, .f32⟩ : BufTy).Contents (Elt F) :=
  broadcastInDim S1x384 ![1] bcast_S384_S1x384_1 (x13)

def val_main_v279 : (⟨S10000x384, .f32⟩ : BufTy).Contents (Elt F) :=
  broadcastInDim S10000x384 ![0, 1] bcast_S1x384_S10000x384_0_1 (val_main_v278 (F := F) x13)

def val_main_v280 : (⟨S10000x384, .f32⟩ : BufTy).Contents (Elt F) :=
  addf (val_main_v277 (F := F) x0 x1 x2 x4 x6 x7 x8 x9 x10 x11 x12 x13) (val_main_v279 (F := F) x13)

def val_main_v281 : (⟨S10000x128, .f32⟩ : BufTy).Contents (Elt F) :=
  extractStridedSlice S10000x128 ![0, 0] (val_main_v276 (F := F) x0 x1 x2 x3 x4 x5 x6 x7 x8 x9 x10 x11 x12 x13) slices_S10000x384_S10000x128_0_0

def val_main_v282 : (⟨S10000x128, .f32⟩ : BufTy).Contents (Elt F) :=
  extractStridedSlice S10000x128 ![0, 128] (val_main_v276 (F := F) x0 x1 x2 x3 x4 x5 x6 x7 x8 x9 x10 x11 x12 x13) slices_S10000x384_S10000x128_0_128

def val_main_v283 : (⟨S10000x128, .f32⟩ : BufTy).Contents (Elt F) :=
  extractStridedSlice S10000x128 ![0, 256] (val_main_v276 (F := F) x0 x1 x2 x3 x4 x5 x6 x7 x8 x9 x10 x11 x12 x13) slices_S10000x384_S10000x128_0_256

def val_main_v284 : (⟨S10000x128, .f32⟩ : BufTy).Contents (Elt F) :=
  extractStridedSlice S10000x128 ![0, 0] (val_main_v280 (F := F) x0 x1 x2 x4 x6 x7 x8 x9 x10 x11 x12 x13) slices_S10000x384_S10000x128_0_0

def val_main_v285 : (⟨S10000x128, .f32⟩ : BufTy).Contents (Elt F) :=
  extractStridedSlice S10000x128 ![0, 128] (val_main_v280 (F := F) x0 x1 x2 x4 x6 x7 x8 x9 x10 x11 x12 x13) slices_S10000x384_S10000x128_0_128

def val_main_v286 : (⟨S10000x128, .f32⟩ : BufTy).Contents (Elt F) :=
  extractStridedSlice S10000x128 ![0, 256] (val_main_v280 (F := F) x0 x1 x2 x4 x6 x7 x8 x9 x10 x11 x12 x13) slices_S10000x384_S10000x128_0_256

def val_main_v287 : (⟨S10000x128, .f32⟩ : BufTy).Contents (Elt F) :=
  addf (val_main_v281 (F := F) x0 x1 x2 x3 x4 x5 x6 x7 x8 x9 x10 x11 x12 x13) (val_main_v284 (F := F) x0 x1 x2 x4 x6 x7 x8 x9 x10 x11 x12 x13)

def val_main_v288 : (⟨S10000x128, .f32⟩ : BufTy).Contents (Elt F) :=
  Host.negf (val_main_v287 (F := F) x0 x1 x2 x3 x4 x5 x6 x7 x8 x9 x10 x11 x12 x13)

def val_main_v289 : (⟨S10000x128, .f32⟩ : BufTy).Contents (Elt F) :=
  Host.exp (val_main_v288 (F := F) x0 x1 x2 x3 x4 x5 x6 x7 x8 x9 x10 x11 x12 x13)

def val_main_cst_48 : (⟨S_, .f32⟩ : BufTy).Contents (Elt F) :=
  constant S_ .f32 0x3F800000#32

def val_main_v290 : (⟨S10000x128, .f32⟩ : BufTy).Contents (Elt F) :=
  broadcastInDim S10000x128 ![] bcast_S_S10000x128 (val_main_cst_48 (F := F))

def val_main_v291 : (⟨S10000x128, .f32⟩ : BufTy).Contents (Elt F) :=
  addf (val_main_v290 (F := F)) (val_main_v289 (F := F) x0 x1 x2 x3 x4 x5 x6 x7 x8 x9 x10 x11 x12 x13)

def val_main_cst_49 : (⟨S_, .f32⟩ : BufTy).Contents (Elt F) :=
  constant S_ .f32 0x3F800000#32

def val_main_v292 : (⟨S10000x128, .f32⟩ : BufTy).Contents (Elt F) :=
  broadcastInDim S10000x128 ![] bcast_S_S10000x128 (val_main_cst_49 (F := F))

def val_main_v293 : (⟨S10000x128, .f32⟩ : BufTy).Contents (Elt F) :=
  Host.divf (val_main_v292 (F := F)) (val_main_v291 (F := F) x0 x1 x2 x3 x4 x5 x6 x7 x8 x9 x10 x11 x12 x13)

def val_main_v294 : (⟨S10000x128, .f32⟩ : BufTy).Contents (Elt F) :=
  addf (val_main_v282 (F := F) x0 x1 x2 x3 x4 x5 x6 x7 x8 x9 x10 x11 x12 x13) (val_main_v285 (F := F) x0 x1 x2 x4 x6 x7 x8 x9 x10 x11 x12 x13)

def val_main_v295 : (⟨S10000x128, .f32⟩ : BufTy).Contents (Elt F) :=
  Host.negf (val_main_v294 (F := F) x0 x1 x2 x3 x4 x5 x6 x7 x8 x9 x10 x11 x12 x13)
theorem val_main_v295_apply (i : S10000x128.Idx) :
    val_main_v295 (F := F) x0 x1 x2 x3 x4 x5 x6 x7 x8 x9 x10 x11 x12 x13 i = FloatOps.hostNegf (val_main_v294 (F := F) x0 x1 x2 x3 x4 x5 x6 x7 x8 x9 x10 x11 x12 x13 i) := rfl

def val_main_v296 : (⟨S10000x128, .f32⟩ : BufTy).Contents (Elt F) :=
  Host.exp (val_main_v295 (F := F) x0 x1 x2 x3 x4 x5 x6 x7 x8 x9 x10 x11 x12 x13)
theorem val_main_v296_apply (i : S10000x128.Idx) :
    val_main_v296 (F := F) x0 x1 x2 x3 x4 x5 x6 x7 x8 x9 x10 x11 x12 x13 i = FloatOps.hostUnary .exp (val_main_v295 (F := F) x0 x1 x2 x3 x4 x5 x6 x7 x8 x9 x10 x11 x12 x13 i) := rfl

def val_main_cst_50 : (⟨S_, .f32⟩ : BufTy).Contents (Elt F) :=
  constant S_ .f32 0x3F800000#32
theorem val_main_cst_50_apply (i : S_.Idx) :
    val_main_cst_50 (F := F) i = FloatOps.ofBits .f32 0x3F800000#32 := rfl

def val_main_v297 : (⟨S10000x128, .f32⟩ : BufTy).Contents (Elt F) :=
  broadcastInDim S10000x128 ![] bcast_S_S10000x128 (val_main_cst_50 (F := F))
abbrev idx_main_v297 (i : S10000x128.Idx) : S_.Idx := fun a => a.elim0
theorem val_main_v297_apply (i : S10000x128.Idx) :
    val_main_v297 (F := F) i = val_main_cst_50 (F := F) (idx_main_v297 i) := by
  unfold val_main_v297
  generalize val_main_cst_50 (F := F) = y
  exact broadcastInDim_apply _ bcast_S_S10000x128 y i (idx_main_v297 i) (fun a => a.elim0)

def val_main_v298 : (⟨S10000x128, .f32⟩ : BufTy).Contents (Elt F) :=
  addf (val_main_v297 (F := F)) (val_main_v296 (F := F) x0 x1 x2 x3 x4 x5 x6 x7 x8 x9 x10 x11 x12 x13)
theorem val_main_v298_apply (i : S10000x128.Idx) :
    val_main_v298 (F := F) x0 x1 x2 x3 x4 x5 x6 x7 x8 x9 x10 x11 x12 x13 i = FloatOps.addf (val_main_v297 (F := F) i) (val_main_v296 (F := F) x0 x1 x2 x3 x4 x5 x6 x7 x8 x9 x10 x11 x12 x13 i) := rfl

def val_main_cst_51 : (⟨S_, .f32⟩ : BufTy).Contents (Elt F) :=
  constant S_ .f32 0x3F800000#32
theorem val_main_cst_51_apply (i : S_.Idx) :
    val_main_cst_51 (F := F) i = FloatOps.ofBits .f32 0x3F800000#32 := rfl

def val_main_v299 : (⟨S10000x128, .f32⟩ : BufTy).Contents (Elt F) :=
  broadcastInDim S10000x128 ![] bcast_S_S10000x128 (val_main_cst_51 (F := F))
abbrev idx_main_v299 (i : S10000x128.Idx) : S_.Idx := fun a => a.elim0
theorem val_main_v299_apply (i : S10000x128.Idx) :
    val_main_v299 (F := F) i = val_main_cst_51 (F := F) (idx_main_v299 i) := by
  unfold val_main_v299
  generalize val_main_cst_51 (F := F) = y
  exact broadcastInDim_apply _ bcast_S_S10000x128 y i (idx_main_v299 i) (fun a => a.elim0)

def val_main_v300 : (⟨S10000x128, .f32⟩ : BufTy).Contents (Elt F) :=
  Host.divf (val_main_v299 (F := F)) (val_main_v298 (F := F) x0 x1 x2 x3 x4 x5 x6 x7 x8 x9 x10 x11 x12 x13)
theorem val_main_v300_apply (i : S10000x128.Idx) :
    val_main_v300 (F := F) x0 x1 x2 x3 x4 x5 x6 x7 x8 x9 x10 x11 x12 x13 i = FloatOps.hostDivf (val_main_v299 (F := F) i) (val_main_v298 (F := F) x0 x1 x2 x3 x4 x5 x6 x7 x8 x9 x10 x11 x12 x13 i) := rfl

def val_main_v301 : (⟨S10000x128, .f32⟩ : BufTy).Contents (Elt F) :=
  mulf (val_main_v293 (F := F) x0 x1 x2 x3 x4 x5 x6 x7 x8 x9 x10 x11 x12 x13) (val_main_v286 (F := F) x0 x1 x2 x4 x6 x7 x8 x9 x10 x11 x12 x13)

def val_main_v302 : (⟨S10000x128, .f32⟩ : BufTy).Contents (Elt F) :=
  addf (val_main_v283 (F := F) x0 x1 x2 x3 x4 x5 x6 x7 x8 x9 x10 x11 x12 x13) (val_main_v301 (F := F) x0 x1 x2 x3 x4 x5 x6 x7 x8 x9 x10 x11 x12 x13)

def val_main_v303 : (⟨S10000x128, .f32⟩ : BufTy).Contents (Elt F) :=
  Host.tanh (val_main_v302 (F := F) x0 x1 x2 x3 x4 x5 x6 x7 x8 x9 x10 x11 x12 x13)
theorem val_main_v303_apply (i : S10000x128.Idx) :
    val_main_v303 (F := F) x0 x1 x2 x3 x4 x5 x6 x7 x8 x9 x10 x11 x12 x13 i = FloatOps.hostUnary .tanh (val_main_v302 (F := F) x0 x1 x2 x3 x4 x5 x6 x7 x8 x9 x10 x11 x12 x13 i) := rfl

def val_main_cst_52 : (⟨S_, .f32⟩ : BufTy).Contents (Elt F) :=
  constant S_ .f32 0x3F800000#32
theorem val_main_cst_52_apply (i : S_.Idx) :
    val_main_cst_52 (F := F) i = FloatOps.ofBits .f32 0x3F800000#32 := rfl

def val_main_v304 : (⟨S10000x128, .f32⟩ : BufTy).Contents (Elt F) :=
  broadcastInDim S10000x128 ![] bcast_S_S10000x128 (val_main_cst_52 (F := F))
abbrev idx_main_v304 (i : S10000x128.Idx) : S_.Idx := fun a => a.elim0
theorem val_main_v304_apply (i : S10000x128.Idx) :
    val_main_v304 (F := F) i = val_main_cst_52 (F := F) (idx_main_v304 i) := by
  unfold val_main_v304
  generalize val_main_cst_52 (F := F) = y
  exact broadcastInDim_apply _ bcast_S_S10000x128 y i (idx_main_v304 i) (fun a => a.elim0)

def val_main_v305 : (⟨S10000x128, .f32⟩ : BufTy).Contents (Elt F) :=
  subf (val_main_v304 (F := F)) (val_main_v300 (F := F) x0 x1 x2 x3 x4 x5 x6 x7 x8 x9 x10 x11 x12 x13)
theorem val_main_v305_apply (i : S10000x128.Idx) :
    val_main_v305 (F := F) x0 x1 x2 x3 x4 x5 x6 x7 x8 x9 x10 x11 x12 x13 i = FloatOps.subf (val_main_v304 (F := F) i) (val_main_v300 (F := F) x0 x1 x2 x3 x4 x5 x6 x7 x8 x9 x10 x11 x12 x13 i) := rfl

def val_main_v306 : (⟨S10000x128, .f32⟩ : BufTy).Contents (Elt F) :=
  mulf (val_main_v305 (F := F) x0 x1 x2 x3 x4 x5 x6 x7 x8 x9 x10 x11 x12 x13) (val_main_v303 (F := F) x0 x1 x2 x3 x4 x5 x6 x7 x8 x9 x10 x11 x12 x13)
theorem val_main_v306_apply (i : S10000x128.Idx) :
    val_main_v306 (F := F) x0 x1 x2 x3 x4 x5 x6 x7 x8 x9 x10 x11 x12 x13 i = FloatOps.mulf (val_main_v305 (F := F) x0 x1 x2 x3 x4 x5 x6 x7 x8 x9 x10 x11 x12 x13 i) (val_main_v303 (F := F) x0 x1 x2 x3 x4 x5 x6 x7 x8 x9 x10 x11 x12 x13 i) := rfl

def val_main_v307 : (⟨S10000x128, .f32⟩ : BufTy).Contents (Elt F) :=
  mulf (val_main_v300 (F := F) x0 x1 x2 x3 x4 x5 x6 x7 x8 x9 x10 x11 x12 x13) (val_main_v151 (F := F) x0 x1 x2 x4 x6 x7 x8 x9 x10 x11 x12 x13)
theorem val_main_v307_apply (i : S10000x128.Idx) :
    val_main_v307 (F := F) x0 x1 x2 x3 x4 x5 x6 x7 x8 x9 x10 x11 x12 x13 i = FloatOps.mulf (val_main_v300 (F := F) x0 x1 x2 x3 x4 x5 x6 x7 x8 x9 x10 x11 x12 x13 i) (val_main_v151 (F := F) x0 x1 x2 x4 x6 x7 x8 x9 x10 x11 x12 x13 i) := rfl

def val_main_v308 : (⟨S10000x128, .f32⟩ : BufTy).Contents (Elt F) :=
  addf (val_main_v306 (F := F) x0 x1 x2 x3 x4 x5 x6 x7 x8 x9 x10 x11 x12 x13) (val_main_v307 (F := F) x0 x1 x2 x3 x4 x5 x6 x7 x8 x9 x10 x11 x12 x13)
theorem val_main_v308_apply (i : S10000x128.Idx) :
    val_main_v308 (F := F) x0 x1 x2 x3 x4 x5 x6 x7 x8 x9 x10 x11 x12 x13 i = FloatOps.addf (val_main_v306 (F := F) x0 x1 x2 x3 x4 x5 x6 x7 x8 x9 x10 x11 x12 x13 i) (val_main_v307 (F := F) x0 x1 x2 x3 x4 x5 x6 x7 x8 x9 x10 x11 x12 x13 i) := rfl

def val_main_v309 : (⟨S10000x256, .f32⟩ : BufTy).Contents (Elt F) :=
  concatenate S10000x256 1 [⟨S10000x128, (val_main_v242 (F := F) x0 x1 x3 x5 x6 x7 x8 x9 x10 x11 x12 x13)⟩, ⟨S10000x128, (val_main_v271 (F := F) x0 x1 x2 x3 x4 x5 x6 x7 x8 x9 x10 x11 x12 x13)⟩] concatenates_S10000x128_S10000x128_S10000x256_d1

def val_main_v310 : (⟨S10000x384, .f32⟩ : BufTy).Contents (Elt F) :=
  Host.dotGeneral dot_S10000x256_S256x384_S10000x384_1_0_0_1_n_n none (val_main_v309 (F := F) x0 x1 x2 x3 x4 x5 x6 x7 x8 x9 x10 x11 x12 x13) (x10)

def val_main_v311 : (⟨S1x384, .f32⟩ : BufTy).Contents (Elt F) :=
  broadcastInDim S1x384 ![1] bcast_S384_S1x384_1 (x11)

def val_main_v312 : (⟨S10000x384, .f32⟩ : BufTy).Contents (Elt F) :=
  broadcastInDim S10000x384 ![0, 1] bcast_S1x384_S10000x384_0_1 (val_main_v311 (F := F) x11)

def val_main_v313 : (⟨S10000x384, .f32⟩ : BufTy).Contents (Elt F) :=
  addf (val_main_v310 (F := F) x0 x1 x2 x3 x4 x5 x6 x7 x8 x9 x10 x11 x12 x13) (val_main_v312 (F := F) x11)

def val_main_v314 : (⟨S10000x384, .f32⟩ : BufTy).Contents (Elt F) :=
  Host.dotGeneral dot_S10000x128_S128x384_S10000x384_1_0_0_1_n_n none (val_main_v188 (F := F) x0 x1 x3 x5 x6 x7 x8 x9 x10 x11 x12 x13) (x12)

def val_main_v315 : (⟨S1x384, .f32⟩ : BufTy).Contents (Elt F) :=
  broadcastInDim S1x384 ![1] bcast_S384_S1x384_1 (x13)

def val_main_v316 : (⟨S10000x384, .f32⟩ : BufTy).Contents (Elt F) :=
  broadcastInDim S10000x384 ![0, 1] bcast_S1x384_S10000x384_0_1 (val_main_v315 (F := F) x13)

def val_main_v317 : (⟨S10000x384, .f32⟩ : BufTy).Contents (Elt F) :=
  addf (val_main_v314 (F := F) x0 x1 x3 x5 x6 x7 x8 x9 x10 x11 x12 x13) (val_main_v316 (F := F) x13)

def val_main_v318 : (⟨S10000x128, .f32⟩ : BufTy).Contents (Elt F) :=
  extractStridedSlice S10000x128 ![0, 0] (val_main_v313 (F := F) x0 x1 x2 x3 x4 x5 x6 x7 x8 x9 x10 x11 x12 x13) slices_S10000x384_S10000x128_0_0

def val_main_v319 : (⟨S10000x128, .f32⟩ : BufTy).Contents (Elt F) :=
  extractStridedSlice S10000x128 ![0, 128] (val_main_v313 (F := F) x0 x1 x2 x3 x4 x5 x6 x7 x8 x9 x10 x11 x12 x13) slices_S10000x384_S10000x128_0_128

def val_main_v320 : (⟨S10000x128, .f32⟩ : BufTy).Contents (Elt F) :=
  extractStridedSlice S10000x128 ![0, 256] (val_main_v313 (F := F) x0 x1 x2 x3 x4 x5 x6 x7 x8 x9 x10 x11 x12 x13) slices_S10000x384_S10000x128_0_256

def val_main_v321 : (⟨S10000x128, .f32⟩ : BufTy).Contents (Elt F) :=
  extractStridedSlice S10000x128 ![0, 0] (val_main_v317 (F := F) x0 x1 x3 x5 x6 x7 x8 x9 x10 x11 x12 x13) slices_S10000x384_S10000x128_0_0

def val_main_v322 : (⟨S10000x128, .f32⟩ : BufTy).Contents (Elt F) :=
  extractStridedSlice S10000x128 ![0, 128] (val_main_v317 (F := F) x0 x1 x3 x5 x6 x7 x8 x9 x10 x11 x12 x13) slices_S10000x384_S10000x128_0_128

def val_main_v323 : (⟨S10000x128, .f32⟩ : BufTy).Contents (Elt F) :=
  extractStridedSlice S10000x128 ![0, 256] (val_main_v317 (F := F) x0 x1 x3 x5 x6 x7 x8 x9 x10 x11 x12 x13) slices_S10000x384_S10000x128_0_256

def val_main_v324 : (⟨S10000x128, .f32⟩ : BufTy).Contents (Elt F) :=
  addf (val_main_v318 (F := F) x0 x1 x2 x3 x4 x5 x6 x7 x8 x9 x10 x11 x12 x13) (val_main_v321 (F := F) x0 x1 x3 x5 x6 x7 x8 x9 x10 x11 x12 x13)

def val_main_v325 : (⟨S10000x128, .f32⟩ : BufTy).Contents (Elt F) :=
  Host.negf (val_main_v324 (F := F) x0 x1 x2 x3 x4 x5 x6 x7 x8 x9 x10 x11 x12 x13)

def val_main_v326 : (⟨S10000x128, .f32⟩ : BufTy).Contents (Elt F) :=
  Host.exp (val_main_v325 (F := F) x0 x1 x2 x3 x4 x5 x6 x7 x8 x9 x10 x11 x12 x13)

def val_main_cst_53 : (⟨S_, .f32⟩ : BufTy).Contents (Elt F) :=
  constant S_ .f32 0x3F800000#32

def val_main_v327 : (⟨S10000x128, .f32⟩ : BufTy).Contents (Elt F) :=
  broadcastInDim S10000x128 ![] bcast_S_S10000x128 (val_main_cst_53 (F := F))

def val_main_v328 : (⟨S10000x128, .f32⟩ : BufTy).Contents (Elt F) :=
  addf (val_main_v327 (F := F)) (val_main_v326 (F := F) x0 x1 x2 x3 x4 x5 x6 x7 x8 x9 x10 x11 x12 x13)

def val_main_cst_54 : (⟨S_, .f32⟩ : BufTy).Contents (Elt F) :=
  constant S_ .f32 0x3F800000#32

def val_main_v329 : (⟨S10000x128, .f32⟩ : BufTy).Contents (Elt F) :=
  broadcastInDim S10000x128 ![] bcast_S_S10000x128 (val_main_cst_54 (F := F))

def val_main_v330 : (⟨S10000x128, .f32⟩ : BufTy).Contents (Elt F) :=
  Host.divf (val_main_v329 (F := F)) (val_main_v328 (F := F) x0 x1 x2 x3 x4 x5 x6 x7 x8 x9 x10 x11 x12 x13)

def val_main_v331 : (⟨S10000x128, .f32⟩ : BufTy).Contents (Elt F) :=
  addf (val_main_v319 (F := F) x0 x1 x2 x3 x4 x5 x6 x7 x8 x9 x10 x11 x12 x13) (val_main_v322 (F := F) x0 x1 x3 x5 x6 x7 x8 x9 x10 x11 x12 x13)

def val_main_v332 : (⟨S10000x128, .f32⟩ : BufTy).Contents (Elt F) :=
  Host.negf (val_main_v331 (F := F) x0 x1 x2 x3 x4 x5 x6 x7 x8 x9 x10 x11 x12 x13)
theorem val_main_v332_apply (i : S10000x128.Idx) :
    val_main_v332 (F := F) x0 x1 x2 x3 x4 x5 x6 x7 x8 x9 x10 x11 x12 x13 i = FloatOps.hostNegf (val_main_v331 (F := F) x0 x1 x2 x3 x4 x5 x6 x7 x8 x9 x10 x11 x12 x13 i) := rfl

def val_main_v333 : (⟨S10000x128, .f32⟩ : BufTy).Contents (Elt F) :=
  Host.exp (val_main_v332 (F := F) x0 x1 x2 x3 x4 x5 x6 x7 x8 x9 x10 x11 x12 x13)
theorem val_main_v333_apply (i : S10000x128.Idx) :
    val_main_v333 (F := F) x0 x1 x2 x3 x4 x5 x6 x7 x8 x9 x10 x11 x12 x13 i = FloatOps.hostUnary .exp (val_main_v332 (F := F) x0 x1 x2 x3 x4 x5 x6 x7 x8 x9 x10 x11 x12 x13 i) := rfl

def val_main_cst_55 : (⟨S_, .f32⟩ : BufTy).Contents (Elt F) :=
  constant S_ .f32 0x3F800000#32
theorem val_main_cst_55_apply (i : S_.Idx) :
    val_main_cst_55 (F := F) i = FloatOps.ofBits .f32 0x3F800000#32 := rfl

def val_main_v334 : (⟨S10000x128, .f32⟩ : BufTy).Contents (Elt F) :=
  broadcastInDim S10000x128 ![] bcast_S_S10000x128 (val_main_cst_55 (F := F))
abbrev idx_main_v334 (i : S10000x128.Idx) : S_.Idx := fun a => a.elim0
theorem val_main_v334_apply (i : S10000x128.Idx) :
    val_main_v334 (F := F) i = val_main_cst_55 (F := F) (idx_main_v334 i) := by
  unfold val_main_v334
  generalize val_main_cst_55 (F := F) = y
  exact broadcastInDim_apply _ bcast_S_S10000x128 y i (idx_main_v334 i) (fun a => a.elim0)

def val_main_v335 : (⟨S10000x128, .f32⟩ : BufTy).Contents (Elt F) :=
  addf (val_main_v334 (F := F)) (val_main_v333 (F := F) x0 x1 x2 x3 x4 x5 x6 x7 x8 x9 x10 x11 x12 x13)
theorem val_main_v335_apply (i : S10000x128.Idx) :
    val_main_v335 (F := F) x0 x1 x2 x3 x4 x5 x6 x7 x8 x9 x10 x11 x12 x13 i = FloatOps.addf (val_main_v334 (F := F) i) (val_main_v333 (F := F) x0 x1 x2 x3 x4 x5 x6 x7 x8 x9 x10 x11 x12 x13 i) := rfl

def val_main_cst_56 : (⟨S_, .f32⟩ : BufTy).Contents (Elt F) :=
  constant S_ .f32 0x3F800000#32
theorem val_main_cst_56_apply (i : S_.Idx) :
    val_main_cst_56 (F := F) i = FloatOps.ofBits .f32 0x3F800000#32 := rfl

def val_main_v336 : (⟨S10000x128, .f32⟩ : BufTy).Contents (Elt F) :=
  broadcastInDim S10000x128 ![] bcast_S_S10000x128 (val_main_cst_56 (F := F))
abbrev idx_main_v336 (i : S10000x128.Idx) : S_.Idx := fun a => a.elim0
theorem val_main_v336_apply (i : S10000x128.Idx) :
    val_main_v336 (F := F) i = val_main_cst_56 (F := F) (idx_main_v336 i) := by
  unfold val_main_v336
  generalize val_main_cst_56 (F := F) = y
  exact broadcastInDim_apply _ bcast_S_S10000x128 y i (idx_main_v336 i) (fun a => a.elim0)

def val_main_v337 : (⟨S10000x128, .f32⟩ : BufTy).Contents (Elt F) :=
  Host.divf (val_main_v336 (F := F)) (val_main_v335 (F := F) x0 x1 x2 x3 x4 x5 x6 x7 x8 x9 x10 x11 x12 x13)
theorem val_main_v337_apply (i : S10000x128.Idx) :
    val_main_v337 (F := F) x0 x1 x2 x3 x4 x5 x6 x7 x8 x9 x10 x11 x12 x13 i = FloatOps.hostDivf (val_main_v336 (F := F) i) (val_main_v335 (F := F) x0 x1 x2 x3 x4 x5 x6 x7 x8 x9 x10 x11 x12 x13 i) := rfl

def val_main_v338 : (⟨S10000x128, .f32⟩ : BufTy).Contents (Elt F) :=
  mulf (val_main_v330 (F := F) x0 x1 x2 x3 x4 x5 x6 x7 x8 x9 x10 x11 x12 x13) (val_main_v323 (F := F) x0 x1 x3 x5 x6 x7 x8 x9 x10 x11 x12 x13)

def val_main_v339 : (⟨S10000x128, .f32⟩ : BufTy).Contents (Elt F) :=
  addf (val_main_v320 (F := F) x0 x1 x2 x3 x4 x5 x6 x7 x8 x9 x10 x11 x12 x13) (val_main_v338 (F := F) x0 x1 x2 x3 x4 x5 x6 x7 x8 x9 x10 x11 x12 x13)

def val_main_v340 : (⟨S10000x128, .f32⟩ : BufTy).Contents (Elt F) :=
  Host.tanh (val_main_v339 (F := F) x0 x1 x2 x3 x4 x5 x6 x7 x8 x9 x10 x11 x12 x13)
theorem val_main_v340_apply (i : S10000x128.Idx) :
    val_main_v340 (F := F) x0 x1 x2 x3 x4 x5 x6 x7 x8 x9 x10 x11 x12 x13 i = FloatOps.hostUnary .tanh (val_main_v339 (F := F) x0 x1 x2 x3 x4 x5 x6 x7 x8 x9 x10 x11 x12 x13 i) := rfl

def val_main_cst_57 : (⟨S_, .f32⟩ : BufTy).Contents (Elt F) :=
  constant S_ .f32 0x3F800000#32
theorem val_main_cst_57_apply (i : S_.Idx) :
    val_main_cst_57 (F := F) i = FloatOps.ofBits .f32 0x3F800000#32 := rfl

def val_main_v341 : (⟨S10000x128, .f32⟩ : BufTy).Contents (Elt F) :=
  broadcastInDim S10000x128 ![] bcast_S_S10000x128 (val_main_cst_57 (F := F))
abbrev idx_main_v341 (i : S10000x128.Idx) : S_.Idx := fun a => a.elim0
theorem val_main_v341_apply (i : S10000x128.Idx) :
    val_main_v341 (F := F) i = val_main_cst_57 (F := F) (idx_main_v341 i) := by
  unfold val_main_v341
  generalize val_main_cst_57 (F := F) = y
  exact broadcastInDim_apply _ bcast_S_S10000x128 y i (idx_main_v341 i) (fun a => a.elim0)

def val_main_v342 : (⟨S10000x128, .f32⟩ : BufTy).Contents (Elt F) :=
  subf (val_main_v341 (F := F)) (val_main_v337 (F := F) x0 x1 x2 x3 x4 x5 x6 x7 x8 x9 x10 x11 x12 x13)
theorem val_main_v342_apply (i : S10000x128.Idx) :
    val_main_v342 (F := F) x0 x1 x2 x3 x4 x5 x6 x7 x8 x9 x10 x11 x12 x13 i = FloatOps.subf (val_main_v341 (F := F) i) (val_main_v337 (F := F) x0 x1 x2 x3 x4 x5 x6 x7 x8 x9 x10 x11 x12 x13 i) := rfl

def val_main_v343 : (⟨S10000x128, .f32⟩ : BufTy).Contents (Elt F) :=
  mulf (val_main_v342 (F := F) x0 x1 x2 x3 x4 x5 x6 x7 x8 x9 x10 x11 x12 x13) (val_main_v340 (F := F) x0 x1 x2 x3 x4 x5 x6 x7 x8 x9 x10 x11 x12 x13)
theorem val_main_v343_apply (i : S10000x128.Idx) :
    val_main_v343 (F := F) x0 x1 x2 x3 x4 x5 x6 x7 x8 x9 x10 x11 x12 x13 i = FloatOps.mulf (val_main_v342 (F := F) x0 x1 x2 x3 x4 x5 x6 x7 x8 x9 x10 x11 x12 x13 i) (val_main_v340 (F := F) x0 x1 x2 x3 x4 x5 x6 x7 x8 x9 x10 x11 x12 x13 i) := rfl

def val_main_v344 : (⟨S10000x128, .f32⟩ : BufTy).Contents (Elt F) :=
  mulf (val_main_v337 (F := F) x0 x1 x2 x3 x4 x5 x6 x7 x8 x9 x10 x11 x12 x13) (val_main_v188 (F := F) x0 x1 x3 x5 x6 x7 x8 x9 x10 x11 x12 x13)
theorem val_main_v344_apply (i : S10000x128.Idx) :
    val_main_v344 (F := F) x0 x1 x2 x3 x4 x5 x6 x7 x8 x9 x10 x11 x12 x13 i = FloatOps.mulf (val_main_v337 (F := F) x0 x1 x2 x3 x4 x5 x6 x7 x8 x9 x10 x11 x12 x13 i) (val_main_v188 (F := F) x0 x1 x3 x5 x6 x7 x8 x9 x10 x11 x12 x13 i) := rfl

def val_main_v345 : (⟨S10000x128, .f32⟩ : BufTy).Contents (Elt F) :=
  addf (val_main_v343 (F := F) x0 x1 x2 x3 x4 x5 x6 x7 x8 x9 x10 x11 x12 x13) (val_main_v344 (F := F) x0 x1 x2 x3 x4 x5 x6 x7 x8 x9 x10 x11 x12 x13)
theorem val_main_v345_apply (i : S10000x128.Idx) :
    val_main_v345 (F := F) x0 x1 x2 x3 x4 x5 x6 x7 x8 x9 x10 x11 x12 x13 i = FloatOps.addf (val_main_v343 (F := F) x0 x1 x2 x3 x4 x5 x6 x7 x8 x9 x10 x11 x12 x13 i) (val_main_v344 (F := F) x0 x1 x2 x3 x4 x5 x6 x7 x8 x9 x10 x11 x12 x13 i) := rfl

def val_main_v346 : (⟨S10000x1, .f32⟩ : BufTy).Contents (Elt F) :=
  Host.dotGeneral dot_S10000x128_S128x1_S10000x1_1_0_0_1_n_n none (val_main_v308 (F := F) x0 x1 x2 x3 x4 x5 x6 x7 x8 x9 x10 x11 x12 x13) (x14)

def val_main_v347 : (⟨S1x1, .f32⟩ : BufTy).Contents (Elt F) :=
  broadcastInDim S1x1 ![1] bcast_S1_S1x1_1 (x15)

def val_main_v348 : (⟨S10000x1, .f32⟩ : BufTy).Contents (Elt F) :=
  broadcastInDim S10000x1 ![0, 1] bcast_S1x1_S10000x1_0_1 (val_main_v347 (F := F) x15)

def val_main_v349 : (⟨S10000x1, .f32⟩ : BufTy).Contents (Elt F) :=
  addf (val_main_v346 (F := F) x0 x1 x2 x3 x4 x5 x6 x7 x8 x9 x10 x11 x12 x13 x14) (val_main_v348 (F := F) x15)

def val_main_v350 : (⟨S10000x1, .f32⟩ : BufTy).Contents (Elt F) :=
  Host.negf (val_main_v349 (F := F) x0 x1 x2 x3 x4 x5 x6 x7 x8 x9 x10 x11 x12 x13 x14 x15)

def val_main_v351 : (⟨S10000x1, .f32⟩ : BufTy).Contents (Elt F) :=
  Host.exp (val_main_v350 (F := F) x0 x1 x2 x3 x4 x5 x6 x7 x8 x9 x10 x11 x12 x13 x14 x15)

def val_main_cst_58 : (⟨S_, .f32⟩ : BufTy).Contents (Elt F) :=
  constant S_ .f32 0x3F800000#32

def val_main_v352 : (⟨S10000x1, .f32⟩ : BufTy).Contents (Elt F) :=
  broadcastInDim S10000x1 ![] bcast_S_S10000x1 (val_main_cst_58 (F := F))

def val_main_v353 : (⟨S10000x1, .f32⟩ : BufTy).Contents (Elt F) :=
  addf (val_main_v352 (F := F)) (val_main_v351 (F := F) x0 x1 x2 x3 x4 x5 x6 x7 x8 x9 x10 x11 x12 x13 x14 x15)

def val_main_cst_59 : (⟨S_, .f32⟩ : BufTy).Contents (Elt F) :=
  constant S_ .f32 0x3F800000#32

def val_main_v354 : (⟨S10000x1, .f32⟩ : BufTy).Contents (Elt F) :=
  broadcastInDim S10000x1 ![] bcast_S_S10000x1 (val_main_cst_59 (F := F))

def val_main_v355 : (⟨S10000x1, .f32⟩ : BufTy).Contents (Elt F) :=
  Host.divf (val_main_v354 (F := F)) (val_main_v353 (F := F) x0 x1 x2 x3 x4 x5 x6 x7 x8 x9 x10 x11 x12 x13 x14 x15)

def val_main_cst_60 : (⟨S_, .f32⟩ : BufTy).Contents (Elt F) :=
  constant S_ .f32 0xFF800000#32

def val_main_v356 : (⟨S1, .f32⟩ : BufTy).Contents (Elt F) :=
  Host.reduce FloatOps.maximumf (val_main_v355 (F := F) x0 x1 x2 x3 x4 x5 x6 x7 x8 x9 x10 x11 x12 x13 x14 x15) (val_main_cst_60 (F := F)) reducesTo_S10000x1_S1_d0 h_S_

def val_main_cst_61 : (⟨S_, .f32⟩ : BufTy).Contents (Elt F) :=
  constant S_ .f32 0xFF800000#32

def val_main_v357 : (⟨S1, .f32⟩ : BufTy).Contents (Elt F) :=
  broadcastInDim S1 ![] bcast_S_S1 (val_main_cst_61 (F := F))

def val_main_v358 : (⟨S1, .f32⟩ : BufTy).Contents (Elt F) :=
  maximumf (val_main_v357 (F := F)) (val_main_v356 (F := F) x0 x1 x2 x3 x4 x5 x6 x7 x8 x9 x10 x11 x12 x13 x14 x15)

def val_main_v359 : (⟨S1x1, .f32⟩ : BufTy).Contents (Elt F) :=
  broadcastInDim S1x1 ![1] bcast_S1_S1x1_1 (val_main_v358 (F := F) x0 x1 x2 x3 x4 x5 x6 x7 x8 x9 x10 x11 x12 x13 x14 x15)

def val_main_v360 : (⟨S10000x1, .f32⟩ : BufTy).Contents (Elt F) :=
  broadcastInDim S10000x1 ![0, 1] bcast_S1x1_S10000x1_0_1 (val_main_v359 (F := F) x0 x1 x2 x3 x4 x5 x6 x7 x8 x9 x10 x11 x12 x13 x14 x15)

def val_main_v361 : (⟨S10000x1, .f32⟩ : BufTy).Contents (Elt F) :=
  subf (val_main_v355 (F := F) x0 x1 x2 x3 x4 x5 x6 x7 x8 x9 x10 x11 x12 x13 x14 x15) (val_main_v360 (F := F) x0 x1 x2 x3 x4 x5 x6 x7 x8 x9 x10 x11 x12 x13 x14 x15)

def val_main_v362 : (⟨S10000x1, .f32⟩ : BufTy).Contents (Elt F) :=
  Host.exp (val_main_v361 (F := F) x0 x1 x2 x3 x4 x5 x6 x7 x8 x9 x10 x11 x12 x13 x14 x15)

def val_main_cst_62 : (⟨S_, .f32⟩ : BufTy).Contents (Elt F) :=
  constant S_ .f32 0x00000000#32

def val_main_v363 : (⟨S1, .f32⟩ : BufTy).Contents (Elt F) :=
  Host.reduceAdd (val_main_v362 (F := F) x0 x1 x2 x3 x4 x5 x6 x7 x8 x9 x10 x11 x12 x13 x14 x15) (val_main_cst_62 (F := F)) reducesTo_S10000x1_S1_d0 h_S_

def val_main_v364 : (⟨S1x1, .f32⟩ : BufTy).Contents (Elt F) :=
  broadcastInDim S1x1 ![1] bcast_S1_S1x1_1 (val_main_v363 (F := F) x0 x1 x2 x3 x4 x5 x6 x7 x8 x9 x10 x11 x12 x13 x14 x15)

def val_main_v365 : (⟨S10000x1, .f32⟩ : BufTy).Contents (Elt F) :=
  broadcastInDim S10000x1 ![0, 1] bcast_S1x1_S10000x1_0_1 (val_main_v364 (F := F) x0 x1 x2 x3 x4 x5 x6 x7 x8 x9 x10 x11 x12 x13 x14 x15)

def val_main_v366 : (⟨S10000x1, .f32⟩ : BufTy).Contents (Elt F) :=
  Host.divf (val_main_v362 (F := F) x0 x1 x2 x3 x4 x5 x6 x7 x8 x9 x10 x11 x12 x13 x14 x15) (val_main_v365 (F := F) x0 x1 x2 x3 x4 x5 x6 x7 x8 x9 x10 x11 x12 x13 x14 x15)

def val_main_v367 : (⟨S10000x128, .f32⟩ : BufTy).Contents (Elt F) :=
  broadcastInDim S10000x128 ![0, 1] bcast_S10000x1_S10000x128_0_1 (val_main_v366 (F := F) x0 x1 x2 x3 x4 x5 x6 x7 x8 x9 x10 x11 x12 x13 x14 x15)

def val_main_v368 : (⟨S10000x128, .f32⟩ : BufTy).Contents (Elt F) :=
  mulf (val_main_v367 (F := F) x0 x1 x2 x3 x4 x5 x6 x7 x8 x9 x10 x11 x12 x13 x14 x15) (val_main_v308 (F := F) x0 x1 x2 x3 x4 x5 x6 x7 x8 x9 x10 x11 x12 x13)

def val_main_cst_63 : (⟨S_, .f32⟩ : BufTy).Contents (Elt F) :=
  constant S_ .f32 0x00000000#32

def val_main_v369 : (⟨S128, .f32⟩ : BufTy).Contents (Elt F) :=
  Host.reduceAdd (val_main_v368 (F := F) x0 x1 x2 x3 x4 x5 x6 x7 x8 x9 x10 x11 x12 x13 x14 x15) (val_main_cst_63 (F := F)) reducesTo_S10000x128_S128_d0 h_S_

def val_main_v370 : (⟨S1x128, .f32⟩ : BufTy).Contents (Elt F) :=
  broadcastInDim S1x128 ![1] bcast_S128_S1x128_1 (val_main_v369 (F := F) x0 x1 x2 x3 x4 x5 x6 x7 x8 x9 x10 x11 x12 x13 x14 x15)

def val_main_v371 : (⟨S10000x1, .f32⟩ : BufTy).Contents (Elt F) :=
  Host.dotGeneral dot_S10000x128_S128x1_S10000x1_1_0_0_1_n_n none (val_main_v345 (F := F) x0 x1 x2 x3 x4 x5 x6 x7 x8 x9 x10 x11 x12 x13) (x14)

def val_main_v372 : (⟨S1x1, .f32⟩ : BufTy).Contents (Elt F) :=
  broadcastInDim S1x1 ![1] bcast_S1_S1x1_1 (x15)

def val_main_v373 : (⟨S10000x1, .f32⟩ : BufTy).Contents (Elt F) :=
  broadcastInDim S10000x1 ![0, 1] bcast_S1x1_S10000x1_0_1 (val_main_v372 (F := F) x15)

def val_main_v374 : (⟨S10000x1, .f32⟩ : BufTy).Contents (Elt F) :=
  addf (val_main_v371 (F := F) x0 x1 x2 x3 x4 x5 x6 x7 x8 x9 x10 x11 x12 x13 x14) (val_main_v373 (F := F) x15)

def val_main_v375 : (⟨S10000x1, .f32⟩ : BufTy).Contents (Elt F) :=
  Host.negf (val_main_v374 (F := F) x0 x1 x2 x3 x4 x5 x6 x7 x8 x9 x10 x11 x12 x13 x14 x15)

def val_main_v376 : (⟨S10000x1, .f32⟩ : BufTy).Contents (Elt F) :=
  Host.exp (val_main_v375 (F := F) x0 x1 x2 x3 x4 x5 x6 x7 x8 x9 x10 x11 x12 x13 x14 x15)

def val_main_cst_64 : (⟨S_, .f32⟩ : BufTy).Contents (Elt F) :=
  constant S_ .f32 0x3F800000#32

def val_main_v377 : (⟨S10000x1, .f32⟩ : BufTy).Contents (Elt F) :=
  broadcastInDim S10000x1 ![] bcast_S_S10000x1 (val_main_cst_64 (F := F))

def val_main_v378 : (⟨S10000x1, .f32⟩ : BufTy).Contents (Elt F) :=
  addf (val_main_v377 (F := F)) (val_main_v376 (F := F) x0 x1 x2 x3 x4 x5 x6 x7 x8 x9 x10 x11 x12 x13 x14 x15)

def val_main_cst_65 : (⟨S_, .f32⟩ : BufTy).Contents (Elt F) :=
  constant S_ .f32 0x3F800000#32

def val_main_v379 : (⟨S10000x1, .f32⟩ : BufTy).Contents (Elt F) :=
  broadcastInDim S10000x1 ![] bcast_S_S10000x1 (val_main_cst_65 (F := F))

def val_main_v380 : (⟨S10000x1, .f32⟩ : BufTy).Contents (Elt F) :=
  Host.divf (val_main_v379 (F := F)) (val_main_v378 (F := F) x0 x1 x2 x3 x4 x5 x6 x7 x8 x9 x10 x11 x12 x13 x14 x15)

def val_main_cst_66 : (⟨S_, .f32⟩ : BufTy).Contents (Elt F) :=
  constant S_ .f32 0xFF800000#32

def val_main_v381 : (⟨S1, .f32⟩ : BufTy).Contents (Elt F) :=
  Host.reduce FloatOps.maximumf (val_main_v380 (F := F) x0 x1 x2 x3 x4 x5 x6 x7 x8 x9 x10 x11 x12 x13 x14 x15) (val_main_cst_66 (F := F)) reducesTo_S10000x1_S1_d0 h_S_

def val_main_cst_67 : (⟨S_, .f32⟩ : BufTy).Contents (Elt F) :=
  constant S_ .f32 0xFF800000#32

def val_main_v382 : (⟨S1, .f32⟩ : BufTy).Contents (Elt F) :=
  broadcastInDim S1 ![] bcast_S_S1 (val_main_cst_67 (F := F))

def val_main_v383 : (⟨S1, .f32⟩ : BufTy).Contents (Elt F) :=
  maximumf (val_main_v382 (F := F)) (val_main_v381 (F := F) x0 x1 x2 x3 x4 x5 x6 x7 x8 x9 x10 x11 x12 x13 x14 x15)

def val_main_v384 : (⟨S1x1, .f32⟩ : BufTy).Contents (Elt F) :=
  broadcastInDim S1x1 ![1] bcast_S1_S1x1_1 (val_main_v383 (F := F) x0 x1 x2 x3 x4 x5 x6 x7 x8 x9 x10 x11 x12 x13 x14 x15)

def val_main_v385 : (⟨S10000x1, .f32⟩ : BufTy).Contents (Elt F) :=
  broadcastInDim S10000x1 ![0, 1] bcast_S1x1_S10000x1_0_1 (val_main_v384 (F := F) x0 x1 x2 x3 x4 x5 x6 x7 x8 x9 x10 x11 x12 x13 x14 x15)

def val_main_v386 : (⟨S10000x1, .f32⟩ : BufTy).Contents (Elt F) :=
  subf (val_main_v380 (F := F) x0 x1 x2 x3 x4 x5 x6 x7 x8 x9 x10 x11 x12 x13 x14 x15) (val_main_v385 (F := F) x0 x1 x2 x3 x4 x5 x6 x7 x8 x9 x10 x11 x12 x13 x14 x15)

def val_main_v387 : (⟨S10000x1, .f32⟩ : BufTy).Contents (Elt F) :=
  Host.exp (val_main_v386 (F := F) x0 x1 x2 x3 x4 x5 x6 x7 x8 x9 x10 x11 x12 x13 x14 x15)

def val_main_cst_68 : (⟨S_, .f32⟩ : BufTy).Contents (Elt F) :=
  constant S_ .f32 0x00000000#32

def val_main_v388 : (⟨S1, .f32⟩ : BufTy).Contents (Elt F) :=
  Host.reduceAdd (val_main_v387 (F := F) x0 x1 x2 x3 x4 x5 x6 x7 x8 x9 x10 x11 x12 x13 x14 x15) (val_main_cst_68 (F := F)) reducesTo_S10000x1_S1_d0 h_S_

def val_main_v389 : (⟨S1x1, .f32⟩ : BufTy).Contents (Elt F) :=
  broadcastInDim S1x1 ![1] bcast_S1_S1x1_1 (val_main_v388 (F := F) x0 x1 x2 x3 x4 x5 x6 x7 x8 x9 x10 x11 x12 x13 x14 x15)

def val_main_v390 : (⟨S10000x1, .f32⟩ : BufTy).Contents (Elt F) :=
  broadcastInDim S10000x1 ![0, 1] bcast_S1x1_S10000x1_0_1 (val_main_v389 (F := F) x0 x1 x2 x3 x4 x5 x6 x7 x8 x9 x10 x11 x12 x13 x14 x15)

def val_main_v391 : (⟨S10000x1, .f32⟩ : BufTy).Contents (Elt F) :=
  Host.divf (val_main_v387 (F := F) x0 x1 x2 x3 x4 x5 x6 x7 x8 x9 x10 x11 x12 x13 x14 x15) (val_main_v390 (F := F) x0 x1 x2 x3 x4 x5 x6 x7 x8 x9 x10 x11 x12 x13 x14 x15)

def val_main_v392 : (⟨S10000x128, .f32⟩ : BufTy).Contents (Elt F) :=
  broadcastInDim S10000x128 ![0, 1] bcast_S10000x1_S10000x128_0_1 (val_main_v391 (F := F) x0 x1 x2 x3 x4 x5 x6 x7 x8 x9 x10 x11 x12 x13 x14 x15)

def val_main_v393 : (⟨S10000x128, .f32⟩ : BufTy).Contents (Elt F) :=
  mulf (val_main_v392 (F := F) x0 x1 x2 x3 x4 x5 x6 x7 x8 x9 x10 x11 x12 x13 x14 x15) (val_main_v345 (F := F) x0 x1 x2 x3 x4 x5 x6 x7 x8 x9 x10 x11 x12 x13)

def val_main_cst_69 : (⟨S_, .f32⟩ : BufTy).Contents (Elt F) :=
  constant S_ .f32 0x00000000#32

def val_main_v394 : (⟨S128, .f32⟩ : BufTy).Contents (Elt F) :=
  Host.reduceAdd (val_main_v393 (F := F) x0 x1 x2 x3 x4 x5 x6 x7 x8 x9 x10 x11 x12 x13 x14 x15) (val_main_cst_69 (F := F)) reducesTo_S10000x128_S128_d0 h_S_

def val_main_v395 : (⟨S1x128, .f32⟩ : BufTy).Contents (Elt F) :=
  broadcastInDim S1x128 ![1] bcast_S128_S1x128_1 (val_main_v394 (F := F) x0 x1 x2 x3 x4 x5 x6 x7 x8 x9 x10 x11 x12 x13 x14 x15)
end Cert.ReferenceIdeal.ReadP

end
-- ==== Proof.Val.Stage0.lean ====
import proofs.«407386_j15839839387945_2_alg».proof.Proof.Val.Host0
import proofs.«407386_j15839839387945_2_alg».proof.Proof.RefRead

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo Idealize.ShloMosaic.ValueIdx

section Structural

variable {F : FTy → Type} [FloatOps F]
variable (W : Valuation τ sig (Elt F))

theorem stage0_v7 : StableHlo.after (hostOps0 (F := F)) W (Proc.devRef .tc main_v7)
    = ReferenceIdeal.ReadP.val_main_v7 (F := F) (W (Proc.devRef .tc main_arg0)) (W (Proc.devRef .tc main_arg6)) :=
  (host0_v7 W).trans rfl

theorem stage0_v15 : StableHlo.after (hostOps0 (F := F)) W (Proc.devRef .tc main_v15)
    = ReferenceIdeal.ReadP.val_main_v15 (F := F) (W (Proc.devRef .tc main_arg1)) (W (Proc.devRef .tc main_arg6)) :=
  (host0_v15 W).trans rfl

set_option maxHeartbeats 1000000 in

theorem stage0_v31 : StableHlo.after (hostOps0 (F := F)) W (Proc.devRef .tc main_v31)
    = ReferenceIdeal.ReadP.val_main_v35 (F := F) (W (Proc.devRef .tc main_arg2)) := by
  after_results_simp; rfl

theorem gather_row1_eq {α : Type} (X : S10000x128.Idx → α) (x2 : (⟨S2x160000, .i32⟩ : BufTy).Contents (Elt F)) :
    Host.gather gather_S10000x128_S160000x1_S160000x128_1_0_n_n_0_1_1128 X (edgeCol (F := F) (edgeRow1 x2))
      = Host.gather ReferenceIdeal.gather_S10000x128_S160000x1_S160000x128_1_0_n_n_0_1_1128 X (ReferenceIdeal.ReadP.val_main_v41 (F := F) x2) :=
  rfl

theorem gather_row0_eq {α : Type} (X : S10000x128.Idx → α) (x2 : (⟨S2x160000, .i32⟩ : BufTy).Contents (Elt F)) :
    Host.gather gather_S10000x128_S160000x1_S160000x128_1_0_n_n_0_1_1128 X (edgeCol (F := F) (edgeRow0 x2))
      = Host.gather ReferenceIdeal.gather_S10000x128_S160000x1_S160000x128_1_0_n_n_0_1_1128 X (ReferenceIdeal.ReadP.val_main_v48 (F := F) x2) :=
  rfl

end Structural

section Exact

variable (W : Valuation τ sig (Elt Ideal))

theorem stage0_x1 : h0_x1 W
    = ReferenceIdeal.ReadP.val_main_v7 (F := Ideal) (W (Proc.devRef .tc main_arg0)) (W (Proc.devRef .tc main_arg6)) :=
  stage0_v7 W

theorem stage0_x1n : h0_x1n W
    = ReferenceIdeal.ReadP.val_main_v7 (F := Ideal) (W (Proc.devRef .tc main_arg0)) (W (Proc.devRef .tc main_arg6)) :=
  (host0_v26_fun W).trans (stage0_x1 W)

theorem stage0_x2 : h0_x2 W
    = ReferenceIdeal.ReadP.val_main_v15 (F := Ideal) (W (Proc.devRef .tc main_arg1)) (W (Proc.devRef .tc main_arg6)) :=
  stage0_v15 W

theorem stage0_x2n : h0_x2n W
    = ReferenceIdeal.ReadP.val_main_v15 (F := Ideal) (W (Proc.devRef .tc main_arg1)) (W (Proc.devRef .tc main_arg6)) :=
  (host0_v27_fun W).trans (stage0_x2 W)

theorem stage0_xdst : h0_xdst W
    = ReferenceIdeal.ReadP.val_main_v42 (F := Ideal) (W (Proc.devRef .tc main_arg0)) (W (Proc.devRef .tc main_arg2)) (W (Proc.devRef .tc main_arg6)) := by
  rw [host0_v38_exact, stage0_x1]
  exact (gather_row1_eq (F := Ideal) _ _).trans rfl

theorem stage0_xsrc : h0_xsrc W
    = ReferenceIdeal.ReadP.val_main_v49 (F := Ideal) (W (Proc.devRef .tc main_arg0)) (W (Proc.devRef .tc main_arg2)) (W (Proc.devRef .tc main_arg6)) := by
  rw [host0_v45_exact, stage0_x1]
  exact (gather_row0_eq (F := Ideal) _ _).trans rfl

end Exact

end Cert.KernelIdeal.Val

end
-- ==== Proof.Val.HostL1.lean ====
import proofs.«407386_j15839839387945_2_alg».proof.Proof.Gen.KernelIdeal.Launch
import proofs.«407386_j15839839387945_2_alg».proof.Proof.RefRead
import Idealize.ShloMosaic.Lib.StableHlo.Run

set_option maxRecDepth 8192

noncomputable section

namespace Cert.KernelIdeal.Val

open Cert.KernelIdeal Cert.KernelIdeal.Gen Cert.ReferenceIdeal.ReadP
open Idealize.ShloMosaic Idealize.ShloMosaic.TcCoe Idealize.SL.Sem Idealize.ShloMosaic.StableHlo

section Structural1

variable {F : FTy → Type} [FloatOps F]
variable (W : Valuation τ sig (Elt F))

set_option maxHeartbeats 2000000 in

theorem host1_v49 (x0 : (⟨S10000x1, .i32⟩ : BufTy).Contents (Elt F)) (x2 : (⟨S2x160000, .i32⟩ : BufTy).Contents (Elt F)) (x4 : (⟨S160000x1, .i32⟩ : BufTy).Contents (Elt F))
    (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F))
    (h31 : W (Proc.devRef .tc main_v31) = val_main_v35 (F := F) x2)
    (h46 : W (Proc.devRef .tc main_v46) = val_main_v55 (F := F) x0 x2 x4 x6 x7 x8 x9) :
    StableHlo.after (hostOps1 (F := F)) W (Proc.devRef .tc main_v49) = val_main_v58 (F := F) x0 x2 x4 x6 x7 x8 x9 := by
  after_results_simp
  rw [h31, h46]
  rfl

set_option maxHeartbeats 2000000 in

theorem host1_v53 (x3 : (⟨S2x160000, .i32⟩ : BufTy).Contents (Elt F)) (h3 : W (Proc.devRef .tc main_arg3) = x3) :
    StableHlo.after (hostOps1 (F := F)) W (Proc.devRef .tc main_v53) = val_main_v62 (F := F) x3 := by
  after_results_simp
  rw [h3]
  rfl

end Structural1

section Exact1

variable (W : Valuation τ sig (Elt Ideal))

set_option maxHeartbeats 2000000 in

theorem host1_v60 (x1 : (⟨S10000x1, .i32⟩ : BufTy).Contents (Elt Ideal)) (x3 : (⟨S2x160000, .i32⟩ : BufTy).Contents (Elt Ideal)) (x6 : (⟨S32000x128, .f32⟩ : BufTy).Contents (Elt Ideal))
    (h27 : (W (Proc.devRef .tc main_v27) : S10000x128.Idx → EReal) = val_main_v15 (F := Ideal) x1 x6)
    (h3 : W (Proc.devRef .tc main_arg3) = x3) :
    (StableHlo.after (hostOps1 (F := Ideal)) W (Proc.devRef .tc main_v60) : S160000x128.Idx → EReal) = val_main_v69 (F := Ideal) x1 x3 x6 := by
  after_results_simp
  rw [h27, h3]
  rfl

set_option maxHeartbeats 2000000 in

theorem host1_v67 (x1 : (⟨S10000x1, .i32⟩ : BufTy).Contents (Elt Ideal)) (x3 : (⟨S2x160000, .i32⟩ : BufTy).Contents (Elt Ideal)) (x6 : (⟨S32000x128, .f32⟩ : BufTy).Contents (Elt Ideal))
    (h27 : (W (Proc.devRef .tc main_v27) : S10000x128.Idx → EReal) = val_main_v15 (F := Ideal) x1 x6)
    (h3 : W (Proc.devRef .tc main_arg3) = x3) :
    (StableHlo.after (hostOps1 (F := Ideal)) W (Proc.devRef .tc main_v67) : S160000x128.Idx → EReal) = val_main_v76 (F := Ideal) x1 x3 x6 := by
  after_results_simp
  rw [h27, h3]
  rfl

end Exact1

section Keep1

variable {F : FTy → Type} [FloatOps F]
variable (W : Valuation τ sig (Elt F))

end Keep1

section Structural2

variable {F : FTy → Type} [FloatOps F]
variable (W : Valuation τ sig (Elt F))

set_option maxHeartbeats 2000000 in

theorem host2_v71 (x1 : (⟨S10000x1, .i32⟩ : BufTy).Contents (Elt F)) (x3 : (⟨S2x160000, .i32⟩ : BufTy).Contents (Elt F)) (x5 : (⟨S160000x1, .i32⟩ : BufTy).Contents (Elt F))
    (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F))
    (h53 : W (Proc.devRef .tc main_v53) = val_main_v62 (F := F) x3)
    (h68 : W (Proc.devRef .tc main_v68) = val_main_v82 (F := F) x1 x3 x5 x6 x7 x8 x9) :
    StableHlo.after (hostOps2 (F := F)) W (Proc.devRef .tc main_v71) = val_main_v85 (F := F) x1 x3 x5 x6 x7 x8 x9 := by
  after_results_simp
  rw [h53, h68]
  rfl

end Structural2

section Keep2

variable {F : FTy → Type} [FloatOps F]
variable (W : Valuation τ sig (Elt F))

end Keep2

end Cert.KernelIdeal.Val

end
-- ==== Proof.Val.HostL4.lean ====
import proofs.«407386_j15839839387945_2_alg».proof.Proof.Gen.KernelIdeal.Launch
import proofs.«407386_j15839839387945_2_alg».proof.Proof.RefRead
import Idealize.ShloMosaic.Lib.StableHlo.Run

set_option maxRecDepth 8192

noncomputable section

namespace Cert.KernelIdeal.Val

open Cert.KernelIdeal Cert.KernelIdeal.Gen Cert.ReferenceIdeal.ReadP
open Idealize.ShloMosaic Idealize.ShloMosaic.TcCoe Idealize.SL.Sem Idealize.ShloMosaic.StableHlo

section Structural4

variable {F : FTy → Type} [FloatOps F]
variable (W : Valuation τ sig (Elt F))

set_option maxHeartbeats 8000000 in

theorem host4_v110 (x0 x1 : (⟨S10000x1, .i32⟩ : BufTy).Contents (Elt F)) (x2 : (⟨S2x160000, .i32⟩ : BufTy).Contents (Elt F)) (x4 : (⟨S160000x1, .i32⟩ : BufTy).Contents (Elt F))
    (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F))
    (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F))
    (h49 : W (Proc.devRef .tc main_v49) = val_main_v58 (F := F) x0 x2 x4 x6 x7 x8 x9)
    (h72 : W (Proc.devRef .tc main_v72) = val_main_v112 (F := F) x0 x1 x6)
    (h7 : W (Proc.devRef .tc main_v7) = val_main_v7 (F := F) x0 x6)
    (h10 : W (Proc.devRef .tc main_arg10) = x10) (h11 : W (Proc.devRef .tc main_arg11) = x11)
    (h12 : W (Proc.devRef .tc main_arg12) = x12) (h13 : W (Proc.devRef .tc main_arg13) = x13) :
    StableHlo.after (hostOps4 (F := F)) W (Proc.devRef .tc main_v110)
      = val_main_v151 (F := F) x0 x1 x2 x4 x6 x7 x8 x9 x10 x11 x12 x13 := by
  after_results_simp
  rw [h49, h72, h7, h10, h11, h12, h13]
  rfl

set_option maxHeartbeats 8000000 in

theorem host4_v147 (x0 x1 : (⟨S10000x1, .i32⟩ : BufTy).Contents (Elt F)) (x3 : (⟨S2x160000, .i32⟩ : BufTy).Contents (Elt F)) (x5 : (⟨S160000x1, .i32⟩ : BufTy).Contents (Elt F))
    (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F))
    (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F))
    (h71 : W (Proc.devRef .tc main_v71) = val_main_v85 (F := F) x1 x3 x5 x6 x7 x8 x9)
    (h73 : W (Proc.devRef .tc main_v73) = val_main_v114 (F := F) x0 x1 x6)
    (h15 : W (Proc.devRef .tc main_v15) = val_main_v15 (F := F) x1 x6)
    (h10 : W (Proc.devRef .tc main_arg10) = x10) (h11 : W (Proc.devRef .tc main_arg11) = x11)
    (h12 : W (Proc.devRef .tc main_arg12) = x12) (h13 : W (Proc.devRef .tc main_arg13) = x13) :
    StableHlo.after (hostOps4 (F := F)) W (Proc.devRef .tc main_v147)
      = val_main_v188 (F := F) x0 x1 x3 x5 x6 x7 x8 x9 x10 x11 x12 x13 := by
  simp only [val_main_v188, val_main_v187, val_main_v186, val_main_v185, val_main_v184, val_main_cst_31, val_main_v183, val_main_v182, val_main_v181, val_main_v180, val_main_v179, val_main_cst_30, val_main_v178, val_main_v177, val_main_cst_29, val_main_v176, val_main_v175, val_main_v174, val_main_v173, val_main_v172, val_main_cst_28, val_main_v171, val_main_v170, val_main_cst_27, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152]
  generalize val_main_v85 (F := F) x1 x3 x5 x6 x7 x8 x9 = y71 at h71 ⊢
  generalize val_main_v114 (F := F) x0 x1 x6 = y73 at h73 ⊢
  generalize val_main_v15 (F := F) x1 x6 = y15 at h15 ⊢
  subst h71 h73 h15 h10 h11 h12 h13
  after_results_simp
  rfl

set_option maxHeartbeats 2000000 in

theorem host4_v153 (x2 : (⟨S2x160000, .i32⟩ : BufTy).Contents (Elt F)) (h2 : W (Proc.devRef .tc main_arg2) = x2) :
    StableHlo.after (hostOps4 (F := F)) W (Proc.devRef .tc main_v153) = val_main_v192 (F := F) x2 := by
  after_results_simp
  rw [h2]
  rfl

set_option maxHeartbeats 2000000 in

set_option maxHeartbeats 2000000 in

theorem host4_v159 (x2 : (⟨S2x160000, .i32⟩ : BufTy).Contents (Elt F)) (h2 : W (Proc.devRef .tc main_arg2) = x2) :
    StableHlo.after (hostOps4 (F := F)) W (Proc.devRef .tc main_v159) = val_main_v198 (F := F) x2 := by
  after_results_simp
  rw [h2]
  rfl

set_option maxHeartbeats 2000000 in

theorem host4_v166 (x2 : (⟨S2x160000, .i32⟩ : BufTy).Contents (Elt F)) (h2 : W (Proc.devRef .tc main_arg2) = x2) :
    StableHlo.after (hostOps4 (F := F)) W (Proc.devRef .tc main_v166) = val_main_v205 (F := F) x2 := by
  after_results_simp
  rw [h2]
  rfl

set_option maxHeartbeats 8000000 in

theorem host4_v148_form : StableHlo.after (hostOps4 (F := F)) W (Proc.devRef .tc main_v148)
    = truncf .bf16 (StableHlo.after (hostOps4 (F := F)) W (Proc.devRef .tc main_v110)) bitsLt_bf16_f32 := by
  after_results_simp

set_option maxHeartbeats 8000000 in

theorem host4_v149_form : StableHlo.after (hostOps4 (F := F)) W (Proc.devRef .tc main_v149)
    = truncf .bf16 (StableHlo.after (hostOps4 (F := F)) W (Proc.devRef .tc main_v147)) bitsLt_bf16_f32 := by
  after_results_simp

set_option maxHeartbeats 8000000 in

theorem host4_v160_form : StableHlo.after (hostOps4 (F := F)) W (Proc.devRef .tc main_v160)
    = Host.gather gather_S10000x128_S160000x1_S160000x128_1_0_n_n_0_1_1128
        (StableHlo.after (hostOps4 (F := F)) W (Proc.devRef .tc main_v148)) (StableHlo.after (hostOps4 (F := F)) W (Proc.devRef .tc main_v159)) := by
  after_results_simp

set_option maxHeartbeats 8000000 in

theorem host4_v167_form : StableHlo.after (hostOps4 (F := F)) W (Proc.devRef .tc main_v167)
    = Host.gather gather_S10000x128_S160000x1_S160000x128_1_0_n_n_0_1_1128
        (StableHlo.after (hostOps4 (F := F)) W (Proc.devRef .tc main_v148)) (StableHlo.after (hostOps4 (F := F)) W (Proc.devRef .tc main_v166)) := by
  after_results_simp

end Structural4

section Exact4

variable (W : Valuation τ sig (Elt Ideal))

theorem host4_v148 (x0 x1 : (⟨S10000x1, .i32⟩ : BufTy).Contents (Elt Ideal)) (x2 : (⟨S2x160000, .i32⟩ : BufTy).Contents (Elt Ideal)) (x4 : (⟨S160000x1, .i32⟩ : BufTy).Contents (Elt Ideal))
    (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal))
    (x10 : (⟨S256x384, .f32⟩ : BufTy).Contents (Elt Ideal)) (x11 : (⟨S384, .f32⟩ : BufTy).Contents (Elt Ideal)) (x12 : (⟨S128x384, .f32⟩ : BufTy).Contents (Elt Ideal)) (x13 : (⟨S384, .f32⟩ : BufTy).Contents (Elt Ideal))
    (h49 : W (Proc.devRef .tc main_v49) = val_main_v58 (F := Ideal) x0 x2 x4 x6 x7 x8 x9)
    (h72 : W (Proc.devRef .tc main_v72) = val_main_v112 (F := Ideal) x0 x1 x6)
    (h7 : W (Proc.devRef .tc main_v7) = val_main_v7 (F := Ideal) x0 x6)
    (h10 : W (Proc.devRef .tc main_arg10) = x10) (h11 : W (Proc.devRef .tc main_arg11) = x11)
    (h12 : W (Proc.devRef .tc main_arg12) = x12) (h13 : W (Proc.devRef .tc main_arg13) = x13) :
    (StableHlo.after (hostOps4 (F := Ideal)) W (Proc.devRef .tc main_v148) : S10000x128.Idx → EReal)
      = val_main_v151 (F := Ideal) x0 x1 x2 x4 x6 x7 x8 x9 x10 x11 x12 x13 := by
  rw [host4_v148_form, host4_v110 W x0 x1 x2 x4 x6 x7 x8 x9 x10 x11 x12 x13 h49 h72 h7 h10 h11 h12 h13]
  rfl

theorem host4_v149 (x0 x1 : (⟨S10000x1, .i32⟩ : BufTy).Contents (Elt Ideal)) (x3 : (⟨S2x160000, .i32⟩ : BufTy).Contents (Elt Ideal)) (x5 : (⟨S160000x1, .i32⟩ : BufTy).Contents (Elt Ideal))
    (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal))
    (x10 : (⟨S256x384, .f32⟩ : BufTy).Contents (Elt Ideal)) (x11 : (⟨S384, .f32⟩ : BufTy).Contents (Elt Ideal)) (x12 : (⟨S128x384, .f32⟩ : BufTy).Contents (Elt Ideal)) (x13 : (⟨S384, .f32⟩ : BufTy).Contents (Elt Ideal))
    (h71 : W (Proc.devRef .tc main_v71) = val_main_v85 (F := Ideal) x1 x3 x5 x6 x7 x8 x9)
    (h73 : W (Proc.devRef .tc main_v73) = val_main_v114 (F := Ideal) x0 x1 x6)
    (h15 : W (Proc.devRef .tc main_v15) = val_main_v15 (F := Ideal) x1 x6)
    (h10 : W (Proc.devRef .tc main_arg10) = x10) (h11 : W (Proc.devRef .tc main_arg11) = x11)
    (h12 : W (Proc.devRef .tc main_arg12) = x12) (h13 : W (Proc.devRef .tc main_arg13) = x13) :
    (StableHlo.after (hostOps4 (F := Ideal)) W (Proc.devRef .tc main_v149) : S10000x128.Idx → EReal)
      = val_main_v188 (F := Ideal) x0 x1 x3 x5 x6 x7 x8 x9 x10 x11 x12 x13 := by
  rw [host4_v149_form, host4_v147 W x0 x1 x3 x5 x6 x7 x8 x9 x10 x11 x12 x13 h71 h73 h15 h10 h11 h12 h13]
  rfl

theorem host4_v160 (x0 x1 : (⟨S10000x1, .i32⟩ : BufTy).Contents (Elt Ideal)) (x2 : (⟨S2x160000, .i32⟩ : BufTy).Contents (Elt Ideal)) (x4 : (⟨S160000x1, .i32⟩ : BufTy).Contents (Elt Ideal))
    (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal))
    (x10 : (⟨S256x384, .f32⟩ : BufTy).Contents (Elt Ideal)) (x11 : (⟨S384, .f32⟩ : BufTy).Contents (Elt Ideal)) (x12 : (⟨S128x384, .f32⟩ : BufTy).Contents (Elt Ideal)) (x13 : (⟨S384, .f32⟩ : BufTy).Contents (Elt Ideal))
    (h49 : W (Proc.devRef .tc main_v49) = val_main_v58 (F := Ideal) x0 x2 x4 x6 x7 x8 x9)
    (h72 : W (Proc.devRef .tc main_v72) = val_main_v112 (F := Ideal) x0 x1 x6)
    (h7 : W (Proc.devRef .tc main_v7) = val_main_v7 (F := Ideal) x0 x6)
    (h10 : W (Proc.devRef .tc main_arg10) = x10) (h11 : W (Proc.devRef .tc main_arg11) = x11)
    (h12 : W (Proc.devRef .tc main_arg12) = x12) (h13 : W (Proc.devRef .tc main_arg13) = x13) (h2 : W (Proc.devRef .tc main_arg2) = x2) :
    (StableHlo.after (hostOps4 (F := Ideal)) W (Proc.devRef .tc main_v160) : S160000x128.Idx → EReal)
      = val_main_v199 (F := Ideal) x0 x1 x2 x4 x6 x7 x8 x9 x10 x11 x12 x13 := by
  rw [host4_v160_form, host4_v148_form, host4_v110 W x0 x1 x2 x4 x6 x7 x8 x9 x10 x11 x12 x13 h49 h72 h7 h10 h11 h12 h13, host4_v159 W x2 h2]
  rfl

theorem host4_v167 (x0 x1 : (⟨S10000x1, .i32⟩ : BufTy).Contents (Elt Ideal)) (x2 : (⟨S2x160000, .i32⟩ : BufTy).Contents (Elt Ideal)) (x4 : (⟨S160000x1, .i32⟩ : BufTy).Contents (Elt Ideal))
    (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal))
    (x10 : (⟨S256x384, .f32⟩ : BufTy).Contents (Elt Ideal)) (x11 : (⟨S384, .f32⟩ : BufTy).Contents (Elt Ideal)) (x12 : (⟨S128x384, .f32⟩ : BufTy).Contents (Elt Ideal)) (x13 : (⟨S384, .f32⟩ : BufTy).Contents (Elt Ideal))
    (h49 : W (Proc.devRef .tc main_v49) = val_main_v58 (F := Ideal) x0 x2 x4 x6 x7 x8 x9)
    (h72 : W (Proc.devRef .tc main_v72) = val_main_v112 (F := Ideal) x0 x1 x6)
    (h7 : W (Proc.devRef .tc main_v7) = val_main_v7 (F := Ideal) x0 x6)
    (h10 : W (Proc.devRef .tc main_arg10) = x10) (h11 : W (Proc.devRef .tc main_arg11) = x11)
    (h12 : W (Proc.devRef .tc main_arg12) = x12) (h13 : W (Proc.devRef .tc main_arg13) = x13) (h2 : W (Proc.devRef .tc main_arg2) = x2) :
    (StableHlo.after (hostOps4 (F := Ideal)) W (Proc.devRef .tc main_v167) : S160000x128.Idx → EReal)
      = val_main_v206 (F := Ideal) x0 x1 x2 x4 x6 x7 x8 x9 x10 x11 x12 x13 := by
  rw [host4_v167_form, host4_v148_form, host4_v110 W x0 x1 x2 x4 x6 x7 x8 x9 x10 x11 x12 x13 h49 h72 h7 h10 h11 h12 h13, host4_v166 W x2 h2]
  rfl

end Exact4

section Keep4

variable {F : FTy → Type} [FloatOps F]
variable (W : Valuation τ sig (Elt F))

end Keep4

end Cert.KernelIdeal.Val

end
-- ==== Proof.Val.EdgePay.lean ====
import proofs.«407386_j15839839387945_2_alg».proof.Proof.Gen.KernelIdeal.Skeleton
import Idealize.ShloMosaic.Lib.Pipeline.Value
import Idealize.ShloMosaic.Lib.ValueIdx
import Idealize.ShloMosaic.PureOps.Ideal.Laws
import Mathlib.Algebra.BigOperators.Fin

noncomputable section

namespace Cert.KernelIdeal.Val

open Cert.KernelIdeal Cert.KernelIdeal.Gen Idealize.ShloMosaic Idealize.ShloMosaic.ValueIdx
open scoped BigOperators

theorem lhs_feat_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_feat_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_feat_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_feat_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

theorem matmul_feat_apply (x : FVec Ideal S4000x128 .bf16) (w : FVec Ideal S128x128 .bf16) (p : Fin 4000) (q : Fin 128) :
    matmul dot_S4000x128_S128x128_S4000x128_1_0_0_1_n_n none x w (constant (F := Ideal) S4000x128 .f32 0x00000000#32) (ix2 p q)
      = ∑ k : Fin 128, x (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_feat_0 _ _
    | ⟨1, _⟩ => exact (lhs_feat_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_feat_0 _ _).trans hk
    | ⟨1, _⟩ => exact rhs_feat_1 _ _)
  rw [el, er]

theorem lhs_attr_0 (i : S4000x128.Idx) (q : dot_S4000x20_S20x128_S4000x128_1_0_0_1_n_n.contr.Idx) :
    (dot_S4000x20_S20x128_S4000x128_1_0_0_1_n_n.lhsIdx i q 0).val = (i 0).val := by
  unfold DotDims.lhsIdx
  rw [dif_neg (show ¬(0 : Fin S4000x20.rank) ∈ dot_S4000x20_S20x128_S4000x128_1_0_0_1_n_n.lhsBatch by decide), dif_pos (show (0 : Fin S4000x20.rank) ∈ dot_S4000x20_S20x128_S4000x128_1_0_0_1_n_n.lhsNonContracting by decide)]
  rfl
theorem lhs_attr_1 (i : S4000x128.Idx) (q : dot_S4000x20_S20x128_S4000x128_1_0_0_1_n_n.contr.Idx) :
    (dot_S4000x20_S20x128_S4000x128_1_0_0_1_n_n.lhsIdx i q 1).val = (q ⟨0, by decide⟩).val :=
  dot_S4000x20_S20x128_S4000x128_1_0_0_1_n_n.lhsIdx_val_of_single rfl i q
theorem rhs_attr_0 (i : S4000x128.Idx) (q : dot_S4000x20_S20x128_S4000x128_1_0_0_1_n_n.contr.Idx) :
    (dot_S4000x20_S20x128_S4000x128_1_0_0_1_n_n.rhsIdx i q 0).val = (q ⟨0, by decide⟩).val :=
  dot_S4000x20_S20x128_S4000x128_1_0_0_1_n_n.rhsIdx_val_of_single rfl i q
theorem rhs_attr_1 (i : S4000x128.Idx) (q : dot_S4000x20_S20x128_S4000x128_1_0_0_1_n_n.contr.Idx) :
    (dot_S4000x20_S20x128_S4000x128_1_0_0_1_n_n.rhsIdx i q 1).val = (i 1).val := by
  unfold DotDims.rhsIdx
  rw [dif_neg (show ¬(1 : Fin S20x128.rank) ∈ dot_S4000x20_S20x128_S4000x128_1_0_0_1_n_n.rhsBatch by decide), dif_pos (show (1 : Fin S20x128.rank) ∈ dot_S4000x20_S20x128_S4000x128_1_0_0_1_n_n.rhsNonContracting by decide)]
  rfl

theorem matmul_attr_apply (x : FVec Ideal S4000x20 .bf16) (w : FVec Ideal S20x128 .bf16) (p : Fin 4000) (q : Fin 128) :
    matmul dot_S4000x20_S20x128_S4000x128_1_0_0_1_n_n none x w (constant (F := Ideal) S4000x128 .f32 0x00000000#32) (ix2 p q)
      = ∑ j : Fin 20, x (ix2 p j) * w (ix2 j q) := by
  simp only [matmul]
  rw [Ideal.matmul_constant_zero_apply, ← Equiv.sum_comp (contrEquiv1 dot_S4000x20_S20x128_S4000x128_1_0_0_1_n_n 20 rfl rfl).symm]
  refine Finset.sum_congr rfl fun k _ => ?_
  have hk := contrEquiv1_symm_val dot_S4000x20_S20x128_S4000x128_1_0_0_1_n_n 20 rfl rfl k
  have el : dot_S4000x20_S20x128_S4000x128_1_0_0_1_n_n.lhsIdx (ix2 p q) ((contrEquiv1 dot_S4000x20_S20x128_S4000x128_1_0_0_1_n_n 20 rfl rfl).symm k) = ix2 p k := funext fun a => Fin.ext (by
    match a with
    | ⟨0, _⟩ => exact lhs_attr_0 _ _
    | ⟨1, _⟩ => exact (lhs_attr_1 _ _).trans hk)
  have er : dot_S4000x20_S20x128_S4000x128_1_0_0_1_n_n.rhsIdx (ix2 p q) ((contrEquiv1 dot_S4000x20_S20x128_S4000x128_1_0_0_1_n_n 20 rfl rfl).symm k) = ix2 k q := funext fun a => Fin.ext (by
    match a with
    | ⟨0, _⟩ => exact (rhs_attr_0 _ _).trans hk
    | ⟨1, _⟩ => exact rhs_attr_1 _ _)
  rw [el, er]

theorem indicator_word (x y : BitVec 32) :
    (FloatOps.sitofp (F := Ideal) .f32 ((IntOp.cmpi .eq x y).setWidth 32) : EReal) = if x = y then (1 : EReal) else 0 := by
  show (((((IntOp.cmpi .eq x y).setWidth 32).toInt : ℤ) : ℝ) : EReal) = _
  by_cases h : x = y
  · subst h
    rw [if_pos rfl]
    have : (IntOp.cmpi .eq x x).setWidth 32 = 1#32 := by simp [IntOp.cmpi]
    rw [this]
    norm_num
  · rw [if_neg h]
    have : (IntOp.cmpi .eq x y).setWidth 32 = 0#32 := by
      show BitVec.setWidth 32 (BitVec.ofBool (x == y)) = 0#32
      rw [beq_eq_false_iff_ne.mpr h]; rfl
    rw [this]
    norm_num

theorem onehot_apply (v11 : Vec Ideal S4000x1 .i32) (hi : S4000x20.Iotas .tc 32 [1]) (hb : S4000x1.Broadcasts S4000x20) (h1 : 1 < 32)
    (ht : FTy.bits .bf16 < FTy.bits .f32) (p : Fin 4000) (j : Fin 20) :
    (truncf .bf16 (sitofp (F := Ideal) .f32 (extui 32 (cmpi .eq (iota .tc S4000x20 32 [1] hi) (broadcastTo S4000x20 v11 hb)) h1)) ht : FVec Ideal S4000x20 .bf16) (ix2 p j)
      = if BitVec.ofNat 32 j.val = v11 (ix2 p 0) then (1 : EReal) else 0 := by
  have e1 : iota .tc S4000x20 32 [1] hi (ix2 p j) = BitVec.ofNat 32 j.val := iota_single_apply .tc S4000x20 32 1 hi (ix2 p j)
  have e2 : broadcastTo S4000x20 v11 hb (ix2 p j) = v11 (ix2 p 0) :=
    broadcastTo_apply v11 hb (ix2 p j) (ix2 p 0) (fun a => by
      match a with
      | ⟨0, _⟩ => show p.val = if (4000 : Nat) = 1 then 0 else p.val; rw [if_neg (by decide)]
      | ⟨1, _⟩ => show (0 : Nat) = if (1 : Nat) = 1 then 0 else j.val; rw [if_pos rfl])
  show FloatOps.sitofp (F := Ideal) .f32 ((IntOp.cmpi .eq (iota .tc S4000x20 32 [1] hi (ix2 p j)) (broadcastTo S4000x20 v11 hb (ix2 p j))).setWidth 32) = _
  rw [e1, e2]
  exact indicator_word _ _

theorem k0_pay1_apply (v0 v2 : Vec Ideal S4000x128 .bf16) (v4 v6 : Vec Ideal S128x128 .bf16) (v11 : Vec Ideal S4000x1 .i32)
    (v18 : Vec Ideal S20x128 .bf16) (p : Fin 4000) (q : Fin 128) :
    k0_pay1 (F := Ideal) v0 v2 v4 v6 v11 v18 (ix2 p q)
      = max ((∑ k : Fin 128, v0 (ix2 p k) * v4 (ix2 k q)) + (∑ k : Fin 128, v2 (ix2 p k) * v6 (ix2 k q))
          + (∑ j : Fin 20, (if BitVec.ofNat 32 j.val = v11 (ix2 p 0) then (1 : EReal) else 0) * v18 (ix2 j q))) 0 := by
  unfold k0_pay1
  simp only [shapeCast_self]
  rw [maximumf_apply, addf_apply, addf_apply, broadcast_apply, matmul_feat_apply, matmul_feat_apply, matmul_attr_apply]
  have hz : (Scalar.ofBits (F := Ideal) .f32 0x00000000#32 : EReal) = 0 := Ideal.ofBits_zero_f32
  rw [hz]
  refine congrArg (fun s => max ((∑ k : Fin 128, v0 (ix2 p k) * v4 (ix2 k q)) + (∑ k : Fin 128, v2 (ix2 p k) * v6 (ix2 k q)) + s) 0)
    (Finset.sum_congr rfl fun j _ => ?_)
  exact congrArg (· * v18 (ix2 j q)) (onehot_apply v11 _ _ _ _ p j)

theorem onehot_sum_eq (v11 : Vec Ideal S4000x1 .i32) (v18 : Vec Ideal S20x128 .bf16) (p : Fin 4000) (q : Fin 128) (a : Fin 20)
    (ha : v11 (ix2 p 0) = BitVec.ofNat 32 a.val) :
    (∑ j : Fin 20, (if BitVec.ofNat 32 j.val = v11 (ix2 p 0) then (1 : EReal) else 0) * v18 (ix2 j q)) = v18 (ix2 a q) := by
  rw [ha, Finset.sum_eq_single a]
  · rw [if_pos rfl, one_mul]
  · intro j _ hj
    have hne : ¬ BitVec.ofNat 32 j.val = BitVec.ofNat 32 a.val := fun h => hj (Fin.ext (by
      have := congrArg BitVec.toNat h
      simp only [BitVec.toNat_ofNat] at this
      have hj' := j.isLt; have ha' := a.isLt
      omega))
    rw [if_neg hne, zero_mul]
  · intro h; exact absurd (Finset.mem_univ a) h

theorem k0_pay1_apply_of_attr (v0 v2 : Vec Ideal S4000x128 .bf16) (v4 v6 : Vec Ideal S128x128 .bf16) (v11 : Vec Ideal S4000x1 .i32)
    (v18 : Vec Ideal S20x128 .bf16) (p : Fin 4000) (q : Fin 128) (a : Fin 20) (ha : v11 (ix2 p 0) = BitVec.ofNat 32 a.val) :
    k0_pay1 (F := Ideal) v0 v2 v4 v6 v11 v18 (ix2 p q)
      = max ((∑ k : Fin 128, v0 (ix2 p k) * v4 (ix2 k q)) + (∑ k : Fin 128, v2 (ix2 p k) * v6 (ix2 k q)) + v18 (ix2 a q)) 0 := by
  rw [k0_pay1_apply, onehot_sum_eq v11 v18 p q a ha]

def edgePay (v0 v2 : Vec Ideal S4000x128 .bf16) (v4 v6 : Vec Ideal S128x128 .bf16) (v11 : Vec Ideal S4000x1 .i32)
    (v18 : Vec Ideal S20x128 .bf16) : FVec Ideal S4000x128 .f32 :=
  k0_pay1 (F := Ideal) v0 v2 v4 v6 v11 v18

theorem edgePay_apply_of_attr (v0 v2 : Vec Ideal S4000x128 .bf16) (v4 v6 : Vec Ideal S128x128 .bf16) (v11 : Vec Ideal S4000x1 .i32)
    (v18 : Vec Ideal S20x128 .bf16) (p : Fin 4000) (q : Fin 128) (a : Fin 20) (ha : v11 (ix2 p 0) = BitVec.ofNat 32 a.val) :
    edgePay v0 v2 v4 v6 v11 v18 (ix2 p q)
      = max ((∑ k : Fin 128, v0 (ix2 p k) * v4 (ix2 k q)) + (∑ k : Fin 128, v2 (ix2 p k) * v6 (ix2 k q)) + v18 (ix2 a q)) 0 :=
  k0_pay1_apply_of_attr v0 v2 v4 v6 v11 v18 p q a ha

end Cert.KernelIdeal.Val

end
-- ==== Proof.Val.EdgeVal0.lean ====
import proofs.«407386_j15839839387945_2_alg».proof.Proof.KI.Edge0
import proofs.«407386_j15839839387945_2_alg».proof.Proof.Val.EdgePay
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev xdst0 (c : Dev nD) : S160000x128.Idx → EReal := V c (Pipeline.arrRef spec0 0)

abbrev xsrc0 (c : Dev nD) : S160000x128.Idx → EReal := V c (Pipeline.arrRef spec0 1)

abbrev attr0 (c : Dev nD) : S160000x1.Idx → BitVec 32 := V c (Pipeline.arrRef spec0 2)

abbrev wdst0 (c : Dev nD) : S128x128.Idx → EReal := V c (Pipeline.arrRef spec0 3)

abbrev wsrc0 (c : Dev nD) : S128x128.Idx → EReal := V c (Pipeline.arrRef spec0 4)

abbrev table0 (c : Dev nD) : S20x128.Idx → EReal := V c (Pipeline.arrRef spec0 5)

abbrev edgeArr0 (c : Dev nD) (a : Fin 160000 → Fin 20) : S160000x128.Idx → EReal := fun i =>
  max ((∑ k : Fin 128, xdst0 V c (ix2 (i 0) k) * wdst0 V c (ix2 k (i 1)))
      + (∑ k : Fin 128, xsrc0 V c (ix2 (i 0) k) * wsrc0 V c (ix2 k (i 1)))
      + table0 V c (ix2 (a (i 0)) (i 1))) 0

theorem zero_offsets0 : (![0, 0] : Fin 2 → Nat) = fun _ => 0 := funext fun a => by fin_cases a <;> rfl

theorem pay_same0 (v0 v2 : Vec Ideal S4000x128 .bf16) (v4 v6 : Vec Ideal S128x128 .bf16) (v11 : Vec Ideal S4000x1 .i32)
    (v18 : Vec Ideal S20x128 .bf16) : k0_pay1 (F := Ideal) v0 v2 v4 v6 v11 v18 = edgePay v0 v2 v4 v6 v11 v18 := rfl

theorem out0_6_eq_pay (x0 x1 : Vec Ideal S4000x128 .bf16) (x2 : Vec Ideal S4000x1 .i32) (x3 x4 : Vec Ideal S128x128 .bf16)
    (x5 : Vec Ideal S20x128 .bf16) : out0_6 (F := Ideal) x0 x1 x2 x3 x4 x5 = edgePay x0 x1 x3 x4 x2 x5 := by
  unfold out0_6
  rw [View.canon_unit_zero zero_offsets0]
  simp only [View.ld_unit_zero (S := S4000x128) zero_offsets0, View.ld_unit_zero (S := S4000x1) zero_offsets0,
    View.ld_unit_zero (S := S128x128) zero_offsets0, View.ld_unit_zero (S := S20x128) zero_offsets0]
  exact pay_same0 _ _ _ _ _ _

abbrev dstBlk0 (c : Dev nD) (t : Fin cfg0.N) : Vec Ideal S4000x128 .bf16 := iblk0 V c 0 t

abbrev srcBlk0 (c : Dev nD) (t : Fin cfg0.N) : Vec Ideal S4000x128 .bf16 := iblk0 V c 1 t

abbrev attrBlk0 (c : Dev nD) (t : Fin cfg0.N) : Vec Ideal S4000x1 .i32 := iblk0 V c 2 t

abbrev wdstBlk0 (c : Dev nD) (t : Fin cfg0.N) : Vec Ideal S128x128 .bf16 := iblk0 V c 3 t

abbrev wsrcBlk0 (c : Dev nD) (t : Fin cfg0.N) : Vec Ideal S128x128 .bf16 := iblk0 V c 4 t

abbrev tableBlk0 (c : Dev nD) (t : Fin cfg0.N) : Vec Ideal S20x128 .bf16 := iblk0 V c 5 t

theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem dst_block_apply0 (c : Dev nD) (t : Fin cfg0.N) (x : S4000x128.Idx) (e : S160000x128.Idx)
    (he0 : (e 0).val = 4000 * t.val + (x 0).val) (he1 : (e 1).val = (x 1).val) :
    dstBlk0 V c t x = xdst0 V c e := by
  obtain ⟨i0, i1, -⟩ := block_index0 t
  unfold dstBlk0 iblk0
  rw [View.read_apply]
  show V c (Pipeline.arrRef spec0 0) _ = V c (Pipeline.arrRef spec0 0) e
  congr 1
  funext a
  apply Fin.ext
  match a with
  | ⟨0, _⟩ => show win0_0.index t 0 * 4000 + 1 * (x 0).val = (e 0).val; rw [i0, he0]; omega
  | ⟨1, _⟩ => show win0_0.index t 1 * 128 + 1 * (x 1).val = (e 1).val; rw [i1, he1]; omega

theorem src_block_apply0 (c : Dev nD) (t : Fin cfg0.N) (x : S4000x128.Idx) (e : S160000x128.Idx)
    (he0 : (e 0).val = 4000 * t.val + (x 0).val) (he1 : (e 1).val = (x 1).val) :
    srcBlk0 V c t x = xsrc0 V c e := by
  obtain ⟨-, -, i0, i1, -⟩ := block_index0 t
  unfold srcBlk0 iblk0
  rw [View.read_apply]
  show V c (Pipeline.arrRef spec0 1) _ = V c (Pipeline.arrRef spec0 1) e
  congr 1
  funext a
  apply Fin.ext
  match a with
  | ⟨0, _⟩ => show win0_1.index t 0 * 4000 + 1 * (x 0).val = (e 0).val; rw [i0, he0]; omega
  | ⟨1, _⟩ => show win0_1.index t 1 * 128 + 1 * (x 1).val = (e 1).val; rw [i1, he1]; omega

theorem attr_block_apply0 (c : Dev nD) (t : Fin cfg0.N) (x : S4000x1.Idx) (e : S160000x1.Idx)
    (he0 : (e 0).val = 4000 * t.val + (x 0).val) (he1 : (e 1).val = (x 1).val) :
    attrBlk0 V c t x = attr0 V c e := by
  obtain ⟨-, -, -, -, i0, i1, -⟩ := block_index0 t
  unfold attrBlk0 iblk0
  rw [View.read_apply]
  show V c (Pipeline.arrRef spec0 2) _ = V c (Pipeline.arrRef spec0 2) e
  congr 1
  funext a
  apply Fin.ext
  match a with
  | ⟨0, _⟩ => show win0_2.index t 0 * 4000 + 1 * (x 0).val = (e 0).val; rw [i0, he0]; omega
  | ⟨1, _⟩ => show win0_2.index t 1 * 1 + 1 * (x 1).val = (e 1).val; rw [i1, he1]; omega

theorem wdst_block_eq0 (c : Dev nD) (t : Fin cfg0.N) : wdstBlk0 V c t = wdst0 V c := by
  obtain ⟨-, -, -, -, -, -, i0, i1, -⟩ := block_index0 t
  funext x
  unfold wdstBlk0 iblk0
  rw [View.read_apply]
  show V c (Pipeline.arrRef spec0 3) _ = V c (Pipeline.arrRef spec0 3) x
  congr 1
  funext a
  apply Fin.ext
  match a with
  | ⟨0, _⟩ => show win0_3.index t 0 * 128 + 1 * (x 0).val = (x 0).val; rw [i0]; omega
  | ⟨1, _⟩ => show win0_3.index t 1 * 128 + 1 * (x 1).val = (x 1).val; rw [i1]; omega

theorem wsrc_block_eq0 (c : Dev nD) (t : Fin cfg0.N) : wsrcBlk0 V c t = wsrc0 V c := by
  obtain ⟨-, -, -, -, -, -, -, -, i0, i1, -⟩ := block_index0 t
  funext x
  unfold wsrcBlk0 iblk0
  rw [View.read_apply]
  show V c (Pipeline.arrRef spec0 4) _ = V c (Pipeline.arrRef spec0 4) x
  congr 1
  funext a
  apply Fin.ext
  match a with
  | ⟨0, _⟩ => show win0_4.index t 0 * 128 + 1 * (x 0).val = (x 0).val; rw [i0]; omega
  | ⟨1, _⟩ => show win0_4.index t 1 * 128 + 1 * (x 1).val = (x 1).val; rw [i1]; omega

theorem table_block_eq0 (c : Dev nD) (t : Fin cfg0.N) : tableBlk0 V c t = table0 V c := by
  obtain ⟨-, -, -, -, -, -, -, -, -, -, i0, i1, -⟩ := block_index0 t
  funext x
  unfold tableBlk0 iblk0
  rw [View.read_apply]
  show V c (Pipeline.arrRef spec0 5) _ = V c (Pipeline.arrRef spec0 5) x
  congr 1
  funext a
  apply Fin.ext
  match a with
  | ⟨0, _⟩ => show win0_5.index t 0 * 20 + 1 * (x 0).val = (x 0).val; rw [i0]; omega
  | ⟨1, _⟩ => show win0_5.index t 1 * 128 + 1 * (x 1).val = (x 1).val; rw [i1]; omega

theorem pay_at_point0 (c : Dev nD) (a : Fin 160000 → Fin 20)
    (hattr : ∀ e : Fin 160000, attr0 V c (ix2 e 0) = BitVec.ofNat 32 (a e).val)
    (t : Fin cfg0.N) (p : Fin 4000) (q : Fin 128) (e : Fin 160000) (he : e.val = 4000 * t.val + p.val) :
    edgePay (dstBlk0 V c t) (srcBlk0 V c t) (wdstBlk0 V c t) (wsrcBlk0 V c t) (attrBlk0 V c t) (tableBlk0 V c t) (ix2 p q)
      = edgeArr0 V c a (ix2 e q) := by
  have hw : attrBlk0 V c t (ix2 p 0) = BitVec.ofNat 32 (a e).val :=
    (attr_block_apply0 V c t (ix2 p 0) (ix2 e 0) he rfl).trans (hattr e)
  refine (edgePay_apply_of_attr (dstBlk0 V c t) (srcBlk0 V c t) (wdstBlk0 V c t) (wsrcBlk0 V c t) (attrBlk0 V c t) (tableBlk0 V c t)
    p q (a e) hw).trans ?_
  rw [wdst_block_eq0 V c t, wsrc_block_eq0 V c t, table_block_eq0 V c t]
  have e0 : ∀ k : Fin 128, dstBlk0 V c t (ix2 p k) = xdst0 V c (ix2 e k) :=
    fun k => dst_block_apply0 V c t (ix2 p k) (ix2 e k) he rfl
  have e1 : ∀ k : Fin 128, srcBlk0 V c t (ix2 p k) = xsrc0 V c (ix2 e k) :=
    fun k => src_block_apply0 V c t (ix2 p k) (ix2 e k) he rfl
  have eA : (∑ k : Fin 128, dstBlk0 V c t (ix2 p k) * wdst0 V c (ix2 k q)) = ∑ k : Fin 128, xdst0 V c (ix2 e k) * wdst0 V c (ix2 k q) :=
    Finset.sum_congr rfl fun k _ => by rw [e0 k]
  have eB : (∑ k : Fin 128, srcBlk0 V c t (ix2 p k) * wsrc0 V c (ix2 k q)) = ∑ k : Fin 128, xsrc0 V c (ix2 e k) * wsrc0 V c (ix2 k q) :=
    Finset.sum_congr rfl fun k _ => by rw [e1 k]
  rw [eA, eB]

theorem flushed0_6_eq (c : Dev nD) (a : Fin 160000 → Fin 20)
    (hattr : ∀ e : Fin 160000, attr0 V c (ix2 e 0) = BitVec.ofNat 32 (a e).val) (t : Fin cfg0.N) :
    (dat0 (F := Ideal) V c).flushed 6 t = ((cfg0.win 6).blk t).view.read (Elt Ideal) (edgeArr0 V c a) := by
  show (cfg0.win 6).cut (grid0.coords t) ((dat0 (F := Ideal) V c).after 6 t) = _
  rw [after0_6, out0_6_eq_pay]
  obtain ⟨-, -, -, -, -, -, -, -, -, -, -, -, i0, i1⟩ := block_index0 t
  have hN : t.val < 40 := t.isLt
  funext y
  obtain ⟨p, q, rfl⟩ : ∃ (p : Fin 4000) (q : Fin 128), y = ix2 p q := ⟨y 0, y 1, eq_ix2 y⟩
  have hp := p.isLt
  rw [View.read_apply]
  have hidx : ((cfg0.win 6).blk t).view.emb (ix2 p q) = ix2 (⟨4000 * t.val + p.val, by omega⟩ : Fin 160000) q := by
    funext b
    apply Fin.ext
    match b with
    | ⟨0, _⟩ => show win0_6.index t 0 * 4000 + 1 * p.val = 4000 * t.val + p.val; rw [i0]; omega
    | ⟨1, _⟩ => show win0_6.index t 1 * 128 + 1 * q.val = q.val; rw [i1]; omega
  rw [hidx]
  exact pay_at_point0 V c a hattr t p q ⟨4000 * t.val + p.val, by omega⟩ rfl

theorem mem_block0_6 (t : Fin cfg0.N) (i : S160000x128.Idx) :
    i ∈ ((cfg0.win 6).blk t).view.set ↔ ∀ b : Fin 2, win0_6.index t b * S4000x128.size b ≤ (i b).val ∧ (i b).val < win0_6.index t b * S4000x128.size b + S4000x128.size b := by
  show i ∈ ((View.whole (Pipeline.arrRef spec0 6)).slice (win0_6.rect t)).set ↔ _
  rw [View.set_slice_whole, Rect.mem_set_unit]
  exact Iff.rfl

theorem cover0_6_rows (i : S160000x128.Idx) : ∃ t : Fin cfg0.N, (cfg0.win 6).flush t = true ∧ i ∈ ((cfg0.win 6).blk t).view.set := by
  have hi0 : (i 0).val < 160000 := (i 0).isLt
  have hi1 : (i 1).val < 128 := (i 1).isLt
  refine ⟨(⟨(i 0).val / 4000, by show (i 0).val / 4000 < 40; omega⟩ : Fin cfg0.N), flush0_6 _, ?_⟩
  rw [mem_block0_6]
  obtain ⟨-, -, -, -, -, -, -, -, -, -, -, -, i0, i1⟩ := block_index0 (⟨(i 0).val / 4000, by show (i 0).val / 4000 < 40; omega⟩ : Fin cfg0.N)
  intro b
  match b with
  | ⟨0, _⟩ =>
    show win0_6.index _ (0 : Fin 2) * 4000 ≤ (i 0).val ∧ (i 0).val < win0_6.index _ (0 : Fin 2) * 4000 + 4000
    rw [i0]; show (i 0).val / 4000 * 4000 ≤ (i 0).val ∧ (i 0).val < (i 0).val / 4000 * 4000 + 4000; omega
  | ⟨1, _⟩ =>
    show win0_6.index _ (1 : Fin 2) * 128 ≤ (i 1).val ∧ (i 1).val < win0_6.index _ (1 : Fin 2) * 128 + 128
    rw [i1]; omega

theorem edge_final0 (c : Dev nD) (a : Fin 160000 → Fin 20)
    (hattr : ∀ e : Fin 160000, attr0 V c (ix2 e 0) = BitVec.ofNat 32 (a e).val) :
    (dat0 (F := Ideal) V c).arrAt 6 cfg0.N = edgeArr0 V c a :=
  (dat0 (F := Ideal) V c).arrAt_eq_of_cover 6 (edgeArr0 V c a) (fun t _ => flushed0_6_eq V c a hattr t) cover0_6_rows

end Cert.KernelIdeal.Val

end
-- ==== Proof.Val.EdgeVal1.lean ====
/- The edge-message array after region 1, as one function of the arrays the region reads.

   The region sweeps the 160000 edges in 40 blocks of 4000. At point t the destination features, source features and
   attribute words are rows 4000 t … 4000 t + 3999 of their arrays; the two weight matrices and the table are read whole
   at every point; the output block is rows 4000 t … 4000 t + 3999 of the output array. So what point t writes back is the
   restriction to those rows of one whole-array function,
     (e, d) ↦ max ( (x_dst · W_dst)[e, d] + (x_src · W_src)[e, d] + T[a e, d], 0 ),
   provided every attribute word is the word of some a e < 20. Row r is covered by point r / 4000, so the array ends
   holding that function everywhere. -/
import proofs.«407386_j15839839387945_2_alg».proof.Proof.KI.Edge1
import proofs.«407386_j15839839387945_2_alg».proof.Proof.Val.EdgePay
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## The arrays the region reads, at their literal types -/

/-- Destination features, one row per edge. -/
abbrev xdst1 (c : Dev nD) : S160000x128.Idx → EReal := V c (Pipeline.arrRef spec1 0)
/-- Source features, one row per edge. -/
abbrev xsrc1 (c : Dev nD) : S160000x128.Idx → EReal := V c (Pipeline.arrRef spec1 1)
/-- The attribute word of each edge. -/
abbrev attr1 (c : Dev nD) : S160000x1.Idx → BitVec 32 := V c (Pipeline.arrRef spec1 2)
/-- The weight applied to destination features. -/
abbrev wdst1 (c : Dev nD) : S128x128.Idx → EReal := V c (Pipeline.arrRef spec1 3)
/-- The weight applied to source features. -/
abbrev wsrc1 (c : Dev nD) : S128x128.Idx → EReal := V c (Pipeline.arrRef spec1 4)
/-- The table: one row per attribute value. -/
abbrev table1 (c : Dev nD) : S20x128.Idx → EReal := V c (Pipeline.arrRef spec1 5)

/-- The whole-array function the region computes, given the attribute value of each edge. -/
abbrev edgeArr1 (c : Dev nD) (a : Fin 160000 → Fin 20) : S160000x128.Idx → EReal := fun i =>
  max ((∑ k : Fin 128, xdst1 V c (ix2 (i 0) k) * wdst1 V c (ix2 k (i 1)))
      + (∑ k : Fin 128, xsrc1 V c (ix2 (i 0) k) * wsrc1 V c (ix2 k (i 1)))
      + table1 V c (ix2 (a (i 0)) (i 1))) 0

/-! ## The body's result is the payload of the six input blocks -/

theorem zero_offsets1 : (![0, 0] : Fin 2 → Nat) = fun _ => 0 := funext fun a => by fin_cases a <;> rfl

/-- This region's payload is the edge-message block value: the same term. -/
theorem pay_same1 (v0 v2 : Vec Ideal S4000x128 .bf16) (v4 v6 : Vec Ideal S128x128 .bf16) (v11 : Vec Ideal S4000x1 .i32)
    (v18 : Vec Ideal S20x128 .bf16) : k1_pay1 (F := Ideal) v0 v2 v4 v6 v11 v18 = edgePay v0 v2 v4 v6 v11 v18 := rfl

/-- The single store covers the block from offset zero and each load reads its whole buffer from offset zero. -/
theorem out1_6_eq_pay (x0 x1 : Vec Ideal S4000x128 .bf16) (x2 : Vec Ideal S4000x1 .i32) (x3 x4 : Vec Ideal S128x128 .bf16)
    (x5 : Vec Ideal S20x128 .bf16) : out1_6 (F := Ideal) x0 x1 x2 x3 x4 x5 = edgePay x0 x1 x3 x4 x2 x5 := by
  unfold out1_6
  rw [View.canon_unit_zero zero_offsets1]
  simp only [View.ld_unit_zero (S := S4000x128) zero_offsets1, View.ld_unit_zero (S := S4000x1) zero_offsets1,
    View.ld_unit_zero (S := S128x128) zero_offsets1, View.ld_unit_zero (S := S20x128) zero_offsets1]
  exact pay_same1 _ _ _ _ _ _

/-! ## The six input blocks at a point, at their literal types -/

/-- The destination-feature block at point t: 4000 edges. -/
abbrev dstBlk1 (c : Dev nD) (t : Fin cfg1.N) : Vec Ideal S4000x128 .bf16 := iblk1 V c 0 t
/-- The source-feature block at point t. -/
abbrev srcBlk1 (c : Dev nD) (t : Fin cfg1.N) : Vec Ideal S4000x128 .bf16 := iblk1 V c 1 t
/-- The attribute-word block at point t. -/
abbrev attrBlk1 (c : Dev nD) (t : Fin cfg1.N) : Vec Ideal S4000x1 .i32 := iblk1 V c 2 t
/-- The destination weight as point t reads it. -/
abbrev wdstBlk1 (c : Dev nD) (t : Fin cfg1.N) : Vec Ideal S128x128 .bf16 := iblk1 V c 3 t
/-- The source weight as point t reads it. -/
abbrev wsrcBlk1 (c : Dev nD) (t : Fin cfg1.N) : Vec Ideal S128x128 .bf16 := iblk1 V c 4 t
/-- The table as point t reads it. -/
abbrev tableBlk1 (c : Dev nD) (t : Fin cfg1.N) : Vec Ideal S20x128 .bf16 := iblk1 V c 5 t

/-! ## Where each window's block sits in its array -/

/-- The block index of every window at every point, decided over the 40 points: windows 0, 1, 2 and 6 are at block row t,
    windows 3, 4, 5 stay at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry x of the destination block at point t is row 4000 t + x 0 of the destination array. -/
theorem dst_block_apply1 (c : Dev nD) (t : Fin cfg1.N) (x : S4000x128.Idx) (e : S160000x128.Idx)
    (he0 : (e 0).val = 4000 * t.val + (x 0).val) (he1 : (e 1).val = (x 1).val) :
    dstBlk1 V c t x = xdst1 V c e := by
  obtain ⟨i0, i1, -⟩ := block_index1 t
  unfold dstBlk1 iblk1
  rw [View.read_apply]
  show V c (Pipeline.arrRef spec1 0) _ = V c (Pipeline.arrRef spec1 0) e
  congr 1
  funext a
  apply Fin.ext
  match a with
  | ⟨0, _⟩ => show win1_0.index t 0 * 4000 + 1 * (x 0).val = (e 0).val; rw [i0, he0]; omega
  | ⟨1, _⟩ => show win1_0.index t 1 * 128 + 1 * (x 1).val = (e 1).val; rw [i1, he1]; omega

/-- Entry x of the source block at point t is row 4000 t + x 0 of the source array. -/
theorem src_block_apply1 (c : Dev nD) (t : Fin cfg1.N) (x : S4000x128.Idx) (e : S160000x128.Idx)
    (he0 : (e 0).val = 4000 * t.val + (x 0).val) (he1 : (e 1).val = (x 1).val) :
    srcBlk1 V c t x = xsrc1 V c e := by
  obtain ⟨-, -, i0, i1, -⟩ := block_index1 t
  unfold srcBlk1 iblk1
  rw [View.read_apply]
  show V c (Pipeline.arrRef spec1 1) _ = V c (Pipeline.arrRef spec1 1) e
  congr 1
  funext a
  apply Fin.ext
  match a with
  | ⟨0, _⟩ => show win1_1.index t 0 * 4000 + 1 * (x 0).val = (e 0).val; rw [i0, he0]; omega
  | ⟨1, _⟩ => show win1_1.index t 1 * 128 + 1 * (x 1).val = (e 1).val; rw [i1, he1]; omega

/-- Entry x of the attribute block at point t is row 4000 t + x 0 of the attribute array. -/
theorem attr_block_apply1 (c : Dev nD) (t : Fin cfg1.N) (x : S4000x1.Idx) (e : S160000x1.Idx)
    (he0 : (e 0).val = 4000 * t.val + (x 0).val) (he1 : (e 1).val = (x 1).val) :
    attrBlk1 V c t x = attr1 V c e := by
  obtain ⟨-, -, -, -, i0, i1, -⟩ := block_index1 t
  unfold attrBlk1 iblk1
  rw [View.read_apply]
  show V c (Pipeline.arrRef spec1 2) _ = V c (Pipeline.arrRef spec1 2) e
  congr 1
  funext a
  apply Fin.ext
  match a with
  | ⟨0, _⟩ => show win1_2.index t 0 * 4000 + 1 * (x 0).val = (e 0).val; rw [i0, he0]; omega
  | ⟨1, _⟩ => show win1_2.index t 1 * 1 + 1 * (x 1).val = (e 1).val; rw [i1, he1]; omega

/-- The destination weight's block at every point is the whole matrix. -/
theorem wdst_block_eq1 (c : Dev nD) (t : Fin cfg1.N) : wdstBlk1 V c t = wdst1 V c := by
  obtain ⟨-, -, -, -, -, -, i0, i1, -⟩ := block_index1 t
  funext x
  unfold wdstBlk1 iblk1
  rw [View.read_apply]
  show V c (Pipeline.arrRef spec1 3) _ = V c (Pipeline.arrRef spec1 3) x
  congr 1
  funext a
  apply Fin.ext
  match a with
  | ⟨0, _⟩ => show win1_3.index t 0 * 128 + 1 * (x 0).val = (x 0).val; rw [i0]; omega
  | ⟨1, _⟩ => show win1_3.index t 1 * 128 + 1 * (x 1).val = (x 1).val; rw [i1]; omega

/-- The source weight's block at every point is the whole matrix. -/
theorem wsrc_block_eq1 (c : Dev nD) (t : Fin cfg1.N) : wsrcBlk1 V c t = wsrc1 V c := by
  obtain ⟨-, -, -, -, -, -, -, -, i0, i1, -⟩ := block_index1 t
  funext x
  unfold wsrcBlk1 iblk1
  rw [View.read_apply]
  show V c (Pipeline.arrRef spec1 4) _ = V c (Pipeline.arrRef spec1 4) x
  congr 1
  funext a
  apply Fin.ext
  match a with
  | ⟨0, _⟩ => show win1_4.index t 0 * 128 + 1 * (x 0).val = (x 0).val; rw [i0]; omega
  | ⟨1, _⟩ => show win1_4.index t 1 * 128 + 1 * (x 1).val = (x 1).val; rw [i1]; omega

/-- The table's block at every point is the whole table. -/
theorem table_block_eq1 (c : Dev nD) (t : Fin cfg1.N) : tableBlk1 V c t = table1 V c := by
  obtain ⟨-, -, -, -, -, -, -, -, -, -, i0, i1, -⟩ := block_index1 t
  funext x
  unfold tableBlk1 iblk1
  rw [View.read_apply]
  show V c (Pipeline.arrRef spec1 5) _ = V c (Pipeline.arrRef spec1 5) x
  congr 1
  funext a
  apply Fin.ext
  match a with
  | ⟨0, _⟩ => show win1_5.index t 0 * 20 + 1 * (x 0).val = (x 0).val; rw [i0]; omega
  | ⟨1, _⟩ => show win1_5.index t 1 * 128 + 1 * (x 1).val = (x 1).val; rw [i1]; omega

/-! ## What a point writes back -/

/-- The payload of point t's blocks at block entry (p, q) is the whole-array function at row 4000 t + p, column q. -/
theorem pay_at_point1 (c : Dev nD) (a : Fin 160000 → Fin 20)
    (hattr : ∀ e : Fin 160000, attr1 V c (ix2 e 0) = BitVec.ofNat 32 (a e).val)
    (t : Fin cfg1.N) (p : Fin 4000) (q : Fin 128) (e : Fin 160000) (he : e.val = 4000 * t.val + p.val) :
    edgePay (dstBlk1 V c t) (srcBlk1 V c t) (wdstBlk1 V c t) (wsrcBlk1 V c t) (attrBlk1 V c t) (tableBlk1 V c t) (ix2 p q)
      = edgeArr1 V c a (ix2 e q) := by
  have hw : attrBlk1 V c t (ix2 p 0) = BitVec.ofNat 32 (a e).val :=
    (attr_block_apply1 V c t (ix2 p 0) (ix2 e 0) he rfl).trans (hattr e)
  refine (edgePay_apply_of_attr (dstBlk1 V c t) (srcBlk1 V c t) (wdstBlk1 V c t) (wsrcBlk1 V c t) (attrBlk1 V c t) (tableBlk1 V c t)
    p q (a e) hw).trans ?_
  rw [wdst_block_eq1 V c t, wsrc_block_eq1 V c t, table_block_eq1 V c t]
  have e0 : ∀ k : Fin 128, dstBlk1 V c t (ix2 p k) = xdst1 V c (ix2 e k) :=
    fun k => dst_block_apply1 V c t (ix2 p k) (ix2 e k) he rfl
  have e1 : ∀ k : Fin 128, srcBlk1 V c t (ix2 p k) = xsrc1 V c (ix2 e k) :=
    fun k => src_block_apply1 V c t (ix2 p k) (ix2 e k) he rfl
  have eA : (∑ k : Fin 128, dstBlk1 V c t (ix2 p k) * wdst1 V c (ix2 k q)) = ∑ k : Fin 128, xdst1 V c (ix2 e k) * wdst1 V c (ix2 k q) :=
    Finset.sum_congr rfl fun k _ => by rw [e0 k]
  have eB : (∑ k : Fin 128, srcBlk1 V c t (ix2 p k) * wsrc1 V c (ix2 k q)) = ∑ k : Fin 128, xsrc1 V c (ix2 e k) * wsrc1 V c (ix2 k q) :=
    Finset.sum_congr rfl fun k _ => by rw [e1 k]
  rw [eA, eB]

/-- What point t writes back is block t of the whole-array function. -/
theorem flushed1_6_eq (c : Dev nD) (a : Fin 160000 → Fin 20)
    (hattr : ∀ e : Fin 160000, attr1 V c (ix2 e 0) = BitVec.ofNat 32 (a e).val) (t : Fin cfg1.N) :
    (dat1 (F := Ideal) V c).flushed 6 t = ((cfg1.win 6).blk t).view.read (Elt Ideal) (edgeArr1 V c a) := by
  show (cfg1.win 6).cut (grid1.coords t) ((dat1 (F := Ideal) V c).after 6 t) = _
  rw [after1_6, out1_6_eq_pay]
  obtain ⟨-, -, -, -, -, -, -, -, -, -, -, -, i0, i1⟩ := block_index1 t
  have hN : t.val < 40 := t.isLt
  funext y
  obtain ⟨p, q, rfl⟩ : ∃ (p : Fin 4000) (q : Fin 128), y = ix2 p q := ⟨y 0, y 1, eq_ix2 y⟩
  have hp := p.isLt
  rw [View.read_apply]
  have hidx : ((cfg1.win 6).blk t).view.emb (ix2 p q) = ix2 (⟨4000 * t.val + p.val, by omega⟩ : Fin 160000) q := by
    funext b
    apply Fin.ext
    match b with
    | ⟨0, _⟩ => show win1_6.index t 0 * 4000 + 1 * p.val = 4000 * t.val + p.val; rw [i0]; omega
    | ⟨1, _⟩ => show win1_6.index t 1 * 128 + 1 * q.val = q.val; rw [i1]; omega
  rw [hidx]
  exact pay_at_point1 V c a hattr t p q ⟨4000 * t.val + p.val, by omega⟩ rfl

/-! ## The array after the region -/

/-- An index of the output array lies in point t's block iff each coordinate is in the block's range on its axis. -/
theorem mem_block1_6 (t : Fin cfg1.N) (i : S160000x128.Idx) :
    i ∈ ((cfg1.win 6).blk t).view.set ↔ ∀ b : Fin 2, win1_6.index t b * S4000x128.size b ≤ (i b).val ∧ (i b).val < win1_6.index t b * S4000x128.size b + S4000x128.size b := by
  show i ∈ ((View.whole (Pipeline.arrRef spec1 6)).slice (win1_6.rect t)).set ↔ _
  rw [View.set_slice_whole, Rect.mem_set_unit]
  exact Iff.rfl

/-- Row r of the output array is covered by point r / 4000. -/
theorem cover1_6_rows (i : S160000x128.Idx) : ∃ t : Fin cfg1.N, (cfg1.win 6).flush t = true ∧ i ∈ ((cfg1.win 6).blk t).view.set := by
  have hi0 : (i 0).val < 160000 := (i 0).isLt
  have hi1 : (i 1).val < 128 := (i 1).isLt
  refine ⟨(⟨(i 0).val / 4000, by show (i 0).val / 4000 < 40; omega⟩ : Fin cfg1.N), flush1_6 _, ?_⟩
  rw [mem_block1_6]
  obtain ⟨-, -, -, -, -, -, -, -, -, -, -, -, i0, i1⟩ := block_index1 (⟨(i 0).val / 4000, by show (i 0).val / 4000 < 40; omega⟩ : Fin cfg1.N)
  intro b
  match b with
  | ⟨0, _⟩ =>
    show win1_6.index _ (0 : Fin 2) * 4000 ≤ (i 0).val ∧ (i 0).val < win1_6.index _ (0 : Fin 2) * 4000 + 4000
    rw [i0]; show (i 0).val / 4000 * 4000 ≤ (i 0).val ∧ (i 0).val < (i 0).val / 4000 * 4000 + 4000; omega
  | ⟨1, _⟩ =>
    show win1_6.index _ (1 : Fin 2) * 128 ≤ (i 1).val ∧ (i 1).val < win1_6.index _ (1 : Fin 2) * 128 + 128
    rw [i1]; omega

/-- After the region the output array is the whole-array function: at edge e and feature d,
    max ((x_dst · W_dst)[e, d] + (x_src · W_src)[e, d] + T[a e, d], 0). -/
theorem edge_final1 (c : Dev nD) (a : Fin 160000 → Fin 20)
    (hattr : ∀ e : Fin 160000, attr1 V c (ix2 e 0) = BitVec.ofNat 32 (a e).val) :
    (dat1 (F := Ideal) V c).arrAt 6 cfg1.N = edgeArr1 V c a :=
  (dat1 (F := Ideal) V c).arrAt_eq_of_cover 6 (edgeArr1 V c a) (fun t _ => flushed1_6_eq V c a hattr t) cover1_6_rows

end Cert.KernelIdeal.Val

end
-- ==== Proof.Spec.lean ====
import Idealize.ShloMosaic.PureOps.Ideal
import Idealize.ShloMosaic.Lib.ValueIdx
import Mathlib.Algebra.BigOperators.Fin

noncomputable section

namespace Cert.Spec

open Idealize.ShloMosaic ValueIdx

abbrev Arr (n m : ℕ) : Type := (⟨2, ![n, m]⟩ : Shape).Idx → EReal

abbrev Vec1 (n : ℕ) : Type := (⟨1, ![n]⟩ : Shape).Idx → EReal

def IsReal {ι : Type} (x : ι → EReal) : Prop := ∀ i, ∃ r : ℝ, x i = (r : EReal)

def edgeMsg (xd xs : Arr 160000 128) (E : Arr 20 128) (a : Fin 160000 → Fin 20) (W : Arr 384 128) (b : Vec1 128) : Arr 160000 128 :=
  fun i => max
    ((∑ k : Fin 128, xd (ix2 (i 0) k) * W (ix2 (⟨k.val, by omega⟩ : Fin 384) (i 1)))
      + (∑ k : Fin 128, xs (ix2 (i 0) k) * W (ix2 (⟨128 + k.val, by omega⟩ : Fin 384) (i 1)))
      + (∑ k : Fin 128, E (ix2 (a (i 0)) k) * W (ix2 (⟨256 + k.val, by omega⟩ : Fin 384) (i 1)))
      + b (ix1 (i 1))) 0

def score (x y : Arr 10000 128) (i j : Fin 10000) : EReal := ∑ d : Fin 128, x (ix2 i d) * y (ix2 j d)

def rowMax (x y : Arr 10000 128) (i : Fin 10000) : EReal :=
  (Finset.univ : Finset (Fin 10000)).fold max ⊥ (fun j => score x y i j)

def rowZ (x y : Arr 10000 128) (i : Fin 10000) : EReal :=
  ∑ j : Fin 10000, Ideal.exp (score x y i j - rowMax x y i)

def attnUpd (x y : Arr 10000 128) : Arr 10000 128 :=
  fun i => x i - ∑ j : Fin 10000, Ideal.div (Ideal.exp (score x y (i 0) j - rowMax x y (i 0))) (rowZ x y (i 0)) * y (ix2 j (i 1))

end Cert.Spec

end
-- ==== Proof.LibEdge.lean ====
import proofs.«407386_j15839839387945_2_alg».proof.Proof.Spec

noncomputable section

namespace Cert.LibEdge

open Idealize.ShloMosaic Idealize.ShloMosaic.ValueIdx Cert.Spec
open scoped BigOperators

theorem edge_kernel_form (xd xs : Spec.Arr 160000 128) (E : Spec.Arr 20 128) (a : Fin 160000 → Fin 20) (W : Spec.Arr 384 128)
    (b : Spec.Vec1 128) (WD WS : Spec.Arr 128 128) (TT : Spec.Arr 20 128)
    (hWD : ∀ (k d : Fin 128), WD (ix2 k d) = W (ix2 (⟨k.val, by omega⟩ : Fin 384) d))
    (hWS : ∀ (k d : Fin 128), WS (ix2 k d) = W (ix2 (⟨128 + k.val, by omega⟩ : Fin 384) d))
    (hTT : ∀ (j : Fin 20) (d : Fin 128), TT (ix2 j d) = (∑ k : Fin 128, E (ix2 j k) * W (ix2 (⟨256 + k.val, by omega⟩ : Fin 384) d)) + b (ix1 d)) :
    (fun i : (⟨2, ![160000, 128]⟩ : Shape).Idx => max ((∑ k : Fin 128, xd (ix2 (i 0) k) * WD (ix2 k (i 1))) + (∑ k : Fin 128, xs (ix2 (i 0) k) * WS (ix2 k (i 1)))
        + TT (ix2 (a (i 0)) (i 1))) 0) = Spec.edgeMsg xd xs E a W b := by
  funext i
  obtain ⟨p, q, rfl⟩ : ∃ (p : Fin 160000) (q : Fin 128), i = ix2 p q := ⟨i 0, i 1, eq_ix2 i⟩
  show max ((∑ k : Fin 128, xd (ix2 p k) * WD (ix2 k q)) + (∑ k : Fin 128, xs (ix2 p k) * WS (ix2 k q)) + TT (ix2 (a p) q)) 0
    = max ((∑ k : Fin 128, xd (ix2 p k) * W (ix2 (⟨k.val, by omega⟩ : Fin 384) q))
        + (∑ k : Fin 128, xs (ix2 p k) * W (ix2 (⟨128 + k.val, by omega⟩ : Fin 384) q))
        + (∑ k : Fin 128, E (ix2 (a p) k) * W (ix2 (⟨256 + k.val, by omega⟩ : Fin 384) q))
        + b (ix1 q)) 0
  have eA : (∑ k : Fin 128, xd (ix2 p k) * WD (ix2 k q)) = ∑ k : Fin 128, xd (ix2 p k) * W (ix2 (⟨k.val, by omega⟩ : Fin 384) q) :=
    Finset.sum_congr rfl fun k _ => by rw [hWD k q]
  have eB : (∑ k : Fin 128, xs (ix2 p k) * WS (ix2 k q)) = ∑ k : Fin 128, xs (ix2 p k) * W (ix2 (⟨128 + k.val, by omega⟩ : Fin 384) q) :=
    Finset.sum_congr rfl fun k _ => by rw [hWS k q]
  rw [eA, eB, hTT (a p) q]
  exact congrArg (fun s => max s 0) (add_assoc _ _ _).symm

end Cert.LibEdge

end
-- ==== Proof.LibRowTake.lean ====
import Idealize.ShloMosaic.PureOps.Ideal
import Idealize.ShloMosaic.Lib.ValueIdx

noncomputable section

open scoped BigOperators

namespace Cert.RowTake

open Idealize.ShloMosaic Idealize.ShloMosaic.ValueIdx

theorem gather_rows {α : Type} {K C n w : Nat} (hK : 0 < K)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ w) (r : Fin n) (c : Fin C) :
    Host.gather d x idx (ix2 r c)
      = x (ix2 (⟨min (idx (ix2 r (0 : Fin 1))).toInt.toNat (K - 1), by omega⟩ : Fin K) c) := by
  unfold Host.gather
  congr 1
  funext a
  apply Fin.ext
  have hb : ∀ a : Fin 2, a ∉ d.operandBatchingDims := fun a => by rw [hob]; exact List.not_mem_nil

  have hall1 : ∀ a ∈ d.offsetDims, a = (1 : Fin 2) := by
    rw [hoff]; intro a ha; exact List.mem_singleton.mp ha
  have hall0 : ∀ a ∈ d.batchDims, a = (0 : Fin 2) := by
    intro a ha
    have hne : a ∉ d.offsetDims := by
      have := (List.mem_filter.mp ha).2
      simpa using this
    rw [hoff, List.mem_singleton] at hne
    match a, hne with
    | ⟨0, _⟩, _ => rfl
    | ⟨1, _⟩, hne => exact absurd rfl hne
  match a with
  | ⟨0, _⟩ =>

    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = _
    rw [GatherDims.batchCoord_eq_zero _ _ _ (hb 0), GatherDims.offCoord_eq_zero _ _ _ hk]
    simp only [Nat.add_zero]
    unfold GatherDims.start
    rw [dif_pos hm]
    show min (idx _).toInt.toNat (K - d.sliceSizes 0) = min (idx (ix2 r (0 : Fin 1))).toInt.toNat (K - 1)
    rw [hsl]
    congr 3
    congr 1
    funext b
    match b with
    | ⟨0, _⟩ =>

      unfold GatherDims.siIdx
      rw [dif_neg (by rw [hivd]; simp)]
      unfold GatherDims.siCoord
      apply Fin.ext
      simp only [Fin.val_cast]
      have e : ∀ X : Fin 2, X = 0 → ((ix2 r c : (⟨2, ![n, C]⟩ : Shape).Idx) X).val = r.val := fun X hX => by
        subst hX; rfl
      exact e _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>

    have hm : (1 : Fin 2) ∉ d.startIndexMap := by rw [hsim]; simp
    have hk : (1 : Fin 2) ∈ d.sKept := by rw [GatherDims.mem_sKept, hcoll]; exact ⟨by simp, hb 1⟩
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.add_zero, Nat.zero_add]
    have e : ∀ X : Fin 2, X = 1 → ((ix2 r c : (⟨2, ![n, C]⟩ : Shape).Idx) X).val = c.val := fun X hX => by
      subst hX; rfl
    exact e _ (hall1 _ (List.getElem_mem _))

theorem toInt_toNat_ofNat (k : Nat) (hk : k < 2147483648) : (BitVec.ofNat 32 k).toInt.toNat = k := by
  have h1 : (BitVec.ofNat 32 k).toNat = k := by
    rw [BitVec.toNat_ofNat]; exact Nat.mod_eq_of_lt (by omega)
  rw [BitVec.toInt_eq_toNat_cond, h1]
  have : 2 * k < 2 ^ 32 := by omega
  rw [if_pos this]
  simp

theorem gather_rows_of_word {α : Type} {K C n : Nat} (hK32 : K ≤ 2147483648)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ 32) (r : Fin n) (c : Fin C) (k₀ : Fin K)
    (hw : idx (ix2 r (0 : Fin 1)) = BitVec.ofNat 32 k₀.val) :
    Host.gather d x idx (ix2 r c) = x (ix2 k₀ c) := by
  have hk0 := k₀.isLt
  rw [gather_rows (by omega) d hoff hcoll hob hsim hivd]
  congr 2
  apply Fin.ext
  show min (idx (ix2 r (0 : Fin 1))).toInt.toNat (K - 1) = k₀.val
  rw [hw, toInt_toNat_ofNat _ (by omega)]
  omega

theorem sum_onehot_mul {K : Nat} (e T : Fin K → EReal) (k₀ : Fin K) (h1 : e k₀ = 1) (h0 : ∀ k, k ≠ k₀ → e k = 0) :
    ∑ k : Fin K, e k * T k = T k₀ := by
  rw [Finset.sum_eq_single k₀ (fun k _ hk => by rw [h0 k hk, zero_mul])
    (fun h => absurd (Finset.mem_univ _) h), h1, one_mul]

def onehotWord (w : BitVec 32) (k : Nat) : EReal :=
  ((((IntOp.cmpi .eq w (BitVec.ofNat 32 k)).setWidth 32).toInt : ℝ) : EReal)

theorem onehotWord_self (k : Nat) : onehotWord (BitVec.ofNat 32 k) k = 1 := by
  unfold onehotWord IntOp.cmpi
  simp

theorem onehotWord_ne (k₀ k : Nat) (h0 : k₀ < 4294967296) (hk : k < 4294967296) (hne : k ≠ k₀) :
    onehotWord (BitVec.ofNat 32 k₀) k = 0 := by
  unfold onehotWord IntOp.cmpi
  have hneq : (BitVec.ofNat 32 k₀ == BitVec.ofNat 32 k) = false := by
    rw [beq_eq_false_iff_ne]
    intro h
    have := congrArg BitVec.toNat h
    rw [BitVec.toNat_ofNat, BitVec.toNat_ofNat, Nat.mod_eq_of_lt (by omega), Nat.mod_eq_of_lt (by omega)] at this
    exact hne this.symm
  simp [hneq]

end Cert.RowTake

end
-- ==== Proof.Val.RefStages.lean ====
import proofs.«407386_j15839839387945_2_alg».proof.Proof.Gen.ReferenceIdeal
import proofs.«407386_j15839839387945_2_alg».proof.Proof.Spec
import proofs.«407386_j15839839387945_2_alg».proof.Proof.LibRowTake
import Idealize.ShloMosaic.Lib.Pipeline.Value
import Idealize.ShloMosaic.Lib.ValueIdx
import Idealize.ShloMosaic.PureOps.Ideal.Laws
import Mathlib.Algebra.BigOperators.Fin

noncomputable section

namespace Cert.RefStages

open Cert.ReferenceIdeal Cert.ReferenceIdeal.Gen Idealize.ShloMosaic Idealize.ShloMosaic.TcCoe Idealize.SL.Sem Idealize.ShloMosaic.StableHlo
open Idealize.ShloMosaic.ValueIdx
open scoped BigOperators

theorem ofBits_neg_inf : Ideal.ofBits .f32 0xFF800000#32 = (⊥ : EReal) := by simp [Ideal.ofBits, Ideal.ieee]

theorem sum_three {M : Type} [AddCommMonoid M] (a b c : ℕ) (f : Fin (a + b + c) → M) :
    ∑ i : Fin (a + b + c), f i
      = (∑ i : Fin a, f ⟨i.val, by omega⟩) + (∑ i : Fin b, f ⟨a + i.val, by omega⟩) + ∑ i : Fin c, f ⟨a + b + i.val, by omega⟩ := by
  rw [Fin.sum_univ_add, Fin.sum_univ_add]
  rfl

theorem sum_384 (f : Fin 384 → EReal) :
    ∑ k : Fin 384, f k
      = (∑ k : Fin 128, f ⟨k.val, by omega⟩) + (∑ k : Fin 128, f ⟨128 + k.val, by omega⟩) + ∑ k : Fin 128, f ⟨256 + k.val, by omega⟩ :=
  sum_three 128 128 128 f

theorem exp_apply {s : Shape} (a : FVec Ideal s .f32) (i : s.Idx) : Host.exp (F := Ideal) (φ := .f32) a i = Ideal.exp (a i) := rfl

theorem div_apply {s : Shape} (a b : FVec Ideal s .f32) (i : s.Idx) :
    Host.divf (F := Ideal) (φ := .f32) a b i = Ideal.div (a i) (b i) := rfl

theorem dotMsg_lhs0 (i : S160000x128.Idx) (q : dot_S160000x384_S384x128_S160000x128_1_0_0_1_n_n.contr.Idx) :
    (dot_S160000x384_S384x128_S160000x128_1_0_0_1_n_n.lhsIdx i q 0).val = (i 0).val := by
  unfold DotDims.lhsIdx
  rw [dif_neg (show ¬(0 : Fin S160000x384.rank) ∈ dot_S160000x384_S384x128_S160000x128_1_0_0_1_n_n.lhsBatch by decide), dif_pos (show (0 : Fin S160000x384.rank) ∈ dot_S160000x384_S384x128_S160000x128_1_0_0_1_n_n.lhsNonContracting by decide)]
  rfl
theorem dotMsg_lhs1 (i : S160000x128.Idx) (q : dot_S160000x384_S384x128_S160000x128_1_0_0_1_n_n.contr.Idx) :
    (dot_S160000x384_S384x128_S160000x128_1_0_0_1_n_n.lhsIdx i q 1).val = (q ⟨0, by decide⟩).val :=
  dot_S160000x384_S384x128_S160000x128_1_0_0_1_n_n.lhsIdx_val_of_single rfl i q
theorem dotMsg_rhs0 (i : S160000x128.Idx) (q : dot_S160000x384_S384x128_S160000x128_1_0_0_1_n_n.contr.Idx) :
    (dot_S160000x384_S384x128_S160000x128_1_0_0_1_n_n.rhsIdx i q 0).val = (q ⟨0, by decide⟩).val :=
  dot_S160000x384_S384x128_S160000x128_1_0_0_1_n_n.rhsIdx_val_of_single rfl i q
theorem dotMsg_rhs1 (i : S160000x128.Idx) (q : dot_S160000x384_S384x128_S160000x128_1_0_0_1_n_n.contr.Idx) :
    (dot_S160000x384_S384x128_S160000x128_1_0_0_1_n_n.rhsIdx i q 1).val = (i 1).val := by
  unfold DotDims.rhsIdx
  rw [dif_neg (show ¬(1 : Fin S384x128.rank) ∈ dot_S160000x384_S384x128_S160000x128_1_0_0_1_n_n.rhsBatch by decide), dif_pos (show (1 : Fin S384x128.rank) ∈ dot_S160000x384_S384x128_S160000x128_1_0_0_1_n_n.rhsNonContracting by decide)]
  rfl

theorem dotMsg_apply (l : (⟨S160000x384, .f32⟩ : BufTy).Contents (Elt Ideal)) (r : (⟨S384x128, .f32⟩ : BufTy).Contents (Elt Ideal))
    (p : Fin 160000) (q : Fin 128) :
    Host.dotGeneral (F := Ideal) (φ₁ := .f32) (φ₂ := .f32) dot_S160000x384_S384x128_S160000x128_1_0_0_1_n_n none l r (ix2 p q) = ∑ k : Fin 384, l (ix2 p k) * r (ix2 k q) := by
  simp only [Host.dotGeneral]
  rw [Ideal.dotGeneral_apply, ← Equiv.sum_comp (ValueIdx.contrEquiv1 dot_S160000x384_S384x128_S160000x128_1_0_0_1_n_n 384 rfl rfl).symm]
  refine Finset.sum_congr rfl fun k _ => ?_
  have hk := ValueIdx.contrEquiv1_symm_val dot_S160000x384_S384x128_S160000x128_1_0_0_1_n_n 384 rfl rfl k
  have el : dot_S160000x384_S384x128_S160000x128_1_0_0_1_n_n.lhsIdx (ix2 p q) ((ValueIdx.contrEquiv1 dot_S160000x384_S384x128_S160000x128_1_0_0_1_n_n 384 rfl rfl).symm k) = ix2 p k := funext fun a => Fin.ext (by
    match a with
    | ⟨0, _⟩ => exact dotMsg_lhs0 _ _
    | ⟨1, _⟩ => exact (dotMsg_lhs1 _ _).trans hk)
  have er : dot_S160000x384_S384x128_S160000x128_1_0_0_1_n_n.rhsIdx (ix2 p q) ((ValueIdx.contrEquiv1 dot_S160000x384_S384x128_S160000x128_1_0_0_1_n_n 384 rfl rfl).symm k) = ix2 k q := funext fun a => Fin.ext (by
    match a with
    | ⟨0, _⟩ => exact (dotMsg_rhs0 _ _).trans hk
    | ⟨1, _⟩ => exact dotMsg_rhs1 _ _)
  rw [el, er]

def cat3 (xd xs ew : (⟨S160000x128, .f32⟩ : BufTy).Contents (Elt Ideal)) : (⟨S160000x384, .f32⟩ : BufTy).Contents (Elt Ideal) :=
  concatenate S160000x384 1 [⟨S160000x128, xd⟩, ⟨S160000x128, xs⟩, ⟨S160000x128, ew⟩] concatenates_S160000x128_S160000x128_S160000x128_S160000x384_d1

theorem cat3_apply0 (xd xs ew : (⟨S160000x128, .f32⟩ : BufTy).Contents (Elt Ideal)) (p : Fin 160000) (k : Fin 128) :
    cat3 xd xs ew (ix2 p (⟨k.val, by omega⟩ : Fin 384)) = xd (ix2 p k) := by
  unfold cat3
  exact concatenate_apply_piece (1 : Fin S160000x384.rank) [⟨S160000x128, xd⟩, ⟨S160000x128, xs⟩, ⟨S160000x128, ew⟩] concatenates_S160000x128_S160000x128_S160000x128_S160000x384_d1 _ 0 (by show (0 : Nat) < 3; omega) S160000x128 xd rfl rfl 0 rfl (ix2 p k)
    (fun b hb => by
      match b, hb with
      | ⟨0, _⟩, _ => rfl
      | ⟨1, _⟩, hb => exact absurd rfl hb)
    (by show 0 + k.val = k.val; omega)

theorem cat3_apply1 (xd xs ew : (⟨S160000x128, .f32⟩ : BufTy).Contents (Elt Ideal)) (p : Fin 160000) (k : Fin 128) :
    cat3 xd xs ew (ix2 p (⟨128 + k.val, by omega⟩ : Fin 384)) = xs (ix2 p k) := by
  unfold cat3
  exact concatenate_apply_piece (1 : Fin S160000x384.rank) [⟨S160000x128, xd⟩, ⟨S160000x128, xs⟩, ⟨S160000x128, ew⟩] concatenates_S160000x128_S160000x128_S160000x128_S160000x384_d1 _ 1 (by show (1 : Nat) < 3; omega) S160000x128 xs rfl rfl 128 rfl (ix2 p k)
    (fun b hb => by
      match b, hb with
      | ⟨0, _⟩, _ => rfl
      | ⟨1, _⟩, hb => exact absurd rfl hb)
    (by show 128 + k.val = 128 + k.val; rfl)

theorem cat3_apply2 (xd xs ew : (⟨S160000x128, .f32⟩ : BufTy).Contents (Elt Ideal)) (p : Fin 160000) (k : Fin 128) :
    cat3 xd xs ew (ix2 p (⟨256 + k.val, by omega⟩ : Fin 384)) = ew (ix2 p k) := by
  unfold cat3
  exact concatenate_apply_piece (1 : Fin S160000x384.rank) [⟨S160000x128, xd⟩, ⟨S160000x128, xs⟩, ⟨S160000x128, ew⟩] concatenates_S160000x128_S160000x128_S160000x128_S160000x384_d1 _ 2 (by show (2 : Nat) < 3; omega) S160000x128 ew rfl rfl 256 rfl (ix2 p k)
    (fun b hb => by
      match b, hb with
      | ⟨0, _⟩, _ => rfl
      | ⟨1, _⟩, hb => exact absurd rfl hb)
    (by show 256 + k.val = 256 + k.val; rfl)

theorem bias_apply (b : (⟨S128, .f32⟩ : BufTy).Contents (Elt Ideal)) (p : Fin 160000) (q : Fin 128) :
    broadcastInDim S160000x128 ![0, 1] bcast_S1x128_S160000x128_0_1 (broadcastInDim S1x128 ![1] bcast_S128_S1x128_1 b) (ix2 p q)
      = b (ix1 q) := by
  refine (broadcastInDim_apply _ bcast_S1x128_S160000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

theorem zeros_apply (i : S160000x128.Idx) :
    broadcastInDim S160000x128 ![] bcast_S_S160000x128 (constant (F := Ideal) S_ .f32 0x00000000#32) i = (0 : EReal) := by
  refine (broadcastInDim_apply _ bcast_S_S160000x128 _ i (fun a => a.elim0) (fun a => a.elim0)).trans ?_
  rw [constant_apply]
  exact Ideal.ofBits_zero_f32

def msgStage (xd xs ew : (⟨S160000x128, .f32⟩ : BufTy).Contents (Elt Ideal)) (W : (⟨S384x128, .f32⟩ : BufTy).Contents (Elt Ideal)) (b : (⟨S128, .f32⟩ : BufTy).Contents (Elt Ideal)) : (⟨S160000x128, .f32⟩ : BufTy).Contents (Elt Ideal) :=
  maximumf
    (addf (Host.dotGeneral (F := Ideal) (φ₁ := .f32) (φ₂ := .f32) dot_S160000x384_S384x128_S160000x128_1_0_0_1_n_n none (cat3 xd xs ew) W)
      (broadcastInDim S160000x128 ![0, 1] bcast_S1x128_S160000x128_0_1 (broadcastInDim S1x128 ![1] bcast_S128_S1x128_1 b)))
    (broadcastInDim S160000x128 ![] bcast_S_S160000x128 (constant (F := Ideal) S_ .f32 0x00000000#32))

theorem ref_msg (xd xs ew : (⟨S160000x128, .f32⟩ : BufTy).Contents (Elt Ideal)) (W : (⟨S384x128, .f32⟩ : BufTy).Contents (Elt Ideal)) (b : (⟨S128, .f32⟩ : BufTy).Contents (Elt Ideal)) :
    msgStage xd xs ew W b = fun i => max
      ((∑ k : Fin 128, xd (ix2 (i 0) k) * W (ix2 (⟨k.val, by omega⟩ : Fin 384) (i 1)))
        + (∑ k : Fin 128, xs (ix2 (i 0) k) * W (ix2 (⟨128 + k.val, by omega⟩ : Fin 384) (i 1)))
        + (∑ k : Fin 128, ew (ix2 (i 0) k) * W (ix2 (⟨256 + k.val, by omega⟩ : Fin 384) (i 1)))
        + b (ix1 (i 1))) 0 := by
  funext i
  obtain ⟨p, q, rfl⟩ : ∃ (p : Fin 160000) (q : Fin 128), i = ix2 p q := ⟨i 0, i 1, eq_ix2 i⟩
  unfold msgStage
  rw [maximumf_apply, addf_apply, dotMsg_apply, bias_apply, zeros_apply, sum_384]
  simp only [cat3_apply0, cat3_apply1, cat3_apply2]

def wrapIdx (attr : (⟨S160000x1, .i32⟩ : BufTy).Contents (Elt Ideal)) : (⟨S160000x1, .i32⟩ : BufTy).Contents (Elt Ideal) :=
  broadcastInDim S160000x1 ![0] bcast_S160000_S160000x1_0
    (select (cmpi .slt (shapeCast S160000 attr shapeCasts_S160000x1_S160000) (broadcastInDim S160000 ![] bcast_S_S160000 (constantI S_ 32 0#32)))
      (addi (shapeCast S160000 attr shapeCasts_S160000x1_S160000) (broadcastInDim S160000 ![] bcast_S_S160000 (constantI S_ 32 20#32)))
      (shapeCast S160000 attr shapeCasts_S160000x1_S160000))

theorem wrap_word : ∀ k : Fin 20,
    Scalar.select (IntOp.cmpi .slt (BitVec.ofNat 32 k.val) 0#32) (IntOp.addi (BitVec.ofNat 32 k.val) 20#32) (BitVec.ofNat 32 k.val)
      = BitVec.ofNat 32 k.val := by decide

theorem flat_apply (attr : (⟨S160000x1, .i32⟩ : BufTy).Contents (Elt Ideal)) (r : Fin 160000) :
    shapeCast S160000 attr shapeCasts_S160000x1_S160000 (ix1 r) = attr (ix2 r (0 : Fin 1)) :=
  shapeCast_apply attr shapeCasts_S160000x1_S160000 (ix1 r) (ix2 r (0 : Fin 1))
    (by rewrite [Shape.rowMajor_val_two, Shape.rowMajor_val_one]; show r.val * 1 + 0 = r.val; omega)

theorem splat_apply (w : BitVec 32) (r : Fin 160000) :
    broadcastInDim S160000 ![] bcast_S_S160000 (constantI S_ 32 w) (ix1 r) = w :=
  broadcastInDim_apply _ bcast_S_S160000 (constantI S_ 32 w) (ix1 r) (fun a => a.elim0) (fun a => a.elim0)

theorem wrapIdx_apply (attr : (⟨S160000x1, .i32⟩ : BufTy).Contents (Elt Ideal)) (r : Fin 160000) (k : Fin 20)
    (h : attr (ix2 r (0 : Fin 1)) = BitVec.ofNat 32 k.val) :
    wrapIdx attr (ix2 r (0 : Fin 1)) = BitVec.ofNat 32 k.val := by
  unfold wrapIdx
  refine (broadcastInDim_apply _ bcast_S160000_S160000x1_0 _ (ix2 r (0 : Fin 1)) (ix1 r) (fun a => match a with
    | ⟨0, _⟩ => by show r.val = if (160000 : Nat) = 1 then 0 else r.val; rw [if_neg (by decide)])).trans ?_
  show Scalar.select (IntOp.cmpi .slt (shapeCast S160000 attr shapeCasts_S160000x1_S160000 (ix1 r))
        (broadcastInDim S160000 ![] bcast_S_S160000 (constantI S_ 32 0#32) (ix1 r)))
      (IntOp.addi (shapeCast S160000 attr shapeCasts_S160000x1_S160000 (ix1 r))
        (broadcastInDim S160000 ![] bcast_S_S160000 (constantI S_ 32 20#32) (ix1 r)))
      (shapeCast S160000 attr shapeCasts_S160000x1_S160000 (ix1 r)) = _
  rw [flat_apply, splat_apply, splat_apply, h]
  exact wrap_word k

def ewStage (E : (⟨S20x128, .f32⟩ : BufTy).Contents (Elt Ideal)) (attr : (⟨S160000x1, .i32⟩ : BufTy).Contents (Elt Ideal)) : (⟨S160000x128, .f32⟩ : BufTy).Contents (Elt Ideal) :=
  Host.gather gather_S20x128_S160000x1_S160000x128_1_0_n_n_0_1_1128 E (wrapIdx attr)

theorem ref_ew (E : (⟨S20x128, .f32⟩ : BufTy).Contents (Elt Ideal)) (attr : (⟨S160000x1, .i32⟩ : BufTy).Contents (Elt Ideal)) (a : Fin 160000 → Fin 20)
    (h : ∀ e : Fin 160000, attr (ix2 e (0 : Fin 1)) = BitVec.ofNat 32 (a e).val) :
    ewStage E attr = fun i => E (ix2 (a (i 0)) (i 1)) := by
  funext i
  obtain ⟨r, c, rfl⟩ : ∃ (r : Fin 160000) (c : Fin 128), i = ix2 r c := ⟨i 0, i 1, eq_ix2 i⟩
  unfold ewStage
  exact Cert.RowTake.gather_rows_of_word (K := 20) (C := 128) (n := 160000) (by decide) gather_S20x128_S160000x1_S160000x128_1_0_n_n_0_1_1128
    rfl rfl rfl rfl rfl E (wrapIdx attr) r c (a r) (wrapIdx_apply attr r (a r) (h r))

theorem ref_msg_spec (xd xs : (⟨S160000x128, .f32⟩ : BufTy).Contents (Elt Ideal)) (E : (⟨S20x128, .f32⟩ : BufTy).Contents (Elt Ideal)) (attr : (⟨S160000x1, .i32⟩ : BufTy).Contents (Elt Ideal))
    (W : (⟨S384x128, .f32⟩ : BufTy).Contents (Elt Ideal)) (b : (⟨S128, .f32⟩ : BufTy).Contents (Elt Ideal)) (a : Fin 160000 → Fin 20)
    (h : ∀ e : Fin 160000, attr (ix2 e (0 : Fin 1)) = BitVec.ofNat 32 (a e).val) :
    msgStage xd xs (ewStage E attr) W b = Spec.edgeMsg xd xs E a W b := by
  rw [ref_msg, ref_ew E attr a h]
  rfl

theorem dotSc_lhs0 (i : S10000x10000.Idx) (q : dot_S10000x128_S128x10000_S10000x10000_1_0_0_1_n_n.contr.Idx) :
    (dot_S10000x128_S128x10000_S10000x10000_1_0_0_1_n_n.lhsIdx i q 0).val = (i 0).val := by
  unfold DotDims.lhsIdx
  rw [dif_neg (show ¬(0 : Fin S10000x128.rank) ∈ dot_S10000x128_S128x10000_S10000x10000_1_0_0_1_n_n.lhsBatch by decide), dif_pos (show (0 : Fin S10000x128.rank) ∈ dot_S10000x128_S128x10000_S10000x10000_1_0_0_1_n_n.lhsNonContracting by decide)]
  rfl
theorem dotSc_lhs1 (i : S10000x10000.Idx) (q : dot_S10000x128_S128x10000_S10000x10000_1_0_0_1_n_n.contr.Idx) :
    (dot_S10000x128_S128x10000_S10000x10000_1_0_0_1_n_n.lhsIdx i q 1).val = (q ⟨0, by decide⟩).val :=
  dot_S10000x128_S128x10000_S10000x10000_1_0_0_1_n_n.lhsIdx_val_of_single rfl i q
theorem dotSc_rhs0 (i : S10000x10000.Idx) (q : dot_S10000x128_S128x10000_S10000x10000_1_0_0_1_n_n.contr.Idx) :
    (dot_S10000x128_S128x10000_S10000x10000_1_0_0_1_n_n.rhsIdx i q 0).val = (q ⟨0, by decide⟩).val :=
  dot_S10000x128_S128x10000_S10000x10000_1_0_0_1_n_n.rhsIdx_val_of_single rfl i q
theorem dotSc_rhs1 (i : S10000x10000.Idx) (q : dot_S10000x128_S128x10000_S10000x10000_1_0_0_1_n_n.contr.Idx) :
    (dot_S10000x128_S128x10000_S10000x10000_1_0_0_1_n_n.rhsIdx i q 1).val = (i 1).val := by
  unfold DotDims.rhsIdx
  rw [dif_neg (show ¬(1 : Fin S128x10000.rank) ∈ dot_S10000x128_S128x10000_S10000x10000_1_0_0_1_n_n.rhsBatch by decide), dif_pos (show (1 : Fin S128x10000.rank) ∈ dot_S10000x128_S128x10000_S10000x10000_1_0_0_1_n_n.rhsNonContracting by decide)]
  rfl

theorem dotSc_apply (l : (⟨S10000x128, .f32⟩ : BufTy).Contents (Elt Ideal)) (r : (⟨S128x10000, .f32⟩ : BufTy).Contents (Elt Ideal))
    (p : Fin 10000) (q : Fin 10000) :
    Host.dotGeneral (F := Ideal) (φ₁ := .f32) (φ₂ := .f32) dot_S10000x128_S128x10000_S10000x10000_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S10000x128_S128x10000_S10000x10000_1_0_0_1_n_n 128 rfl rfl).symm]
  refine Finset.sum_congr rfl fun k _ => ?_
  have hk := ValueIdx.contrEquiv1_symm_val dot_S10000x128_S128x10000_S10000x10000_1_0_0_1_n_n 128 rfl rfl k
  have el : dot_S10000x128_S128x10000_S10000x10000_1_0_0_1_n_n.lhsIdx (ix2 p q) ((ValueIdx.contrEquiv1 dot_S10000x128_S128x10000_S10000x10000_1_0_0_1_n_n 128 rfl rfl).symm k) = ix2 p k := funext fun a => Fin.ext (by
    match a with
    | ⟨0, _⟩ => exact dotSc_lhs0 _ _
    | ⟨1, _⟩ => exact (dotSc_lhs1 _ _).trans hk)
  have er : dot_S10000x128_S128x10000_S10000x10000_1_0_0_1_n_n.rhsIdx (ix2 p q) ((ValueIdx.contrEquiv1 dot_S10000x128_S128x10000_S10000x10000_1_0_0_1_n_n 128 rfl rfl).symm k) = ix2 k q := funext fun a => Fin.ext (by
    match a with
    | ⟨0, _⟩ => exact (dotSc_rhs0 _ _).trans hk
    | ⟨1, _⟩ => exact dotSc_rhs1 _ _)
  rw [el, er]

theorem dotWy_lhs0 (i : S10000x128.Idx) (q : dot_S10000x10000_S10000x128_S10000x128_1_0_0_1_n_n.contr.Idx) :
    (dot_S10000x10000_S10000x128_S10000x128_1_0_0_1_n_n.lhsIdx i q 0).val = (i 0).val := by
  unfold DotDims.lhsIdx
  rw [dif_neg (show ¬(0 : Fin S10000x10000.rank) ∈ dot_S10000x10000_S10000x128_S10000x128_1_0_0_1_n_n.lhsBatch by decide), dif_pos (show (0 : Fin S10000x10000.rank) ∈ dot_S10000x10000_S10000x128_S10000x128_1_0_0_1_n_n.lhsNonContracting by decide)]
  rfl
theorem dotWy_lhs1 (i : S10000x128.Idx) (q : dot_S10000x10000_S10000x128_S10000x128_1_0_0_1_n_n.contr.Idx) :
    (dot_S10000x10000_S10000x128_S10000x128_1_0_0_1_n_n.lhsIdx i q 1).val = (q ⟨0, by decide⟩).val :=
  dot_S10000x10000_S10000x128_S10000x128_1_0_0_1_n_n.lhsIdx_val_of_single rfl i q
theorem dotWy_rhs0 (i : S10000x128.Idx) (q : dot_S10000x10000_S10000x128_S10000x128_1_0_0_1_n_n.contr.Idx) :
    (dot_S10000x10000_S10000x128_S10000x128_1_0_0_1_n_n.rhsIdx i q 0).val = (q ⟨0, by decide⟩).val :=
  dot_S10000x10000_S10000x128_S10000x128_1_0_0_1_n_n.rhsIdx_val_of_single rfl i q
theorem dotWy_rhs1 (i : S10000x128.Idx) (q : dot_S10000x10000_S10000x128_S10000x128_1_0_0_1_n_n.contr.Idx) :
    (dot_S10000x10000_S10000x128_S10000x128_1_0_0_1_n_n.rhsIdx i q 1).val = (i 1).val := by
  unfold DotDims.rhsIdx
  rw [dif_neg (show ¬(1 : Fin S10000x128.rank) ∈ dot_S10000x10000_S10000x128_S10000x128_1_0_0_1_n_n.rhsBatch by decide), dif_pos (show (1 : Fin S10000x128.rank) ∈ dot_S10000x10000_S10000x128_S10000x128_1_0_0_1_n_n.rhsNonContracting by decide)]
  rfl

theorem dotWy_apply (l : (⟨S10000x10000, .f32⟩ : BufTy).Contents (Elt Ideal)) (r : (⟨S10000x128, .f32⟩ : BufTy).Contents (Elt Ideal))
    (p : Fin 10000) (q : Fin 128) :
    Host.dotGeneral (F := Ideal) (φ₁ := .f32) (φ₂ := .f32) dot_S10000x10000_S10000x128_S10000x128_1_0_0_1_n_n none l r (ix2 p q) = ∑ k : Fin 10000, l (ix2 p k) * r (ix2 k q) := by
  simp only [Host.dotGeneral]
  rw [Ideal.dotGeneral_apply, ← Equiv.sum_comp (ValueIdx.contrEquiv1 dot_S10000x10000_S10000x128_S10000x128_1_0_0_1_n_n 10000 rfl rfl).symm]
  refine Finset.sum_congr rfl fun k _ => ?_
  have hk := ValueIdx.contrEquiv1_symm_val dot_S10000x10000_S10000x128_S10000x128_1_0_0_1_n_n 10000 rfl rfl k
  have el : dot_S10000x10000_S10000x128_S10000x128_1_0_0_1_n_n.lhsIdx (ix2 p q) ((ValueIdx.contrEquiv1 dot_S10000x10000_S10000x128_S10000x128_1_0_0_1_n_n 10000 rfl rfl).symm k) = ix2 p k := funext fun a => Fin.ext (by
    match a with
    | ⟨0, _⟩ => exact dotWy_lhs0 _ _
    | ⟨1, _⟩ => exact (dotWy_lhs1 _ _).trans hk)
  have er : dot_S10000x10000_S10000x128_S10000x128_1_0_0_1_n_n.rhsIdx (ix2 p q) ((ValueIdx.contrEquiv1 dot_S10000x10000_S10000x128_S10000x128_1_0_0_1_n_n 10000 rfl rfl).symm k) = ix2 k q := funext fun a => Fin.ext (by
    match a with
    | ⟨0, _⟩ => exact (dotWy_rhs0 _ _).trans hk
    | ⟨1, _⟩ => exact dotWy_rhs1 _ _)
  rw [el, er]

def scores (x y : (⟨S10000x128, .f32⟩ : BufTy).Contents (Elt Ideal)) : (⟨S10000x10000, .f32⟩ : BufTy).Contents (Elt Ideal) :=
  Host.dotGeneral (F := Ideal) (φ₁ := .f32) (φ₂ := .f32) dot_S10000x128_S128x10000_S10000x10000_1_0_0_1_n_n none x
    (transpose S128x10000 [1, 0] y transposes_S10000x128_S128x10000_1_0)

theorem transposeY_apply (y : (⟨S10000x128, .f32⟩ : BufTy).Contents (Elt Ideal)) (d : Fin 128) (j : Fin 10000) :
    transpose S128x10000 [1, 0] y transposes_S10000x128_S128x10000_1_0 (ix2 d j) = y (ix2 j d) :=
  transpose_apply [1, 0] y transposes_S10000x128_S128x10000_1_0 (ix2 d j) (ix2 j d) (fun b => match b with
    | ⟨0, _⟩ => rfl
    | ⟨1, _⟩ => rfl)

theorem scores_apply (x y : (⟨S10000x128, .f32⟩ : BufTy).Contents (Elt Ideal)) (i j : Fin 10000) :
    scores x y (ix2 i j) = Spec.score x y i j := by
  unfold scores Spec.score
  rw [dotSc_apply]
  exact Finset.sum_congr rfl fun d _ => by rw [transposeY_apply]

theorem score_comm (x y : Spec.Arr 10000 128) (i j : Fin 10000) : Spec.score x y i j = Spec.score y x j i := by
  unfold Spec.score
  exact Finset.sum_congr rfl fun d _ => mul_comm _ _

def rowMaxV (s : (⟨S10000x10000, .f32⟩ : BufTy).Contents (Elt Ideal)) : (⟨S10000, .f32⟩ : BufTy).Contents (Elt Ideal) :=
  maximumf (F := Ideal) (φ := .f32) (broadcastInDim S10000 ![] bcast_S_S10000 (constant (F := Ideal) S_ .f32 0xFF800000#32))
    (Host.reduce (FloatOps.maximumf (F := Ideal) (φ := .f32)) s (constant (F := Ideal) S_ .f32 0xFF800000#32) reducesTo_S10000x10000_S10000_d1 h_S_)

def rowExp (s : (⟨S10000x10000, .f32⟩ : BufTy).Contents (Elt Ideal)) : (⟨S10000x10000, .f32⟩ : BufTy).Contents (Elt Ideal) :=
  Host.exp (F := Ideal) (φ := .f32) (subf (F := Ideal) (φ := .f32) s (broadcastInDim S10000x10000 ![0, 1] bcast_S10000x1_S10000x10000_0_1
    (broadcastInDim S10000x1 ![0] bcast_S10000_S10000x1_0 (rowMaxV s))))

def rowSoftmax (s : (⟨S10000x10000, .f32⟩ : BufTy).Contents (Elt Ideal)) : (⟨S10000x10000, .f32⟩ : BufTy).Contents (Elt Ideal) :=
  Host.divf (F := Ideal) (φ := .f32) (rowExp s) (broadcastInDim S10000x10000 ![0, 1] bcast_S10000x1_S10000x10000_0_1
    (broadcastInDim S10000x1 ![0] bcast_S10000_S10000x1_0
      (Host.reduceAdd (F := Ideal) (φ := .f32) (rowExp s) (constant (F := Ideal) S_ .f32 0x00000000#32) reducesTo_S10000x10000_S10000_d1 h_S_)))

theorem alongRows_apply (v : (⟨S10000, .f32⟩ : BufTy).Contents (Elt Ideal)) (i j : Fin 10000) :
    broadcastInDim S10000x10000 ![0, 1] bcast_S10000x1_S10000x10000_0_1 (broadcastInDim S10000x1 ![0] bcast_S10000_S10000x1_0 v) (ix2 i j)
      = v (ix1 i) := by
  refine (broadcastInDim_apply _ bcast_S10000x1_S10000x10000_0_1 _ (ix2 i j) (ix2 i (0 : Fin 1)) (fun a => match a with
    | ⟨0, _⟩ => by show i.val = if (10000 : Nat) = 1 then 0 else i.val; rw [if_neg (by decide)]
    | ⟨1, _⟩ => by show 0 = if (1 : Nat) = 1 then 0 else j.val; rw [if_pos rfl])).trans ?_
  exact broadcastInDim_apply _ bcast_S10000_S10000x1_0 v (ix2 i (0 : Fin 1)) (ix1 i) (fun a => match a with
    | ⟨0, _⟩ => by show i.val = if (10000 : Nat) = 1 then 0 else i.val; rw [if_neg (by decide)])

theorem negInf_apply (i : S10000.Idx) :
    broadcastInDim S10000 ![] bcast_S_S10000 (constant (F := Ideal) S_ .f32 0xFF800000#32) i = (⊥ : EReal) := by
  refine (broadcastInDim_apply _ bcast_S_S10000 _ i (fun a => a.elim0) (fun a => a.elim0)).trans ?_
  rw [constant_apply]
  exact ofBits_neg_inf

theorem rowMaxV_apply (s : (⟨S10000x10000, .f32⟩ : BufTy).Contents (Elt Ideal)) (i : Fin 10000) :
    rowMaxV s (ix1 i) = (Finset.univ : Finset (Fin 10000)).fold max ⊥ (fun j => s (ix2 i j)) := by
  unfold rowMaxV
  rw [maximumf_apply, negInf_apply,
    Host.reduce_eq_fold_single (FloatOps.maximumf (F := Ideal) (φ := .f32)) s (constant (F := Ideal) S_ .f32 0xFF800000#32) reducesTo_S10000x10000_S10000_d1
      (by decide : S10000x10000.Reduces [1] S10000) h_S_ (ix1 i), constant_apply, ofBits_neg_inf]
  refine (max_eq_right bot_le).trans ?_
  show (Finset.univ : Finset (Fin 10000)).fold max ⊥ _ = _
  refine Finset.fold_congr fun j _ => ?_
  exact congrArg s (funext fun a => Fin.ext (by match a with | ⟨0, _⟩ => rfl | ⟨1, _⟩ => rfl))

theorem rowExp_apply (s : (⟨S10000x10000, .f32⟩ : BufTy).Contents (Elt Ideal)) (i j : Fin 10000) :
    rowExp s (ix2 i j) = Ideal.exp (s (ix2 i j) - (Finset.univ : Finset (Fin 10000)).fold max ⊥ (fun j' => s (ix2 i j'))) := by
  unfold rowExp
  rw [exp_apply, subf_apply, alongRows_apply, rowMaxV_apply]

theorem rowSoftmax_apply (s : (⟨S10000x10000, .f32⟩ : BufTy).Contents (Elt Ideal)) (i j : Fin 10000) :
    rowSoftmax s (ix2 i j)
      = Ideal.div (Ideal.exp (s (ix2 i j) - (Finset.univ : Finset (Fin 10000)).fold max ⊥ (fun j' => s (ix2 i j'))))
          (∑ k : Fin 10000, Ideal.exp (s (ix2 i k) - (Finset.univ : Finset (Fin 10000)).fold max ⊥ (fun j' => s (ix2 i j')))) := by
  unfold rowSoftmax
  rw [div_apply, alongRows_apply, rowExp_apply]
  simp only [Host.reduceAdd, Ideal.hostReduceAdd_def]
  rw [Ideal.hostReduceAdd_single reducesTo_S10000x10000_S10000_d1 (by decide), constant_apply, Ideal.ofBits_zero_f32, zero_add]
  refine congrArg (Ideal.div _) (Finset.sum_congr rfl fun k _ => ?_)
  refine Eq.trans (congrArg (rowExp s) (funext fun a => Fin.ext (by match a with | ⟨0, _⟩ => rfl | ⟨1, _⟩ => rfl))) (rowExp_apply s i k)

def attnRow (x y : (⟨S10000x128, .f32⟩ : BufTy).Contents (Elt Ideal)) : (⟨S10000x128, .f32⟩ : BufTy).Contents (Elt Ideal) :=
  subf (F := Ideal) (φ := .f32) x (Host.dotGeneral (F := Ideal) (φ₁ := .f32) (φ₂ := .f32) dot_S10000x10000_S10000x128_S10000x128_1_0_0_1_n_n none (rowSoftmax (scores x y)) y)

theorem ref_attn_row (x y : (⟨S10000x128, .f32⟩ : BufTy).Contents (Elt Ideal)) : attnRow x y = Spec.attnUpd x y := by
  funext i
  obtain ⟨p, q, rfl⟩ : ∃ (p : Fin 10000) (q : Fin 128), i = ix2 p q := ⟨i 0, i 1, eq_ix2 i⟩
  unfold attnRow Spec.attnUpd
  rw [subf_apply, dotWy_apply]
  refine congrArg (x (ix2 p q) - ·) (Finset.sum_congr rfl fun j _ => ?_)
  rw [rowSoftmax_apply]
  simp only [scores_apply]
  rfl

def colMaxV (s : (⟨S10000x10000, .f32⟩ : BufTy).Contents (Elt Ideal)) : (⟨S10000, .f32⟩ : BufTy).Contents (Elt Ideal) :=
  maximumf (F := Ideal) (φ := .f32) (broadcastInDim S10000 ![] bcast_S_S10000 (constant (F := Ideal) S_ .f32 0xFF800000#32))
    (Host.reduce (FloatOps.maximumf (F := Ideal) (φ := .f32)) s (constant (F := Ideal) S_ .f32 0xFF800000#32) reducesTo_S10000x10000_S10000_d0 h_S_)

def colExp (s : (⟨S10000x10000, .f32⟩ : BufTy).Contents (Elt Ideal)) : (⟨S10000x10000, .f32⟩ : BufTy).Contents (Elt Ideal) :=
  Host.exp (F := Ideal) (φ := .f32) (subf (F := Ideal) (φ := .f32) s (broadcastInDim S10000x10000 ![0, 1] bcast_S1x10000_S10000x10000_0_1
    (broadcastInDim S1x10000 ![1] bcast_S10000_S1x10000_1 (colMaxV s))))

def colSoftmax (s : (⟨S10000x10000, .f32⟩ : BufTy).Contents (Elt Ideal)) : (⟨S10000x10000, .f32⟩ : BufTy).Contents (Elt Ideal) :=
  Host.divf (F := Ideal) (φ := .f32) (colExp s) (broadcastInDim S10000x10000 ![0, 1] bcast_S1x10000_S10000x10000_0_1
    (broadcastInDim S1x10000 ![1] bcast_S10000_S1x10000_1
      (Host.reduceAdd (F := Ideal) (φ := .f32) (colExp s) (constant (F := Ideal) S_ .f32 0x00000000#32) reducesTo_S10000x10000_S10000_d0 h_S_)))

theorem alongCols_apply (v : (⟨S10000, .f32⟩ : BufTy).Contents (Elt Ideal)) (i j : Fin 10000) :
    broadcastInDim S10000x10000 ![0, 1] bcast_S1x10000_S10000x10000_0_1 (broadcastInDim S1x10000 ![1] bcast_S10000_S1x10000_1 v) (ix2 i j)
      = v (ix1 j) := by
  refine (broadcastInDim_apply _ bcast_S1x10000_S10000x10000_0_1 _ (ix2 i j) (ix2 (0 : Fin 1) j) (fun a => match a with
    | ⟨0, _⟩ => by show 0 = if (1 : Nat) = 1 then 0 else i.val; rw [if_pos rfl]
    | ⟨1, _⟩ => by show j.val = if (10000 : Nat) = 1 then 0 else j.val; rw [if_neg (by decide)])).trans ?_
  exact broadcastInDim_apply _ bcast_S10000_S1x10000_1 v (ix2 (0 : Fin 1) j) (ix1 j) (fun a => match a with
    | ⟨0, _⟩ => by show j.val = if (10000 : Nat) = 1 then 0 else j.val; rw [if_neg (by decide)])

theorem colMaxV_apply (s : (⟨S10000x10000, .f32⟩ : BufTy).Contents (Elt Ideal)) (j : Fin 10000) :
    colMaxV s (ix1 j) = (Finset.univ : Finset (Fin 10000)).fold max ⊥ (fun i => s (ix2 i j)) := by
  unfold colMaxV
  rw [maximumf_apply, negInf_apply,
    Host.reduce_eq_fold_single (FloatOps.maximumf (F := Ideal) (φ := .f32)) s (constant (F := Ideal) S_ .f32 0xFF800000#32) reducesTo_S10000x10000_S10000_d0
      (by decide : S10000x10000.Reduces [0] S10000) h_S_ (ix1 j), constant_apply, ofBits_neg_inf]
  refine (max_eq_right bot_le).trans ?_
  show (Finset.univ : Finset (Fin 10000)).fold max ⊥ _ = _
  refine Finset.fold_congr fun i _ => ?_
  exact congrArg s (funext fun a => Fin.ext (by match a with | ⟨0, _⟩ => rfl | ⟨1, _⟩ => rfl))

theorem colExp_apply (s : (⟨S10000x10000, .f32⟩ : BufTy).Contents (Elt Ideal)) (i j : Fin 10000) :
    colExp s (ix2 i j) = Ideal.exp (s (ix2 i j) - (Finset.univ : Finset (Fin 10000)).fold max ⊥ (fun i' => s (ix2 i' j))) := by
  unfold colExp
  rw [exp_apply, subf_apply, alongCols_apply, colMaxV_apply]

theorem colSoftmax_apply (s : (⟨S10000x10000, .f32⟩ : BufTy).Contents (Elt Ideal)) (i j : Fin 10000) :
    colSoftmax s (ix2 i j)
      = Ideal.div (Ideal.exp (s (ix2 i j) - (Finset.univ : Finset (Fin 10000)).fold max ⊥ (fun i' => s (ix2 i' j))))
          (∑ k : Fin 10000, Ideal.exp (s (ix2 k j) - (Finset.univ : Finset (Fin 10000)).fold max ⊥ (fun i' => s (ix2 i' j)))) := by
  unfold colSoftmax
  rw [div_apply, alongCols_apply, colExp_apply]
  simp only [Host.reduceAdd, Ideal.hostReduceAdd_def]
  rw [Ideal.hostReduceAdd_single reducesTo_S10000x10000_S10000_d0 (by decide), constant_apply, Ideal.ofBits_zero_f32, zero_add]
  refine congrArg (Ideal.div _) (Finset.sum_congr rfl fun k _ => ?_)
  refine Eq.trans (congrArg (colExp s) (funext fun a => Fin.ext (by match a with | ⟨0, _⟩ => rfl | ⟨1, _⟩ => rfl))) (colExp_apply s k j)

theorem transposeSq_apply (t : (⟨S10000x10000, .f32⟩ : BufTy).Contents (Elt Ideal)) (j i : Fin 10000) :
    transpose S10000x10000 [1, 0] t transposes_S10000x10000_S10000x10000_1_0 (ix2 j i) = t (ix2 i j) :=
  transpose_apply [1, 0] t transposes_S10000x10000_S10000x10000_1_0 (ix2 j i) (ix2 i j) (fun b => match b with
    | ⟨0, _⟩ => rfl
    | ⟨1, _⟩ => rfl)

def attnCol (x y : (⟨S10000x128, .f32⟩ : BufTy).Contents (Elt Ideal)) : (⟨S10000x128, .f32⟩ : BufTy).Contents (Elt Ideal) :=
  subf (F := Ideal) (φ := .f32) y (Host.dotGeneral (F := Ideal) (φ₁ := .f32) (φ₂ := .f32) dot_S10000x10000_S10000x128_S10000x128_1_0_0_1_n_n none
    (transpose S10000x10000 [1, 0] (colSoftmax (scores x y)) transposes_S10000x10000_S10000x10000_1_0) x)

theorem ref_attn_col (x y : (⟨S10000x128, .f32⟩ : BufTy).Contents (Elt Ideal)) : attnCol x y = Spec.attnUpd y x := by
  funext i
  obtain ⟨p, q, rfl⟩ : ∃ (p : Fin 10000) (q : Fin 128), i = ix2 p q := ⟨i 0, i 1, eq_ix2 i⟩
  unfold attnCol Spec.attnUpd
  rw [subf_apply, dotWy_apply]
  refine congrArg (y (ix2 p q) - ·) (Finset.sum_congr rfl fun j _ => ?_)
  rw [transposeSq_apply, colSoftmax_apply]
  simp only [scores_apply, score_comm x y]
  rfl

end Cert.RefStages

end
-- ==== Proof.Val.RefInst.lean ====
import proofs.«407386_j15839839387945_2_alg».proof.Proof.RefRead
import proofs.«407386_j15839839387945_2_alg».proof.Proof.Val.RefStages
import proofs.«407386_j15839839387945_2_alg».proof.Proof.Spec

noncomputable section

namespace Cert.RefInst

open Cert.ReferenceIdeal Cert.ReferenceIdeal.Gen Cert.ReferenceIdeal.ReadP Cert.RefStages
open Idealize.ShloMosaic Idealize.ShloMosaic.TcCoe Idealize.SL.Sem Idealize.ShloMosaic.StableHlo Idealize.ShloMosaic.ValueIdx

theorem v23_eq (x4 : (⟨S160000x1, .i32⟩ : BufTy).Contents (Elt Ideal)) (x7 : (⟨S20x128, .f32⟩ : BufTy).Contents (Elt Ideal)) :
    val_main_v23 (F := Ideal) x4 x7 = ewStage x7 x4 := by
  unfold val_main_v23 val_main_v22 val_main_v21 val_main_v20 val_main_v19 val_main_v18 val_main_v17 val_main_v16 val_main_c_3 val_main_c_4
  rfl

theorem v31_eq (x5 : (⟨S160000x1, .i32⟩ : BufTy).Contents (Elt Ideal)) (x7 : (⟨S20x128, .f32⟩ : BufTy).Contents (Elt Ideal)) :
    val_main_v31 (F := Ideal) x5 x7 = ewStage x7 x5 := by
  unfold val_main_v31 val_main_v30 val_main_v29 val_main_v28 val_main_v27 val_main_v26 val_main_v25 val_main_v24 val_main_c_5 val_main_c_6
  rfl

theorem v55_stage (x0 : (⟨S10000x1, .i32⟩ : BufTy).Contents (Elt Ideal)) (x2 : (⟨S2x160000, .i32⟩ : BufTy).Contents (Elt Ideal)) (x4 : (⟨S160000x1, .i32⟩ : BufTy).Contents (Elt Ideal)) (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal)) :
    val_main_v55 (F := Ideal) x0 x2 x4 x6 x7 x8 x9
      = msgStage (val_main_v42 (F := Ideal) x0 x2 x6) (val_main_v49 (F := Ideal) x0 x2 x6) (ewStage x7 x4) x8 x9 := by
  unfold val_main_v55 val_main_v54 val_main_v53 val_main_v52 val_main_v51 val_main_v50 val_main_call0_v0 val_main_call0_cst
  rw [v23_eq]
  rfl

theorem v55_eq (x0 : (⟨S10000x1, .i32⟩ : BufTy).Contents (Elt Ideal)) (x2 : (⟨S2x160000, .i32⟩ : BufTy).Contents (Elt Ideal)) (x4 : (⟨S160000x1, .i32⟩ : BufTy).Contents (Elt Ideal)) (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal)) (a : Fin 160000 → Fin 20)
    (h : ∀ e : Fin 160000, x4 (ix2 e (0 : Fin 1)) = BitVec.ofNat 32 (a e).val) :
    val_main_v55 (F := Ideal) x0 x2 x4 x6 x7 x8 x9
      = Spec.edgeMsg (val_main_v42 (F := Ideal) x0 x2 x6) (val_main_v49 (F := Ideal) x0 x2 x6) x7 a x8 x9 :=
  (v55_stage x0 x2 x4 x6 x7 x8 x9).trans (ref_msg_spec _ _ x7 x4 x8 x9 a h)

theorem v82_stage (x1 : (⟨S10000x1, .i32⟩ : BufTy).Contents (Elt Ideal)) (x3 : (⟨S2x160000, .i32⟩ : BufTy).Contents (Elt Ideal)) (x5 : (⟨S160000x1, .i32⟩ : BufTy).Contents (Elt Ideal)) (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal)) :
    val_main_v82 (F := Ideal) x1 x3 x5 x6 x7 x8 x9
      = msgStage (val_main_v69 (F := Ideal) x1 x3 x6) (val_main_v76 (F := Ideal) x1 x3 x6) (ewStage x7 x5) x8 x9 := by
  unfold val_main_v82 val_main_v81 val_main_v80 val_main_v79 val_main_v78 val_main_v77 val_main_call1_v0 val_main_call1_cst
  rw [v31_eq]
  rfl

theorem v82_eq (x1 : (⟨S10000x1, .i32⟩ : BufTy).Contents (Elt Ideal)) (x3 : (⟨S2x160000, .i32⟩ : BufTy).Contents (Elt Ideal)) (x5 : (⟨S160000x1, .i32⟩ : BufTy).Contents (Elt Ideal)) (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal)) (a : Fin 160000 → Fin 20)
    (h : ∀ e : Fin 160000, x5 (ix2 e (0 : Fin 1)) = BitVec.ofNat 32 (a e).val) :
    val_main_v82 (F := Ideal) x1 x3 x5 x6 x7 x8 x9
      = Spec.edgeMsg (val_main_v69 (F := Ideal) x1 x3 x6) (val_main_v76 (F := Ideal) x1 x3 x6) x7 a x8 x9 :=
  (v82_stage x1 x3 x5 x6 x7 x8 x9).trans (ref_msg_spec _ _ x7 x5 x8 x9 a h)

theorem v212_stage (x0 : (⟨S10000x1, .i32⟩ : BufTy).Contents (Elt Ideal)) (x1 : (⟨S10000x1, .i32⟩ : BufTy).Contents (Elt Ideal)) (x2 : (⟨S2x160000, .i32⟩ : BufTy).Contents (Elt Ideal)) (x4 : (⟨S160000x1, .i32⟩ : BufTy).Contents (Elt Ideal)) (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal)) (x10 : (⟨S256x384, .f32⟩ : BufTy).Contents (Elt Ideal)) (x11 : (⟨S384, .f32⟩ : BufTy).Contents (Elt Ideal)) (x12 : (⟨S128x384, .f32⟩ : BufTy).Contents (Elt Ideal)) (x13 : (⟨S384, .f32⟩ : BufTy).Contents (Elt Ideal)) :
    val_main_v212 (F := Ideal) x0 x1 x2 x4 x6 x7 x8 x9 x10 x11 x12 x13
      = msgStage (val_main_v199 (F := Ideal) x0 x1 x2 x4 x6 x7 x8 x9 x10 x11 x12 x13) (val_main_v206 (F := Ideal) x0 x1 x2 x4 x6 x7 x8 x9 x10 x11 x12 x13) (ewStage x7 x4) x8 x9 := by
  unfold val_main_v212 val_main_v211 val_main_v210 val_main_v209 val_main_v208 val_main_v207 val_main_call2_v0 val_main_call2_cst
  rw [v23_eq]
  rfl

theorem v212_eq (x0 : (⟨S10000x1, .i32⟩ : BufTy).Contents (Elt Ideal)) (x1 : (⟨S10000x1, .i32⟩ : BufTy).Contents (Elt Ideal)) (x2 : (⟨S2x160000, .i32⟩ : BufTy).Contents (Elt Ideal)) (x4 : (⟨S160000x1, .i32⟩ : BufTy).Contents (Elt Ideal)) (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal)) (x10 : (⟨S256x384, .f32⟩ : BufTy).Contents (Elt Ideal)) (x11 : (⟨S384, .f32⟩ : BufTy).Contents (Elt Ideal)) (x12 : (⟨S128x384, .f32⟩ : BufTy).Contents (Elt Ideal)) (x13 : (⟨S384, .f32⟩ : BufTy).Contents (Elt Ideal)) (a : Fin 160000 → Fin 20)
    (h : ∀ e : Fin 160000, x4 (ix2 e (0 : Fin 1)) = BitVec.ofNat 32 (a e).val) :
    val_main_v212 (F := Ideal) x0 x1 x2 x4 x6 x7 x8 x9 x10 x11 x12 x13
      = Spec.edgeMsg (val_main_v199 (F := Ideal) x0 x1 x2 x4 x6 x7 x8 x9 x10 x11 x12 x13) (val_main_v206 (F := Ideal) x0 x1 x2 x4 x6 x7 x8 x9 x10 x11 x12 x13) x7 a x8 x9 :=
  (v212_stage x0 x1 x2 x4 x6 x7 x8 x9 x10 x11 x12 x13).trans (ref_msg_spec _ _ x7 x4 x8 x9 a h)

theorem v239_stage (x0 : (⟨S10000x1, .i32⟩ : BufTy).Contents (Elt Ideal)) (x1 : (⟨S10000x1, .i32⟩ : BufTy).Contents (Elt Ideal)) (x3 : (⟨S2x160000, .i32⟩ : BufTy).Contents (Elt Ideal)) (x5 : (⟨S160000x1, .i32⟩ : BufTy).Contents (Elt Ideal)) (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal)) (x10 : (⟨S256x384, .f32⟩ : BufTy).Contents (Elt Ideal)) (x11 : (⟨S384, .f32⟩ : BufTy).Contents (Elt Ideal)) (x12 : (⟨S128x384, .f32⟩ : BufTy).Contents (Elt Ideal)) (x13 : (⟨S384, .f32⟩ : BufTy).Contents (Elt Ideal)) :
    val_main_v239 (F := Ideal) x0 x1 x3 x5 x6 x7 x8 x9 x10 x11 x12 x13
      = msgStage (val_main_v226 (F := Ideal) x0 x1 x3 x5 x6 x7 x8 x9 x10 x11 x12 x13) (val_main_v233 (F := Ideal) x0 x1 x3 x5 x6 x7 x8 x9 x10 x11 x12 x13) (ewStage x7 x5) x8 x9 := by
  unfold val_main_v239 val_main_v238 val_main_v237 val_main_v236 val_main_v235 val_main_v234 val_main_call3_v0 val_main_call3_cst
  rw [v31_eq]
  rfl

theorem v239_eq (x0 : (⟨S10000x1, .i32⟩ : BufTy).Contents (Elt Ideal)) (x1 : (⟨S10000x1, .i32⟩ : BufTy).Contents (Elt Ideal)) (x3 : (⟨S2x160000, .i32⟩ : BufTy).Contents (Elt Ideal)) (x5 : (⟨S160000x1, .i32⟩ : BufTy).Contents (Elt Ideal)) (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal)) (x10 : (⟨S256x384, .f32⟩ : BufTy).Contents (Elt Ideal)) (x11 : (⟨S384, .f32⟩ : BufTy).Contents (Elt Ideal)) (x12 : (⟨S128x384, .f32⟩ : BufTy).Contents (Elt Ideal)) (x13 : (⟨S384, .f32⟩ : BufTy).Contents (Elt Ideal)) (a : Fin 160000 → Fin 20)
    (h : ∀ e : Fin 160000, x5 (ix2 e (0 : Fin 1)) = BitVec.ofNat 32 (a e).val) :
    val_main_v239 (F := Ideal) x0 x1 x3 x5 x6 x7 x8 x9 x10 x11 x12 x13
      = Spec.edgeMsg (val_main_v226 (F := Ideal) x0 x1 x3 x5 x6 x7 x8 x9 x10 x11 x12 x13) (val_main_v233 (F := Ideal) x0 x1 x3 x5 x6 x7 x8 x9 x10 x11 x12 x13) x7 a x8 x9 :=
  (v239_stage x0 x1 x3 x5 x6 x7 x8 x9 x10 x11 x12 x13).trans (ref_msg_spec _ _ x7 x5 x8 x9 a h)

theorem v112_eq (x0 : (⟨S10000x1, .i32⟩ : BufTy).Contents (Elt Ideal)) (x1 : (⟨S10000x1, .i32⟩ : BufTy).Contents (Elt Ideal)) (x6 : (⟨S32000x128, .f32⟩ : BufTy).Contents (Elt Ideal)) :
    val_main_v112 (F := Ideal) x0 x1 x6 = Spec.attnUpd (val_main_v7 (F := Ideal) x0 x6) (val_main_v15 (F := Ideal) x1 x6) := by
  unfold val_main_v112 val_main_v111 val_main_v98 val_main_v97 val_main_v96 val_main_v95 val_main_v94 val_main_v93 val_main_v92 val_main_v91 val_main_v90 val_main_v89 val_main_v88 val_main_v87 val_main_v86 val_main_cst_16 val_main_cst_17 val_main_cst_18
  exact ref_attn_row _ _

theorem v114_eq (x0 : (⟨S10000x1, .i32⟩ : BufTy).Contents (Elt Ideal)) (x1 : (⟨S10000x1, .i32⟩ : BufTy).Contents (Elt Ideal)) (x6 : (⟨S32000x128, .f32⟩ : BufTy).Contents (Elt Ideal)) :
    val_main_v114 (F := Ideal) x0 x1 x6 = Spec.attnUpd (val_main_v15 (F := Ideal) x1 x6) (val_main_v7 (F := Ideal) x0 x6) := by
  unfold val_main_v114 val_main_v113 val_main_v110 val_main_v109 val_main_v108 val_main_v107 val_main_v106 val_main_v105 val_main_v104 val_main_v103 val_main_v102 val_main_v101 val_main_v100 val_main_v99 val_main_v87 val_main_v86 val_main_cst_19 val_main_cst_20 val_main_cst_21
  exact ref_attn_col _ _

theorem v269_eq (x0 : (⟨S10000x1, .i32⟩ : BufTy).Contents (Elt Ideal)) (x1 : (⟨S10000x1, .i32⟩ : BufTy).Contents (Elt Ideal)) (x2 : (⟨S2x160000, .i32⟩ : BufTy).Contents (Elt Ideal)) (x3 : (⟨S2x160000, .i32⟩ : BufTy).Contents (Elt Ideal)) (x4 : (⟨S160000x1, .i32⟩ : BufTy).Contents (Elt Ideal)) (x5 : (⟨S160000x1, .i32⟩ : BufTy).Contents (Elt Ideal)) (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal)) (x10 : (⟨S256x384, .f32⟩ : BufTy).Contents (Elt Ideal)) (x11 : (⟨S384, .f32⟩ : BufTy).Contents (Elt Ideal)) (x12 : (⟨S128x384, .f32⟩ : BufTy).Contents (Elt Ideal)) (x13 : (⟨S384, .f32⟩ : BufTy).Contents (Elt Ideal)) :
    val_main_v269 (F := Ideal) x0 x1 x2 x3 x4 x5 x6 x7 x8 x9 x10 x11 x12 x13
      = Spec.attnUpd (val_main_v151 (F := Ideal) x0 x1 x2 x4 x6 x7 x8 x9 x10 x11 x12 x13) (val_main_v188 (F := Ideal) x0 x1 x3 x5 x6 x7 x8 x9 x10 x11 x12 x13) := by
  unfold val_main_v269 val_main_v268 val_main_v255 val_main_v254 val_main_v253 val_main_v252 val_main_v251 val_main_v250 val_main_v249 val_main_v248 val_main_v247 val_main_v246 val_main_v245 val_main_v244 val_main_v243 val_main_cst_42 val_main_cst_43 val_main_cst_44
  exact ref_attn_row _ _

theorem v271_eq (x0 : (⟨S10000x1, .i32⟩ : BufTy).Contents (Elt Ideal)) (x1 : (⟨S10000x1, .i32⟩ : BufTy).Contents (Elt Ideal)) (x2 : (⟨S2x160000, .i32⟩ : BufTy).Contents (Elt Ideal)) (x3 : (⟨S2x160000, .i32⟩ : BufTy).Contents (Elt Ideal)) (x4 : (⟨S160000x1, .i32⟩ : BufTy).Contents (Elt Ideal)) (x5 : (⟨S160000x1, .i32⟩ : BufTy).Contents (Elt Ideal)) (x6 : (⟨S32000x128, .f32⟩ : BufTy).Contents (Elt Ideal)) (x7 : (⟨S20x128, .f32⟩ : BufTy).Contents (Elt Ideal)) (x8 : (⟨S384x128, .f32⟩ : BufTy).Contents (Elt Ideal)) (x9 : (⟨S128, .f32⟩ : BufTy).Contents (Elt Ideal)) (x10 : (⟨S256x384, .f32⟩ : BufTy).Contents (Elt Ideal)) (x11 : (⟨S384, .f32⟩ : BufTy).Contents (Elt Ideal)) (x12 : (⟨S128x384, .f32⟩ : BufTy).Contents (Elt Ideal)) (x13 : (⟨S384, .f32⟩ : BufTy).Contents (Elt Ideal)) :
    val_main_v271 (F := Ideal) x0 x1 x2 x3 x4 x5 x6 x7 x8 x9 x10 x11 x12 x13
      = Spec.attnUpd (val_main_v188 (F := Ideal) x0 x1 x3 x5 x6 x7 x8 x9 x10 x11 x12 x13) (val_main_v151 (F := Ideal) x0 x1 x2 x4 x6 x7 x8 x9 x10 x11 x12 x13) := by
  unfold val_main_v271 val_main_v270 val_main_v267 val_main_v266 val_main_v265 val_main_v264 val_main_v263 val_main_v262 val_main_v261 val_main_v260 val_main_v259 val_main_v258 val_main_v257 val_main_v256 val_main_v244 val_main_v243 val_main_cst_45 val_main_cst_46 val_main_cst_47
  exact ref_attn_col _ _

end Cert.RefInst

end
-- ==== Proof.Val.EdgeStep.lean ====
import proofs.«407386_j15839839387945_2_alg».proof.Proof.Val.EdgeVal0
import proofs.«407386_j15839839387945_2_alg».proof.Proof.Val.EdgeVal1
import proofs.«407386_j15839839387945_2_alg».proof.Proof.LibEdge
import proofs.«407386_j15839839387945_2_alg».proof.Proof.Val.RefInst

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

theorem edge_step0 (c : Dev nD) (a : Fin 160000 → Fin 20)
    (x0 : (⟨Cert.ReferenceIdeal.S10000x1, .i32⟩ : BufTy).Contents (Elt Ideal))
    (x2 : (⟨Cert.ReferenceIdeal.S2x160000, .i32⟩ : BufTy).Contents (Elt Ideal))
    (x4 : (⟨Cert.ReferenceIdeal.S160000x1, .i32⟩ : BufTy).Contents (Elt Ideal))
    (x6 : (⟨Cert.ReferenceIdeal.S32000x128, .f32⟩ : BufTy).Contents (Elt Ideal))
    (x7 : (⟨Cert.ReferenceIdeal.S20x128, .f32⟩ : BufTy).Contents (Elt Ideal))
    (x8 : (⟨Cert.ReferenceIdeal.S384x128, .f32⟩ : BufTy).Contents (Elt Ideal))
    (x9 : (⟨Cert.ReferenceIdeal.S128, .f32⟩ : BufTy).Contents (Elt Ideal))
    (hxd : xdst0 V c = Cert.ReferenceIdeal.ReadP.val_main_v42 (F := Ideal) x0 x2 x6)
    (hxs : xsrc0 V c = Cert.ReferenceIdeal.ReadP.val_main_v49 (F := Ideal) x0 x2 x6)
    (hattr : ∀ e : Fin 160000, attr0 V c (ix2 e 0) = BitVec.ofNat 32 (a e).val)
    (hattr' : attr0 V c = x4)
    (hwd : ∀ (k d : Fin 128), wdst0 V c (ix2 k d) = x8 (ix2 (⟨k.val, by omega⟩ : Fin 384) d))
    (hws : ∀ (k d : Fin 128), wsrc0 V c (ix2 k d) = x8 (ix2 (⟨128 + k.val, by omega⟩ : Fin 384) d))
    (htab : ∀ (j : Fin 20) (d : Fin 128), table0 V c (ix2 j d) = (∑ k : Fin 128, x7 (ix2 j k) * x8 (ix2 (⟨256 + k.val, by omega⟩ : Fin 384) d)) + x9 (ix1 d)) :
    (dat0 (F := Ideal) V c).arrAt 6 cfg0.N = Cert.ReferenceIdeal.ReadP.val_main_v55 (F := Ideal) x0 x2 x4 x6 x7 x8 x9 := by
  have hx4 : ∀ e : Fin 160000, x4 (ix2 e (0 : Fin 1)) = BitVec.ofNat 32 (a e).val := fun e => by rw [← hattr']; exact hattr e
  have hform : edgeArr0 V c a = Spec.edgeMsg (xdst0 V c) (xsrc0 V c) x7 a x8 x9 :=
    Cert.LibEdge.edge_kernel_form (xdst0 V c) (xsrc0 V c) x7 a x8 x9 (wdst0 V c) (wsrc0 V c) (table0 V c) hwd hws htab
  have hspec : Spec.edgeMsg (xdst0 V c) (xsrc0 V c) x7 a x8 x9 = Cert.ReferenceIdeal.ReadP.val_main_v55 (F := Ideal) x0 x2 x4 x6 x7 x8 x9 := by
    rw [hxd, hxs]
    exact (Cert.RefInst.v55_eq x0 x2 x4 x6 x7 x8 x9 a hx4).symm
  exact ((edge_final0 V c a hattr).trans hform).trans hspec

theorem edge_step1 (c : Dev nD) (a : Fin 160000 → Fin 20)
    (x1 : (⟨Cert.ReferenceIdeal.S10000x1, .i32⟩ : BufTy).Contents (Elt Ideal))
    (x3 : (⟨Cert.ReferenceIdeal.S2x160000, .i32⟩ : BufTy).Contents (Elt Ideal))
    (x5 : (⟨Cert.ReferenceIdeal.S160000x1, .i32⟩ : BufTy).Contents (Elt Ideal))
    (x6 : (⟨Cert.ReferenceIdeal.S32000x128, .f32⟩ : BufTy).Contents (Elt Ideal))
    (x7 : (⟨Cert.ReferenceIdeal.S20x128, .f32⟩ : BufTy).Contents (Elt Ideal))
    (x8 : (⟨Cert.ReferenceIdeal.S384x128, .f32⟩ : BufTy).Contents (Elt Ideal))
    (x9 : (⟨Cert.ReferenceIdeal.S128, .f32⟩ : BufTy).Contents (Elt Ideal))
    (hxd : xdst1 V c = Cert.ReferenceIdeal.ReadP.val_main_v69 (F := Ideal) x1 x3 x6)
    (hxs : xsrc1 V c = Cert.ReferenceIdeal.ReadP.val_main_v76 (F := Ideal) x1 x3 x6)
    (hattr : ∀ e : Fin 160000, attr1 V c (ix2 e 0) = BitVec.ofNat 32 (a e).val)
    (hattr' : attr1 V c = x5)
    (hwd : ∀ (k d : Fin 128), wdst1 V c (ix2 k d) = x8 (ix2 (⟨k.val, by omega⟩ : Fin 384) d))
    (hws : ∀ (k d : Fin 128), wsrc1 V c (ix2 k d) = x8 (ix2 (⟨128 + k.val, by omega⟩ : Fin 384) d))
    (htab : ∀ (j : Fin 20) (d : Fin 128), table1 V c (ix2 j d) = (∑ k : Fin 128, x7 (ix2 j k) * x8 (ix2 (⟨256 + k.val, by omega⟩ : Fin 384) d)) + x9 (ix1 d)) :
    (dat1 (F := Ideal) V c).arrAt 6 cfg1.N = Cert.ReferenceIdeal.ReadP.val_main_v82 (F := Ideal) x1 x3 x5 x6 x7 x8 x9 := by
  have hx5 : ∀ e : Fin 160000, x5 (ix2 e (0 : Fin 1)) = BitVec.ofNat 32 (a e).val := fun e => by rw [← hattr']; exact hattr e
  have hform : edgeArr1 V c a = Spec.edgeMsg (xdst1 V c) (xsrc1 V c) x7 a x8 x9 :=
    Cert.LibEdge.edge_kernel_form (xdst1 V c) (xsrc1 V c) x7 a x8 x9 (wdst1 V c) (wsrc1 V c) (table1 V c) hwd hws htab
  have hspec : Spec.edgeMsg (xdst1 V c) (xsrc1 V c) x7 a x8 x9 = Cert.ReferenceIdeal.ReadP.val_main_v82 (F := Ideal) x1 x3 x5 x6 x7 x8 x9 := by
    rw [hxd, hxs]
    exact (Cert.RefInst.v82_eq x1 x3 x5 x6 x7 x8 x9 a hx5).symm
  exact ((edge_final1 V c a hattr).trans hform).trans hspec

end Cert.KernelIdeal.Val

end
-- ==== Proof.Val.AttnPay.lean ====
import proofs.«407386_j15839839387945_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.ValueIdx

section Layout
variable {α : Type}

theorem shapeCast_a_a1_apply2 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem broadcastTo_a1_ab_apply2 {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else c.val
    rw [if_pos rfl]

end Layout

theorem lhsIdx_qk2 (p : Fin 1000) (r : Fin 2000) (d : Fin 128) :
    dot_S1000x128_S2000x128_S1000x2000_1_1_0_0_n_n.lhsIdx (ix2 p r)
      ((contrEquiv1 dot_S1000x128_S2000x128_S1000x2000_1_1_0_0_n_n 128 rfl rfl).symm d) = ix2 p d := by
  have c := contrEquiv1_symm_val dot_S1000x128_S2000x128_S1000x2000_1_1_0_0_n_n 128 rfl rfl d
  funext ax; apply Fin.ext
  match ax with
  | ⟨0, _⟩ => simp [DotDims.lhsIdx, dot_S1000x128_S2000x128_S1000x2000_1_1_0_0_n_n]; rfl
  | ⟨1, _⟩ => simp [DotDims.lhsIdx, dot_S1000x128_S2000x128_S1000x2000_1_1_0_0_n_n]; exact c

theorem rhsIdx_qk2 (p : Fin 1000) (r : Fin 2000) (d : Fin 128) :
    dot_S1000x128_S2000x128_S1000x2000_1_1_0_0_n_n.rhsIdx (ix2 p r)
      ((contrEquiv1 dot_S1000x128_S2000x128_S1000x2000_1_1_0_0_n_n 128 rfl rfl).symm d) = ix2 r d := by
  have c := contrEquiv1_symm_val dot_S1000x128_S2000x128_S1000x2000_1_1_0_0_n_n 128 rfl rfl d
  funext ax; apply Fin.ext
  match ax with
  | ⟨0, _⟩ => simp [DotDims.rhsIdx, dot_S1000x128_S2000x128_S1000x2000_1_1_0_0_n_n]; rfl
  | ⟨1, _⟩ => simp [DotDims.rhsIdx, dot_S1000x128_S2000x128_S1000x2000_1_1_0_0_n_n]; exact c

theorem lhsIdx_pv2 (p : Fin 1000) (q : Fin 128) (r : Fin 2000) :
    dot_S1000x2000_S2000x128_S1000x128_1_0_0_1_n_n.lhsIdx (ix2 p q)
      ((contrEquiv1 dot_S1000x2000_S2000x128_S1000x128_1_0_0_1_n_n 2000 rfl rfl).symm r) = ix2 p r := by
  have c := contrEquiv1_symm_val dot_S1000x2000_S2000x128_S1000x128_1_0_0_1_n_n 2000 rfl rfl r
  funext ax; apply Fin.ext
  match ax with
  | ⟨0, _⟩ => simp [DotDims.lhsIdx, dot_S1000x2000_S2000x128_S1000x128_1_0_0_1_n_n]; rfl
  | ⟨1, _⟩ => simp [DotDims.lhsIdx, dot_S1000x2000_S2000x128_S1000x128_1_0_0_1_n_n]; exact c

theorem rhsIdx_pv2 (p : Fin 1000) (q : Fin 128) (r : Fin 2000) :
    dot_S1000x2000_S2000x128_S1000x128_1_0_0_1_n_n.rhsIdx (ix2 p q)
      ((contrEquiv1 dot_S1000x2000_S2000x128_S1000x128_1_0_0_1_n_n 2000 rfl rfl).symm r) = ix2 r q := by
  have c := contrEquiv1_symm_val dot_S1000x2000_S2000x128_S1000x128_1_0_0_1_n_n 2000 rfl rfl r
  funext ax; apply Fin.ext
  match ax with
  | ⟨0, _⟩ => simp [DotDims.rhsIdx, dot_S1000x2000_S2000x128_S1000x128_1_0_0_1_n_n]; exact c
  | ⟨1, _⟩ => simp [DotDims.rhsIdx, dot_S1000x2000_S2000x128_S1000x128_1_0_0_1_n_n]; rfl

theorem lift_row2 (p : Fin 1000) (r : Fin 2000) :
    Shape.Reduces.lift (s := S1000x2000) (t := S1000) (a := 1) reduces_S1000x2000_S1000 (ix1 p) r = ix2 p r := by
  funext ax; apply Fin.ext
  match ax with
  | ⟨0, _⟩ => rfl
  | ⟨1, _⟩ => rfl

theorem ofBits_neg_inf2 : FloatOps.ofBits (F := Ideal) .f32 0xFF800000#32 = (⊥ : EReal) := by
  show Ideal.ofBits .f32 0xFF800000#32 = ⊥
  simp [Ideal.ofBits, Ideal.ieee]

variable (blk : FVec Ideal S1000x128 .f32) (full : FVec Ideal S2000x128 .bf16)
variable (m m' l : FVec Ideal S1000x1 .f32) (acc : FVec Ideal S1000x128 .f32)
variable (p : Fin 1000) (q : Fin 128) (r : Fin 2000)

def sc2 (blk : FVec Ideal S1000x128 .f32) (full : FVec Ideal S2000x128 .bf16) (p : Fin 1000) (r : Fin 2000) : EReal :=
  ∑ d : Fin 128, blk (ix2 p d) * full (ix2 r d)

theorem pay8_apply2 : k2_pay8 (F := Ideal) blk full (ix2 p r) = sc2 blk full p r := by
  unfold k2_pay8 k2_pay7
  refine (Ideal.matmul_constant_zero_apply dot_S1000x128_S2000x128_S1000x2000_1_1_0_0_n_n none _ _ (ix2 p r)).trans ?_
  refine (Equiv.sum_comp (contrEquiv1 dot_S1000x128_S2000x128_S1000x2000_1_1_0_0_n_n 128 rfl rfl).symm _).symm.trans ?_
  unfold sc2
  refine Finset.sum_congr rfl fun d _ => ?_
  rw [lhsIdx_qk2, rhsIdx_qk2, shapeCast_self, shapeCast_self]
  rfl

theorem pay9_apply2 :
    k2_pay9 (F := Ideal) blk full m (ix2 p (0 : Fin 1))
      = max (m (ix2 p (0 : Fin 1))) ((Finset.univ : Finset (Fin 2000)).fold max ⊥ (fun r => sc2 blk full p r)) := by
  unfold k2_pay9
  refine (maximumf_apply _ _ _).trans (congrArg (max (m (ix2 p (0 : Fin 1)))) ?_)
  refine (shapeCast_a_a1_apply2 _ _ p (0 : Fin 1)).trans ?_
  refine (Ideal.multiReduction_maximumf_single _ _ _ _ _ (ix1 p)).trans ?_
  have hf : ((k2_pay8 (F := Ideal) blk full) ∘ Shape.Reduces.lift (s := S1000x2000) (t := S1000) (a := 1) reduces_S1000x2000_S1000 (ix1 p))
      = fun r : Fin 2000 => sc2 blk full p r := by
    refine funext fun (r : Fin 2000) => ?_
    exact (congrArg (k2_pay8 (F := Ideal) blk full) (lift_row2 p r)).trans (pay8_apply2 blk full p r)
  exact congrArg₂ (fun b f => (Finset.univ : Finset (Fin 2000)).fold max b f) ofBits_neg_inf2 hf

theorem pay10_apply2 :
    k2_pay10 (F := Ideal) blk full m m' (ix2 p (0 : Fin 1))
      = Ideal.exp (m' (ix2 p (0 : Fin 1)) - k2_pay9 (F := Ideal) blk full m (ix2 p (0 : Fin 1))) := by
  unfold k2_pay10
  rfl

theorem pay11_apply2 :
    k2_pay11 (F := Ideal) blk full m (ix2 p r)
      = Ideal.exp (k2_pay8 (F := Ideal) blk full (ix2 p r) - k2_pay9 (F := Ideal) blk full m (ix2 p (0 : Fin 1))) := by
  unfold k2_pay11
  refine (congrArg Ideal.exp ?_ : Ideal.exp _ = Ideal.exp _)
  refine congrArg (k2_pay8 (F := Ideal) blk full (ix2 p r) - ·) ?_
  exact broadcastTo_a1_ab_apply2 _ _ p r

theorem pay12_apply2 :
    k2_pay12 (F := Ideal) blk full m m' l (ix2 p (0 : Fin 1))
      = k2_pay10 (F := Ideal) blk full m m' (ix2 p (0 : Fin 1)) * l (ix2 p (0 : Fin 1))
        + ∑ r : Fin 2000, k2_pay11 (F := Ideal) blk full m (ix2 p r) := by
  unfold k2_pay12
  rw [shapeCast_self]
  refine (addf_apply _ _ _).trans ?_
  refine congrArg₂ (· + ·) (mulf_apply _ _ _) ?_
  refine (shapeCast_a_a1_apply2 _ _ p (0 : Fin 1)).trans ?_
  refine (Ideal.multiReduction_add_single _ _ _ _ _ (ix1 p)).trans ?_
  exact Finset.sum_congr rfl fun r _ => congrArg (k2_pay11 (F := Ideal) blk full m) (lift_row2 p r)

theorem pay13_apply2 :
    k2_pay13 (F := Ideal) blk full m m' acc (ix2 p q)
      = k2_pay10 (F := Ideal) blk full m m' (ix2 p (0 : Fin 1)) * acc (ix2 p q)
        + ∑ r : Fin 2000, k2_pay11 (F := Ideal) blk full m (ix2 p r) * full (ix2 r q) := by
  unfold k2_pay13 k2_pay7
  refine (addf_apply _ _ _).trans ?_
  refine congrArg₂ (· + ·) ?_ ?_
  · refine (mulf_apply _ _ _).trans ?_
    exact congrArg (· * acc (ix2 p q)) (broadcastTo_a1_ab_apply2 _ _ p q)
  · refine (Ideal.matmul_constant_zero_apply dot_S1000x2000_S2000x128_S1000x128_1_0_0_1_n_n none _ _ (ix2 p q)).trans ?_
    refine (Equiv.sum_comp (contrEquiv1 dot_S1000x2000_S2000x128_S1000x128_1_0_0_1_n_n 2000 rfl rfl).symm _).symm.trans ?_
    refine Finset.sum_congr rfl fun r _ => ?_
    rw [lhsIdx_pv2, rhsIdx_pv2, shapeCast_self]
    rfl

theorem pay3_apply2 :
    k2_pay3 (F := Ideal) acc l blk (ix2 p q) = blk (ix2 p q) - Ideal.div (acc (ix2 p q)) (l (ix2 p (0 : Fin 1))) := by
  unfold k2_pay3
  rw [shapeCast_self]
  refine (subf_apply _ _ _).trans ?_
  refine congrArg (blk (ix2 p q) - ·) ?_
  refine (divf_apply _ _ _).trans ?_
  exact congrArg (Ideal.div (acc (ix2 p q))) (broadcastTo_a1_ab_apply2 _ _ p q)

theorem pay1_eq2 (v : FVec Ideal S1000x128 .f32) : k2_pay1 (F := Ideal) v = v := by
  unfold k2_pay1; exact shapeCast_self _ _
theorem pay2_eq2 (v : FVec Ideal S1000x1 .f32) : k2_pay2 (F := Ideal) v = v := by
  unfold k2_pay2; exact shapeCast_self _ _

theorem pay4_apply2 (i : S1000x1.Idx) : k2_pay4 (F := Ideal) i = (⊥ : EReal) := by
  unfold k2_pay4
  rw [shapeCast_self]
  exact ofBits_neg_inf2
theorem pay5_apply2 (i : S1000x1.Idx) : k2_pay5 (F := Ideal) i = (0 : EReal) := by
  unfold k2_pay5
  rw [shapeCast_self]
  exact Ideal.ofBits_zero_f32
theorem pay6_apply2 (i : S1000x128.Idx) : k2_pay6 (F := Ideal) i = (0 : EReal) := by
  unfold k2_pay6
  rw [shapeCast_self]
  exact Ideal.ofBits_zero_f32

theorem lNext_apply2 :
    k2_pay12 (F := Ideal) blk full m m l (ix2 p (0 : Fin 1))
      = Ideal.exp (m (ix2 p (0 : Fin 1))
            - max (m (ix2 p (0 : Fin 1))) ((Finset.univ : Finset (Fin 2000)).fold max ⊥ (fun r => sc2 blk full p r)))
          * l (ix2 p (0 : Fin 1))
        + ∑ r : Fin 2000, Ideal.exp (sc2 blk full p r
            - max (m (ix2 p (0 : Fin 1))) ((Finset.univ : Finset (Fin 2000)).fold max ⊥ (fun r => sc2 blk full p r))) := by
  rw [pay12_apply2, pay10_apply2, pay9_apply2]
  refine congrArg (_ + ·) (Finset.sum_congr rfl fun r _ => ?_)
  rw [pay11_apply2, pay8_apply2, pay9_apply2]

theorem aNext_apply2 :
    k2_pay13 (F := Ideal) blk full m m acc (ix2 p q)
      = Ideal.exp (m (ix2 p (0 : Fin 1))
            - max (m (ix2 p (0 : Fin 1))) ((Finset.univ : Finset (Fin 2000)).fold max ⊥ (fun r => sc2 blk full p r)))
          * acc (ix2 p q)
        + ∑ r : Fin 2000, Ideal.exp (sc2 blk full p r
            - max (m (ix2 p (0 : Fin 1))) ((Finset.univ : Finset (Fin 2000)).fold max ⊥ (fun r => sc2 blk full p r)))
          * full (ix2 r q) := by
  rw [pay13_apply2, pay10_apply2, pay9_apply2]
  refine congrArg (_ + ·) (Finset.sum_congr rfl fun r _ => ?_)
  rw [pay11_apply2, pay8_apply2, pay9_apply2]

end Cert.KernelIdeal.Val

end
-- ==== Proof.LibFlash.lean ====
import Idealize.ShloMosaic.PureOps.Ideal
import Mathlib.Data.EReal.Operations
import Mathlib.Data.Finset.Fold
import Mathlib.Data.Finset.Lattice.Fold
import Mathlib.Algebra.BigOperators.Fin
import Mathlib.Logic.Equiv.Fin.Basic
import Mathlib.Analysis.Complex.Exponential

namespace Cert.LibFlash
open Idealize.ShloMosaic

noncomputable section

def mNext {C : ℕ} (m : EReal) (s : Fin C → EReal) : EReal := max m ((Finset.univ : Finset (Fin C)).fold max ⊥ s)

def lNext {C : ℕ} (m l : EReal) (s : Fin C → EReal) : EReal := Ideal.exp (m - mNext m s) * l + ∑ r : Fin C, Ideal.exp (s r - mNext m s)

def aNext {C : ℕ} (m a : EReal) (s x : Fin C → EReal) : EReal := Ideal.exp (m - mNext m s) * a + ∑ r : Fin C, Ideal.exp (s r - mNext m s) * x r

def stateAfter {K C : ℕ} (s x : Fin K → Fin C → EReal) : (n : ℕ) → n ≤ K → EReal × EReal × EReal
  | 0, _ => (⊥, 0, 0)
  | n + 1, h => let p := stateAfter s x n (Nat.le_of_succ_le h)
      (mNext p.1 (s ⟨n, h⟩), lNext p.1 p.2.1 (s ⟨n, h⟩), aNext p.1 p.2.2 (s ⟨n, h⟩) (x ⟨n, h⟩))

theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem fold_max_coe {ι : Type*} (t : Finset ι) (ht : t.Nonempty) (f : ι → ℝ) :
    t.fold max ⊥ (fun j => (f j : EReal)) = ((t.sup' ht f : ℝ) : EReal) := by
  apply le_antisymm
  · rw [Finset.fold_max_le]
    exact ⟨bot_le, fun j hj => EReal.coe_le_coe_iff.mpr (Finset.le_sup' f hj)⟩
  · rw [Finset.le_fold_max]
    obtain ⟨i, hi, he⟩ := Finset.exists_mem_eq_sup' ht f
    exact Or.inr ⟨i, hi, by rw [he]⟩

theorem coe_max (a b : ℝ) : max (a : EReal) (b : EReal) = ((max a b : ℝ) : EReal) :=
  (EReal.coe_strictMono.monotone.map_max).symm

theorem exp_rescale (m m' t : ℝ) : Real.exp (m - m') * Real.exp (t - m) = Real.exp (t - m') := by
  rw [← Real.exp_add]; congr 1; ring

theorem exp_coe_sub (a b : ℝ) : Ideal.exp ((a : EReal) - (b : EReal)) = ((Real.exp (a - b) : ℝ) : EReal) := by
  rw [← EReal.coe_sub, Ideal.exp_coe]

section Chunk
variable {C : ℕ}

def chunkMax (hC : 0 < C) (c : Fin C → ℝ) : ℝ :=
  Finset.univ.sup' ⟨⟨0, hC⟩, Finset.mem_univ _⟩ c

theorem le_chunkMax (hC : 0 < C) (c : Fin C → ℝ) (r : Fin C) : c r ≤ chunkMax hC c :=
  Finset.le_sup' c (Finset.mem_univ r)

theorem chunkMax_mem (hC : 0 < C) (c : Fin C → ℝ) : ∃ r, c r = chunkMax hC c := by
  obtain ⟨i, _, he⟩ := Finset.exists_mem_eq_sup' ⟨⟨0, hC⟩, Finset.mem_univ _⟩ c
  exact ⟨i, he.symm⟩

theorem mNext_bot (hC : 0 < C) (c : Fin C → ℝ) :
    mNext ⊥ (fun r => (c r : EReal)) = ((chunkMax hC c : ℝ) : EReal) := by
  rw [mNext, fold_max_coe _ ⟨⟨0, hC⟩, Finset.mem_univ _⟩, max_eq_right bot_le]; rfl

theorem mNext_coe (hC : 0 < C) (m : ℝ) (c : Fin C → ℝ) :
    mNext (m : EReal) (fun r => (c r : EReal)) = ((max m (chunkMax hC c) : ℝ) : EReal) := by
  rw [mNext, fold_max_coe _ ⟨⟨0, hC⟩, Finset.mem_univ _⟩, coe_max]; rfl

theorem lNext_bot (hC : 0 < C) (c : Fin C → ℝ) :
    lNext ⊥ 0 (fun r => (c r : EReal)) = ((∑ r, Real.exp (c r - chunkMax hC c) : ℝ) : EReal) := by
  rw [lNext, mNext_bot hC, EReal.bot_sub, Ideal.exp_bot, mul_zero, zero_add, coe_sum]
  exact Finset.sum_congr rfl fun r _ => exp_coe_sub _ _

theorem lNext_coe (hC : 0 < C) (m l : ℝ) (c : Fin C → ℝ) :
    lNext (m : EReal) (l : EReal) (fun r => (c r : EReal)) =
      ((Real.exp (m - max m (chunkMax hC c)) * l
        + ∑ r, Real.exp (c r - max m (chunkMax hC c)) : ℝ) : EReal) := by
  rw [lNext, mNext_coe hC, EReal.coe_add, EReal.coe_mul, coe_sum, exp_coe_sub]
  exact congrArg _ (Finset.sum_congr rfl fun r _ => exp_coe_sub _ _)

theorem aNext_bot (hC : 0 < C) (c x : Fin C → ℝ) :
    aNext ⊥ 0 (fun r => (c r : EReal)) (fun r => (x r : EReal)) =
      ((∑ r, Real.exp (c r - chunkMax hC c) * x r : ℝ) : EReal) := by
  rw [aNext, mNext_bot hC, EReal.bot_sub, Ideal.exp_bot, mul_zero, zero_add, coe_sum]
  exact Finset.sum_congr rfl fun r _ => by rw [exp_coe_sub, EReal.coe_mul]

theorem aNext_coe (hC : 0 < C) (m a : ℝ) (c x : Fin C → ℝ) :
    aNext (m : EReal) (a : EReal) (fun r => (c r : EReal)) (fun r => (x r : EReal)) =
      ((Real.exp (m - max m (chunkMax hC c)) * a
        + ∑ r, Real.exp (c r - max m (chunkMax hC c)) * x r : ℝ) : EReal) := by
  rw [aNext, mNext_coe hC, EReal.coe_add, EReal.coe_mul, coe_sum, exp_coe_sub]
  exact congrArg _ (Finset.sum_congr rfl fun r _ => by rw [exp_coe_sub, EReal.coe_mul])

end Chunk

theorem stateAfter_inv {K C : ℕ} (hC : 0 < C) (s x : Fin K → Fin C → ℝ) (n : ℕ) (h : n + 1 ≤ K) :
    ∃ m l a : ℝ,
      stateAfter (fun k r => (s k r : EReal)) (fun k r => (x k r : EReal)) (n + 1) h
        = ((m : EReal), (l : EReal), (a : EReal)) ∧
      (∀ (k : Fin (n + 1)) (r : Fin C), s (Fin.castLE h k) r ≤ m) ∧
      (∃ (k : Fin (n + 1)) (r : Fin C), s (Fin.castLE h k) r = m) ∧
      l = ∑ k : Fin (n + 1), ∑ r : Fin C, Real.exp (s (Fin.castLE h k) r - m) ∧
      a = ∑ k : Fin (n + 1), ∑ r : Fin C,
            Real.exp (s (Fin.castLE h k) r - m) * x (Fin.castLE h k) r := by
  induction n with
  | zero =>
    have h0 : ∀ k : Fin (0 + 1), Fin.castLE h k = ⟨0, h⟩ := fun k => by
      apply Fin.ext; simp
    refine ⟨chunkMax hC (s ⟨0, h⟩), ∑ r, Real.exp (s ⟨0, h⟩ r - chunkMax hC (s ⟨0, h⟩)),
      ∑ r, Real.exp (s ⟨0, h⟩ r - chunkMax hC (s ⟨0, h⟩)) * x ⟨0, h⟩ r, ?_, ?_, ?_, ?_, ?_⟩
    · rw [stateAfter, stateAfter, mNext_bot hC, lNext_bot hC, aNext_bot hC]
    · intro k r; rw [h0 k]; exact le_chunkMax hC _ r
    · obtain ⟨r, hr⟩ := chunkMax_mem hC (s ⟨0, h⟩)
      exact ⟨0, r, by rw [h0 0]; exact hr⟩
    · rw [Fin.sum_univ_castSucc, Fin.sum_univ_zero, zero_add, h0]
    · rw [Fin.sum_univ_castSucc, Fin.sum_univ_zero, zero_add, h0]
  | succ n ih =>
    obtain ⟨m, l, a, hst, hub, ⟨k0, r0, hatt⟩, hl, ha⟩ := ih (Nat.le_of_succ_le h)
    have hcs : ∀ i : Fin (n + 1), Fin.castLE h (Fin.castSucc i) = Fin.castLE (Nat.le_of_succ_le h) i :=
      fun i => rfl
    have hlast : Fin.castLE h (Fin.last (n + 1)) = ⟨n + 1, h⟩ := rfl
    refine ⟨max m (chunkMax hC (s ⟨n + 1, h⟩)),
      Real.exp (m - max m (chunkMax hC (s ⟨n + 1, h⟩))) * l
        + ∑ r, Real.exp (s ⟨n + 1, h⟩ r - max m (chunkMax hC (s ⟨n + 1, h⟩))),
      Real.exp (m - max m (chunkMax hC (s ⟨n + 1, h⟩))) * a
        + ∑ r, Real.exp (s ⟨n + 1, h⟩ r - max m (chunkMax hC (s ⟨n + 1, h⟩))) * x ⟨n + 1, h⟩ r,
      ?_, ?_, ?_, ?_, ?_⟩
    · rw [stateAfter, hst, mNext_coe hC, lNext_coe hC, aNext_coe hC]
    · intro k r
      induction k using Fin.lastCases with
      | last => rw [hlast]; exact le_trans (le_chunkMax hC _ r) (le_max_right _ _)
      | cast i => rw [hcs]; exact le_trans (hub i r) (le_max_left _ _)
    · rcases le_total m (chunkMax hC (s ⟨n + 1, h⟩)) with hle | hle
      · obtain ⟨r, hr⟩ := chunkMax_mem hC (s ⟨n + 1, h⟩)
        exact ⟨Fin.last (n + 1), r, by rw [hlast, max_eq_right hle]; exact hr⟩
      · exact ⟨Fin.castSucc k0, r0, by rw [hcs, max_eq_left hle]; exact hatt⟩
    · rw [Fin.sum_univ_castSucc, hlast, hl, Finset.mul_sum]
      congr 1
      refine Finset.sum_congr rfl fun i _ => ?_
      rw [Finset.mul_sum]
      exact Finset.sum_congr rfl fun r _ => by rw [hcs, exp_rescale]
    · rw [Fin.sum_univ_castSucc, hlast, ha, Finset.mul_sum]
      congr 1
      refine Finset.sum_congr rfl fun i _ => ?_
      rw [Finset.mul_sum]
      exact Finset.sum_congr rfl fun r _ => by rw [hcs, ← mul_assoc, exp_rescale]

theorem sum_chunks {K C : ℕ} (f : Fin (K * C) → ℝ) :
    ∑ k : Fin K, ∑ r : Fin C, f (finProdFinEquiv (k, r)) = ∑ j, f j :=
  (Fintype.sum_prod_type fun p => f (finProdFinEquiv p)).symm.trans (Equiv.sum_comp finProdFinEquiv f)

theorem flash_flat (K C : ℕ) (hK : 0 < K) (hC : 0 < C) (s x : Fin (K * C) → ℝ) :
    let sc : Fin K → Fin C → EReal := fun k r => (s (finProdFinEquiv (k, r)) : EReal)
    let xc : Fin K → Fin C → EReal := fun k r => (x (finProdFinEquiv (k, r)) : EReal)
    let st := stateAfter sc xc K le_rfl
    let M : EReal := (Finset.univ : Finset (Fin (K * C))).fold max ⊥ (fun j => (s j : EReal))
    let Z : EReal := ∑ j : Fin (K * C), Ideal.exp ((s j : EReal) - M)
    Ideal.div st.2.2 st.2.1 = ∑ j : Fin (K * C), Ideal.div (Ideal.exp ((s j : EReal) - M)) Z * (x j : EReal) := by
  intro sc xc st M Z
  obtain ⟨n, rfl⟩ := Nat.exists_eq_add_of_le' hK
  obtain ⟨m, l, a, hst, hub, ⟨k0, r0, hatt⟩, hl, ha⟩ :=
    stateAfter_inv hC (fun k r => s (finProdFinEquiv (k, r))) (fun k r => x (finProdFinEquiv (k, r)))
      n le_rfl
  simp only [Fin.castLE_rfl, id] at hub hatt hl ha

  have hM : M = (m : EReal) := by
    apply le_antisymm
    · rw [Finset.fold_max_le]
      refine ⟨bot_le, fun j _ => EReal.coe_le_coe_iff.mpr ?_⟩
      have := hub (finProdFinEquiv.symm j).1 (finProdFinEquiv.symm j).2
      rwa [Prod.mk.eta, Equiv.apply_symm_apply] at this
    · rw [Finset.le_fold_max]
      exact Or.inr ⟨finProdFinEquiv (k0, r0), Finset.mem_univ _, by rw [hatt]⟩

  rw [sum_chunks fun j => Real.exp (s j - m)] at hl
  rw [sum_chunks fun j => Real.exp (s j - m) * x j] at ha
  have hlpos : 0 < l := by
    haveI : Nonempty (Fin ((n + 1) * C)) := ⟨finProdFinEquiv (k0, r0)⟩
    rw [hl]; exact Finset.sum_pos (fun _ _ => Real.exp_pos _) Finset.univ_nonempty
  have hZ : Z = (l : EReal) := by
    show ∑ j, Ideal.exp ((s j : EReal) - M) = _
    rw [hM, hl, coe_sum]
    exact Finset.sum_congr rfl fun j _ => exp_coe_sub _ _
  have hst' : st = ((m : EReal), (l : EReal), (a : EReal)) := hst
  rw [hst', hZ, hM]
  show Ideal.div (a : EReal) (l : EReal) = _
  rw [Ideal.div_coe hlpos.ne', ← EReal.coe_mul, ha, Finset.sum_mul, coe_sum]
  refine Finset.sum_congr rfl fun j _ => ?_
  rw [Ideal.div_coe hlpos.ne', exp_coe_sub, ← EReal.coe_mul, ← EReal.coe_mul]
  congr 1; ring

end

end Cert.LibFlash
-- ==== Proof.Val.AttnRow.lean ====
import proofs.«407386_j15839839387945_2_alg».proof.Proof.Spec
import proofs.«407386_j15839839387945_2_alg».proof.Proof.LibFlash
import Mathlib.Data.EReal.Operations
import Mathlib.Algebra.BigOperators.Fin
import Mathlib.Logic.Equiv.Fin.Basic

noncomputable section

namespace Cert.AttnRow

open Idealize.ShloMosaic Idealize.ShloMosaic.ValueIdx Cert

def key (k : Fin 5) (r : Fin 2000) : Fin 10000 := ⟨2000 * k.val + r.val, by have := k.isLt; have := r.isLt; omega⟩

def scRow (x y : Spec.Arr 10000 128) (i : Fin 10000) : Fin 5 → Fin 2000 → EReal := fun k r => Spec.score x y i (key k r)

def xRow (y : Spec.Arr 10000 128) (q : Fin 128) : Fin 5 → Fin 2000 → EReal := fun k r => y (ix2 (key k r) q)

theorem stateAfter_zero {K C : ℕ} (s x : Fin K → Fin C → EReal) (h : 0 ≤ K) :
    LibFlash.stateAfter s x 0 h = (⊥, 0, 0) := rfl

theorem stateAfter_succ {K C : ℕ} (s x : Fin K → Fin C → EReal) (n : ℕ) (h : n + 1 ≤ K) :
    LibFlash.stateAfter s x (n + 1) h
      = (LibFlash.mNext (LibFlash.stateAfter s x n (Nat.le_of_succ_le h)).1 (s ⟨n, h⟩),
         LibFlash.lNext (LibFlash.stateAfter s x n (Nat.le_of_succ_le h)).1 (LibFlash.stateAfter s x n (Nat.le_of_succ_le h)).2.1 (s ⟨n, h⟩),
         LibFlash.aNext (LibFlash.stateAfter s x n (Nat.le_of_succ_le h)).1 (LibFlash.stateAfter s x n (Nat.le_of_succ_le h)).2.2 (s ⟨n, h⟩) (x ⟨n, h⟩)) := rfl

theorem key_eq (k : Fin 5) (r : Fin 2000) : (finProdFinEquiv (k, r) : Fin (5 * 2000)) = key k r := by
  apply Fin.ext
  show r.val + 2000 * k.val = 2000 * k.val + r.val
  omega

theorem row_final (x y : Spec.Arr 10000 128) (hxr : Spec.IsReal x) (hyr : Spec.IsReal y) (i : Fin 10000) (q : Fin 128) :
    x (ix2 i q) - Ideal.div (LibFlash.stateAfter (scRow x y i) (xRow y q) 5 le_rfl).2.2
        (LibFlash.stateAfter (scRow x y i) (xRow y q) 5 le_rfl).2.1
      = Spec.attnUpd x y (ix2 i q) := by
  choose xr hx using hxr
  choose yr hy using hyr

  let s : Fin (5 * 2000) → ℝ := fun j => ∑ d : Fin 128, xr (ix2 i d) * yr (ix2 (j : Fin 10000) d)
  let v : Fin (5 * 2000) → ℝ := fun j => yr (ix2 (j : Fin 10000) q)
  have hs : ∀ j : Fin 10000, ((s j : ℝ) : EReal) = Spec.score x y i j := fun j => by
    show ((∑ d : Fin 128, xr (ix2 i d) * yr (ix2 j d) : ℝ) : EReal) = ∑ d : Fin 128, x (ix2 i d) * y (ix2 j d)
    rw [LibFlash.coe_sum]
    refine Finset.sum_congr rfl fun d _ => ?_
    rw [EReal.coe_mul, hx, hy]
  have hv : ∀ j : Fin 10000, ((v j : ℝ) : EReal) = y (ix2 j q) := fun j => (hy _).symm
  have hsc : (fun k r => ((s (finProdFinEquiv (k, r)) : ℝ) : EReal)) = scRow x y i := by
    funext k r
    show ((s (finProdFinEquiv (k, r)) : ℝ) : EReal) = Spec.score x y i (key k r)
    rw [key_eq]; exact hs _
  have hxc : (fun k r => ((v (finProdFinEquiv (k, r)) : ℝ) : EReal)) = xRow y q := by
    funext k r
    show ((v (finProdFinEquiv (k, r)) : ℝ) : EReal) = y (ix2 (key k r) q)
    rw [key_eq]; exact hv _
  have hflash := LibFlash.flash_flat 5 2000 (by norm_num) (by norm_num) s v
  simp only [hsc, hxc] at hflash
  rw [hflash]
  show _ = x (ix2 i q) - ∑ j : Fin 10000,
      Ideal.div (Ideal.exp (Spec.score x y i j - Spec.rowMax x y i)) (Spec.rowZ x y i) * y (ix2 j q)
  refine congrArg (x (ix2 i q) - ·) ?_
  unfold Spec.rowZ Spec.rowMax
  simp only [← hs, ← hv]

end Cert.AttnRow

end
-- ==== Proof.Val.AttnVal2.lean ====
import proofs.«407386_j15839839387945_2_alg».proof.Proof.KI.Attn2
import proofs.«407386_j15839839387945_2_alg».proof.Proof.Val.AttnPay
import proofs.«407386_j15839839387945_2_alg».proof.Proof.Val.AttnRow
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

abbrev xarr2 (c : Dev nD) : Spec.Arr 10000 128 := V c (Pipeline.arrRef spec2 0)

abbrev yarr2 (c : Dev nD) : Spec.Arr 10000 128 := V c (Pipeline.arrRef spec2 1)

theorem block_index2 : ∀ t : Fin cfg2.N,
    win2_0.index t (0 : Fin 2) = t.val / 5 ∧ win2_0.index t (1 : Fin 2) = 0
    ∧ win2_1.index t (0 : Fin 2) = t.val % 5 ∧ win2_1.index t (1 : Fin 2) = 0
    ∧ win2_2.index t (0 : Fin 2) = t.val / 5 ∧ win2_2.index t (1 : Fin 2) = 0 :=
  (by decide +kernel : ∀ t : Fin grid2.N, _)

theorem qblk_apply2 (c : Dev nD) (t : Fin cfg2.N) (p : Fin 1000) (d : Fin 128) (e : Fin 10000)
    (he : e.val = 1000 * (t.val / 5) + p.val) :
    (iblk2 V c 0 t : Vec Ideal S1000x128 .f32) (ix2 p d) = xarr2 V c (ix2 e d) := by
  obtain ⟨i0, i1, -⟩ := block_index2 t
  unfold iblk2
  rw [View.read_apply]
  show V c (Pipeline.arrRef spec2 0) _ = V c (Pipeline.arrRef spec2 0) (ix2 e d)
  congr 1
  funext a
  apply Fin.ext
  match a with
  | ⟨0, _⟩ => show win2_0.index t 0 * 1000 + 1 * p.val = e.val; rw [i0, he]; omega
  | ⟨1, _⟩ => show win2_0.index t 1 * 128 + 1 * d.val = d.val; rw [i1]; omega

theorem kblk_apply2 (c : Dev nD) (t : Fin cfg2.N) (r : Fin 2000) (d : Fin 128) (e : Fin 10000)
    (he : e.val = 2000 * (t.val % 5) + r.val) :
    (iblk2 V c 1 t : Vec Ideal S2000x128 .bf16) (ix2 r d) = yarr2 V c (ix2 e d) := by
  obtain ⟨-, -, i0, i1, -⟩ := block_index2 t
  unfold iblk2
  rw [View.read_apply]
  show V c (Pipeline.arrRef spec2 1) _ = V c (Pipeline.arrRef spec2 1) (ix2 e d)
  congr 1
  funext a
  apply Fin.ext
  match a with
  | ⟨0, _⟩ => show win2_1.index t 0 * 2000 + 1 * r.val = e.val; rw [i0, he]; omega
  | ⟨1, _⟩ => show win2_1.index t 1 * 128 + 1 * d.val = d.val; rw [i1]; omega

theorem oblk_emb2 (t : Fin cfg2.N) (p : Fin 1000) (q : Fin 128) (e : Fin 10000) (he : e.val = 1000 * (t.val / 5) + p.val) :
    ((cfg2.win 2).blk t).view.emb (ix2 p q) = (ix2 e q : S10000x128.Idx) := by
  obtain ⟨-, -, -, -, i0, i1⟩ := block_index2 t
  funext b
  apply Fin.ext
  match b with
  | ⟨0, _⟩ => show win2_2.index t 0 * 1000 + 1 * p.val = e.val; rw [i0, he]; omega
  | ⟨1, _⟩ => show win2_2.index t 1 * 128 + 1 * q.val = q.val; rw [i1]; omega

section Step
variable (blk : FVec Ideal S1000x128 .f32) (full : FVec Ideal S2000x128 .bf16)
variable (mP lP : FVec Ideal S1000x1 .f32) (aP : FVec Ideal S1000x128 .f32) (p : Fin 1000) (q : Fin 128)

theorem mNext2_apply : mNext2 (F := Ideal) blk full mP (ix2 p (0 : Fin 1))
    = LibFlash.mNext (mP (ix2 p (0 : Fin 1))) (fun r : Fin 2000 => sc2 blk full p r) := by
  unfold mNext2
  rw [pay2_eq2]
  exact pay9_apply2 blk full mP p

theorem lNext2_apply : lNext2 (F := Ideal) blk full mP lP (ix2 p (0 : Fin 1))
    = LibFlash.lNext (mP (ix2 p (0 : Fin 1))) (lP (ix2 p (0 : Fin 1))) (fun r : Fin 2000 => sc2 blk full p r) :=
  lNext_apply2 blk full mP lP p

theorem accNext2_apply : accNext2 (F := Ideal) blk full mP aP (ix2 p q)
    = LibFlash.aNext (mP (ix2 p (0 : Fin 1))) (aP (ix2 p q)) (fun r : Fin 2000 => sc2 blk full p r) (fun r : Fin 2000 => full (ix2 r q)) := by
  unfold accNext2
  rw [pay1_eq2]
  exact aNext_apply2 blk full mP aP p q

theorem outFin2_apply : outFin2 (F := Ideal) blk lP aP (ix2 p q)
    = blk (ix2 p q) - Ideal.div (aP (ix2 p q)) (lP (ix2 p (0 : Fin 1))) :=
  pay3_apply2 blk lP aP p q

theorem step_entry2 (S : EReal × EReal × EReal)
    (hS : (mP (ix2 p (0 : Fin 1)), lP (ix2 p (0 : Fin 1)), aP (ix2 p q)) = S)
    (s x : Fin 2000 → EReal) (hs : (fun r : Fin 2000 => sc2 blk full p r) = s) (hx : (fun r : Fin 2000 => full (ix2 r q)) = x) :
    (mNext2 (F := Ideal) blk full mP (ix2 p (0 : Fin 1)), lNext2 (F := Ideal) blk full mP lP (ix2 p (0 : Fin 1)),
        accNext2 (F := Ideal) blk full mP aP (ix2 p q))
      = (LibFlash.mNext S.1 s, LibFlash.lNext S.1 S.2.1 s, LibFlash.aNext S.1 S.2.2 s x) := by
  subst hS hs hx
  rw [mNext2_apply, lNext2_apply, accNext2_apply]

end Step

theorem init_entry2 (p : Fin 1000) (q : Fin 128) :
    ((mInit2 (F := Ideal)) (ix2 p (0 : Fin 1)), (lInit2 (F := Ideal)) (ix2 p (0 : Fin 1)), (accInit2 (F := Ideal)) (ix2 p q))
      = ((⊥ : EReal), (0 : EReal), (0 : EReal)) := by
  unfold mInit2 lInit2 accInit2
  rw [pay4_apply2, pay5_apply2, pay6_apply2]

section Row
variable (c : Dev nD) (x y : Spec.Arr 10000 128) (hx : xarr2 V c = x) (hy : yarr2 V c = y)
variable (qi : Fin 10) (p : Fin 1000) (q : Fin 128) (i : Fin 10000) (hi : i.val = 1000 * qi.val + p.val)

include hx hy hi in

theorem chunk_scores2 (kv : ℕ) (hkv : kv < 5) (hn : 5 * qi.val + kv < cfg2.N) :
    (fun r : Fin 2000 => sc2 (iblk2 V c 0 ⟨5 * qi.val + kv, hn⟩) (iblk2 V c 1 ⟨5 * qi.val + kv, hn⟩) p r)
      = AttnRow.scRow x y i ⟨kv, hkv⟩ := by
  funext r
  have hq : (5 * qi.val + kv) / 5 = qi.val := by omega
  have hk : (5 * qi.val + kv) % 5 = kv := by omega
  unfold sc2 AttnRow.scRow Spec.score
  refine Finset.sum_congr rfl fun d _ => ?_
  exact congrArg₂ (· * ·)
    ((qblk_apply2 V c ⟨5 * qi.val + kv, hn⟩ p d i (by show i.val = 1000 * ((5 * qi.val + kv) / 5) + p.val; rw [hq]; exact hi)).trans
      (congrFun hx _))
    ((kblk_apply2 V c ⟨5 * qi.val + kv, hn⟩ r d (AttnRow.key ⟨kv, hkv⟩ r)
      (by show 2000 * kv + r.val = 2000 * ((5 * qi.val + kv) % 5) + r.val; rw [hk])).trans (congrFun hy _))

include hy in

theorem chunk_keys2 (kv : ℕ) (hkv : kv < 5) (hn : 5 * qi.val + kv < cfg2.N) :
    (fun r : Fin 2000 => (iblk2 V c 1 ⟨5 * qi.val + kv, hn⟩ : Vec Ideal S2000x128 .bf16) (ix2 r q))
      = AttnRow.xRow y q ⟨kv, hkv⟩ := by
  funext r
  have hk : (5 * qi.val + kv) % 5 = kv := by omega
  exact (kblk_apply2 V c ⟨5 * qi.val + kv, hn⟩ r q (AttnRow.key ⟨kv, hkv⟩ r)
      (by show 2000 * kv + r.val = 2000 * ((5 * qi.val + kv) % 5) + r.val; rw [hk])).trans (congrFun hy _)

include hx hy hi in

theorem row_state2 : ∀ (kv : ℕ) (hkv : kv < 5) (hn : 5 * qi.val + kv < cfg2.N),
    ((stAt2 V c (5 * qi.val + kv) hn).2.1 (ix2 p (0 : Fin 1)), (stAt2 V c (5 * qi.val + kv) hn).2.2.1 (ix2 p (0 : Fin 1)),
        (stAt2 V c (5 * qi.val + kv) hn).2.2.2 (ix2 p q))
      = LibFlash.stateAfter (AttnRow.scRow x y i) (AttnRow.xRow y q) (kv + 1) (by omega)
  | 0, hkv, hn => by
    have h := stAt2_first V c ⟨5 * qi.val + 0, hn⟩ (by show (5 * qi.val + 0) % 5 = 0; omega)
    dsimp only at h
    rw [h]
    dsimp only
    rw [AttnRow.stateAfter_succ, AttnRow.stateAfter_zero]
    exact step_entry2 _ _ _ _ _ p q _ (init_entry2 p q) _ _
      (chunk_scores2 V c x y hx hy qi p i hi 0 hkv hn) (chunk_keys2 V c y hy qi q 0 hkv hn)
  | kv + 1, hkv, hn => by
    have hprev : 5 * qi.val + kv < cfg2.N := by omega
    have ih := row_state2 kv (by omega) hprev
    have h := stAt2_step V c ⟨5 * qi.val + (kv + 1), hn⟩ (by show (5 * qi.val + (kv + 1)) % 5 ≠ 0; omega)
    dsimp only at h
    rw [h]
    dsimp only
    rw [AttnRow.stateAfter_succ]
    have hsub : 5 * qi.val + (kv + 1) - 1 = 5 * qi.val + kv := by omega
    refine step_entry2 _ _ _ _ _ p q _ ?_ _ _
      (chunk_scores2 V c x y hx hy qi p i hi (kv + 1) hkv hn) (chunk_keys2 V c y hy qi q (kv + 1) hkv hn)
    simp only [hsub]
    exact ih

end Row

theorem flushed2_2_eq (c : Dev nD) (x y : Spec.Arr 10000 128) (hx : xarr2 V c = x) (hy : yarr2 V c = y)
    (hxr : Spec.IsReal x) (hyr : Spec.IsReal y) (t : Fin cfg2.N) (hf : (cfg2.win 2).flush t = true) :
    (dat2 (F := Ideal) V c).flushed 2 t = ((cfg2.win 2).blk t).view.read (Elt Ideal) (Spec.attnUpd x y) := by
  have h4 : t.val % 5 = 4 := (flush2_2 t).mp hf
  have hN : t.val < 50 := t.isLt
  show (cfg2.win 2).cut (grid2.coords t) ((dat2 (F := Ideal) V c).after 2 t) = _
  rw [after2_2, stAt2_out V c t h4]
  funext j
  obtain ⟨p, q, rfl⟩ : ∃ (p : Fin 1000) (q : Fin 128), j = ix2 p q := ⟨j 0, j 1, eq_ix2 j⟩
  have hp := p.isLt
  have hqi : t.val / 5 < 10 := by omega
  have ht : t.val = 5 * (t.val / 5) + 4 := by omega
  rw [View.read_apply, oblk_emb2 t p q ⟨1000 * (t.val / 5) + p.val, by omega⟩ rfl]

  have hst := row_state2 V c x y hx hy ⟨t.val / 5, hqi⟩ p q ⟨1000 * (t.val / 5) + p.val, by omega⟩ rfl 4 (by omega)
    (by show 5 * (t.val / 5) + 4 < cfg2.N; rw [← ht]; exact t.isLt)
  have hl := congrArg (fun S : EReal × EReal × EReal => S.2.1) hst
  have ha := congrArg (fun S : EReal × EReal × EReal => S.2.2) hst
  dsimp only at hl ha
  simp only [← ht] at hl ha
  refine (outFin2_apply _ _ _ p q).trans ?_
  rw [hl, ha, qblk_apply2 V c t p q ⟨1000 * (t.val / 5) + p.val, by omega⟩ rfl, hx]
  exact AttnRow.row_final x y hxr hyr _ q

theorem mem_block2_2 (t : Fin cfg2.N) (i : S10000x128.Idx) :
    i ∈ ((cfg2.win 2).blk t).view.set ↔ ∀ b : Fin 2, win2_2.index t b * S1000x128.size b ≤ (i b).val ∧ (i b).val < win2_2.index t b * S1000x128.size b + S1000x128.size b := by
  show i ∈ ((View.whole (Pipeline.arrRef spec2 2)).slice (win2_2.rect t)).set ↔ _
  rw [View.set_slice_whole, Rect.mem_set_unit]
  exact Iff.rfl

theorem cover2_2_rows (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  have hlt : 5 * ((i 0).val / 1000) + 4 < 50 := by omega
  refine ⟨(⟨5 * ((i 0).val / 1000) + 4, hlt⟩ : Fin cfg2.N), (flush2_2 _).mpr (by show (5 * ((i 0).val / 1000) + 4) % 5 = 4; omega), ?_⟩
  rw [mem_block2_2]
  obtain ⟨-, -, -, -, i0, i1⟩ := block_index2 (⟨5 * ((i 0).val / 1000) + 4, hlt⟩ : Fin cfg2.N)
  intro b
  match b with
  | ⟨0, _⟩ =>
    show win2_2.index _ (0 : Fin 2) * 1000 ≤ (i 0).val ∧ (i 0).val < win2_2.index _ (0 : Fin 2) * 1000 + 1000
    rw [i0]; show (5 * ((i 0).val / 1000) + 4) / 5 * 1000 ≤ (i 0).val ∧ (i 0).val < (5 * ((i 0).val / 1000) + 4) / 5 * 1000 + 1000; omega
  | ⟨1, _⟩ =>
    show win2_2.index _ (1 : Fin 2) * 128 ≤ (i 1).val ∧ (i 1).val < win2_2.index _ (1 : Fin 2) * 128 + 128
    rw [i1]; omega

theorem attn_final2 (c : Dev nD) (x y : Spec.Arr 10000 128) (hx : (V c (Pipeline.arrRef spec2 0) : Spec.Arr 10000 128) = x)
    (hy : (V c (Pipeline.arrRef spec2 1) : Spec.Arr 10000 128) = y) (hxr : Spec.IsReal x) (hyr : Spec.IsReal y) :
    (dat2 (F := Ideal) V c).arrAt 2 cfg2.N = Spec.attnUpd x y :=
  (dat2 (F := Ideal) V c).arrAt_eq_of_cover 2 (Spec.attnUpd x y) (fun t hf => flushed2_2_eq V c x y hx hy hxr hyr t hf) cover2_2_rows

end Cert.KernelIdeal.Val

end
-- ==== Proof.Val.AttnPay3.lean ====
/- The arithmetic of one grid point of the cross-attention region 3, read entry by entry over the extended reals.

   One point sees a block of 1000 query rows (blk, 1000 × 128), a chunk of 2000 key rows (full, 2000 × 128) and the
   three running quantities of the streaming softmax, one per query row: the running maximum m, the running
   normaliser l, and the running weighted sum acc (one per feature). Write s r = ∑ d, blk p d * full r d for the score
   of query row p against key row r of the chunk. The point replaces

     m   by  M = max m (max over r of s r),
     l   by  exp (m - M) * l + ∑ r, exp (s r - M),
     acc by  exp (m - M) * acc + ∑ r, exp (s r - M) * full r q        (at feature q),

   and at the last chunk of a query tile the output is blk - acc / l. A reset puts m = -∞, l = 0, acc = 0.
   Over the extended reals every format change is the identity, a product of matrices read at an entry is the sum over
   the contracted coordinate, a row reduction is the sum (or the fold of max from -∞) over the row, and a column
   [1000, 1] spread over a row reads its one entry. Each lemma below reads one stored value at an entry in these terms. -/
import proofs.«407386_j15839839387945_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.ValueIdx

/-! ## Two layout readings: a vector as a column, a column spread over rows -/

section Layout
variable {α : Type}

/-- A vector of length a viewed as an a × 1 column reads, at (i, u), the vector at i. -/
theorem shapeCast_a_a1_apply3 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An a × 1 column spread to a × b reads, at (i, c), the column at (i, 0). -/
theorem broadcastTo_a1_ab_apply3 {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else c.val
    rw [if_pos rfl]

end Layout

/-! ## Index bookkeeping of the two products and of the row reductions -/

/-- Scores: the left operand of the product blk · fullᵀ at entry (p, r) and contracted coordinate d is blk's (p, d). -/
theorem lhsIdx_qk3 (p : Fin 1000) (r : Fin 2000) (d : Fin 128) :
    dot_S1000x128_S2000x128_S1000x2000_1_1_0_0_n_n.lhsIdx (ix2 p r)
      ((contrEquiv1 dot_S1000x128_S2000x128_S1000x2000_1_1_0_0_n_n 128 rfl rfl).symm d) = ix2 p d := by
  have c := contrEquiv1_symm_val dot_S1000x128_S2000x128_S1000x2000_1_1_0_0_n_n 128 rfl rfl d
  funext ax; apply Fin.ext
  match ax with
  | ⟨0, _⟩ => simp [DotDims.lhsIdx, dot_S1000x128_S2000x128_S1000x2000_1_1_0_0_n_n]; rfl
  | ⟨1, _⟩ => simp [DotDims.lhsIdx, dot_S1000x128_S2000x128_S1000x2000_1_1_0_0_n_n]; exact c

/-- … and the right operand is full's (r, d): both operands are contracted along their feature axis. -/
theorem rhsIdx_qk3 (p : Fin 1000) (r : Fin 2000) (d : Fin 128) :
    dot_S1000x128_S2000x128_S1000x2000_1_1_0_0_n_n.rhsIdx (ix2 p r)
      ((contrEquiv1 dot_S1000x128_S2000x128_S1000x2000_1_1_0_0_n_n 128 rfl rfl).symm d) = ix2 r d := by
  have c := contrEquiv1_symm_val dot_S1000x128_S2000x128_S1000x2000_1_1_0_0_n_n 128 rfl rfl d
  funext ax; apply Fin.ext
  match ax with
  | ⟨0, _⟩ => simp [DotDims.rhsIdx, dot_S1000x128_S2000x128_S1000x2000_1_1_0_0_n_n]; rfl
  | ⟨1, _⟩ => simp [DotDims.rhsIdx, dot_S1000x128_S2000x128_S1000x2000_1_1_0_0_n_n]; exact c

/-- Weighted sum: the left operand of the product weights · full at entry (p, q) and contracted coordinate r is the
    weights' (p, r) … -/
theorem lhsIdx_pv3 (p : Fin 1000) (q : Fin 128) (r : Fin 2000) :
    dot_S1000x2000_S2000x128_S1000x128_1_0_0_1_n_n.lhsIdx (ix2 p q)
      ((contrEquiv1 dot_S1000x2000_S2000x128_S1000x128_1_0_0_1_n_n 2000 rfl rfl).symm r) = ix2 p r := by
  have c := contrEquiv1_symm_val dot_S1000x2000_S2000x128_S1000x128_1_0_0_1_n_n 2000 rfl rfl r
  funext ax; apply Fin.ext
  match ax with
  | ⟨0, _⟩ => simp [DotDims.lhsIdx, dot_S1000x2000_S2000x128_S1000x128_1_0_0_1_n_n]; rfl
  | ⟨1, _⟩ => simp [DotDims.lhsIdx, dot_S1000x2000_S2000x128_S1000x128_1_0_0_1_n_n]; exact c

/-- … and the right operand is full's (r, q). -/
theorem rhsIdx_pv3 (p : Fin 1000) (q : Fin 128) (r : Fin 2000) :
    dot_S1000x2000_S2000x128_S1000x128_1_0_0_1_n_n.rhsIdx (ix2 p q)
      ((contrEquiv1 dot_S1000x2000_S2000x128_S1000x128_1_0_0_1_n_n 2000 rfl rfl).symm r) = ix2 r q := by
  have c := contrEquiv1_symm_val dot_S1000x2000_S2000x128_S1000x128_1_0_0_1_n_n 2000 rfl rfl r
  funext ax; apply Fin.ext
  match ax with
  | ⟨0, _⟩ => simp [DotDims.rhsIdx, dot_S1000x2000_S2000x128_S1000x128_1_0_0_1_n_n]; exact c
  | ⟨1, _⟩ => simp [DotDims.rhsIdx, dot_S1000x2000_S2000x128_S1000x128_1_0_0_1_n_n]; rfl

/-- A reduction of a 1000 × 2000 array along its rows: the entry over row p with column r put back is (p, r). -/
theorem lift_row3 (p : Fin 1000) (r : Fin 2000) :
    Shape.Reduces.lift (s := S1000x2000) (t := S1000) (a := 1) reduces_S1000x2000_S1000 (ix1 p) r = ix2 p r := by
  funext ax; apply Fin.ext
  match ax with
  | ⟨0, _⟩ => rfl
  | ⟨1, _⟩ => rfl

/-- The word of -∞ denotes the bottom of the extended reals. -/
theorem ofBits_neg_inf3 : FloatOps.ofBits (F := Ideal) .f32 0xFF800000#32 = (⊥ : EReal) := by
  show Ideal.ofBits .f32 0xFF800000#32 = ⊥
  simp [Ideal.ofBits, Ideal.ieee]

/-! ## The stored values at an entry -/

variable (blk : FVec Ideal S1000x128 .f32) (full : FVec Ideal S2000x128 .bf16)
variable (m m' l : FVec Ideal S1000x1 .f32) (acc : FVec Ideal S1000x128 .f32)
variable (p : Fin 1000) (q : Fin 128) (r : Fin 2000)

/-- The score of query row p of the block against key row r of the chunk. -/
def sc3 (blk : FVec Ideal S1000x128 .f32) (full : FVec Ideal S2000x128 .bf16) (p : Fin 1000) (r : Fin 2000) : EReal :=
  ∑ d : Fin 128, blk (ix2 p d) * full (ix2 r d)

/-- The score matrix at (p, r) is the score. -/
theorem pay8_apply3 : k3_pay8 (F := Ideal) blk full (ix2 p r) = sc3 blk full p r := by
  unfold k3_pay8 k3_pay7
  refine (Ideal.matmul_constant_zero_apply dot_S1000x128_S2000x128_S1000x2000_1_1_0_0_n_n none _ _ (ix2 p r)).trans ?_
  refine (Equiv.sum_comp (contrEquiv1 dot_S1000x128_S2000x128_S1000x2000_1_1_0_0_n_n 128 rfl rfl).symm _).symm.trans ?_
  unfold sc3
  refine Finset.sum_congr rfl fun d _ => ?_
  rw [lhsIdx_qk3, rhsIdx_qk3, shapeCast_self, shapeCast_self]
  rfl

/-- The new running maximum of row p: the old one against the largest score of the chunk. -/
theorem pay9_apply3 :
    k3_pay9 (F := Ideal) blk full m (ix2 p (0 : Fin 1))
      = max (m (ix2 p (0 : Fin 1))) ((Finset.univ : Finset (Fin 2000)).fold max ⊥ (fun r => sc3 blk full p r)) := by
  unfold k3_pay9
  refine (maximumf_apply _ _ _).trans (congrArg (max (m (ix2 p (0 : Fin 1)))) ?_)
  refine (shapeCast_a_a1_apply3 _ _ p (0 : Fin 1)).trans ?_
  refine (Ideal.multiReduction_maximumf_single _ _ _ _ _ (ix1 p)).trans ?_
  have hf : ((k3_pay8 (F := Ideal) blk full) ∘ Shape.Reduces.lift (s := S1000x2000) (t := S1000) (a := 1) reduces_S1000x2000_S1000 (ix1 p))
      = fun r : Fin 2000 => sc3 blk full p r := by
    refine funext fun (r : Fin 2000) => ?_
    exact (congrArg (k3_pay8 (F := Ideal) blk full) (lift_row3 p r)).trans (pay8_apply3 blk full p r)
  exact congrArg₂ (fun b f => (Finset.univ : Finset (Fin 2000)).fold max b f) ofBits_neg_inf3 hf

/-- The rescaling factor of row p: exp (old maximum - new maximum). -/
theorem pay10_apply3 :
    k3_pay10 (F := Ideal) blk full m m' (ix2 p (0 : Fin 1))
      = Ideal.exp (m' (ix2 p (0 : Fin 1)) - k3_pay9 (F := Ideal) blk full m (ix2 p (0 : Fin 1))) := by
  unfold k3_pay10
  rfl

/-- The unnormalised weight of key r for row p: exp (score - new maximum). -/
theorem pay11_apply3 :
    k3_pay11 (F := Ideal) blk full m (ix2 p r)
      = Ideal.exp (k3_pay8 (F := Ideal) blk full (ix2 p r) - k3_pay9 (F := Ideal) blk full m (ix2 p (0 : Fin 1))) := by
  unfold k3_pay11
  refine (congrArg Ideal.exp ?_ : Ideal.exp _ = Ideal.exp _)
  refine congrArg (k3_pay8 (F := Ideal) blk full (ix2 p r) - ·) ?_
  exact broadcastTo_a1_ab_apply3 _ _ p r

/-- The new running normaliser of row p. -/
theorem pay12_apply3 :
    k3_pay12 (F := Ideal) blk full m m' l (ix2 p (0 : Fin 1))
      = k3_pay10 (F := Ideal) blk full m m' (ix2 p (0 : Fin 1)) * l (ix2 p (0 : Fin 1))
        + ∑ r : Fin 2000, k3_pay11 (F := Ideal) blk full m (ix2 p r) := by
  unfold k3_pay12
  rw [shapeCast_self]
  refine (addf_apply _ _ _).trans ?_
  refine congrArg₂ (· + ·) (mulf_apply _ _ _) ?_
  refine (shapeCast_a_a1_apply3 _ _ p (0 : Fin 1)).trans ?_
  refine (Ideal.multiReduction_add_single _ _ _ _ _ (ix1 p)).trans ?_
  exact Finset.sum_congr rfl fun r _ => congrArg (k3_pay11 (F := Ideal) blk full m) (lift_row3 p r)

/-- The new running weighted sum of row p at feature q. -/
theorem pay13_apply3 :
    k3_pay13 (F := Ideal) blk full m m' acc (ix2 p q)
      = k3_pay10 (F := Ideal) blk full m m' (ix2 p (0 : Fin 1)) * acc (ix2 p q)
        + ∑ r : Fin 2000, k3_pay11 (F := Ideal) blk full m (ix2 p r) * full (ix2 r q) := by
  unfold k3_pay13 k3_pay7
  refine (addf_apply _ _ _).trans ?_
  refine congrArg₂ (· + ·) ?_ ?_
  · refine (mulf_apply _ _ _).trans ?_
    exact congrArg (· * acc (ix2 p q)) (broadcastTo_a1_ab_apply3 _ _ p q)
  · refine (Ideal.matmul_constant_zero_apply dot_S1000x2000_S2000x128_S1000x128_1_0_0_1_n_n none _ _ (ix2 p q)).trans ?_
    refine (Equiv.sum_comp (contrEquiv1 dot_S1000x2000_S2000x128_S1000x128_1_0_0_1_n_n 2000 rfl rfl).symm _).symm.trans ?_
    refine Finset.sum_congr rfl fun r _ => ?_
    rw [lhsIdx_pv3, rhsIdx_pv3, shapeCast_self]
    rfl

/-- The output at the last chunk: the query entry minus weighted sum over normaliser. -/
theorem pay3_apply3 :
    k3_pay3 (F := Ideal) acc l blk (ix2 p q) = blk (ix2 p q) - Ideal.div (acc (ix2 p q)) (l (ix2 p (0 : Fin 1))) := by
  unfold k3_pay3
  rw [shapeCast_self]
  refine (subf_apply _ _ _).trans ?_
  refine congrArg (blk (ix2 p q) - ·) ?_
  refine (divf_apply _ _ _).trans ?_
  exact congrArg (Ideal.div (acc (ix2 p q))) (broadcastTo_a1_ab_apply3 _ _ p q)

/-- Storing the new weighted sum and the new maximum changes no value. -/
theorem pay1_eq3 (v : FVec Ideal S1000x128 .f32) : k3_pay1 (F := Ideal) v = v := by
  unfold k3_pay1; exact shapeCast_self _ _
theorem pay2_eq3 (v : FVec Ideal S1000x1 .f32) : k3_pay2 (F := Ideal) v = v := by
  unfold k3_pay2; exact shapeCast_self _ _

/-- The reset values: -∞ for the maximum, 0 for the normaliser and for the weighted sum. -/
theorem pay4_apply3 (i : S1000x1.Idx) : k3_pay4 (F := Ideal) i = (⊥ : EReal) := by
  unfold k3_pay4
  rw [shapeCast_self]
  exact ofBits_neg_inf3
theorem pay5_apply3 (i : S1000x1.Idx) : k3_pay5 (F := Ideal) i = (0 : EReal) := by
  unfold k3_pay5
  rw [shapeCast_self]
  exact Ideal.ofBits_zero_f32
theorem pay6_apply3 (i : S1000x128.Idx) : k3_pay6 (F := Ideal) i = (0 : EReal) := by
  unfold k3_pay6
  rw [shapeCast_self]
  exact Ideal.ofBits_zero_f32

/-! ## One point's update of row p, in closed form

With s r the score of row p against key r of the chunk and M = max (m p) (max over r of s r): -/

/-- The new normaliser: exp (m - M) * l + ∑ r, exp (s r - M). -/
theorem lNext_apply3 :
    k3_pay12 (F := Ideal) blk full m m l (ix2 p (0 : Fin 1))
      = Ideal.exp (m (ix2 p (0 : Fin 1))
            - max (m (ix2 p (0 : Fin 1))) ((Finset.univ : Finset (Fin 2000)).fold max ⊥ (fun r => sc3 blk full p r)))
          * l (ix2 p (0 : Fin 1))
        + ∑ r : Fin 2000, Ideal.exp (sc3 blk full p r
            - max (m (ix2 p (0 : Fin 1))) ((Finset.univ : Finset (Fin 2000)).fold max ⊥ (fun r => sc3 blk full p r))) := by
  rw [pay12_apply3, pay10_apply3, pay9_apply3]
  refine congrArg (_ + ·) (Finset.sum_congr rfl fun r _ => ?_)
  rw [pay11_apply3, pay8_apply3, pay9_apply3]

/-- The new weighted sum at feature q: exp (m - M) * acc + ∑ r, exp (s r - M) * full r q. -/
theorem aNext_apply3 :
    k3_pay13 (F := Ideal) blk full m m acc (ix2 p q)
      = Ideal.exp (m (ix2 p (0 : Fin 1))
            - max (m (ix2 p (0 : Fin 1))) ((Finset.univ : Finset (Fin 2000)).fold max ⊥ (fun r => sc3 blk full p r)))
          * acc (ix2 p q)
        + ∑ r : Fin 2000, Ideal.exp (sc3 blk full p r
            - max (m (ix2 p (0 : Fin 1))) ((Finset.univ : Finset (Fin 2000)).fold max ⊥ (fun r => sc3 blk full p r)))
          * full (ix2 r q) := by
  rw [pay13_apply3, pay10_apply3, pay9_apply3]
  refine congrArg (_ + ·) (Finset.sum_congr rfl fun r _ => ?_)
  rw [pay11_apply3, pay8_apply3, pay9_apply3]

end Cert.KernelIdeal.Val

end
-- ==== Proof.Val.AttnVal3.lean ====
/- The output array of the cross-attention region 3, as one function of the two arrays the region reads.

   The region walks the grid (10, 5): point t = 5 qi + kv works on query rows 1000 qi … 1000 qi + 999 against key rows
   2000 kv … 2000 kv + 1999, and carries, for each query row of the tile, a running maximum, a running normaliser and (per
   feature) a running weighted sum; the first point of a tile resets them, and only the last point of a tile writes the
   output block, query entry minus weighted sum over normaliser. Read entry by entry over the extended reals, one point is
   the three update rules of the streaming softmax applied to the row's state and to the chunk's scores; so after the
   tile's kv-th point the carried state of row p is the streaming state of row 1000 qi + p after kv + 1 chunks of its
   scores (induction on kv). When every entry of the two arrays is a real number the state after five chunks gives the
   softmax-weighted combination, so the block written back at the tile's last point is the block of the cross-graph
   update x i d - ∑ j, softmax_j (s i ·) * y j d; the ten tiles cover the array. -/
import proofs.«407386_j15839839387945_2_alg».proof.Proof.KI.Attn3
import proofs.«407386_j15839839387945_2_alg».proof.Proof.Val.AttnPay3
import proofs.«407386_j15839839387945_2_alg».proof.Proof.Val.AttnRow
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## The two arrays the region reads, at their literal types -/

/-- The query graph's node features, one row per node. -/
abbrev xarr3 (c : Dev nD) : Spec.Arr 10000 128 := V c (Pipeline.arrRef spec3 0)
/-- The key graph's node features, one row per node. -/
abbrev yarr3 (c : Dev nD) : Spec.Arr 10000 128 := V c (Pipeline.arrRef spec3 1)

/-! ## Where each window's block sits in its array -/

/-- The block index of each window at each of the 50 points (qi, kv) = (t / 5, t % 5): the query block and the output
    block sit at block row qi, the key chunk at block row kv. -/
theorem block_index3 : ∀ t : Fin cfg3.N,
    win3_0.index t (0 : Fin 2) = t.val / 5 ∧ win3_0.index t (1 : Fin 2) = 0
    ∧ win3_1.index t (0 : Fin 2) = t.val % 5 ∧ win3_1.index t (1 : Fin 2) = 0
    ∧ win3_2.index t (0 : Fin 2) = t.val / 5 ∧ win3_2.index t (1 : Fin 2) = 0 :=
  (by decide +kernel : ∀ t : Fin grid3.N, _)

/-- Entry (p, d) of the query block at point t is row 1000 (t / 5) + p of the query array. -/
theorem qblk_apply3 (c : Dev nD) (t : Fin cfg3.N) (p : Fin 1000) (d : Fin 128) (e : Fin 10000)
    (he : e.val = 1000 * (t.val / 5) + p.val) :
    (iblk3 V c 0 t : Vec Ideal S1000x128 .f32) (ix2 p d) = xarr3 V c (ix2 e d) := by
  obtain ⟨i0, i1, -⟩ := block_index3 t
  unfold iblk3
  rw [View.read_apply]
  show V c (Pipeline.arrRef spec3 0) _ = V c (Pipeline.arrRef spec3 0) (ix2 e d)
  congr 1
  funext a
  apply Fin.ext
  match a with
  | ⟨0, _⟩ => show win3_0.index t 0 * 1000 + 1 * p.val = e.val; rw [i0, he]; omega
  | ⟨1, _⟩ => show win3_0.index t 1 * 128 + 1 * d.val = d.val; rw [i1]; omega

/-- Entry (r, d) of the key chunk at point t is row 2000 (t % 5) + r of the key array. -/
theorem kblk_apply3 (c : Dev nD) (t : Fin cfg3.N) (r : Fin 2000) (d : Fin 128) (e : Fin 10000)
    (he : e.val = 2000 * (t.val % 5) + r.val) :
    (iblk3 V c 1 t : Vec Ideal S2000x128 .bf16) (ix2 r d) = yarr3 V c (ix2 e d) := by
  obtain ⟨-, -, i0, i1, -⟩ := block_index3 t
  unfold iblk3
  rw [View.read_apply]
  show V c (Pipeline.arrRef spec3 1) _ = V c (Pipeline.arrRef spec3 1) (ix2 e d)
  congr 1
  funext a
  apply Fin.ext
  match a with
  | ⟨0, _⟩ => show win3_1.index t 0 * 2000 + 1 * r.val = e.val; rw [i0, he]; omega
  | ⟨1, _⟩ => show win3_1.index t 1 * 128 + 1 * d.val = d.val; rw [i1]; omega

/-- Entry (p, q) of the output block at point t sits at row 1000 (t / 5) + p of the output array. -/
theorem oblk_emb3 (t : Fin cfg3.N) (p : Fin 1000) (q : Fin 128) (e : Fin 10000) (he : e.val = 1000 * (t.val / 5) + p.val) :
    ((cfg3.win 2).blk t).view.emb (ix2 p q) = (ix2 e q : S10000x128.Idx) := by
  obtain ⟨-, -, -, -, i0, i1⟩ := block_index3 t
  funext b
  apply Fin.ext
  match b with
  | ⟨0, _⟩ => show win3_2.index t 0 * 1000 + 1 * p.val = e.val; rw [i0, he]; omega
  | ⟨1, _⟩ => show win3_2.index t 1 * 128 + 1 * q.val = q.val; rw [i1]; omega

/-! ## One point's update of one row, entry by entry -/

section Step
variable (blk : FVec Ideal S1000x128 .f32) (full : FVec Ideal S2000x128 .bf16)
variable (mP lP : FVec Ideal S1000x1 .f32) (aP : FVec Ideal S1000x128 .f32) (p : Fin 1000) (q : Fin 128)

/-- The new maximum of row p. -/
theorem mNext3_apply : mNext3 (F := Ideal) blk full mP (ix2 p (0 : Fin 1))
    = LibFlash.mNext (mP (ix2 p (0 : Fin 1))) (fun r : Fin 2000 => sc3 blk full p r) := by
  unfold mNext3
  rw [pay2_eq3]
  exact pay9_apply3 blk full mP p

/-- The new normaliser of row p. -/
theorem lNext3_apply : lNext3 (F := Ideal) blk full mP lP (ix2 p (0 : Fin 1))
    = LibFlash.lNext (mP (ix2 p (0 : Fin 1))) (lP (ix2 p (0 : Fin 1))) (fun r : Fin 2000 => sc3 blk full p r) :=
  lNext_apply3 blk full mP lP p

/-- The new weighted sum of row p at feature q. -/
theorem accNext3_apply : accNext3 (F := Ideal) blk full mP aP (ix2 p q)
    = LibFlash.aNext (mP (ix2 p (0 : Fin 1))) (aP (ix2 p q)) (fun r : Fin 2000 => sc3 blk full p r) (fun r : Fin 2000 => full (ix2 r q)) := by
  unfold accNext3
  rw [pay1_eq3]
  exact aNext_apply3 blk full mP aP p q

/-- The output entry at the last chunk. -/
theorem outFin3_apply : outFin3 (F := Ideal) blk lP aP (ix2 p q)
    = blk (ix2 p q) - Ideal.div (aP (ix2 p q)) (lP (ix2 p (0 : Fin 1))) :=
  pay3_apply3 blk lP aP p q

/-- One point takes the state (m, l, acc) of row p at feature q, whatever it is, to the three update rules applied to it
    and to the chunk's scores and keys. -/
theorem step_entry3 (S : EReal × EReal × EReal)
    (hS : (mP (ix2 p (0 : Fin 1)), lP (ix2 p (0 : Fin 1)), aP (ix2 p q)) = S)
    (s x : Fin 2000 → EReal) (hs : (fun r : Fin 2000 => sc3 blk full p r) = s) (hx : (fun r : Fin 2000 => full (ix2 r q)) = x) :
    (mNext3 (F := Ideal) blk full mP (ix2 p (0 : Fin 1)), lNext3 (F := Ideal) blk full mP lP (ix2 p (0 : Fin 1)),
        accNext3 (F := Ideal) blk full mP aP (ix2 p q))
      = (LibFlash.mNext S.1 s, LibFlash.lNext S.1 S.2.1 s, LibFlash.aNext S.1 S.2.2 s x) := by
  subst hS hs hx
  rw [mNext3_apply, lNext3_apply, accNext3_apply]

end Step

/-- The reset state at any row and feature: (-∞, 0, 0). -/
theorem init_entry3 (p : Fin 1000) (q : Fin 128) :
    ((mInit3 (F := Ideal)) (ix2 p (0 : Fin 1)), (lInit3 (F := Ideal)) (ix2 p (0 : Fin 1)), (accInit3 (F := Ideal)) (ix2 p q))
      = ((⊥ : EReal), (0 : EReal), (0 : EReal)) := by
  unfold mInit3 lInit3 accInit3
  rw [pay4_apply3, pay5_apply3, pay6_apply3]

/-! ## The running state of a row after each point of its query tile -/

section Row
variable (c : Dev nD) (x y : Spec.Arr 10000 128) (hx : xarr3 V c = x) (hy : yarr3 V c = y)
variable (qi : Fin 10) (p : Fin 1000) (q : Fin 128) (i : Fin 10000) (hi : i.val = 1000 * qi.val + p.val)

include hx hy hi in
/-- At point 5 qi + kv the chunk's scores of row p are chunk kv of row i's scores, i = 1000 qi + p. -/
theorem chunk_scores3 (kv : ℕ) (hkv : kv < 5) (hn : 5 * qi.val + kv < cfg3.N) :
    (fun r : Fin 2000 => sc3 (iblk3 V c 0 ⟨5 * qi.val + kv, hn⟩) (iblk3 V c 1 ⟨5 * qi.val + kv, hn⟩) p r)
      = AttnRow.scRow x y i ⟨kv, hkv⟩ := by
  funext r
  have hq : (5 * qi.val + kv) / 5 = qi.val := by omega
  have hk : (5 * qi.val + kv) % 5 = kv := by omega
  unfold sc3 AttnRow.scRow Spec.score
  refine Finset.sum_congr rfl fun d _ => ?_
  exact congrArg₂ (· * ·)
    ((qblk_apply3 V c ⟨5 * qi.val + kv, hn⟩ p d i (by show i.val = 1000 * ((5 * qi.val + kv) / 5) + p.val; rw [hq]; exact hi)).trans
      (congrFun hx _))
    ((kblk_apply3 V c ⟨5 * qi.val + kv, hn⟩ r d (AttnRow.key ⟨kv, hkv⟩ r)
      (by show 2000 * kv + r.val = 2000 * ((5 * qi.val + kv) % 5) + r.val; rw [hk])).trans (congrFun hy _))

include hy in
/-- … and the chunk's keys at feature q are chunk kv of the key array's feature q. -/
theorem chunk_keys3 (kv : ℕ) (hkv : kv < 5) (hn : 5 * qi.val + kv < cfg3.N) :
    (fun r : Fin 2000 => (iblk3 V c 1 ⟨5 * qi.val + kv, hn⟩ : Vec Ideal S2000x128 .bf16) (ix2 r q))
      = AttnRow.xRow y q ⟨kv, hkv⟩ := by
  funext r
  have hk : (5 * qi.val + kv) % 5 = kv := by omega
  exact (kblk_apply3 V c ⟨5 * qi.val + kv, hn⟩ r q (AttnRow.key ⟨kv, hkv⟩ r)
      (by show 2000 * kv + r.val = 2000 * ((5 * qi.val + kv) % 5) + r.val; rw [hk])).trans (congrFun hy _)

include hx hy hi in
/-- THE INVARIANT. After point 5 qi + kv the carried (maximum, normaliser, weighted sum) at row p and feature q is the
    streaming state of row i = 1000 qi + p after its first kv + 1 chunks. By induction on kv: the first point of the
    tile starts from the reset state, every later one from what the point before left. -/
theorem row_state3 : ∀ (kv : ℕ) (hkv : kv < 5) (hn : 5 * qi.val + kv < cfg3.N),
    ((stAt3 V c (5 * qi.val + kv) hn).2.1 (ix2 p (0 : Fin 1)), (stAt3 V c (5 * qi.val + kv) hn).2.2.1 (ix2 p (0 : Fin 1)),
        (stAt3 V c (5 * qi.val + kv) hn).2.2.2 (ix2 p q))
      = LibFlash.stateAfter (AttnRow.scRow x y i) (AttnRow.xRow y q) (kv + 1) (by omega)
  | 0, hkv, hn => by
    have h := stAt3_first V c ⟨5 * qi.val + 0, hn⟩ (by show (5 * qi.val + 0) % 5 = 0; omega)
    dsimp only at h
    rw [h]
    dsimp only
    rw [AttnRow.stateAfter_succ, AttnRow.stateAfter_zero]
    exact step_entry3 _ _ _ _ _ p q _ (init_entry3 p q) _ _
      (chunk_scores3 V c x y hx hy qi p i hi 0 hkv hn) (chunk_keys3 V c y hy qi q 0 hkv hn)
  | kv + 1, hkv, hn => by
    have hprev : 5 * qi.val + kv < cfg3.N := by omega
    have ih := row_state3 kv (by omega) hprev
    have h := stAt3_step V c ⟨5 * qi.val + (kv + 1), hn⟩ (by show (5 * qi.val + (kv + 1)) % 5 ≠ 0; omega)
    dsimp only at h
    rw [h]
    dsimp only
    rw [AttnRow.stateAfter_succ]
    have hsub : 5 * qi.val + (kv + 1) - 1 = 5 * qi.val + kv := by omega
    refine step_entry3 _ _ _ _ _ p q _ ?_ _ _
      (chunk_scores3 V c x y hx hy qi p i hi (kv + 1) hkv hn) (chunk_keys3 V c y hy qi q (kv + 1) hkv hn)
    simp only [hsub]
    exact ih

end Row

/-! ## What the last point of a query tile writes back, and the array after the region -/

/-- What a writing point (the last chunk of its query tile) writes back is its block of the cross-graph update. -/
theorem flushed3_2_eq (c : Dev nD) (x y : Spec.Arr 10000 128) (hx : xarr3 V c = x) (hy : yarr3 V c = y)
    (hxr : Spec.IsReal x) (hyr : Spec.IsReal y) (t : Fin cfg3.N) (hf : (cfg3.win 2).flush t = true) :
    (dat3 (F := Ideal) V c).flushed 2 t = ((cfg3.win 2).blk t).view.read (Elt Ideal) (Spec.attnUpd x y) := by
  have h4 : t.val % 5 = 4 := (flush3_2 t).mp hf
  have hN : t.val < 50 := t.isLt
  show (cfg3.win 2).cut (grid3.coords t) ((dat3 (F := Ideal) V c).after 2 t) = _
  rw [after3_2, stAt3_out V c t h4]
  funext j
  obtain ⟨p, q, rfl⟩ : ∃ (p : Fin 1000) (q : Fin 128), j = ix2 p q := ⟨j 0, j 1, eq_ix2 j⟩
  have hp := p.isLt
  have hqi : t.val / 5 < 10 := by omega
  have ht : t.val = 5 * (t.val / 5) + 4 := by omega
  rw [View.read_apply, oblk_emb3 t p q ⟨1000 * (t.val / 5) + p.val, by omega⟩ rfl]
  -- the row's state after the tile's fifth chunk
  have hst := row_state3 V c x y hx hy ⟨t.val / 5, hqi⟩ p q ⟨1000 * (t.val / 5) + p.val, by omega⟩ rfl 4 (by omega)
    (by show 5 * (t.val / 5) + 4 < cfg3.N; rw [← ht]; exact t.isLt)
  have hl := congrArg (fun S : EReal × EReal × EReal => S.2.1) hst
  have ha := congrArg (fun S : EReal × EReal × EReal => S.2.2) hst
  dsimp only at hl ha
  simp only [← ht] at hl ha
  refine (outFin3_apply _ _ _ p q).trans ?_
  rw [hl, ha, qblk_apply3 V c t p q ⟨1000 * (t.val / 5) + p.val, by omega⟩ rfl, hx]
  exact AttnRow.row_final x y hxr hyr _ q

/-- An index of the output array lies in point t's block iff each coordinate is in the block's range on its axis. -/
theorem mem_block3_2 (t : Fin cfg3.N) (i : S10000x128.Idx) :
    i ∈ ((cfg3.win 2).blk t).view.set ↔ ∀ b : Fin 2, win3_2.index t b * S1000x128.size b ≤ (i b).val ∧ (i b).val < win3_2.index t b * S1000x128.size b + S1000x128.size b := by
  show i ∈ ((View.whole (Pipeline.arrRef spec3 2)).slice (win3_2.rect t)).set ↔ _
  rw [View.set_slice_whole, Rect.mem_set_unit]
  exact Iff.rfl

/-- Row i of the output array is covered by the last point of its query tile, 5 (i / 1000) + 4, which writes back. -/
theorem cover3_2_rows (i : S10000x128.Idx) : ∃ t : Fin cfg3.N, (cfg3.win 2).flush t = true ∧ i ∈ ((cfg3.win 2).blk t).view.set := by
  have hi0 : (i 0).val < 10000 := (i 0).isLt
  have hi1 : (i 1).val < 128 := (i 1).isLt
  have hlt : 5 * ((i 0).val / 1000) + 4 < 50 := by omega
  refine ⟨(⟨5 * ((i 0).val / 1000) + 4, hlt⟩ : Fin cfg3.N), (flush3_2 _).mpr (by show (5 * ((i 0).val / 1000) + 4) % 5 = 4; omega), ?_⟩
  rw [mem_block3_2]
  obtain ⟨-, -, -, -, i0, i1⟩ := block_index3 (⟨5 * ((i 0).val / 1000) + 4, hlt⟩ : Fin cfg3.N)
  intro b
  match b with
  | ⟨0, _⟩ =>
    show win3_2.index _ (0 : Fin 2) * 1000 ≤ (i 0).val ∧ (i 0).val < win3_2.index _ (0 : Fin 2) * 1000 + 1000
    rw [i0]; show (5 * ((i 0).val / 1000) + 4) / 5 * 1000 ≤ (i 0).val ∧ (i 0).val < (5 * ((i 0).val / 1000) + 4) / 5 * 1000 + 1000; omega
  | ⟨1, _⟩ =>
    show win3_2.index _ (1 : Fin 2) * 128 ≤ (i 1).val ∧ (i 1).val < win3_2.index _ (1 : Fin 2) * 128 + 128
    rw [i1]; omega

/-- After the region the output array holds the cross-graph update of the query array against the key array:
    at node i and feature d, x i d minus the softmax-weighted combination of the rows of y. -/
theorem attn_final3 (c : Dev nD) (x y : Spec.Arr 10000 128) (hx : (V c (Pipeline.arrRef spec3 0) : Spec.Arr 10000 128) = x)
    (hy : (V c (Pipeline.arrRef spec3 1) : Spec.Arr 10000 128) = y) (hxr : Spec.IsReal x) (hyr : Spec.IsReal y) :
    (dat3 (F := Ideal) V c).arrAt 2 cfg3.N = Spec.attnUpd x y :=
  (dat3 (F := Ideal) V c).arrAt_eq_of_cover 2 (Spec.attnUpd x y) (fun t hf => flushed3_2_eq V c x y hx hy hxr hyr t hf) cover3_2_rows

end Cert.KernelIdeal.Val

end
-- ==== Proof.Val.RealLib.lean ====
import proofs.«407386_j15839839387945_2_alg».proof.Proof.Spec
import Idealize.ShloMosaic.PureOps.Ideal
import Idealize.ShloMosaic.PureOps.ShapeOps
import Mathlib.Data.EReal.Basic
import Mathlib.Data.EReal.Operations

noncomputable section

namespace Cert.Val.RealLib

open Idealize.ShloMosaic

abbrev Re (x : EReal) : Prop := ∃ r : ℝ, x = (r : EReal)

theorem re_coe (r : ℝ) : Re (r : EReal) := ⟨r, rfl⟩
theorem re_zero : Re 0 := ⟨0, rfl⟩
theorem re_one : Re 1 := ⟨1, rfl⟩

theorem re_add {x y : EReal} (hx : Re x) (hy : Re y) : Re (x + y) := by
  obtain ⟨a, rfl⟩ := hx; obtain ⟨b, rfl⟩ := hy; exact ⟨a + b, (EReal.coe_add a b).symm⟩

theorem re_sub {x y : EReal} (hx : Re x) (hy : Re y) : Re (x - y) := by
  obtain ⟨a, rfl⟩ := hx; obtain ⟨b, rfl⟩ := hy; exact ⟨a - b, (EReal.coe_sub a b).symm⟩

theorem re_mul {x y : EReal} (hx : Re x) (hy : Re y) : Re (x * y) := by
  obtain ⟨a, rfl⟩ := hx; obtain ⟨b, rfl⟩ := hy; exact ⟨a * b, (EReal.coe_mul a b).symm⟩

theorem re_neg {x : EReal} (hx : Re x) : Re (-x) := by
  obtain ⟨a, rfl⟩ := hx; exact ⟨-a, (EReal.coe_neg a).symm⟩

theorem re_logistic (a : EReal) : Re (Ideal.div 1 (1 + Ideal.exp (-a))) := by
  show Re (Ideal.logistic a)
  induction a using EReal.rec with
  | bot => rw [Ideal.logistic_bot]; exact re_zero
  | top => rw [Ideal.logistic_top]; exact re_one
  | coe r => rw [Ideal.logistic_coe]; exact re_coe _

theorem re_tanh (b : EReal) : Re (Ideal.tanh b) := by
  induction b using EReal.rec with
  | bot => exact re_neg re_one
  | top => exact re_one
  | coe r => exact re_coe (Real.tanh r)

theorem re_gru (u v h : EReal) (hh : Re h) :
    Re ((1 - Ideal.div 1 (1 + Ideal.exp (-u))) * Ideal.tanh v + Ideal.div 1 (1 + Ideal.exp (-u)) * h) :=
  re_add (re_mul (re_sub re_one (re_logistic u)) (re_tanh v)) (re_mul (re_logistic u) hh)

theorem isReal_gather {s si t : Shape} {w : Nat} (d : GatherDims s si t) (x : s.Idx → EReal) (idx : IVec si w)
    (hx : Spec.IsReal x) : Spec.IsReal (Host.gather d x idx) :=
  fun j => hx (d.operandIdx j idx)

end Cert.Val.RealLib

end
-- ==== Proof.Val.RealFacts.lean ====
import proofs.«407386_j15839839387945_2_alg».proof.Proof.RefRead
import proofs.«407386_j15839839387945_2_alg».proof.Proof.Spec
import proofs.«407386_j15839839387945_2_alg».proof.Proof.Val.RealLib
import Idealize.ShloMosaic.Lib.IdealHost

noncomputable section

namespace Cert.Val.RealFacts

open Cert.ReferenceIdeal Cert.ReferenceIdeal.Gen Cert.ReferenceIdeal.ReadP Idealize.ShloMosaic

variable (x0 x1 : (⟨S10000x1, .i32⟩ : BufTy).Contents (Elt Ideal)) (x2 x3 : (⟨S2x160000, .i32⟩ : BufTy).Contents (Elt Ideal))
  (x4 x5 : (⟨S160000x1, .i32⟩ : BufTy).Contents (Elt Ideal)) (x6 : (⟨S32000x128, .f32⟩ : BufTy).Contents (Elt Ideal))
  (x7 : (⟨S20x128, .f32⟩ : BufTy).Contents (Elt Ideal)) (x8 : (⟨S384x128, .f32⟩ : BufTy).Contents (Elt Ideal))
  (x9 : (⟨S128, .f32⟩ : BufTy).Contents (Elt Ideal)) (x10 : (⟨S256x384, .f32⟩ : BufTy).Contents (Elt Ideal))
  (x11 : (⟨S384, .f32⟩ : BufTy).Contents (Elt Ideal)) (x12 : (⟨S128x384, .f32⟩ : BufTy).Contents (Elt Ideal))
  (x13 : (⟨S384, .f32⟩ : BufTy).Contents (Elt Ideal))

theorem real_v7 (h6 : Spec.IsReal x6) : Spec.IsReal (val_main_v7 (F := Ideal) x0 x6) := by
  unfold val_main_v7
  exact RealLib.isReal_gather _ _ _ h6

theorem real_v15 (h6 : Spec.IsReal x6) : Spec.IsReal (val_main_v15 (F := Ideal) x1 x6) := by
  unfold val_main_v15
  exact RealLib.isReal_gather _ _ _ h6

theorem real_v151_of (h7 : Spec.IsReal (val_main_v7 (F := Ideal) x0 x6)) :
    Spec.IsReal (val_main_v151 (F := Ideal) x0 x1 x2 x4 x6 x7 x8 x9 x10 x11 x12 x13) := by
  intro i
  rw [val_main_v151_apply, val_main_v149_apply, val_main_v150_apply, val_main_v148_apply, val_main_v146_apply,
    val_main_v143_apply, val_main_v147_apply, val_main_cst_26_apply, val_main_v142_apply, val_main_cst_25_apply,
    val_main_v141_apply, val_main_v140_apply, val_main_cst_24_apply, val_main_v139_apply, val_main_v138_apply]
  simp only [Ideal.addf_def, Ideal.subf_def, Ideal.mulf_def, Ideal.hostDivf_def, Ideal.hostUnary_tanh_def,
    Ideal.hostUnary_exp_def, Ideal.hostNegf_def, Ideal.negf_def, Ideal.ofBits_def, Ideal.ofBits_one_f32]
  exact RealLib.re_gru _ _ _ (h7 i)

theorem real_v188_of (h15 : Spec.IsReal (val_main_v15 (F := Ideal) x1 x6)) :
    Spec.IsReal (val_main_v188 (F := Ideal) x0 x1 x3 x5 x6 x7 x8 x9 x10 x11 x12 x13) := by
  intro i
  rw [val_main_v188_apply, val_main_v186_apply, val_main_v187_apply, val_main_v185_apply, val_main_v183_apply,
    val_main_v180_apply, val_main_v184_apply, val_main_cst_31_apply, val_main_v179_apply, val_main_cst_30_apply,
    val_main_v178_apply, val_main_v177_apply, val_main_cst_29_apply, val_main_v176_apply, val_main_v175_apply]
  simp only [Ideal.addf_def, Ideal.subf_def, Ideal.mulf_def, Ideal.hostDivf_def, Ideal.hostUnary_tanh_def,
    Ideal.hostUnary_exp_def, Ideal.hostNegf_def, Ideal.negf_def, Ideal.ofBits_def, Ideal.ofBits_one_f32]
  exact RealLib.re_gru _ _ _ (h15 i)

theorem real_v151 (h6 : Spec.IsReal x6) : Spec.IsReal (val_main_v151 (F := Ideal) x0 x1 x2 x4 x6 x7 x8 x9 x10 x11 x12 x13) :=
  real_v151_of x0 x1 x2 x4 x6 x7 x8 x9 x10 x11 x12 x13 (real_v7 x0 x6 h6)

theorem real_v188 (h6 : Spec.IsReal x6) : Spec.IsReal (val_main_v188 (F := Ideal) x0 x1 x3 x5 x6 x7 x8 x9 x10 x11 x12 x13) :=
  real_v188_of x0 x1 x3 x5 x6 x7 x8 x9 x10 x11 x12 x13 (real_v15 x1 x6 h6)

theorem real_v308_of (h151 : Spec.IsReal (val_main_v151 (F := Ideal) x0 x1 x2 x4 x6 x7 x8 x9 x10 x11 x12 x13)) :
    Spec.IsReal (val_main_v308 (F := Ideal) x0 x1 x2 x3 x4 x5 x6 x7 x8 x9 x10 x11 x12 x13) := by
  intro i
  rw [val_main_v308_apply, val_main_v306_apply, val_main_v307_apply, val_main_v305_apply, val_main_v303_apply,
    val_main_v300_apply, val_main_v304_apply, val_main_cst_52_apply, val_main_v299_apply, val_main_cst_51_apply,
    val_main_v298_apply, val_main_v297_apply, val_main_cst_50_apply, val_main_v296_apply, val_main_v295_apply]
  simp only [Ideal.addf_def, Ideal.subf_def, Ideal.mulf_def, Ideal.hostDivf_def, Ideal.hostUnary_tanh_def,
    Ideal.hostUnary_exp_def, Ideal.hostNegf_def, Ideal.negf_def, Ideal.ofBits_def, Ideal.ofBits_one_f32]
  exact RealLib.re_gru _ _ _ (h151 i)

theorem real_v345_of (h188 : Spec.IsReal (val_main_v188 (F := Ideal) x0 x1 x3 x5 x6 x7 x8 x9 x10 x11 x12 x13)) :
    Spec.IsReal (val_main_v345 (F := Ideal) x0 x1 x2 x3 x4 x5 x6 x7 x8 x9 x10 x11 x12 x13) := by
  intro i
  rw [val_main_v345_apply, val_main_v343_apply, val_main_v344_apply, val_main_v342_apply, val_main_v340_apply,
    val_main_v337_apply, val_main_v341_apply, val_main_cst_57_apply, val_main_v336_apply, val_main_cst_56_apply,
    val_main_v335_apply, val_main_v334_apply, val_main_cst_55_apply, val_main_v333_apply, val_main_v332_apply]
  simp only [Ideal.addf_def, Ideal.subf_def, Ideal.mulf_def, Ideal.hostDivf_def, Ideal.hostUnary_tanh_def,
    Ideal.hostUnary_exp_def, Ideal.hostNegf_def, Ideal.negf_def, Ideal.ofBits_def, Ideal.ofBits_one_f32]
  exact RealLib.re_gru _ _ _ (h188 i)

end Cert.Val.RealFacts

end
-- ==== Proof.Val.AttnStep.lean ====
import proofs.«407386_j15839839387945_2_alg».proof.Proof.Val.AttnVal2
import proofs.«407386_j15839839387945_2_alg».proof.Proof.Val.AttnVal3
import proofs.«407386_j15839839387945_2_alg».proof.Proof.Val.RefInst
import proofs.«407386_j15839839387945_2_alg».proof.Proof.Val.RealFacts

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

variable (x0 x1 : (⟨ReferenceIdeal.S10000x1, .i32⟩ : BufTy).Contents (Elt Ideal)) (x6 : (⟨ReferenceIdeal.S32000x128, .f32⟩ : BufTy).Contents (Elt Ideal))

theorem attn_step2 (c : Dev nD)
    (hx : (V c main_v7 : S10000x128.Idx → EReal) = ReferenceIdeal.ReadP.val_main_v7 (F := Ideal) x0 x6)
    (hy : ∀ i : S10000x128.Idx, (V c main_v27 : S10000x128.Idx → EReal) i = ReferenceIdeal.ReadP.val_main_v15 (F := Ideal) x1 x6 i)
    (h6 : Spec.IsReal x6) :
    (dat2 (F := Ideal) V c).arrAt 2 cfg2.N = ReferenceIdeal.ReadP.val_main_v112 (F := Ideal) x0 x1 x6 := by
  rw [RefInst.v112_eq x0 x1 x6]
  exact attn_final2 V c _ _ hx (funext hy) (Cert.Val.RealFacts.real_v7 x0 x6 h6) (Cert.Val.RealFacts.real_v15 x1 x6 h6)

theorem attn_step3 (c : Dev nD)
    (hx : (V c main_v15 : S10000x128.Idx → EReal) = ReferenceIdeal.ReadP.val_main_v15 (F := Ideal) x1 x6)
    (hy : ∀ i : S10000x128.Idx, (V c main_v26 : S10000x128.Idx → EReal) i = ReferenceIdeal.ReadP.val_main_v7 (F := Ideal) x0 x6 i)
    (h6 : Spec.IsReal x6) :
    (dat3 (F := Ideal) V c).arrAt 2 cfg3.N = ReferenceIdeal.ReadP.val_main_v114 (F := Ideal) x0 x1 x6 := by
  rw [RefInst.v114_eq x0 x1 x6]
  exact attn_final3 V c _ _ hx (funext hy) (Cert.Val.RealFacts.real_v15 x1 x6 h6) (Cert.Val.RealFacts.real_v7 x0 x6 h6)

end Cert.KernelIdeal.Val

end
-- ==== Proof.Val.Chain1.lean ====
import proofs.«407386_j15839839387945_2_alg».proof.Proof.KI.RunFold
import proofs.«407386_j15839839387945_2_alg».proof.Proof.KI.RunArgs
import proofs.«407386_j15839839387945_2_alg».proof.Proof.Val.Stage0
import proofs.«407386_j15839839387945_2_alg».proof.Proof.Val.HostL1
import proofs.«407386_j15839839387945_2_alg».proof.Proof.Val.HostL4
import proofs.«407386_j15839839387945_2_alg».proof.Proof.Val.EdgeStep
import proofs.«407386_j15839839387945_2_alg».proof.Proof.Val.AttnStep

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg) (c : Dev nD)

abbrev la0 : (⟨ReferenceIdeal.S10000x1, .i32⟩ : BufTy).Contents (Elt Ideal) := m ((c : Thread nD τ).loc main_arg0)

abbrev la1 : (⟨ReferenceIdeal.S10000x1, .i32⟩ : BufTy).Contents (Elt Ideal) := m ((c : Thread nD τ).loc main_arg1)

abbrev la2 : (⟨ReferenceIdeal.S2x160000, .i32⟩ : BufTy).Contents (Elt Ideal) := m ((c : Thread nD τ).loc main_arg2)

abbrev la3 : (⟨ReferenceIdeal.S2x160000, .i32⟩ : BufTy).Contents (Elt Ideal) := m ((c : Thread nD τ).loc main_arg3)

abbrev la4 : (⟨ReferenceIdeal.S160000x1, .i32⟩ : BufTy).Contents (Elt Ideal) := m ((c : Thread nD τ).loc main_arg4)

abbrev la5 : (⟨ReferenceIdeal.S160000x1, .i32⟩ : BufTy).Contents (Elt Ideal) := m ((c : Thread nD τ).loc main_arg5)

abbrev la6 : (⟨ReferenceIdeal.S32000x128, .f32⟩ : BufTy).Contents (Elt Ideal) := m ((c : Thread nD τ).loc main_arg6)

abbrev la7 : (⟨ReferenceIdeal.S20x128, .f32⟩ : BufTy).Contents (Elt Ideal) := m ((c : Thread nD τ).loc main_arg7)

abbrev la8 : (⟨ReferenceIdeal.S384x128, .f32⟩ : BufTy).Contents (Elt Ideal) := m ((c : Thread nD τ).loc main_arg8)

abbrev la9 : (⟨ReferenceIdeal.S128, .f32⟩ : BufTy).Contents (Elt Ideal) := m ((c : Thread nD τ).loc main_arg9)

abbrev la10 : (⟨ReferenceIdeal.S256x384, .f32⟩ : BufTy).Contents (Elt Ideal) := m ((c : Thread nD τ).loc main_arg10)

abbrev la11 : (⟨ReferenceIdeal.S384, .f32⟩ : BufTy).Contents (Elt Ideal) := m ((c : Thread nD τ).loc main_arg11)

abbrev la12 : (⟨ReferenceIdeal.S128x384, .f32⟩ : BufTy).Contents (Elt Ideal) := m ((c : Thread nD τ).loc main_arg12)

abbrev la13 : (⟨ReferenceIdeal.S384, .f32⟩ : BufTy).Contents (Elt Ideal) := m ((c : Thread nD τ).loc main_arg13)

structure AtW7 : Prop where
  v49 : W7 (F := Ideal) m ρ c (Proc.devRef .tc main_v49) = ReferenceIdeal.ReadP.val_main_v58 (F := Ideal) (la0 m c) (la2 m c) (la4 m c) (la6 m c) (la7 m c) (la8 m c) (la9 m c)
  v71 : W7 (F := Ideal) m ρ c (Proc.devRef .tc main_v71) = ReferenceIdeal.ReadP.val_main_v85 (F := Ideal) (la1 m c) (la3 m c) (la5 m c) (la6 m c) (la7 m c) (la8 m c) (la9 m c)
  v72 : W7 (F := Ideal) m ρ c (Proc.devRef .tc main_v72) = ReferenceIdeal.ReadP.val_main_v112 (F := Ideal) (la0 m c) (la1 m c) (la6 m c)
  v73 : W7 (F := Ideal) m ρ c (Proc.devRef .tc main_v73) = ReferenceIdeal.ReadP.val_main_v114 (F := Ideal) (la0 m c) (la1 m c) (la6 m c)
  v7 : W7 (F := Ideal) m ρ c (Proc.devRef .tc main_v7) = ReferenceIdeal.ReadP.val_main_v7 (F := Ideal) (la0 m c) (la6 m c)
  v15 : W7 (F := Ideal) m ρ c (Proc.devRef .tc main_v15) = ReferenceIdeal.ReadP.val_main_v15 (F := Ideal) (la1 m c) (la6 m c)

variable {m ρ c}

theorem chain_W7 (a4 a5 : Fin 160000 → Fin 20)
    (ha4 : ∀ e : Fin 160000, (la4 m c) (ix2 e (0 : Fin 1)) = BitVec.ofNat 32 (a4 e).val)
    (ha5 : ∀ e : Fin 160000, (la5 m c) (ix2 e (0 : Fin 1)) = BitVec.ofNat 32 (a5 e).val)
    (h6 : Spec.IsReal (la6 m c)) : AtW7 m ρ c := by

  have x1 : (W1 (F := Ideal) m ρ c (Proc.devRef .tc main_v7) : S10000x128.Idx → EReal) = ReferenceIdeal.ReadP.val_main_v7 (F := Ideal) (la0 m c) (la6 m c) :=
    stage0_x1 (W0 m ρ c)
  have x2 : (W1 (F := Ideal) m ρ c (Proc.devRef .tc main_v15) : S10000x128.Idx → EReal) = ReferenceIdeal.ReadP.val_main_v15 (F := Ideal) (la1 m c) (la6 m c) :=
    stage0_x2 (W0 m ρ c)
  have x1n : (W1 (F := Ideal) m ρ c (Proc.devRef .tc main_v26) : S10000x128.Idx → EReal) = ReferenceIdeal.ReadP.val_main_v7 (F := Ideal) (la0 m c) (la6 m c) :=
    stage0_x1n (W0 m ρ c)
  have x2n : (W1 (F := Ideal) m ρ c (Proc.devRef .tc main_v27) : S10000x128.Idx → EReal) = ReferenceIdeal.ReadP.val_main_v15 (F := Ideal) (la1 m c) (la6 m c) :=
    stage0_x2n (W0 m ρ c)
  have col1 : W1 (F := Ideal) m ρ c (Proc.devRef .tc main_v31) = ReferenceIdeal.ReadP.val_main_v35 (F := Ideal) (la2 m c) :=
    stage0_v31 (W0 m ρ c)

  have arg4 : attr0 (V1 m ρ) c = (la4 m c) := carry m ρ c main_arg4 0 1 (by decide)
  have v46 : W2 (F := Ideal) m ρ c (Proc.devRef .tc main_v46) = ReferenceIdeal.ReadP.val_main_v55 (F := Ideal) (la0 m c) (la2 m c) (la4 m c) (la6 m c) (la7 m c) (la8 m c) (la9 m c) :=
    (W2_arr m ρ c 6).trans (edge_step0 (V1 m ρ) c a4 (la0 m c) (la2 m c) (la4 m c) (la6 m c) (la7 m c) (la8 m c) (la9 m c) (stage0_xdst (W0 m ρ c)) (stage0_xsrc (W0 m ρ c))
      (fun e => (congrFun arg4 (ix2 e 0)).trans (ha4 e)) arg4
      (host0_v17_apply (W0 m ρ c)) (host0_v19_apply (W0 m ρ c)) (host0_v25_apply (W0 m ρ c)))

  have col1' : W2 (F := Ideal) m ρ c (Proc.devRef .tc main_v31) = ReferenceIdeal.ReadP.val_main_v35 (F := Ideal) (la2 m c) := (carry m ρ c main_v31 1 2 (by decide)).trans col1
  have x2n' : (W2 (F := Ideal) m ρ c (Proc.devRef .tc main_v27) : S10000x128.Idx → EReal) = ReferenceIdeal.ReadP.val_main_v15 (F := Ideal) (la1 m c) (la6 m c) := (carry m ρ c main_v27 1 2 (by decide)).trans x2n
  have arg3 : W2 (F := Ideal) m ρ c (Proc.devRef .tc main_arg3) = (la3 m c) := carry m ρ c main_arg3 0 2 (by decide)
  have v49 : W3 (F := Ideal) m ρ c (Proc.devRef .tc main_v49) = ReferenceIdeal.ReadP.val_main_v58 (F := Ideal) (la0 m c) (la2 m c) (la4 m c) (la6 m c) (la7 m c) (la8 m c) (la9 m c) :=
    host1_v49 (W2 m ρ c) (la0 m c) (la2 m c) (la4 m c) (la6 m c) (la7 m c) (la8 m c) (la9 m c) col1' v46
  have col2 : W3 (F := Ideal) m ρ c (Proc.devRef .tc main_v53) = ReferenceIdeal.ReadP.val_main_v62 (F := Ideal) (la3 m c) := host1_v53 (W2 m ρ c) (la3 m c) arg3
  have v60 : (W3 (F := Ideal) m ρ c (Proc.devRef .tc main_v60) : S160000x128.Idx → EReal) = ReferenceIdeal.ReadP.val_main_v69 (F := Ideal) (la1 m c) (la3 m c) (la6 m c) :=
    host1_v60 (W2 m ρ c) (la1 m c) (la3 m c) (la6 m c) x2n' arg3
  have v67 : (W3 (F := Ideal) m ρ c (Proc.devRef .tc main_v67) : S160000x128.Idx → EReal) = ReferenceIdeal.ReadP.val_main_v76 (F := Ideal) (la1 m c) (la3 m c) (la6 m c) :=
    host1_v67 (W2 m ρ c) (la1 m c) (la3 m c) (la6 m c) x2n' arg3

  have wd3 : ∀ k d : Fin 128, wdst1 (V3 m ρ) c (ix2 k d) = (la8 m c) (ix2 (⟨k.val, by omega⟩ : Fin 384) d) := fun k d => by
    show (W3 (F := Ideal) m ρ c (Proc.devRef .tc main_v17) : S128x128.Idx → EReal) (ix2 k d) = _
    rw [show W3 m ρ c (Proc.devRef .tc main_v17) = W1 m ρ c (Proc.devRef .tc main_v17) from carry m ρ c main_v17 1 3 (by decide)]; exact host0_v17_apply (W0 m ρ c) k d
  have ws3 : ∀ k d : Fin 128, wsrc1 (V3 m ρ) c (ix2 k d) = (la8 m c) (ix2 (⟨128 + k.val, by omega⟩ : Fin 384) d) := fun k d => by
    show (W3 (F := Ideal) m ρ c (Proc.devRef .tc main_v19) : S128x128.Idx → EReal) (ix2 k d) = _
    rw [show W3 m ρ c (Proc.devRef .tc main_v19) = W1 m ρ c (Proc.devRef .tc main_v19) from carry m ρ c main_v19 1 3 (by decide)]; exact host0_v19_apply (W0 m ρ c) k d
  have tt3 : ∀ (j : Fin 20) (d : Fin 128), table1 (V3 m ρ) c (ix2 j d)
      = (∑ k : Fin 128, (la7 m c) (ix2 j k) * (la8 m c) (ix2 (⟨256 + k.val, by omega⟩ : Fin 384) d)) + (la9 m c) (ix1 d) := fun j d => by
    show (W3 (F := Ideal) m ρ c (Proc.devRef .tc main_v25) : S20x128.Idx → EReal) (ix2 j d) = _
    rw [show W3 m ρ c (Proc.devRef .tc main_v25) = W1 m ρ c (Proc.devRef .tc main_v25) from carry m ρ c main_v25 1 3 (by decide)]; exact host0_v25_apply (W0 m ρ c) j d
  have arg5 : attr1 (V3 m ρ) c = (la5 m c) := carry m ρ c main_arg5 0 3 (by decide)
  have v68 : W4 (F := Ideal) m ρ c (Proc.devRef .tc main_v68) = ReferenceIdeal.ReadP.val_main_v82 (F := Ideal) (la1 m c) (la3 m c) (la5 m c) (la6 m c) (la7 m c) (la8 m c) (la9 m c) :=
    (W4_arr m ρ c 6).trans (edge_step1 (V3 m ρ) c a5 (la1 m c) (la3 m c) (la5 m c) (la6 m c) (la7 m c) (la8 m c) (la9 m c) v60 v67
      (fun e => (congrFun arg5 (ix2 e 0)).trans (ha5 e)) arg5 wd3 ws3 tt3)

  have col2' : W4 (F := Ideal) m ρ c (Proc.devRef .tc main_v53) = ReferenceIdeal.ReadP.val_main_v62 (F := Ideal) (la3 m c) := (carry m ρ c main_v53 3 4 (by decide)).trans col2
  have v71 : W5 (F := Ideal) m ρ c (Proc.devRef .tc main_v71) = ReferenceIdeal.ReadP.val_main_v85 (F := Ideal) (la1 m c) (la3 m c) (la5 m c) (la6 m c) (la7 m c) (la8 m c) (la9 m c) :=
    host2_v71 (W4 m ρ c) (la1 m c) (la3 m c) (la5 m c) (la6 m c) (la7 m c) (la8 m c) (la9 m c) col2' v68

  have x1_5 : (W5 (F := Ideal) m ρ c (Proc.devRef .tc main_v7) : S10000x128.Idx → EReal) = ReferenceIdeal.ReadP.val_main_v7 (F := Ideal) (la0 m c) (la6 m c) := (carry m ρ c main_v7 1 5 (by decide)).trans x1
  have x2n_5 : (W5 (F := Ideal) m ρ c (Proc.devRef .tc main_v27) : S10000x128.Idx → EReal) = ReferenceIdeal.ReadP.val_main_v15 (F := Ideal) (la1 m c) (la6 m c) := (carry m ρ c main_v27 1 5 (by decide)).trans x2n
  have v72 : W6 (F := Ideal) m ρ c (Proc.devRef .tc main_v72) = ReferenceIdeal.ReadP.val_main_v112 (F := Ideal) (la0 m c) (la1 m c) (la6 m c) :=
    (W6_arr m ρ c 2).trans (attn_step2 (V5 m ρ) (la0 m c) (la1 m c) (la6 m c) c x1_5 (fun i => congrFun x2n_5 i) h6)

  have x2_6 : (W6 (F := Ideal) m ρ c (Proc.devRef .tc main_v15) : S10000x128.Idx → EReal) = ReferenceIdeal.ReadP.val_main_v15 (F := Ideal) (la1 m c) (la6 m c) := (carry m ρ c main_v15 1 6 (by decide)).trans x2
  have x1n_6 : (W6 (F := Ideal) m ρ c (Proc.devRef .tc main_v26) : S10000x128.Idx → EReal) = ReferenceIdeal.ReadP.val_main_v7 (F := Ideal) (la0 m c) (la6 m c) := (carry m ρ c main_v26 1 6 (by decide)).trans x1n
  have v73 : W7 (F := Ideal) m ρ c (Proc.devRef .tc main_v73) = ReferenceIdeal.ReadP.val_main_v114 (F := Ideal) (la0 m c) (la1 m c) (la6 m c) :=
    (W7_arr m ρ c 2).trans (attn_step3 (V6 m ρ) (la0 m c) (la1 m c) (la6 m c) c x2_6 (fun i => congrFun x1n_6 i) h6)
  exact
    { v49 := (carry m ρ c main_v49 3 7 (by decide)).trans v49
      v71 := (carry m ρ c main_v71 5 7 (by decide)).trans v71
      v72 := (carry m ρ c main_v72 6 7 (by decide)).trans v72
      v73 := v73
      v7 := (carry m ρ c main_v7 1 7 (by decide)).trans x1
      v15 := (carry m ρ c main_v15 1 7 (by decide)).trans x2 }

theorem chain_W8_of (h : AtW7 m ρ c) :
    W8 (F := Ideal) m ρ c (Proc.devRef .tc main_v110) = ReferenceIdeal.ReadP.val_main_v151 (F := Ideal) (la0 m c) (la1 m c) (la2 m c) (la4 m c) (la6 m c) (la7 m c) (la8 m c) (la9 m c) (la10 m c) (la11 m c) (la12 m c) (la13 m c)
    ∧ W8 (F := Ideal) m ρ c (Proc.devRef .tc main_v147) = ReferenceIdeal.ReadP.val_main_v188 (F := Ideal) (la0 m c) (la1 m c) (la3 m c) (la5 m c) (la6 m c) (la7 m c) (la8 m c) (la9 m c) (la10 m c) (la11 m c) (la12 m c) (la13 m c) :=
  ⟨host4_v110 (W7 m ρ c) (la0 m c) (la1 m c) (la2 m c) (la4 m c) (la6 m c) (la7 m c) (la8 m c) (la9 m c) (la10 m c) (la11 m c) (la12 m c) (la13 m c) h.v49 h.v72 h.v7
      (carry m ρ c main_arg10 0 7 (by decide)) (carry m ρ c main_arg11 0 7 (by decide)) (carry m ρ c main_arg12 0 7 (by decide)) (carry m ρ c main_arg13 0 7 (by decide)),
    host4_v147 (W7 m ρ c) (la0 m c) (la1 m c) (la3 m c) (la5 m c) (la6 m c) (la7 m c) (la8 m c) (la9 m c) (la10 m c) (la11 m c) (la12 m c) (la13 m c) h.v71 h.v73 h.v15
      (carry m ρ c main_arg10 0 7 (by decide)) (carry m ρ c main_arg11 0 7 (by decide)) (carry m ρ c main_arg12 0 7 (by decide)) (carry m ρ c main_arg13 0 7 (by decide))⟩

end Cert.KernelIdeal.Val

end
-- ==== Proof.Val.HostL2a.lean ====
import proofs.«407386_j15839839387945_2_alg».proof.Proof.Gen.KernelIdeal.Launch
import proofs.«407386_j15839839387945_2_alg».proof.Proof.RefRead
import Idealize.ShloMosaic.Lib.StableHlo.Run

set_option maxRecDepth 8192

noncomputable section

namespace Cert.KernelIdeal.Val

open Cert.KernelIdeal Cert.KernelIdeal.Gen
open Idealize.ShloMosaic Idealize.ShloMosaic.TcCoe Idealize.SL.Sem Idealize.ShloMosaic.StableHlo

section Structural

variable {F : FTy → Type} [FloatOps F] (W : Valuation τ sig (Elt F))
variable (x0 x1 : (⟨Cert.ReferenceIdeal.S10000x1, .i32⟩ : BufTy).Contents (Elt F)) (x2 x3 : (⟨Cert.ReferenceIdeal.S2x160000, .i32⟩ : BufTy).Contents (Elt F))
  (x4 x5 : (⟨Cert.ReferenceIdeal.S160000x1, .i32⟩ : BufTy).Contents (Elt F)) (x6 : (⟨Cert.ReferenceIdeal.S32000x128, .f32⟩ : BufTy).Contents (Elt F))
  (x7 : (⟨Cert.ReferenceIdeal.S20x128, .f32⟩ : BufTy).Contents (Elt F)) (x8 : (⟨Cert.ReferenceIdeal.S384x128, .f32⟩ : BufTy).Contents (Elt F))
  (x9 : (⟨Cert.ReferenceIdeal.S128, .f32⟩ : BufTy).Contents (Elt F)) (x10 : (⟨Cert.ReferenceIdeal.S256x384, .f32⟩ : BufTy).Contents (Elt F))
  (x11 : (⟨Cert.ReferenceIdeal.S384, .f32⟩ : BufTy).Contents (Elt F)) (x12 : (⟨Cert.ReferenceIdeal.S128x384, .f32⟩ : BufTy).Contents (Elt F))
  (x13 : (⟨Cert.ReferenceIdeal.S384, .f32⟩ : BufTy).Contents (Elt F)) (x14 : (⟨Cert.ReferenceIdeal.S128x1, .f32⟩ : BufTy).Contents (Elt F))
  (x15 : (⟨Cert.ReferenceIdeal.S1, .f32⟩ : BufTy).Contents (Elt F))

set_option maxHeartbeats 1000000 in

theorem host5_v175 (h3 : W (Proc.devRef .tc main_arg3) = x3) :
    StableHlo.after (hostOps5 (F := F)) W (Proc.devRef .tc main_v175) = Cert.ReferenceIdeal.ReadP.val_main_v219 (F := F) x3 := by
  subst h3
  after_results_simp
  try rfl

set_option maxHeartbeats 1000000 in

set_option maxHeartbeats 1000000 in

theorem host5_v171
    (h153 : W (Proc.devRef .tc main_v153) = Cert.ReferenceIdeal.ReadP.val_main_v192 (F := F) x2)
    (h168 : W (Proc.devRef .tc main_v168) = Cert.ReferenceIdeal.ReadP.val_main_v212 (F := F) x0 x1 x2 x4 x6 x7 x8 x9 x10 x11 x12 x13) :
    StableHlo.after (hostOps5 (F := F)) W (Proc.devRef .tc main_v171) = Cert.ReferenceIdeal.ReadP.val_main_v215 (F := F) x0 x1 x2 x4 x6 x7 x8 x9 x10 x11 x12 x13 := by
  have e : StableHlo.after (hostOps5 (F := F)) W (Proc.devRef .tc main_v171)
      = Host.scatterAdd scatter_S10000x128_S160000x1_S160000x128_1_0_0_1
          (broadcastInDim S10000x128 ![] bcast_S_S10000x128 (constant S_ .f32 0x00000000#32))
          (broadcastInDim S160000x1 ![0] bcast_S160000_S160000x1_0 (W (Proc.devRef .tc main_v153)))
          (W (Proc.devRef .tc main_v168)) := by
    after_results_simp
  rw [e, h153, h168]
  unfold Cert.ReferenceIdeal.ReadP.val_main_v215 Cert.ReferenceIdeal.ReadP.val_main_v214 Cert.ReferenceIdeal.ReadP.val_main_v213 Cert.ReferenceIdeal.ReadP.val_main_cst_36
  rfl

set_option maxHeartbeats 1000000 in

theorem host5_v181 (h3 : W (Proc.devRef .tc main_arg3) = x3) :
    StableHlo.after (hostOps5 (F := F)) W (Proc.devRef .tc main_v181) = Cert.ReferenceIdeal.ReadP.val_main_v225 (F := F) x3 := by
  subst h3
  after_results_simp
  unfold Cert.ReferenceIdeal.ReadP.val_main_v225 Cert.ReferenceIdeal.ReadP.val_main_v224 Cert.ReferenceIdeal.ReadP.val_main_v223 Cert.ReferenceIdeal.ReadP.val_main_v222 Cert.ReferenceIdeal.ReadP.val_main_c_38 Cert.ReferenceIdeal.ReadP.val_main_v221
    Cert.ReferenceIdeal.ReadP.val_main_v220 Cert.ReferenceIdeal.ReadP.val_main_c_37 Cert.ReferenceIdeal.ReadP.val_main_v219 Cert.ReferenceIdeal.ReadP.val_main_v218
  rfl

set_option maxHeartbeats 1000000 in

theorem host5_v188 (h3 : W (Proc.devRef .tc main_arg3) = x3) :
    StableHlo.after (hostOps5 (F := F)) W (Proc.devRef .tc main_v188) = Cert.ReferenceIdeal.ReadP.val_main_v232 (F := F) x3 := by
  subst h3
  after_results_simp
  unfold Cert.ReferenceIdeal.ReadP.val_main_v232 Cert.ReferenceIdeal.ReadP.val_main_v231 Cert.ReferenceIdeal.ReadP.val_main_v230 Cert.ReferenceIdeal.ReadP.val_main_v229 Cert.ReferenceIdeal.ReadP.val_main_c_40 Cert.ReferenceIdeal.ReadP.val_main_v228
    Cert.ReferenceIdeal.ReadP.val_main_v227 Cert.ReferenceIdeal.ReadP.val_main_c_39 Cert.ReferenceIdeal.ReadP.val_main_v217 Cert.ReferenceIdeal.ReadP.val_main_v216
  rfl

set_option maxHeartbeats 1000000 in

theorem host5_v182_form : StableHlo.after (hostOps5 (F := F)) W (Proc.devRef .tc main_v182)
    = Host.gather gather_S10000x128_S160000x1_S160000x128_1_0_n_n_0_1_1128 (W (Proc.devRef .tc main_v149))
        (StableHlo.after (hostOps5 (F := F)) W (Proc.devRef .tc main_v181)) := by
  after_results_simp

set_option maxHeartbeats 1000000 in

theorem host5_v189_form : StableHlo.after (hostOps5 (F := F)) W (Proc.devRef .tc main_v189)
    = Host.gather gather_S10000x128_S160000x1_S160000x128_1_0_n_n_0_1_1128 (W (Proc.devRef .tc main_v149))
        (StableHlo.after (hostOps5 (F := F)) W (Proc.devRef .tc main_v188)) := by
  after_results_simp

set_option maxHeartbeats 1000000 in

theorem host6_v193
    (h175 : W (Proc.devRef .tc main_v175) = Cert.ReferenceIdeal.ReadP.val_main_v219 (F := F) x3)
    (h190 : W (Proc.devRef .tc main_v190) = Cert.ReferenceIdeal.ReadP.val_main_v239 (F := F) x0 x1 x3 x5 x6 x7 x8 x9 x10 x11 x12 x13) :
    StableHlo.after (hostOps6 (F := F)) W (Proc.devRef .tc main_v193) = Cert.ReferenceIdeal.ReadP.val_main_v242 (F := F) x0 x1 x3 x5 x6 x7 x8 x9 x10 x11 x12 x13 := by
  have e : StableHlo.after (hostOps6 (F := F)) W (Proc.devRef .tc main_v193)
      = Host.scatterAdd scatter_S10000x128_S160000x1_S160000x128_1_0_0_1
          (broadcastInDim S10000x128 ![] bcast_S_S10000x128 (constant S_ .f32 0x00000000#32))
          (broadcastInDim S160000x1 ![0] bcast_S160000_S160000x1_0 (W (Proc.devRef .tc main_v175)))
          (W (Proc.devRef .tc main_v190)) := by
    after_results_simp
  rw [e, h175, h190]
  unfold Cert.ReferenceIdeal.ReadP.val_main_v242 Cert.ReferenceIdeal.ReadP.val_main_v241 Cert.ReferenceIdeal.ReadP.val_main_v240 Cert.ReferenceIdeal.ReadP.val_main_cst_41
  rfl

end Structural

section Exact

variable (W : Valuation τ sig (Elt Ideal))
variable (x0 x1 : (⟨Cert.ReferenceIdeal.S10000x1, .i32⟩ : BufTy).Contents (Elt Ideal)) (x2 x3 : (⟨Cert.ReferenceIdeal.S2x160000, .i32⟩ : BufTy).Contents (Elt Ideal))
  (x4 x5 : (⟨Cert.ReferenceIdeal.S160000x1, .i32⟩ : BufTy).Contents (Elt Ideal)) (x6 : (⟨Cert.ReferenceIdeal.S32000x128, .f32⟩ : BufTy).Contents (Elt Ideal))
  (x7 : (⟨Cert.ReferenceIdeal.S20x128, .f32⟩ : BufTy).Contents (Elt Ideal)) (x8 : (⟨Cert.ReferenceIdeal.S384x128, .f32⟩ : BufTy).Contents (Elt Ideal))
  (x9 : (⟨Cert.ReferenceIdeal.S128, .f32⟩ : BufTy).Contents (Elt Ideal)) (x10 : (⟨Cert.ReferenceIdeal.S256x384, .f32⟩ : BufTy).Contents (Elt Ideal))
  (x11 : (⟨Cert.ReferenceIdeal.S384, .f32⟩ : BufTy).Contents (Elt Ideal)) (x12 : (⟨Cert.ReferenceIdeal.S128x384, .f32⟩ : BufTy).Contents (Elt Ideal))
  (x13 : (⟨Cert.ReferenceIdeal.S384, .f32⟩ : BufTy).Contents (Elt Ideal))

theorem host5_v182
    (h149 : W (Proc.devRef .tc main_v149) = Cert.ReferenceIdeal.ReadP.val_main_v188 (F := Ideal) x0 x1 x3 x5 x6 x7 x8 x9 x10 x11 x12 x13)
    (h3 : W (Proc.devRef .tc main_arg3) = x3) :
    StableHlo.after (hostOps5 (F := Ideal)) W (Proc.devRef .tc main_v182) = Cert.ReferenceIdeal.ReadP.val_main_v226 (F := Ideal) x0 x1 x3 x5 x6 x7 x8 x9 x10 x11 x12 x13 := by
  rw [host5_v182_form, host5_v181 W x3 h3, h149]
  unfold Cert.ReferenceIdeal.ReadP.val_main_v226
  rfl

theorem host5_v189
    (h149 : W (Proc.devRef .tc main_v149) = Cert.ReferenceIdeal.ReadP.val_main_v188 (F := Ideal) x0 x1 x3 x5 x6 x7 x8 x9 x10 x11 x12 x13)
    (h3 : W (Proc.devRef .tc main_arg3) = x3) :
    StableHlo.after (hostOps5 (F := Ideal)) W (Proc.devRef .tc main_v189) = Cert.ReferenceIdeal.ReadP.val_main_v233 (F := Ideal) x0 x1 x3 x5 x6 x7 x8 x9 x10 x11 x12 x13 := by
  rw [host5_v189_form, host5_v188 W x3 h3, h149]
  unfold Cert.ReferenceIdeal.ReadP.val_main_v233
  rfl

end Exact

end Cert.KernelIdeal.Val

end
-- ==== Proof.Val.HostSplit.lean ====
import Idealize.ShloMosaic.Lib.StableHlo.Run

noncomputable section

namespace Cert.KernelIdeal.Val

open Idealize.ShloMosaic Idealize.ShloMosaic.StableHlo

theorem after_split {τ : Topo} {sig : RefSig} {Val : EltTy → Type} (n : Nat) :
    ∀ (ops : List (HloOp τ sig Val)) (V : Valuation τ sig Val),
      StableHlo.after ops V = StableHlo.after (ops.drop n) (StableHlo.after (ops.take n) V) := by
  induction n with
  | zero => intro ops V; rfl
  | succ n ih =>
    intro ops V
    cases ops with
    | nil => rfl
    | cons op ops => exact ih ops (op.result V)

end Cert.KernelIdeal.Val

end
-- ==== Proof.Val.HostL2b.lean ====
import proofs.«407386_j15839839387945_2_alg».proof.Proof.Gen.KernelIdeal.Launch
import proofs.«407386_j15839839387945_2_alg».proof.Proof.RefRead
import proofs.«407386_j15839839387945_2_alg».proof.Proof.Val.HostSplit
import Idealize.ShloMosaic.Lib.StableHlo.Run

set_option maxRecDepth 8192

noncomputable section

namespace Cert.KernelIdeal.Val

open Cert.KernelIdeal Cert.KernelIdeal.Gen
open Idealize.ShloMosaic Idealize.ShloMosaic.TcCoe Idealize.SL.Sem Idealize.ShloMosaic.StableHlo

section Structural

variable {F : FTy → Type} [FloatOps F] (W : Valuation τ sig (Elt F))
variable (x0 x1 : (⟨Cert.ReferenceIdeal.S10000x1, .i32⟩ : BufTy).Contents (Elt F)) (x2 x3 : (⟨Cert.ReferenceIdeal.S2x160000, .i32⟩ : BufTy).Contents (Elt F))
  (x4 x5 : (⟨Cert.ReferenceIdeal.S160000x1, .i32⟩ : BufTy).Contents (Elt F)) (x6 : (⟨Cert.ReferenceIdeal.S32000x128, .f32⟩ : BufTy).Contents (Elt F))
  (x7 : (⟨Cert.ReferenceIdeal.S20x128, .f32⟩ : BufTy).Contents (Elt F)) (x8 : (⟨Cert.ReferenceIdeal.S384x128, .f32⟩ : BufTy).Contents (Elt F))
  (x9 : (⟨Cert.ReferenceIdeal.S128, .f32⟩ : BufTy).Contents (Elt F)) (x10 : (⟨Cert.ReferenceIdeal.S256x384, .f32⟩ : BufTy).Contents (Elt F))
  (x11 : (⟨Cert.ReferenceIdeal.S384, .f32⟩ : BufTy).Contents (Elt F)) (x12 : (⟨Cert.ReferenceIdeal.S128x384, .f32⟩ : BufTy).Contents (Elt F))
  (x13 : (⟨Cert.ReferenceIdeal.S384, .f32⟩ : BufTy).Contents (Elt F)) (x14 : (⟨Cert.ReferenceIdeal.S128x1, .f32⟩ : BufTy).Contents (Elt F))
  (x15 : (⟨Cert.ReferenceIdeal.S1, .f32⟩ : BufTy).Contents (Elt F))

set_option maxHeartbeats 4000000 in

theorem host8_v232
    (hm : W (Proc.devRef .tc main_v171) = Cert.ReferenceIdeal.ReadP.val_main_v215 (F := F) x0 x1 x2 x4 x6 x7 x8 x9 x10 x11 x12 x13)
    (hc : W (Proc.devRef .tc main_v194) = Cert.ReferenceIdeal.ReadP.val_main_v269 (F := F) x0 x1 x2 x3 x4 x5 x6 x7 x8 x9 x10 x11 x12 x13)
    (hh : W (Proc.devRef .tc main_v110) = Cert.ReferenceIdeal.ReadP.val_main_v151 (F := F) x0 x1 x2 x4 x6 x7 x8 x9 x10 x11 x12 x13)
    (h10 : W (Proc.devRef .tc main_arg10) = x10) (h11 : W (Proc.devRef .tc main_arg11) = x11)
    (h12 : W (Proc.devRef .tc main_arg12) = x12) (h13 : W (Proc.devRef .tc main_arg13) = x13) :
    StableHlo.after (hostOps8 (F := F)) W (Proc.devRef .tc main_v232) = Cert.ReferenceIdeal.ReadP.val_main_v308 (F := F) x0 x1 x2 x3 x4 x5 x6 x7 x8 x9 x10 x11 x12 x13 := by
  subst h10 h11 h12 h13
  after_results_simp
  rw [hm, hc, hh]
  unfold Cert.ReferenceIdeal.ReadP.val_main_v308 Cert.ReferenceIdeal.ReadP.val_main_v307 Cert.ReferenceIdeal.ReadP.val_main_v306 Cert.ReferenceIdeal.ReadP.val_main_v305
    Cert.ReferenceIdeal.ReadP.val_main_v304 Cert.ReferenceIdeal.ReadP.val_main_v303 Cert.ReferenceIdeal.ReadP.val_main_v302 Cert.ReferenceIdeal.ReadP.val_main_v301
    Cert.ReferenceIdeal.ReadP.val_main_v300 Cert.ReferenceIdeal.ReadP.val_main_v299 Cert.ReferenceIdeal.ReadP.val_main_v298 Cert.ReferenceIdeal.ReadP.val_main_v297
    Cert.ReferenceIdeal.ReadP.val_main_v296 Cert.ReferenceIdeal.ReadP.val_main_v295 Cert.ReferenceIdeal.ReadP.val_main_v294 Cert.ReferenceIdeal.ReadP.val_main_v293
    Cert.ReferenceIdeal.ReadP.val_main_v292 Cert.ReferenceIdeal.ReadP.val_main_v291 Cert.ReferenceIdeal.ReadP.val_main_v290 Cert.ReferenceIdeal.ReadP.val_main_v289
    Cert.ReferenceIdeal.ReadP.val_main_v288 Cert.ReferenceIdeal.ReadP.val_main_v287 Cert.ReferenceIdeal.ReadP.val_main_v286 Cert.ReferenceIdeal.ReadP.val_main_v285
    Cert.ReferenceIdeal.ReadP.val_main_v284 Cert.ReferenceIdeal.ReadP.val_main_v283 Cert.ReferenceIdeal.ReadP.val_main_v282 Cert.ReferenceIdeal.ReadP.val_main_v281
    Cert.ReferenceIdeal.ReadP.val_main_v280 Cert.ReferenceIdeal.ReadP.val_main_v279 Cert.ReferenceIdeal.ReadP.val_main_v278 Cert.ReferenceIdeal.ReadP.val_main_v277
    Cert.ReferenceIdeal.ReadP.val_main_v276 Cert.ReferenceIdeal.ReadP.val_main_v275 Cert.ReferenceIdeal.ReadP.val_main_v274 Cert.ReferenceIdeal.ReadP.val_main_v273
    Cert.ReferenceIdeal.ReadP.val_main_v272 Cert.ReferenceIdeal.ReadP.val_main_cst_52 Cert.ReferenceIdeal.ReadP.val_main_cst_51 Cert.ReferenceIdeal.ReadP.val_main_cst_50
    Cert.ReferenceIdeal.ReadP.val_main_cst_49 Cert.ReferenceIdeal.ReadP.val_main_cst_48
  rfl

set_option maxHeartbeats 4000000 in

theorem host8_v269
    (hm : W (Proc.devRef .tc main_v193) = Cert.ReferenceIdeal.ReadP.val_main_v242 (F := F) x0 x1 x3 x5 x6 x7 x8 x9 x10 x11 x12 x13)
    (hc : W (Proc.devRef .tc main_v195) = Cert.ReferenceIdeal.ReadP.val_main_v271 (F := F) x0 x1 x2 x3 x4 x5 x6 x7 x8 x9 x10 x11 x12 x13)
    (hh : W (Proc.devRef .tc main_v147) = Cert.ReferenceIdeal.ReadP.val_main_v188 (F := F) x0 x1 x3 x5 x6 x7 x8 x9 x10 x11 x12 x13)
    (h10 : W (Proc.devRef .tc main_arg10) = x10) (h11 : W (Proc.devRef .tc main_arg11) = x11)
    (h12 : W (Proc.devRef .tc main_arg12) = x12) (h13 : W (Proc.devRef .tc main_arg13) = x13) :
    StableHlo.after (hostOps8 (F := F)) W (Proc.devRef .tc main_v269) = Cert.ReferenceIdeal.ReadP.val_main_v345 (F := F) x0 x1 x2 x3 x4 x5 x6 x7 x8 x9 x10 x11 x12 x13 := by
  subst h10 h11 h12 h13
  rw [after_split 42 (hostOps8 (F := F)) W]
  have km : StableHlo.after (List.take 42 (hostOps8 (F := F))) W (Proc.devRef .tc main_v193) = W (Proc.devRef .tc main_v193) := by
    simp only [hostOps8, List.take_succ_cons, List.take_zero]
    after_results_simp
  have kc : StableHlo.after (List.take 42 (hostOps8 (F := F))) W (Proc.devRef .tc main_v195) = W (Proc.devRef .tc main_v195) := by
    simp only [hostOps8, List.take_succ_cons, List.take_zero]
    after_results_simp
  have kh : StableHlo.after (List.take 42 (hostOps8 (F := F))) W (Proc.devRef .tc main_v147) = W (Proc.devRef .tc main_v147) := by
    simp only [hostOps8, List.take_succ_cons, List.take_zero]
    after_results_simp
  have k10 : StableHlo.after (List.take 42 (hostOps8 (F := F))) W (Proc.devRef .tc main_arg10) = W (Proc.devRef .tc main_arg10) := by
    simp only [hostOps8, List.take_succ_cons, List.take_zero]
    after_results_simp
  have k11 : StableHlo.after (List.take 42 (hostOps8 (F := F))) W (Proc.devRef .tc main_arg11) = W (Proc.devRef .tc main_arg11) := by
    simp only [hostOps8, List.take_succ_cons, List.take_zero]
    after_results_simp
  have k12 : StableHlo.after (List.take 42 (hostOps8 (F := F))) W (Proc.devRef .tc main_arg12) = W (Proc.devRef .tc main_arg12) := by
    simp only [hostOps8, List.take_succ_cons, List.take_zero]
    after_results_simp
  have k13 : StableHlo.after (List.take 42 (hostOps8 (F := F))) W (Proc.devRef .tc main_arg13) = W (Proc.devRef .tc main_arg13) := by
    simp only [hostOps8, List.take_succ_cons, List.take_zero]
    after_results_simp
  generalize StableHlo.after (List.take 42 (hostOps8 (F := F))) W = V at km kc kh k10 k11 k12 k13 ⊢
  simp only [hostOps8, List.drop_succ_cons, List.drop_zero]
  after_results_simp
  rw [km, kc, kh, k10, k11, k12, k13, hm, hc, hh]
  unfold Cert.ReferenceIdeal.ReadP.val_main_v345 Cert.ReferenceIdeal.ReadP.val_main_v344 Cert.ReferenceIdeal.ReadP.val_main_v343 Cert.ReferenceIdeal.ReadP.val_main_v342
    Cert.ReferenceIdeal.ReadP.val_main_v341 Cert.ReferenceIdeal.ReadP.val_main_v340 Cert.ReferenceIdeal.ReadP.val_main_v339 Cert.ReferenceIdeal.ReadP.val_main_v338
    Cert.ReferenceIdeal.ReadP.val_main_v337 Cert.ReferenceIdeal.ReadP.val_main_v336 Cert.ReferenceIdeal.ReadP.val_main_v335 Cert.ReferenceIdeal.ReadP.val_main_v334
    Cert.ReferenceIdeal.ReadP.val_main_v333 Cert.ReferenceIdeal.ReadP.val_main_v332 Cert.ReferenceIdeal.ReadP.val_main_v331 Cert.ReferenceIdeal.ReadP.val_main_v330
    Cert.ReferenceIdeal.ReadP.val_main_v329 Cert.ReferenceIdeal.ReadP.val_main_v328 Cert.ReferenceIdeal.ReadP.val_main_v327 Cert.ReferenceIdeal.ReadP.val_main_v326
    Cert.ReferenceIdeal.ReadP.val_main_v325 Cert.ReferenceIdeal.ReadP.val_main_v324 Cert.ReferenceIdeal.ReadP.val_main_v323 Cert.ReferenceIdeal.ReadP.val_main_v322
    Cert.ReferenceIdeal.ReadP.val_main_v321 Cert.ReferenceIdeal.ReadP.val_main_v320 Cert.ReferenceIdeal.ReadP.val_main_v319 Cert.ReferenceIdeal.ReadP.val_main_v318
    Cert.ReferenceIdeal.ReadP.val_main_v317 Cert.ReferenceIdeal.ReadP.val_main_v316 Cert.ReferenceIdeal.ReadP.val_main_v315 Cert.ReferenceIdeal.ReadP.val_main_v314
    Cert.ReferenceIdeal.ReadP.val_main_v313 Cert.ReferenceIdeal.ReadP.val_main_v312 Cert.ReferenceIdeal.ReadP.val_main_v311 Cert.ReferenceIdeal.ReadP.val_main_v310
    Cert.ReferenceIdeal.ReadP.val_main_v309 Cert.ReferenceIdeal.ReadP.val_main_cst_57 Cert.ReferenceIdeal.ReadP.val_main_cst_56 Cert.ReferenceIdeal.ReadP.val_main_cst_55
    Cert.ReferenceIdeal.ReadP.val_main_cst_54 Cert.ReferenceIdeal.ReadP.val_main_cst_53
  rfl

end Structural

end Cert.KernelIdeal.Val

end
-- ==== Proof.Val.HostL2c.lean ====
import proofs.«407386_j15839839387945_2_alg».proof.Proof.Gen.KernelIdeal.Launch
import proofs.«407386_j15839839387945_2_alg».proof.Proof.RefRead
import proofs.«407386_j15839839387945_2_alg».proof.Proof.Val.HostSplit
import Idealize.ShloMosaic.Lib.StableHlo.Run

set_option maxRecDepth 8192

noncomputable section

namespace Cert.KernelIdeal.Val

open Cert.KernelIdeal Cert.KernelIdeal.Gen
open Idealize.ShloMosaic Idealize.ShloMosaic.TcCoe Idealize.SL.Sem Idealize.ShloMosaic.StableHlo

section Structural

variable {F : FTy → Type} [FloatOps F] (W : Valuation τ sig (Elt F))
variable (x0 x1 : (⟨Cert.ReferenceIdeal.S10000x1, .i32⟩ : BufTy).Contents (Elt F)) (x2 x3 : (⟨Cert.ReferenceIdeal.S2x160000, .i32⟩ : BufTy).Contents (Elt F))
  (x4 x5 : (⟨Cert.ReferenceIdeal.S160000x1, .i32⟩ : BufTy).Contents (Elt F)) (x6 : (⟨Cert.ReferenceIdeal.S32000x128, .f32⟩ : BufTy).Contents (Elt F))
  (x7 : (⟨Cert.ReferenceIdeal.S20x128, .f32⟩ : BufTy).Contents (Elt F)) (x8 : (⟨Cert.ReferenceIdeal.S384x128, .f32⟩ : BufTy).Contents (Elt F))
  (x9 : (⟨Cert.ReferenceIdeal.S128, .f32⟩ : BufTy).Contents (Elt F)) (x10 : (⟨Cert.ReferenceIdeal.S256x384, .f32⟩ : BufTy).Contents (Elt F))
  (x11 : (⟨Cert.ReferenceIdeal.S384, .f32⟩ : BufTy).Contents (Elt F)) (x12 : (⟨Cert.ReferenceIdeal.S128x384, .f32⟩ : BufTy).Contents (Elt F))
  (x13 : (⟨Cert.ReferenceIdeal.S384, .f32⟩ : BufTy).Contents (Elt F)) (x14 : (⟨Cert.ReferenceIdeal.S128x1, .f32⟩ : BufTy).Contents (Elt F))
  (x15 : (⟨Cert.ReferenceIdeal.S1, .f32⟩ : BufTy).Contents (Elt F))

set_option maxHeartbeats 4000000 in

theorem host8_v294
    (hf : StableHlo.after (hostOps8 (F := F)) W (Proc.devRef .tc main_v232) = Cert.ReferenceIdeal.ReadP.val_main_v308 (F := F) x0 x1 x2 x3 x4 x5 x6 x7 x8 x9 x10 x11 x12 x13)
    (h14 : W (Proc.devRef .tc main_arg14) = x14) (h15 : W (Proc.devRef .tc main_arg15) = x15) :
    StableHlo.after (hostOps8 (F := F)) W (Proc.devRef .tc main_v294) = Cert.ReferenceIdeal.ReadP.val_main_v370 (F := F) x0 x1 x2 x3 x4 x5 x6 x7 x8 x9 x10 x11 x12 x13 x14 x15 := by
  subst h14 h15
  rw [after_split 84 (hostOps8 (F := F)) W] at hf ⊢
  have k14 : StableHlo.after (List.take 84 (hostOps8 (F := F))) W (Proc.devRef .tc main_arg14) = W (Proc.devRef .tc main_arg14) := by
    simp only [hostOps8, List.take_succ_cons, List.take_zero]
    after_results_simp
  have k15 : StableHlo.after (List.take 84 (hostOps8 (F := F))) W (Proc.devRef .tc main_arg15) = W (Proc.devRef .tc main_arg15) := by
    simp only [hostOps8, List.take_succ_cons, List.take_zero]
    after_results_simp
  generalize StableHlo.after (List.take 84 (hostOps8 (F := F))) W = V at hf k14 k15 ⊢
  simp only [hostOps8, List.drop_succ_cons, List.drop_zero] at hf ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at hf ⊢
  rw [hf, k14, k15]
  unfold Cert.ReferenceIdeal.ReadP.val_main_v370 Cert.ReferenceIdeal.ReadP.val_main_v369 Cert.ReferenceIdeal.ReadP.val_main_v368 Cert.ReferenceIdeal.ReadP.val_main_v367
    Cert.ReferenceIdeal.ReadP.val_main_v366 Cert.ReferenceIdeal.ReadP.val_main_v365 Cert.ReferenceIdeal.ReadP.val_main_v364 Cert.ReferenceIdeal.ReadP.val_main_v363
    Cert.ReferenceIdeal.ReadP.val_main_v362 Cert.ReferenceIdeal.ReadP.val_main_v361 Cert.ReferenceIdeal.ReadP.val_main_v360 Cert.ReferenceIdeal.ReadP.val_main_v359
    Cert.ReferenceIdeal.ReadP.val_main_v358 Cert.ReferenceIdeal.ReadP.val_main_v357 Cert.ReferenceIdeal.ReadP.val_main_v356 Cert.ReferenceIdeal.ReadP.val_main_v355
    Cert.ReferenceIdeal.ReadP.val_main_v354 Cert.ReferenceIdeal.ReadP.val_main_v353 Cert.ReferenceIdeal.ReadP.val_main_v352 Cert.ReferenceIdeal.ReadP.val_main_v351
    Cert.ReferenceIdeal.ReadP.val_main_v350 Cert.ReferenceIdeal.ReadP.val_main_v349 Cert.ReferenceIdeal.ReadP.val_main_v348 Cert.ReferenceIdeal.ReadP.val_main_v347
    Cert.ReferenceIdeal.ReadP.val_main_v346 Cert.ReferenceIdeal.ReadP.val_main_cst_59 Cert.ReferenceIdeal.ReadP.val_main_cst_58 Cert.ReferenceIdeal.ReadP.val_main_cst_61
    Cert.ReferenceIdeal.ReadP.val_main_cst_60 Cert.ReferenceIdeal.ReadP.val_main_cst_62 Cert.ReferenceIdeal.ReadP.val_main_cst_63
  rfl

end Structural

end Cert.KernelIdeal.Val

end
-- ==== Proof.Val.HostL2d.lean ====
import proofs.«407386_j15839839387945_2_alg».proof.Proof.Gen.KernelIdeal.Launch
import proofs.«407386_j15839839387945_2_alg».proof.Proof.RefRead
import proofs.«407386_j15839839387945_2_alg».proof.Proof.Val.HostSplit
import Idealize.ShloMosaic.Lib.StableHlo.Run

set_option maxRecDepth 8192

noncomputable section

namespace Cert.KernelIdeal.Val

open Cert.KernelIdeal Cert.KernelIdeal.Gen
open Idealize.ShloMosaic Idealize.ShloMosaic.TcCoe Idealize.SL.Sem Idealize.ShloMosaic.StableHlo

section Structural

variable {F : FTy → Type} [FloatOps F] (W : Valuation τ sig (Elt F))
variable (x0 x1 : (⟨Cert.ReferenceIdeal.S10000x1, .i32⟩ : BufTy).Contents (Elt F)) (x2 x3 : (⟨Cert.ReferenceIdeal.S2x160000, .i32⟩ : BufTy).Contents (Elt F))
  (x4 x5 : (⟨Cert.ReferenceIdeal.S160000x1, .i32⟩ : BufTy).Contents (Elt F)) (x6 : (⟨Cert.ReferenceIdeal.S32000x128, .f32⟩ : BufTy).Contents (Elt F))
  (x7 : (⟨Cert.ReferenceIdeal.S20x128, .f32⟩ : BufTy).Contents (Elt F)) (x8 : (⟨Cert.ReferenceIdeal.S384x128, .f32⟩ : BufTy).Contents (Elt F))
  (x9 : (⟨Cert.ReferenceIdeal.S128, .f32⟩ : BufTy).Contents (Elt F)) (x10 : (⟨Cert.ReferenceIdeal.S256x384, .f32⟩ : BufTy).Contents (Elt F))
  (x11 : (⟨Cert.ReferenceIdeal.S384, .f32⟩ : BufTy).Contents (Elt F)) (x12 : (⟨Cert.ReferenceIdeal.S128x384, .f32⟩ : BufTy).Contents (Elt F))
  (x13 : (⟨Cert.ReferenceIdeal.S384, .f32⟩ : BufTy).Contents (Elt F)) (x14 : (⟨Cert.ReferenceIdeal.S128x1, .f32⟩ : BufTy).Contents (Elt F))
  (x15 : (⟨Cert.ReferenceIdeal.S1, .f32⟩ : BufTy).Contents (Elt F))

set_option maxHeartbeats 4000000 in

theorem host8_v319
    (hf : StableHlo.after (hostOps8 (F := F)) W (Proc.devRef .tc main_v269) = Cert.ReferenceIdeal.ReadP.val_main_v345 (F := F) x0 x1 x2 x3 x4 x5 x6 x7 x8 x9 x10 x11 x12 x13)
    (h14 : W (Proc.devRef .tc main_arg14) = x14) (h15 : W (Proc.devRef .tc main_arg15) = x15) :
    StableHlo.after (hostOps8 (F := F)) W (Proc.devRef .tc main_v319) = Cert.ReferenceIdeal.ReadP.val_main_v395 (F := F) x0 x1 x2 x3 x4 x5 x6 x7 x8 x9 x10 x11 x12 x13 x14 x15 := by
  subst h14 h15
  rw [after_split 115 (hostOps8 (F := F)) W] at hf ⊢
  have k14 : StableHlo.after (List.take 115 (hostOps8 (F := F))) W (Proc.devRef .tc main_arg14) = W (Proc.devRef .tc main_arg14) := by
    simp only [hostOps8, List.take_succ_cons, List.take_zero]
    after_results_simp
  have k15 : StableHlo.after (List.take 115 (hostOps8 (F := F))) W (Proc.devRef .tc main_arg15) = W (Proc.devRef .tc main_arg15) := by
    simp only [hostOps8, List.take_succ_cons, List.take_zero]
    after_results_simp
  generalize StableHlo.after (List.take 115 (hostOps8 (F := F))) W = V at hf k14 k15 ⊢
  simp only [hostOps8, List.drop_succ_cons, List.drop_zero] at hf ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at hf ⊢
  rw [hf, k14, k15]
  unfold Cert.ReferenceIdeal.ReadP.val_main_v395 Cert.ReferenceIdeal.ReadP.val_main_v394 Cert.ReferenceIdeal.ReadP.val_main_v393 Cert.ReferenceIdeal.ReadP.val_main_v392
    Cert.ReferenceIdeal.ReadP.val_main_v391 Cert.ReferenceIdeal.ReadP.val_main_v390 Cert.ReferenceIdeal.ReadP.val_main_v389 Cert.ReferenceIdeal.ReadP.val_main_v388
    Cert.ReferenceIdeal.ReadP.val_main_v387 Cert.ReferenceIdeal.ReadP.val_main_v386 Cert.ReferenceIdeal.ReadP.val_main_v385 Cert.ReferenceIdeal.ReadP.val_main_v384
    Cert.ReferenceIdeal.ReadP.val_main_v383 Cert.ReferenceIdeal.ReadP.val_main_v382 Cert.ReferenceIdeal.ReadP.val_main_v381 Cert.ReferenceIdeal.ReadP.val_main_v380
    Cert.ReferenceIdeal.ReadP.val_main_v379 Cert.ReferenceIdeal.ReadP.val_main_v378 Cert.ReferenceIdeal.ReadP.val_main_v377 Cert.ReferenceIdeal.ReadP.val_main_v376
    Cert.ReferenceIdeal.ReadP.val_main_v375 Cert.ReferenceIdeal.ReadP.val_main_v374 Cert.ReferenceIdeal.ReadP.val_main_v373 Cert.ReferenceIdeal.ReadP.val_main_v372
    Cert.ReferenceIdeal.ReadP.val_main_v371 Cert.ReferenceIdeal.ReadP.val_main_cst_65 Cert.ReferenceIdeal.ReadP.val_main_cst_64 Cert.ReferenceIdeal.ReadP.val_main_cst_67
    Cert.ReferenceIdeal.ReadP.val_main_cst_66 Cert.ReferenceIdeal.ReadP.val_main_cst_68 Cert.ReferenceIdeal.ReadP.val_main_cst_69
  rfl

end Structural

end Cert.KernelIdeal.Val

end
-- ==== Proof.Val.EdgeVal4.lean ====
/- The edge-message array after region 4, as one function of the arrays the region reads.

   The region sweeps the 160000 edges in 40 blocks of 4000. At point t the destination features, source features and
   attribute words are rows 4000 t … 4000 t + 3999 of their arrays; the two weight matrices and the table are read whole
   at every point; the output block is rows 4000 t … 4000 t + 3999 of the output array. So what point t writes back is the
   restriction to those rows of one whole-array function,
     (e, d) ↦ max ( (x_dst · W_dst)[e, d] + (x_src · W_src)[e, d] + T[a e, d], 0 ),
   provided every attribute word is the word of some a e < 20. Row r is covered by point r / 4000, so the array ends
   holding that function everywhere. -/
import proofs.«407386_j15839839387945_2_alg».proof.Proof.KI.Edge4
import proofs.«407386_j15839839387945_2_alg».proof.Proof.Val.EdgePay
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## The arrays the region reads, at their literal types -/

/-- Destination features, one row per edge. -/
abbrev xdst4 (c : Dev nD) : S160000x128.Idx → EReal := V c (Pipeline.arrRef spec4 0)
/-- Source features, one row per edge. -/
abbrev xsrc4 (c : Dev nD) : S160000x128.Idx → EReal := V c (Pipeline.arrRef spec4 1)
/-- The attribute word of each edge. -/
abbrev attr4 (c : Dev nD) : S160000x1.Idx → BitVec 32 := V c (Pipeline.arrRef spec4 2)
/-- The weight applied to destination features. -/
abbrev wdst4 (c : Dev nD) : S128x128.Idx → EReal := V c (Pipeline.arrRef spec4 3)
/-- The weight applied to source features. -/
abbrev wsrc4 (c : Dev nD) : S128x128.Idx → EReal := V c (Pipeline.arrRef spec4 4)
/-- The table: one row per attribute value. -/
abbrev table4 (c : Dev nD) : S20x128.Idx → EReal := V c (Pipeline.arrRef spec4 5)

/-- The whole-array function the region computes, given the attribute value of each edge. -/
abbrev edgeArr4 (c : Dev nD) (a : Fin 160000 → Fin 20) : S160000x128.Idx → EReal := fun i =>
  max ((∑ k : Fin 128, xdst4 V c (ix2 (i 0) k) * wdst4 V c (ix2 k (i 1)))
      + (∑ k : Fin 128, xsrc4 V c (ix2 (i 0) k) * wsrc4 V c (ix2 k (i 1)))
      + table4 V c (ix2 (a (i 0)) (i 1))) 0

/-! ## The body's result is the payload of the six input blocks -/

theorem zero_offsets4 : (![0, 0] : Fin 2 → Nat) = fun _ => 0 := funext fun a => by fin_cases a <;> rfl

/-- This region's payload is the edge-message block value: the same term. -/
theorem pay_same4 (v0 v2 : Vec Ideal S4000x128 .bf16) (v4 v6 : Vec Ideal S128x128 .bf16) (v11 : Vec Ideal S4000x1 .i32)
    (v18 : Vec Ideal S20x128 .bf16) : k4_pay1 (F := Ideal) v0 v2 v4 v6 v11 v18 = edgePay v0 v2 v4 v6 v11 v18 := rfl

/-- The single store covers the block from offset zero and each load reads its whole buffer from offset zero. -/
theorem out4_6_eq_pay (x0 x1 : Vec Ideal S4000x128 .bf16) (x2 : Vec Ideal S4000x1 .i32) (x3 x4 : Vec Ideal S128x128 .bf16)
    (x5 : Vec Ideal S20x128 .bf16) : out4_6 (F := Ideal) x0 x1 x2 x3 x4 x5 = edgePay x0 x1 x3 x4 x2 x5 := by
  unfold out4_6
  rw [View.canon_unit_zero zero_offsets4]
  simp only [View.ld_unit_zero (S := S4000x128) zero_offsets4, View.ld_unit_zero (S := S4000x1) zero_offsets4,
    View.ld_unit_zero (S := S128x128) zero_offsets4, View.ld_unit_zero (S := S20x128) zero_offsets4]
  exact pay_same4 _ _ _ _ _ _

/-! ## The six input blocks at a point, at their literal types -/

/-- The destination-feature block at point t: 4000 edges. -/
abbrev dstBlk4 (c : Dev nD) (t : Fin cfg4.N) : Vec Ideal S4000x128 .bf16 := iblk4 V c 0 t
/-- The source-feature block at point t. -/
abbrev srcBlk4 (c : Dev nD) (t : Fin cfg4.N) : Vec Ideal S4000x128 .bf16 := iblk4 V c 1 t
/-- The attribute-word block at point t. -/
abbrev attrBlk4 (c : Dev nD) (t : Fin cfg4.N) : Vec Ideal S4000x1 .i32 := iblk4 V c 2 t
/-- The destination weight as point t reads it. -/
abbrev wdstBlk4 (c : Dev nD) (t : Fin cfg4.N) : Vec Ideal S128x128 .bf16 := iblk4 V c 3 t
/-- The source weight as point t reads it. -/
abbrev wsrcBlk4 (c : Dev nD) (t : Fin cfg4.N) : Vec Ideal S128x128 .bf16 := iblk4 V c 4 t
/-- The table as point t reads it. -/
abbrev tableBlk4 (c : Dev nD) (t : Fin cfg4.N) : Vec Ideal S20x128 .bf16 := iblk4 V c 5 t

/-! ## Where each window's block sits in its array -/

/-- The block index of every window at every point, decided over the 40 points: windows 0, 1, 2 and 6 are at block row t,
    windows 3, 4, 5 stay at block (0, 0). -/
theorem block_index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Entry x of the destination block at point t is row 4000 t + x 0 of the destination array. -/
theorem dst_block_apply4 (c : Dev nD) (t : Fin cfg4.N) (x : S4000x128.Idx) (e : S160000x128.Idx)
    (he0 : (e 0).val = 4000 * t.val + (x 0).val) (he1 : (e 1).val = (x 1).val) :
    dstBlk4 V c t x = xdst4 V c e := by
  obtain ⟨i0, i1, -⟩ := block_index4 t
  unfold dstBlk4 iblk4
  rw [View.read_apply]
  show V c (Pipeline.arrRef spec4 0) _ = V c (Pipeline.arrRef spec4 0) e
  congr 1
  funext a
  apply Fin.ext
  match a with
  | ⟨0, _⟩ => show win4_0.index t 0 * 4000 + 1 * (x 0).val = (e 0).val; rw [i0, he0]; omega
  | ⟨1, _⟩ => show win4_0.index t 1 * 128 + 1 * (x 1).val = (e 1).val; rw [i1, he1]; omega

/-- Entry x of the source block at point t is row 4000 t + x 0 of the source array. -/
theorem src_block_apply4 (c : Dev nD) (t : Fin cfg4.N) (x : S4000x128.Idx) (e : S160000x128.Idx)
    (he0 : (e 0).val = 4000 * t.val + (x 0).val) (he1 : (e 1).val = (x 1).val) :
    srcBlk4 V c t x = xsrc4 V c e := by
  obtain ⟨-, -, i0, i1, -⟩ := block_index4 t
  unfold srcBlk4 iblk4
  rw [View.read_apply]
  show V c (Pipeline.arrRef spec4 1) _ = V c (Pipeline.arrRef spec4 1) e
  congr 1
  funext a
  apply Fin.ext
  match a with
  | ⟨0, _⟩ => show win4_1.index t 0 * 4000 + 1 * (x 0).val = (e 0).val; rw [i0, he0]; omega
  | ⟨1, _⟩ => show win4_1.index t 1 * 128 + 1 * (x 1).val = (e 1).val; rw [i1, he1]; omega

/-- Entry x of the attribute block at point t is row 4000 t + x 0 of the attribute array. -/
theorem attr_block_apply4 (c : Dev nD) (t : Fin cfg4.N) (x : S4000x1.Idx) (e : S160000x1.Idx)
    (he0 : (e 0).val = 4000 * t.val + (x 0).val) (he1 : (e 1).val = (x 1).val) :
    attrBlk4 V c t x = attr4 V c e := by
  obtain ⟨-, -, -, -, i0, i1, -⟩ := block_index4 t
  unfold attrBlk4 iblk4
  rw [View.read_apply]
  show V c (Pipeline.arrRef spec4 2) _ = V c (Pipeline.arrRef spec4 2) e
  congr 1
  funext a
  apply Fin.ext
  match a with
  | ⟨0, _⟩ => show win4_2.index t 0 * 4000 + 1 * (x 0).val = (e 0).val; rw [i0, he0]; omega
  | ⟨1, _⟩ => show win4_2.index t 1 * 1 + 1 * (x 1).val = (e 1).val; rw [i1, he1]; omega

/-- The destination weight's block at every point is the whole matrix. -/
theorem wdst_block_eq4 (c : Dev nD) (t : Fin cfg4.N) : wdstBlk4 V c t = wdst4 V c := by
  obtain ⟨-, -, -, -, -, -, i0, i1, -⟩ := block_index4 t
  funext x
  unfold wdstBlk4 iblk4
  rw [View.read_apply]
  show V c (Pipeline.arrRef spec4 3) _ = V c (Pipeline.arrRef spec4 3) x
  congr 1
  funext a
  apply Fin.ext
  match a with
  | ⟨0, _⟩ => show win4_3.index t 0 * 128 + 1 * (x 0).val = (x 0).val; rw [i0]; omega
  | ⟨1, _⟩ => show win4_3.index t 1 * 128 + 1 * (x 1).val = (x 1).val; rw [i1]; omega

/-- The source weight's block at every point is the whole matrix. -/
theorem wsrc_block_eq4 (c : Dev nD) (t : Fin cfg4.N) : wsrcBlk4 V c t = wsrc4 V c := by
  obtain ⟨-, -, -, -, -, -, -, -, i0, i1, -⟩ := block_index4 t
  funext x
  unfold wsrcBlk4 iblk4
  rw [View.read_apply]
  show V c (Pipeline.arrRef spec4 4) _ = V c (Pipeline.arrRef spec4 4) x
  congr 1
  funext a
  apply Fin.ext
  match a with
  | ⟨0, _⟩ => show win4_4.index t 0 * 128 + 1 * (x 0).val = (x 0).val; rw [i0]; omega
  | ⟨1, _⟩ => show win4_4.index t 1 * 128 + 1 * (x 1).val = (x 1).val; rw [i1]; omega

/-- The table's block at every point is the whole table. -/
theorem table_block_eq4 (c : Dev nD) (t : Fin cfg4.N) : tableBlk4 V c t = table4 V c := by
  obtain ⟨-, -, -, -, -, -, -, -, -, -, i0, i1, -⟩ := block_index4 t
  funext x
  unfold tableBlk4 iblk4
  rw [View.read_apply]
  show V c (Pipeline.arrRef spec4 5) _ = V c (Pipeline.arrRef spec4 5) x
  congr 1
  funext a
  apply Fin.ext
  match a with
  | ⟨0, _⟩ => show win4_5.index t 0 * 20 + 1 * (x 0).val = (x 0).val; rw [i0]; omega
  | ⟨1, _⟩ => show win4_5.index t 1 * 128 + 1 * (x 1).val = (x 1).val; rw [i1]; omega

/-! ## What a point writes back -/

/-- The payload of point t's blocks at block entry (p, q) is the whole-array function at row 4000 t + p, column q. -/
theorem pay_at_point4 (c : Dev nD) (a : Fin 160000 → Fin 20)
    (hattr : ∀ e : Fin 160000, attr4 V c (ix2 e 0) = BitVec.ofNat 32 (a e).val)
    (t : Fin cfg4.N) (p : Fin 4000) (q : Fin 128) (e : Fin 160000) (he : e.val = 4000 * t.val + p.val) :
    edgePay (dstBlk4 V c t) (srcBlk4 V c t) (wdstBlk4 V c t) (wsrcBlk4 V c t) (attrBlk4 V c t) (tableBlk4 V c t) (ix2 p q)
      = edgeArr4 V c a (ix2 e q) := by
  have hw : attrBlk4 V c t (ix2 p 0) = BitVec.ofNat 32 (a e).val :=
    (attr_block_apply4 V c t (ix2 p 0) (ix2 e 0) he rfl).trans (hattr e)
  refine (edgePay_apply_of_attr (dstBlk4 V c t) (srcBlk4 V c t) (wdstBlk4 V c t) (wsrcBlk4 V c t) (attrBlk4 V c t) (tableBlk4 V c t)
    p q (a e) hw).trans ?_
  rw [wdst_block_eq4 V c t, wsrc_block_eq4 V c t, table_block_eq4 V c t]
  have e0 : ∀ k : Fin 128, dstBlk4 V c t (ix2 p k) = xdst4 V c (ix2 e k) :=
    fun k => dst_block_apply4 V c t (ix2 p k) (ix2 e k) he rfl
  have e1 : ∀ k : Fin 128, srcBlk4 V c t (ix2 p k) = xsrc4 V c (ix2 e k) :=
    fun k => src_block_apply4 V c t (ix2 p k) (ix2 e k) he rfl
  have eA : (∑ k : Fin 128, dstBlk4 V c t (ix2 p k) * wdst4 V c (ix2 k q)) = ∑ k : Fin 128, xdst4 V c (ix2 e k) * wdst4 V c (ix2 k q) :=
    Finset.sum_congr rfl fun k _ => by rw [e0 k]
  have eB : (∑ k : Fin 128, srcBlk4 V c t (ix2 p k) * wsrc4 V c (ix2 k q)) = ∑ k : Fin 128, xsrc4 V c (ix2 e k) * wsrc4 V c (ix2 k q) :=
    Finset.sum_congr rfl fun k _ => by rw [e1 k]
  rw [eA, eB]

/-- What point t writes back is block t of the whole-array function. -/
theorem flushed4_6_eq (c : Dev nD) (a : Fin 160000 → Fin 20)
    (hattr : ∀ e : Fin 160000, attr4 V c (ix2 e 0) = BitVec.ofNat 32 (a e).val) (t : Fin cfg4.N) :
    (dat4 (F := Ideal) V c).flushed 6 t = ((cfg4.win 6).blk t).view.read (Elt Ideal) (edgeArr4 V c a) := by
  show (cfg4.win 6).cut (grid4.coords t) ((dat4 (F := Ideal) V c).after 6 t) = _
  rw [after4_6, out4_6_eq_pay]
  obtain ⟨-, -, -, -, -, -, -, -, -, -, -, -, i0, i1⟩ := block_index4 t
  have hN : t.val < 40 := t.isLt
  funext y
  obtain ⟨p, q, rfl⟩ : ∃ (p : Fin 4000) (q : Fin 128), y = ix2 p q := ⟨y 0, y 1, eq_ix2 y⟩
  have hp := p.isLt
  rw [View.read_apply]
  have hidx : ((cfg4.win 6).blk t).view.emb (ix2 p q) = ix2 (⟨4000 * t.val + p.val, by omega⟩ : Fin 160000) q := by
    funext b
    apply Fin.ext
    match b with
    | ⟨0, _⟩ => show win4_6.index t 0 * 4000 + 1 * p.val = 4000 * t.val + p.val; rw [i0]; omega
    | ⟨1, _⟩ => show win4_6.index t 1 * 128 + 1 * q.val = q.val; rw [i1]; omega
  rw [hidx]
  exact pay_at_point4 V c a hattr t p q ⟨4000 * t.val + p.val, by omega⟩ rfl

/-! ## The array after the region -/

/-- An index of the output array lies in point t's block iff each coordinate is in the block's range on its axis. -/
theorem mem_block4_6 (t : Fin cfg4.N) (i : S160000x128.Idx) :
    i ∈ ((cfg4.win 6).blk t).view.set ↔ ∀ b : Fin 2, win4_6.index t b * S4000x128.size b ≤ (i b).val ∧ (i b).val < win4_6.index t b * S4000x128.size b + S4000x128.size b := by
  show i ∈ ((View.whole (Pipeline.arrRef spec4 6)).slice (win4_6.rect t)).set ↔ _
  rw [View.set_slice_whole, Rect.mem_set_unit]
  exact Iff.rfl

/-- Row r of the output array is covered by point r / 4000. -/
theorem cover4_6_rows (i : S160000x128.Idx) : ∃ t : Fin cfg4.N, (cfg4.win 6).flush t = true ∧ i ∈ ((cfg4.win 6).blk t).view.set := by
  have hi0 : (i 0).val < 160000 := (i 0).isLt
  have hi1 : (i 1).val < 128 := (i 1).isLt
  refine ⟨(⟨(i 0).val / 4000, by show (i 0).val / 4000 < 40; omega⟩ : Fin cfg4.N), flush4_6 _, ?_⟩
  rw [mem_block4_6]
  obtain ⟨-, -, -, -, -, -, -, -, -, -, -, -, i0, i1⟩ := block_index4 (⟨(i 0).val / 4000, by show (i 0).val / 4000 < 40; omega⟩ : Fin cfg4.N)
  intro b
  match b with
  | ⟨0, _⟩ =>
    show win4_6.index _ (0 : Fin 2) * 4000 ≤ (i 0).val ∧ (i 0).val < win4_6.index _ (0 : Fin 2) * 4000 + 4000
    rw [i0]; show (i 0).val / 4000 * 4000 ≤ (i 0).val ∧ (i 0).val < (i 0).val / 4000 * 4000 + 4000; omega
  | ⟨1, _⟩ =>
    show win4_6.index _ (1 : Fin 2) * 128 ≤ (i 1).val ∧ (i 1).val < win4_6.index _ (1 : Fin 2) * 128 + 128
    rw [i1]; omega

/-- After the region the output array is the whole-array function: at edge e and feature d,
    max ((x_dst · W_dst)[e, d] + (x_src · W_src)[e, d] + T[a e, d], 0). -/
theorem edge_final4 (c : Dev nD) (a : Fin 160000 → Fin 20)
    (hattr : ∀ e : Fin 160000, attr4 V c (ix2 e 0) = BitVec.ofNat 32 (a e).val) :
    (dat4 (F := Ideal) V c).arrAt 6 cfg4.N = edgeArr4 V c a :=
  (dat4 (F := Ideal) V c).arrAt_eq_of_cover 6 (edgeArr4 V c a) (fun t _ => flushed4_6_eq V c a hattr t) cover4_6_rows

end Cert.KernelIdeal.Val

end
-- ==== Proof.Val.EdgeVal5.lean ====
/- The edge-message array after region 5, as one function of the arrays the region reads.

   The region sweeps the 160000 edges in 40 blocks of 4000. At point t the destination features, source features and
   attribute words are rows 4000 t … 4000 t + 3999 of their arrays; the two weight matrices and the table are read whole
   at every point; the output block is rows 4000 t … 4000 t + 3999 of the output array. So what point t writes back is the
   restriction to those rows of one whole-array function,
     (e, d) ↦ max ( (x_dst · W_dst)[e, d] + (x_src · W_src)[e, d] + T[a e, d], 0 ),
   provided every attribute word is the word of some a e < 20. Row r is covered by point r / 4000, so the array ends
   holding that function everywhere. -/
import proofs.«407386_j15839839387945_2_alg».proof.Proof.KI.Edge5
import proofs.«407386_j15839839387945_2_alg».proof.Proof.Val.EdgePay
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## The arrays the region reads, at their literal types -/

/-- Destination features, one row per edge. -/
abbrev xdst5 (c : Dev nD) : S160000x128.Idx → EReal := V c (Pipeline.arrRef spec5 0)
/-- Source features, one row per edge. -/
abbrev xsrc5 (c : Dev nD) : S160000x128.Idx → EReal := V c (Pipeline.arrRef spec5 1)
/-- The attribute word of each edge. -/
abbrev attr5 (c : Dev nD) : S160000x1.Idx → BitVec 32 := V c (Pipeline.arrRef spec5 2)
/-- The weight applied to destination features. -/
abbrev wdst5 (c : Dev nD) : S128x128.Idx → EReal := V c (Pipeline.arrRef spec5 3)
/-- The weight applied to source features. -/
abbrev wsrc5 (c : Dev nD) : S128x128.Idx → EReal := V c (Pipeline.arrRef spec5 4)
/-- The table: one row per attribute value. -/
abbrev table5 (c : Dev nD) : S20x128.Idx → EReal := V c (Pipeline.arrRef spec5 5)

/-- The whole-array function the region computes, given the attribute value of each edge. -/
abbrev edgeArr5 (c : Dev nD) (a : Fin 160000 → Fin 20) : S160000x128.Idx → EReal := fun i =>
  max ((∑ k : Fin 128, xdst5 V c (ix2 (i 0) k) * wdst5 V c (ix2 k (i 1)))
      + (∑ k : Fin 128, xsrc5 V c (ix2 (i 0) k) * wsrc5 V c (ix2 k (i 1)))
      + table5 V c (ix2 (a (i 0)) (i 1))) 0

/-! ## The body's result is the payload of the six input blocks -/

theorem zero_offsets5 : (![0, 0] : Fin 2 → Nat) = fun _ => 0 := funext fun a => by fin_cases a <;> rfl

/-- This region's payload is the edge-message block value: the same term. -/
theorem pay_same5 (v0 v2 : Vec Ideal S4000x128 .bf16) (v4 v6 : Vec Ideal S128x128 .bf16) (v11 : Vec Ideal S4000x1 .i32)
    (v18 : Vec Ideal S20x128 .bf16) : k5_pay1 (F := Ideal) v0 v2 v4 v6 v11 v18 = edgePay v0 v2 v4 v6 v11 v18 := rfl

/-- The single store covers the block from offset zero and each load reads its whole buffer from offset zero. -/
theorem out5_6_eq_pay (x0 x1 : Vec Ideal S4000x128 .bf16) (x2 : Vec Ideal S4000x1 .i32) (x3 x4 : Vec Ideal S128x128 .bf16)
    (x5 : Vec Ideal S20x128 .bf16) : out5_6 (F := Ideal) x0 x1 x2 x3 x4 x5 = edgePay x0 x1 x3 x4 x2 x5 := by
  unfold out5_6
  rw [View.canon_unit_zero zero_offsets5]
  simp only [View.ld_unit_zero (S := S4000x128) zero_offsets5, View.ld_unit_zero (S := S4000x1) zero_offsets5,
    View.ld_unit_zero (S := S128x128) zero_offsets5, View.ld_unit_zero (S := S20x128) zero_offsets5]
  exact pay_same5 _ _ _ _ _ _

/-! ## The six input blocks at a point, at their literal types -/

/-- The destination-feature block at point t: 4000 edges. -/
abbrev dstBlk5 (c : Dev nD) (t : Fin cfg5.N) : Vec Ideal S4000x128 .bf16 := iblk5 V c 0 t
/-- The source-feature block at point t. -/
abbrev srcBlk5 (c : Dev nD) (t : Fin cfg5.N) : Vec Ideal S4000x128 .bf16 := iblk5 V c 1 t
/-- The attribute-word block at point t. -/
abbrev attrBlk5 (c : Dev nD) (t : Fin cfg5.N) : Vec Ideal S4000x1 .i32 := iblk5 V c 2 t
/-- The destination weight as point t reads it. -/
abbrev wdstBlk5 (c : Dev nD) (t : Fin cfg5.N) : Vec Ideal S128x128 .bf16 := iblk5 V c 3 t
/-- The source weight as point t reads it. -/
abbrev wsrcBlk5 (c : Dev nD) (t : Fin cfg5.N) : Vec Ideal S128x128 .bf16 := iblk5 V c 4 t
/-- The table as point t reads it. -/
abbrev tableBlk5 (c : Dev nD) (t : Fin cfg5.N) : Vec Ideal S20x128 .bf16 := iblk5 V c 5 t

/-! ## Where each window's block sits in its array -/

/-- The block index of every window at every point, decided over the 40 points: windows 0, 1, 2 and 6 are at block row t,
    windows 3, 4, 5 stay at block (0, 0). -/
theorem block_index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Entry x of the destination block at point t is row 4000 t + x 0 of the destination array. -/
theorem dst_block_apply5 (c : Dev nD) (t : Fin cfg5.N) (x : S4000x128.Idx) (e : S160000x128.Idx)
    (he0 : (e 0).val = 4000 * t.val + (x 0).val) (he1 : (e 1).val = (x 1).val) :
    dstBlk5 V c t x = xdst5 V c e := by
  obtain ⟨i0, i1, -⟩ := block_index5 t
  unfold dstBlk5 iblk5
  rw [View.read_apply]
  show V c (Pipeline.arrRef spec5 0) _ = V c (Pipeline.arrRef spec5 0) e
  congr 1
  funext a
  apply Fin.ext
  match a with
  | ⟨0, _⟩ => show win5_0.index t 0 * 4000 + 1 * (x 0).val = (e 0).val; rw [i0, he0]; omega
  | ⟨1, _⟩ => show win5_0.index t 1 * 128 + 1 * (x 1).val = (e 1).val; rw [i1, he1]; omega

/-- Entry x of the source block at point t is row 4000 t + x 0 of the source array. -/
theorem src_block_apply5 (c : Dev nD) (t : Fin cfg5.N) (x : S4000x128.Idx) (e : S160000x128.Idx)
    (he0 : (e 0).val = 4000 * t.val + (x 0).val) (he1 : (e 1).val = (x 1).val) :
    srcBlk5 V c t x = xsrc5 V c e := by
  obtain ⟨-, -, i0, i1, -⟩ := block_index5 t
  unfold srcBlk5 iblk5
  rw [View.read_apply]
  show V c (Pipeline.arrRef spec5 1) _ = V c (Pipeline.arrRef spec5 1) e
  congr 1
  funext a
  apply Fin.ext
  match a with
  | ⟨0, _⟩ => show win5_1.index t 0 * 4000 + 1 * (x 0).val = (e 0).val; rw [i0, he0]; omega
  | ⟨1, _⟩ => show win5_1.index t 1 * 128 + 1 * (x 1).val = (e 1).val; rw [i1, he1]; omega

/-- Entry x of the attribute block at point t is row 4000 t + x 0 of the attribute array. -/
theorem attr_block_apply5 (c : Dev nD) (t : Fin cfg5.N) (x : S4000x1.Idx) (e : S160000x1.Idx)
    (he0 : (e 0).val = 4000 * t.val + (x 0).val) (he1 : (e 1).val = (x 1).val) :
    attrBlk5 V c t x = attr5 V c e := by
  obtain ⟨-, -, -, -, i0, i1, -⟩ := block_index5 t
  unfold attrBlk5 iblk5
  rw [View.read_apply]
  show V c (Pipeline.arrRef spec5 2) _ = V c (Pipeline.arrRef spec5 2) e
  congr 1
  funext a
  apply Fin.ext
  match a with
  | ⟨0, _⟩ => show win5_2.index t 0 * 4000 + 1 * (x 0).val = (e 0).val; rw [i0, he0]; omega
  | ⟨1, _⟩ => show win5_2.index t 1 * 1 + 1 * (x 1).val = (e 1).val; rw [i1, he1]; omega

/-- The destination weight's block at every point is the whole matrix. -/
theorem wdst_block_eq5 (c : Dev nD) (t : Fin cfg5.N) : wdstBlk5 V c t = wdst5 V c := by
  obtain ⟨-, -, -, -, -, -, i0, i1, -⟩ := block_index5 t
  funext x
  unfold wdstBlk5 iblk5
  rw [View.read_apply]
  show V c (Pipeline.arrRef spec5 3) _ = V c (Pipeline.arrRef spec5 3) x
  congr 1
  funext a
  apply Fin.ext
  match a with
  | ⟨0, _⟩ => show win5_3.index t 0 * 128 + 1 * (x 0).val = (x 0).val; rw [i0]; omega
  | ⟨1, _⟩ => show win5_3.index t 1 * 128 + 1 * (x 1).val = (x 1).val; rw [i1]; omega

/-- The source weight's block at every point is the whole matrix. -/
theorem wsrc_block_eq5 (c : Dev nD) (t : Fin cfg5.N) : wsrcBlk5 V c t = wsrc5 V c := by
  obtain ⟨-, -, -, -, -, -, -, -, i0, i1, -⟩ := block_index5 t
  funext x
  unfold wsrcBlk5 iblk5
  rw [View.read_apply]
  show V c (Pipeline.arrRef spec5 4) _ = V c (Pipeline.arrRef spec5 4) x
  congr 1
  funext a
  apply Fin.ext
  match a with
  | ⟨0, _⟩ => show win5_4.index t 0 * 128 + 1 * (x 0).val = (x 0).val; rw [i0]; omega
  | ⟨1, _⟩ => show win5_4.index t 1 * 128 + 1 * (x 1).val = (x 1).val; rw [i1]; omega

/-- The table's block at every point is the whole table. -/
theorem table_block_eq5 (c : Dev nD) (t : Fin cfg5.N) : tableBlk5 V c t = table5 V c := by
  obtain ⟨-, -, -, -, -, -, -, -, -, -, i0, i1, -⟩ := block_index5 t
  funext x
  unfold tableBlk5 iblk5
  rw [View.read_apply]
  show V c (Pipeline.arrRef spec5 5) _ = V c (Pipeline.arrRef spec5 5) x
  congr 1
  funext a
  apply Fin.ext
  match a with
  | ⟨0, _⟩ => show win5_5.index t 0 * 20 + 1 * (x 0).val = (x 0).val; rw [i0]; omega
  | ⟨1, _⟩ => show win5_5.index t 1 * 128 + 1 * (x 1).val = (x 1).val; rw [i1]; omega

/-! ## What a point writes back -/

/-- The payload of point t's blocks at block entry (p, q) is the whole-array function at row 4000 t + p, column q. -/
theorem pay_at_point5 (c : Dev nD) (a : Fin 160000 → Fin 20)
    (hattr : ∀ e : Fin 160000, attr5 V c (ix2 e 0) = BitVec.ofNat 32 (a e).val)
    (t : Fin cfg5.N) (p : Fin 4000) (q : Fin 128) (e : Fin 160000) (he : e.val = 4000 * t.val + p.val) :
    edgePay (dstBlk5 V c t) (srcBlk5 V c t) (wdstBlk5 V c t) (wsrcBlk5 V c t) (attrBlk5 V c t) (tableBlk5 V c t) (ix2 p q)
      = edgeArr5 V c a (ix2 e q) := by
  have hw : attrBlk5 V c t (ix2 p 0) = BitVec.ofNat 32 (a e).val :=
    (attr_block_apply5 V c t (ix2 p 0) (ix2 e 0) he rfl).trans (hattr e)
  refine (edgePay_apply_of_attr (dstBlk5 V c t) (srcBlk5 V c t) (wdstBlk5 V c t) (wsrcBlk5 V c t) (attrBlk5 V c t) (tableBlk5 V c t)
    p q (a e) hw).trans ?_
  rw [wdst_block_eq5 V c t, wsrc_block_eq5 V c t, table_block_eq5 V c t]
  have e0 : ∀ k : Fin 128, dstBlk5 V c t (ix2 p k) = xdst5 V c (ix2 e k) :=
    fun k => dst_block_apply5 V c t (ix2 p k) (ix2 e k) he rfl
  have e1 : ∀ k : Fin 128, srcBlk5 V c t (ix2 p k) = xsrc5 V c (ix2 e k) :=
    fun k => src_block_apply5 V c t (ix2 p k) (ix2 e k) he rfl
  have eA : (∑ k : Fin 128, dstBlk5 V c t (ix2 p k) * wdst5 V c (ix2 k q)) = ∑ k : Fin 128, xdst5 V c (ix2 e k) * wdst5 V c (ix2 k q) :=
    Finset.sum_congr rfl fun k _ => by rw [e0 k]
  have eB : (∑ k : Fin 128, srcBlk5 V c t (ix2 p k) * wsrc5 V c (ix2 k q)) = ∑ k : Fin 128, xsrc5 V c (ix2 e k) * wsrc5 V c (ix2 k q) :=
    Finset.sum_congr rfl fun k _ => by rw [e1 k]
  rw [eA, eB]

/-- What point t writes back is block t of the whole-array function. -/
theorem flushed5_6_eq (c : Dev nD) (a : Fin 160000 → Fin 20)
    (hattr : ∀ e : Fin 160000, attr5 V c (ix2 e 0) = BitVec.ofNat 32 (a e).val) (t : Fin cfg5.N) :
    (dat5 (F := Ideal) V c).flushed 6 t = ((cfg5.win 6).blk t).view.read (Elt Ideal) (edgeArr5 V c a) := by
  show (cfg5.win 6).cut (grid5.coords t) ((dat5 (F := Ideal) V c).after 6 t) = _
  rw [after5_6, out5_6_eq_pay]
  obtain ⟨-, -, -, -, -, -, -, -, -, -, -, -, i0, i1⟩ := block_index5 t
  have hN : t.val < 40 := t.isLt
  funext y
  obtain ⟨p, q, rfl⟩ : ∃ (p : Fin 4000) (q : Fin 128), y = ix2 p q := ⟨y 0, y 1, eq_ix2 y⟩
  have hp := p.isLt
  rw [View.read_apply]
  have hidx : ((cfg5.win 6).blk t).view.emb (ix2 p q) = ix2 (⟨4000 * t.val + p.val, by omega⟩ : Fin 160000) q := by
    funext b
    apply Fin.ext
    match b with
    | ⟨0, _⟩ => show win5_6.index t 0 * 4000 + 1 * p.val = 4000 * t.val + p.val; rw [i0]; omega
    | ⟨1, _⟩ => show win5_6.index t 1 * 128 + 1 * q.val = q.val; rw [i1]; omega
  rw [hidx]
  exact pay_at_point5 V c a hattr t p q ⟨4000 * t.val + p.val, by omega⟩ rfl

/-! ## The array after the region -/

/-- An index of the output array lies in point t's block iff each coordinate is in the block's range on its axis. -/
theorem mem_block5_6 (t : Fin cfg5.N) (i : S160000x128.Idx) :
    i ∈ ((cfg5.win 6).blk t).view.set ↔ ∀ b : Fin 2, win5_6.index t b * S4000x128.size b ≤ (i b).val ∧ (i b).val < win5_6.index t b * S4000x128.size b + S4000x128.size b := by
  show i ∈ ((View.whole (Pipeline.arrRef spec5 6)).slice (win5_6.rect t)).set ↔ _
  rw [View.set_slice_whole, Rect.mem_set_unit]
  exact Iff.rfl

/-- Row r of the output array is covered by point r / 4000. -/
theorem cover5_6_rows (i : S160000x128.Idx) : ∃ t : Fin cfg5.N, (cfg5.win 6).flush t = true ∧ i ∈ ((cfg5.win 6).blk t).view.set := by
  have hi0 : (i 0).val < 160000 := (i 0).isLt
  have hi1 : (i 1).val < 128 := (i 1).isLt
  refine ⟨(⟨(i 0).val / 4000, by show (i 0).val / 4000 < 40; omega⟩ : Fin cfg5.N), flush5_6 _, ?_⟩
  rw [mem_block5_6]
  obtain ⟨-, -, -, -, -, -, -, -, -, -, -, -, i0, i1⟩ := block_index5 (⟨(i 0).val / 4000, by show (i 0).val / 4000 < 40; omega⟩ : Fin cfg5.N)
  intro b
  match b with
  | ⟨0, _⟩ =>
    show win5_6.index _ (0 : Fin 2) * 4000 ≤ (i 0).val ∧ (i 0).val < win5_6.index _ (0 : Fin 2) * 4000 + 4000
    rw [i0]; show (i 0).val / 4000 * 4000 ≤ (i 0).val ∧ (i 0).val < (i 0).val / 4000 * 4000 + 4000; omega
  | ⟨1, _⟩ =>
    show win5_6.index _ (1 : Fin 2) * 128 ≤ (i 1).val ∧ (i 1).val < win5_6.index _ (1 : Fin 2) * 128 + 128
    rw [i1]; omega

/-- After the region the output array is the whole-array function: at edge e and feature d,
    max ((x_dst · W_dst)[e, d] + (x_src · W_src)[e, d] + T[a e, d], 0). -/
theorem edge_final5 (c : Dev nD) (a : Fin 160000 → Fin 20)
    (hattr : ∀ e : Fin 160000, attr5 V c (ix2 e 0) = BitVec.ofNat 32 (a e).val) :
    (dat5 (F := Ideal) V c).arrAt 6 cfg5.N = edgeArr5 V c a :=
  (dat5 (F := Ideal) V c).arrAt_eq_of_cover 6 (edgeArr5 V c a) (fun t _ => flushed5_6_eq V c a hattr t) cover5_6_rows

end Cert.KernelIdeal.Val

end
-- ==== Proof.Val.RegionEdge2.lean ====
import proofs.«407386_j15839839387945_2_alg».proof.Proof.Val.EdgeVal4
import proofs.«407386_j15839839387945_2_alg».proof.Proof.Val.EdgeVal5
import proofs.«407386_j15839839387945_2_alg».proof.Proof.Val.RefInst
import proofs.«407386_j15839839387945_2_alg».proof.Proof.LibEdge

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

variable (x0 x1 : (⟨ReferenceIdeal.S10000x1, .i32⟩ : BufTy).Contents (Elt Ideal)) (x2 x3 : (⟨ReferenceIdeal.S2x160000, .i32⟩ : BufTy).Contents (Elt Ideal)) (x4 x5 : (⟨ReferenceIdeal.S160000x1, .i32⟩ : BufTy).Contents (Elt Ideal)) (x6 : (⟨ReferenceIdeal.S32000x128, .f32⟩ : BufTy).Contents (Elt Ideal)) (x7 : (⟨ReferenceIdeal.S20x128, .f32⟩ : BufTy).Contents (Elt Ideal)) (x8 : (⟨ReferenceIdeal.S384x128, .f32⟩ : BufTy).Contents (Elt Ideal)) (x9 : (⟨ReferenceIdeal.S128, .f32⟩ : BufTy).Contents (Elt Ideal)) (x10 : (⟨ReferenceIdeal.S256x384, .f32⟩ : BufTy).Contents (Elt Ideal)) (x11 : (⟨ReferenceIdeal.S384, .f32⟩ : BufTy).Contents (Elt Ideal)) (x12 : (⟨ReferenceIdeal.S128x384, .f32⟩ : BufTy).Contents (Elt Ideal)) (x13 : (⟨ReferenceIdeal.S384, .f32⟩ : BufTy).Contents (Elt Ideal)) (x14 : (⟨ReferenceIdeal.S128x1, .f32⟩ : BufTy).Contents (Elt Ideal)) (x15 : (⟨ReferenceIdeal.S1, .f32⟩ : BufTy).Contents (Elt Ideal))

theorem region4_ref (c : Dev nD) (a : Fin 160000 → Fin 20)
    (ha : ∀ e : Fin 160000, x4 (ix2 e (0 : Fin 1)) = BitVec.ofNat 32 (a e).val)
    (hd : (V c main_v160 : S160000x128.Idx → EReal) = ReferenceIdeal.ReadP.val_main_v199 (F := Ideal) x0 x1 x2 x4 x6 x7 x8 x9 x10 x11 x12 x13)
    (hs : (V c main_v167 : S160000x128.Idx → EReal) = ReferenceIdeal.ReadP.val_main_v206 (F := Ideal) x0 x1 x2 x4 x6 x7 x8 x9 x10 x11 x12 x13)
    (hattr : (V c main_arg4 : S160000x1.Idx → BitVec 32) = x4)
    (hwd : ∀ k d : Fin 128, (V c main_v17 : S128x128.Idx → EReal) (ix2 k d) = x8 (ix2 (⟨k.val, by omega⟩ : Fin 384) d))
    (hws : ∀ k d : Fin 128, (V c main_v19 : S128x128.Idx → EReal) (ix2 k d) = x8 (ix2 (⟨128 + k.val, by omega⟩ : Fin 384) d))
    (htt : ∀ (j : Fin 20) (d : Fin 128), (V c main_v25 : S20x128.Idx → EReal) (ix2 j d)
      = (∑ k : Fin 128, x7 (ix2 j k) * x8 (ix2 (⟨256 + k.val, by omega⟩ : Fin 384) d)) + x9 (ix1 d)) :
    (dat4 (F := Ideal) V c).arrAt 6 cfg4.N = ReferenceIdeal.ReadP.val_main_v212 (F := Ideal) x0 x1 x2 x4 x6 x7 x8 x9 x10 x11 x12 x13 := by
  have e1 : (dat4 (F := Ideal) V c).arrAt 6 cfg4.N = edgeArr4 V c a :=
    edge_final4 V c a (fun e => by
      show (V c main_arg4 : S160000x1.Idx → BitVec 32) (ix2 e 0) = _
      rw [hattr]; exact ha e)
  have e2 : edgeArr4 V c a
      = Spec.edgeMsg (V c main_v160 : S160000x128.Idx → EReal) (V c main_v167 : S160000x128.Idx → EReal) x7 a x8 x9 :=
    LibEdge.edge_kernel_form (V c main_v160 : S160000x128.Idx → EReal) (V c main_v167 : S160000x128.Idx → EReal) x7 a x8 x9
      (V c main_v17 : S128x128.Idx → EReal) (V c main_v19 : S128x128.Idx → EReal) (V c main_v25 : S20x128.Idx → EReal) hwd hws htt
  rw [e1, e2, hd, hs]
  exact (RefInst.v212_eq x0 x1 x2 x4 x6 x7 x8 x9 x10 x11 x12 x13 a ha).symm

theorem region5_ref (c : Dev nD) (a : Fin 160000 → Fin 20)
    (ha : ∀ e : Fin 160000, x5 (ix2 e (0 : Fin 1)) = BitVec.ofNat 32 (a e).val)
    (hd : (V c main_v182 : S160000x128.Idx → EReal) = ReferenceIdeal.ReadP.val_main_v226 (F := Ideal) x0 x1 x3 x5 x6 x7 x8 x9 x10 x11 x12 x13)
    (hs : (V c main_v189 : S160000x128.Idx → EReal) = ReferenceIdeal.ReadP.val_main_v233 (F := Ideal) x0 x1 x3 x5 x6 x7 x8 x9 x10 x11 x12 x13)
    (hattr : (V c main_arg5 : S160000x1.Idx → BitVec 32) = x5)
    (hwd : ∀ k d : Fin 128, (V c main_v17 : S128x128.Idx → EReal) (ix2 k d) = x8 (ix2 (⟨k.val, by omega⟩ : Fin 384) d))
    (hws : ∀ k d : Fin 128, (V c main_v19 : S128x128.Idx → EReal) (ix2 k d) = x8 (ix2 (⟨128 + k.val, by omega⟩ : Fin 384) d))
    (htt : ∀ (j : Fin 20) (d : Fin 128), (V c main_v25 : S20x128.Idx → EReal) (ix2 j d)
      = (∑ k : Fin 128, x7 (ix2 j k) * x8 (ix2 (⟨256 + k.val, by omega⟩ : Fin 384) d)) + x9 (ix1 d)) :
    (dat5 (F := Ideal) V c).arrAt 6 cfg5.N = ReferenceIdeal.ReadP.val_main_v239 (F := Ideal) x0 x1 x3 x5 x6 x7 x8 x9 x10 x11 x12 x13 := by
  have e1 : (dat5 (F := Ideal) V c).arrAt 6 cfg5.N = edgeArr5 V c a :=
    edge_final5 V c a (fun e => by
      show (V c main_arg5 : S160000x1.Idx → BitVec 32) (ix2 e 0) = _
      rw [hattr]; exact ha e)
  have e2 : edgeArr5 V c a
      = Spec.edgeMsg (V c main_v182 : S160000x128.Idx → EReal) (V c main_v189 : S160000x128.Idx → EReal) x7 a x8 x9 :=
    LibEdge.edge_kernel_form (V c main_v182 : S160000x128.Idx → EReal) (V c main_v189 : S160000x128.Idx → EReal) x7 a x8 x9
      (V c main_v17 : S128x128.Idx → EReal) (V c main_v19 : S128x128.Idx → EReal) (V c main_v25 : S20x128.Idx → EReal) hwd hws htt
  rw [e1, e2, hd, hs]
  exact (RefInst.v239_eq x0 x1 x3 x5 x6 x7 x8 x9 x10 x11 x12 x13 a ha).symm

end Cert.KernelIdeal.Val

end
-- ==== Proof.Val.AttnPay6.lean ====
/- The arithmetic of one grid point of the cross-attention region 6, read entry by entry over the extended reals.

   One point sees a block of 1000 query rows (blk, 1000 × 128), a chunk of 2000 key rows (full, 2000 × 128) and the
   three running quantities of the streaming softmax, one per query row: the running maximum m, the running
   normaliser l, and the running weighted sum acc (one per feature). Write s r = ∑ d, blk p d * full r d for the score
   of query row p against key row r of the chunk. The point replaces

     m   by  M = max m (max over r of s r),
     l   by  exp (m - M) * l + ∑ r, exp (s r - M),
     acc by  exp (m - M) * acc + ∑ r, exp (s r - M) * full r q        (at feature q),

   and at the last chunk of a query tile the output is blk - acc / l. A reset puts m = -∞, l = 0, acc = 0.
   Over the extended reals every format change is the identity, a product of matrices read at an entry is the sum over
   the contracted coordinate, a row reduction is the sum (or the fold of max from -∞) over the row, and a column
   [1000, 1] spread over a row reads its one entry. Each lemma below reads one stored value at an entry in these terms. -/
import proofs.«407386_j15839839387945_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.ValueIdx

/-! ## Two layout readings: a vector as a column, a column spread over rows -/

section Layout
variable {α : Type}

/-- A vector of length a viewed as an a × 1 column reads, at (i, u), the vector at i. -/
theorem shapeCast_a_a1_apply6 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An a × 1 column spread to a × b reads, at (i, c), the column at (i, 0). -/
theorem broadcastTo_a1_ab_apply6 {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else c.val
    rw [if_pos rfl]

end Layout

/-! ## Index bookkeeping of the two products and of the row reductions -/

/-- Scores: the left operand of the product blk · fullᵀ at entry (p, r) and contracted coordinate d is blk's (p, d). -/
theorem lhsIdx_qk6 (p : Fin 1000) (r : Fin 2000) (d : Fin 128) :
    dot_S1000x128_S2000x128_S1000x2000_1_1_0_0_n_n.lhsIdx (ix2 p r)
      ((contrEquiv1 dot_S1000x128_S2000x128_S1000x2000_1_1_0_0_n_n 128 rfl rfl).symm d) = ix2 p d := by
  have c := contrEquiv1_symm_val dot_S1000x128_S2000x128_S1000x2000_1_1_0_0_n_n 128 rfl rfl d
  funext ax; apply Fin.ext
  match ax with
  | ⟨0, _⟩ => simp [DotDims.lhsIdx, dot_S1000x128_S2000x128_S1000x2000_1_1_0_0_n_n]; rfl
  | ⟨1, _⟩ => simp [DotDims.lhsIdx, dot_S1000x128_S2000x128_S1000x2000_1_1_0_0_n_n]; exact c

/-- … and the right operand is full's (r, d): both operands are contracted along their feature axis. -/
theorem rhsIdx_qk6 (p : Fin 1000) (r : Fin 2000) (d : Fin 128) :
    dot_S1000x128_S2000x128_S1000x2000_1_1_0_0_n_n.rhsIdx (ix2 p r)
      ((contrEquiv1 dot_S1000x128_S2000x128_S1000x2000_1_1_0_0_n_n 128 rfl rfl).symm d) = ix2 r d := by
  have c := contrEquiv1_symm_val dot_S1000x128_S2000x128_S1000x2000_1_1_0_0_n_n 128 rfl rfl d
  funext ax; apply Fin.ext
  match ax with
  | ⟨0, _⟩ => simp [DotDims.rhsIdx, dot_S1000x128_S2000x128_S1000x2000_1_1_0_0_n_n]; rfl
  | ⟨1, _⟩ => simp [DotDims.rhsIdx, dot_S1000x128_S2000x128_S1000x2000_1_1_0_0_n_n]; exact c

/-- Weighted sum: the left operand of the product weights · full at entry (p, q) and contracted coordinate r is the
    weights' (p, r) … -/
theorem lhsIdx_pv6 (p : Fin 1000) (q : Fin 128) (r : Fin 2000) :
    dot_S1000x2000_S2000x128_S1000x128_1_0_0_1_n_n.lhsIdx (ix2 p q)
      ((contrEquiv1 dot_S1000x2000_S2000x128_S1000x128_1_0_0_1_n_n 2000 rfl rfl).symm r) = ix2 p r := by
  have c := contrEquiv1_symm_val dot_S1000x2000_S2000x128_S1000x128_1_0_0_1_n_n 2000 rfl rfl r
  funext ax; apply Fin.ext
  match ax with
  | ⟨0, _⟩ => simp [DotDims.lhsIdx, dot_S1000x2000_S2000x128_S1000x128_1_0_0_1_n_n]; rfl
  | ⟨1, _⟩ => simp [DotDims.lhsIdx, dot_S1000x2000_S2000x128_S1000x128_1_0_0_1_n_n]; exact c

/-- … and the right operand is full's (r, q). -/
theorem rhsIdx_pv6 (p : Fin 1000) (q : Fin 128) (r : Fin 2000) :
    dot_S1000x2000_S2000x128_S1000x128_1_0_0_1_n_n.rhsIdx (ix2 p q)
      ((contrEquiv1 dot_S1000x2000_S2000x128_S1000x128_1_0_0_1_n_n 2000 rfl rfl).symm r) = ix2 r q := by
  have c := contrEquiv1_symm_val dot_S1000x2000_S2000x128_S1000x128_1_0_0_1_n_n 2000 rfl rfl r
  funext ax; apply Fin.ext
  match ax with
  | ⟨0, _⟩ => simp [DotDims.rhsIdx, dot_S1000x2000_S2000x128_S1000x128_1_0_0_1_n_n]; exact c
  | ⟨1, _⟩ => simp [DotDims.rhsIdx, dot_S1000x2000_S2000x128_S1000x128_1_0_0_1_n_n]; rfl

/-- A reduction of a 1000 × 2000 array along its rows: the entry over row p with column r put back is (p, r). -/
theorem lift_row6 (p : Fin 1000) (r : Fin 2000) :
    Shape.Reduces.lift (s := S1000x2000) (t := S1000) (a := 1) reduces_S1000x2000_S1000 (ix1 p) r = ix2 p r := by
  funext ax; apply Fin.ext
  match ax with
  | ⟨0, _⟩ => rfl
  | ⟨1, _⟩ => rfl

/-- The word of -∞ denotes the bottom of the extended reals. -/
theorem ofBits_neg_inf6 : FloatOps.ofBits (F := Ideal) .f32 0xFF800000#32 = (⊥ : EReal) := by
  show Ideal.ofBits .f32 0xFF800000#32 = ⊥
  simp [Ideal.ofBits, Ideal.ieee]

/-! ## The stored values at an entry -/

variable (blk : FVec Ideal S1000x128 .f32) (full : FVec Ideal S2000x128 .bf16)
variable (m m' l : FVec Ideal S1000x1 .f32) (acc : FVec Ideal S1000x128 .f32)
variable (p : Fin 1000) (q : Fin 128) (r : Fin 2000)

/-- The score of query row p of the block against key row r of the chunk. -/
def sc6 (blk : FVec Ideal S1000x128 .f32) (full : FVec Ideal S2000x128 .bf16) (p : Fin 1000) (r : Fin 2000) : EReal :=
  ∑ d : Fin 128, blk (ix2 p d) * full (ix2 r d)

/-- The score matrix at (p, r) is the score. -/
theorem pay8_apply6 : k6_pay8 (F := Ideal) blk full (ix2 p r) = sc6 blk full p r := by
  unfold k6_pay8 k6_pay7
  refine (Ideal.matmul_constant_zero_apply dot_S1000x128_S2000x128_S1000x2000_1_1_0_0_n_n none _ _ (ix2 p r)).trans ?_
  refine (Equiv.sum_comp (contrEquiv1 dot_S1000x128_S2000x128_S1000x2000_1_1_0_0_n_n 128 rfl rfl).symm _).symm.trans ?_
  unfold sc6
  refine Finset.sum_congr rfl fun d _ => ?_
  rw [lhsIdx_qk6, rhsIdx_qk6, shapeCast_self, shapeCast_self]
  rfl

/-- The new running maximum of row p: the old one against the largest score of the chunk. -/
theorem pay9_apply6 :
    k6_pay9 (F := Ideal) blk full m (ix2 p (0 : Fin 1))
      = max (m (ix2 p (0 : Fin 1))) ((Finset.univ : Finset (Fin 2000)).fold max ⊥ (fun r => sc6 blk full p r)) := by
  unfold k6_pay9
  refine (maximumf_apply _ _ _).trans (congrArg (max (m (ix2 p (0 : Fin 1)))) ?_)
  refine (shapeCast_a_a1_apply6 _ _ p (0 : Fin 1)).trans ?_
  refine (Ideal.multiReduction_maximumf_single _ _ _ _ _ (ix1 p)).trans ?_
  have hf : ((k6_pay8 (F := Ideal) blk full) ∘ Shape.Reduces.lift (s := S1000x2000) (t := S1000) (a := 1) reduces_S1000x2000_S1000 (ix1 p))
      = fun r : Fin 2000 => sc6 blk full p r := by
    refine funext fun (r : Fin 2000) => ?_
    exact (congrArg (k6_pay8 (F := Ideal) blk full) (lift_row6 p r)).trans (pay8_apply6 blk full p r)
  exact congrArg₂ (fun b f => (Finset.univ : Finset (Fin 2000)).fold max b f) ofBits_neg_inf6 hf

/-- The rescaling factor of row p: exp (old maximum - new maximum). -/
theorem pay10_apply6 :
    k6_pay10 (F := Ideal) blk full m m' (ix2 p (0 : Fin 1))
      = Ideal.exp (m' (ix2 p (0 : Fin 1)) - k6_pay9 (F := Ideal) blk full m (ix2 p (0 : Fin 1))) := by
  unfold k6_pay10
  rfl

/-- The unnormalised weight of key r for row p: exp (score - new maximum). -/
theorem pay11_apply6 :
    k6_pay11 (F := Ideal) blk full m (ix2 p r)
      = Ideal.exp (k6_pay8 (F := Ideal) blk full (ix2 p r) - k6_pay9 (F := Ideal) blk full m (ix2 p (0 : Fin 1))) := by
  unfold k6_pay11
  refine (congrArg Ideal.exp ?_ : Ideal.exp _ = Ideal.exp _)
  refine congrArg (k6_pay8 (F := Ideal) blk full (ix2 p r) - ·) ?_
  exact broadcastTo_a1_ab_apply6 _ _ p r

/-- The new running normaliser of row p. -/
theorem pay12_apply6 :
    k6_pay12 (F := Ideal) blk full m m' l (ix2 p (0 : Fin 1))
      = k6_pay10 (F := Ideal) blk full m m' (ix2 p (0 : Fin 1)) * l (ix2 p (0 : Fin 1))
        + ∑ r : Fin 2000, k6_pay11 (F := Ideal) blk full m (ix2 p r) := by
  unfold k6_pay12
  rw [shapeCast_self]
  refine (addf_apply _ _ _).trans ?_
  refine congrArg₂ (· + ·) (mulf_apply _ _ _) ?_
  refine (shapeCast_a_a1_apply6 _ _ p (0 : Fin 1)).trans ?_
  refine (Ideal.multiReduction_add_single _ _ _ _ _ (ix1 p)).trans ?_
  exact Finset.sum_congr rfl fun r _ => congrArg (k6_pay11 (F := Ideal) blk full m) (lift_row6 p r)

/-- The new running weighted sum of row p at feature q. -/
theorem pay13_apply6 :
    k6_pay13 (F := Ideal) blk full m m' acc (ix2 p q)
      = k6_pay10 (F := Ideal) blk full m m' (ix2 p (0 : Fin 1)) * acc (ix2 p q)
        + ∑ r : Fin 2000, k6_pay11 (F := Ideal) blk full m (ix2 p r) * full (ix2 r q) := by
  unfold k6_pay13 k6_pay7
  refine (addf_apply _ _ _).trans ?_
  refine congrArg₂ (· + ·) ?_ ?_
  · refine (mulf_apply _ _ _).trans ?_
    exact congrArg (· * acc (ix2 p q)) (broadcastTo_a1_ab_apply6 _ _ p q)
  · refine (Ideal.matmul_constant_zero_apply dot_S1000x2000_S2000x128_S1000x128_1_0_0_1_n_n none _ _ (ix2 p q)).trans ?_
    refine (Equiv.sum_comp (contrEquiv1 dot_S1000x2000_S2000x128_S1000x128_1_0_0_1_n_n 2000 rfl rfl).symm _).symm.trans ?_
    refine Finset.sum_congr rfl fun r _ => ?_
    rw [lhsIdx_pv6, rhsIdx_pv6, shapeCast_self]
    rfl

/-- The output at the last chunk: the query entry minus weighted sum over normaliser. -/
theorem pay3_apply6 :
    k6_pay3 (F := Ideal) acc l blk (ix2 p q) = blk (ix2 p q) - Ideal.div (acc (ix2 p q)) (l (ix2 p (0 : Fin 1))) := by
  unfold k6_pay3
  rw [shapeCast_self]
  refine (subf_apply _ _ _).trans ?_
  refine congrArg (blk (ix2 p q) - ·) ?_
  refine (divf_apply _ _ _).trans ?_
  exact congrArg (Ideal.div (acc (ix2 p q))) (broadcastTo_a1_ab_apply6 _ _ p q)

/-- Storing the new weighted sum and the new maximum changes no value. -/
theorem pay1_eq6 (v : FVec Ideal S1000x128 .f32) : k6_pay1 (F := Ideal) v = v := by
  unfold k6_pay1; exact shapeCast_self _ _
theorem pay2_eq6 (v : FVec Ideal S1000x1 .f32) : k6_pay2 (F := Ideal) v = v := by
  unfold k6_pay2; exact shapeCast_self _ _

/-- The reset values: -∞ for the maximum, 0 for the normaliser and for the weighted sum. -/
theorem pay4_apply6 (i : S1000x1.Idx) : k6_pay4 (F := Ideal) i = (⊥ : EReal) := by
  unfold k6_pay4
  rw [shapeCast_self]
  exact ofBits_neg_inf6
theorem pay5_apply6 (i : S1000x1.Idx) : k6_pay5 (F := Ideal) i = (0 : EReal) := by
  unfold k6_pay5
  rw [shapeCast_self]
  exact Ideal.ofBits_zero_f32
theorem pay6_apply6 (i : S1000x128.Idx) : k6_pay6 (F := Ideal) i = (0 : EReal) := by
  unfold k6_pay6
  rw [shapeCast_self]
  exact Ideal.ofBits_zero_f32

/-! ## One point's update of row p, in closed form

With s r the score of row p against key r of the chunk and M = max (m p) (max over r of s r): -/

/-- The new normaliser: exp (m - M) * l + ∑ r, exp (s r - M). -/
theorem lNext_apply6 :
    k6_pay12 (F := Ideal) blk full m m l (ix2 p (0 : Fin 1))
      = Ideal.exp (m (ix2 p (0 : Fin 1))
            - max (m (ix2 p (0 : Fin 1))) ((Finset.univ : Finset (Fin 2000)).fold max ⊥ (fun r => sc6 blk full p r)))
          * l (ix2 p (0 : Fin 1))
        + ∑ r : Fin 2000, Ideal.exp (sc6 blk full p r
            - max (m (ix2 p (0 : Fin 1))) ((Finset.univ : Finset (Fin 2000)).fold max ⊥ (fun r => sc6 blk full p r))) := by
  rw [pay12_apply6, pay10_apply6, pay9_apply6]
  refine congrArg (_ + ·) (Finset.sum_congr rfl fun r _ => ?_)
  rw [pay11_apply6, pay8_apply6, pay9_apply6]

/-- The new weighted sum at feature q: exp (m - M) * acc + ∑ r, exp (s r - M) * full r q. -/
theorem aNext_apply6 :
    k6_pay13 (F := Ideal) blk full m m acc (ix2 p q)
      = Ideal.exp (m (ix2 p (0 : Fin 1))
            - max (m (ix2 p (0 : Fin 1))) ((Finset.univ : Finset (Fin 2000)).fold max ⊥ (fun r => sc6 blk full p r)))
          * acc (ix2 p q)
        + ∑ r : Fin 2000, Ideal.exp (sc6 blk full p r
            - max (m (ix2 p (0 : Fin 1))) ((Finset.univ : Finset (Fin 2000)).fold max ⊥ (fun r => sc6 blk full p r)))
          * full (ix2 r q) := by
  rw [pay13_apply6, pay10_apply6, pay9_apply6]
  refine congrArg (_ + ·) (Finset.sum_congr rfl fun r _ => ?_)
  rw [pay11_apply6, pay8_apply6, pay9_apply6]

end Cert.KernelIdeal.Val

end
-- ==== Proof.Val.AttnVal6.lean ====
/- The output array of the cross-attention region 6, as one function of the two arrays the region reads.

   The region walks the grid (10, 5): point t = 5 qi + kv works on query rows 1000 qi … 1000 qi + 999 against key rows
   2000 kv … 2000 kv + 1999, and carries, for each query row of the tile, a running maximum, a running normaliser and (per
   feature) a running weighted sum; the first point of a tile resets them, and only the last point of a tile writes the
   output block, query entry minus weighted sum over normaliser. Read entry by entry over the extended reals, one point is
   the three update rules of the streaming softmax applied to the row's state and to the chunk's scores; so after the
   tile's kv-th point the carried state of row p is the streaming state of row 1000 qi + p after kv + 1 chunks of its
   scores (induction on kv). When every entry of the two arrays is a real number the state after five chunks gives the
   softmax-weighted combination, so the block written back at the tile's last point is the block of the cross-graph
   update x i d - ∑ j, softmax_j (s i ·) * y j d; the ten tiles cover the array. -/
import proofs.«407386_j15839839387945_2_alg».proof.Proof.KI.Attn6
import proofs.«407386_j15839839387945_2_alg».proof.Proof.Val.AttnPay6
import proofs.«407386_j15839839387945_2_alg».proof.Proof.Val.AttnRow
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## The two arrays the region reads, at their literal types -/

/-- The query graph's node features, one row per node. -/
abbrev xarr6 (c : Dev nD) : Spec.Arr 10000 128 := V c (Pipeline.arrRef spec6 0)
/-- The key graph's node features, one row per node. -/
abbrev yarr6 (c : Dev nD) : Spec.Arr 10000 128 := V c (Pipeline.arrRef spec6 1)

/-! ## Where each window's block sits in its array -/

/-- The block index of each window at each of the 50 points (qi, kv) = (t / 5, t % 5): the query block and the output
    block sit at block row qi, the key chunk at block row kv. -/
theorem block_index6 : ∀ t : Fin cfg6.N,
    win6_0.index t (0 : Fin 2) = t.val / 5 ∧ win6_0.index t (1 : Fin 2) = 0
    ∧ win6_1.index t (0 : Fin 2) = t.val % 5 ∧ win6_1.index t (1 : Fin 2) = 0
    ∧ win6_2.index t (0 : Fin 2) = t.val / 5 ∧ win6_2.index t (1 : Fin 2) = 0 :=
  (by decide +kernel : ∀ t : Fin grid6.N, _)

/-- Entry (p, d) of the query block at point t is row 1000 (t / 5) + p of the query array. -/
theorem qblk_apply6 (c : Dev nD) (t : Fin cfg6.N) (p : Fin 1000) (d : Fin 128) (e : Fin 10000)
    (he : e.val = 1000 * (t.val / 5) + p.val) :
    (iblk6 V c 0 t : Vec Ideal S1000x128 .f32) (ix2 p d) = xarr6 V c (ix2 e d) := by
  obtain ⟨i0, i1, -⟩ := block_index6 t
  unfold iblk6
  rw [View.read_apply]
  show V c (Pipeline.arrRef spec6 0) _ = V c (Pipeline.arrRef spec6 0) (ix2 e d)
  congr 1
  funext a
  apply Fin.ext
  match a with
  | ⟨0, _⟩ => show win6_0.index t 0 * 1000 + 1 * p.val = e.val; rw [i0, he]; omega
  | ⟨1, _⟩ => show win6_0.index t 1 * 128 + 1 * d.val = d.val; rw [i1]; omega

/-- Entry (r, d) of the key chunk at point t is row 2000 (t % 5) + r of the key array. -/
theorem kblk_apply6 (c : Dev nD) (t : Fin cfg6.N) (r : Fin 2000) (d : Fin 128) (e : Fin 10000)
    (he : e.val = 2000 * (t.val % 5) + r.val) :
    (iblk6 V c 1 t : Vec Ideal S2000x128 .bf16) (ix2 r d) = yarr6 V c (ix2 e d) := by
  obtain ⟨-, -, i0, i1, -⟩ := block_index6 t
  unfold iblk6
  rw [View.read_apply]
  show V c (Pipeline.arrRef spec6 1) _ = V c (Pipeline.arrRef spec6 1) (ix2 e d)
  congr 1
  funext a
  apply Fin.ext
  match a with
  | ⟨0, _⟩ => show win6_1.index t 0 * 2000 + 1 * r.val = e.val; rw [i0, he]; omega
  | ⟨1, _⟩ => show win6_1.index t 1 * 128 + 1 * d.val = d.val; rw [i1]; omega

/-- Entry (p, q) of the output block at point t sits at row 1000 (t / 5) + p of the output array. -/
theorem oblk_emb6 (t : Fin cfg6.N) (p : Fin 1000) (q : Fin 128) (e : Fin 10000) (he : e.val = 1000 * (t.val / 5) + p.val) :
    ((cfg6.win 2).blk t).view.emb (ix2 p q) = (ix2 e q : S10000x128.Idx) := by
  obtain ⟨-, -, -, -, i0, i1⟩ := block_index6 t
  funext b
  apply Fin.ext
  match b with
  | ⟨0, _⟩ => show win6_2.index t 0 * 1000 + 1 * p.val = e.val; rw [i0, he]; omega
  | ⟨1, _⟩ => show win6_2.index t 1 * 128 + 1 * q.val = q.val; rw [i1]; omega

/-! ## One point's update of one row, entry by entry -/

section Step
variable (blk : FVec Ideal S1000x128 .f32) (full : FVec Ideal S2000x128 .bf16)
variable (mP lP : FVec Ideal S1000x1 .f32) (aP : FVec Ideal S1000x128 .f32) (p : Fin 1000) (q : Fin 128)

/-- The new maximum of row p. -/
theorem mNext6_apply : mNext6 (F := Ideal) blk full mP (ix2 p (0 : Fin 1))
    = LibFlash.mNext (mP (ix2 p (0 : Fin 1))) (fun r : Fin 2000 => sc6 blk full p r) := by
  unfold mNext6
  rw [pay2_eq6]
  exact pay9_apply6 blk full mP p

/-- The new normaliser of row p. -/
theorem lNext6_apply : lNext6 (F := Ideal) blk full mP lP (ix2 p (0 : Fin 1))
    = LibFlash.lNext (mP (ix2 p (0 : Fin 1))) (lP (ix2 p (0 : Fin 1))) (fun r : Fin 2000 => sc6 blk full p r) :=
  lNext_apply6 blk full mP lP p

/-- The new weighted sum of row p at feature q. -/
theorem accNext6_apply : accNext6 (F := Ideal) blk full mP aP (ix2 p q)
    = LibFlash.aNext (mP (ix2 p (0 : Fin 1))) (aP (ix2 p q)) (fun r : Fin 2000 => sc6 blk full p r) (fun r : Fin 2000 => full (ix2 r q)) := by
  unfold accNext6
  rw [pay1_eq6]
  exact aNext_apply6 blk full mP aP p q

/-- The output entry at the last chunk. -/
theorem outFin6_apply : outFin6 (F := Ideal) blk lP aP (ix2 p q)
    = blk (ix2 p q) - Ideal.div (aP (ix2 p q)) (lP (ix2 p (0 : Fin 1))) :=
  pay3_apply6 blk lP aP p q

/-- One point takes the state (m, l, acc) of row p at feature q, whatever it is, to the three update rules applied to it
    and to the chunk's scores and keys. -/
theorem step_entry6 (S : EReal × EReal × EReal)
    (hS : (mP (ix2 p (0 : Fin 1)), lP (ix2 p (0 : Fin 1)), aP (ix2 p q)) = S)
    (s x : Fin 2000 → EReal) (hs : (fun r : Fin 2000 => sc6 blk full p r) = s) (hx : (fun r : Fin 2000 => full (ix2 r q)) = x) :
    (mNext6 (F := Ideal) blk full mP (ix2 p (0 : Fin 1)), lNext6 (F := Ideal) blk full mP lP (ix2 p (0 : Fin 1)),
        accNext6 (F := Ideal) blk full mP aP (ix2 p q))
      = (LibFlash.mNext S.1 s, LibFlash.lNext S.1 S.2.1 s, LibFlash.aNext S.1 S.2.2 s x) := by
  subst hS hs hx
  rw [mNext6_apply, lNext6_apply, accNext6_apply]

end Step

/-- The reset state at any row and feature: (-∞, 0, 0). -/
theorem init_entry6 (p : Fin 1000) (q : Fin 128) :
    ((mInit6 (F := Ideal)) (ix2 p (0 : Fin 1)), (lInit6 (F := Ideal)) (ix2 p (0 : Fin 1)), (accInit6 (F := Ideal)) (ix2 p q))
      = ((⊥ : EReal), (0 : EReal), (0 : EReal)) := by
  unfold mInit6 lInit6 accInit6
  rw [pay4_apply6, pay5_apply6, pay6_apply6]

/-! ## The running state of a row after each point of its query tile -/

section Row
variable (c : Dev nD) (x y : Spec.Arr 10000 128) (hx : xarr6 V c = x) (hy : yarr6 V c = y)
variable (qi : Fin 10) (p : Fin 1000) (q : Fin 128) (i : Fin 10000) (hi : i.val = 1000 * qi.val + p.val)

include hx hy hi in
/-- At point 5 qi + kv the chunk's scores of row p are chunk kv of row i's scores, i = 1000 qi + p. -/
theorem chunk_scores6 (kv : ℕ) (hkv : kv < 5) (hn : 5 * qi.val + kv < cfg6.N) :
    (fun r : Fin 2000 => sc6 (iblk6 V c 0 ⟨5 * qi.val + kv, hn⟩) (iblk6 V c 1 ⟨5 * qi.val + kv, hn⟩) p r)
      = AttnRow.scRow x y i ⟨kv, hkv⟩ := by
  funext r
  have hq : (5 * qi.val + kv) / 5 = qi.val := by omega
  have hk : (5 * qi.val + kv) % 5 = kv := by omega
  unfold sc6 AttnRow.scRow Spec.score
  refine Finset.sum_congr rfl fun d _ => ?_
  exact congrArg₂ (· * ·)
    ((qblk_apply6 V c ⟨5 * qi.val + kv, hn⟩ p d i (by show i.val = 1000 * ((5 * qi.val + kv) / 5) + p.val; rw [hq]; exact hi)).trans
      (congrFun hx _))
    ((kblk_apply6 V c ⟨5 * qi.val + kv, hn⟩ r d (AttnRow.key ⟨kv, hkv⟩ r)
      (by show 2000 * kv + r.val = 2000 * ((5 * qi.val + kv) % 5) + r.val; rw [hk])).trans (congrFun hy _))

include hy in
/-- … and the chunk's keys at feature q are chunk kv of the key array's feature q. -/
theorem chunk_keys6 (kv : ℕ) (hkv : kv < 5) (hn : 5 * qi.val + kv < cfg6.N) :
    (fun r : Fin 2000 => (iblk6 V c 1 ⟨5 * qi.val + kv, hn⟩ : Vec Ideal S2000x128 .bf16) (ix2 r q))
      = AttnRow.xRow y q ⟨kv, hkv⟩ := by
  funext r
  have hk : (5 * qi.val + kv) % 5 = kv := by omega
  exact (kblk_apply6 V c ⟨5 * qi.val + kv, hn⟩ r q (AttnRow.key ⟨kv, hkv⟩ r)
      (by show 2000 * kv + r.val = 2000 * ((5 * qi.val + kv) % 5) + r.val; rw [hk])).trans (congrFun hy _)

include hx hy hi in
/-- THE INVARIANT. After point 5 qi + kv the carried (maximum, normaliser, weighted sum) at row p and feature q is the
    streaming state of row i = 1000 qi + p after its first kv + 1 chunks. By induction on kv: the first point of the
    tile starts from the reset state, every later one from what the point before left. -/
theorem row_state6 : ∀ (kv : ℕ) (hkv : kv < 5) (hn : 5 * qi.val + kv < cfg6.N),
    ((stAt6 V c (5 * qi.val + kv) hn).2.1 (ix2 p (0 : Fin 1)), (stAt6 V c (5 * qi.val + kv) hn).2.2.1 (ix2 p (0 : Fin 1)),
        (stAt6 V c (5 * qi.val + kv) hn).2.2.2 (ix2 p q))
      = LibFlash.stateAfter (AttnRow.scRow x y i) (AttnRow.xRow y q) (kv + 1) (by omega)
  | 0, hkv, hn => by
    have h := stAt6_first V c ⟨5 * qi.val + 0, hn⟩ (by show (5 * qi.val + 0) % 5 = 0; omega)
    dsimp only at h
    rw [h]
    dsimp only
    rw [AttnRow.stateAfter_succ, AttnRow.stateAfter_zero]
    exact step_entry6 _ _ _ _ _ p q _ (init_entry6 p q) _ _
      (chunk_scores6 V c x y hx hy qi p i hi 0 hkv hn) (chunk_keys6 V c y hy qi q 0 hkv hn)
  | kv + 1, hkv, hn => by
    have hprev : 5 * qi.val + kv < cfg6.N := by omega
    have ih := row_state6 kv (by omega) hprev
    have h := stAt6_step V c ⟨5 * qi.val + (kv + 1), hn⟩ (by show (5 * qi.val + (kv + 1)) % 5 ≠ 0; omega)
    dsimp only at h
    rw [h]
    dsimp only
    rw [AttnRow.stateAfter_succ]
    have hsub : 5 * qi.val + (kv + 1) - 1 = 5 * qi.val + kv := by omega
    refine step_entry6 _ _ _ _ _ p q _ ?_ _ _
      (chunk_scores6 V c x y hx hy qi p i hi (kv + 1) hkv hn) (chunk_keys6 V c y hy qi q (kv + 1) hkv hn)
    simp only [hsub]
    exact ih

end Row

/-! ## What the last point of a query tile writes back, and the array after the region -/

/-- What a writing point (the last chunk of its query tile) writes back is its block of the cross-graph update. -/
theorem flushed6_2_eq (c : Dev nD) (x y : Spec.Arr 10000 128) (hx : xarr6 V c = x) (hy : yarr6 V c = y)
    (hxr : Spec.IsReal x) (hyr : Spec.IsReal y) (t : Fin cfg6.N) (hf : (cfg6.win 2).flush t = true) :
    (dat6 (F := Ideal) V c).flushed 2 t = ((cfg6.win 2).blk t).view.read (Elt Ideal) (Spec.attnUpd x y) := by
  have h4 : t.val % 5 = 4 := (flush6_2 t).mp hf
  have hN : t.val < 50 := t.isLt
  show (cfg6.win 2).cut (grid6.coords t) ((dat6 (F := Ideal) V c).after 2 t) = _
  rw [after6_2, stAt6_out V c t h4]
  funext j
  obtain ⟨p, q, rfl⟩ : ∃ (p : Fin 1000) (q : Fin 128), j = ix2 p q := ⟨j 0, j 1, eq_ix2 j⟩
  have hp := p.isLt
  have hqi : t.val / 5 < 10 := by omega
  have ht : t.val = 5 * (t.val / 5) + 4 := by omega
  rw [View.read_apply, oblk_emb6 t p q ⟨1000 * (t.val / 5) + p.val, by omega⟩ rfl]
  -- the row's state after the tile's fifth chunk
  have hst := row_state6 V c x y hx hy ⟨t.val / 5, hqi⟩ p q ⟨1000 * (t.val / 5) + p.val, by omega⟩ rfl 4 (by omega)
    (by show 5 * (t.val / 5) + 4 < cfg6.N; rw [← ht]; exact t.isLt)
  have hl := congrArg (fun S : EReal × EReal × EReal => S.2.1) hst
  have ha := congrArg (fun S : EReal × EReal × EReal => S.2.2) hst
  dsimp only at hl ha
  simp only [← ht] at hl ha
  refine (outFin6_apply _ _ _ p q).trans ?_
  rw [hl, ha, qblk_apply6 V c t p q ⟨1000 * (t.val / 5) + p.val, by omega⟩ rfl, hx]
  exact AttnRow.row_final x y hxr hyr _ q

/-- An index of the output array lies in point t's block iff each coordinate is in the block's range on its axis. -/
theorem mem_block6_2 (t : Fin cfg6.N) (i : S10000x128.Idx) :
    i ∈ ((cfg6.win 2).blk t).view.set ↔ ∀ b : Fin 2, win6_2.index t b * S1000x128.size b ≤ (i b).val ∧ (i b).val < win6_2.index t b * S1000x128.size b + S1000x128.size b := by
  show i ∈ ((View.whole (Pipeline.arrRef spec6 2)).slice (win6_2.rect t)).set ↔ _
  rw [View.set_slice_whole, Rect.mem_set_unit]
  exact Iff.rfl

/-- Row i of the output array is covered by the last point of its query tile, 5 (i / 1000) + 4, which writes back. -/
theorem cover6_2_rows (i : S10000x128.Idx) : ∃ t : Fin cfg6.N, (cfg6.win 2).flush t = true ∧ i ∈ ((cfg6.win 2).blk t).view.set := by
  have hi0 : (i 0).val < 10000 := (i 0).isLt
  have hi1 : (i 1).val < 128 := (i 1).isLt
  have hlt : 5 * ((i 0).val / 1000) + 4 < 50 := by omega
  refine ⟨(⟨5 * ((i 0).val / 1000) + 4, hlt⟩ : Fin cfg6.N), (flush6_2 _).mpr (by show (5 * ((i 0).val / 1000) + 4) % 5 = 4; omega), ?_⟩
  rw [mem_block6_2]
  obtain ⟨-, -, -, -, i0, i1⟩ := block_index6 (⟨5 * ((i 0).val / 1000) + 4, hlt⟩ : Fin cfg6.N)
  intro b
  match b with
  | ⟨0, _⟩ =>
    show win6_2.index _ (0 : Fin 2) * 1000 ≤ (i 0).val ∧ (i 0).val < win6_2.index _ (0 : Fin 2) * 1000 + 1000
    rw [i0]; show (5 * ((i 0).val / 1000) + 4) / 5 * 1000 ≤ (i 0).val ∧ (i 0).val < (5 * ((i 0).val / 1000) + 4) / 5 * 1000 + 1000; omega
  | ⟨1, _⟩ =>
    show win6_2.index _ (1 : Fin 2) * 128 ≤ (i 1).val ∧ (i 1).val < win6_2.index _ (1 : Fin 2) * 128 + 128
    rw [i1]; omega

/-- After the region the output array holds the cross-graph update of the query array against the key array:
    at node i and feature d, x i d minus the softmax-weighted combination of the rows of y. -/
theorem attn_final6 (c : Dev nD) (x y : Spec.Arr 10000 128) (hx : (V c (Pipeline.arrRef spec6 0) : Spec.Arr 10000 128) = x)
    (hy : (V c (Pipeline.arrRef spec6 1) : Spec.Arr 10000 128) = y) (hxr : Spec.IsReal x) (hyr : Spec.IsReal y) :
    (dat6 (F := Ideal) V c).arrAt 2 cfg6.N = Spec.attnUpd x y :=
  (dat6 (F := Ideal) V c).arrAt_eq_of_cover 2 (Spec.attnUpd x y) (fun t hf => flushed6_2_eq V c x y hx hy hxr hyr t hf) cover6_2_rows

end Cert.KernelIdeal.Val

end
-- ==== Proof.Val.AttnPay7.lean ====
/- The arithmetic of one grid point of the cross-attention region 7, read entry by entry over the extended reals.

   One point sees a block of 1000 query rows (blk, 1000 × 128), a chunk of 2000 key rows (full, 2000 × 128) and the
   three running quantities of the streaming softmax, one per query row: the running maximum m, the running
   normaliser l, and the running weighted sum acc (one per feature). Write s r = ∑ d, blk p d * full r d for the score
   of query row p against key row r of the chunk. The point replaces

     m   by  M = max m (max over r of s r),
     l   by  exp (m - M) * l + ∑ r, exp (s r - M),
     acc by  exp (m - M) * acc + ∑ r, exp (s r - M) * full r q        (at feature q),

   and at the last chunk of a query tile the output is blk - acc / l. A reset puts m = -∞, l = 0, acc = 0.
   Over the extended reals every format change is the identity, a product of matrices read at an entry is the sum over
   the contracted coordinate, a row reduction is the sum (or the fold of max from -∞) over the row, and a column
   [1000, 1] spread over a row reads its one entry. Each lemma below reads one stored value at an entry in these terms. -/
import proofs.«407386_j15839839387945_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.ValueIdx

/-! ## Two layout readings: a vector as a column, a column spread over rows -/

section Layout
variable {α : Type}

/-- A vector of length a viewed as an a × 1 column reads, at (i, u), the vector at i. -/
theorem shapeCast_a_a1_apply7 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An a × 1 column spread to a × b reads, at (i, c), the column at (i, 0). -/
theorem broadcastTo_a1_ab_apply7 {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else c.val
    rw [if_pos rfl]

end Layout

/-! ## Index bookkeeping of the two products and of the row reductions -/

/-- Scores: the left operand of the product blk · fullᵀ at entry (p, r) and contracted coordinate d is blk's (p, d). -/
theorem lhsIdx_qk7 (p : Fin 1000) (r : Fin 2000) (d : Fin 128) :
    dot_S1000x128_S2000x128_S1000x2000_1_1_0_0_n_n.lhsIdx (ix2 p r)
      ((contrEquiv1 dot_S1000x128_S2000x128_S1000x2000_1_1_0_0_n_n 128 rfl rfl).symm d) = ix2 p d := by
  have c := contrEquiv1_symm_val dot_S1000x128_S2000x128_S1000x2000_1_1_0_0_n_n 128 rfl rfl d
  funext ax; apply Fin.ext
  match ax with
  | ⟨0, _⟩ => simp [DotDims.lhsIdx, dot_S1000x128_S2000x128_S1000x2000_1_1_0_0_n_n]; rfl
  | ⟨1, _⟩ => simp [DotDims.lhsIdx, dot_S1000x128_S2000x128_S1000x2000_1_1_0_0_n_n]; exact c

/-- … and the right operand is full's (r, d): both operands are contracted along their feature axis. -/
theorem rhsIdx_qk7 (p : Fin 1000) (r : Fin 2000) (d : Fin 128) :
    dot_S1000x128_S2000x128_S1000x2000_1_1_0_0_n_n.rhsIdx (ix2 p r)
      ((contrEquiv1 dot_S1000x128_S2000x128_S1000x2000_1_1_0_0_n_n 128 rfl rfl).symm d) = ix2 r d := by
  have c := contrEquiv1_symm_val dot_S1000x128_S2000x128_S1000x2000_1_1_0_0_n_n 128 rfl rfl d
  funext ax; apply Fin.ext
  match ax with
  | ⟨0, _⟩ => simp [DotDims.rhsIdx, dot_S1000x128_S2000x128_S1000x2000_1_1_0_0_n_n]; rfl
  | ⟨1, _⟩ => simp [DotDims.rhsIdx, dot_S1000x128_S2000x128_S1000x2000_1_1_0_0_n_n]; exact c

/-- Weighted sum: the left operand of the product weights · full at entry (p, q) and contracted coordinate r is the
    weights' (p, r) … -/
theorem lhsIdx_pv7 (p : Fin 1000) (q : Fin 128) (r : Fin 2000) :
    dot_S1000x2000_S2000x128_S1000x128_1_0_0_1_n_n.lhsIdx (ix2 p q)
      ((contrEquiv1 dot_S1000x2000_S2000x128_S1000x128_1_0_0_1_n_n 2000 rfl rfl).symm r) = ix2 p r := by
  have c := contrEquiv1_symm_val dot_S1000x2000_S2000x128_S1000x128_1_0_0_1_n_n 2000 rfl rfl r
  funext ax; apply Fin.ext
  match ax with
  | ⟨0, _⟩ => simp [DotDims.lhsIdx, dot_S1000x2000_S2000x128_S1000x128_1_0_0_1_n_n]; rfl
  | ⟨1, _⟩ => simp [DotDims.lhsIdx, dot_S1000x2000_S2000x128_S1000x128_1_0_0_1_n_n]; exact c

/-- … and the right operand is full's (r, q). -/
theorem rhsIdx_pv7 (p : Fin 1000) (q : Fin 128) (r : Fin 2000) :
    dot_S1000x2000_S2000x128_S1000x128_1_0_0_1_n_n.rhsIdx (ix2 p q)
      ((contrEquiv1 dot_S1000x2000_S2000x128_S1000x128_1_0_0_1_n_n 2000 rfl rfl).symm r) = ix2 r q := by
  have c := contrEquiv1_symm_val dot_S1000x2000_S2000x128_S1000x128_1_0_0_1_n_n 2000 rfl rfl r
  funext ax; apply Fin.ext
  match ax with
  | ⟨0, _⟩ => simp [DotDims.rhsIdx, dot_S1000x2000_S2000x128_S1000x128_1_0_0_1_n_n]; exact c
  | ⟨1, _⟩ => simp [DotDims.rhsIdx, dot_S1000x2000_S2000x128_S1000x128_1_0_0_1_n_n]; rfl

/-- A reduction of a 1000 × 2000 array along its rows: the entry over row p with column r put back is (p, r). -/
theorem lift_row7 (p : Fin 1000) (r : Fin 2000) :
    Shape.Reduces.lift (s := S1000x2000) (t := S1000) (a := 1) reduces_S1000x2000_S1000 (ix1 p) r = ix2 p r := by
  funext ax; apply Fin.ext
  match ax with
  | ⟨0, _⟩ => rfl
  | ⟨1, _⟩ => rfl

/-- The word of -∞ denotes the bottom of the extended reals. -/
theorem ofBits_neg_inf7 : FloatOps.ofBits (F := Ideal) .f32 0xFF800000#32 = (⊥ : EReal) := by
  show Ideal.ofBits .f32 0xFF800000#32 = ⊥
  simp [Ideal.ofBits, Ideal.ieee]

/-! ## The stored values at an entry -/

variable (blk : FVec Ideal S1000x128 .f32) (full : FVec Ideal S2000x128 .bf16)
variable (m m' l : FVec Ideal S1000x1 .f32) (acc : FVec Ideal S1000x128 .f32)
variable (p : Fin 1000) (q : Fin 128) (r : Fin 2000)

/-- The score of query row p of the block against key row r of the chunk. -/
def sc7 (blk : FVec Ideal S1000x128 .f32) (full : FVec Ideal S2000x128 .bf16) (p : Fin 1000) (r : Fin 2000) : EReal :=
  ∑ d : Fin 128, blk (ix2 p d) * full (ix2 r d)

/-- The score matrix at (p, r) is the score. -/
theorem pay8_apply7 : k7_pay8 (F := Ideal) blk full (ix2 p r) = sc7 blk full p r := by
  unfold k7_pay8 k7_pay7
  refine (Ideal.matmul_constant_zero_apply dot_S1000x128_S2000x128_S1000x2000_1_1_0_0_n_n none _ _ (ix2 p r)).trans ?_
  refine (Equiv.sum_comp (contrEquiv1 dot_S1000x128_S2000x128_S1000x2000_1_1_0_0_n_n 128 rfl rfl).symm _).symm.trans ?_
  unfold sc7
  refine Finset.sum_congr rfl fun d _ => ?_
  rw [lhsIdx_qk7, rhsIdx_qk7, shapeCast_self, shapeCast_self]
  rfl

/-- The new running maximum of row p: the old one against the largest score of the chunk. -/
theorem pay9_apply7 :
    k7_pay9 (F := Ideal) blk full m (ix2 p (0 : Fin 1))
      = max (m (ix2 p (0 : Fin 1))) ((Finset.univ : Finset (Fin 2000)).fold max ⊥ (fun r => sc7 blk full p r)) := by
  unfold k7_pay9
  refine (maximumf_apply _ _ _).trans (congrArg (max (m (ix2 p (0 : Fin 1)))) ?_)
  refine (shapeCast_a_a1_apply7 _ _ p (0 : Fin 1)).trans ?_
  refine (Ideal.multiReduction_maximumf_single _ _ _ _ _ (ix1 p)).trans ?_
  have hf : ((k7_pay8 (F := Ideal) blk full) ∘ Shape.Reduces.lift (s := S1000x2000) (t := S1000) (a := 1) reduces_S1000x2000_S1000 (ix1 p))
      = fun r : Fin 2000 => sc7 blk full p r := by
    refine funext fun (r : Fin 2000) => ?_
    exact (congrArg (k7_pay8 (F := Ideal) blk full) (lift_row7 p r)).trans (pay8_apply7 blk full p r)
  exact congrArg₂ (fun b f => (Finset.univ : Finset (Fin 2000)).fold max b f) ofBits_neg_inf7 hf

/-- The rescaling factor of row p: exp (old maximum - new maximum). -/
theorem pay10_apply7 :
    k7_pay10 (F := Ideal) blk full m m' (ix2 p (0 : Fin 1))
      = Ideal.exp (m' (ix2 p (0 : Fin 1)) - k7_pay9 (F := Ideal) blk full m (ix2 p (0 : Fin 1))) := by
  unfold k7_pay10
  rfl

/-- The unnormalised weight of key r for row p: exp (score - new maximum). -/
theorem pay11_apply7 :
    k7_pay11 (F := Ideal) blk full m (ix2 p r)
      = Ideal.exp (k7_pay8 (F := Ideal) blk full (ix2 p r) - k7_pay9 (F := Ideal) blk full m (ix2 p (0 : Fin 1))) := by
  unfold k7_pay11
  refine (congrArg Ideal.exp ?_ : Ideal.exp _ = Ideal.exp _)
  refine congrArg (k7_pay8 (F := Ideal) blk full (ix2 p r) - ·) ?_
  exact broadcastTo_a1_ab_apply7 _ _ p r

/-- The new running normaliser of row p. -/
theorem pay12_apply7 :
    k7_pay12 (F := Ideal) blk full m m' l (ix2 p (0 : Fin 1))
      = k7_pay10 (F := Ideal) blk full m m' (ix2 p (0 : Fin 1)) * l (ix2 p (0 : Fin 1))
        + ∑ r : Fin 2000, k7_pay11 (F := Ideal) blk full m (ix2 p r) := by
  unfold k7_pay12
  rw [shapeCast_self]
  refine (addf_apply _ _ _).trans ?_
  refine congrArg₂ (· + ·) (mulf_apply _ _ _) ?_
  refine (shapeCast_a_a1_apply7 _ _ p (0 : Fin 1)).trans ?_
  refine (Ideal.multiReduction_add_single _ _ _ _ _ (ix1 p)).trans ?_
  exact Finset.sum_congr rfl fun r _ => congrArg (k7_pay11 (F := Ideal) blk full m) (lift_row7 p r)

/-- The new running weighted sum of row p at feature q. -/
theorem pay13_apply7 :
    k7_pay13 (F := Ideal) blk full m m' acc (ix2 p q)
      = k7_pay10 (F := Ideal) blk full m m' (ix2 p (0 : Fin 1)) * acc (ix2 p q)
        + ∑ r : Fin 2000, k7_pay11 (F := Ideal) blk full m (ix2 p r) * full (ix2 r q) := by
  unfold k7_pay13 k7_pay7
  refine (addf_apply _ _ _).trans ?_
  refine congrArg₂ (· + ·) ?_ ?_
  · refine (mulf_apply _ _ _).trans ?_
    exact congrArg (· * acc (ix2 p q)) (broadcastTo_a1_ab_apply7 _ _ p q)
  · refine (Ideal.matmul_constant_zero_apply dot_S1000x2000_S2000x128_S1000x128_1_0_0_1_n_n none _ _ (ix2 p q)).trans ?_
    refine (Equiv.sum_comp (contrEquiv1 dot_S1000x2000_S2000x128_S1000x128_1_0_0_1_n_n 2000 rfl rfl).symm _).symm.trans ?_
    refine Finset.sum_congr rfl fun r _ => ?_
    rw [lhsIdx_pv7, rhsIdx_pv7, shapeCast_self]
    rfl

/-- The output at the last chunk: the query entry minus weighted sum over normaliser. -/
theorem pay3_apply7 :
    k7_pay3 (F := Ideal) acc l blk (ix2 p q) = blk (ix2 p q) - Ideal.div (acc (ix2 p q)) (l (ix2 p (0 : Fin 1))) := by
  unfold k7_pay3
  rw [shapeCast_self]
  refine (subf_apply _ _ _).trans ?_
  refine congrArg (blk (ix2 p q) - ·) ?_
  refine (divf_apply _ _ _).trans ?_
  exact congrArg (Ideal.div (acc (ix2 p q))) (broadcastTo_a1_ab_apply7 _ _ p q)

/-- Storing the new weighted sum and the new maximum changes no value. -/
theorem pay1_eq7 (v : FVec Ideal S1000x128 .f32) : k7_pay1 (F := Ideal) v = v := by
  unfold k7_pay1; exact shapeCast_self _ _
theorem pay2_eq7 (v : FVec Ideal S1000x1 .f32) : k7_pay2 (F := Ideal) v = v := by
  unfold k7_pay2; exact shapeCast_self _ _

/-- The reset values: -∞ for the maximum, 0 for the normaliser and for the weighted sum. -/
theorem pay4_apply7 (i : S1000x1.Idx) : k7_pay4 (F := Ideal) i = (⊥ : EReal) := by
  unfold k7_pay4
  rw [shapeCast_self]
  exact ofBits_neg_inf7
theorem pay5_apply7 (i : S1000x1.Idx) : k7_pay5 (F := Ideal) i = (0 : EReal) := by
  unfold k7_pay5
  rw [shapeCast_self]
  exact Ideal.ofBits_zero_f32
theorem pay6_apply7 (i : S1000x128.Idx) : k7_pay6 (F := Ideal) i = (0 : EReal) := by
  unfold k7_pay6
  rw [shapeCast_self]
  exact Ideal.ofBits_zero_f32

/-! ## One point's update of row p, in closed form

With s r the score of row p against key r of the chunk and M = max (m p) (max over r of s r): -/

/-- The new normaliser: exp (m - M) * l + ∑ r, exp (s r - M). -/
theorem lNext_apply7 :
    k7_pay12 (F := Ideal) blk full m m l (ix2 p (0 : Fin 1))
      = Ideal.exp (m (ix2 p (0 : Fin 1))
            - max (m (ix2 p (0 : Fin 1))) ((Finset.univ : Finset (Fin 2000)).fold max ⊥ (fun r => sc7 blk full p r)))
          * l (ix2 p (0 : Fin 1))
        + ∑ r : Fin 2000, Ideal.exp (sc7 blk full p r
            - max (m (ix2 p (0 : Fin 1))) ((Finset.univ : Finset (Fin 2000)).fold max ⊥ (fun r => sc7 blk full p r))) := by
  rw [pay12_apply7, pay10_apply7, pay9_apply7]
  refine congrArg (_ + ·) (Finset.sum_congr rfl fun r _ => ?_)
  rw [pay11_apply7, pay8_apply7, pay9_apply7]

/-- The new weighted sum at feature q: exp (m - M) * acc + ∑ r, exp (s r - M) * full r q. -/
theorem aNext_apply7 :
    k7_pay13 (F := Ideal) blk full m m acc (ix2 p q)
      = Ideal.exp (m (ix2 p (0 : Fin 1))
            - max (m (ix2 p (0 : Fin 1))) ((Finset.univ : Finset (Fin 2000)).fold max ⊥ (fun r => sc7 blk full p r)))
          * acc (ix2 p q)
        + ∑ r : Fin 2000, Ideal.exp (sc7 blk full p r
            - max (m (ix2 p (0 : Fin 1))) ((Finset.univ : Finset (Fin 2000)).fold max ⊥ (fun r => sc7 blk full p r)))
          * full (ix2 r q) := by
  rw [pay13_apply7, pay10_apply7, pay9_apply7]
  refine congrArg (_ + ·) (Finset.sum_congr rfl fun r _ => ?_)
  rw [pay11_apply7, pay8_apply7, pay9_apply7]

end Cert.KernelIdeal.Val

end
-- ==== Proof.Val.AttnVal7.lean ====
/- The output array of the cross-attention region 7, as one function of the two arrays the region reads.

   The region walks the grid (10, 5): point t = 5 qi + kv works on query rows 1000 qi … 1000 qi + 999 against key rows
   2000 kv … 2000 kv + 1999, and carries, for each query row of the tile, a running maximum, a running normaliser and (per
   feature) a running weighted sum; the first point of a tile resets them, and only the last point of a tile writes the
   output block, query entry minus weighted sum over normaliser. Read entry by entry over the extended reals, one point is
   the three update rules of the streaming softmax applied to the row's state and to the chunk's scores; so after the
   tile's kv-th point the carried state of row p is the streaming state of row 1000 qi + p after kv + 1 chunks of its
   scores (induction on kv). When every entry of the two arrays is a real number the state after five chunks gives the
   softmax-weighted combination, so the block written back at the tile's last point is the block of the cross-graph
   update x i d - ∑ j, softmax_j (s i ·) * y j d; the ten tiles cover the array. -/
import proofs.«407386_j15839839387945_2_alg».proof.Proof.KI.Attn7
import proofs.«407386_j15839839387945_2_alg».proof.Proof.Val.AttnPay7
import proofs.«407386_j15839839387945_2_alg».proof.Proof.Val.AttnRow
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## The two arrays the region reads, at their literal types -/

/-- The query graph's node features, one row per node. -/
abbrev xarr7 (c : Dev nD) : Spec.Arr 10000 128 := V c (Pipeline.arrRef spec7 0)
/-- The key graph's node features, one row per node. -/
abbrev yarr7 (c : Dev nD) : Spec.Arr 10000 128 := V c (Pipeline.arrRef spec7 1)

/-! ## Where each window's block sits in its array -/

/-- The block index of each window at each of the 50 points (qi, kv) = (t / 5, t % 5): the query block and the output
    block sit at block row qi, the key chunk at block row kv. -/
theorem block_index7 : ∀ t : Fin cfg7.N,
    win7_0.index t (0 : Fin 2) = t.val / 5 ∧ win7_0.index t (1 : Fin 2) = 0
    ∧ win7_1.index t (0 : Fin 2) = t.val % 5 ∧ win7_1.index t (1 : Fin 2) = 0
    ∧ win7_2.index t (0 : Fin 2) = t.val / 5 ∧ win7_2.index t (1 : Fin 2) = 0 :=
  (by decide +kernel : ∀ t : Fin grid7.N, _)

/-- Entry (p, d) of the query block at point t is row 1000 (t / 5) + p of the query array. -/
theorem qblk_apply7 (c : Dev nD) (t : Fin cfg7.N) (p : Fin 1000) (d : Fin 128) (e : Fin 10000)
    (he : e.val = 1000 * (t.val / 5) + p.val) :
    (iblk7 V c 0 t : Vec Ideal S1000x128 .f32) (ix2 p d) = xarr7 V c (ix2 e d) := by
  obtain ⟨i0, i1, -⟩ := block_index7 t
  unfold iblk7
  rw [View.read_apply]
  show V c (Pipeline.arrRef spec7 0) _ = V c (Pipeline.arrRef spec7 0) (ix2 e d)
  congr 1
  funext a
  apply Fin.ext
  match a with
  | ⟨0, _⟩ => show win7_0.index t 0 * 1000 + 1 * p.val = e.val; rw [i0, he]; omega
  | ⟨1, _⟩ => show win7_0.index t 1 * 128 + 1 * d.val = d.val; rw [i1]; omega

/-- Entry (r, d) of the key chunk at point t is row 2000 (t % 5) + r of the key array. -/
theorem kblk_apply7 (c : Dev nD) (t : Fin cfg7.N) (r : Fin 2000) (d : Fin 128) (e : Fin 10000)
    (he : e.val = 2000 * (t.val % 5) + r.val) :
    (iblk7 V c 1 t : Vec Ideal S2000x128 .bf16) (ix2 r d) = yarr7 V c (ix2 e d) := by
  obtain ⟨-, -, i0, i1, -⟩ := block_index7 t
  unfold iblk7
  rw [View.read_apply]
  show V c (Pipeline.arrRef spec7 1) _ = V c (Pipeline.arrRef spec7 1) (ix2 e d)
  congr 1
  funext a
  apply Fin.ext
  match a with
  | ⟨0, _⟩ => show win7_1.index t 0 * 2000 + 1 * r.val = e.val; rw [i0, he]; omega
  | ⟨1, _⟩ => show win7_1.index t 1 * 128 + 1 * d.val = d.val; rw [i1]; omega

/-- Entry (p, q) of the output block at point t sits at row 1000 (t / 5) + p of the output array. -/
theorem oblk_emb7 (t : Fin cfg7.N) (p : Fin 1000) (q : Fin 128) (e : Fin 10000) (he : e.val = 1000 * (t.val / 5) + p.val) :
    ((cfg7.win 2).blk t).view.emb (ix2 p q) = (ix2 e q : S10000x128.Idx) := by
  obtain ⟨-, -, -, -, i0, i1⟩ := block_index7 t
  funext b
  apply Fin.ext
  match b with
  | ⟨0, _⟩ => show win7_2.index t 0 * 1000 + 1 * p.val = e.val; rw [i0, he]; omega
  | ⟨1, _⟩ => show win7_2.index t 1 * 128 + 1 * q.val = q.val; rw [i1]; omega

/-! ## One point's update of one row, entry by entry -/

section Step
variable (blk : FVec Ideal S1000x128 .f32) (full : FVec Ideal S2000x128 .bf16)
variable (mP lP : FVec Ideal S1000x1 .f32) (aP : FVec Ideal S1000x128 .f32) (p : Fin 1000) (q : Fin 128)

/-- The new maximum of row p. -/
theorem mNext7_apply : mNext7 (F := Ideal) blk full mP (ix2 p (0 : Fin 1))
    = LibFlash.mNext (mP (ix2 p (0 : Fin 1))) (fun r : Fin 2000 => sc7 blk full p r) := by
  unfold mNext7
  rw [pay2_eq7]
  exact pay9_apply7 blk full mP p

/-- The new normaliser of row p. -/
theorem lNext7_apply : lNext7 (F := Ideal) blk full mP lP (ix2 p (0 : Fin 1))
    = LibFlash.lNext (mP (ix2 p (0 : Fin 1))) (lP (ix2 p (0 : Fin 1))) (fun r : Fin 2000 => sc7 blk full p r) :=
  lNext_apply7 blk full mP lP p

/-- The new weighted sum of row p at feature q. -/
theorem accNext7_apply : accNext7 (F := Ideal) blk full mP aP (ix2 p q)
    = LibFlash.aNext (mP (ix2 p (0 : Fin 1))) (aP (ix2 p q)) (fun r : Fin 2000 => sc7 blk full p r) (fun r : Fin 2000 => full (ix2 r q)) := by
  unfold accNext7
  rw [pay1_eq7]
  exact aNext_apply7 blk full mP aP p q

/-- The output entry at the last chunk. -/
theorem outFin7_apply : outFin7 (F := Ideal) blk lP aP (ix2 p q)
    = blk (ix2 p q) - Ideal.div (aP (ix2 p q)) (lP (ix2 p (0 : Fin 1))) :=
  pay3_apply7 blk lP aP p q

/-- One point takes the state (m, l, acc) of row p at feature q, whatever it is, to the three update rules applied to it
    and to the chunk's scores and keys. -/
theorem step_entry7 (S : EReal × EReal × EReal)
    (hS : (mP (ix2 p (0 : Fin 1)), lP (ix2 p (0 : Fin 1)), aP (ix2 p q)) = S)
    (s x : Fin 2000 → EReal) (hs : (fun r : Fin 2000 => sc7 blk full p r) = s) (hx : (fun r : Fin 2000 => full (ix2 r q)) = x) :
    (mNext7 (F := Ideal) blk full mP (ix2 p (0 : Fin 1)), lNext7 (F := Ideal) blk full mP lP (ix2 p (0 : Fin 1)),
        accNext7 (F := Ideal) blk full mP aP (ix2 p q))
      = (LibFlash.mNext S.1 s, LibFlash.lNext S.1 S.2.1 s, LibFlash.aNext S.1 S.2.2 s x) := by
  subst hS hs hx
  rw [mNext7_apply, lNext7_apply, accNext7_apply]

end Step

/-- The reset state at any row and feature: (-∞, 0, 0). -/
theorem init_entry7 (p : Fin 1000) (q : Fin 128) :
    ((mInit7 (F := Ideal)) (ix2 p (0 : Fin 1)), (lInit7 (F := Ideal)) (ix2 p (0 : Fin 1)), (accInit7 (F := Ideal)) (ix2 p q))
      = ((⊥ : EReal), (0 : EReal), (0 : EReal)) := by
  unfold mInit7 lInit7 accInit7
  rw [pay4_apply7, pay5_apply7, pay6_apply7]

/-! ## The running state of a row after each point of its query tile -/

section Row
variable (c : Dev nD) (x y : Spec.Arr 10000 128) (hx : xarr7 V c = x) (hy : yarr7 V c = y)
variable (qi : Fin 10) (p : Fin 1000) (q : Fin 128) (i : Fin 10000) (hi : i.val = 1000 * qi.val + p.val)

include hx hy hi in
/-- At point 5 qi + kv the chunk's scores of row p are chunk kv of row i's scores, i = 1000 qi + p. -/
theorem chunk_scores7 (kv : ℕ) (hkv : kv < 5) (hn : 5 * qi.val + kv < cfg7.N) :
    (fun r : Fin 2000 => sc7 (iblk7 V c 0 ⟨5 * qi.val + kv, hn⟩) (iblk7 V c 1 ⟨5 * qi.val + kv, hn⟩) p r)
      = AttnRow.scRow x y i ⟨kv, hkv⟩ := by
  funext r
  have hq : (5 * qi.val + kv) / 5 = qi.val := by omega
  have hk : (5 * qi.val + kv) % 5 = kv := by omega
  unfold sc7 AttnRow.scRow Spec.score
  refine Finset.sum_congr rfl fun d _ => ?_
  exact congrArg₂ (· * ·)
    ((qblk_apply7 V c ⟨5 * qi.val + kv, hn⟩ p d i (by show i.val = 1000 * ((5 * qi.val + kv) / 5) + p.val; rw [hq]; exact hi)).trans
      (congrFun hx _))
    ((kblk_apply7 V c ⟨5 * qi.val + kv, hn⟩ r d (AttnRow.key ⟨kv, hkv⟩ r)
      (by show 2000 * kv + r.val = 2000 * ((5 * qi.val + kv) % 5) + r.val; rw [hk])).trans (congrFun hy _))

include hy in
/-- … and the chunk's keys at feature q are chunk kv of the key array's feature q. -/
theorem chunk_keys7 (kv : ℕ) (hkv : kv < 5) (hn : 5 * qi.val + kv < cfg7.N) :
    (fun r : Fin 2000 => (iblk7 V c 1 ⟨5 * qi.val + kv, hn⟩ : Vec Ideal S2000x128 .bf16) (ix2 r q))
      = AttnRow.xRow y q ⟨kv, hkv⟩ := by
  funext r
  have hk : (5 * qi.val + kv) % 5 = kv := by omega
  exact (kblk_apply7 V c ⟨5 * qi.val + kv, hn⟩ r q (AttnRow.key ⟨kv, hkv⟩ r)
      (by show 2000 * kv + r.val = 2000 * ((5 * qi.val + kv) % 5) + r.val; rw [hk])).trans (congrFun hy _)

include hx hy hi in
/-- THE INVARIANT. After point 5 qi + kv the carried (maximum, normaliser, weighted sum) at row p and feature q is the
    streaming state of row i = 1000 qi + p after its first kv + 1 chunks. By induction on kv: the first point of the
    tile starts from the reset state, every later one from what the point before left. -/
theorem row_state7 : ∀ (kv : ℕ) (hkv : kv < 5) (hn : 5 * qi.val + kv < cfg7.N),
    ((stAt7 V c (5 * qi.val + kv) hn).2.1 (ix2 p (0 : Fin 1)), (stAt7 V c (5 * qi.val + kv) hn).2.2.1 (ix2 p (0 : Fin 1)),
        (stAt7 V c (5 * qi.val + kv) hn).2.2.2 (ix2 p q))
      = LibFlash.stateAfter (AttnRow.scRow x y i) (AttnRow.xRow y q) (kv + 1) (by omega)
  | 0, hkv, hn => by
    have h := stAt7_first V c ⟨5 * qi.val + 0, hn⟩ (by show (5 * qi.val + 0) % 5 = 0; omega)
    dsimp only at h
    rw [h]
    dsimp only
    rw [AttnRow.stateAfter_succ, AttnRow.stateAfter_zero]
    exact step_entry7 _ _ _ _ _ p q _ (init_entry7 p q) _ _
      (chunk_scores7 V c x y hx hy qi p i hi 0 hkv hn) (chunk_keys7 V c y hy qi q 0 hkv hn)
  | kv + 1, hkv, hn => by
    have hprev : 5 * qi.val + kv < cfg7.N := by omega
    have ih := row_state7 kv (by omega) hprev
    have h := stAt7_step V c ⟨5 * qi.val + (kv + 1), hn⟩ (by show (5 * qi.val + (kv + 1)) % 5 ≠ 0; omega)
    dsimp only at h
    rw [h]
    dsimp only
    rw [AttnRow.stateAfter_succ]
    have hsub : 5 * qi.val + (kv + 1) - 1 = 5 * qi.val + kv := by omega
    refine step_entry7 _ _ _ _ _ p q _ ?_ _ _
      (chunk_scores7 V c x y hx hy qi p i hi (kv + 1) hkv hn) (chunk_keys7 V c y hy qi q (kv + 1) hkv hn)
    simp only [hsub]
    exact ih

end Row

/-! ## What the last point of a query tile writes back, and the array after the region -/

/-- What a writing point (the last chunk of its query tile) writes back is its block of the cross-graph update. -/
theorem flushed7_2_eq (c : Dev nD) (x y : Spec.Arr 10000 128) (hx : xarr7 V c = x) (hy : yarr7 V c = y)
    (hxr : Spec.IsReal x) (hyr : Spec.IsReal y) (t : Fin cfg7.N) (hf : (cfg7.win 2).flush t = true) :
    (dat7 (F := Ideal) V c).flushed 2 t = ((cfg7.win 2).blk t).view.read (Elt Ideal) (Spec.attnUpd x y) := by
  have h4 : t.val % 5 = 4 := (flush7_2 t).mp hf
  have hN : t.val < 50 := t.isLt
  show (cfg7.win 2).cut (grid7.coords t) ((dat7 (F := Ideal) V c).after 2 t) = _
  rw [after7_2, stAt7_out V c t h4]
  funext j
  obtain ⟨p, q, rfl⟩ : ∃ (p : Fin 1000) (q : Fin 128), j = ix2 p q := ⟨j 0, j 1, eq_ix2 j⟩
  have hp := p.isLt
  have hqi : t.val / 5 < 10 := by omega
  have ht : t.val = 5 * (t.val / 5) + 4 := by omega
  rw [View.read_apply, oblk_emb7 t p q ⟨1000 * (t.val / 5) + p.val, by omega⟩ rfl]
  -- the row's state after the tile's fifth chunk
  have hst := row_state7 V c x y hx hy ⟨t.val / 5, hqi⟩ p q ⟨1000 * (t.val / 5) + p.val, by omega⟩ rfl 4 (by omega)
    (by show 5 * (t.val / 5) + 4 < cfg7.N; rw [← ht]; exact t.isLt)
  have hl := congrArg (fun S : EReal × EReal × EReal => S.2.1) hst
  have ha := congrArg (fun S : EReal × EReal × EReal => S.2.2) hst
  dsimp only at hl ha
  simp only [← ht] at hl ha
  refine (outFin7_apply _ _ _ p q).trans ?_
  rw [hl, ha, qblk_apply7 V c t p q ⟨1000 * (t.val / 5) + p.val, by omega⟩ rfl, hx]
  exact AttnRow.row_final x y hxr hyr _ q

/-- An index of the output array lies in point t's block iff each coordinate is in the block's range on its axis. -/
theorem mem_block7_2 (t : Fin cfg7.N) (i : S10000x128.Idx) :
    i ∈ ((cfg7.win 2).blk t).view.set ↔ ∀ b : Fin 2, win7_2.index t b * S1000x128.size b ≤ (i b).val ∧ (i b).val < win7_2.index t b * S1000x128.size b + S1000x128.size b := by
  show i ∈ ((View.whole (Pipeline.arrRef spec7 2)).slice (win7_2.rect t)).set ↔ _
  rw [View.set_slice_whole, Rect.mem_set_unit]
  exact Iff.rfl

/-- Row i of the output array is covered by the last point of its query tile, 5 (i / 1000) + 4, which writes back. -/
theorem cover7_2_rows (i : S10000x128.Idx) : ∃ t : Fin cfg7.N, (cfg7.win 2).flush t = true ∧ i ∈ ((cfg7.win 2).blk t).view.set := by
  have hi0 : (i 0).val < 10000 := (i 0).isLt
  have hi1 : (i 1).val < 128 := (i 1).isLt
  have hlt : 5 * ((i 0).val / 1000) + 4 < 50 := by omega
  refine ⟨(⟨5 * ((i 0).val / 1000) + 4, hlt⟩ : Fin cfg7.N), (flush7_2 _).mpr (by show (5 * ((i 0).val / 1000) + 4) % 5 = 4; omega), ?_⟩
  rw [mem_block7_2]
  obtain ⟨-, -, -, -, i0, i1⟩ := block_index7 (⟨5 * ((i 0).val / 1000) + 4, hlt⟩ : Fin cfg7.N)
  intro b
  match b with
  | ⟨0, _⟩ =>
    show win7_2.index _ (0 : Fin 2) * 1000 ≤ (i 0).val ∧ (i 0).val < win7_2.index _ (0 : Fin 2) * 1000 + 1000
    rw [i0]; show (5 * ((i 0).val / 1000) + 4) / 5 * 1000 ≤ (i 0).val ∧ (i 0).val < (5 * ((i 0).val / 1000) + 4) / 5 * 1000 + 1000; omega
  | ⟨1, _⟩ =>
    show win7_2.index _ (1 : Fin 2) * 128 ≤ (i 1).val ∧ (i 1).val < win7_2.index _ (1 : Fin 2) * 128 + 128
    rw [i1]; omega

/-- After the region the output array holds the cross-graph update of the query array against the key array:
    at node i and feature d, x i d minus the softmax-weighted combination of the rows of y. -/
theorem attn_final7 (c : Dev nD) (x y : Spec.Arr 10000 128) (hx : (V c (Pipeline.arrRef spec7 0) : Spec.Arr 10000 128) = x)
    (hy : (V c (Pipeline.arrRef spec7 1) : Spec.Arr 10000 128) = y) (hxr : Spec.IsReal x) (hyr : Spec.IsReal y) :
    (dat7 (F := Ideal) V c).arrAt 2 cfg7.N = Spec.attnUpd x y :=
  (dat7 (F := Ideal) V c).arrAt_eq_of_cover 2 (Spec.attnUpd x y) (fun t hf => flushed7_2_eq V c x y hx hy hxr hyr t hf) cover7_2_rows

end Cert.KernelIdeal.Val

end
-- ==== Proof.Val.RegionAttn2.lean ====
import proofs.«407386_j15839839387945_2_alg».proof.Proof.Val.AttnVal6
import proofs.«407386_j15839839387945_2_alg».proof.Proof.Val.AttnVal7
import proofs.«407386_j15839839387945_2_alg».proof.Proof.Val.RefInst
import proofs.«407386_j15839839387945_2_alg».proof.Proof.Val.RealFacts

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

variable (x0 x1 : (⟨ReferenceIdeal.S10000x1, .i32⟩ : BufTy).Contents (Elt Ideal)) (x2 x3 : (⟨ReferenceIdeal.S2x160000, .i32⟩ : BufTy).Contents (Elt Ideal)) (x4 x5 : (⟨ReferenceIdeal.S160000x1, .i32⟩ : BufTy).Contents (Elt Ideal)) (x6 : (⟨ReferenceIdeal.S32000x128, .f32⟩ : BufTy).Contents (Elt Ideal)) (x7 : (⟨ReferenceIdeal.S20x128, .f32⟩ : BufTy).Contents (Elt Ideal)) (x8 : (⟨ReferenceIdeal.S384x128, .f32⟩ : BufTy).Contents (Elt Ideal)) (x9 : (⟨ReferenceIdeal.S128, .f32⟩ : BufTy).Contents (Elt Ideal)) (x10 : (⟨ReferenceIdeal.S256x384, .f32⟩ : BufTy).Contents (Elt Ideal)) (x11 : (⟨ReferenceIdeal.S384, .f32⟩ : BufTy).Contents (Elt Ideal)) (x12 : (⟨ReferenceIdeal.S128x384, .f32⟩ : BufTy).Contents (Elt Ideal)) (x13 : (⟨ReferenceIdeal.S384, .f32⟩ : BufTy).Contents (Elt Ideal)) (x14 : (⟨ReferenceIdeal.S128x1, .f32⟩ : BufTy).Contents (Elt Ideal)) (x15 : (⟨ReferenceIdeal.S1, .f32⟩ : BufTy).Contents (Elt Ideal))

theorem region6_ref (c : Dev nD)
    (hx : (V c main_v110 : S10000x128.Idx → EReal) = ReferenceIdeal.ReadP.val_main_v151 (F := Ideal) x0 x1 x2 x4 x6 x7 x8 x9 x10 x11 x12 x13)
    (hy : (V c main_v149 : S10000x128.Idx → EReal) = ReferenceIdeal.ReadP.val_main_v188 (F := Ideal) x0 x1 x3 x5 x6 x7 x8 x9 x10 x11 x12 x13)
    (h6 : Spec.IsReal x6) :
    (dat6 (F := Ideal) V c).arrAt 2 cfg6.N = ReferenceIdeal.ReadP.val_main_v269 (F := Ideal) x0 x1 x2 x3 x4 x5 x6 x7 x8 x9 x10 x11 x12 x13 := by
  rw [RefInst.v269_eq x0 x1 x2 x3 x4 x5 x6 x7 x8 x9 x10 x11 x12 x13]
  exact attn_final6 V c _ _ hx hy (Cert.Val.RealFacts.real_v151 x0 x1 x2 x4 x6 x7 x8 x9 x10 x11 x12 x13 h6) (Cert.Val.RealFacts.real_v188 x0 x1 x3 x5 x6 x7 x8 x9 x10 x11 x12 x13 h6)

theorem region7_ref (c : Dev nD)
    (hx : (V c main_v147 : S10000x128.Idx → EReal) = ReferenceIdeal.ReadP.val_main_v188 (F := Ideal) x0 x1 x3 x5 x6 x7 x8 x9 x10 x11 x12 x13)
    (hy : (V c main_v148 : S10000x128.Idx → EReal) = ReferenceIdeal.ReadP.val_main_v151 (F := Ideal) x0 x1 x2 x4 x6 x7 x8 x9 x10 x11 x12 x13)
    (h6 : Spec.IsReal x6) :
    (dat7 (F := Ideal) V c).arrAt 2 cfg7.N = ReferenceIdeal.ReadP.val_main_v271 (F := Ideal) x0 x1 x2 x3 x4 x5 x6 x7 x8 x9 x10 x11 x12 x13 := by
  rw [RefInst.v271_eq x0 x1 x2 x3 x4 x5 x6 x7 x8 x9 x10 x11 x12 x13]
  exact attn_final7 V c _ _ hx hy (Cert.Val.RealFacts.real_v188 x0 x1 x3 x5 x6 x7 x8 x9 x10 x11 x12 x13 h6) (Cert.Val.RealFacts.real_v151 x0 x1 x2 x4 x6 x7 x8 x9 x10 x11 x12 x13 h6)

end Cert.KernelIdeal.Val

end
-- ==== Proof.Val.Chain2.lean ====
import proofs.«407386_j15839839387945_2_alg».proof.Proof.KI.RunFold
import proofs.«407386_j15839839387945_2_alg».proof.Proof.KI.RunArgs
import proofs.«407386_j15839839387945_2_alg».proof.Proof.Val.HostL2a
import proofs.«407386_j15839839387945_2_alg».proof.Proof.Val.HostL2b
import proofs.«407386_j15839839387945_2_alg».proof.Proof.Val.HostL2c
import proofs.«407386_j15839839387945_2_alg».proof.Proof.Val.HostL2d
import proofs.«407386_j15839839387945_2_alg».proof.Proof.Val.RegionEdge2
import proofs.«407386_j15839839387945_2_alg».proof.Proof.Val.RegionAttn2

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg) (c : Dev nD)

abbrev ar0 : (⟨ReferenceIdeal.S10000x1, .i32⟩ : BufTy).Contents (Elt Ideal) := m ((c : Thread nD τ).loc main_arg0)

abbrev ar1 : (⟨ReferenceIdeal.S10000x1, .i32⟩ : BufTy).Contents (Elt Ideal) := m ((c : Thread nD τ).loc main_arg1)

abbrev ar2 : (⟨ReferenceIdeal.S2x160000, .i32⟩ : BufTy).Contents (Elt Ideal) := m ((c : Thread nD τ).loc main_arg2)

abbrev ar3 : (⟨ReferenceIdeal.S2x160000, .i32⟩ : BufTy).Contents (Elt Ideal) := m ((c : Thread nD τ).loc main_arg3)

abbrev ar4 : (⟨ReferenceIdeal.S160000x1, .i32⟩ : BufTy).Contents (Elt Ideal) := m ((c : Thread nD τ).loc main_arg4)

abbrev ar5 : (⟨ReferenceIdeal.S160000x1, .i32⟩ : BufTy).Contents (Elt Ideal) := m ((c : Thread nD τ).loc main_arg5)

abbrev ar6 : (⟨ReferenceIdeal.S32000x128, .f32⟩ : BufTy).Contents (Elt Ideal) := m ((c : Thread nD τ).loc main_arg6)

abbrev ar7 : (⟨ReferenceIdeal.S20x128, .f32⟩ : BufTy).Contents (Elt Ideal) := m ((c : Thread nD τ).loc main_arg7)

abbrev ar8 : (⟨ReferenceIdeal.S384x128, .f32⟩ : BufTy).Contents (Elt Ideal) := m ((c : Thread nD τ).loc main_arg8)

abbrev ar9 : (⟨ReferenceIdeal.S128, .f32⟩ : BufTy).Contents (Elt Ideal) := m ((c : Thread nD τ).loc main_arg9)

abbrev ar10 : (⟨ReferenceIdeal.S256x384, .f32⟩ : BufTy).Contents (Elt Ideal) := m ((c : Thread nD τ).loc main_arg10)

abbrev ar11 : (⟨ReferenceIdeal.S384, .f32⟩ : BufTy).Contents (Elt Ideal) := m ((c : Thread nD τ).loc main_arg11)

abbrev ar12 : (⟨ReferenceIdeal.S128x384, .f32⟩ : BufTy).Contents (Elt Ideal) := m ((c : Thread nD τ).loc main_arg12)

abbrev ar13 : (⟨ReferenceIdeal.S384, .f32⟩ : BufTy).Contents (Elt Ideal) := m ((c : Thread nD τ).loc main_arg13)

abbrev ar14 : (⟨ReferenceIdeal.S128x1, .f32⟩ : BufTy).Contents (Elt Ideal) := m ((c : Thread nD τ).loc main_arg14)

abbrev ar15 : (⟨ReferenceIdeal.S1, .f32⟩ : BufTy).Contents (Elt Ideal) := m ((c : Thread nD τ).loc main_arg15)

structure AtW8 : Prop where
  v110 : W8 (F := Ideal) m ρ c (Proc.devRef .tc main_v110) = ReferenceIdeal.ReadP.val_main_v151 (F := Ideal) (ar0 m c) (ar1 m c) (ar2 m c) (ar4 m c) (ar6 m c) (ar7 m c) (ar8 m c) (ar9 m c) (ar10 m c) (ar11 m c) (ar12 m c) (ar13 m c)
  v147 : W8 (F := Ideal) m ρ c (Proc.devRef .tc main_v147) = ReferenceIdeal.ReadP.val_main_v188 (F := Ideal) (ar0 m c) (ar1 m c) (ar3 m c) (ar5 m c) (ar6 m c) (ar7 m c) (ar8 m c) (ar9 m c) (ar10 m c) (ar11 m c) (ar12 m c) (ar13 m c)
  v148 : (W8 (F := Ideal) m ρ c (Proc.devRef .tc main_v148) : S10000x128.Idx → EReal) = ReferenceIdeal.ReadP.val_main_v151 (F := Ideal) (ar0 m c) (ar1 m c) (ar2 m c) (ar4 m c) (ar6 m c) (ar7 m c) (ar8 m c) (ar9 m c) (ar10 m c) (ar11 m c) (ar12 m c) (ar13 m c)
  v149 : (W8 (F := Ideal) m ρ c (Proc.devRef .tc main_v149) : S10000x128.Idx → EReal) = ReferenceIdeal.ReadP.val_main_v188 (F := Ideal) (ar0 m c) (ar1 m c) (ar3 m c) (ar5 m c) (ar6 m c) (ar7 m c) (ar8 m c) (ar9 m c) (ar10 m c) (ar11 m c) (ar12 m c) (ar13 m c)
  v153 : W8 (F := Ideal) m ρ c (Proc.devRef .tc main_v153) = ReferenceIdeal.ReadP.val_main_v192 (F := Ideal) (ar2 m c)
  v160 : (W8 (F := Ideal) m ρ c (Proc.devRef .tc main_v160) : S160000x128.Idx → EReal) = ReferenceIdeal.ReadP.val_main_v199 (F := Ideal) (ar0 m c) (ar1 m c) (ar2 m c) (ar4 m c) (ar6 m c) (ar7 m c) (ar8 m c) (ar9 m c) (ar10 m c) (ar11 m c) (ar12 m c) (ar13 m c)
  v167 : (W8 (F := Ideal) m ρ c (Proc.devRef .tc main_v167) : S160000x128.Idx → EReal) = ReferenceIdeal.ReadP.val_main_v206 (F := Ideal) (ar0 m c) (ar1 m c) (ar2 m c) (ar4 m c) (ar6 m c) (ar7 m c) (ar8 m c) (ar9 m c) (ar10 m c) (ar11 m c) (ar12 m c) (ar13 m c)
  wd : ∀ k d : Fin 128, (W1 (F := Ideal) m ρ c (Proc.devRef .tc main_v17) : S128x128.Idx → EReal) (ix2 k d)
    = ar8 m c (ix2 (⟨k.val, by omega⟩ : Fin 384) d)
  ws : ∀ k d : Fin 128, (W1 (F := Ideal) m ρ c (Proc.devRef .tc main_v19) : S128x128.Idx → EReal) (ix2 k d)
    = ar8 m c (ix2 (⟨128 + k.val, by omega⟩ : Fin 384) d)
  tt : ∀ (j : Fin 20) (d : Fin 128), (W1 (F := Ideal) m ρ c (Proc.devRef .tc main_v25) : S20x128.Idx → EReal) (ix2 j d)
    = (∑ k : Fin 128, ar7 m c (ix2 j k) * ar8 m c (ix2 (⟨256 + k.val, by omega⟩ : Fin 384) d)) + ar9 m c (ix1 d)

structure AtW14 : Prop where
  v171 : W14 (F := Ideal) m ρ c (Proc.devRef .tc main_v171) = ReferenceIdeal.ReadP.val_main_v215 (F := Ideal) (ar0 m c) (ar1 m c) (ar2 m c) (ar4 m c) (ar6 m c) (ar7 m c) (ar8 m c) (ar9 m c) (ar10 m c) (ar11 m c) (ar12 m c) (ar13 m c)
  v193 : W14 (F := Ideal) m ρ c (Proc.devRef .tc main_v193) = ReferenceIdeal.ReadP.val_main_v242 (F := Ideal) (ar0 m c) (ar1 m c) (ar3 m c) (ar5 m c) (ar6 m c) (ar7 m c) (ar8 m c) (ar9 m c) (ar10 m c) (ar11 m c) (ar12 m c) (ar13 m c)
  v194 : W14 (F := Ideal) m ρ c (Proc.devRef .tc main_v194) = ReferenceIdeal.ReadP.val_main_v269 (F := Ideal) (ar0 m c) (ar1 m c) (ar2 m c) (ar3 m c) (ar4 m c) (ar5 m c) (ar6 m c) (ar7 m c) (ar8 m c) (ar9 m c) (ar10 m c) (ar11 m c) (ar12 m c) (ar13 m c)
  v195 : W14 (F := Ideal) m ρ c (Proc.devRef .tc main_v195) = ReferenceIdeal.ReadP.val_main_v271 (F := Ideal) (ar0 m c) (ar1 m c) (ar2 m c) (ar3 m c) (ar4 m c) (ar5 m c) (ar6 m c) (ar7 m c) (ar8 m c) (ar9 m c) (ar10 m c) (ar11 m c) (ar12 m c) (ar13 m c)
  v110 : W14 (F := Ideal) m ρ c (Proc.devRef .tc main_v110) = ReferenceIdeal.ReadP.val_main_v151 (F := Ideal) (ar0 m c) (ar1 m c) (ar2 m c) (ar4 m c) (ar6 m c) (ar7 m c) (ar8 m c) (ar9 m c) (ar10 m c) (ar11 m c) (ar12 m c) (ar13 m c)
  v147 : W14 (F := Ideal) m ρ c (Proc.devRef .tc main_v147) = ReferenceIdeal.ReadP.val_main_v188 (F := Ideal) (ar0 m c) (ar1 m c) (ar3 m c) (ar5 m c) (ar6 m c) (ar7 m c) (ar8 m c) (ar9 m c) (ar10 m c) (ar11 m c) (ar12 m c) (ar13 m c)

variable {m ρ c}

set_option maxHeartbeats 400000 in
theorem chain_W14 (h : AtW8 m ρ c) (a4 a5 : Fin 160000 → Fin 20)
    (ha4 : ∀ e : Fin 160000, ar4 m c (ix2 e (0 : Fin 1)) = BitVec.ofNat 32 (a4 e).val)
    (ha5 : ∀ e : Fin 160000, ar5 m c (ix2 e (0 : Fin 1)) = BitVec.ofNat 32 (a5 e).val)
    (h6 : Spec.IsReal (ar6 m c)) : AtW14 m ρ c := by

  have wd8 : ∀ k d : Fin 128, (W8 (F := Ideal) m ρ c (Proc.devRef .tc main_v17) : S128x128.Idx → EReal) (ix2 k d)
      = ar8 m c (ix2 (⟨k.val, by omega⟩ : Fin 384) d) := fun k d => by rw [show W8 m ρ c (Proc.devRef .tc main_v17) = W1 m ρ c (Proc.devRef .tc main_v17) from carry m ρ c main_v17 1 8 (by decide +kernel)]; exact h.wd k d
  have ws8 : ∀ k d : Fin 128, (W8 (F := Ideal) m ρ c (Proc.devRef .tc main_v19) : S128x128.Idx → EReal) (ix2 k d)
      = ar8 m c (ix2 (⟨128 + k.val, by omega⟩ : Fin 384) d) := fun k d => by rw [show W8 m ρ c (Proc.devRef .tc main_v19) = W1 m ρ c (Proc.devRef .tc main_v19) from carry m ρ c main_v19 1 8 (by decide +kernel)]; exact h.ws k d
  have tt8 : ∀ (j : Fin 20) (d : Fin 128), (W8 (F := Ideal) m ρ c (Proc.devRef .tc main_v25) : S20x128.Idx → EReal) (ix2 j d)
      = (∑ k : Fin 128, ar7 m c (ix2 j k) * ar8 m c (ix2 (⟨256 + k.val, by omega⟩ : Fin 384) d)) + ar9 m c (ix1 d) :=
    fun j d => by rw [show W8 m ρ c (Proc.devRef .tc main_v25) = W1 m ρ c (Proc.devRef .tc main_v25) from carry m ρ c main_v25 1 8 (by decide +kernel)]; exact h.tt j d
  have v168 : W9 (F := Ideal) m ρ c (Proc.devRef .tc main_v168) = ReferenceIdeal.ReadP.val_main_v212 (F := Ideal) (ar0 m c) (ar1 m c) (ar2 m c) (ar4 m c) (ar6 m c) (ar7 m c) (ar8 m c) (ar9 m c) (ar10 m c) (ar11 m c) (ar12 m c) (ar13 m c) :=
    (W9_arr m ρ c 6).trans (region4_ref (V8 m ρ) (ar0 m c) (ar1 m c) (ar2 m c) (ar4 m c) (ar6 m c) (ar7 m c) (ar8 m c) (ar9 m c) (ar10 m c) (ar11 m c) (ar12 m c) (ar13 m c) c a4 ha4 h.v160 h.v167 (carry m ρ c main_arg4 0 8 (by decide +kernel)) wd8 ws8 tt8)

  have v153 : W9 (F := Ideal) m ρ c (Proc.devRef .tc main_v153) = ReferenceIdeal.ReadP.val_main_v192 (F := Ideal) (ar2 m c) := (carry m ρ c main_v153 8 9 (by decide +kernel)).trans h.v153
  have v149 : (W9 (F := Ideal) m ρ c (Proc.devRef .tc main_v149) : S10000x128.Idx → EReal) = ReferenceIdeal.ReadP.val_main_v188 (F := Ideal) (ar0 m c) (ar1 m c) (ar3 m c) (ar5 m c) (ar6 m c) (ar7 m c) (ar8 m c) (ar9 m c) (ar10 m c) (ar11 m c) (ar12 m c) (ar13 m c) := (carry m ρ c main_v149 8 9 (by decide +kernel)).trans h.v149
  have arg3 : W9 (F := Ideal) m ρ c (Proc.devRef .tc main_arg3) = ar3 m c := carry m ρ c main_arg3 0 9 (by decide +kernel)
  have v171 : W10 (F := Ideal) m ρ c (Proc.devRef .tc main_v171) = ReferenceIdeal.ReadP.val_main_v215 (F := Ideal) (ar0 m c) (ar1 m c) (ar2 m c) (ar4 m c) (ar6 m c) (ar7 m c) (ar8 m c) (ar9 m c) (ar10 m c) (ar11 m c) (ar12 m c) (ar13 m c) := host5_v171 (W9 m ρ c) (ar0 m c) (ar1 m c) (ar2 m c) (ar4 m c) (ar6 m c) (ar7 m c) (ar8 m c) (ar9 m c) (ar10 m c) (ar11 m c) (ar12 m c) (ar13 m c) v153 v168
  have v175 : W10 (F := Ideal) m ρ c (Proc.devRef .tc main_v175) = ReferenceIdeal.ReadP.val_main_v219 (F := Ideal) (ar3 m c) := host5_v175 (W9 m ρ c) (ar3 m c) arg3
  have v182 : (W10 (F := Ideal) m ρ c (Proc.devRef .tc main_v182) : S160000x128.Idx → EReal) = ReferenceIdeal.ReadP.val_main_v226 (F := Ideal) (ar0 m c) (ar1 m c) (ar3 m c) (ar5 m c) (ar6 m c) (ar7 m c) (ar8 m c) (ar9 m c) (ar10 m c) (ar11 m c) (ar12 m c) (ar13 m c) := host5_v182 (W9 m ρ c) (ar0 m c) (ar1 m c) (ar3 m c) (ar5 m c) (ar6 m c) (ar7 m c) (ar8 m c) (ar9 m c) (ar10 m c) (ar11 m c) (ar12 m c) (ar13 m c) v149 arg3
  have v189 : (W10 (F := Ideal) m ρ c (Proc.devRef .tc main_v189) : S160000x128.Idx → EReal) = ReferenceIdeal.ReadP.val_main_v233 (F := Ideal) (ar0 m c) (ar1 m c) (ar3 m c) (ar5 m c) (ar6 m c) (ar7 m c) (ar8 m c) (ar9 m c) (ar10 m c) (ar11 m c) (ar12 m c) (ar13 m c) := host5_v189 (W9 m ρ c) (ar0 m c) (ar1 m c) (ar3 m c) (ar5 m c) (ar6 m c) (ar7 m c) (ar8 m c) (ar9 m c) (ar10 m c) (ar11 m c) (ar12 m c) (ar13 m c) v149 arg3

  have wd10 : ∀ k d : Fin 128, (W10 (F := Ideal) m ρ c (Proc.devRef .tc main_v17) : S128x128.Idx → EReal) (ix2 k d)
      = ar8 m c (ix2 (⟨k.val, by omega⟩ : Fin 384) d) := fun k d => by rw [show W10 m ρ c (Proc.devRef .tc main_v17) = W1 m ρ c (Proc.devRef .tc main_v17) from carry m ρ c main_v17 1 10 (by decide +kernel)]; exact h.wd k d
  have ws10 : ∀ k d : Fin 128, (W10 (F := Ideal) m ρ c (Proc.devRef .tc main_v19) : S128x128.Idx → EReal) (ix2 k d)
      = ar8 m c (ix2 (⟨128 + k.val, by omega⟩ : Fin 384) d) := fun k d => by rw [show W10 m ρ c (Proc.devRef .tc main_v19) = W1 m ρ c (Proc.devRef .tc main_v19) from carry m ρ c main_v19 1 10 (by decide +kernel)]; exact h.ws k d
  have tt10 : ∀ (j : Fin 20) (d : Fin 128), (W10 (F := Ideal) m ρ c (Proc.devRef .tc main_v25) : S20x128.Idx → EReal) (ix2 j d)
      = (∑ k : Fin 128, ar7 m c (ix2 j k) * ar8 m c (ix2 (⟨256 + k.val, by omega⟩ : Fin 384) d)) + ar9 m c (ix1 d) :=
    fun j d => by rw [show W10 m ρ c (Proc.devRef .tc main_v25) = W1 m ρ c (Proc.devRef .tc main_v25) from carry m ρ c main_v25 1 10 (by decide +kernel)]; exact h.tt j d
  have v190 : W11 (F := Ideal) m ρ c (Proc.devRef .tc main_v190) = ReferenceIdeal.ReadP.val_main_v239 (F := Ideal) (ar0 m c) (ar1 m c) (ar3 m c) (ar5 m c) (ar6 m c) (ar7 m c) (ar8 m c) (ar9 m c) (ar10 m c) (ar11 m c) (ar12 m c) (ar13 m c) :=
    (W11_arr m ρ c 6).trans (region5_ref (V10 m ρ) (ar0 m c) (ar1 m c) (ar3 m c) (ar5 m c) (ar6 m c) (ar7 m c) (ar8 m c) (ar9 m c) (ar10 m c) (ar11 m c) (ar12 m c) (ar13 m c) c a5 ha5 v182 v189 (carry m ρ c main_arg5 0 10 (by decide +kernel)) wd10 ws10 tt10)

  have v175' : W11 (F := Ideal) m ρ c (Proc.devRef .tc main_v175) = ReferenceIdeal.ReadP.val_main_v219 (F := Ideal) (ar3 m c) := (carry m ρ c main_v175 10 11 (by decide +kernel)).trans v175
  have v193 : W12 (F := Ideal) m ρ c (Proc.devRef .tc main_v193) = ReferenceIdeal.ReadP.val_main_v242 (F := Ideal) (ar0 m c) (ar1 m c) (ar3 m c) (ar5 m c) (ar6 m c) (ar7 m c) (ar8 m c) (ar9 m c) (ar10 m c) (ar11 m c) (ar12 m c) (ar13 m c) := host6_v193 (W11 m ρ c) (ar0 m c) (ar1 m c) (ar3 m c) (ar5 m c) (ar6 m c) (ar7 m c) (ar8 m c) (ar9 m c) (ar10 m c) (ar11 m c) (ar12 m c) (ar13 m c) v175' v190

  have v110 : (W12 (F := Ideal) m ρ c (Proc.devRef .tc main_v110) : S10000x128.Idx → EReal) = ReferenceIdeal.ReadP.val_main_v151 (F := Ideal) (ar0 m c) (ar1 m c) (ar2 m c) (ar4 m c) (ar6 m c) (ar7 m c) (ar8 m c) (ar9 m c) (ar10 m c) (ar11 m c) (ar12 m c) (ar13 m c) := (carry m ρ c main_v110 8 12 (by decide +kernel)).trans h.v110
  have v149' : (W12 (F := Ideal) m ρ c (Proc.devRef .tc main_v149) : S10000x128.Idx → EReal) = ReferenceIdeal.ReadP.val_main_v188 (F := Ideal) (ar0 m c) (ar1 m c) (ar3 m c) (ar5 m c) (ar6 m c) (ar7 m c) (ar8 m c) (ar9 m c) (ar10 m c) (ar11 m c) (ar12 m c) (ar13 m c) := (carry m ρ c main_v149 8 12 (by decide +kernel)).trans h.v149
  have v194 : W13 (F := Ideal) m ρ c (Proc.devRef .tc main_v194) = ReferenceIdeal.ReadP.val_main_v269 (F := Ideal) (ar0 m c) (ar1 m c) (ar2 m c) (ar3 m c) (ar4 m c) (ar5 m c) (ar6 m c) (ar7 m c) (ar8 m c) (ar9 m c) (ar10 m c) (ar11 m c) (ar12 m c) (ar13 m c) :=
    (W13_arr m ρ c 2).trans (region6_ref (V12 m ρ) (ar0 m c) (ar1 m c) (ar2 m c) (ar3 m c) (ar4 m c) (ar5 m c) (ar6 m c) (ar7 m c) (ar8 m c) (ar9 m c) (ar10 m c) (ar11 m c) (ar12 m c) (ar13 m c) c v110 v149' h6)

  have v147 : (W13 (F := Ideal) m ρ c (Proc.devRef .tc main_v147) : S10000x128.Idx → EReal) = ReferenceIdeal.ReadP.val_main_v188 (F := Ideal) (ar0 m c) (ar1 m c) (ar3 m c) (ar5 m c) (ar6 m c) (ar7 m c) (ar8 m c) (ar9 m c) (ar10 m c) (ar11 m c) (ar12 m c) (ar13 m c) := (carry m ρ c main_v147 8 13 (by decide +kernel)).trans h.v147
  have v148 : (W13 (F := Ideal) m ρ c (Proc.devRef .tc main_v148) : S10000x128.Idx → EReal) = ReferenceIdeal.ReadP.val_main_v151 (F := Ideal) (ar0 m c) (ar1 m c) (ar2 m c) (ar4 m c) (ar6 m c) (ar7 m c) (ar8 m c) (ar9 m c) (ar10 m c) (ar11 m c) (ar12 m c) (ar13 m c) := (carry m ρ c main_v148 8 13 (by decide +kernel)).trans h.v148
  have v195 : W14 (F := Ideal) m ρ c (Proc.devRef .tc main_v195) = ReferenceIdeal.ReadP.val_main_v271 (F := Ideal) (ar0 m c) (ar1 m c) (ar2 m c) (ar3 m c) (ar4 m c) (ar5 m c) (ar6 m c) (ar7 m c) (ar8 m c) (ar9 m c) (ar10 m c) (ar11 m c) (ar12 m c) (ar13 m c) :=
    (W14_arr m ρ c 2).trans (region7_ref (V13 m ρ) (ar0 m c) (ar1 m c) (ar2 m c) (ar3 m c) (ar4 m c) (ar5 m c) (ar6 m c) (ar7 m c) (ar8 m c) (ar9 m c) (ar10 m c) (ar11 m c) (ar12 m c) (ar13 m c) c v147 v148 h6)
  exact
    { v171 := (carry m ρ c main_v171 10 14 (by decide +kernel)).trans v171
      v193 := (carry m ρ c main_v193 12 14 (by decide +kernel)).trans v193
      v194 := (carry m ρ c main_v194 13 14 (by decide +kernel)).trans v194
      v195 := v195
      v110 := (carry m ρ c main_v110 8 14 (by decide +kernel)).trans h.v110
      v147 := (carry m ρ c main_v147 8 14 (by decide +kernel)).trans h.v147 }

theorem results_of_W14 (h : AtW14 m ρ c) :
    W15 (F := Ideal) m ρ c (Proc.devRef .tc main_v294) = ReferenceIdeal.ReadP.val_main_v370 (F := Ideal) (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c)
    ∧ W15 (F := Ideal) m ρ c (Proc.devRef .tc main_v319) = ReferenceIdeal.ReadP.val_main_v395 (F := Ideal) (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c) :=
  ⟨host8_v294 (W14 m ρ c) (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c)
      (host8_v232 (W14 m ρ c) (ar0 m c) (ar1 m c) (ar2 m c) (ar3 m c) (ar4 m c) (ar5 m c) (ar6 m c) (ar7 m c) (ar8 m c) (ar9 m c) (ar10 m c) (ar11 m c) (ar12 m c) (ar13 m c) h.v171 h.v194 h.v110
        (carry m ρ c main_arg10 0 14 (by decide +kernel)) (carry m ρ c main_arg11 0 14 (by decide +kernel)) (carry m ρ c main_arg12 0 14 (by decide +kernel)) (carry m ρ c main_arg13 0 14 (by decide +kernel)))
      (carry m ρ c main_arg14 0 14 (by decide +kernel)) (carry m ρ c main_arg15 0 14 (by decide +kernel)),
    host8_v319 (W14 m ρ c) (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c)
      (host8_v269 (W14 m ρ c) (ar0 m c) (ar1 m c) (ar2 m c) (ar3 m c) (ar4 m c) (ar5 m c) (ar6 m c) (ar7 m c) (ar8 m c) (ar9 m c) (ar10 m c) (ar11 m c) (ar12 m c) (ar13 m c) h.v193 h.v195 h.v147
        (carry m ρ c main_arg10 0 14 (by decide +kernel)) (carry m ρ c main_arg11 0 14 (by decide +kernel)) (carry m ρ c main_arg12 0 14 (by decide +kernel)) (carry m ρ c main_arg13 0 14 (by decide +kernel)))
      (carry m ρ c main_arg14 0 14 (by decide +kernel)) (carry m ρ c main_arg15 0 14 (by decide +kernel))⟩

end Cert.KernelIdeal.Val

end
-- ==== Proof.Val.PreFacts.lean ====
import proofs.«407386_j15839839387945_2_alg».proof.Pre_finite_inputs
import proofs.«407386_j15839839387945_2_alg».proof.Proof.Spec
import Idealize.ShloMosaic.Lib.ReduceAll
import Idealize.ShloMosaic.Lib.StableHlo.Predicate
import Idealize.ShloMosaic.PureOps.Ideal

noncomputable section

namespace Cert.Val.PreFacts

open Idealize.ShloMosaic Idealize.ShloMosaic.ValueIdx Cert.Pre_finite_inputs

local instance : Subsingleton S_.Idx := ⟨fun a b => funext fun d => d.elim0⟩

theorem inf_pattern : Ideal.ofBits .f32 0x7F800000#32 = (⊤ : EReal) := by
  simp [Ideal.ofBits, Ideal.ieee]

theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem isReal_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32)))
          (constantI S_ 1 1#1) hr hu ix0 = 1#1) : Spec.IsReal x := by
  intro i
  have e := Host.reduce_andi_all _ _ hr hu ix0 h i
  apply real_of_abs_lt_top
  rw [← inf_pattern]
  exact e

theorem toNat_lt_of_sge_zero (w : BitVec 32) (h : IntOp.cmpi .sge w 0#32 = 1#1) : w.toNat < 2 ^ 31 := by
  have h' : BitVec.ofBool ((0#32 : BitVec 32).sle w) = 1#1 := h
  rw [StableHlo.Predicate.ofBool_eq_one_iff, BitVec.sle_eq_decide, decide_eq_true_eq] at h'
  have h0 : (0#32 : BitVec 32).toInt = 0 := by decide
  rw [h0, BitVec.toInt_pos_iff] at h'
  omega

theorem toNat_lt_twenty (w : BitVec 32) (h0 : IntOp.cmpi .sge w 0#32 = 1#1) (h1 : IntOp.cmpi .slt w 20#32 = 1#1) :
    w.toNat < 20 := by
  have hw := toNat_lt_of_sge_zero w h0
  have := (StableHlo.Predicate.slt_iff_toNat hw (by decide)).1 h1
  simpa using this

theorem attr_of_all (a : IVec S160000x1 32)
    (hb : S_.BroadcastsInDim S160000x1 (![] : Fin 0 → Fin S160000x1.rank)) {axes : List (Fin S160000x1.rank)}
    (hr : S160000x1.ReducesTo axes S_) (hu : 0 < S_.numel)
    (h : Host.reduce IntOp.andi
          (andi (cmpi .sge a (broadcastInDim S160000x1 ![] hb (constantI S_ 32 0#32)))
                (cmpi .slt a (broadcastInDim S160000x1 ![] hb (constantI S_ 32 20#32))))
          (constantI S_ 1 1#1) hr hu ix0 = 1#1) :
    ∃ f : Fin 160000 → Fin 20, ∀ e : Fin 160000, a (ix2 e 0) = BitVec.ofNat 32 (f e).val := by
  have hlt : ∀ e : Fin 160000, (a (ix2 e 0)).toNat < 20 := fun e => by
    have e1 := Host.reduce_andi_all _ _ hr hu ix0 h (ix2 e 0)
    obtain ⟨h0, h1⟩ := IntOp.andi_eq_one.1 e1
    exact toNat_lt_twenty _ h0 h1
  refine ⟨fun e => ⟨(a (ix2 e 0)).toNat, hlt e⟩, fun e => ?_⟩
  apply BitVec.eq_of_toNat_eq
  have := hlt e
  simp only [BitVec.toNat_ofNat]
  omega

variable [Cert.Pre_finite_inputs.Facts]
variable (a0 : IVec S10000x1 32) (a1 : IVec S10000x1 32) (a2 : IVec S2x160000 32) (a3 : IVec S2x160000 32)
  (a4 : IVec S160000x1 32) (a5 : IVec S160000x1 32) (a6 : FVec Ideal S32000x128 .f32) (a7 : FVec Ideal S20x128 .f32)
  (a8 : FVec Ideal S384x128 .f32) (a9 : FVec Ideal S128 .f32) (a10 : FVec Ideal S256x384 .f32) (a11 : FVec Ideal S384 .f32)
  (a12 : FVec Ideal S128x384 .f32) (a13 : FVec Ideal S384 .f32) (a14 : FVec Ideal S128x1 .f32) (a15 : FVec Ideal S1 .f32)

theorem decode_pre
    (h : Cert.Pre_finite_inputs.fn (F := Ideal) a0 a1 a2 a3 a4 a5 a6 a7 a8 a9 a10 a11 a12 a13 a14 a15 = fun _ => 1#1) :
    (Spec.IsReal a6 ∧ Spec.IsReal a7 ∧ Spec.IsReal a8 ∧ Spec.IsReal a9 ∧ Spec.IsReal a10 ∧ Spec.IsReal a11 ∧ Spec.IsReal a12
        ∧ Spec.IsReal a13 ∧ Spec.IsReal a14 ∧ Spec.IsReal a15)
      ∧ (∃ f : Fin 160000 → Fin 20, ∀ e : Fin 160000, a4 (ix2 e 0) = BitVec.ofNat 32 (f e).val)
      ∧ (∃ f : Fin 160000 → Fin 20, ∀ e : Fin 160000, a5 (ix2 e 0) = BitVec.ofNat 32 (f e).val) := by
  have e := congrFun h ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨h6, h7⟩, h8⟩, h9⟩, h10⟩, h11⟩, h12⟩, h13⟩, h14⟩, h15⟩, h4⟩, h5⟩ := e
  exact ⟨⟨isReal_of_all _ _ _ _ h6, isReal_of_all _ _ _ _ h7, isReal_of_all _ _ _ _ h8, isReal_of_all _ _ _ _ h9,
      isReal_of_all _ _ _ _ h10, isReal_of_all _ _ _ _ h11, isReal_of_all _ _ _ _ h12, isReal_of_all _ _ _ _ h13,
      isReal_of_all _ _ _ _ h14, isReal_of_all _ _ _ _ h15⟩,
    attr_of_all _ _ _ _ h4, attr_of_all _ _ _ _ h5⟩

end Cert.Val.PreFacts

end
-- ==== Proof.Val.KernelValue.lean ====
import proofs.«407386_j15839839387945_2_alg».proof.Proof.Val.Chain1
import proofs.«407386_j15839839387945_2_alg».proof.Proof.Val.Chain2
import proofs.«407386_j15839839387945_2_alg».proof.Proof.Val.HostL4
import proofs.«407386_j15839839387945_2_alg».proof.Proof.Val.Host0
import proofs.«407386_j15839839387945_2_alg».proof.Proof.Val.PreFacts

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open scoped BigOperators

variable {m : (ℓ : Loc nD τ sig) → Buf (Elt Ideal) ℓ} {ρ : Dev nD → PrngReg} {c : Dev nD}

theorem atW8_of (h : AtW7 m ρ c) : AtW8 m ρ c :=
  { v110 := (chain_W8_of h).1
    v147 := (chain_W8_of h).2
    v148 := host4_v148 (W7 m ρ c) (ar0 m c) (ar1 m c) (ar2 m c) (ar4 m c) (ar6 m c) (ar7 m c) (ar8 m c) (ar9 m c) (ar10 m c) (ar11 m c) (ar12 m c) (ar13 m c) h.v49 h.v72 h.v7 (carry m ρ c main_arg10 0 7 (by decide)) (carry m ρ c main_arg11 0 7 (by decide)) (carry m ρ c main_arg12 0 7 (by decide)) (carry m ρ c main_arg13 0 7 (by decide))
    v149 := host4_v149 (W7 m ρ c) (ar0 m c) (ar1 m c) (ar3 m c) (ar5 m c) (ar6 m c) (ar7 m c) (ar8 m c) (ar9 m c) (ar10 m c) (ar11 m c) (ar12 m c) (ar13 m c) h.v71 h.v73 h.v15 (carry m ρ c main_arg10 0 7 (by decide)) (carry m ρ c main_arg11 0 7 (by decide)) (carry m ρ c main_arg12 0 7 (by decide)) (carry m ρ c main_arg13 0 7 (by decide))
    v153 := host4_v153 (W7 m ρ c) (ar2 m c) (carry m ρ c main_arg2 0 7 (by decide))
    v160 := host4_v160 (W7 m ρ c) (ar0 m c) (ar1 m c) (ar2 m c) (ar4 m c) (ar6 m c) (ar7 m c) (ar8 m c) (ar9 m c) (ar10 m c) (ar11 m c) (ar12 m c) (ar13 m c) h.v49 h.v72 h.v7 (carry m ρ c main_arg10 0 7 (by decide)) (carry m ρ c main_arg11 0 7 (by decide)) (carry m ρ c main_arg12 0 7 (by decide)) (carry m ρ c main_arg13 0 7 (by decide)) (carry m ρ c main_arg2 0 7 (by decide))
    v167 := host4_v167 (W7 m ρ c) (ar0 m c) (ar1 m c) (ar2 m c) (ar4 m c) (ar6 m c) (ar7 m c) (ar8 m c) (ar9 m c) (ar10 m c) (ar11 m c) (ar12 m c) (ar13 m c) h.v49 h.v72 h.v7 (carry m ρ c main_arg10 0 7 (by decide)) (carry m ρ c main_arg11 0 7 (by decide)) (carry m ρ c main_arg12 0 7 (by decide)) (carry m ρ c main_arg13 0 7 (by decide)) (carry m ρ c main_arg2 0 7 (by decide))
    wd := fun k d => host0_v17_apply (W0 m ρ c) k d
    ws := fun k d => host0_v19_apply (W0 m ρ c) k d
    tt := fun j d => host0_v25_apply (W0 m ρ c) j d }

variable (m ρ c)

theorem kernel_value [Cert.Pre_finite_inputs.Facts]
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = fun _ => 1#1) :
    W15 (F := Ideal) m ρ c (Proc.devRef .tc main_v294) = ReferenceIdeal.ReadP.val_main_v370 (F := Ideal) (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c)
    ∧ W15 (F := Ideal) m ρ c (Proc.devRef .tc main_v319) = ReferenceIdeal.ReadP.val_main_v395 (F := Ideal) (ar0 m c) (ar1 m c) (ar2 m c) (ar3 m c) (ar4 m c) (ar5 m c) (ar6 m c) (ar7 m c) (ar8 m c) (ar9 m c) (ar10 m c) (ar11 m c) (ar12 m c) (ar13 m c) (ar14 m c) (ar15 m c) := by
  obtain ⟨⟨h6, -⟩, ⟨a4, ha4⟩, ⟨a5, ha5⟩⟩ := Cert.Val.PreFacts.decode_pre _ _ _ _ _ _ _ _ _ _ _ _ _ _ _ _ hpre
  have h7 : AtW7 m ρ c := chain_W7 a4 a5 ha4 ha5 h6
  exact results_of_W14 (chain_W14 (atW8_of h7) a4 a5 ha4 ha5 h6)

end Cert.KernelIdeal.Val

end
-- ==== Proof.Val.RefRunBase.lean ====
import proofs.«407386_j15839839387945_2_alg».proof.Proof.RefRead
import Idealize.ShloMosaic.Lib.StableHlo.Run
import Idealize.ShloMosaic.Lib.Pipeline.Frame
import Mathlib.Tactic.FinCases

noncomputable section

namespace Cert.RefRun

open Cert.ReferenceIdeal Cert.ReferenceIdeal.Gen Idealize.ShloMosaic Idealize.ShloMosaic.TcCoe Idealize.SL.Sem Idealize.ShloMosaic.StableHlo

section General

variable {τ : Topo} {sig : RefSig} {Val : EltTy → Type}

theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

theorem nary3_result' {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (no_index (Proc.devRef .tc y))
      = f (Fin.cons (W (Proc.devRef .tc x)) (Fin.cons (W (Proc.devRef .tc a)) (Fin.cons (W (Proc.devRef .tc b)) (fun i => i.elim0)))) :=
  nary3_result f hxs hy W

theorem forall_mem_append_of {α : Type _} {p : α → Prop} {l₁ l₂ : List α} (h₁ : ∀ x ∈ l₁, p x) (h₂ : ∀ x ∈ l₂, p x) :
    ∀ x ∈ l₁ ++ l₂, p x := fun x hx => (List.mem_append.1 hx).elim (h₁ x) (h₂ x)

end General

macro "line_results" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne']))

macro "stage_of" "[" hs:Lean.Parser.Tactic.simpLemma,* "]" : tactic =>
  `(tactic| (line_results
             try simp only [$hs,*]
             try simp only [TRef.ofBuf, TRef.toBuf, cast_eq]
             try rfl))

theorem scopedRefs_eq : (Finset.univ.filter fun b : Ref sig .tc => b.isScoped) = ∅ := by decide

theorem scopedSems_eq : (Finset.univ.filter fun sm : SemLoc sig => sm.isScoped .tc) = ∅ := by decide

end Cert.RefRun

end
-- ==== Proof.Val.RefRunW0.lean ====
import proofs.«407386_j15839839387945_2_alg».proof.Proof.Val.RefRunBase

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 30 of @main, in order. -/
abbrev c00 : List (HloOp τ sig (Elt F)) :=
  [ reshape main_arg0 main_v0 rfl shapeCasts_S10000x1_S10000,
    nullary main_c (constantI S_ 32 0#32),
    unary main_c main_v1 (broadcastInDim S10000 ![] bcast_S_S10000 : (⟨S_, .i32⟩ : BufTy).Contents (Elt F) → (⟨S10000, .i32⟩ : BufTy).Contents (Elt F)),
    binary main_v0 main_v1 main_v2 (cmpi .slt : (⟨S10000, .i32⟩ : BufTy).Contents (Elt F) → (⟨S10000, .i32⟩ : BufTy).Contents (Elt F) → (⟨S10000, .i1⟩ : BufTy).Contents (Elt F)),
    nullary main_c_0 (constantI S_ 32 32000#32),
    unary main_c_0 main_v3 (broadcastInDim S10000 ![] bcast_S_S10000 : (⟨S_, .i32⟩ : BufTy).Contents (Elt F) → (⟨S10000, .i32⟩ : BufTy).Contents (Elt F)),
    binary main_v0 main_v3 main_v4 (addi : (⟨S10000, .i32⟩ : BufTy).Contents (Elt F) → (⟨S10000, .i32⟩ : BufTy).Contents (Elt F) → (⟨S10000, .i32⟩ : BufTy).Contents (Elt F)),
    ternary main_v2 main_v4 main_v0 main_v5 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v5 main_v6 (broadcastInDim S10000x1 ![0] bcast_S10000_S10000x1_0 : (⟨S10000, .i32⟩ : BufTy).Contents (Elt F) → (⟨S10000x1, .i32⟩ : BufTy).Contents (Elt F)),
    binary main_arg6 main_v6 main_v7 ((fun x i => Host.gather gather_S32000x128_S10000x1_S10000x128_1_0_n_n_0_1_1128 x i) : (⟨S32000x128, .f32⟩ : BufTy).Contents (Elt F) → (⟨S10000x1, .i32⟩ : BufTy).Contents (Elt F) → (⟨S10000x128, .f32⟩ : BufTy).Contents (Elt F)),
    reshape main_arg1 main_v8 rfl shapeCasts_S10000x1_S10000,
    nullary main_c_1 (constantI S_ 32 0#32),
    unary main_c_1 main_v9 (broadcastInDim S10000 ![] bcast_S_S10000 : (⟨S_, .i32⟩ : BufTy).Contents (Elt F) → (⟨S10000, .i32⟩ : BufTy).Contents (Elt F)),
    binary main_v8 main_v9 main_v10 (cmpi .slt : (⟨S10000, .i32⟩ : BufTy).Contents (Elt F) → (⟨S10000, .i32⟩ : BufTy).Contents (Elt F) → (⟨S10000, .i1⟩ : BufTy).Contents (Elt F)),
    nullary main_c_2 (constantI S_ 32 32000#32),
    unary main_c_2 main_v11 (broadcastInDim S10000 ![] bcast_S_S10000 : (⟨S_, .i32⟩ : BufTy).Contents (Elt F) → (⟨S10000, .i32⟩ : BufTy).Contents (Elt F)),
    binary main_v8 main_v11 main_v12 (addi : (⟨S10000, .i32⟩ : BufTy).Contents (Elt F) → (⟨S10000, .i32⟩ : BufTy).Contents (Elt F) → (⟨S10000, .i32⟩ : BufTy).Contents (Elt F)),
    ternary main_v10 main_v12 main_v8 main_v13 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v13 main_v14 (broadcastInDim S10000x1 ![0] bcast_S10000_S10000x1_0 : (⟨S10000, .i32⟩ : BufTy).Contents (Elt F) → (⟨S10000x1, .i32⟩ : BufTy).Contents (Elt F)),
    binary main_arg6 main_v14 main_v15 ((fun x i => Host.gather gather_S32000x128_S10000x1_S10000x128_1_0_n_n_0_1_1128 x i) : (⟨S32000x128, .f32⟩ : BufTy).Contents (Elt F) → (⟨S10000x1, .i32⟩ : BufTy).Contents (Elt F) → (⟨S10000x128, .f32⟩ : BufTy).Contents (Elt F)),
    reshape main_arg4 main_v16 rfl shapeCasts_S160000x1_S160000,
    nullary main_c_3 (constantI S_ 32 0#32),
    unary main_c_3 main_v17 (broadcastInDim S160000 ![] bcast_S_S160000 : (⟨S_, .i32⟩ : BufTy).Contents (Elt F) → (⟨S160000, .i32⟩ : BufTy).Contents (Elt F)),
    binary main_v16 main_v17 main_v18 (cmpi .slt : (⟨S160000, .i32⟩ : BufTy).Contents (Elt F) → (⟨S160000, .i32⟩ : BufTy).Contents (Elt F) → (⟨S160000, .i1⟩ : BufTy).Contents (Elt F)),
    nullary main_c_4 (constantI S_ 32 20#32),
    unary main_c_4 main_v19 (broadcastInDim S160000 ![] bcast_S_S160000 : (⟨S_, .i32⟩ : BufTy).Contents (Elt F) → (⟨S160000, .i32⟩ : BufTy).Contents (Elt F)),
    binary main_v16 main_v19 main_v20 (addi : (⟨S160000, .i32⟩ : BufTy).Contents (Elt F) → (⟨S160000, .i32⟩ : BufTy).Contents (Elt F) → (⟨S160000, .i32⟩ : BufTy).Contents (Elt F)),
    ternary main_v18 main_v20 main_v16 main_v21 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v21 main_v22 (broadcastInDim S160000x1 ![0] bcast_S160000_S160000x1_0 : (⟨S160000, .i32⟩ : BufTy).Contents (Elt F) → (⟨S160000x1, .i32⟩ : BufTy).Contents (Elt F)),
    binary main_arg7 main_v22 main_v23 ((fun x i => Host.gather gather_S20x128_S160000x1_S160000x128_1_0_n_n_0_1_1128 x i) : (⟨S20x128, .f32⟩ : BufTy).Contents (Elt F) → (⟨S160000x1, .i32⟩ : BufTy).Contents (Elt F) → (⟨S160000x128, .f32⟩ : BufTy).Contents (Elt F)) ]

set_option maxRecDepth 4096 in
/-- Every buffer these operations touch is a TensorCore reference. -/
theorem c00_sub : (c00 (F := F)).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩

/-- Each of these operations determines its result. -/
theorem c00_fresh : ∀ op ∈ (c00 (F := F)), op.fresh = ∅ := by
  intro _ h; (repeat (cases h with | head => rfl | tail _ h => ?_)); exact nomatch h

/-- Operations 31 … 60 of @main, in order. -/
abbrev c01 : List (HloOp τ sig (Elt F)) :=
  [ reshape main_arg5 main_v24 rfl shapeCasts_S160000x1_S160000,
    nullary main_c_5 (constantI S_ 32 0#32),
    unary main_c_5 main_v25 (broadcastInDim S160000 ![] bcast_S_S160000 : (⟨S_, .i32⟩ : BufTy).Contents (Elt F) → (⟨S160000, .i32⟩ : BufTy).Contents (Elt F)),
    binary main_v24 main_v25 main_v26 (cmpi .slt : (⟨S160000, .i32⟩ : BufTy).Contents (Elt F) → (⟨S160000, .i32⟩ : BufTy).Contents (Elt F) → (⟨S160000, .i1⟩ : BufTy).Contents (Elt F)),
    nullary main_c_6 (constantI S_ 32 20#32),
    unary main_c_6 main_v27 (broadcastInDim S160000 ![] bcast_S_S160000 : (⟨S_, .i32⟩ : BufTy).Contents (Elt F) → (⟨S160000, .i32⟩ : BufTy).Contents (Elt F)),
    binary main_v24 main_v27 main_v28 (addi : (⟨S160000, .i32⟩ : BufTy).Contents (Elt F) → (⟨S160000, .i32⟩ : BufTy).Contents (Elt F) → (⟨S160000, .i32⟩ : BufTy).Contents (Elt F)),
    ternary main_v26 main_v28 main_v24 main_v29 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v29 main_v30 (broadcastInDim S160000x1 ![0] bcast_S160000_S160000x1_0 : (⟨S160000, .i32⟩ : BufTy).Contents (Elt F) → (⟨S160000x1, .i32⟩ : BufTy).Contents (Elt F)),
    binary main_arg7 main_v30 main_v31 ((fun x i => Host.gather gather_S20x128_S160000x1_S160000x128_1_0_n_n_0_1_1128 x i) : (⟨S20x128, .f32⟩ : BufTy).Contents (Elt F) → (⟨S160000x1, .i32⟩ : BufTy).Contents (Elt F) → (⟨S160000x128, .f32⟩ : BufTy).Contents (Elt F)),
    unary main_arg2 main_v32 ((extractStridedSlice S1x160000 ![0, 0] · slices_S2x160000_S1x160000_0_0) : (⟨S2x160000, .i32⟩ : BufTy).Contents (Elt F) → (⟨S1x160000, .i32⟩ : BufTy).Contents (Elt F)),
    reshape main_v32 main_v33 rfl shapeCasts_S1x160000_S160000,
    unary main_arg2 main_v34 ((extractStridedSlice S1x160000 ![1, 0] · slices_S2x160000_S1x160000_1_0) : (⟨S2x160000, .i32⟩ : BufTy).Contents (Elt F) → (⟨S1x160000, .i32⟩ : BufTy).Contents (Elt F)),
    reshape main_v34 main_v35 rfl shapeCasts_S1x160000_S160000,
    nullary main_c_7 (constantI S_ 32 0#32),
    unary main_c_7 main_v36 (broadcastInDim S160000 ![] bcast_S_S160000 : (⟨S_, .i32⟩ : BufTy).Contents (Elt F) → (⟨S160000, .i32⟩ : BufTy).Contents (Elt F)),
    binary main_v35 main_v36 main_v37 (cmpi .slt : (⟨S160000, .i32⟩ : BufTy).Contents (Elt F) → (⟨S160000, .i32⟩ : BufTy).Contents (Elt F) → (⟨S160000, .i1⟩ : BufTy).Contents (Elt F)),
    nullary main_c_8 (constantI S_ 32 10000#32),
    unary main_c_8 main_v38 (broadcastInDim S160000 ![] bcast_S_S160000 : (⟨S_, .i32⟩ : BufTy).Contents (Elt F) → (⟨S160000, .i32⟩ : BufTy).Contents (Elt F)),
    binary main_v35 main_v38 main_v39 (addi : (⟨S160000, .i32⟩ : BufTy).Contents (Elt F) → (⟨S160000, .i32⟩ : BufTy).Contents (Elt F) → (⟨S160000, .i32⟩ : BufTy).Contents (Elt F)),
    ternary main_v37 main_v39 main_v35 main_v40 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v40 main_v41 (broadcastInDim S160000x1 ![0] bcast_S160000_S160000x1_0 : (⟨S160000, .i32⟩ : BufTy).Contents (Elt F) → (⟨S160000x1, .i32⟩ : BufTy).Contents (Elt F)),
    binary main_v7 main_v41 main_v42 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nullary main_c_9 (constantI S_ 32 0#32),
    unary main_c_9 main_v43 (broadcastInDim S160000 ![] bcast_S_S160000 : (⟨S_, .i32⟩ : BufTy).Contents (Elt F) → (⟨S160000, .i32⟩ : BufTy).Contents (Elt F)),
    binary main_v33 main_v43 main_v44 (cmpi .slt : (⟨S160000, .i32⟩ : BufTy).Contents (Elt F) → (⟨S160000, .i32⟩ : BufTy).Contents (Elt F) → (⟨S160000, .i1⟩ : BufTy).Contents (Elt F)),
    nullary main_c_10 (constantI S_ 32 10000#32),
    unary main_c_10 main_v45 (broadcastInDim S160000 ![] bcast_S_S160000 : (⟨S_, .i32⟩ : BufTy).Contents (Elt F) → (⟨S160000, .i32⟩ : BufTy).Contents (Elt F)),
    binary main_v33 main_v45 main_v46 (addi : (⟨S160000, .i32⟩ : BufTy).Contents (Elt F) → (⟨S160000, .i32⟩ : BufTy).Contents (Elt F) → (⟨S160000, .i32⟩ : BufTy).Contents (Elt F)),
    ternary main_v44 main_v46 main_v33 main_v47 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) ]

set_option maxRecDepth 4096 in
/-- Every buffer these operations touch is a TensorCore reference. -/
theorem c01_sub : (c01 (F := F)).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub ..⟩

/-- Each of these operations determines its result. -/
theorem c01_fresh : ∀ op ∈ (c01 (F := F)), op.fresh = ∅ := by
  intro _ h; (repeat (cases h with | head => rfl | tail _ h => ?_)); exact nomatch h

set_option maxRecDepth 8192 in
set_option maxHeartbeats 4000000 in
/-- Part 0 of @main is these two lines run one after the other. -/
theorem part0_eq (c : Dev nD) : main_part0 (F := F) c = seq (c00 ++ c01) := rfl

end Cert.RefRun

end
-- ==== Proof.Val.RefRunW1.lean ====
import proofs.«407386_j15839839387945_2_alg».proof.Proof.Val.RefRunBase

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 61 … 97 of @main, in order. -/
abbrev c02 : List (HloOp τ sig (Elt F)) :=
  [ unary main_v47 main_v48 (broadcastInDim S160000x1 ![0] bcast_S160000_S160000x1_0 : (⟨S160000, .i32⟩ : BufTy).Contents (Elt F) → (⟨S160000x1, .i32⟩ : BufTy).Contents (Elt F)),
    binary main_v7 main_v48 main_v49 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nary ![main_v42, main_v49, main_v23] main_v50 (fun u => concatenate S160000x384 1 [⟨S160000x128, u 0⟩, ⟨S160000x128, u 1⟩, ⟨S160000x128, u 2⟩] concatenates_S160000x128_S160000x128_S160000x128_S160000x384_d1),
    binary main_v50 main_arg8 main_v51 ((fun l r => Host.dotGeneral dot_S160000x384_S384x128_S160000x128_1_0_0_1_n_n none l r) : (⟨S160000x384, .f32⟩ : BufTy).Contents (Elt F) → (⟨S384x128, .f32⟩ : BufTy).Contents (Elt F) → (⟨S160000x128, .f32⟩ : BufTy).Contents (Elt F)),
    unary main_arg9 main_v52 (broadcastInDim S1x128 ![1] bcast_S128_S1x128_1 : (⟨S128, .f32⟩ : BufTy).Contents (Elt F) → (⟨S1x128, .f32⟩ : BufTy).Contents (Elt F)),
    unary main_v52 main_v53 (broadcastInDim S160000x128 ![0, 1] bcast_S1x128_S160000x128_0_1 : (⟨S1x128, .f32⟩ : BufTy).Contents (Elt F) → (⟨S160000x128, .f32⟩ : BufTy).Contents (Elt F)),
    binary main_v51 main_v53 main_v54 (addf : (⟨S160000x128, .f32⟩ : BufTy).Contents (Elt F) → (⟨S160000x128, .f32⟩ : BufTy).Contents (Elt F) → (⟨S160000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S160000x128, .f32⟩) main_call0_v0) (broadcastInDim S160000x128 ![] bcast_S_S160000x128),
    TRef.binary (TRef.of (T := ⟨S160000x128, .f32⟩) main_v54) (TRef.of (T := ⟨S160000x128, .f32⟩) main_call0_v0) (TRef.of (T := ⟨S160000x128, .f32⟩) main_v55) maximumf,
    nullary main_cst (constant S_ .f32 0x00000000#32),
    unary main_cst main_v56 (broadcastInDim S10000x128 ![] bcast_S_S10000x128 : (⟨S_, .f32⟩ : BufTy).Contents (Elt F) → (⟨S10000x128, .f32⟩ : BufTy).Contents (Elt F)),
    unary main_v35 main_v57 (broadcastInDim S160000x1 ![0] bcast_S160000_S160000x1_0 : (⟨S160000, .i32⟩ : BufTy).Contents (Elt F) → (⟨S160000x1, .i32⟩ : BufTy).Contents (Elt F)),
    ternary main_v56 main_v57 main_v55 main_v58 ((fun x i u => Host.scatterAdd scatter_S10000x128_S160000x1_S160000x128_1_0_0_1 x i u) : (⟨S10000x128, .f32⟩ : BufTy).Contents (Elt F) → (⟨S160000x1, .i32⟩ : BufTy).Contents (Elt F) → (⟨S160000x128, .f32⟩ : BufTy).Contents (Elt F) → (⟨S10000x128, .f32⟩ : BufTy).Contents (Elt F)),
    unary main_arg3 main_v59 ((extractStridedSlice S1x160000 ![0, 0] · slices_S2x160000_S1x160000_0_0) : (⟨S2x160000, .i32⟩ : BufTy).Contents (Elt F) → (⟨S1x160000, .i32⟩ : BufTy).Contents (Elt F)),
    reshape main_v59 main_v60 rfl shapeCasts_S1x160000_S160000,
    unary main_arg3 main_v61 ((extractStridedSlice S1x160000 ![1, 0] · slices_S2x160000_S1x160000_1_0) : (⟨S2x160000, .i32⟩ : BufTy).Contents (Elt F) → (⟨S1x160000, .i32⟩ : BufTy).Contents (Elt F)),
    reshape main_v61 main_v62 rfl shapeCasts_S1x160000_S160000,
    nullary main_c_11 (constantI S_ 32 0#32),
    unary main_c_11 main_v63 (broadcastInDim S160000 ![] bcast_S_S160000 : (⟨S_, .i32⟩ : BufTy).Contents (Elt F) → (⟨S160000, .i32⟩ : BufTy).Contents (Elt F)),
    binary main_v62 main_v63 main_v64 (cmpi .slt : (⟨S160000, .i32⟩ : BufTy).Contents (Elt F) → (⟨S160000, .i32⟩ : BufTy).Contents (Elt F) → (⟨S160000, .i1⟩ : BufTy).Contents (Elt F)),
    nullary main_c_12 (constantI S_ 32 10000#32),
    unary main_c_12 main_v65 (broadcastInDim S160000 ![] bcast_S_S160000 : (⟨S_, .i32⟩ : BufTy).Contents (Elt F) → (⟨S160000, .i32⟩ : BufTy).Contents (Elt F)),
    binary main_v62 main_v65 main_v66 (addi : (⟨S160000, .i32⟩ : BufTy).Contents (Elt F) → (⟨S160000, .i32⟩ : BufTy).Contents (Elt F) → (⟨S160000, .i32⟩ : BufTy).Contents (Elt F)),
    ternary main_v64 main_v66 main_v62 main_v67 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v67 main_v68 (broadcastInDim S160000x1 ![0] bcast_S160000_S160000x1_0 : (⟨S160000, .i32⟩ : BufTy).Contents (Elt F) → (⟨S160000x1, .i32⟩ : BufTy).Contents (Elt F)),
    binary main_v15 main_v68 main_v69 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nullary main_c_13 (constantI S_ 32 0#32),
    unary main_c_13 main_v70 (broadcastInDim S160000 ![] bcast_S_S160000 : (⟨S_, .i32⟩ : BufTy).Contents (Elt F) → (⟨S160000, .i32⟩ : BufTy).Contents (Elt F)),
    binary main_v60 main_v70 main_v71 (cmpi .slt : (⟨S160000, .i32⟩ : BufTy).Contents (Elt F) → (⟨S160000, .i32⟩ : BufTy).Contents (Elt F) → (⟨S160000, .i1⟩ : BufTy).Contents (Elt F)),
    nullary main_c_14 (constantI S_ 32 10000#32),
    unary main_c_14 main_v72 (broadcastInDim S160000 ![] bcast_S_S160000 : (⟨S_, .i32⟩ : BufTy).Contents (Elt F) → (⟨S160000, .i32⟩ : BufTy).Contents (Elt F)),
    binary main_v60 main_v72 main_v73 (addi : (⟨S160000, .i32⟩ : BufTy).Contents (Elt F) → (⟨S160000, .i32⟩ : BufTy).Contents (Elt F) → (⟨S160000, .i32⟩ : BufTy).Contents (Elt F)),
    ternary main_v71 main_v73 main_v60 main_v74 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v74 main_v75 (broadcastInDim S160000x1 ![0] bcast_S160000_S160000x1_0 : (⟨S160000, .i32⟩ : BufTy).Contents (Elt F) → (⟨S160000x1, .i32⟩ : BufTy).Contents (Elt F)),
    binary main_v15 main_v75 main_v76 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nary ![main_v69, main_v76, main_v31] main_v77 (fun u => concatenate S160000x384 1 [⟨S160000x128, u 0⟩, ⟨S160000x128, u 1⟩, ⟨S160000x128, u 2⟩] concatenates_S160000x128_S160000x128_S160000x128_S160000x384_d1) ]

set_option maxRecDepth 4096 in
/-- Every buffer these operations touch is a TensorCore reference. -/
theorem c02_sub : (c02 (F := F)).Forall fun op => op.bufs ⊆ tcRefs τ sig :=
  ⟨unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub ..⟩

/-- Each of these operations determines its result. -/
theorem c02_fresh : ∀ op ∈ (c02 (F := F)), op.fresh = ∅ := by
  intro _ h; (repeat (cases h with | head => rfl | tail _ h => ?_)); exact nomatch h

/-- Operations 98 … 124 of @main, in order. -/
abbrev c03 : List (HloOp τ sig (Elt F)) :=
  [ binary main_v77 main_arg8 main_v78 ((fun l r => Host.dotGeneral dot_S160000x384_S384x128_S160000x128_1_0_0_1_n_n none l r) : (⟨S160000x384, .f32⟩ : BufTy).Contents (Elt F) → (⟨S384x128, .f32⟩ : BufTy).Contents (Elt F) → (⟨S160000x128, .f32⟩ : BufTy).Contents (Elt F)),
    unary main_arg9 main_v79 (broadcastInDim S1x128 ![1] bcast_S128_S1x128_1 : (⟨S128, .f32⟩ : BufTy).Contents (Elt F) → (⟨S1x128, .f32⟩ : BufTy).Contents (Elt F)),
    unary main_v79 main_v80 (broadcastInDim S160000x128 ![0, 1] bcast_S1x128_S160000x128_0_1 : (⟨S1x128, .f32⟩ : BufTy).Contents (Elt F) → (⟨S160000x128, .f32⟩ : BufTy).Contents (Elt F)),
    binary main_v78 main_v80 main_v81 (addf : (⟨S160000x128, .f32⟩ : BufTy).Contents (Elt F) → (⟨S160000x128, .f32⟩ : BufTy).Contents (Elt F) → (⟨S160000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S160000x128, .f32⟩) main_call1_v0) (broadcastInDim S160000x128 ![] bcast_S_S160000x128),
    TRef.binary (TRef.of (T := ⟨S160000x128, .f32⟩) main_v81) (TRef.of (T := ⟨S160000x128, .f32⟩) main_call1_v0) (TRef.of (T := ⟨S160000x128, .f32⟩) main_v82) maximumf,
    nullary main_cst_15 (constant S_ .f32 0x00000000#32),
    unary main_cst_15 main_v83 (broadcastInDim S10000x128 ![] bcast_S_S10000x128 : (⟨S_, .f32⟩ : BufTy).Contents (Elt F) → (⟨S10000x128, .f32⟩ : BufTy).Contents (Elt F)),
    unary main_v62 main_v84 (broadcastInDim S160000x1 ![0] bcast_S160000_S160000x1_0 : (⟨S160000, .i32⟩ : BufTy).Contents (Elt F) → (⟨S160000x1, .i32⟩ : BufTy).Contents (Elt F)),
    ternary main_v83 main_v84 main_v82 main_v85 ((fun x i u => Host.scatterAdd scatter_S10000x128_S160000x1_S160000x128_1_0_0_1 x i u) : (⟨S10000x128, .f32⟩ : BufTy).Contents (Elt F) → (⟨S160000x1, .i32⟩ : BufTy).Contents (Elt F) → (⟨S160000x128, .f32⟩ : BufTy).Contents (Elt F) → (⟨S10000x128, .f32⟩ : BufTy).Contents (Elt F)),
    unary main_v15 main_v86 ((transpose S128x10000 [1, 0] · transposes_S10000x128_S128x10000_1_0) : (⟨S10000x128, .f32⟩ : BufTy).Contents (Elt F) → (⟨S128x10000, .f32⟩ : BufTy).Contents (Elt F)),
    binary main_v7 main_v86 main_v87 ((fun l r => Host.dotGeneral dot_S10000x128_S128x10000_S10000x10000_1_0_0_1_n_n none l r) : (⟨S10000x128, .f32⟩ : BufTy).Contents (Elt F) → (⟨S128x10000, .f32⟩ : BufTy).Contents (Elt F) → (⟨S10000x10000, .f32⟩ : BufTy).Contents (Elt F)),
    nullary main_cst_16 (constant S_ .f32 0xFF800000#32),
    binary main_v87 main_cst_16 main_v88 ((fun x v => Host.reduce FloatOps.maximumf x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    nullary main_cst_17 (constant S_ .f32 0xFF800000#32),
    unary main_cst_17 main_v89 (broadcastInDim S10000 ![] bcast_S_S10000 : (⟨S_, .f32⟩ : BufTy).Contents (Elt F) → (⟨S10000, .f32⟩ : BufTy).Contents (Elt F)),
    binary main_v89 main_v88 main_v90 (maximumf : (⟨S10000, .f32⟩ : BufTy).Contents (Elt F) → (⟨S10000, .f32⟩ : BufTy).Contents (Elt F) → (⟨S10000, .f32⟩ : BufTy).Contents (Elt F)),
    unary main_v90 main_v91 (broadcastInDim S10000x1 ![0] bcast_S10000_S10000x1_0 : (⟨S10000, .f32⟩ : BufTy).Contents (Elt F) → (⟨S10000x1, .f32⟩ : BufTy).Contents (Elt F)),
    unary main_v91 main_v92 (broadcastInDim S10000x10000 ![0, 1] bcast_S10000x1_S10000x10000_0_1 : (⟨S10000x1, .f32⟩ : BufTy).Contents (Elt F) → (⟨S10000x10000, .f32⟩ : BufTy).Contents (Elt F)),
    binary main_v87 main_v92 main_v93 (subf : (⟨S10000x10000, .f32⟩ : BufTy).Contents (Elt F) → (⟨S10000x10000, .f32⟩ : BufTy).Contents (Elt F) → (⟨S10000x10000, .f32⟩ : BufTy).Contents (Elt F)),
    unary main_v93 main_v94 (Host.exp : (⟨S10000x10000, .f32⟩ : BufTy).Contents (Elt F) → (⟨S10000x10000, .f32⟩ : BufTy).Contents (Elt F)),
    nullary main_cst_18 (constant S_ .f32 0x00000000#32),
    binary main_v94 main_cst_18 main_v95 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v95 main_v96 (broadcastInDim S10000x1 ![0] bcast_S10000_S10000x1_0 : (⟨S10000, .f32⟩ : BufTy).Contents (Elt F) → (⟨S10000x1, .f32⟩ : BufTy).Contents (Elt F)),
    unary main_v96 main_v97 (broadcastInDim S10000x10000 ![0, 1] bcast_S10000x1_S10000x10000_0_1 : (⟨S10000x1, .f32⟩ : BufTy).Contents (Elt F) → (⟨S10000x10000, .f32⟩ : BufTy).Contents (Elt F)),
    binary main_v94 main_v97 main_v98 (Host.divf : (⟨S10000x10000, .f32⟩ : BufTy).Contents (Elt F) → (⟨S10000x10000, .f32⟩ : BufTy).Contents (Elt F) → (⟨S10000x10000, .f32⟩ : BufTy).Contents (Elt F)) ]

set_option maxRecDepth 4096 in
/-- Every buffer these operations touch is a TensorCore reference. -/
theorem c03_sub : (c03 (F := F)).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- Each of these operations determines its result. -/
theorem c03_fresh : ∀ op ∈ (c03 (F := F)), op.fresh = ∅ := by
  intro _ h; (repeat (cases h with | head => rfl | tail _ h => ?_)); exact nomatch h

set_option maxRecDepth 8192 in
set_option maxHeartbeats 4000000 in
/-- Part 1 of @main is these two lines run one after the other. -/
theorem part1_eq (c : Dev nD) : main_part1 (F := F) c = seq (c02 ++ c03) := rfl

end Cert.RefRun

end
-- ==== Proof.Val.RefRunW2.lean ====
import proofs.«407386_j15839839387945_2_alg».proof.Proof.Val.RefRunBase

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 125 … 148 of @main, in order. -/
abbrev c04 : List (HloOp τ sig (Elt F)) :=
  [ nullary main_cst_19 (constant S_ .f32 0xFF800000#32),
    binary main_v87 main_cst_19 main_v99 ((fun x v => Host.reduce FloatOps.maximumf x v reducesTo_S10000x10000_S10000_d0 h_S_) : (⟨S10000x10000, .f32⟩ : BufTy).Contents (Elt F) → (⟨S_, .f32⟩ : BufTy).Contents (Elt F) → (⟨S10000, .f32⟩ : BufTy).Contents (Elt F)),
    nullary main_cst_20 (constant S_ .f32 0xFF800000#32),
    unary main_cst_20 main_v100 (broadcastInDim S10000 ![] bcast_S_S10000 : (⟨S_, .f32⟩ : BufTy).Contents (Elt F) → (⟨S10000, .f32⟩ : BufTy).Contents (Elt F)),
    binary main_v100 main_v99 main_v101 (maximumf : (⟨S10000, .f32⟩ : BufTy).Contents (Elt F) → (⟨S10000, .f32⟩ : BufTy).Contents (Elt F) → (⟨S10000, .f32⟩ : BufTy).Contents (Elt F)),
    unary main_v101 main_v102 (broadcastInDim S1x10000 ![1] bcast_S10000_S1x10000_1 : (⟨S10000, .f32⟩ : BufTy).Contents (Elt F) → (⟨S1x10000, .f32⟩ : BufTy).Contents (Elt F)),
    unary main_v102 main_v103 (broadcastInDim S10000x10000 ![0, 1] bcast_S1x10000_S10000x10000_0_1 : (⟨S1x10000, .f32⟩ : BufTy).Contents (Elt F) → (⟨S10000x10000, .f32⟩ : BufTy).Contents (Elt F)),
    binary main_v87 main_v103 main_v104 (subf : (⟨S10000x10000, .f32⟩ : BufTy).Contents (Elt F) → (⟨S10000x10000, .f32⟩ : BufTy).Contents (Elt F) → (⟨S10000x10000, .f32⟩ : BufTy).Contents (Elt F)),
    unary main_v104 main_v105 (Host.exp : (⟨S10000x10000, .f32⟩ : BufTy).Contents (Elt F) → (⟨S10000x10000, .f32⟩ : BufTy).Contents (Elt F)),
    nullary main_cst_21 (constant S_ .f32 0x00000000#32),
    binary main_v105 main_cst_21 main_v106 ((fun x v => Host.reduceAdd x v reducesTo_S10000x10000_S10000_d0 h_S_) : (⟨S10000x10000, .f32⟩ : BufTy).Contents (Elt F) → (⟨S_, .f32⟩ : BufTy).Contents (Elt F) → (⟨S10000, .f32⟩ : BufTy).Contents (Elt F)),
    unary main_v106 main_v107 (broadcastInDim S1x10000 ![1] bcast_S10000_S1x10000_1 : (⟨S10000, .f32⟩ : BufTy).Contents (Elt F) → (⟨S1x10000, .f32⟩ : BufTy).Contents (Elt F)),
    unary main_v107 main_v108 (broadcastInDim S10000x10000 ![0, 1] bcast_S1x10000_S10000x10000_0_1 : (⟨S1x10000, .f32⟩ : BufTy).Contents (Elt F) → (⟨S10000x10000, .f32⟩ : BufTy).Contents (Elt F)),
    binary main_v105 main_v108 main_v109 (Host.divf : (⟨S10000x10000, .f32⟩ : BufTy).Contents (Elt F) → (⟨S10000x10000, .f32⟩ : BufTy).Contents (Elt F) → (⟨S10000x10000, .f32⟩ : BufTy).Contents (Elt F)),
    unary main_v109 main_v110 ((transpose S10000x10000 [1, 0] · transposes_S10000x10000_S10000x10000_1_0) : (⟨S10000x10000, .f32⟩ : BufTy).Contents (Elt F) → (⟨S10000x10000, .f32⟩ : BufTy).Contents (Elt F)),
    binary main_v98 main_v15 main_v111 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v7 main_v111 main_v112 (subf : (⟨S10000x128, .f32⟩ : BufTy).Contents (Elt F) → (⟨S10000x128, .f32⟩ : BufTy).Contents (Elt F) → (⟨S10000x128, .f32⟩ : BufTy).Contents (Elt F)),
    binary main_v110 main_v7 main_v113 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v15 main_v113 main_v114 (subf : (⟨S10000x128, .f32⟩ : BufTy).Contents (Elt F) → (⟨S10000x128, .f32⟩ : BufTy).Contents (Elt F) → (⟨S10000x128, .f32⟩ : BufTy).Contents (Elt F)),
    binary main_v58 main_v112 main_v115 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v115 main_arg10 main_v116 ((fun l r => Host.dotGeneral dot_S10000x256_S256x384_S10000x384_1_0_0_1_n_n none l r) : (⟨S10000x256, .f32⟩ : BufTy).Contents (Elt F) → (⟨S256x384, .f32⟩ : BufTy).Contents (Elt F) → (⟨S10000x384, .f32⟩ : BufTy).Contents (Elt F)),
    unary main_arg11 main_v117 (broadcastInDim S1x384 ![1] bcast_S384_S1x384_1 : (⟨S384, .f32⟩ : BufTy).Contents (Elt F) → (⟨S1x384, .f32⟩ : BufTy).Contents (Elt F)),
    unary main_v117 main_v118 (broadcastInDim S10000x384 ![0, 1] bcast_S1x384_S10000x384_0_1 : (⟨S1x384, .f32⟩ : BufTy).Contents (Elt F) → (⟨S10000x384, .f32⟩ : BufTy).Contents (Elt F)),
    binary main_v116 main_v118 main_v119 (addf : (⟨S10000x384, .f32⟩ : BufTy).Contents (Elt F) → (⟨S10000x384, .f32⟩ : BufTy).Contents (Elt F) → (⟨S10000x384, .f32⟩ : BufTy).Contents (Elt F)) ]

set_option maxRecDepth 4096 in
/-- Every buffer these operations touch is a TensorCore reference. -/
theorem c04_sub : (c04 (F := F)).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., binary_bufs_sub .., binary_bufs_sub .., binary_bufs_sub .., binary_bufs_sub .., binary_bufs_sub .., unary_bufs_sub .., unary_bufs_sub .., binary_bufs_sub ..⟩

/-- Each of these operations determines its result. -/
theorem c04_fresh : ∀ op ∈ (c04 (F := F)), op.fresh = ∅ := by
  intro _ h; (repeat (cases h with | head => rfl | tail _ h => ?_)); exact nomatch h

/-- Operations 149 … 184 of @main, in order. -/
abbrev c05 : List (HloOp τ sig (Elt F)) :=
  [ binary main_v7 main_arg12 main_v120 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    unary main_arg13 main_v121 (broadcastInDim S1x384 ![1] bcast_S384_S1x384_1 : (⟨S384, .f32⟩ : BufTy).Contents (Elt F) → (⟨S1x384, .f32⟩ : BufTy).Contents (Elt F)),
    unary main_v121 main_v122 (broadcastInDim S10000x384 ![0, 1] bcast_S1x384_S10000x384_0_1 : (⟨S1x384, .f32⟩ : BufTy).Contents (Elt F) → (⟨S10000x384, .f32⟩ : BufTy).Contents (Elt F)),
    binary main_v120 main_v122 main_v123 (addf : (⟨S10000x384, .f32⟩ : BufTy).Contents (Elt F) → (⟨S10000x384, .f32⟩ : BufTy).Contents (Elt F) → (⟨S10000x384, .f32⟩ : BufTy).Contents (Elt F)),
    unary main_v119 main_v124 ((extractStridedSlice S10000x128 ![0, 0] · slices_S10000x384_S10000x128_0_0) : (⟨S10000x384, .f32⟩ : BufTy).Contents (Elt F) → (⟨S10000x128, .f32⟩ : BufTy).Contents (Elt F)),
    unary main_v119 main_v125 ((extractStridedSlice S10000x128 ![0, 128] · slices_S10000x384_S10000x128_0_128) : (⟨S10000x384, .f32⟩ : BufTy).Contents (Elt F) → (⟨S10000x128, .f32⟩ : BufTy).Contents (Elt F)),
    unary main_v119 main_v126 ((extractStridedSlice S10000x128 ![0, 256] · slices_S10000x384_S10000x128_0_256) : (⟨S10000x384, .f32⟩ : BufTy).Contents (Elt F) → (⟨S10000x128, .f32⟩ : BufTy).Contents (Elt F)),
    unary main_v123 main_v127 ((extractStridedSlice S10000x128 ![0, 0] · slices_S10000x384_S10000x128_0_0) : (⟨S10000x384, .f32⟩ : BufTy).Contents (Elt F) → (⟨S10000x128, .f32⟩ : BufTy).Contents (Elt F)),
    unary main_v123 main_v128 ((extractStridedSlice S10000x128 ![0, 128] · slices_S10000x384_S10000x128_0_128) : (⟨S10000x384, .f32⟩ : BufTy).Contents (Elt F) → (⟨S10000x128, .f32⟩ : BufTy).Contents (Elt F)),
    unary main_v123 main_v129 ((extractStridedSlice S10000x128 ![0, 256] · slices_S10000x384_S10000x128_0_256) : (⟨S10000x384, .f32⟩ : BufTy).Contents (Elt F) → (⟨S10000x128, .f32⟩ : BufTy).Contents (Elt F)),
    binary main_v124 main_v127 main_v130 (addf : (⟨S10000x128, .f32⟩ : BufTy).Contents (Elt F) → (⟨S10000x128, .f32⟩ : BufTy).Contents (Elt F) → (⟨S10000x128, .f32⟩ : BufTy).Contents (Elt F)),
    unary main_v130 main_v131 (Host.negf : (⟨S10000x128, .f32⟩ : BufTy).Contents (Elt F) → (⟨S10000x128, .f32⟩ : BufTy).Contents (Elt F)),
    unary main_v131 main_v132 (Host.exp : (⟨S10000x128, .f32⟩ : BufTy).Contents (Elt F) → (⟨S10000x128, .f32⟩ : BufTy).Contents (Elt F)),
    nullary main_cst_22 (constant S_ .f32 0x3F800000#32),
    unary main_cst_22 main_v133 (broadcastInDim S10000x128 ![] bcast_S_S10000x128 : (⟨S_, .f32⟩ : BufTy).Contents (Elt F) → (⟨S10000x128, .f32⟩ : BufTy).Contents (Elt F)),
    binary main_v133 main_v132 main_v134 (addf : (⟨S10000x128, .f32⟩ : BufTy).Contents (Elt F) → (⟨S10000x128, .f32⟩ : BufTy).Contents (Elt F) → (⟨S10000x128, .f32⟩ : BufTy).Contents (Elt F)),
    nullary main_cst_23 (constant S_ .f32 0x3F800000#32),
    unary main_cst_23 main_v135 (broadcastInDim S10000x128 ![] bcast_S_S10000x128 : (⟨S_, .f32⟩ : BufTy).Contents (Elt F) → (⟨S10000x128, .f32⟩ : BufTy).Contents (Elt F)),
    binary main_v135 main_v134 main_v136 (Host.divf : (⟨S10000x128, .f32⟩ : BufTy).Contents (Elt F) → (⟨S10000x128, .f32⟩ : BufTy).Contents (Elt F) → (⟨S10000x128, .f32⟩ : BufTy).Contents (Elt F)),
    binary main_v125 main_v128 main_v137 (addf : (⟨S10000x128, .f32⟩ : BufTy).Contents (Elt F) → (⟨S10000x128, .f32⟩ : BufTy).Contents (Elt F) → (⟨S10000x128, .f32⟩ : BufTy).Contents (Elt F)),
    unary main_v137 main_v138 (Host.negf : (⟨S10000x128, .f32⟩ : BufTy).Contents (Elt F) → (⟨S10000x128, .f32⟩ : BufTy).Contents (Elt F)),
    unary main_v138 main_v139 (Host.exp : (⟨S10000x128, .f32⟩ : BufTy).Contents (Elt F) → (⟨S10000x128, .f32⟩ : BufTy).Contents (Elt F)),
    nullary main_cst_24 (constant S_ .f32 0x3F800000#32),
    unary main_cst_24 main_v140 (broadcastInDim S10000x128 ![] bcast_S_S10000x128 : (⟨S_, .f32⟩ : BufTy).Contents (Elt F) → (⟨S10000x128, .f32⟩ : BufTy).Contents (Elt F)),
    binary main_v140 main_v139 main_v141 (addf : (⟨S10000x128, .f32⟩ : BufTy).Contents (Elt F) → (⟨S10000x128, .f32⟩ : BufTy).Contents (Elt F) → (⟨S10000x128, .f32⟩ : BufTy).Contents (Elt F)),
    nullary main_cst_25 (constant S_ .f32 0x3F800000#32),
    unary main_cst_25 main_v142 (broadcastInDim S10000x128 ![] bcast_S_S10000x128 : (⟨S_, .f32⟩ : BufTy).Contents (Elt F) → (⟨S10000x128, .f32⟩ : BufTy).Contents (Elt F)),
    binary main_v142 main_v141 main_v143 (Host.divf : (⟨S10000x128, .f32⟩ : BufTy).Contents (Elt F) → (⟨S10000x128, .f32⟩ : BufTy).Contents (Elt F) → (⟨S10000x128, .f32⟩ : BufTy).Contents (Elt F)),
    binary main_v136 main_v129 main_v144 (mulf : (⟨S10000x128, .f32⟩ : BufTy).Contents (Elt F) → (⟨S10000x128, .f32⟩ : BufTy).Contents (Elt F) → (⟨S10000x128, .f32⟩ : BufTy).Contents (Elt F)),
    binary main_v126 main_v144 main_v145 (addf : (⟨S10000x128, .f32⟩ : BufTy).Contents (Elt F) → (⟨S10000x128, .f32⟩ : BufTy).Contents (Elt F) → (⟨S10000x128, .f32⟩ : BufTy).Contents (Elt F)),
    unary main_v145 main_v146 (Host.tanh : (⟨S10000x128, .f32⟩ : BufTy).Contents (Elt F) → (⟨S10000x128, .f32⟩ : BufTy).Contents (Elt F)),
    nullary main_cst_26 (constant S_ .f32 0x3F800000#32),
    unary main_cst_26 main_v147 (broadcastInDim S10000x128 ![] bcast_S_S10000x128 : (⟨S_, .f32⟩ : BufTy).Contents (Elt F) → (⟨S10000x128, .f32⟩ : BufTy).Contents (Elt F)),
    binary main_v147 main_v143 main_v148 (subf : (⟨S10000x128, .f32⟩ : BufTy).Contents (Elt F) → (⟨S10000x128, .f32⟩ : BufTy).Contents (Elt F) → (⟨S10000x128, .f32⟩ : BufTy).Contents (Elt F)),
    binary main_v148 main_v146 main_v149 (mulf : (⟨S10000x128, .f32⟩ : BufTy).Contents (Elt F) → (⟨S10000x128, .f32⟩ : BufTy).Contents (Elt F) → (⟨S10000x128, .f32⟩ : BufTy).Contents (Elt F)),
    binary main_v143 main_v7 main_v150 (mulf : (⟨S10000x128, .f32⟩ : BufTy).Contents (Elt F) → (⟨S10000x128, .f32⟩ : BufTy).Contents (Elt F) → (⟨S10000x128, .f32⟩ : BufTy).Contents (Elt F)) ]

set_option maxRecDepth 4096 in
/-- Every buffer these operations touch is a TensorCore reference. -/
theorem c05_sub : (c05 (F := F)).Forall fun op => op.bufs ⊆ tcRefs τ sig :=
  ⟨binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub ..⟩

/-- Each of these operations determines its result. -/
theorem c05_fresh : ∀ op ∈ (c05 (F := F)), op.fresh = ∅ := by
  intro _ h; (repeat (cases h with | head => rfl | tail _ h => ?_)); exact nomatch h

set_option maxRecDepth 8192 in
set_option maxHeartbeats 4000000 in
/-- Part 2 of @main is these two lines run one after the other. -/
theorem part2_eq (c : Dev nD) : main_part2 (F := F) c = seq (c04 ++ c05) := rfl

end Cert.RefRun

end
-- ==== Proof.Val.RefRunW3.lean ====
import proofs.«407386_j15839839387945_2_alg».proof.Proof.Val.RefRunBase

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 185 … 220 of @main, in order. -/
abbrev c06 : List (HloOp τ sig (Elt F)) :=
  [ binary main_v149 main_v150 main_v151 (addf : (⟨S10000x128, .f32⟩ : BufTy).Contents (Elt F) → (⟨S10000x128, .f32⟩ : BufTy).Contents (Elt F) → (⟨S10000x128, .f32⟩ : BufTy).Contents (Elt F)),
    binary main_v85 main_v114 main_v152 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v152 main_arg10 main_v153 ((fun l r => Host.dotGeneral dot_S10000x256_S256x384_S10000x384_1_0_0_1_n_n none l r) : (⟨S10000x256, .f32⟩ : BufTy).Contents (Elt F) → (⟨S256x384, .f32⟩ : BufTy).Contents (Elt F) → (⟨S10000x384, .f32⟩ : BufTy).Contents (Elt F)),
    unary main_arg11 main_v154 (broadcastInDim S1x384 ![1] bcast_S384_S1x384_1 : (⟨S384, .f32⟩ : BufTy).Contents (Elt F) → (⟨S1x384, .f32⟩ : BufTy).Contents (Elt F)),
    unary main_v154 main_v155 (broadcastInDim S10000x384 ![0, 1] bcast_S1x384_S10000x384_0_1 : (⟨S1x384, .f32⟩ : BufTy).Contents (Elt F) → (⟨S10000x384, .f32⟩ : BufTy).Contents (Elt F)),
    binary main_v153 main_v155 main_v156 (addf : (⟨S10000x384, .f32⟩ : BufTy).Contents (Elt F) → (⟨S10000x384, .f32⟩ : BufTy).Contents (Elt F) → (⟨S10000x384, .f32⟩ : BufTy).Contents (Elt F)),
    binary main_v15 main_arg12 main_v157 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    unary main_arg13 main_v158 (broadcastInDim S1x384 ![1] bcast_S384_S1x384_1 : (⟨S384, .f32⟩ : BufTy).Contents (Elt F) → (⟨S1x384, .f32⟩ : BufTy).Contents (Elt F)),
    unary main_v158 main_v159 (broadcastInDim S10000x384 ![0, 1] bcast_S1x384_S10000x384_0_1 : (⟨S1x384, .f32⟩ : BufTy).Contents (Elt F) → (⟨S10000x384, .f32⟩ : BufTy).Contents (Elt F)),
    binary main_v157 main_v159 main_v160 (addf : (⟨S10000x384, .f32⟩ : BufTy).Contents (Elt F) → (⟨S10000x384, .f32⟩ : BufTy).Contents (Elt F) → (⟨S10000x384, .f32⟩ : BufTy).Contents (Elt F)),
    unary main_v156 main_v161 ((extractStridedSlice S10000x128 ![0, 0] · slices_S10000x384_S10000x128_0_0) : (⟨S10000x384, .f32⟩ : BufTy).Contents (Elt F) → (⟨S10000x128, .f32⟩ : BufTy).Contents (Elt F)),
    unary main_v156 main_v162 ((extractStridedSlice S10000x128 ![0, 128] · slices_S10000x384_S10000x128_0_128) : (⟨S10000x384, .f32⟩ : BufTy).Contents (Elt F) → (⟨S10000x128, .f32⟩ : BufTy).Contents (Elt F)),
    unary main_v156 main_v163 ((extractStridedSlice S10000x128 ![0, 256] · slices_S10000x384_S10000x128_0_256) : (⟨S10000x384, .f32⟩ : BufTy).Contents (Elt F) → (⟨S10000x128, .f32⟩ : BufTy).Contents (Elt F)),
    unary main_v160 main_v164 ((extractStridedSlice S10000x128 ![0, 0] · slices_S10000x384_S10000x128_0_0) : (⟨S10000x384, .f32⟩ : BufTy).Contents (Elt F) → (⟨S10000x128, .f32⟩ : BufTy).Contents (Elt F)),
    unary main_v160 main_v165 ((extractStridedSlice S10000x128 ![0, 128] · slices_S10000x384_S10000x128_0_128) : (⟨S10000x384, .f32⟩ : BufTy).Contents (Elt F) → (⟨S10000x128, .f32⟩ : BufTy).Contents (Elt F)),
    unary main_v160 main_v166 ((extractStridedSlice S10000x128 ![0, 256] · slices_S10000x384_S10000x128_0_256) : (⟨S10000x384, .f32⟩ : BufTy).Contents (Elt F) → (⟨S10000x128, .f32⟩ : BufTy).Contents (Elt F)),
    binary main_v161 main_v164 main_v167 (addf : (⟨S10000x128, .f32⟩ : BufTy).Contents (Elt F) → (⟨S10000x128, .f32⟩ : BufTy).Contents (Elt F) → (⟨S10000x128, .f32⟩ : BufTy).Contents (Elt F)),
    unary main_v167 main_v168 (Host.negf : (⟨S10000x128, .f32⟩ : BufTy).Contents (Elt F) → (⟨S10000x128, .f32⟩ : BufTy).Contents (Elt F)),
    unary main_v168 main_v169 (Host.exp : (⟨S10000x128, .f32⟩ : BufTy).Contents (Elt F) → (⟨S10000x128, .f32⟩ : BufTy).Contents (Elt F)),
    nullary main_cst_27 (constant S_ .f32 0x3F800000#32),
    unary main_cst_27 main_v170 (broadcastInDim S10000x128 ![] bcast_S_S10000x128 : (⟨S_, .f32⟩ : BufTy).Contents (Elt F) → (⟨S10000x128, .f32⟩ : BufTy).Contents (Elt F)),
    binary main_v170 main_v169 main_v171 (addf : (⟨S10000x128, .f32⟩ : BufTy).Contents (Elt F) → (⟨S10000x128, .f32⟩ : BufTy).Contents (Elt F) → (⟨S10000x128, .f32⟩ : BufTy).Contents (Elt F)),
    nullary main_cst_28 (constant S_ .f32 0x3F800000#32),
    unary main_cst_28 main_v172 (broadcastInDim S10000x128 ![] bcast_S_S10000x128 : (⟨S_, .f32⟩ : BufTy).Contents (Elt F) → (⟨S10000x128, .f32⟩ : BufTy).Contents (Elt F)),
    binary main_v172 main_v171 main_v173 (Host.divf : (⟨S10000x128, .f32⟩ : BufTy).Contents (Elt F) → (⟨S10000x128, .f32⟩ : BufTy).Contents (Elt F) → (⟨S10000x128, .f32⟩ : BufTy).Contents (Elt F)),
    binary main_v162 main_v165 main_v174 (addf : (⟨S10000x128, .f32⟩ : BufTy).Contents (Elt F) → (⟨S10000x128, .f32⟩ : BufTy).Contents (Elt F) → (⟨S10000x128, .f32⟩ : BufTy).Contents (Elt F)),
    unary main_v174 main_v175 (Host.negf : (⟨S10000x128, .f32⟩ : BufTy).Contents (Elt F) → (⟨S10000x128, .f32⟩ : BufTy).Contents (Elt F)),
    unary main_v175 main_v176 (Host.exp : (⟨S10000x128, .f32⟩ : BufTy).Contents (Elt F) → (⟨S10000x128, .f32⟩ : BufTy).Contents (Elt F)),
    nullary main_cst_29 (constant S_ .f32 0x3F800000#32),
    unary main_cst_29 main_v177 (broadcastInDim S10000x128 ![] bcast_S_S10000x128 : (⟨S_, .f32⟩ : BufTy).Contents (Elt F) → (⟨S10000x128, .f32⟩ : BufTy).Contents (Elt F)),
    binary main_v177 main_v176 main_v178 (addf : (⟨S10000x128, .f32⟩ : BufTy).Contents (Elt F) → (⟨S10000x128, .f32⟩ : BufTy).Contents (Elt F) → (⟨S10000x128, .f32⟩ : BufTy).Contents (Elt F)),
    nullary main_cst_30 (constant S_ .f32 0x3F800000#32),
    unary main_cst_30 main_v179 (broadcastInDim S10000x128 ![] bcast_S_S10000x128 : (⟨S_, .f32⟩ : BufTy).Contents (Elt F) → (⟨S10000x128, .f32⟩ : BufTy).Contents (Elt F)),
    binary main_v179 main_v178 main_v180 (Host.divf : (⟨S10000x128, .f32⟩ : BufTy).Contents (Elt F) → (⟨S10000x128, .f32⟩ : BufTy).Contents (Elt F) → (⟨S10000x128, .f32⟩ : BufTy).Contents (Elt F)),
    binary main_v173 main_v166 main_v181 (mulf : (⟨S10000x128, .f32⟩ : BufTy).Contents (Elt F) → (⟨S10000x128, .f32⟩ : BufTy).Contents (Elt F) → (⟨S10000x128, .f32⟩ : BufTy).Contents (Elt F)),
    binary main_v163 main_v181 main_v182 (addf : (⟨S10000x128, .f32⟩ : BufTy).Contents (Elt F) → (⟨S10000x128, .f32⟩ : BufTy).Contents (Elt F) → (⟨S10000x128, .f32⟩ : BufTy).Contents (Elt F)) ]

set_option maxRecDepth 4096 in
/-- Every buffer these operations touch is a TensorCore reference. -/
theorem c06_sub : (c06 (F := F)).Forall fun op => op.bufs ⊆ tcRefs τ sig :=
  ⟨binary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

/-- Each of these operations determines its result. -/
theorem c06_fresh : ∀ op ∈ (c06 (F := F)), op.fresh = ∅ := by
  intro _ h; (repeat (cases h with | head => rfl | tail _ h => ?_)); exact nomatch h

/-- Operations 221 … 244 of @main, in order. -/
abbrev c07 : List (HloOp τ sig (Elt F)) :=
  [ unary main_v182 main_v183 (Host.tanh : (⟨S10000x128, .f32⟩ : BufTy).Contents (Elt F) → (⟨S10000x128, .f32⟩ : BufTy).Contents (Elt F)),
    nullary main_cst_31 (constant S_ .f32 0x3F800000#32),
    unary main_cst_31 main_v184 (broadcastInDim S10000x128 ![] bcast_S_S10000x128 : (⟨S_, .f32⟩ : BufTy).Contents (Elt F) → (⟨S10000x128, .f32⟩ : BufTy).Contents (Elt F)),
    binary main_v184 main_v180 main_v185 (subf : (⟨S10000x128, .f32⟩ : BufTy).Contents (Elt F) → (⟨S10000x128, .f32⟩ : BufTy).Contents (Elt F) → (⟨S10000x128, .f32⟩ : BufTy).Contents (Elt F)),
    binary main_v185 main_v183 main_v186 (mulf : (⟨S10000x128, .f32⟩ : BufTy).Contents (Elt F) → (⟨S10000x128, .f32⟩ : BufTy).Contents (Elt F) → (⟨S10000x128, .f32⟩ : BufTy).Contents (Elt F)),
    binary main_v180 main_v15 main_v187 (mulf : (⟨S10000x128, .f32⟩ : BufTy).Contents (Elt F) → (⟨S10000x128, .f32⟩ : BufTy).Contents (Elt F) → (⟨S10000x128, .f32⟩ : BufTy).Contents (Elt F)),
    binary main_v186 main_v187 main_v188 (addf : (⟨S10000x128, .f32⟩ : BufTy).Contents (Elt F) → (⟨S10000x128, .f32⟩ : BufTy).Contents (Elt F) → (⟨S10000x128, .f32⟩ : BufTy).Contents (Elt F)),
    unary main_arg2 main_v189 ((extractStridedSlice S1x160000 ![0, 0] · slices_S2x160000_S1x160000_0_0) : (⟨S2x160000, .i32⟩ : BufTy).Contents (Elt F) → (⟨S1x160000, .i32⟩ : BufTy).Contents (Elt F)),
    reshape main_v189 main_v190 rfl shapeCasts_S1x160000_S160000,
    unary main_arg2 main_v191 ((extractStridedSlice S1x160000 ![1, 0] · slices_S2x160000_S1x160000_1_0) : (⟨S2x160000, .i32⟩ : BufTy).Contents (Elt F) → (⟨S1x160000, .i32⟩ : BufTy).Contents (Elt F)),
    reshape main_v191 main_v192 rfl shapeCasts_S1x160000_S160000,
    nullary main_c_32 (constantI S_ 32 0#32),
    unary main_c_32 main_v193 (broadcastInDim S160000 ![] bcast_S_S160000 : (⟨S_, .i32⟩ : BufTy).Contents (Elt F) → (⟨S160000, .i32⟩ : BufTy).Contents (Elt F)),
    binary main_v192 main_v193 main_v194 (cmpi .slt : (⟨S160000, .i32⟩ : BufTy).Contents (Elt F) → (⟨S160000, .i32⟩ : BufTy).Contents (Elt F) → (⟨S160000, .i1⟩ : BufTy).Contents (Elt F)),
    nullary main_c_33 (constantI S_ 32 10000#32),
    unary main_c_33 main_v195 (broadcastInDim S160000 ![] bcast_S_S160000 : (⟨S_, .i32⟩ : BufTy).Contents (Elt F) → (⟨S160000, .i32⟩ : BufTy).Contents (Elt F)),
    binary main_v192 main_v195 main_v196 (addi : (⟨S160000, .i32⟩ : BufTy).Contents (Elt F) → (⟨S160000, .i32⟩ : BufTy).Contents (Elt F) → (⟨S160000, .i32⟩ : BufTy).Contents (Elt F)),
    ternary main_v194 main_v196 main_v192 main_v197 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v197 main_v198 (broadcastInDim S160000x1 ![0] bcast_S160000_S160000x1_0 : (⟨S160000, .i32⟩ : BufTy).Contents (Elt F) → (⟨S160000x1, .i32⟩ : BufTy).Contents (Elt F)),
    binary main_v151 main_v198 main_v199 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nullary main_c_34 (constantI S_ 32 0#32),
    unary main_c_34 main_v200 (broadcastInDim S160000 ![] bcast_S_S160000 : (⟨S_, .i32⟩ : BufTy).Contents (Elt F) → (⟨S160000, .i32⟩ : BufTy).Contents (Elt F)),
    binary main_v190 main_v200 main_v201 (cmpi .slt : (⟨S160000, .i32⟩ : BufTy).Contents (Elt F) → (⟨S160000, .i32⟩ : BufTy).Contents (Elt F) → (⟨S160000, .i1⟩ : BufTy).Contents (Elt F)),
    nullary main_c_35 (constantI S_ 32 10000#32) ]

set_option maxRecDepth 4096 in
/-- Every buffer these operations touch is a TensorCore reference. -/
theorem c07_sub : (c07 (F := F)).Forall fun op => op.bufs ⊆ tcRefs τ sig :=
  ⟨unary_bufs_sub .., nullary_bufs_sub .., unary_bufs_sub .., binary_bufs_sub .., binary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub ..⟩

/-- Each of these operations determines its result. -/
theorem c07_fresh : ∀ op ∈ (c07 (F := F)), op.fresh = ∅ := by
  intro _ h; (repeat (cases h with | head => rfl | tail _ h => ?_)); exact nomatch h

set_option maxRecDepth 8192 in
set_option maxHeartbeats 4000000 in
/-- Part 3 of @main is these two lines run one after the other. -/
theorem part3_eq (c : Dev nD) : main_part3 (F := F) c = seq (c06 ++ c07) := rfl

end Cert.RefRun

end
-- ==== Proof.Val.RefRunW4.lean ====
import proofs.«407386_j15839839387945_2_alg».proof.Proof.Val.RefRunBase

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 245 … 284 of @main, in order. -/
abbrev c08 : List (HloOp τ sig (Elt F)) :=
  [ unary main_c_35 main_v202 (broadcastInDim S160000 ![] bcast_S_S160000 : (⟨S_, .i32⟩ : BufTy).Contents (Elt F) → (⟨S160000, .i32⟩ : BufTy).Contents (Elt F)),
    binary main_v190 main_v202 main_v203 (addi : (⟨S160000, .i32⟩ : BufTy).Contents (Elt F) → (⟨S160000, .i32⟩ : BufTy).Contents (Elt F) → (⟨S160000, .i32⟩ : BufTy).Contents (Elt F)),
    ternary main_v201 main_v203 main_v190 main_v204 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v204 main_v205 (broadcastInDim S160000x1 ![0] bcast_S160000_S160000x1_0 : (⟨S160000, .i32⟩ : BufTy).Contents (Elt F) → (⟨S160000x1, .i32⟩ : BufTy).Contents (Elt F)),
    binary main_v151 main_v205 main_v206 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nary ![main_v199, main_v206, main_v23] main_v207 (fun u => concatenate S160000x384 1 [⟨S160000x128, u 0⟩, ⟨S160000x128, u 1⟩, ⟨S160000x128, u 2⟩] concatenates_S160000x128_S160000x128_S160000x128_S160000x384_d1),
    binary main_v207 main_arg8 main_v208 ((fun l r => Host.dotGeneral dot_S160000x384_S384x128_S160000x128_1_0_0_1_n_n none l r) : (⟨S160000x384, .f32⟩ : BufTy).Contents (Elt F) → (⟨S384x128, .f32⟩ : BufTy).Contents (Elt F) → (⟨S160000x128, .f32⟩ : BufTy).Contents (Elt F)),
    unary main_arg9 main_v209 (broadcastInDim S1x128 ![1] bcast_S128_S1x128_1 : (⟨S128, .f32⟩ : BufTy).Contents (Elt F) → (⟨S1x128, .f32⟩ : BufTy).Contents (Elt F)),
    unary main_v209 main_v210 (broadcastInDim S160000x128 ![0, 1] bcast_S1x128_S160000x128_0_1 : (⟨S1x128, .f32⟩ : BufTy).Contents (Elt F) → (⟨S160000x128, .f32⟩ : BufTy).Contents (Elt F)),
    binary main_v208 main_v210 main_v211 (addf : (⟨S160000x128, .f32⟩ : BufTy).Contents (Elt F) → (⟨S160000x128, .f32⟩ : BufTy).Contents (Elt F) → (⟨S160000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S160000x128, .f32⟩) main_call2_v0) (broadcastInDim S160000x128 ![] bcast_S_S160000x128),
    TRef.binary (TRef.of (T := ⟨S160000x128, .f32⟩) main_v211) (TRef.of (T := ⟨S160000x128, .f32⟩) main_call2_v0) (TRef.of (T := ⟨S160000x128, .f32⟩) main_v212) maximumf,
    nullary main_cst_36 (constant S_ .f32 0x00000000#32),
    unary main_cst_36 main_v213 (broadcastInDim S10000x128 ![] bcast_S_S10000x128 : (⟨S_, .f32⟩ : BufTy).Contents (Elt F) → (⟨S10000x128, .f32⟩ : BufTy).Contents (Elt F)),
    unary main_v192 main_v214 (broadcastInDim S160000x1 ![0] bcast_S160000_S160000x1_0 : (⟨S160000, .i32⟩ : BufTy).Contents (Elt F) → (⟨S160000x1, .i32⟩ : BufTy).Contents (Elt F)),
    ternary main_v213 main_v214 main_v212 main_v215 ((fun x i u => Host.scatterAdd scatter_S10000x128_S160000x1_S160000x128_1_0_0_1 x i u) : (⟨S10000x128, .f32⟩ : BufTy).Contents (Elt F) → (⟨S160000x1, .i32⟩ : BufTy).Contents (Elt F) → (⟨S160000x128, .f32⟩ : BufTy).Contents (Elt F) → (⟨S10000x128, .f32⟩ : BufTy).Contents (Elt F)),
    unary main_arg3 main_v216 ((extractStridedSlice S1x160000 ![0, 0] · slices_S2x160000_S1x160000_0_0) : (⟨S2x160000, .i32⟩ : BufTy).Contents (Elt F) → (⟨S1x160000, .i32⟩ : BufTy).Contents (Elt F)),
    reshape main_v216 main_v217 rfl shapeCasts_S1x160000_S160000,
    unary main_arg3 main_v218 ((extractStridedSlice S1x160000 ![1, 0] · slices_S2x160000_S1x160000_1_0) : (⟨S2x160000, .i32⟩ : BufTy).Contents (Elt F) → (⟨S1x160000, .i32⟩ : BufTy).Contents (Elt F)),
    reshape main_v218 main_v219 rfl shapeCasts_S1x160000_S160000,
    nullary main_c_37 (constantI S_ 32 0#32),
    unary main_c_37 main_v220 (broadcastInDim S160000 ![] bcast_S_S160000 : (⟨S_, .i32⟩ : BufTy).Contents (Elt F) → (⟨S160000, .i32⟩ : BufTy).Contents (Elt F)),
    binary main_v219 main_v220 main_v221 (cmpi .slt : (⟨S160000, .i32⟩ : BufTy).Contents (Elt F) → (⟨S160000, .i32⟩ : BufTy).Contents (Elt F) → (⟨S160000, .i1⟩ : BufTy).Contents (Elt F)),
    nullary main_c_38 (constantI S_ 32 10000#32),
    unary main_c_38 main_v222 (broadcastInDim S160000 ![] bcast_S_S160000 : (⟨S_, .i32⟩ : BufTy).Contents (Elt F) → (⟨S160000, .i32⟩ : BufTy).Contents (Elt F)),
    binary main_v219 main_v222 main_v223 (addi : (⟨S160000, .i32⟩ : BufTy).Contents (Elt F) → (⟨S160000, .i32⟩ : BufTy).Contents (Elt F) → (⟨S160000, .i32⟩ : BufTy).Contents (Elt F)),
    ternary main_v221 main_v223 main_v219 main_v224 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v224 main_v225 (broadcastInDim S160000x1 ![0] bcast_S160000_S160000x1_0 : (⟨S160000, .i32⟩ : BufTy).Contents (Elt F) → (⟨S160000x1, .i32⟩ : BufTy).Contents (Elt F)),
    binary main_v188 main_v225 main_v226 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nullary main_c_39 (constantI S_ 32 0#32),
    unary main_c_39 main_v227 (broadcastInDim S160000 ![] bcast_S_S160000 : (⟨S_, .i32⟩ : BufTy).Contents (Elt F) → (⟨S160000, .i32⟩ : BufTy).Contents (Elt F)),
    binary main_v217 main_v227 main_v228 (cmpi .slt : (⟨S160000, .i32⟩ : BufTy).Contents (Elt F) → (⟨S160000, .i32⟩ : BufTy).Contents (Elt F) → (⟨S160000, .i1⟩ : BufTy).Contents (Elt F)),
    nullary main_c_40 (constantI S_ 32 10000#32),
    unary main_c_40 main_v229 (broadcastInDim S160000 ![] bcast_S_S160000 : (⟨S_, .i32⟩ : BufTy).Contents (Elt F) → (⟨S160000, .i32⟩ : BufTy).Contents (Elt F)),
    binary main_v217 main_v229 main_v230 (addi : (⟨S160000, .i32⟩ : BufTy).Contents (Elt F) → (⟨S160000, .i32⟩ : BufTy).Contents (Elt F) → (⟨S160000, .i32⟩ : BufTy).Contents (Elt F)),
    ternary main_v228 main_v230 main_v217 main_v231 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v231 main_v232 (broadcastInDim S160000x1 ![0] bcast_S160000_S160000x1_0 : (⟨S160000, .i32⟩ : BufTy).Contents (Elt F) → (⟨S160000x1, .i32⟩ : BufTy).Contents (Elt F)),
    binary main_v188 main_v232 main_v233 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nary ![main_v226, main_v233, main_v31] main_v234 (fun u => concatenate S160000x384 1 [⟨S160000x128, u 0⟩, ⟨S160000x128, u 1⟩, ⟨S160000x128, u 2⟩] concatenates_S160000x128_S160000x128_S160000x128_S160000x384_d1) ]

set_option maxRecDepth 4096 in
/-- Every buffer these operations touch is a TensorCore reference. -/
theorem c08_sub : (c08 (F := F)).Forall fun op => op.bufs ⊆ tcRefs τ sig :=
  ⟨unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub ..⟩

/-- Each of these operations determines its result. -/
theorem c08_fresh : ∀ op ∈ (c08 (F := F)), op.fresh = ∅ := by
  intro _ h; (repeat (cases h with | head => rfl | tail _ h => ?_)); exact nomatch h

/-- Operations 285 … 308 of @main, in order. -/
abbrev c09 : List (HloOp τ sig (Elt F)) :=
  [ binary main_v234 main_arg8 main_v235 ((fun l r => Host.dotGeneral dot_S160000x384_S384x128_S160000x128_1_0_0_1_n_n none l r) : (⟨S160000x384, .f32⟩ : BufTy).Contents (Elt F) → (⟨S384x128, .f32⟩ : BufTy).Contents (Elt F) → (⟨S160000x128, .f32⟩ : BufTy).Contents (Elt F)),
    unary main_arg9 main_v236 (broadcastInDim S1x128 ![1] bcast_S128_S1x128_1 : (⟨S128, .f32⟩ : BufTy).Contents (Elt F) → (⟨S1x128, .f32⟩ : BufTy).Contents (Elt F)),
    unary main_v236 main_v237 (broadcastInDim S160000x128 ![0, 1] bcast_S1x128_S160000x128_0_1 : (⟨S1x128, .f32⟩ : BufTy).Contents (Elt F) → (⟨S160000x128, .f32⟩ : BufTy).Contents (Elt F)),
    binary main_v235 main_v237 main_v238 (addf : (⟨S160000x128, .f32⟩ : BufTy).Contents (Elt F) → (⟨S160000x128, .f32⟩ : BufTy).Contents (Elt F) → (⟨S160000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S160000x128, .f32⟩) main_call3_v0) (broadcastInDim S160000x128 ![] bcast_S_S160000x128),
    TRef.binary (TRef.of (T := ⟨S160000x128, .f32⟩) main_v238) (TRef.of (T := ⟨S160000x128, .f32⟩) main_call3_v0) (TRef.of (T := ⟨S160000x128, .f32⟩) main_v239) maximumf,
    nullary main_cst_41 (constant S_ .f32 0x00000000#32),
    unary main_cst_41 main_v240 (broadcastInDim S10000x128 ![] bcast_S_S10000x128 : (⟨S_, .f32⟩ : BufTy).Contents (Elt F) → (⟨S10000x128, .f32⟩ : BufTy).Contents (Elt F)),
    unary main_v219 main_v241 (broadcastInDim S160000x1 ![0] bcast_S160000_S160000x1_0 : (⟨S160000, .i32⟩ : BufTy).Contents (Elt F) → (⟨S160000x1, .i32⟩ : BufTy).Contents (Elt F)),
    ternary main_v240 main_v241 main_v239 main_v242 ((fun x i u => Host.scatterAdd scatter_S10000x128_S160000x1_S160000x128_1_0_0_1 x i u) : (⟨S10000x128, .f32⟩ : BufTy).Contents (Elt F) → (⟨S160000x1, .i32⟩ : BufTy).Contents (Elt F) → (⟨S160000x128, .f32⟩ : BufTy).Contents (Elt F) → (⟨S10000x128, .f32⟩ : BufTy).Contents (Elt F)),
    unary main_v188 main_v243 ((transpose S128x10000 [1, 0] · transposes_S10000x128_S128x10000_1_0) : (⟨S10000x128, .f32⟩ : BufTy).Contents (Elt F) → (⟨S128x10000, .f32⟩ : BufTy).Contents (Elt F)),
    binary main_v151 main_v243 main_v244 ((fun l r => Host.dotGeneral dot_S10000x128_S128x10000_S10000x10000_1_0_0_1_n_n none l r) : (⟨S10000x128, .f32⟩ : BufTy).Contents (Elt F) → (⟨S128x10000, .f32⟩ : BufTy).Contents (Elt F) → (⟨S10000x10000, .f32⟩ : BufTy).Contents (Elt F)),
    nullary main_cst_42 (constant S_ .f32 0xFF800000#32),
    binary main_v244 main_cst_42 main_v245 ((fun x v => Host.reduce FloatOps.maximumf x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    nullary main_cst_43 (constant S_ .f32 0xFF800000#32),
    unary main_cst_43 main_v246 (broadcastInDim S10000 ![] bcast_S_S10000 : (⟨S_, .f32⟩ : BufTy).Contents (Elt F) → (⟨S10000, .f32⟩ : BufTy).Contents (Elt F)),
    binary main_v246 main_v245 main_v247 (maximumf : (⟨S10000, .f32⟩ : BufTy).Contents (Elt F) → (⟨S10000, .f32⟩ : BufTy).Contents (Elt F) → (⟨S10000, .f32⟩ : BufTy).Contents (Elt F)),
    unary main_v247 main_v248 (broadcastInDim S10000x1 ![0] bcast_S10000_S10000x1_0 : (⟨S10000, .f32⟩ : BufTy).Contents (Elt F) → (⟨S10000x1, .f32⟩ : BufTy).Contents (Elt F)),
    unary main_v248 main_v249 (broadcastInDim S10000x10000 ![0, 1] bcast_S10000x1_S10000x10000_0_1 : (⟨S10000x1, .f32⟩ : BufTy).Contents (Elt F) → (⟨S10000x10000, .f32⟩ : BufTy).Contents (Elt F)),
    binary main_v244 main_v249 main_v250 (subf : (⟨S10000x10000, .f32⟩ : BufTy).Contents (Elt F) → (⟨S10000x10000, .f32⟩ : BufTy).Contents (Elt F) → (⟨S10000x10000, .f32⟩ : BufTy).Contents (Elt F)),
    unary main_v250 main_v251 (Host.exp : (⟨S10000x10000, .f32⟩ : BufTy).Contents (Elt F) → (⟨S10000x10000, .f32⟩ : BufTy).Contents (Elt F)),
    nullary main_cst_44 (constant S_ .f32 0x00000000#32),
    binary main_v251 main_cst_44 main_v252 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)) ]

set_option maxRecDepth 4096 in
/-- Every buffer these operations touch is a TensorCore reference. -/
theorem c09_sub : (c09 (F := F)).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub ..⟩

/-- Each of these operations determines its result. -/
theorem c09_fresh : ∀ op ∈ (c09 (F := F)), op.fresh = ∅ := by
  intro _ h; (repeat (cases h with | head => rfl | tail _ h => ?_)); exact nomatch h

set_option maxRecDepth 8192 in
set_option maxHeartbeats 4000000 in
/-- Part 4 of @main is these two lines run one after the other. -/
theorem part4_eq (c : Dev nD) : main_part4 (F := F) c = seq (c08 ++ c09) := rfl

end Cert.RefRun

end
-- ==== Proof.Val.RefRunW5.lean ====
import proofs.«407386_j15839839387945_2_alg».proof.Proof.Val.RefRunBase

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 309 … 335 of @main, in order. -/
abbrev c10 : List (HloOp τ sig (Elt F)) :=
  [ unary main_v252 main_v253 (broadcastInDim S10000x1 ![0] bcast_S10000_S10000x1_0 : (⟨S10000, .f32⟩ : BufTy).Contents (Elt F) → (⟨S10000x1, .f32⟩ : BufTy).Contents (Elt F)),
    unary main_v253 main_v254 (broadcastInDim S10000x10000 ![0, 1] bcast_S10000x1_S10000x10000_0_1 : (⟨S10000x1, .f32⟩ : BufTy).Contents (Elt F) → (⟨S10000x10000, .f32⟩ : BufTy).Contents (Elt F)),
    binary main_v251 main_v254 main_v255 (Host.divf : (⟨S10000x10000, .f32⟩ : BufTy).Contents (Elt F) → (⟨S10000x10000, .f32⟩ : BufTy).Contents (Elt F) → (⟨S10000x10000, .f32⟩ : BufTy).Contents (Elt F)),
    nullary main_cst_45 (constant S_ .f32 0xFF800000#32),
    binary main_v244 main_cst_45 main_v256 ((fun x v => Host.reduce FloatOps.maximumf x v reducesTo_S10000x10000_S10000_d0 h_S_) : (⟨S10000x10000, .f32⟩ : BufTy).Contents (Elt F) → (⟨S_, .f32⟩ : BufTy).Contents (Elt F) → (⟨S10000, .f32⟩ : BufTy).Contents (Elt F)),
    nullary main_cst_46 (constant S_ .f32 0xFF800000#32),
    unary main_cst_46 main_v257 (broadcastInDim S10000 ![] bcast_S_S10000 : (⟨S_, .f32⟩ : BufTy).Contents (Elt F) → (⟨S10000, .f32⟩ : BufTy).Contents (Elt F)),
    binary main_v257 main_v256 main_v258 (maximumf : (⟨S10000, .f32⟩ : BufTy).Contents (Elt F) → (⟨S10000, .f32⟩ : BufTy).Contents (Elt F) → (⟨S10000, .f32⟩ : BufTy).Contents (Elt F)),
    unary main_v258 main_v259 (broadcastInDim S1x10000 ![1] bcast_S10000_S1x10000_1 : (⟨S10000, .f32⟩ : BufTy).Contents (Elt F) → (⟨S1x10000, .f32⟩ : BufTy).Contents (Elt F)),
    unary main_v259 main_v260 (broadcastInDim S10000x10000 ![0, 1] bcast_S1x10000_S10000x10000_0_1 : (⟨S1x10000, .f32⟩ : BufTy).Contents (Elt F) → (⟨S10000x10000, .f32⟩ : BufTy).Contents (Elt F)),
    binary main_v244 main_v260 main_v261 (subf : (⟨S10000x10000, .f32⟩ : BufTy).Contents (Elt F) → (⟨S10000x10000, .f32⟩ : BufTy).Contents (Elt F) → (⟨S10000x10000, .f32⟩ : BufTy).Contents (Elt F)),
    unary main_v261 main_v262 (Host.exp : (⟨S10000x10000, .f32⟩ : BufTy).Contents (Elt F) → (⟨S10000x10000, .f32⟩ : BufTy).Contents (Elt F)),
    nullary main_cst_47 (constant S_ .f32 0x00000000#32),
    binary main_v262 main_cst_47 main_v263 ((fun x v => Host.reduceAdd x v reducesTo_S10000x10000_S10000_d0 h_S_) : (⟨S10000x10000, .f32⟩ : BufTy).Contents (Elt F) → (⟨S_, .f32⟩ : BufTy).Contents (Elt F) → (⟨S10000, .f32⟩ : BufTy).Contents (Elt F)),
    unary main_v263 main_v264 (broadcastInDim S1x10000 ![1] bcast_S10000_S1x10000_1 : (⟨S10000, .f32⟩ : BufTy).Contents (Elt F) → (⟨S1x10000, .f32⟩ : BufTy).Contents (Elt F)),
    unary main_v264 main_v265 (broadcastInDim S10000x10000 ![0, 1] bcast_S1x10000_S10000x10000_0_1 : (⟨S1x10000, .f32⟩ : BufTy).Contents (Elt F) → (⟨S10000x10000, .f32⟩ : BufTy).Contents (Elt F)),
    binary main_v262 main_v265 main_v266 (Host.divf : (⟨S10000x10000, .f32⟩ : BufTy).Contents (Elt F) → (⟨S10000x10000, .f32⟩ : BufTy).Contents (Elt F) → (⟨S10000x10000, .f32⟩ : BufTy).Contents (Elt F)),
    unary main_v266 main_v267 ((transpose S10000x10000 [1, 0] · transposes_S10000x10000_S10000x10000_1_0) : (⟨S10000x10000, .f32⟩ : BufTy).Contents (Elt F) → (⟨S10000x10000, .f32⟩ : BufTy).Contents (Elt F)),
    binary main_v255 main_v188 main_v268 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v151 main_v268 main_v269 (subf : (⟨S10000x128, .f32⟩ : BufTy).Contents (Elt F) → (⟨S10000x128, .f32⟩ : BufTy).Contents (Elt F) → (⟨S10000x128, .f32⟩ : BufTy).Contents (Elt F)),
    binary main_v267 main_v151 main_v270 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v188 main_v270 main_v271 (subf : (⟨S10000x128, .f32⟩ : BufTy).Contents (Elt F) → (⟨S10000x128, .f32⟩ : BufTy).Contents (Elt F) → (⟨S10000x128, .f32⟩ : BufTy).Contents (Elt F)),
    binary main_v215 main_v269 main_v272 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v272 main_arg10 main_v273 ((fun l r => Host.dotGeneral dot_S10000x256_S256x384_S10000x384_1_0_0_1_n_n none l r) : (⟨S10000x256, .f32⟩ : BufTy).Contents (Elt F) → (⟨S256x384, .f32⟩ : BufTy).Contents (Elt F) → (⟨S10000x384, .f32⟩ : BufTy).Contents (Elt F)),
    unary main_arg11 main_v274 (broadcastInDim S1x384 ![1] bcast_S384_S1x384_1 : (⟨S384, .f32⟩ : BufTy).Contents (Elt F) → (⟨S1x384, .f32⟩ : BufTy).Contents (Elt F)),
    unary main_v274 main_v275 (broadcastInDim S10000x384 ![0, 1] bcast_S1x384_S10000x384_0_1 : (⟨S1x384, .f32⟩ : BufTy).Contents (Elt F) → (⟨S10000x384, .f32⟩ : BufTy).Contents (Elt F)),
    binary main_v273 main_v275 main_v276 (addf : (⟨S10000x384, .f32⟩ : BufTy).Contents (Elt F) → (⟨S10000x384, .f32⟩ : BufTy).Contents (Elt F) → (⟨S10000x384, .f32⟩ : BufTy).Contents (Elt F)) ]

set_option maxRecDepth 4096 in
/-- Every buffer these operations touch is a TensorCore reference. -/
theorem c10_sub : (c10 (F := F)).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., binary_bufs_sub .., binary_bufs_sub .., binary_bufs_sub .., binary_bufs_sub .., binary_bufs_sub .., unary_bufs_sub .., unary_bufs_sub .., binary_bufs_sub ..⟩

/-- Each of these operations determines its result. -/
theorem c10_fresh : ∀ op ∈ (c10 (F := F)), op.fresh = ∅ := by
  intro _ h; (repeat (cases h with | head => rfl | tail _ h => ?_)); exact nomatch h

/-- Operations 336 … 368 of @main, in order. -/
abbrev c11 : List (HloOp τ sig (Elt F)) :=
  [ binary main_v151 main_arg12 main_v277 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    unary main_arg13 main_v278 (broadcastInDim S1x384 ![1] bcast_S384_S1x384_1 : (⟨S384, .f32⟩ : BufTy).Contents (Elt F) → (⟨S1x384, .f32⟩ : BufTy).Contents (Elt F)),
    unary main_v278 main_v279 (broadcastInDim S10000x384 ![0, 1] bcast_S1x384_S10000x384_0_1 : (⟨S1x384, .f32⟩ : BufTy).Contents (Elt F) → (⟨S10000x384, .f32⟩ : BufTy).Contents (Elt F)),
    binary main_v277 main_v279 main_v280 (addf : (⟨S10000x384, .f32⟩ : BufTy).Contents (Elt F) → (⟨S10000x384, .f32⟩ : BufTy).Contents (Elt F) → (⟨S10000x384, .f32⟩ : BufTy).Contents (Elt F)),
    unary main_v276 main_v281 ((extractStridedSlice S10000x128 ![0, 0] · slices_S10000x384_S10000x128_0_0) : (⟨S10000x384, .f32⟩ : BufTy).Contents (Elt F) → (⟨S10000x128, .f32⟩ : BufTy).Contents (Elt F)),
    unary main_v276 main_v282 ((extractStridedSlice S10000x128 ![0, 128] · slices_S10000x384_S10000x128_0_128) : (⟨S10000x384, .f32⟩ : BufTy).Contents (Elt F) → (⟨S10000x128, .f32⟩ : BufTy).Contents (Elt F)),
    unary main_v276 main_v283 ((extractStridedSlice S10000x128 ![0, 256] · slices_S10000x384_S10000x128_0_256) : (⟨S10000x384, .f32⟩ : BufTy).Contents (Elt F) → (⟨S10000x128, .f32⟩ : BufTy).Contents (Elt F)),
    unary main_v280 main_v284 ((extractStridedSlice S10000x128 ![0, 0] · slices_S10000x384_S10000x128_0_0) : (⟨S10000x384, .f32⟩ : BufTy).Contents (Elt F) → (⟨S10000x128, .f32⟩ : BufTy).Contents (Elt F)),
    unary main_v280 main_v285 ((extractStridedSlice S10000x128 ![0, 128] · slices_S10000x384_S10000x128_0_128) : (⟨S10000x384, .f32⟩ : BufTy).Contents (Elt F) → (⟨S10000x128, .f32⟩ : BufTy).Contents (Elt F)),
    unary main_v280 main_v286 ((extractStridedSlice S10000x128 ![0, 256] · slices_S10000x384_S10000x128_0_256) : (⟨S10000x384, .f32⟩ : BufTy).Contents (Elt F) → (⟨S10000x128, .f32⟩ : BufTy).Contents (Elt F)),
    binary main_v281 main_v284 main_v287 (addf : (⟨S10000x128, .f32⟩ : BufTy).Contents (Elt F) → (⟨S10000x128, .f32⟩ : BufTy).Contents (Elt F) → (⟨S10000x128, .f32⟩ : BufTy).Contents (Elt F)),
    unary main_v287 main_v288 (Host.negf : (⟨S10000x128, .f32⟩ : BufTy).Contents (Elt F) → (⟨S10000x128, .f32⟩ : BufTy).Contents (Elt F)),
    unary main_v288 main_v289 (Host.exp : (⟨S10000x128, .f32⟩ : BufTy).Contents (Elt F) → (⟨S10000x128, .f32⟩ : BufTy).Contents (Elt F)),
    nullary main_cst_48 (constant S_ .f32 0x3F800000#32),
    unary main_cst_48 main_v290 (broadcastInDim S10000x128 ![] bcast_S_S10000x128 : (⟨S_, .f32⟩ : BufTy).Contents (Elt F) → (⟨S10000x128, .f32⟩ : BufTy).Contents (Elt F)),
    binary main_v290 main_v289 main_v291 (addf : (⟨S10000x128, .f32⟩ : BufTy).Contents (Elt F) → (⟨S10000x128, .f32⟩ : BufTy).Contents (Elt F) → (⟨S10000x128, .f32⟩ : BufTy).Contents (Elt F)),
    nullary main_cst_49 (constant S_ .f32 0x3F800000#32),
    unary main_cst_49 main_v292 (broadcastInDim S10000x128 ![] bcast_S_S10000x128 : (⟨S_, .f32⟩ : BufTy).Contents (Elt F) → (⟨S10000x128, .f32⟩ : BufTy).Contents (Elt F)),
    binary main_v292 main_v291 main_v293 (Host.divf : (⟨S10000x128, .f32⟩ : BufTy).Contents (Elt F) → (⟨S10000x128, .f32⟩ : BufTy).Contents (Elt F) → (⟨S10000x128, .f32⟩ : BufTy).Contents (Elt F)),
    binary main_v282 main_v285 main_v294 (addf : (⟨S10000x128, .f32⟩ : BufTy).Contents (Elt F) → (⟨S10000x128, .f32⟩ : BufTy).Contents (Elt F) → (⟨S10000x128, .f32⟩ : BufTy).Contents (Elt F)),
    unary main_v294 main_v295 (Host.negf : (⟨S10000x128, .f32⟩ : BufTy).Contents (Elt F) → (⟨S10000x128, .f32⟩ : BufTy).Contents (Elt F)),
    unary main_v295 main_v296 (Host.exp : (⟨S10000x128, .f32⟩ : BufTy).Contents (Elt F) → (⟨S10000x128, .f32⟩ : BufTy).Contents (Elt F)),
    nullary main_cst_50 (constant S_ .f32 0x3F800000#32),
    unary main_cst_50 main_v297 (broadcastInDim S10000x128 ![] bcast_S_S10000x128 : (⟨S_, .f32⟩ : BufTy).Contents (Elt F) → (⟨S10000x128, .f32⟩ : BufTy).Contents (Elt F)),
    binary main_v297 main_v296 main_v298 (addf : (⟨S10000x128, .f32⟩ : BufTy).Contents (Elt F) → (⟨S10000x128, .f32⟩ : BufTy).Contents (Elt F) → (⟨S10000x128, .f32⟩ : BufTy).Contents (Elt F)),
    nullary main_cst_51 (constant S_ .f32 0x3F800000#32),
    unary main_cst_51 main_v299 (broadcastInDim S10000x128 ![] bcast_S_S10000x128 : (⟨S_, .f32⟩ : BufTy).Contents (Elt F) → (⟨S10000x128, .f32⟩ : BufTy).Contents (Elt F)),
    binary main_v299 main_v298 main_v300 (Host.divf : (⟨S10000x128, .f32⟩ : BufTy).Contents (Elt F) → (⟨S10000x128, .f32⟩ : BufTy).Contents (Elt F) → (⟨S10000x128, .f32⟩ : BufTy).Contents (Elt F)),
    binary main_v293 main_v286 main_v301 (mulf : (⟨S10000x128, .f32⟩ : BufTy).Contents (Elt F) → (⟨S10000x128, .f32⟩ : BufTy).Contents (Elt F) → (⟨S10000x128, .f32⟩ : BufTy).Contents (Elt F)),
    binary main_v283 main_v301 main_v302 (addf : (⟨S10000x128, .f32⟩ : BufTy).Contents (Elt F) → (⟨S10000x128, .f32⟩ : BufTy).Contents (Elt F) → (⟨S10000x128, .f32⟩ : BufTy).Contents (Elt F)),
    unary main_v302 main_v303 (Host.tanh : (⟨S10000x128, .f32⟩ : BufTy).Contents (Elt F) → (⟨S10000x128, .f32⟩ : BufTy).Contents (Elt F)),
    nullary main_cst_52 (constant S_ .f32 0x3F800000#32),
    unary main_cst_52 main_v304 (broadcastInDim S10000x128 ![] bcast_S_S10000x128 : (⟨S_, .f32⟩ : BufTy).Contents (Elt F) → (⟨S10000x128, .f32⟩ : BufTy).Contents (Elt F)) ]

set_option maxRecDepth 4096 in
/-- Every buffer these operations touch is a TensorCore reference. -/
theorem c11_sub : (c11 (F := F)).Forall fun op => op.bufs ⊆ tcRefs τ sig :=
  ⟨binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub ..⟩

/-- Each of these operations determines its result. -/
theorem c11_fresh : ∀ op ∈ (c11 (F := F)), op.fresh = ∅ := by
  intro _ h; (repeat (cases h with | head => rfl | tail _ h => ?_)); exact nomatch h

set_option maxRecDepth 8192 in
set_option maxHeartbeats 4000000 in
/-- Part 5 of @main is these two lines run one after the other. -/
theorem part5_eq (c : Dev nD) : main_part5 (F := F) c = seq (c10 ++ c11) := rfl

end Cert.RefRun

end
-- ==== Proof.Val.RefRunW6.lean ====
import proofs.«407386_j15839839387945_2_alg».proof.Proof.Val.RefRunBase

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 369 … 406 of @main, in order. -/
abbrev c12 : List (HloOp τ sig (Elt F)) :=
  [ binary main_v304 main_v300 main_v305 (subf : (⟨S10000x128, .f32⟩ : BufTy).Contents (Elt F) → (⟨S10000x128, .f32⟩ : BufTy).Contents (Elt F) → (⟨S10000x128, .f32⟩ : BufTy).Contents (Elt F)),
    binary main_v305 main_v303 main_v306 (mulf : (⟨S10000x128, .f32⟩ : BufTy).Contents (Elt F) → (⟨S10000x128, .f32⟩ : BufTy).Contents (Elt F) → (⟨S10000x128, .f32⟩ : BufTy).Contents (Elt F)),
    binary main_v300 main_v151 main_v307 (mulf : (⟨S10000x128, .f32⟩ : BufTy).Contents (Elt F) → (⟨S10000x128, .f32⟩ : BufTy).Contents (Elt F) → (⟨S10000x128, .f32⟩ : BufTy).Contents (Elt F)),
    binary main_v306 main_v307 main_v308 (addf : (⟨S10000x128, .f32⟩ : BufTy).Contents (Elt F) → (⟨S10000x128, .f32⟩ : BufTy).Contents (Elt F) → (⟨S10000x128, .f32⟩ : BufTy).Contents (Elt F)),
    binary main_v242 main_v271 main_v309 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v309 main_arg10 main_v310 ((fun l r => Host.dotGeneral dot_S10000x256_S256x384_S10000x384_1_0_0_1_n_n none l r) : (⟨S10000x256, .f32⟩ : BufTy).Contents (Elt F) → (⟨S256x384, .f32⟩ : BufTy).Contents (Elt F) → (⟨S10000x384, .f32⟩ : BufTy).Contents (Elt F)),
    unary main_arg11 main_v311 (broadcastInDim S1x384 ![1] bcast_S384_S1x384_1 : (⟨S384, .f32⟩ : BufTy).Contents (Elt F) → (⟨S1x384, .f32⟩ : BufTy).Contents (Elt F)),
    unary main_v311 main_v312 (broadcastInDim S10000x384 ![0, 1] bcast_S1x384_S10000x384_0_1 : (⟨S1x384, .f32⟩ : BufTy).Contents (Elt F) → (⟨S10000x384, .f32⟩ : BufTy).Contents (Elt F)),
    binary main_v310 main_v312 main_v313 (addf : (⟨S10000x384, .f32⟩ : BufTy).Contents (Elt F) → (⟨S10000x384, .f32⟩ : BufTy).Contents (Elt F) → (⟨S10000x384, .f32⟩ : BufTy).Contents (Elt F)),
    binary main_v188 main_arg12 main_v314 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    unary main_arg13 main_v315 (broadcastInDim S1x384 ![1] bcast_S384_S1x384_1 : (⟨S384, .f32⟩ : BufTy).Contents (Elt F) → (⟨S1x384, .f32⟩ : BufTy).Contents (Elt F)),
    unary main_v315 main_v316 (broadcastInDim S10000x384 ![0, 1] bcast_S1x384_S10000x384_0_1 : (⟨S1x384, .f32⟩ : BufTy).Contents (Elt F) → (⟨S10000x384, .f32⟩ : BufTy).Contents (Elt F)),
    binary main_v314 main_v316 main_v317 (addf : (⟨S10000x384, .f32⟩ : BufTy).Contents (Elt F) → (⟨S10000x384, .f32⟩ : BufTy).Contents (Elt F) → (⟨S10000x384, .f32⟩ : BufTy).Contents (Elt F)),
    unary main_v313 main_v318 ((extractStridedSlice S10000x128 ![0, 0] · slices_S10000x384_S10000x128_0_0) : (⟨S10000x384, .f32⟩ : BufTy).Contents (Elt F) → (⟨S10000x128, .f32⟩ : BufTy).Contents (Elt F)),
    unary main_v313 main_v319 ((extractStridedSlice S10000x128 ![0, 128] · slices_S10000x384_S10000x128_0_128) : (⟨S10000x384, .f32⟩ : BufTy).Contents (Elt F) → (⟨S10000x128, .f32⟩ : BufTy).Contents (Elt F)),
    unary main_v313 main_v320 ((extractStridedSlice S10000x128 ![0, 256] · slices_S10000x384_S10000x128_0_256) : (⟨S10000x384, .f32⟩ : BufTy).Contents (Elt F) → (⟨S10000x128, .f32⟩ : BufTy).Contents (Elt F)),
    unary main_v317 main_v321 ((extractStridedSlice S10000x128 ![0, 0] · slices_S10000x384_S10000x128_0_0) : (⟨S10000x384, .f32⟩ : BufTy).Contents (Elt F) → (⟨S10000x128, .f32⟩ : BufTy).Contents (Elt F)),
    unary main_v317 main_v322 ((extractStridedSlice S10000x128 ![0, 128] · slices_S10000x384_S10000x128_0_128) : (⟨S10000x384, .f32⟩ : BufTy).Contents (Elt F) → (⟨S10000x128, .f32⟩ : BufTy).Contents (Elt F)),
    unary main_v317 main_v323 ((extractStridedSlice S10000x128 ![0, 256] · slices_S10000x384_S10000x128_0_256) : (⟨S10000x384, .f32⟩ : BufTy).Contents (Elt F) → (⟨S10000x128, .f32⟩ : BufTy).Contents (Elt F)),
    binary main_v318 main_v321 main_v324 (addf : (⟨S10000x128, .f32⟩ : BufTy).Contents (Elt F) → (⟨S10000x128, .f32⟩ : BufTy).Contents (Elt F) → (⟨S10000x128, .f32⟩ : BufTy).Contents (Elt F)),
    unary main_v324 main_v325 (Host.negf : (⟨S10000x128, .f32⟩ : BufTy).Contents (Elt F) → (⟨S10000x128, .f32⟩ : BufTy).Contents (Elt F)),
    unary main_v325 main_v326 (Host.exp : (⟨S10000x128, .f32⟩ : BufTy).Contents (Elt F) → (⟨S10000x128, .f32⟩ : BufTy).Contents (Elt F)),
    nullary main_cst_53 (constant S_ .f32 0x3F800000#32),
    unary main_cst_53 main_v327 (broadcastInDim S10000x128 ![] bcast_S_S10000x128 : (⟨S_, .f32⟩ : BufTy).Contents (Elt F) → (⟨S10000x128, .f32⟩ : BufTy).Contents (Elt F)),
    binary main_v327 main_v326 main_v328 (addf : (⟨S10000x128, .f32⟩ : BufTy).Contents (Elt F) → (⟨S10000x128, .f32⟩ : BufTy).Contents (Elt F) → (⟨S10000x128, .f32⟩ : BufTy).Contents (Elt F)),
    nullary main_cst_54 (constant S_ .f32 0x3F800000#32),
    unary main_cst_54 main_v329 (broadcastInDim S10000x128 ![] bcast_S_S10000x128 : (⟨S_, .f32⟩ : BufTy).Contents (Elt F) → (⟨S10000x128, .f32⟩ : BufTy).Contents (Elt F)),
    binary main_v329 main_v328 main_v330 (Host.divf : (⟨S10000x128, .f32⟩ : BufTy).Contents (Elt F) → (⟨S10000x128, .f32⟩ : BufTy).Contents (Elt F) → (⟨S10000x128, .f32⟩ : BufTy).Contents (Elt F)),
    binary main_v319 main_v322 main_v331 (addf : (⟨S10000x128, .f32⟩ : BufTy).Contents (Elt F) → (⟨S10000x128, .f32⟩ : BufTy).Contents (Elt F) → (⟨S10000x128, .f32⟩ : BufTy).Contents (Elt F)),
    unary main_v331 main_v332 (Host.negf : (⟨S10000x128, .f32⟩ : BufTy).Contents (Elt F) → (⟨S10000x128, .f32⟩ : BufTy).Contents (Elt F)),
    unary main_v332 main_v333 (Host.exp : (⟨S10000x128, .f32⟩ : BufTy).Contents (Elt F) → (⟨S10000x128, .f32⟩ : BufTy).Contents (Elt F)),
    nullary main_cst_55 (constant S_ .f32 0x3F800000#32),
    unary main_cst_55 main_v334 (broadcastInDim S10000x128 ![] bcast_S_S10000x128 : (⟨S_, .f32⟩ : BufTy).Contents (Elt F) → (⟨S10000x128, .f32⟩ : BufTy).Contents (Elt F)),
    binary main_v334 main_v333 main_v335 (addf : (⟨S10000x128, .f32⟩ : BufTy).Contents (Elt F) → (⟨S10000x128, .f32⟩ : BufTy).Contents (Elt F) → (⟨S10000x128, .f32⟩ : BufTy).Contents (Elt F)),
    nullary main_cst_56 (constant S_ .f32 0x3F800000#32),
    unary main_cst_56 main_v336 (broadcastInDim S10000x128 ![] bcast_S_S10000x128 : (⟨S_, .f32⟩ : BufTy).Contents (Elt F) → (⟨S10000x128, .f32⟩ : BufTy).Contents (Elt F)),
    binary main_v336 main_v335 main_v337 (Host.divf : (⟨S10000x128, .f32⟩ : BufTy).Contents (Elt F) → (⟨S10000x128, .f32⟩ : BufTy).Contents (Elt F) → (⟨S10000x128, .f32⟩ : BufTy).Contents (Elt F)),
    binary main_v330 main_v323 main_v338 (mulf : (⟨S10000x128, .f32⟩ : BufTy).Contents (Elt F) → (⟨S10000x128, .f32⟩ : BufTy).Contents (Elt F) → (⟨S10000x128, .f32⟩ : BufTy).Contents (Elt F)) ]

set_option maxRecDepth 4096 in
/-- Every buffer these operations touch is a TensorCore reference. -/
theorem c12_sub : (c12 (F := F)).Forall fun op => op.bufs ⊆ tcRefs τ sig :=
  ⟨binary_bufs_sub .., binary_bufs_sub .., binary_bufs_sub .., binary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

/-- Each of these operations determines its result. -/
theorem c12_fresh : ∀ op ∈ (c12 (F := F)), op.fresh = ∅ := by
  intro _ h; (repeat (cases h with | head => rfl | tail _ h => ?_)); exact nomatch h

/-- Operations 407 … 428 of @main, in order. -/
abbrev c13 : List (HloOp τ sig (Elt F)) :=
  [ binary main_v320 main_v338 main_v339 (addf : (⟨S10000x128, .f32⟩ : BufTy).Contents (Elt F) → (⟨S10000x128, .f32⟩ : BufTy).Contents (Elt F) → (⟨S10000x128, .f32⟩ : BufTy).Contents (Elt F)),
    unary main_v339 main_v340 (Host.tanh : (⟨S10000x128, .f32⟩ : BufTy).Contents (Elt F) → (⟨S10000x128, .f32⟩ : BufTy).Contents (Elt F)),
    nullary main_cst_57 (constant S_ .f32 0x3F800000#32),
    unary main_cst_57 main_v341 (broadcastInDim S10000x128 ![] bcast_S_S10000x128 : (⟨S_, .f32⟩ : BufTy).Contents (Elt F) → (⟨S10000x128, .f32⟩ : BufTy).Contents (Elt F)),
    binary main_v341 main_v337 main_v342 (subf : (⟨S10000x128, .f32⟩ : BufTy).Contents (Elt F) → (⟨S10000x128, .f32⟩ : BufTy).Contents (Elt F) → (⟨S10000x128, .f32⟩ : BufTy).Contents (Elt F)),
    binary main_v342 main_v340 main_v343 (mulf : (⟨S10000x128, .f32⟩ : BufTy).Contents (Elt F) → (⟨S10000x128, .f32⟩ : BufTy).Contents (Elt F) → (⟨S10000x128, .f32⟩ : BufTy).Contents (Elt F)),
    binary main_v337 main_v188 main_v344 (mulf : (⟨S10000x128, .f32⟩ : BufTy).Contents (Elt F) → (⟨S10000x128, .f32⟩ : BufTy).Contents (Elt F) → (⟨S10000x128, .f32⟩ : BufTy).Contents (Elt F)),
    binary main_v343 main_v344 main_v345 (addf : (⟨S10000x128, .f32⟩ : BufTy).Contents (Elt F) → (⟨S10000x128, .f32⟩ : BufTy).Contents (Elt F) → (⟨S10000x128, .f32⟩ : BufTy).Contents (Elt F)),
    binary main_v308 main_arg14 main_v346 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg15 main_v347 (broadcastInDim S1x1 ![1] bcast_S1_S1x1_1 : (⟨S1, .f32⟩ : BufTy).Contents (Elt F) → (⟨S1x1, .f32⟩ : BufTy).Contents (Elt F)),
    unary main_v347 main_v348 (broadcastInDim S10000x1 ![0, 1] bcast_S1x1_S10000x1_0_1 : (⟨S1x1, .f32⟩ : BufTy).Contents (Elt F) → (⟨S10000x1, .f32⟩ : BufTy).Contents (Elt F)),
    binary main_v346 main_v348 main_v349 (addf : (⟨S10000x1, .f32⟩ : BufTy).Contents (Elt F) → (⟨S10000x1, .f32⟩ : BufTy).Contents (Elt F) → (⟨S10000x1, .f32⟩ : BufTy).Contents (Elt F)),
    unary main_v349 main_v350 (Host.negf : (⟨S10000x1, .f32⟩ : BufTy).Contents (Elt F) → (⟨S10000x1, .f32⟩ : BufTy).Contents (Elt F)),
    unary main_v350 main_v351 (Host.exp : (⟨S10000x1, .f32⟩ : BufTy).Contents (Elt F) → (⟨S10000x1, .f32⟩ : BufTy).Contents (Elt F)),
    nullary main_cst_58 (constant S_ .f32 0x3F800000#32),
    unary main_cst_58 main_v352 (broadcastInDim S10000x1 ![] bcast_S_S10000x1 : (⟨S_, .f32⟩ : BufTy).Contents (Elt F) → (⟨S10000x1, .f32⟩ : BufTy).Contents (Elt F)),
    binary main_v352 main_v351 main_v353 (addf : (⟨S10000x1, .f32⟩ : BufTy).Contents (Elt F) → (⟨S10000x1, .f32⟩ : BufTy).Contents (Elt F) → (⟨S10000x1, .f32⟩ : BufTy).Contents (Elt F)),
    nullary main_cst_59 (constant S_ .f32 0x3F800000#32),
    unary main_cst_59 main_v354 (broadcastInDim S10000x1 ![] bcast_S_S10000x1 : (⟨S_, .f32⟩ : BufTy).Contents (Elt F) → (⟨S10000x1, .f32⟩ : BufTy).Contents (Elt F)),
    binary main_v354 main_v353 main_v355 (Host.divf : (⟨S10000x1, .f32⟩ : BufTy).Contents (Elt F) → (⟨S10000x1, .f32⟩ : BufTy).Contents (Elt F) → (⟨S10000x1, .f32⟩ : BufTy).Contents (Elt F)),
    nullary main_cst_60 (constant S_ .f32 0xFF800000#32),
    binary main_v355 main_cst_60 main_v356 ((fun x v => Host.reduce FloatOps.maximumf x v reducesTo_S10000x1_S1_d0 h_S_) : (⟨S10000x1, .f32⟩ : BufTy).Contents (Elt F) → (⟨S_, .f32⟩ : BufTy).Contents (Elt F) → (⟨S1, .f32⟩ : BufTy).Contents (Elt F)) ]

set_option maxRecDepth 4096 in
/-- Every buffer these operations touch is a TensorCore reference. -/
theorem c13_sub : (c13 (F := F)).Forall fun op => op.bufs ⊆ tcRefs τ sig :=
  ⟨binary_bufs_sub .., unary_bufs_sub .., nullary_bufs_sub .., unary_bufs_sub .., binary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., binary_bufs_sub ..⟩

/-- Each of these operations determines its result. -/
theorem c13_fresh : ∀ op ∈ (c13 (F := F)), op.fresh = ∅ := by
  intro _ h; (repeat (cases h with | head => rfl | tail _ h => ?_)); exact nomatch h

set_option maxRecDepth 8192 in
set_option maxHeartbeats 4000000 in
/-- Part 6 of @main is these two lines run one after the other. -/
theorem part6_eq (c : Dev nD) : main_part6 (F := F) c = seq (c12 ++ c13) := rfl

end Cert.RefRun

end
-- ==== Proof.Val.RefRunW7.lean ====
import proofs.«407386_j15839839387945_2_alg».proof.Proof.Val.RefRunBase

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 429 … 451 of @main, in order. -/
abbrev c14 : List (HloOp τ sig (Elt F)) :=
  [ nullary main_cst_61 (constant S_ .f32 0xFF800000#32),
    unary main_cst_61 main_v357 (broadcastInDim S1 ![] bcast_S_S1 : (⟨S_, .f32⟩ : BufTy).Contents (Elt F) → (⟨S1, .f32⟩ : BufTy).Contents (Elt F)),
    binary main_v357 main_v356 main_v358 (maximumf : (⟨S1, .f32⟩ : BufTy).Contents (Elt F) → (⟨S1, .f32⟩ : BufTy).Contents (Elt F) → (⟨S1, .f32⟩ : BufTy).Contents (Elt F)),
    unary main_v358 main_v359 (broadcastInDim S1x1 ![1] bcast_S1_S1x1_1 : (⟨S1, .f32⟩ : BufTy).Contents (Elt F) → (⟨S1x1, .f32⟩ : BufTy).Contents (Elt F)),
    unary main_v359 main_v360 (broadcastInDim S10000x1 ![0, 1] bcast_S1x1_S10000x1_0_1 : (⟨S1x1, .f32⟩ : BufTy).Contents (Elt F) → (⟨S10000x1, .f32⟩ : BufTy).Contents (Elt F)),
    binary main_v355 main_v360 main_v361 (subf : (⟨S10000x1, .f32⟩ : BufTy).Contents (Elt F) → (⟨S10000x1, .f32⟩ : BufTy).Contents (Elt F) → (⟨S10000x1, .f32⟩ : BufTy).Contents (Elt F)),
    unary main_v361 main_v362 (Host.exp : (⟨S10000x1, .f32⟩ : BufTy).Contents (Elt F) → (⟨S10000x1, .f32⟩ : BufTy).Contents (Elt F)),
    nullary main_cst_62 (constant S_ .f32 0x00000000#32),
    binary main_v362 main_cst_62 main_v363 ((fun x v => Host.reduceAdd x v reducesTo_S10000x1_S1_d0 h_S_) : (⟨S10000x1, .f32⟩ : BufTy).Contents (Elt F) → (⟨S_, .f32⟩ : BufTy).Contents (Elt F) → (⟨S1, .f32⟩ : BufTy).Contents (Elt F)),
    unary main_v363 main_v364 (broadcastInDim S1x1 ![1] bcast_S1_S1x1_1 : (⟨S1, .f32⟩ : BufTy).Contents (Elt F) → (⟨S1x1, .f32⟩ : BufTy).Contents (Elt F)),
    unary main_v364 main_v365 (broadcastInDim S10000x1 ![0, 1] bcast_S1x1_S10000x1_0_1 : (⟨S1x1, .f32⟩ : BufTy).Contents (Elt F) → (⟨S10000x1, .f32⟩ : BufTy).Contents (Elt F)),
    binary main_v362 main_v365 main_v366 (Host.divf : (⟨S10000x1, .f32⟩ : BufTy).Contents (Elt F) → (⟨S10000x1, .f32⟩ : BufTy).Contents (Elt F) → (⟨S10000x1, .f32⟩ : BufTy).Contents (Elt F)),
    unary main_v366 main_v367 (broadcastInDim S10000x128 ![0, 1] bcast_S10000x1_S10000x128_0_1 : (⟨S10000x1, .f32⟩ : BufTy).Contents (Elt F) → (⟨S10000x128, .f32⟩ : BufTy).Contents (Elt F)),
    binary main_v367 main_v308 main_v368 (mulf : (⟨S10000x128, .f32⟩ : BufTy).Contents (Elt F) → (⟨S10000x128, .f32⟩ : BufTy).Contents (Elt F) → (⟨S10000x128, .f32⟩ : BufTy).Contents (Elt F)),
    nullary main_cst_63 (constant S_ .f32 0x00000000#32),
    binary main_v368 main_cst_63 main_v369 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    unary main_v369 main_v370 (broadcastInDim S1x128 ![1] bcast_S128_S1x128_1 : (⟨S128, .f32⟩ : BufTy).Contents (Elt F) → (⟨S1x128, .f32⟩ : BufTy).Contents (Elt F)),
    binary main_v345 main_arg14 main_v371 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_arg15 main_v372 (broadcastInDim S1x1 ![1] bcast_S1_S1x1_1 : (⟨S1, .f32⟩ : BufTy).Contents (Elt F) → (⟨S1x1, .f32⟩ : BufTy).Contents (Elt F)),
    unary main_v372 main_v373 (broadcastInDim S10000x1 ![0, 1] bcast_S1x1_S10000x1_0_1 : (⟨S1x1, .f32⟩ : BufTy).Contents (Elt F) → (⟨S10000x1, .f32⟩ : BufTy).Contents (Elt F)),
    binary main_v371 main_v373 main_v374 (addf : (⟨S10000x1, .f32⟩ : BufTy).Contents (Elt F) → (⟨S10000x1, .f32⟩ : BufTy).Contents (Elt F) → (⟨S10000x1, .f32⟩ : BufTy).Contents (Elt F)),
    unary main_v374 main_v375 (Host.negf : (⟨S10000x1, .f32⟩ : BufTy).Contents (Elt F) → (⟨S10000x1, .f32⟩ : BufTy).Contents (Elt F)),
    unary main_v375 main_v376 (Host.exp : (⟨S10000x1, .f32⟩ : BufTy).Contents (Elt F) → (⟨S10000x1, .f32⟩ : BufTy).Contents (Elt F)) ]

set_option maxRecDepth 4096 in
/-- Every buffer these operations touch is a TensorCore reference. -/
theorem c14_sub : (c14 (F := F)).Forall fun op => op.bufs ⊆ tcRefs τ sig :=
  ⟨nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., binary_bufs_sub .., unary_bufs_sub .., unary_bufs_sub .., binary_bufs_sub .., unary_bufs_sub .., unary_bufs_sub ..⟩

/-- Each of these operations determines its result. -/
theorem c14_fresh : ∀ op ∈ (c14 (F := F)), op.fresh = ∅ := by
  intro _ h; (repeat (cases h with | head => rfl | tail _ h => ?_)); exact nomatch h

/-- Operations 452 … 476 of @main, in order. -/
abbrev c15 : List (HloOp τ sig (Elt F)) :=
  [ nullary main_cst_64 (constant S_ .f32 0x3F800000#32),
    unary main_cst_64 main_v377 (broadcastInDim S10000x1 ![] bcast_S_S10000x1 : (⟨S_, .f32⟩ : BufTy).Contents (Elt F) → (⟨S10000x1, .f32⟩ : BufTy).Contents (Elt F)),
    binary main_v377 main_v376 main_v378 (addf : (⟨S10000x1, .f32⟩ : BufTy).Contents (Elt F) → (⟨S10000x1, .f32⟩ : BufTy).Contents (Elt F) → (⟨S10000x1, .f32⟩ : BufTy).Contents (Elt F)),
    nullary main_cst_65 (constant S_ .f32 0x3F800000#32),
    unary main_cst_65 main_v379 (broadcastInDim S10000x1 ![] bcast_S_S10000x1 : (⟨S_, .f32⟩ : BufTy).Contents (Elt F) → (⟨S10000x1, .f32⟩ : BufTy).Contents (Elt F)),
    binary main_v379 main_v378 main_v380 (Host.divf : (⟨S10000x1, .f32⟩ : BufTy).Contents (Elt F) → (⟨S10000x1, .f32⟩ : BufTy).Contents (Elt F) → (⟨S10000x1, .f32⟩ : BufTy).Contents (Elt F)),
    nullary main_cst_66 (constant S_ .f32 0xFF800000#32),
    binary main_v380 main_cst_66 main_v381 ((fun x v => Host.reduce FloatOps.maximumf x v reducesTo_S10000x1_S1_d0 h_S_) : (⟨S10000x1, .f32⟩ : BufTy).Contents (Elt F) → (⟨S_, .f32⟩ : BufTy).Contents (Elt F) → (⟨S1, .f32⟩ : BufTy).Contents (Elt F)),
    nullary main_cst_67 (constant S_ .f32 0xFF800000#32),
    unary main_cst_67 main_v382 (broadcastInDim S1 ![] bcast_S_S1 : (⟨S_, .f32⟩ : BufTy).Contents (Elt F) → (⟨S1, .f32⟩ : BufTy).Contents (Elt F)),
    binary main_v382 main_v381 main_v383 (maximumf : (⟨S1, .f32⟩ : BufTy).Contents (Elt F) → (⟨S1, .f32⟩ : BufTy).Contents (Elt F) → (⟨S1, .f32⟩ : BufTy).Contents (Elt F)),
    unary main_v383 main_v384 (broadcastInDim S1x1 ![1] bcast_S1_S1x1_1 : (⟨S1, .f32⟩ : BufTy).Contents (Elt F) → (⟨S1x1, .f32⟩ : BufTy).Contents (Elt F)),
    unary main_v384 main_v385 (broadcastInDim S10000x1 ![0, 1] bcast_S1x1_S10000x1_0_1 : (⟨S1x1, .f32⟩ : BufTy).Contents (Elt F) → (⟨S10000x1, .f32⟩ : BufTy).Contents (Elt F)),
    binary main_v380 main_v385 main_v386 (subf : (⟨S10000x1, .f32⟩ : BufTy).Contents (Elt F) → (⟨S10000x1, .f32⟩ : BufTy).Contents (Elt F) → (⟨S10000x1, .f32⟩ : BufTy).Contents (Elt F)),
    unary main_v386 main_v387 (Host.exp : (⟨S10000x1, .f32⟩ : BufTy).Contents (Elt F) → (⟨S10000x1, .f32⟩ : BufTy).Contents (Elt F)),
    nullary main_cst_68 (constant S_ .f32 0x00000000#32),
    binary main_v387 main_cst_68 main_v388 ((fun x v => Host.reduceAdd x v reducesTo_S10000x1_S1_d0 h_S_) : (⟨S10000x1, .f32⟩ : BufTy).Contents (Elt F) → (⟨S_, .f32⟩ : BufTy).Contents (Elt F) → (⟨S1, .f32⟩ : BufTy).Contents (Elt F)),
    unary main_v388 main_v389 (broadcastInDim S1x1 ![1] bcast_S1_S1x1_1 : (⟨S1, .f32⟩ : BufTy).Contents (Elt F) → (⟨S1x1, .f32⟩ : BufTy).Contents (Elt F)),
    unary main_v389 main_v390 (broadcastInDim S10000x1 ![0, 1] bcast_S1x1_S10000x1_0_1 : (⟨S1x1, .f32⟩ : BufTy).Contents (Elt F) → (⟨S10000x1, .f32⟩ : BufTy).Contents (Elt F)),
    binary main_v387 main_v390 main_v391 (Host.divf : (⟨S10000x1, .f32⟩ : BufTy).Contents (Elt F) → (⟨S10000x1, .f32⟩ : BufTy).Contents (Elt F) → (⟨S10000x1, .f32⟩ : BufTy).Contents (Elt F)),
    unary main_v391 main_v392 (broadcastInDim S10000x128 ![0, 1] bcast_S10000x1_S10000x128_0_1 : (⟨S10000x1, .f32⟩ : BufTy).Contents (Elt F) → (⟨S10000x128, .f32⟩ : BufTy).Contents (Elt F)),
    binary main_v392 main_v345 main_v393 (mulf : (⟨S10000x128, .f32⟩ : BufTy).Contents (Elt F) → (⟨S10000x128, .f32⟩ : BufTy).Contents (Elt F) → (⟨S10000x128, .f32⟩ : BufTy).Contents (Elt F)),
    nullary main_cst_69 (constant S_ .f32 0x00000000#32),
    binary main_v393 main_cst_69 main_v394 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    unary main_v394 main_v395 (broadcastInDim S1x128 ![1] bcast_S128_S1x128_1 : (⟨S128, .f32⟩ : BufTy).Contents (Elt F) → (⟨S1x128, .f32⟩ : BufTy).Contents (Elt F)) ]

set_option maxRecDepth 4096 in
/-- Every buffer these operations touch is a TensorCore reference. -/
theorem c15_sub : (c15 (F := F)).Forall fun op => op.bufs ⊆ tcRefs τ sig :=
  ⟨nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub ..⟩

/-- Each of these operations determines its result. -/
theorem c15_fresh : ∀ op ∈ (c15 (F := F)), op.fresh = ∅ := by
  intro _ h; (repeat (cases h with | head => rfl | tail _ h => ?_)); exact nomatch h

set_option maxRecDepth 8192 in
set_option maxHeartbeats 4000000 in
/-- Part 7 of @main is these two lines run one after the other. -/
theorem part7_eq (c : Dev nD) : main_part7 (F := F) c = seq (c14 ++ c15) := rfl

end Cert.RefRun

end
-- ==== Proof.Val.RefRunMain.lean ====
import proofs.«407386_j15839839387945_2_alg».proof.Proof.Val.RefRunBase
import proofs.«407386_j15839839387945_2_alg».proof.Proof.Val.RefRunW0
import proofs.«407386_j15839839387945_2_alg».proof.Proof.Val.RefRunW1
import proofs.«407386_j15839839387945_2_alg».proof.Proof.Val.RefRunW2
import proofs.«407386_j15839839387945_2_alg».proof.Proof.Val.RefRunW3
import proofs.«407386_j15839839387945_2_alg».proof.Proof.Val.RefRunW4
import proofs.«407386_j15839839387945_2_alg».proof.Proof.Val.RefRunW5
import proofs.«407386_j15839839387945_2_alg».proof.Proof.Val.RefRunW6
import proofs.«407386_j15839839387945_2_alg».proof.Proof.Val.RefRunW7
import Idealize.ShloMosaic.Lib.StableHlo.Run
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsAll : List (HloOp τ sig (Elt F)) :=
  (c00 ++ c01) ++ ((c02 ++ c03) ++ ((c04 ++ c05) ++ ((c06 ++ c07) ++ ((c08 ++ c09) ++ ((c10 ++ c11) ++ ((c12 ++ c13) ++ ((c14 ++ c15))))))))

theorem main_eq (c : Dev nD) : Cert.ReferenceIdeal.main (F := F) c = seq (opsAll (F := F)) := by
  unfold Cert.ReferenceIdeal.main opsAll
  rw [part0_eq c, part1_eq c, part2_eq c, part3_eq c, part4_eq c, part5_eq c, part6_eq c, part7_eq c]
  simp only [seq_append]

theorem opsAll_sub : (opsAll (F := F)).Forall fun op => op.bufs ⊆ tcRefs τ sig := by
  rw [List.forall_iff_forall_mem]
  exact
    forall_mem_append_of (forall_mem_append_of (List.forall_iff_forall_mem.1 (c00_sub (F := F))) (List.forall_iff_forall_mem.1 (c01_sub (F := F))))
      (forall_mem_append_of (forall_mem_append_of (List.forall_iff_forall_mem.1 (c02_sub (F := F))) (List.forall_iff_forall_mem.1 (c03_sub (F := F))))
      (forall_mem_append_of (forall_mem_append_of (List.forall_iff_forall_mem.1 (c04_sub (F := F))) (List.forall_iff_forall_mem.1 (c05_sub (F := F))))
      (forall_mem_append_of (forall_mem_append_of (List.forall_iff_forall_mem.1 (c06_sub (F := F))) (List.forall_iff_forall_mem.1 (c07_sub (F := F))))
      (forall_mem_append_of (forall_mem_append_of (List.forall_iff_forall_mem.1 (c08_sub (F := F))) (List.forall_iff_forall_mem.1 (c09_sub (F := F))))
      (forall_mem_append_of (forall_mem_append_of (List.forall_iff_forall_mem.1 (c10_sub (F := F))) (List.forall_iff_forall_mem.1 (c11_sub (F := F))))
      (forall_mem_append_of (forall_mem_append_of (List.forall_iff_forall_mem.1 (c12_sub (F := F))) (List.forall_iff_forall_mem.1 (c13_sub (F := F))))
      ((forall_mem_append_of (List.forall_iff_forall_mem.1 (c14_sub (F := F))) (List.forall_iff_forall_mem.1 (c15_sub (F := F)))))))))))

theorem opsAll_fresh : ∀ op ∈ (opsAll (F := F)), op.fresh = ∅ :=
    forall_mem_append_of (forall_mem_append_of (c00_fresh (F := F)) (c01_fresh (F := F)))
      (forall_mem_append_of (forall_mem_append_of (c02_fresh (F := F)) (c03_fresh (F := F)))
      (forall_mem_append_of (forall_mem_append_of (c04_fresh (F := F)) (c05_fresh (F := F)))
      (forall_mem_append_of (forall_mem_append_of (c06_fresh (F := F)) (c07_fresh (F := F)))
      (forall_mem_append_of (forall_mem_append_of (c08_fresh (F := F)) (c09_fresh (F := F)))
      (forall_mem_append_of (forall_mem_append_of (c10_fresh (F := F)) (c11_fresh (F := F)))
      (forall_mem_append_of (forall_mem_append_of (c12_fresh (F := F)) (c13_fresh (F := F)))
      ((forall_mem_append_of (c14_fresh (F := F)) (c15_fresh (F := F))))))))))

theorem after_opsAll (V : Valuation τ sig (Elt F)) :
    after (opsAll (F := F)) V
      = after (c15 (F := F)) (after (c14 (F := F)) (after (c13 (F := F)) (after (c12 (F := F)) (after (c11 (F := F)) (after (c10 (F := F)) (after (c09 (F := F)) (after (c08 (F := F)) (after (c07 (F := F)) (after (c06 (F := F)) (after (c05 (F := F)) (after (c04 (F := F)) (after (c03 (F := F)) (after (c02 (F := F)) (after (c01 (F := F)) (after (c00 (F := F)) V))))))))))))))) := by
  simp only [opsAll, StableHlo.after_append]

end Cert.RefRun

end
-- ==== Proof.Val.RefRunS00.lean ====
import proofs.«407386_j15839839387945_2_alg».proof.Proof.Val.RefRunW0

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

set_option maxHeartbeats 1000000 in
/-- Operations 1 … 30: if on entering each buffer still read holds its stage (an argument its launch contents),
    then on leaving each buffer still read holds its stage. -/
theorem spec00 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15) :
    after c00 W (Proc.devRef .tc main_arg0) = x0
      ∧ after c00 W (Proc.devRef .tc main_arg1) = x1
      ∧ after c00 W (Proc.devRef .tc main_arg2) = x2
      ∧ after c00 W (Proc.devRef .tc main_arg3) = x3
      ∧ after c00 W (Proc.devRef .tc main_arg4) = x4
      ∧ after c00 W (Proc.devRef .tc main_arg5) = x5
      ∧ after c00 W (Proc.devRef .tc main_arg6) = x6
      ∧ after c00 W (Proc.devRef .tc main_arg7) = x7
      ∧ after c00 W (Proc.devRef .tc main_arg8) = x8
      ∧ after c00 W (Proc.devRef .tc main_arg9) = x9
      ∧ after c00 W (Proc.devRef .tc main_arg10) = x10
      ∧ after c00 W (Proc.devRef .tc main_arg11) = x11
      ∧ after c00 W (Proc.devRef .tc main_arg12) = x12
      ∧ after c00 W (Proc.devRef .tc main_arg13) = x13
      ∧ after c00 W (Proc.devRef .tc main_arg14) = x14
      ∧ after c00 W (Proc.devRef .tc main_arg15) = x15
      ∧ after c00 W (Proc.devRef .tc main_v7) = ReadP.val_main_v7 (F := F) x0 x6
      ∧ after c00 W (Proc.devRef .tc main_v15) = ReadP.val_main_v15 (F := F) x1 x6
      ∧ after c00 W (Proc.devRef .tc main_v23) = ReadP.val_main_v23 (F := F) x4 x7 := by
  refine ⟨?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15]

end Cert.RefRun

end
-- ==== Proof.Val.RefRunS01.lean ====
import proofs.«407386_j15839839387945_2_alg».proof.Proof.Val.RefRunW0

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

set_option maxHeartbeats 1000000 in
/-- Operations 31 … 60: if on entering each buffer still read holds its stage (an argument its launch contents),
    then on leaving each buffer still read holds its stage. -/
theorem spec01 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v7 : W (Proc.devRef .tc main_v7) = ReadP.val_main_v7 (F := F) x0 x6)
    (h_v15 : W (Proc.devRef .tc main_v15) = ReadP.val_main_v15 (F := F) x1 x6)
    (h_v23 : W (Proc.devRef .tc main_v23) = ReadP.val_main_v23 (F := F) x4 x7) :
    after c01 W (Proc.devRef .tc main_arg0) = x0
      ∧ after c01 W (Proc.devRef .tc main_arg1) = x1
      ∧ after c01 W (Proc.devRef .tc main_arg2) = x2
      ∧ after c01 W (Proc.devRef .tc main_arg3) = x3
      ∧ after c01 W (Proc.devRef .tc main_arg4) = x4
      ∧ after c01 W (Proc.devRef .tc main_arg5) = x5
      ∧ after c01 W (Proc.devRef .tc main_arg6) = x6
      ∧ after c01 W (Proc.devRef .tc main_arg7) = x7
      ∧ after c01 W (Proc.devRef .tc main_arg8) = x8
      ∧ after c01 W (Proc.devRef .tc main_arg9) = x9
      ∧ after c01 W (Proc.devRef .tc main_arg10) = x10
      ∧ after c01 W (Proc.devRef .tc main_arg11) = x11
      ∧ after c01 W (Proc.devRef .tc main_arg12) = x12
      ∧ after c01 W (Proc.devRef .tc main_arg13) = x13
      ∧ after c01 W (Proc.devRef .tc main_arg14) = x14
      ∧ after c01 W (Proc.devRef .tc main_arg15) = x15
      ∧ after c01 W (Proc.devRef .tc main_v7) = ReadP.val_main_v7 (F := F) x0 x6
      ∧ after c01 W (Proc.devRef .tc main_v15) = ReadP.val_main_v15 (F := F) x1 x6
      ∧ after c01 W (Proc.devRef .tc main_v23) = ReadP.val_main_v23 (F := F) x4 x7
      ∧ after c01 W (Proc.devRef .tc main_v31) = ReadP.val_main_v31 (F := F) x5 x7
      ∧ after c01 W (Proc.devRef .tc main_v35) = ReadP.val_main_v35 (F := F) x2
      ∧ after c01 W (Proc.devRef .tc main_v42) = ReadP.val_main_v42 (F := F) x0 x2 x6
      ∧ after c01 W (Proc.devRef .tc main_v47) = ReadP.val_main_v47 (F := F) x2 := by
  refine ⟨?_, ?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v7, h_v15, h_v23]

end Cert.RefRun

end
-- ==== Proof.Val.RefRunS02.lean ====
import proofs.«407386_j15839839387945_2_alg».proof.Proof.Val.RefRunW1

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

/-- Operations 61 … 62 of @main, in order. -/
abbrev c02a : List (HloOp τ sig (Elt F)) :=
  [ unary main_v47 main_v48 (broadcastInDim S160000x1 ![0] bcast_S160000_S160000x1_0 : (⟨S160000, .i32⟩ : BufTy).Contents (Elt F) → (⟨S160000x1, .i32⟩ : BufTy).Contents (Elt F)),
    binary main_v7 main_v48 main_v49 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)) ]

/-- Operations 63 … 96 of @main, in order. -/
abbrev c02b : List (HloOp τ sig (Elt F)) :=
  [ nary ![main_v42, main_v49, main_v23] main_v50 (fun u => concatenate S160000x384 1 [⟨S160000x128, u 0⟩, ⟨S160000x128, u 1⟩, ⟨S160000x128, u 2⟩] concatenates_S160000x128_S160000x128_S160000x128_S160000x384_d1),
    binary main_v50 main_arg8 main_v51 ((fun l r => Host.dotGeneral dot_S160000x384_S384x128_S160000x128_1_0_0_1_n_n none l r) : (⟨S160000x384, .f32⟩ : BufTy).Contents (Elt F) → (⟨S384x128, .f32⟩ : BufTy).Contents (Elt F) → (⟨S160000x128, .f32⟩ : BufTy).Contents (Elt F)),
    unary main_arg9 main_v52 (broadcastInDim S1x128 ![1] bcast_S128_S1x128_1 : (⟨S128, .f32⟩ : BufTy).Contents (Elt F) → (⟨S1x128, .f32⟩ : BufTy).Contents (Elt F)),
    unary main_v52 main_v53 (broadcastInDim S160000x128 ![0, 1] bcast_S1x128_S160000x128_0_1 : (⟨S1x128, .f32⟩ : BufTy).Contents (Elt F) → (⟨S160000x128, .f32⟩ : BufTy).Contents (Elt F)),
    binary main_v51 main_v53 main_v54 (addf : (⟨S160000x128, .f32⟩ : BufTy).Contents (Elt F) → (⟨S160000x128, .f32⟩ : BufTy).Contents (Elt F) → (⟨S160000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S160000x128, .f32⟩) main_call0_v0) (broadcastInDim S160000x128 ![] bcast_S_S160000x128),
    TRef.binary (TRef.of (T := ⟨S160000x128, .f32⟩) main_v54) (TRef.of (T := ⟨S160000x128, .f32⟩) main_call0_v0) (TRef.of (T := ⟨S160000x128, .f32⟩) main_v55) maximumf,
    nullary main_cst (constant S_ .f32 0x00000000#32),
    unary main_cst main_v56 (broadcastInDim S10000x128 ![] bcast_S_S10000x128 : (⟨S_, .f32⟩ : BufTy).Contents (Elt F) → (⟨S10000x128, .f32⟩ : BufTy).Contents (Elt F)),
    unary main_v35 main_v57 (broadcastInDim S160000x1 ![0] bcast_S160000_S160000x1_0 : (⟨S160000, .i32⟩ : BufTy).Contents (Elt F) → (⟨S160000x1, .i32⟩ : BufTy).Contents (Elt F)),
    ternary main_v56 main_v57 main_v55 main_v58 ((fun x i u => Host.scatterAdd scatter_S10000x128_S160000x1_S160000x128_1_0_0_1 x i u) : (⟨S10000x128, .f32⟩ : BufTy).Contents (Elt F) → (⟨S160000x1, .i32⟩ : BufTy).Contents (Elt F) → (⟨S160000x128, .f32⟩ : BufTy).Contents (Elt F) → (⟨S10000x128, .f32⟩ : BufTy).Contents (Elt F)),
    unary main_arg3 main_v59 ((extractStridedSlice S1x160000 ![0, 0] · slices_S2x160000_S1x160000_0_0) : (⟨S2x160000, .i32⟩ : BufTy).Contents (Elt F) → (⟨S1x160000, .i32⟩ : BufTy).Contents (Elt F)),
    reshape main_v59 main_v60 rfl shapeCasts_S1x160000_S160000,
    unary main_arg3 main_v61 ((extractStridedSlice S1x160000 ![1, 0] · slices_S2x160000_S1x160000_1_0) : (⟨S2x160000, .i32⟩ : BufTy).Contents (Elt F) → (⟨S1x160000, .i32⟩ : BufTy).Contents (Elt F)),
    reshape main_v61 main_v62 rfl shapeCasts_S1x160000_S160000,
    nullary main_c_11 (constantI S_ 32 0#32),
    unary main_c_11 main_v63 (broadcastInDim S160000 ![] bcast_S_S160000 : (⟨S_, .i32⟩ : BufTy).Contents (Elt F) → (⟨S160000, .i32⟩ : BufTy).Contents (Elt F)),
    binary main_v62 main_v63 main_v64 (cmpi .slt : (⟨S160000, .i32⟩ : BufTy).Contents (Elt F) → (⟨S160000, .i32⟩ : BufTy).Contents (Elt F) → (⟨S160000, .i1⟩ : BufTy).Contents (Elt F)),
    nullary main_c_12 (constantI S_ 32 10000#32),
    unary main_c_12 main_v65 (broadcastInDim S160000 ![] bcast_S_S160000 : (⟨S_, .i32⟩ : BufTy).Contents (Elt F) → (⟨S160000, .i32⟩ : BufTy).Contents (Elt F)),
    binary main_v62 main_v65 main_v66 (addi : (⟨S160000, .i32⟩ : BufTy).Contents (Elt F) → (⟨S160000, .i32⟩ : BufTy).Contents (Elt F) → (⟨S160000, .i32⟩ : BufTy).Contents (Elt F)),
    ternary main_v64 main_v66 main_v62 main_v67 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v67 main_v68 (broadcastInDim S160000x1 ![0] bcast_S160000_S160000x1_0 : (⟨S160000, .i32⟩ : BufTy).Contents (Elt F) → (⟨S160000x1, .i32⟩ : BufTy).Contents (Elt F)),
    binary main_v15 main_v68 main_v69 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nullary main_c_13 (constantI S_ 32 0#32),
    unary main_c_13 main_v70 (broadcastInDim S160000 ![] bcast_S_S160000 : (⟨S_, .i32⟩ : BufTy).Contents (Elt F) → (⟨S160000, .i32⟩ : BufTy).Contents (Elt F)),
    binary main_v60 main_v70 main_v71 (cmpi .slt : (⟨S160000, .i32⟩ : BufTy).Contents (Elt F) → (⟨S160000, .i32⟩ : BufTy).Contents (Elt F) → (⟨S160000, .i1⟩ : BufTy).Contents (Elt F)),
    nullary main_c_14 (constantI S_ 32 10000#32),
    unary main_c_14 main_v72 (broadcastInDim S160000 ![] bcast_S_S160000 : (⟨S_, .i32⟩ : BufTy).Contents (Elt F) → (⟨S160000, .i32⟩ : BufTy).Contents (Elt F)),
    binary main_v60 main_v72 main_v73 (addi : (⟨S160000, .i32⟩ : BufTy).Contents (Elt F) → (⟨S160000, .i32⟩ : BufTy).Contents (Elt F) → (⟨S160000, .i32⟩ : BufTy).Contents (Elt F)),
    ternary main_v71 main_v73 main_v60 main_v74 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v74 main_v75 (broadcastInDim S160000x1 ![0] bcast_S160000_S160000x1_0 : (⟨S160000, .i32⟩ : BufTy).Contents (Elt F) → (⟨S160000x1, .i32⟩ : BufTy).Contents (Elt F)),
    binary main_v15 main_v75 main_v76 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)) ]

/-- Operations 97 … 97 of @main, in order. -/
abbrev c02c : List (HloOp τ sig (Elt F)) :=
  [ nary ![main_v69, main_v76, main_v31] main_v77 (fun u => concatenate S160000x384 1 [⟨S160000x128, u 0⟩, ⟨S160000x128, u 1⟩, ⟨S160000x128, u 2⟩] concatenates_S160000x128_S160000x128_S160000x128_S160000x384_d1) ]

set_option maxRecDepth 4096 in
/-- The line is its pieces end to end. -/
theorem c02_split : c02 (F := F) = c02a ++ (c02b ++ (c02c)) := rfl

set_option maxHeartbeats 1000000 in
/-- Operations 61 … 62: if on entering each buffer still read holds its stage (an argument its launch contents),
    then on leaving each buffer still read holds its stage. -/
theorem spec02a (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v7 : W (Proc.devRef .tc main_v7) = ReadP.val_main_v7 (F := F) x0 x6)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v35 : W (Proc.devRef .tc main_v35) = ReadP.val_main_v35 (F := F) x2)
    (h_v42 : W (Proc.devRef .tc main_v42) = ReadP.val_main_v42 (F := F) x0 x2 x6)
    (h_v47 : W (Proc.devRef .tc main_v47) = ReadP.val_main_v47 (F := F) x2) :
    after c02a W (Proc.devRef .tc main_arg0) = x0
      ∧ after c02a W (Proc.devRef .tc main_arg1) = x1
      ∧ after c02a W (Proc.devRef .tc main_arg2) = x2
      ∧ after c02a W (Proc.devRef .tc main_arg3) = x3
      ∧ after c02a W (Proc.devRef .tc main_arg4) = x4
      ∧ after c02a W (Proc.devRef .tc main_arg5) = x5
      ∧ after c02a W (Proc.devRef .tc main_arg6) = x6
      ∧ after c02a W (Proc.devRef .tc main_arg7) = x7
      ∧ after c02a W (Proc.devRef .tc main_arg8) = x8
      ∧ after c02a W (Proc.devRef .tc main_arg9) = x9
      ∧ after c02a W (Proc.devRef .tc main_arg10) = x10
      ∧ after c02a W (Proc.devRef .tc main_arg11) = x11
      ∧ after c02a W (Proc.devRef .tc main_arg12) = x12
      ∧ after c02a W (Proc.devRef .tc main_arg13) = x13
      ∧ after c02a W (Proc.devRef .tc main_arg14) = x14
      ∧ after c02a W (Proc.devRef .tc main_arg15) = x15
      ∧ after c02a W (Proc.devRef .tc main_v7) = ReadP.val_main_v7 (F := F) x0 x6
      ∧ after c02a W (Proc.devRef .tc main_v15) = ReadP.val_main_v15 (F := F) x1 x6
      ∧ after c02a W (Proc.devRef .tc main_v23) = ReadP.val_main_v23 (F := F) x4 x7
      ∧ after c02a W (Proc.devRef .tc main_v31) = ReadP.val_main_v31 (F := F) x5 x7
      ∧ after c02a W (Proc.devRef .tc main_v35) = ReadP.val_main_v35 (F := F) x2
      ∧ after c02a W (Proc.devRef .tc main_v42) = ReadP.val_main_v42 (F := F) x0 x2 x6
      ∧ after c02a W (Proc.devRef .tc main_v49) = ReadP.val_main_v49 (F := F) x0 x2 x6 := by
  refine ⟨?_, ?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v7, h_v15, h_v23, h_v31, h_v35, h_v42, h_v47]

set_option maxHeartbeats 1000000 in
/-- Operations 63 … 96: if on entering each buffer still read holds its stage (an argument its launch contents),
    then on leaving each buffer still read holds its stage. -/
theorem spec02b (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v7 : W (Proc.devRef .tc main_v7) = ReadP.val_main_v7 (F := F) x0 x6)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v35 : W (Proc.devRef .tc main_v35) = ReadP.val_main_v35 (F := F) x2)
    (h_v42 : W (Proc.devRef .tc main_v42) = ReadP.val_main_v42 (F := F) x0 x2 x6)
    (h_v49 : W (Proc.devRef .tc main_v49) = ReadP.val_main_v49 (F := F) x0 x2 x6) :
    after c02b W (Proc.devRef .tc main_arg0) = x0
      ∧ after c02b W (Proc.devRef .tc main_arg1) = x1
      ∧ after c02b W (Proc.devRef .tc main_arg2) = x2
      ∧ after c02b W (Proc.devRef .tc main_arg3) = x3
      ∧ after c02b W (Proc.devRef .tc main_arg4) = x4
      ∧ after c02b W (Proc.devRef .tc main_arg5) = x5
      ∧ after c02b W (Proc.devRef .tc main_arg6) = x6
      ∧ after c02b W (Proc.devRef .tc main_arg7) = x7
      ∧ after c02b W (Proc.devRef .tc main_arg8) = x8
      ∧ after c02b W (Proc.devRef .tc main_arg9) = x9
      ∧ after c02b W (Proc.devRef .tc main_arg10) = x10
      ∧ after c02b W (Proc.devRef .tc main_arg11) = x11
      ∧ after c02b W (Proc.devRef .tc main_arg12) = x12
      ∧ after c02b W (Proc.devRef .tc main_arg13) = x13
      ∧ after c02b W (Proc.devRef .tc main_arg14) = x14
      ∧ after c02b W (Proc.devRef .tc main_arg15) = x15
      ∧ after c02b W (Proc.devRef .tc main_v7) = ReadP.val_main_v7 (F := F) x0 x6
      ∧ after c02b W (Proc.devRef .tc main_v15) = ReadP.val_main_v15 (F := F) x1 x6
      ∧ after c02b W (Proc.devRef .tc main_v23) = ReadP.val_main_v23 (F := F) x4 x7
      ∧ after c02b W (Proc.devRef .tc main_v31) = ReadP.val_main_v31 (F := F) x5 x7
      ∧ after c02b W (Proc.devRef .tc main_v58) = ReadP.val_main_v58 (F := F) x0 x2 x4 x6 x7 x8 x9
      ∧ after c02b W (Proc.devRef .tc main_v62) = ReadP.val_main_v62 (F := F) x3
      ∧ after c02b W (Proc.devRef .tc main_v69) = ReadP.val_main_v69 (F := F) x1 x3 x6
      ∧ after c02b W (Proc.devRef .tc main_v76) = ReadP.val_main_v76 (F := F) x1 x3 x6 := by
  refine ⟨?_, ?_, ?_, ?_, ?_, ?_, ?_, ?_, ?_, ?_, ?_, ?_, ?_, ?_, ?_, ?_, ?_, ?_, ?_, ?_, ?_, ?_, ?_, ?_⟩
  all_goals line_results
  all_goals try simp only [h_arg0, h_arg1, h_arg2, h_arg3, h_arg4, h_arg5, h_arg6, h_arg7, h_arg8, h_arg9, h_arg10, h_arg11, h_arg12, h_arg13, h_arg14, h_arg15, h_v7, h_v15, h_v23, h_v31, h_v35, h_v42, h_v49]
  all_goals try rw [h_v42]
  all_goals try rw [h_v49]
  all_goals try rw [h_v23]
  all_goals try simp only [TRef.ofBuf, TRef.toBuf, cast_eq]
  all_goals try rfl

set_option maxHeartbeats 1000000 in
/-- Operations 97 … 97: if on entering each buffer still read holds its stage (an argument its launch contents),
    then on leaving each buffer still read holds its stage. -/
theorem spec02c (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v7 : W (Proc.devRef .tc main_v7) = ReadP.val_main_v7 (F := F) x0 x6)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v58 : W (Proc.devRef .tc main_v58) = ReadP.val_main_v58 (F := F) x0 x2 x4 x6 x7 x8 x9)
    (h_v62 : W (Proc.devRef .tc main_v62) = ReadP.val_main_v62 (F := F) x3)
    (h_v69 : W (Proc.devRef .tc main_v69) = ReadP.val_main_v69 (F := F) x1 x3 x6)
    (h_v76 : W (Proc.devRef .tc main_v76) = ReadP.val_main_v76 (F := F) x1 x3 x6) :
    after c02c W (Proc.devRef .tc main_arg0) = x0
      ∧ after c02c W (Proc.devRef .tc main_arg1) = x1
      ∧ after c02c W (Proc.devRef .tc main_arg2) = x2
      ∧ after c02c W (Proc.devRef .tc main_arg3) = x3
      ∧ after c02c W (Proc.devRef .tc main_arg4) = x4
      ∧ after c02c W (Proc.devRef .tc main_arg5) = x5
      ∧ after c02c W (Proc.devRef .tc main_arg6) = x6
      ∧ after c02c W (Proc.devRef .tc main_arg7) = x7
      ∧ after c02c W (Proc.devRef .tc main_arg8) = x8
      ∧ after c02c W (Proc.devRef .tc main_arg9) = x9
      ∧ after c02c W (Proc.devRef .tc main_arg10) = x10
      ∧ after c02c W (Proc.devRef .tc main_arg11) = x11
      ∧ after c02c W (Proc.devRef .tc main_arg12) = x12
      ∧ after c02c W (Proc.devRef .tc main_arg13) = x13
      ∧ after c02c W (Proc.devRef .tc main_arg14) = x14
      ∧ after c02c W (Proc.devRef .tc main_arg15) = x15
      ∧ after c02c W (Proc.devRef .tc main_v7) = ReadP.val_main_v7 (F := F) x0 x6
      ∧ after c02c W (Proc.devRef .tc main_v15) = ReadP.val_main_v15 (F := F) x1 x6
      ∧ after c02c W (Proc.devRef .tc main_v23) = ReadP.val_main_v23 (F := F) x4 x7
      ∧ after c02c W (Proc.devRef .tc main_v31) = ReadP.val_main_v31 (F := F) x5 x7
      ∧ after c02c W (Proc.devRef .tc main_v58) = ReadP.val_main_v58 (F := F) x0 x2 x4 x6 x7 x8 x9
      ∧ after c02c W (Proc.devRef .tc main_v62) = ReadP.val_main_v62 (F := F) x3
      ∧ after c02c W (Proc.devRef .tc main_v77) = ReadP.val_main_v77 (F := F) x1 x3 x5 x6 x7 := by
  refine ⟨?_, ?_, ?_, ?_, ?_, ?_, ?_, ?_, ?_, ?_, ?_, ?_, ?_, ?_, ?_, ?_, ?_, ?_, ?_, ?_, ?_, ?_, ?_⟩
  all_goals line_results
  all_goals try simp only [h_arg0, h_arg1, h_arg2, h_arg3, h_arg4, h_arg5, h_arg6, h_arg7, h_arg8, h_arg9, h_arg10, h_arg11, h_arg12, h_arg13, h_arg14, h_arg15, h_v7, h_v15, h_v23, h_v31, h_v58, h_v62, h_v69, h_v76]
  all_goals try rw [h_v69]
  all_goals try rw [h_v76]
  all_goals try rw [h_v31]
  all_goals try simp only [TRef.ofBuf, TRef.toBuf, cast_eq]
  all_goals try rfl

/-- Operations 61 … 97: if on entering each buffer still read holds its stage (an argument its launch contents),
    then on leaving each buffer still read holds its stage. -/
theorem spec02 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v7 : W (Proc.devRef .tc main_v7) = ReadP.val_main_v7 (F := F) x0 x6)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v35 : W (Proc.devRef .tc main_v35) = ReadP.val_main_v35 (F := F) x2)
    (h_v42 : W (Proc.devRef .tc main_v42) = ReadP.val_main_v42 (F := F) x0 x2 x6)
    (h_v47 : W (Proc.devRef .tc main_v47) = ReadP.val_main_v47 (F := F) x2) :
    after c02 W (Proc.devRef .tc main_arg0) = x0
      ∧ after c02 W (Proc.devRef .tc main_arg1) = x1
      ∧ after c02 W (Proc.devRef .tc main_arg2) = x2
      ∧ after c02 W (Proc.devRef .tc main_arg3) = x3
      ∧ after c02 W (Proc.devRef .tc main_arg4) = x4
      ∧ after c02 W (Proc.devRef .tc main_arg5) = x5
      ∧ after c02 W (Proc.devRef .tc main_arg6) = x6
      ∧ after c02 W (Proc.devRef .tc main_arg7) = x7
      ∧ after c02 W (Proc.devRef .tc main_arg8) = x8
      ∧ after c02 W (Proc.devRef .tc main_arg9) = x9
      ∧ after c02 W (Proc.devRef .tc main_arg10) = x10
      ∧ after c02 W (Proc.devRef .tc main_arg11) = x11
      ∧ after c02 W (Proc.devRef .tc main_arg12) = x12
      ∧ after c02 W (Proc.devRef .tc main_arg13) = x13
      ∧ after c02 W (Proc.devRef .tc main_arg14) = x14
      ∧ after c02 W (Proc.devRef .tc main_arg15) = x15
      ∧ after c02 W (Proc.devRef .tc main_v7) = ReadP.val_main_v7 (F := F) x0 x6
      ∧ after c02 W (Proc.devRef .tc main_v15) = ReadP.val_main_v15 (F := F) x1 x6
      ∧ after c02 W (Proc.devRef .tc main_v23) = ReadP.val_main_v23 (F := F) x4 x7
      ∧ after c02 W (Proc.devRef .tc main_v31) = ReadP.val_main_v31 (F := F) x5 x7
      ∧ after c02 W (Proc.devRef .tc main_v58) = ReadP.val_main_v58 (F := F) x0 x2 x4 x6 x7 x8 x9
      ∧ after c02 W (Proc.devRef .tc main_v62) = ReadP.val_main_v62 (F := F) x3
      ∧ after c02 W (Proc.devRef .tc main_v77) = ReadP.val_main_v77 (F := F) x1 x3 x5 x6 x7 := by
  rw [c02_split, StableHlo.after_append, StableHlo.after_append]
  obtain ⟨e0_arg0, e0_arg1, e0_arg2, e0_arg3, e0_arg4, e0_arg5, e0_arg6, e0_arg7, e0_arg8, e0_arg9, e0_arg10, e0_arg11, e0_arg12, e0_arg13, e0_arg14, e0_arg15, e0_v7, e0_v15, e0_v23, e0_v31, e0_v35, e0_v42, e0_v49⟩ :=
    spec02a x0 x1 x2 x3 x4 x5 x6 x7 x8 x9 x10 x11 x12 x13 x14 x15 W h_arg0 h_arg1 h_arg2 h_arg3 h_arg4 h_arg5 h_arg6 h_arg7 h_arg8 h_arg9 h_arg10 h_arg11 h_arg12 h_arg13 h_arg14 h_arg15 h_v7 h_v15 h_v23 h_v31 h_v35 h_v42 h_v47
  obtain ⟨e1_arg0, e1_arg1, e1_arg2, e1_arg3, e1_arg4, e1_arg5, e1_arg6, e1_arg7, e1_arg8, e1_arg9, e1_arg10, e1_arg11, e1_arg12, e1_arg13, e1_arg14, e1_arg15, e1_v7, e1_v15, e1_v23, e1_v31, e1_v58, e1_v62, e1_v69, e1_v76⟩ :=
    spec02b x0 x1 x2 x3 x4 x5 x6 x7 x8 x9 x10 x11 x12 x13 x14 x15 (after c02a W) e0_arg0 e0_arg1 e0_arg2 e0_arg3 e0_arg4 e0_arg5 e0_arg6 e0_arg7 e0_arg8 e0_arg9 e0_arg10 e0_arg11 e0_arg12 e0_arg13 e0_arg14 e0_arg15 e0_v7 e0_v15 e0_v23 e0_v31 e0_v35 e0_v42 e0_v49
  exact spec02c x0 x1 x2 x3 x4 x5 x6 x7 x8 x9 x10 x11 x12 x13 x14 x15 (after c02b (after c02a W)) e1_arg0 e1_arg1 e1_arg2 e1_arg3 e1_arg4 e1_arg5 e1_arg6 e1_arg7 e1_arg8 e1_arg9 e1_arg10 e1_arg11 e1_arg12 e1_arg13 e1_arg14 e1_arg15 e1_v7 e1_v15 e1_v23 e1_v31 e1_v58 e1_v62 e1_v69 e1_v76

end Cert.RefRun

end
-- ==== Proof.Val.RefRunS03.lean ====
import proofs.«407386_j15839839387945_2_alg».proof.Proof.Val.RefRunW1

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

set_option maxHeartbeats 1000000 in
/-- Operations 98 … 124: if on entering each buffer still read holds its stage (an argument its launch contents),
    then on leaving each buffer still read holds its stage. -/
theorem spec03 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v7 : W (Proc.devRef .tc main_v7) = ReadP.val_main_v7 (F := F) x0 x6)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v58 : W (Proc.devRef .tc main_v58) = ReadP.val_main_v58 (F := F) x0 x2 x4 x6 x7 x8 x9)
    (h_v62 : W (Proc.devRef .tc main_v62) = ReadP.val_main_v62 (F := F) x3)
    (h_v77 : W (Proc.devRef .tc main_v77) = ReadP.val_main_v77 (F := F) x1 x3 x5 x6 x7) :
    after c03 W (Proc.devRef .tc main_arg0) = x0
      ∧ after c03 W (Proc.devRef .tc main_arg1) = x1
      ∧ after c03 W (Proc.devRef .tc main_arg2) = x2
      ∧ after c03 W (Proc.devRef .tc main_arg3) = x3
      ∧ after c03 W (Proc.devRef .tc main_arg4) = x4
      ∧ after c03 W (Proc.devRef .tc main_arg5) = x5
      ∧ after c03 W (Proc.devRef .tc main_arg6) = x6
      ∧ after c03 W (Proc.devRef .tc main_arg7) = x7
      ∧ after c03 W (Proc.devRef .tc main_arg8) = x8
      ∧ after c03 W (Proc.devRef .tc main_arg9) = x9
      ∧ after c03 W (Proc.devRef .tc main_arg10) = x10
      ∧ after c03 W (Proc.devRef .tc main_arg11) = x11
      ∧ after c03 W (Proc.devRef .tc main_arg12) = x12
      ∧ after c03 W (Proc.devRef .tc main_arg13) = x13
      ∧ after c03 W (Proc.devRef .tc main_arg14) = x14
      ∧ after c03 W (Proc.devRef .tc main_arg15) = x15
      ∧ after c03 W (Proc.devRef .tc main_v7) = ReadP.val_main_v7 (F := F) x0 x6
      ∧ after c03 W (Proc.devRef .tc main_v15) = ReadP.val_main_v15 (F := F) x1 x6
      ∧ after c03 W (Proc.devRef .tc main_v23) = ReadP.val_main_v23 (F := F) x4 x7
      ∧ after c03 W (Proc.devRef .tc main_v31) = ReadP.val_main_v31 (F := F) x5 x7
      ∧ after c03 W (Proc.devRef .tc main_v58) = ReadP.val_main_v58 (F := F) x0 x2 x4 x6 x7 x8 x9
      ∧ after c03 W (Proc.devRef .tc main_v85) = ReadP.val_main_v85 (F := F) x1 x3 x5 x6 x7 x8 x9
      ∧ after c03 W (Proc.devRef .tc main_v87) = ReadP.val_main_v87 (F := F) x0 x1 x6
      ∧ after c03 W (Proc.devRef .tc main_v98) = ReadP.val_main_v98 (F := F) x0 x1 x6 := by
  refine ⟨?_, ?_, ?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v7, h_v15, h_v23, h_v31, h_v58, h_v62, h_v77]

end Cert.RefRun

end
-- ==== Proof.Val.RefRunS04.lean ====
import proofs.«407386_j15839839387945_2_alg».proof.Proof.Val.RefRunW2

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

/-- Operations 125 … 143 of @main, in order. -/
abbrev c04a : List (HloOp τ sig (Elt F)) :=
  [ nullary main_cst_19 (constant S_ .f32 0xFF800000#32),
    binary main_v87 main_cst_19 main_v99 ((fun x v => Host.reduce FloatOps.maximumf x v reducesTo_S10000x10000_S10000_d0 h_S_) : (⟨S10000x10000, .f32⟩ : BufTy).Contents (Elt F) → (⟨S_, .f32⟩ : BufTy).Contents (Elt F) → (⟨S10000, .f32⟩ : BufTy).Contents (Elt F)),
    nullary main_cst_20 (constant S_ .f32 0xFF800000#32),
    unary main_cst_20 main_v100 (broadcastInDim S10000 ![] bcast_S_S10000 : (⟨S_, .f32⟩ : BufTy).Contents (Elt F) → (⟨S10000, .f32⟩ : BufTy).Contents (Elt F)),
    binary main_v100 main_v99 main_v101 (maximumf : (⟨S10000, .f32⟩ : BufTy).Contents (Elt F) → (⟨S10000, .f32⟩ : BufTy).Contents (Elt F) → (⟨S10000, .f32⟩ : BufTy).Contents (Elt F)),
    unary main_v101 main_v102 (broadcastInDim S1x10000 ![1] bcast_S10000_S1x10000_1 : (⟨S10000, .f32⟩ : BufTy).Contents (Elt F) → (⟨S1x10000, .f32⟩ : BufTy).Contents (Elt F)),
    unary main_v102 main_v103 (broadcastInDim S10000x10000 ![0, 1] bcast_S1x10000_S10000x10000_0_1 : (⟨S1x10000, .f32⟩ : BufTy).Contents (Elt F) → (⟨S10000x10000, .f32⟩ : BufTy).Contents (Elt F)),
    binary main_v87 main_v103 main_v104 (subf : (⟨S10000x10000, .f32⟩ : BufTy).Contents (Elt F) → (⟨S10000x10000, .f32⟩ : BufTy).Contents (Elt F) → (⟨S10000x10000, .f32⟩ : BufTy).Contents (Elt F)),
    unary main_v104 main_v105 (Host.exp : (⟨S10000x10000, .f32⟩ : BufTy).Contents (Elt F) → (⟨S10000x10000, .f32⟩ : BufTy).Contents (Elt F)),
    nullary main_cst_21 (constant S_ .f32 0x00000000#32),
    binary main_v105 main_cst_21 main_v106 ((fun x v => Host.reduceAdd x v reducesTo_S10000x10000_S10000_d0 h_S_) : (⟨S10000x10000, .f32⟩ : BufTy).Contents (Elt F) → (⟨S_, .f32⟩ : BufTy).Contents (Elt F) → (⟨S10000, .f32⟩ : BufTy).Contents (Elt F)),
    unary main_v106 main_v107 (broadcastInDim S1x10000 ![1] bcast_S10000_S1x10000_1 : (⟨S10000, .f32⟩ : BufTy).Contents (Elt F) → (⟨S1x10000, .f32⟩ : BufTy).Contents (Elt F)),
    unary main_v107 main_v108 (broadcastInDim S10000x10000 ![0, 1] bcast_S1x10000_S10000x10000_0_1 : (⟨S1x10000, .f32⟩ : BufTy).Contents (Elt F) → (⟨S10000x10000, .f32⟩ : BufTy).Contents (Elt F)),
    binary main_v105 main_v108 main_v109 (Host.divf : (⟨S10000x10000, .f32⟩ : BufTy).Contents (Elt F) → (⟨S10000x10000, .f32⟩ : BufTy).Contents (Elt F) → (⟨S10000x10000, .f32⟩ : BufTy).Contents (Elt F)),
    unary main_v109 main_v110 ((transpose S10000x10000 [1, 0] · transposes_S10000x10000_S10000x10000_1_0) : (⟨S10000x10000, .f32⟩ : BufTy).Contents (Elt F) → (⟨S10000x10000, .f32⟩ : BufTy).Contents (Elt F)),
    binary main_v98 main_v15 main_v111 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v7 main_v111 main_v112 (subf : (⟨S10000x128, .f32⟩ : BufTy).Contents (Elt F) → (⟨S10000x128, .f32⟩ : BufTy).Contents (Elt F) → (⟨S10000x128, .f32⟩ : BufTy).Contents (Elt F)),
    binary main_v110 main_v7 main_v113 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v15 main_v113 main_v114 (subf : (⟨S10000x128, .f32⟩ : BufTy).Contents (Elt F) → (⟨S10000x128, .f32⟩ : BufTy).Contents (Elt F) → (⟨S10000x128, .f32⟩ : BufTy).Contents (Elt F)) ]

/-- Operations 144 … 148 of @main, in order. -/
abbrev c04b : List (HloOp τ sig (Elt F)) :=
  [ binary main_v58 main_v112 main_v115 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v115 main_arg10 main_v116 ((fun l r => Host.dotGeneral dot_S10000x256_S256x384_S10000x384_1_0_0_1_n_n none l r) : (⟨S10000x256, .f32⟩ : BufTy).Contents (Elt F) → (⟨S256x384, .f32⟩ : BufTy).Contents (Elt F) → (⟨S10000x384, .f32⟩ : BufTy).Contents (Elt F)),
    unary main_arg11 main_v117 (broadcastInDim S1x384 ![1] bcast_S384_S1x384_1 : (⟨S384, .f32⟩ : BufTy).Contents (Elt F) → (⟨S1x384, .f32⟩ : BufTy).Contents (Elt F)),
    unary main_v117 main_v118 (broadcastInDim S10000x384 ![0, 1] bcast_S1x384_S10000x384_0_1 : (⟨S1x384, .f32⟩ : BufTy).Contents (Elt F) → (⟨S10000x384, .f32⟩ : BufTy).Contents (Elt F)),
    binary main_v116 main_v118 main_v119 (addf : (⟨S10000x384, .f32⟩ : BufTy).Contents (Elt F) → (⟨S10000x384, .f32⟩ : BufTy).Contents (Elt F) → (⟨S10000x384, .f32⟩ : BufTy).Contents (Elt F)) ]

set_option maxRecDepth 4096 in
/-- The line is its pieces end to end. -/
theorem c04_split : c04 (F := F) = c04a ++ (c04b) := rfl

set_option maxHeartbeats 1000000 in
/-- Operations 125 … 143: if on entering each buffer still read holds its stage (an argument its launch contents),
    then on leaving each buffer still read holds its stage. -/
theorem spec04a (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v7 : W (Proc.devRef .tc main_v7) = ReadP.val_main_v7 (F := F) x0 x6)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v58 : W (Proc.devRef .tc main_v58) = ReadP.val_main_v58 (F := F) x0 x2 x4 x6 x7 x8 x9)
    (h_v85 : W (Proc.devRef .tc main_v85) = ReadP.val_main_v85 (F := F) x1 x3 x5 x6 x7 x8 x9)
    (h_v87 : W (Proc.devRef .tc main_v87) = ReadP.val_main_v87 (F := F) x0 x1 x6)
    (h_v98 : W (Proc.devRef .tc main_v98) = ReadP.val_main_v98 (F := F) x0 x1 x6) :
    after c04a W (Proc.devRef .tc main_arg0) = x0
      ∧ after c04a W (Proc.devRef .tc main_arg1) = x1
      ∧ after c04a W (Proc.devRef .tc main_arg2) = x2
      ∧ after c04a W (Proc.devRef .tc main_arg3) = x3
      ∧ after c04a W (Proc.devRef .tc main_arg4) = x4
      ∧ after c04a W (Proc.devRef .tc main_arg5) = x5
      ∧ after c04a W (Proc.devRef .tc main_arg6) = x6
      ∧ after c04a W (Proc.devRef .tc main_arg7) = x7
      ∧ after c04a W (Proc.devRef .tc main_arg8) = x8
      ∧ after c04a W (Proc.devRef .tc main_arg9) = x9
      ∧ after c04a W (Proc.devRef .tc main_arg10) = x10
      ∧ after c04a W (Proc.devRef .tc main_arg11) = x11
      ∧ after c04a W (Proc.devRef .tc main_arg12) = x12
      ∧ after c04a W (Proc.devRef .tc main_arg13) = x13
      ∧ after c04a W (Proc.devRef .tc main_arg14) = x14
      ∧ after c04a W (Proc.devRef .tc main_arg15) = x15
      ∧ after c04a W (Proc.devRef .tc main_v7) = ReadP.val_main_v7 (F := F) x0 x6
      ∧ after c04a W (Proc.devRef .tc main_v15) = ReadP.val_main_v15 (F := F) x1 x6
      ∧ after c04a W (Proc.devRef .tc main_v23) = ReadP.val_main_v23 (F := F) x4 x7
      ∧ after c04a W (Proc.devRef .tc main_v31) = ReadP.val_main_v31 (F := F) x5 x7
      ∧ after c04a W (Proc.devRef .tc main_v58) = ReadP.val_main_v58 (F := F) x0 x2 x4 x6 x7 x8 x9
      ∧ after c04a W (Proc.devRef .tc main_v85) = ReadP.val_main_v85 (F := F) x1 x3 x5 x6 x7 x8 x9
      ∧ after c04a W (Proc.devRef .tc main_v112) = ReadP.val_main_v112 (F := F) x0 x1 x6
      ∧ after c04a W (Proc.devRef .tc main_v114) = ReadP.val_main_v114 (F := F) x0 x1 x6 := by
  refine ⟨?_, ?_, ?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v7, h_v15, h_v23, h_v31, h_v58, h_v85, h_v87, h_v98]

set_option maxHeartbeats 1000000 in
/-- Operations 144 … 148: if on entering each buffer still read holds its stage (an argument its launch contents),
    then on leaving each buffer still read holds its stage. -/
theorem spec04b (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v7 : W (Proc.devRef .tc main_v7) = ReadP.val_main_v7 (F := F) x0 x6)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v58 : W (Proc.devRef .tc main_v58) = ReadP.val_main_v58 (F := F) x0 x2 x4 x6 x7 x8 x9)
    (h_v85 : W (Proc.devRef .tc main_v85) = ReadP.val_main_v85 (F := F) x1 x3 x5 x6 x7 x8 x9)
    (h_v112 : W (Proc.devRef .tc main_v112) = ReadP.val_main_v112 (F := F) x0 x1 x6)
    (h_v114 : W (Proc.devRef .tc main_v114) = ReadP.val_main_v114 (F := F) x0 x1 x6) :
    after c04b W (Proc.devRef .tc main_arg0) = x0
      ∧ after c04b W (Proc.devRef .tc main_arg1) = x1
      ∧ after c04b W (Proc.devRef .tc main_arg2) = x2
      ∧ after c04b W (Proc.devRef .tc main_arg3) = x3
      ∧ after c04b W (Proc.devRef .tc main_arg4) = x4
      ∧ after c04b W (Proc.devRef .tc main_arg5) = x5
      ∧ after c04b W (Proc.devRef .tc main_arg6) = x6
      ∧ after c04b W (Proc.devRef .tc main_arg7) = x7
      ∧ after c04b W (Proc.devRef .tc main_arg8) = x8
      ∧ after c04b W (Proc.devRef .tc main_arg9) = x9
      ∧ after c04b W (Proc.devRef .tc main_arg10) = x10
      ∧ after c04b W (Proc.devRef .tc main_arg11) = x11
      ∧ after c04b W (Proc.devRef .tc main_arg12) = x12
      ∧ after c04b W (Proc.devRef .tc main_arg13) = x13
      ∧ after c04b W (Proc.devRef .tc main_arg14) = x14
      ∧ after c04b W (Proc.devRef .tc main_arg15) = x15
      ∧ after c04b W (Proc.devRef .tc main_v7) = ReadP.val_main_v7 (F := F) x0 x6
      ∧ after c04b W (Proc.devRef .tc main_v15) = ReadP.val_main_v15 (F := F) x1 x6
      ∧ after c04b W (Proc.devRef .tc main_v23) = ReadP.val_main_v23 (F := F) x4 x7
      ∧ after c04b W (Proc.devRef .tc main_v31) = ReadP.val_main_v31 (F := F) x5 x7
      ∧ after c04b W (Proc.devRef .tc main_v85) = ReadP.val_main_v85 (F := F) x1 x3 x5 x6 x7 x8 x9
      ∧ after c04b W (Proc.devRef .tc main_v114) = ReadP.val_main_v114 (F := F) x0 x1 x6
      ∧ after c04b W (Proc.devRef .tc main_v119) = ReadP.val_main_v119 (F := F) x0 x1 x2 x4 x6 x7 x8 x9 x10 x11 := by
  refine ⟨?_, ?_, ?_, ?_, ?_, ?_, ?_, ?_, ?_, ?_, ?_, ?_, ?_, ?_, ?_, ?_, ?_, ?_, ?_, ?_, ?_, ?_, ?_⟩
  all_goals line_results
  all_goals try simp only [h_arg0, h_arg1, h_arg2, h_arg3, h_arg4, h_arg5, h_arg6, h_arg7, h_arg8, h_arg9, h_arg10, h_arg11, h_arg12, h_arg13, h_arg14, h_arg15, h_v7, h_v15, h_v23, h_v31, h_v58, h_v85, h_v112, h_v114]
  all_goals try rw [h_v58]
  all_goals try rw [h_v112]
  all_goals try simp only [TRef.ofBuf, TRef.toBuf, cast_eq]
  all_goals try rfl

/-- Operations 125 … 148: if on entering each buffer still read holds its stage (an argument its launch contents),
    then on leaving each buffer still read holds its stage. -/
theorem spec04 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v7 : W (Proc.devRef .tc main_v7) = ReadP.val_main_v7 (F := F) x0 x6)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v58 : W (Proc.devRef .tc main_v58) = ReadP.val_main_v58 (F := F) x0 x2 x4 x6 x7 x8 x9)
    (h_v85 : W (Proc.devRef .tc main_v85) = ReadP.val_main_v85 (F := F) x1 x3 x5 x6 x7 x8 x9)
    (h_v87 : W (Proc.devRef .tc main_v87) = ReadP.val_main_v87 (F := F) x0 x1 x6)
    (h_v98 : W (Proc.devRef .tc main_v98) = ReadP.val_main_v98 (F := F) x0 x1 x6) :
    after c04 W (Proc.devRef .tc main_arg0) = x0
      ∧ after c04 W (Proc.devRef .tc main_arg1) = x1
      ∧ after c04 W (Proc.devRef .tc main_arg2) = x2
      ∧ after c04 W (Proc.devRef .tc main_arg3) = x3
      ∧ after c04 W (Proc.devRef .tc main_arg4) = x4
      ∧ after c04 W (Proc.devRef .tc main_arg5) = x5
      ∧ after c04 W (Proc.devRef .tc main_arg6) = x6
      ∧ after c04 W (Proc.devRef .tc main_arg7) = x7
      ∧ after c04 W (Proc.devRef .tc main_arg8) = x8
      ∧ after c04 W (Proc.devRef .tc main_arg9) = x9
      ∧ after c04 W (Proc.devRef .tc main_arg10) = x10
      ∧ after c04 W (Proc.devRef .tc main_arg11) = x11
      ∧ after c04 W (Proc.devRef .tc main_arg12) = x12
      ∧ after c04 W (Proc.devRef .tc main_arg13) = x13
      ∧ after c04 W (Proc.devRef .tc main_arg14) = x14
      ∧ after c04 W (Proc.devRef .tc main_arg15) = x15
      ∧ after c04 W (Proc.devRef .tc main_v7) = ReadP.val_main_v7 (F := F) x0 x6
      ∧ after c04 W (Proc.devRef .tc main_v15) = ReadP.val_main_v15 (F := F) x1 x6
      ∧ after c04 W (Proc.devRef .tc main_v23) = ReadP.val_main_v23 (F := F) x4 x7
      ∧ after c04 W (Proc.devRef .tc main_v31) = ReadP.val_main_v31 (F := F) x5 x7
      ∧ after c04 W (Proc.devRef .tc main_v85) = ReadP.val_main_v85 (F := F) x1 x3 x5 x6 x7 x8 x9
      ∧ after c04 W (Proc.devRef .tc main_v114) = ReadP.val_main_v114 (F := F) x0 x1 x6
      ∧ after c04 W (Proc.devRef .tc main_v119) = ReadP.val_main_v119 (F := F) x0 x1 x2 x4 x6 x7 x8 x9 x10 x11 := by
  rw [c04_split, StableHlo.after_append]
  obtain ⟨e0_arg0, e0_arg1, e0_arg2, e0_arg3, e0_arg4, e0_arg5, e0_arg6, e0_arg7, e0_arg8, e0_arg9, e0_arg10, e0_arg11, e0_arg12, e0_arg13, e0_arg14, e0_arg15, e0_v7, e0_v15, e0_v23, e0_v31, e0_v58, e0_v85, e0_v112, e0_v114⟩ :=
    spec04a x0 x1 x2 x3 x4 x5 x6 x7 x8 x9 x10 x11 x12 x13 x14 x15 W h_arg0 h_arg1 h_arg2 h_arg3 h_arg4 h_arg5 h_arg6 h_arg7 h_arg8 h_arg9 h_arg10 h_arg11 h_arg12 h_arg13 h_arg14 h_arg15 h_v7 h_v15 h_v23 h_v31 h_v58 h_v85 h_v87 h_v98
  exact spec04b x0 x1 x2 x3 x4 x5 x6 x7 x8 x9 x10 x11 x12 x13 x14 x15 (after c04a W) e0_arg0 e0_arg1 e0_arg2 e0_arg3 e0_arg4 e0_arg5 e0_arg6 e0_arg7 e0_arg8 e0_arg9 e0_arg10 e0_arg11 e0_arg12 e0_arg13 e0_arg14 e0_arg15 e0_v7 e0_v15 e0_v23 e0_v31 e0_v58 e0_v85 e0_v112 e0_v114

end Cert.RefRun

end
-- ==== Proof.Val.RefRunS05.lean ====
import proofs.«407386_j15839839387945_2_alg».proof.Proof.Val.RefRunW2

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

set_option maxHeartbeats 1000000 in
/-- Operations 149 … 184: if on entering each buffer still read holds its stage (an argument its launch contents),
    then on leaving each buffer still read holds its stage. -/
theorem spec05 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v7 : W (Proc.devRef .tc main_v7) = ReadP.val_main_v7 (F := F) x0 x6)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v85 : W (Proc.devRef .tc main_v85) = ReadP.val_main_v85 (F := F) x1 x3 x5 x6 x7 x8 x9)
    (h_v114 : W (Proc.devRef .tc main_v114) = ReadP.val_main_v114 (F := F) x0 x1 x6)
    (h_v119 : W (Proc.devRef .tc main_v119) = ReadP.val_main_v119 (F := F) x0 x1 x2 x4 x6 x7 x8 x9 x10 x11) :
    after c05 W (Proc.devRef .tc main_arg0) = x0
      ∧ after c05 W (Proc.devRef .tc main_arg1) = x1
      ∧ after c05 W (Proc.devRef .tc main_arg2) = x2
      ∧ after c05 W (Proc.devRef .tc main_arg3) = x3
      ∧ after c05 W (Proc.devRef .tc main_arg4) = x4
      ∧ after c05 W (Proc.devRef .tc main_arg5) = x5
      ∧ after c05 W (Proc.devRef .tc main_arg6) = x6
      ∧ after c05 W (Proc.devRef .tc main_arg7) = x7
      ∧ after c05 W (Proc.devRef .tc main_arg8) = x8
      ∧ after c05 W (Proc.devRef .tc main_arg9) = x9
      ∧ after c05 W (Proc.devRef .tc main_arg10) = x10
      ∧ after c05 W (Proc.devRef .tc main_arg11) = x11
      ∧ after c05 W (Proc.devRef .tc main_arg12) = x12
      ∧ after c05 W (Proc.devRef .tc main_arg13) = x13
      ∧ after c05 W (Proc.devRef .tc main_arg14) = x14
      ∧ after c05 W (Proc.devRef .tc main_arg15) = x15
      ∧ after c05 W (Proc.devRef .tc main_v15) = ReadP.val_main_v15 (F := F) x1 x6
      ∧ after c05 W (Proc.devRef .tc main_v23) = ReadP.val_main_v23 (F := F) x4 x7
      ∧ after c05 W (Proc.devRef .tc main_v31) = ReadP.val_main_v31 (F := F) x5 x7
      ∧ after c05 W (Proc.devRef .tc main_v85) = ReadP.val_main_v85 (F := F) x1 x3 x5 x6 x7 x8 x9
      ∧ after c05 W (Proc.devRef .tc main_v114) = ReadP.val_main_v114 (F := F) x0 x1 x6
      ∧ after c05 W (Proc.devRef .tc main_v149) = ReadP.val_main_v149 (F := F) x0 x1 x2 x4 x6 x7 x8 x9 x10 x11 x12 x13
      ∧ after c05 W (Proc.devRef .tc main_v150) = ReadP.val_main_v150 (F := F) x0 x1 x2 x4 x6 x7 x8 x9 x10 x11 x12 x13 := by
  refine ⟨?_, ?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v7, h_v15, h_v23, h_v31, h_v85, h_v114, h_v119]

end Cert.RefRun

end
-- ==== Proof.Val.RefRunS06.lean ====
import proofs.«407386_j15839839387945_2_alg».proof.Proof.Val.RefRunW3

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

/-- Operations 185 … 185 of @main, in order. -/
abbrev c06a : List (HloOp τ sig (Elt F)) :=
  [ binary main_v149 main_v150 main_v151 (addf : (⟨S10000x128, .f32⟩ : BufTy).Contents (Elt F) → (⟨S10000x128, .f32⟩ : BufTy).Contents (Elt F) → (⟨S10000x128, .f32⟩ : BufTy).Contents (Elt F)) ]

/-- Operations 186 … 220 of @main, in order. -/
abbrev c06b : List (HloOp τ sig (Elt F)) :=
  [ binary main_v85 main_v114 main_v152 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v152 main_arg10 main_v153 ((fun l r => Host.dotGeneral dot_S10000x256_S256x384_S10000x384_1_0_0_1_n_n none l r) : (⟨S10000x256, .f32⟩ : BufTy).Contents (Elt F) → (⟨S256x384, .f32⟩ : BufTy).Contents (Elt F) → (⟨S10000x384, .f32⟩ : BufTy).Contents (Elt F)),
    unary main_arg11 main_v154 (broadcastInDim S1x384 ![1] bcast_S384_S1x384_1 : (⟨S384, .f32⟩ : BufTy).Contents (Elt F) → (⟨S1x384, .f32⟩ : BufTy).Contents (Elt F)),
    unary main_v154 main_v155 (broadcastInDim S10000x384 ![0, 1] bcast_S1x384_S10000x384_0_1 : (⟨S1x384, .f32⟩ : BufTy).Contents (Elt F) → (⟨S10000x384, .f32⟩ : BufTy).Contents (Elt F)),
    binary main_v153 main_v155 main_v156 (addf : (⟨S10000x384, .f32⟩ : BufTy).Contents (Elt F) → (⟨S10000x384, .f32⟩ : BufTy).Contents (Elt F) → (⟨S10000x384, .f32⟩ : BufTy).Contents (Elt F)),
    binary main_v15 main_arg12 main_v157 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    unary main_arg13 main_v158 (broadcastInDim S1x384 ![1] bcast_S384_S1x384_1 : (⟨S384, .f32⟩ : BufTy).Contents (Elt F) → (⟨S1x384, .f32⟩ : BufTy).Contents (Elt F)),
    unary main_v158 main_v159 (broadcastInDim S10000x384 ![0, 1] bcast_S1x384_S10000x384_0_1 : (⟨S1x384, .f32⟩ : BufTy).Contents (Elt F) → (⟨S10000x384, .f32⟩ : BufTy).Contents (Elt F)),
    binary main_v157 main_v159 main_v160 (addf : (⟨S10000x384, .f32⟩ : BufTy).Contents (Elt F) → (⟨S10000x384, .f32⟩ : BufTy).Contents (Elt F) → (⟨S10000x384, .f32⟩ : BufTy).Contents (Elt F)),
    unary main_v156 main_v161 ((extractStridedSlice S10000x128 ![0, 0] · slices_S10000x384_S10000x128_0_0) : (⟨S10000x384, .f32⟩ : BufTy).Contents (Elt F) → (⟨S10000x128, .f32⟩ : BufTy).Contents (Elt F)),
    unary main_v156 main_v162 ((extractStridedSlice S10000x128 ![0, 128] · slices_S10000x384_S10000x128_0_128) : (⟨S10000x384, .f32⟩ : BufTy).Contents (Elt F) → (⟨S10000x128, .f32⟩ : BufTy).Contents (Elt F)),
    unary main_v156 main_v163 ((extractStridedSlice S10000x128 ![0, 256] · slices_S10000x384_S10000x128_0_256) : (⟨S10000x384, .f32⟩ : BufTy).Contents (Elt F) → (⟨S10000x128, .f32⟩ : BufTy).Contents (Elt F)),
    unary main_v160 main_v164 ((extractStridedSlice S10000x128 ![0, 0] · slices_S10000x384_S10000x128_0_0) : (⟨S10000x384, .f32⟩ : BufTy).Contents (Elt F) → (⟨S10000x128, .f32⟩ : BufTy).Contents (Elt F)),
    unary main_v160 main_v165 ((extractStridedSlice S10000x128 ![0, 128] · slices_S10000x384_S10000x128_0_128) : (⟨S10000x384, .f32⟩ : BufTy).Contents (Elt F) → (⟨S10000x128, .f32⟩ : BufTy).Contents (Elt F)),
    unary main_v160 main_v166 ((extractStridedSlice S10000x128 ![0, 256] · slices_S10000x384_S10000x128_0_256) : (⟨S10000x384, .f32⟩ : BufTy).Contents (Elt F) → (⟨S10000x128, .f32⟩ : BufTy).Contents (Elt F)),
    binary main_v161 main_v164 main_v167 (addf : (⟨S10000x128, .f32⟩ : BufTy).Contents (Elt F) → (⟨S10000x128, .f32⟩ : BufTy).Contents (Elt F) → (⟨S10000x128, .f32⟩ : BufTy).Contents (Elt F)),
    unary main_v167 main_v168 (Host.negf : (⟨S10000x128, .f32⟩ : BufTy).Contents (Elt F) → (⟨S10000x128, .f32⟩ : BufTy).Contents (Elt F)),
    unary main_v168 main_v169 (Host.exp : (⟨S10000x128, .f32⟩ : BufTy).Contents (Elt F) → (⟨S10000x128, .f32⟩ : BufTy).Contents (Elt F)),
    nullary main_cst_27 (constant S_ .f32 0x3F800000#32),
    unary main_cst_27 main_v170 (broadcastInDim S10000x128 ![] bcast_S_S10000x128 : (⟨S_, .f32⟩ : BufTy).Contents (Elt F) → (⟨S10000x128, .f32⟩ : BufTy).Contents (Elt F)),
    binary main_v170 main_v169 main_v171 (addf : (⟨S10000x128, .f32⟩ : BufTy).Contents (Elt F) → (⟨S10000x128, .f32⟩ : BufTy).Contents (Elt F) → (⟨S10000x128, .f32⟩ : BufTy).Contents (Elt F)),
    nullary main_cst_28 (constant S_ .f32 0x3F800000#32),
    unary main_cst_28 main_v172 (broadcastInDim S10000x128 ![] bcast_S_S10000x128 : (⟨S_, .f32⟩ : BufTy).Contents (Elt F) → (⟨S10000x128, .f32⟩ : BufTy).Contents (Elt F)),
    binary main_v172 main_v171 main_v173 (Host.divf : (⟨S10000x128, .f32⟩ : BufTy).Contents (Elt F) → (⟨S10000x128, .f32⟩ : BufTy).Contents (Elt F) → (⟨S10000x128, .f32⟩ : BufTy).Contents (Elt F)),
    binary main_v162 main_v165 main_v174 (addf : (⟨S10000x128, .f32⟩ : BufTy).Contents (Elt F) → (⟨S10000x128, .f32⟩ : BufTy).Contents (Elt F) → (⟨S10000x128, .f32⟩ : BufTy).Contents (Elt F)),
    unary main_v174 main_v175 (Host.negf : (⟨S10000x128, .f32⟩ : BufTy).Contents (Elt F) → (⟨S10000x128, .f32⟩ : BufTy).Contents (Elt F)),
    unary main_v175 main_v176 (Host.exp : (⟨S10000x128, .f32⟩ : BufTy).Contents (Elt F) → (⟨S10000x128, .f32⟩ : BufTy).Contents (Elt F)),
    nullary main_cst_29 (constant S_ .f32 0x3F800000#32),
    unary main_cst_29 main_v177 (broadcastInDim S10000x128 ![] bcast_S_S10000x128 : (⟨S_, .f32⟩ : BufTy).Contents (Elt F) → (⟨S10000x128, .f32⟩ : BufTy).Contents (Elt F)),
    binary main_v177 main_v176 main_v178 (addf : (⟨S10000x128, .f32⟩ : BufTy).Contents (Elt F) → (⟨S10000x128, .f32⟩ : BufTy).Contents (Elt F) → (⟨S10000x128, .f32⟩ : BufTy).Contents (Elt F)),
    nullary main_cst_30 (constant S_ .f32 0x3F800000#32),
    unary main_cst_30 main_v179 (broadcastInDim S10000x128 ![] bcast_S_S10000x128 : (⟨S_, .f32⟩ : BufTy).Contents (Elt F) → (⟨S10000x128, .f32⟩ : BufTy).Contents (Elt F)),
    binary main_v179 main_v178 main_v180 (Host.divf : (⟨S10000x128, .f32⟩ : BufTy).Contents (Elt F) → (⟨S10000x128, .f32⟩ : BufTy).Contents (Elt F) → (⟨S10000x128, .f32⟩ : BufTy).Contents (Elt F)),
    binary main_v173 main_v166 main_v181 (mulf : (⟨S10000x128, .f32⟩ : BufTy).Contents (Elt F) → (⟨S10000x128, .f32⟩ : BufTy).Contents (Elt F) → (⟨S10000x128, .f32⟩ : BufTy).Contents (Elt F)),
    binary main_v163 main_v181 main_v182 (addf : (⟨S10000x128, .f32⟩ : BufTy).Contents (Elt F) → (⟨S10000x128, .f32⟩ : BufTy).Contents (Elt F) → (⟨S10000x128, .f32⟩ : BufTy).Contents (Elt F)) ]

set_option maxRecDepth 4096 in
/-- The line is its pieces end to end. -/
theorem c06_split : c06 (F := F) = c06a ++ (c06b) := rfl

set_option maxHeartbeats 1000000 in
/-- Operations 185 … 185: if on entering each buffer still read holds its stage (an argument its launch contents),
    then on leaving each buffer still read holds its stage. -/
theorem spec06a (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v85 : W (Proc.devRef .tc main_v85) = ReadP.val_main_v85 (F := F) x1 x3 x5 x6 x7 x8 x9)
    (h_v114 : W (Proc.devRef .tc main_v114) = ReadP.val_main_v114 (F := F) x0 x1 x6)
    (h_v149 : W (Proc.devRef .tc main_v149) = ReadP.val_main_v149 (F := F) x0 x1 x2 x4 x6 x7 x8 x9 x10 x11 x12 x13)
    (h_v150 : W (Proc.devRef .tc main_v150) = ReadP.val_main_v150 (F := F) x0 x1 x2 x4 x6 x7 x8 x9 x10 x11 x12 x13) :
    after c06a W (Proc.devRef .tc main_arg0) = x0
      ∧ after c06a W (Proc.devRef .tc main_arg1) = x1
      ∧ after c06a W (Proc.devRef .tc main_arg2) = x2
      ∧ after c06a W (Proc.devRef .tc main_arg3) = x3
      ∧ after c06a W (Proc.devRef .tc main_arg4) = x4
      ∧ after c06a W (Proc.devRef .tc main_arg5) = x5
      ∧ after c06a W (Proc.devRef .tc main_arg6) = x6
      ∧ after c06a W (Proc.devRef .tc main_arg7) = x7
      ∧ after c06a W (Proc.devRef .tc main_arg8) = x8
      ∧ after c06a W (Proc.devRef .tc main_arg9) = x9
      ∧ after c06a W (Proc.devRef .tc main_arg10) = x10
      ∧ after c06a W (Proc.devRef .tc main_arg11) = x11
      ∧ after c06a W (Proc.devRef .tc main_arg12) = x12
      ∧ after c06a W (Proc.devRef .tc main_arg13) = x13
      ∧ after c06a W (Proc.devRef .tc main_arg14) = x14
      ∧ after c06a W (Proc.devRef .tc main_arg15) = x15
      ∧ after c06a W (Proc.devRef .tc main_v15) = ReadP.val_main_v15 (F := F) x1 x6
      ∧ after c06a W (Proc.devRef .tc main_v23) = ReadP.val_main_v23 (F := F) x4 x7
      ∧ after c06a W (Proc.devRef .tc main_v31) = ReadP.val_main_v31 (F := F) x5 x7
      ∧ after c06a W (Proc.devRef .tc main_v85) = ReadP.val_main_v85 (F := F) x1 x3 x5 x6 x7 x8 x9
      ∧ after c06a W (Proc.devRef .tc main_v114) = ReadP.val_main_v114 (F := F) x0 x1 x6
      ∧ after c06a W (Proc.devRef .tc main_v151) = ReadP.val_main_v151 (F := F) x0 x1 x2 x4 x6 x7 x8 x9 x10 x11 x12 x13 := by
  refine ⟨?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v15, h_v23, h_v31, h_v85, h_v114, h_v149, h_v150]

set_option maxHeartbeats 1000000 in
/-- Operations 186 … 220: if on entering each buffer still read holds its stage (an argument its launch contents),
    then on leaving each buffer still read holds its stage. -/
theorem spec06b (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v85 : W (Proc.devRef .tc main_v85) = ReadP.val_main_v85 (F := F) x1 x3 x5 x6 x7 x8 x9)
    (h_v114 : W (Proc.devRef .tc main_v114) = ReadP.val_main_v114 (F := F) x0 x1 x6)
    (h_v151 : W (Proc.devRef .tc main_v151) = ReadP.val_main_v151 (F := F) x0 x1 x2 x4 x6 x7 x8 x9 x10 x11 x12 x13) :
    after c06b W (Proc.devRef .tc main_arg0) = x0
      ∧ after c06b W (Proc.devRef .tc main_arg1) = x1
      ∧ after c06b W (Proc.devRef .tc main_arg2) = x2
      ∧ after c06b W (Proc.devRef .tc main_arg3) = x3
      ∧ after c06b W (Proc.devRef .tc main_arg4) = x4
      ∧ after c06b W (Proc.devRef .tc main_arg5) = x5
      ∧ after c06b W (Proc.devRef .tc main_arg6) = x6
      ∧ after c06b W (Proc.devRef .tc main_arg7) = x7
      ∧ after c06b W (Proc.devRef .tc main_arg8) = x8
      ∧ after c06b W (Proc.devRef .tc main_arg9) = x9
      ∧ after c06b W (Proc.devRef .tc main_arg10) = x10
      ∧ after c06b W (Proc.devRef .tc main_arg11) = x11
      ∧ after c06b W (Proc.devRef .tc main_arg12) = x12
      ∧ after c06b W (Proc.devRef .tc main_arg13) = x13
      ∧ after c06b W (Proc.devRef .tc main_arg14) = x14
      ∧ after c06b W (Proc.devRef .tc main_arg15) = x15
      ∧ after c06b W (Proc.devRef .tc main_v15) = ReadP.val_main_v15 (F := F) x1 x6
      ∧ after c06b W (Proc.devRef .tc main_v23) = ReadP.val_main_v23 (F := F) x4 x7
      ∧ after c06b W (Proc.devRef .tc main_v31) = ReadP.val_main_v31 (F := F) x5 x7
      ∧ after c06b W (Proc.devRef .tc main_v151) = ReadP.val_main_v151 (F := F) x0 x1 x2 x4 x6 x7 x8 x9 x10 x11 x12 x13
      ∧ after c06b W (Proc.devRef .tc main_v180) = ReadP.val_main_v180 (F := F) x0 x1 x3 x5 x6 x7 x8 x9 x10 x11 x12 x13
      ∧ after c06b W (Proc.devRef .tc main_v182) = ReadP.val_main_v182 (F := F) x0 x1 x3 x5 x6 x7 x8 x9 x10 x11 x12 x13 := by
  refine ⟨?_, ?_, ?_, ?_, ?_, ?_, ?_, ?_, ?_, ?_, ?_, ?_, ?_, ?_, ?_, ?_, ?_, ?_, ?_, ?_, ?_, ?_⟩
  all_goals line_results
  all_goals try simp only [h_arg0, h_arg1, h_arg2, h_arg3, h_arg4, h_arg5, h_arg6, h_arg7, h_arg8, h_arg9, h_arg10, h_arg11, h_arg12, h_arg13, h_arg14, h_arg15, h_v15, h_v23, h_v31, h_v85, h_v114, h_v151]
  all_goals try rw [h_v85]
  all_goals try rw [h_v114]
  all_goals try simp only [TRef.ofBuf, TRef.toBuf, cast_eq]
  all_goals try rfl

/-- Operations 185 … 220: if on entering each buffer still read holds its stage (an argument its launch contents),
    then on leaving each buffer still read holds its stage. -/
theorem spec06 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v85 : W (Proc.devRef .tc main_v85) = ReadP.val_main_v85 (F := F) x1 x3 x5 x6 x7 x8 x9)
    (h_v114 : W (Proc.devRef .tc main_v114) = ReadP.val_main_v114 (F := F) x0 x1 x6)
    (h_v149 : W (Proc.devRef .tc main_v149) = ReadP.val_main_v149 (F := F) x0 x1 x2 x4 x6 x7 x8 x9 x10 x11 x12 x13)
    (h_v150 : W (Proc.devRef .tc main_v150) = ReadP.val_main_v150 (F := F) x0 x1 x2 x4 x6 x7 x8 x9 x10 x11 x12 x13) :
    after c06 W (Proc.devRef .tc main_arg0) = x0
      ∧ after c06 W (Proc.devRef .tc main_arg1) = x1
      ∧ after c06 W (Proc.devRef .tc main_arg2) = x2
      ∧ after c06 W (Proc.devRef .tc main_arg3) = x3
      ∧ after c06 W (Proc.devRef .tc main_arg4) = x4
      ∧ after c06 W (Proc.devRef .tc main_arg5) = x5
      ∧ after c06 W (Proc.devRef .tc main_arg6) = x6
      ∧ after c06 W (Proc.devRef .tc main_arg7) = x7
      ∧ after c06 W (Proc.devRef .tc main_arg8) = x8
      ∧ after c06 W (Proc.devRef .tc main_arg9) = x9
      ∧ after c06 W (Proc.devRef .tc main_arg10) = x10
      ∧ after c06 W (Proc.devRef .tc main_arg11) = x11
      ∧ after c06 W (Proc.devRef .tc main_arg12) = x12
      ∧ after c06 W (Proc.devRef .tc main_arg13) = x13
      ∧ after c06 W (Proc.devRef .tc main_arg14) = x14
      ∧ after c06 W (Proc.devRef .tc main_arg15) = x15
      ∧ after c06 W (Proc.devRef .tc main_v15) = ReadP.val_main_v15 (F := F) x1 x6
      ∧ after c06 W (Proc.devRef .tc main_v23) = ReadP.val_main_v23 (F := F) x4 x7
      ∧ after c06 W (Proc.devRef .tc main_v31) = ReadP.val_main_v31 (F := F) x5 x7
      ∧ after c06 W (Proc.devRef .tc main_v151) = ReadP.val_main_v151 (F := F) x0 x1 x2 x4 x6 x7 x8 x9 x10 x11 x12 x13
      ∧ after c06 W (Proc.devRef .tc main_v180) = ReadP.val_main_v180 (F := F) x0 x1 x3 x5 x6 x7 x8 x9 x10 x11 x12 x13
      ∧ after c06 W (Proc.devRef .tc main_v182) = ReadP.val_main_v182 (F := F) x0 x1 x3 x5 x6 x7 x8 x9 x10 x11 x12 x13 := by
  rw [c06_split, StableHlo.after_append]
  obtain ⟨e0_arg0, e0_arg1, e0_arg2, e0_arg3, e0_arg4, e0_arg5, e0_arg6, e0_arg7, e0_arg8, e0_arg9, e0_arg10, e0_arg11, e0_arg12, e0_arg13, e0_arg14, e0_arg15, e0_v15, e0_v23, e0_v31, e0_v85, e0_v114, e0_v151⟩ :=
    spec06a x0 x1 x2 x3 x4 x5 x6 x7 x8 x9 x10 x11 x12 x13 x14 x15 W h_arg0 h_arg1 h_arg2 h_arg3 h_arg4 h_arg5 h_arg6 h_arg7 h_arg8 h_arg9 h_arg10 h_arg11 h_arg12 h_arg13 h_arg14 h_arg15 h_v15 h_v23 h_v31 h_v85 h_v114 h_v149 h_v150
  exact spec06b x0 x1 x2 x3 x4 x5 x6 x7 x8 x9 x10 x11 x12 x13 x14 x15 (after c06a W) e0_arg0 e0_arg1 e0_arg2 e0_arg3 e0_arg4 e0_arg5 e0_arg6 e0_arg7 e0_arg8 e0_arg9 e0_arg10 e0_arg11 e0_arg12 e0_arg13 e0_arg14 e0_arg15 e0_v15 e0_v23 e0_v31 e0_v85 e0_v114 e0_v151

end Cert.RefRun

end
-- ==== Proof.Val.RefRunS07.lean ====
import proofs.«407386_j15839839387945_2_alg».proof.Proof.Val.RefRunW3

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

set_option maxHeartbeats 1000000 in
/-- Operations 221 … 244: if on entering each buffer still read holds its stage (an argument its launch contents),
    then on leaving each buffer still read holds its stage. -/
theorem spec07 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v15 : W (Proc.devRef .tc main_v15) = ReadP.val_main_v15 (F := F) x1 x6)
    (h_v23 : W (Proc.devRef .tc main_v23) = ReadP.val_main_v23 (F := F) x4 x7)
    (h_v31 : W (Proc.devRef .tc main_v31) = ReadP.val_main_v31 (F := F) x5 x7)
    (h_v151 : W (Proc.devRef .tc main_v151) = ReadP.val_main_v151 (F := F) x0 x1 x2 x4 x6 x7 x8 x9 x10 x11 x12 x13)
    (h_v180 : W (Proc.devRef .tc main_v180) = ReadP.val_main_v180 (F := F) x0 x1 x3 x5 x6 x7 x8 x9 x10 x11 x12 x13)
    (h_v182 : W (Proc.devRef .tc main_v182) = ReadP.val_main_v182 (F := F) x0 x1 x3 x5 x6 x7 x8 x9 x10 x11 x12 x13) :
    after c07 W (Proc.devRef .tc main_arg0) = x0
      ∧ after c07 W (Proc.devRef .tc main_arg1) = x1
      ∧ after c07 W (Proc.devRef .tc main_arg2) = x2
      ∧ after c07 W (Proc.devRef .tc main_arg3) = x3
      ∧ after c07 W (Proc.devRef .tc main_arg4) = x4
      ∧ after c07 W (Proc.devRef .tc main_arg5) = x5
      ∧ after c07 W (Proc.devRef .tc main_arg6) = x6
      ∧ after c07 W (Proc.devRef .tc main_arg7) = x7
      ∧ after c07 W (Proc.devRef .tc main_arg8) = x8
      ∧ after c07 W (Proc.devRef .tc main_arg9) = x9
      ∧ after c07 W (Proc.devRef .tc main_arg10) = x10
      ∧ after c07 W (Proc.devRef .tc main_arg11) = x11
      ∧ after c07 W (Proc.devRef .tc main_arg12) = x12
      ∧ after c07 W (Proc.devRef .tc main_arg13) = x13
      ∧ after c07 W (Proc.devRef .tc main_arg14) = x14
      ∧ after c07 W (Proc.devRef .tc main_arg15) = x15
      ∧ after c07 W (Proc.devRef .tc main_v23) = ReadP.val_main_v23 (F := F) x4 x7
      ∧ after c07 W (Proc.devRef .tc main_v31) = ReadP.val_main_v31 (F := F) x5 x7
      ∧ after c07 W (Proc.devRef .tc main_v151) = ReadP.val_main_v151 (F := F) x0 x1 x2 x4 x6 x7 x8 x9 x10 x11 x12 x13
      ∧ after c07 W (Proc.devRef .tc main_v188) = ReadP.val_main_v188 (F := F) x0 x1 x3 x5 x6 x7 x8 x9 x10 x11 x12 x13
      ∧ after c07 W (Proc.devRef .tc main_v190) = ReadP.val_main_v190 (F := F) x2
      ∧ after c07 W (Proc.devRef .tc main_v192) = ReadP.val_main_v192 (F := F) x2
      ∧ after c07 W (Proc.devRef .tc main_v199) = ReadP.val_main_v199 (F := F) x0 x1 x2 x4 x6 x7 x8 x9 x10 x11 x12 x13
      ∧ after c07 W (Proc.devRef .tc main_v201) = ReadP.val_main_v201 (F := F) x2
      ∧ after c07 W (Proc.devRef .tc main_c_35) = ReadP.val_main_c_35 (F := F) := by
  refine ⟨?_, ?_, ?_, ?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v15, h_v23, h_v31, h_v151, h_v180, h_v182]

end Cert.RefRun

end
-- ==== Proof.Val.RefRunS08.lean ====
import proofs.«407386_j15839839387945_2_alg».proof.Proof.Val.RefRunW4

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

/-- Operations 245 … 249 of @main, in order. -/
abbrev c08a : List (HloOp τ sig (Elt F)) :=
  [ unary main_c_35 main_v202 (broadcastInDim S160000 ![] bcast_S_S160000 : (⟨S_, .i32⟩ : BufTy).Contents (Elt F) → (⟨S160000, .i32⟩ : BufTy).Contents (Elt F)),
    binary main_v190 main_v202 main_v203 (addi : (⟨S160000, .i32⟩ : BufTy).Contents (Elt F) → (⟨S160000, .i32⟩ : BufTy).Contents (Elt F) → (⟨S160000, .i32⟩ : BufTy).Contents (Elt F)),
    ternary main_v201 main_v203 main_v190 main_v204 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v204 main_v205 (broadcastInDim S160000x1 ![0] bcast_S160000_S160000x1_0 : (⟨S160000, .i32⟩ : BufTy).Contents (Elt F) → (⟨S160000x1, .i32⟩ : BufTy).Contents (Elt F)),
    binary main_v151 main_v205 main_v206 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)) ]

/-- Operations 250 … 283 of @main, in order. -/
abbrev c08b : List (HloOp τ sig (Elt F)) :=
  [ nary ![main_v199, main_v206, main_v23] main_v207 (fun u => concatenate S160000x384 1 [⟨S160000x128, u 0⟩, ⟨S160000x128, u 1⟩, ⟨S160000x128, u 2⟩] concatenates_S160000x128_S160000x128_S160000x128_S160000x384_d1),
    binary main_v207 main_arg8 main_v208 ((fun l r => Host.dotGeneral dot_S160000x384_S384x128_S160000x128_1_0_0_1_n_n none l r) : (⟨S160000x384, .f32⟩ : BufTy).Contents (Elt F) → (⟨S384x128, .f32⟩ : BufTy).Contents (Elt F) → (⟨S160000x128, .f32⟩ : BufTy).Contents (Elt F)),
    unary main_arg9 main_v209 (broadcastInDim S1x128 ![1] bcast_S128_S1x128_1 : (⟨S128, .f32⟩ : BufTy).Contents (Elt F) → (⟨S1x128, .f32⟩ : BufTy).Contents (Elt F)),
    unary main_v209 main_v210 (broadcastInDim S160000x128 ![0, 1] bcast_S1x128_S160000x128_0_1 : (⟨S1x128, .f32⟩ : BufTy).Contents (Elt F) → (⟨S160000x128, .f32⟩ : BufTy).Contents (Elt F)),
    binary main_v208 main_v210 main_v211 (addf : (⟨S160000x128, .f32⟩ : BufTy).Contents (Elt F) → (⟨S160000x128, .f32⟩ : BufTy).Contents (Elt F) → (⟨S160000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S160000x128, .f32⟩) main_call2_v0) (broadcastInDim S160000x128 ![] bcast_S_S160000x128),
    TRef.binary (TRef.of (T := ⟨S160000x128, .f32⟩) main_v211) (TRef.of (T := ⟨S160000x128, .f32⟩) main_call2_v0) (TRef.of (T := ⟨S160000x128, .f32⟩) main_v212) maximumf,
    nullary main_cst_36 (constant S_ .f32 0x00000000#32),
    unary main_cst_36 main_v213 (broadcastInDim S10000x128 ![] bcast_S_S10000x128 : (⟨S_, .f32⟩ : BufTy).Contents (Elt F) → (⟨S10000x128, .f32⟩ : BufTy).Contents (Elt F)),
    unary main_v192 main_v214 (broadcastInDim S160000x1 ![0] bcast_S160000_S160000x1_0 : (⟨S160000, .i32⟩ : BufTy).Contents (Elt F) → (⟨S160000x1, .i32⟩ : BufTy).Contents (Elt F)),
    ternary main_v213 main_v214 main_v212 main_v215 ((fun x i u => Host.scatterAdd scatter_S10000x128_S160000x1_S160000x128_1_0_0_1 x i u) : (⟨S10000x128, .f32⟩ : BufTy).Contents (Elt F) → (⟨S160000x1, .i32⟩ : BufTy).Contents (Elt F) → (⟨S160000x128, .f32⟩ : BufTy).Contents (Elt F) → (⟨S10000x128, .f32⟩ : BufTy).Contents (Elt F)),
    unary main_arg3 main_v216 ((extractStridedSlice S1x160000 ![0, 0] · slices_S2x160000_S1x160000_0_0) : (⟨S2x160000, .i32⟩ : BufTy).Contents (Elt F) → (⟨S1x160000, .i32⟩ : BufTy).Contents (Elt F)),
    reshape main_v216 main_v217 rfl shapeCasts_S1x160000_S160000,
    unary main_arg3 main_v218 ((extractStridedSlice S1x160000 ![1, 0] · slices_S2x160000_S1x160000_1_0) : (⟨S2x160000, .i32⟩ : BufTy).Contents (Elt F) → (⟨S1x160000, .i32⟩ : BufTy).Contents (Elt F)),
    reshape main_v218 main_v219 rfl shapeCasts_S1x160000_S160000,
    nullary main_c_37 (constantI S_ 32 0#32),
    unary main_c_37 main_v220 (broadcastInDim S160000 ![] bcast_S_S160000 : (⟨S_, .i32⟩ : BufTy).Contents (Elt F) → (⟨S160000, .i32⟩ : BufTy).Contents (Elt F)),
    binary main_v219 main_v220 main_v221 (cmpi .slt : (⟨S160000, .i32⟩ : BufTy).Contents (Elt F) → (⟨S160000, .i32⟩ : BufTy).Contents (Elt F) → (⟨S160000, .i1⟩ : BufTy).Contents (Elt F)),
    nullary main_c_38 (constantI S_ 32 10000#32),
    unary main_c_38 main_v222 (broadcastInDim S160000 ![] bcast_S_S160000 : (⟨S_, .i32⟩ : BufTy).Contents (Elt F) → (⟨S160000, .i32⟩ : BufTy).Contents (Elt F)),
    binary main_v219 main_v222 main_v223 (addi : (⟨S160000, .i32⟩ : BufTy).Contents (Elt F) → (⟨S160000, .i32⟩ : BufTy).Contents (Elt F) → (⟨S160000, .i32⟩ : BufTy).Contents (Elt F)),
    ternary main_v221 main_v223 main_v219 main_v224 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v224 main_v225 (broadcastInDim S160000x1 ![0] bcast_S160000_S160000x1_0 : (⟨S160000, .i32⟩ : BufTy).Contents (Elt F) → (⟨S160000x1, .i32⟩ : BufTy).Contents (Elt F)),
    binary main_v188 main_v225 main_v226 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nullary main_c_39 (constantI S_ 32 0#32),
    unary main_c_39 main_v227 (broadcastInDim S160000 ![] bcast_S_S160000 : (⟨S_, .i32⟩ : BufTy).Contents (Elt F) → (⟨S160000, .i32⟩ : BufTy).Contents (Elt F)),
    binary main_v217 main_v227 main_v228 (cmpi .slt : (⟨S160000, .i32⟩ : BufTy).Contents (Elt F) → (⟨S160000, .i32⟩ : BufTy).Contents (Elt F) → (⟨S160000, .i1⟩ : BufTy).Contents (Elt F)),
    nullary main_c_40 (constantI S_ 32 10000#32),
    unary main_c_40 main_v229 (broadcastInDim S160000 ![] bcast_S_S160000 : (⟨S_, .i32⟩ : BufTy).Contents (Elt F) → (⟨S160000, .i32⟩ : BufTy).Contents (Elt F)),
    binary main_v217 main_v229 main_v230 (addi : (⟨S160000, .i32⟩ : BufTy).Contents (Elt F) → (⟨S160000, .i32⟩ : BufTy).Contents (Elt F) → (⟨S160000, .i32⟩ : BufTy).Contents (Elt F)),
    ternary main_v228 main_v230 main_v217 main_v231 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v231 main_v232 (broadcastInDim S160000x1 ![0] bcast_S160000_S160000x1_0 : (⟨S160000, .i32⟩ : BufTy).Contents (Elt F) → (⟨S160000x1, .i32⟩ : BufTy).Contents (Elt F)),
    binary main_v188 main_v232 main_v233 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)) ]

/-- Operations 284 … 284 of @main, in order. -/
abbrev c08c : List (HloOp τ sig (Elt F)) :=
  [ nary ![main_v226, main_v233, main_v31] main_v234 (fun u => concatenate S160000x384 1 [⟨S160000x128, u 0⟩, ⟨S160000x128, u 1⟩, ⟨S160000x128, u 2⟩] concatenates_S160000x128_S160000x128_S160000x128_S160000x384_d1) ]

set_option maxRecDepth 4096 in
/-- The line is its pieces end to end. -/
theorem c08_split : c08 (F := F) = c08a ++ (c08b ++ (c08c)) := rfl

set_option maxHeartbeats 1000000 in
/-- Operations 245 … 249: if on entering each buffer still read holds its stage (an argument its launch contents),
    then on leaving each buffer still read holds its stage. -/
theorem spec08a (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v23 : W (Proc.devRef .tc main_v23) = ReadP.val_main_v23 (F := F) x4 x7)
    (h_v31 : W (Proc.devRef .tc main_v31) = ReadP.val_main_v31 (F := F) x5 x7)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v190 : W (Proc.devRef .tc main_v190) = ReadP.val_main_v190 (F := F) x2)
    (h_v192 : W (Proc.devRef .tc main_v192) = ReadP.val_main_v192 (F := F) x2)
    (h_v199 : W (Proc.devRef .tc main_v199) = ReadP.val_main_v199 (F := F) x0 x1 x2 x4 x6 x7 x8 x9 x10 x11 x12 x13)
    (h_v201 : W (Proc.devRef .tc main_v201) = ReadP.val_main_v201 (F := F) x2)
    (h_c_35 : W (Proc.devRef .tc main_c_35) = ReadP.val_main_c_35 (F := F)) :
    after c08a W (Proc.devRef .tc main_arg0) = x0
      ∧ after c08a W (Proc.devRef .tc main_arg1) = x1
      ∧ after c08a W (Proc.devRef .tc main_arg2) = x2
      ∧ after c08a W (Proc.devRef .tc main_arg3) = x3
      ∧ after c08a W (Proc.devRef .tc main_arg4) = x4
      ∧ after c08a W (Proc.devRef .tc main_arg5) = x5
      ∧ after c08a W (Proc.devRef .tc main_arg6) = x6
      ∧ after c08a W (Proc.devRef .tc main_arg7) = x7
      ∧ after c08a W (Proc.devRef .tc main_arg8) = x8
      ∧ after c08a W (Proc.devRef .tc main_arg9) = x9
      ∧ after c08a W (Proc.devRef .tc main_arg10) = x10
      ∧ after c08a W (Proc.devRef .tc main_arg11) = x11
      ∧ after c08a W (Proc.devRef .tc main_arg12) = x12
      ∧ after c08a W (Proc.devRef .tc main_arg13) = x13
      ∧ after c08a W (Proc.devRef .tc main_arg14) = x14
      ∧ after c08a W (Proc.devRef .tc main_arg15) = x15
      ∧ after c08a W (Proc.devRef .tc main_v23) = ReadP.val_main_v23 (F := F) x4 x7
      ∧ after c08a W (Proc.devRef .tc main_v31) = ReadP.val_main_v31 (F := F) x5 x7
      ∧ after c08a W (Proc.devRef .tc main_v151) = ReadP.val_main_v151 (F := F) x0 x1 x2 x4 x6 x7 x8 x9 x10 x11 x12 x13
      ∧ after c08a W (Proc.devRef .tc main_v188) = ReadP.val_main_v188 (F := F) x0 x1 x3 x5 x6 x7 x8 x9 x10 x11 x12 x13
      ∧ after c08a W (Proc.devRef .tc main_v192) = ReadP.val_main_v192 (F := F) x2
      ∧ after c08a W (Proc.devRef .tc main_v199) = ReadP.val_main_v199 (F := F) x0 x1 x2 x4 x6 x7 x8 x9 x10 x11 x12 x13
      ∧ after c08a W (Proc.devRef .tc main_v206) = ReadP.val_main_v206 (F := F) x0 x1 x2 x4 x6 x7 x8 x9 x10 x11 x12 x13 := by
  refine ⟨?_, ?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v23, h_v31, h_v151, h_v188, h_v190, h_v192, h_v199, h_v201, h_c_35]

set_option maxHeartbeats 1000000 in
/-- Operations 250 … 283: if on entering each buffer still read holds its stage (an argument its launch contents),
    then on leaving each buffer still read holds its stage. -/
theorem spec08b (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v23 : W (Proc.devRef .tc main_v23) = ReadP.val_main_v23 (F := F) x4 x7)
    (h_v31 : W (Proc.devRef .tc main_v31) = ReadP.val_main_v31 (F := F) x5 x7)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v192 : W (Proc.devRef .tc main_v192) = ReadP.val_main_v192 (F := F) x2)
    (h_v199 : W (Proc.devRef .tc main_v199) = ReadP.val_main_v199 (F := F) x0 x1 x2 x4 x6 x7 x8 x9 x10 x11 x12 x13)
    (h_v206 : W (Proc.devRef .tc main_v206) = ReadP.val_main_v206 (F := F) x0 x1 x2 x4 x6 x7 x8 x9 x10 x11 x12 x13) :
    after c08b W (Proc.devRef .tc main_arg0) = x0
      ∧ after c08b W (Proc.devRef .tc main_arg1) = x1
      ∧ after c08b W (Proc.devRef .tc main_arg2) = x2
      ∧ after c08b W (Proc.devRef .tc main_arg3) = x3
      ∧ after c08b W (Proc.devRef .tc main_arg4) = x4
      ∧ after c08b W (Proc.devRef .tc main_arg5) = x5
      ∧ after c08b W (Proc.devRef .tc main_arg6) = x6
      ∧ after c08b W (Proc.devRef .tc main_arg7) = x7
      ∧ after c08b W (Proc.devRef .tc main_arg8) = x8
      ∧ after c08b W (Proc.devRef .tc main_arg9) = x9
      ∧ after c08b W (Proc.devRef .tc main_arg10) = x10
      ∧ after c08b W (Proc.devRef .tc main_arg11) = x11
      ∧ after c08b W (Proc.devRef .tc main_arg12) = x12
      ∧ after c08b W (Proc.devRef .tc main_arg13) = x13
      ∧ after c08b W (Proc.devRef .tc main_arg14) = x14
      ∧ after c08b W (Proc.devRef .tc main_arg15) = x15
      ∧ after c08b W (Proc.devRef .tc main_v31) = ReadP.val_main_v31 (F := F) x5 x7
      ∧ after c08b W (Proc.devRef .tc main_v151) = ReadP.val_main_v151 (F := F) x0 x1 x2 x4 x6 x7 x8 x9 x10 x11 x12 x13
      ∧ after c08b W (Proc.devRef .tc main_v188) = ReadP.val_main_v188 (F := F) x0 x1 x3 x5 x6 x7 x8 x9 x10 x11 x12 x13
      ∧ after c08b W (Proc.devRef .tc main_v215) = ReadP.val_main_v215 (F := F) x0 x1 x2 x4 x6 x7 x8 x9 x10 x11 x12 x13
      ∧ after c08b W (Proc.devRef .tc main_v219) = ReadP.val_main_v219 (F := F) x3
      ∧ after c08b W (Proc.devRef .tc main_v226) = ReadP.val_main_v226 (F := F) x0 x1 x3 x5 x6 x7 x8 x9 x10 x11 x12 x13
      ∧ after c08b W (Proc.devRef .tc main_v233) = ReadP.val_main_v233 (F := F) x0 x1 x3 x5 x6 x7 x8 x9 x10 x11 x12 x13 := by
  refine ⟨?_, ?_, ?_, ?_, ?_, ?_, ?_, ?_, ?_, ?_, ?_, ?_, ?_, ?_, ?_, ?_, ?_, ?_, ?_, ?_, ?_, ?_, ?_⟩
  all_goals line_results
  all_goals try simp only [h_arg0, h_arg1, h_arg2, h_arg3, h_arg4, h_arg5, h_arg6, h_arg7, h_arg8, h_arg9, h_arg10, h_arg11, h_arg12, h_arg13, h_arg14, h_arg15, h_v23, h_v31, h_v151, h_v188, h_v192, h_v199, h_v206]
  all_goals try rw [h_v199]
  all_goals try rw [h_v206]
  all_goals try rw [h_v23]
  all_goals try simp only [TRef.ofBuf, TRef.toBuf, cast_eq]
  all_goals try rfl

set_option maxHeartbeats 1000000 in
/-- Operations 284 … 284: if on entering each buffer still read holds its stage (an argument its launch contents),
    then on leaving each buffer still read holds its stage. -/
theorem spec08c (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v31 : W (Proc.devRef .tc main_v31) = ReadP.val_main_v31 (F := F) x5 x7)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v215 : W (Proc.devRef .tc main_v215) = ReadP.val_main_v215 (F := F) x0 x1 x2 x4 x6 x7 x8 x9 x10 x11 x12 x13)
    (h_v219 : W (Proc.devRef .tc main_v219) = ReadP.val_main_v219 (F := F) x3)
    (h_v226 : W (Proc.devRef .tc main_v226) = ReadP.val_main_v226 (F := F) x0 x1 x3 x5 x6 x7 x8 x9 x10 x11 x12 x13)
    (h_v233 : W (Proc.devRef .tc main_v233) = ReadP.val_main_v233 (F := F) x0 x1 x3 x5 x6 x7 x8 x9 x10 x11 x12 x13) :
    after c08c W (Proc.devRef .tc main_arg0) = x0
      ∧ after c08c W (Proc.devRef .tc main_arg1) = x1
      ∧ after c08c W (Proc.devRef .tc main_arg2) = x2
      ∧ after c08c W (Proc.devRef .tc main_arg3) = x3
      ∧ after c08c W (Proc.devRef .tc main_arg4) = x4
      ∧ after c08c W (Proc.devRef .tc main_arg5) = x5
      ∧ after c08c W (Proc.devRef .tc main_arg6) = x6
      ∧ after c08c W (Proc.devRef .tc main_arg7) = x7
      ∧ after c08c W (Proc.devRef .tc main_arg8) = x8
      ∧ after c08c W (Proc.devRef .tc main_arg9) = x9
      ∧ after c08c W (Proc.devRef .tc main_arg10) = x10
      ∧ after c08c W (Proc.devRef .tc main_arg11) = x11
      ∧ after c08c W (Proc.devRef .tc main_arg12) = x12
      ∧ after c08c W (Proc.devRef .tc main_arg13) = x13
      ∧ after c08c W (Proc.devRef .tc main_arg14) = x14
      ∧ after c08c W (Proc.devRef .tc main_arg15) = x15
      ∧ after c08c W (Proc.devRef .tc main_v151) = ReadP.val_main_v151 (F := F) x0 x1 x2 x4 x6 x7 x8 x9 x10 x11 x12 x13
      ∧ after c08c W (Proc.devRef .tc main_v188) = ReadP.val_main_v188 (F := F) x0 x1 x3 x5 x6 x7 x8 x9 x10 x11 x12 x13
      ∧ after c08c W (Proc.devRef .tc main_v215) = ReadP.val_main_v215 (F := F) x0 x1 x2 x4 x6 x7 x8 x9 x10 x11 x12 x13
      ∧ after c08c W (Proc.devRef .tc main_v219) = ReadP.val_main_v219 (F := F) x3
      ∧ after c08c W (Proc.devRef .tc main_v234) = ReadP.val_main_v234 (F := F) x0 x1 x3 x5 x6 x7 x8 x9 x10 x11 x12 x13 := by
  refine ⟨?_, ?_, ?_, ?_, ?_, ?_, ?_, ?_, ?_, ?_, ?_, ?_, ?_, ?_, ?_, ?_, ?_, ?_, ?_, ?_, ?_⟩
  all_goals line_results
  all_goals try simp only [h_arg0, h_arg1, h_arg2, h_arg3, h_arg4, h_arg5, h_arg6, h_arg7, h_arg8, h_arg9, h_arg10, h_arg11, h_arg12, h_arg13, h_arg14, h_arg15, h_v31, h_v151, h_v188, h_v215, h_v219, h_v226, h_v233]
  all_goals try rw [h_v226]
  all_goals try rw [h_v233]
  all_goals try rw [h_v31]
  all_goals try simp only [TRef.ofBuf, TRef.toBuf, cast_eq]
  all_goals try rfl

/-- Operations 245 … 284: if on entering each buffer still read holds its stage (an argument its launch contents),
    then on leaving each buffer still read holds its stage. -/
theorem spec08 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v23 : W (Proc.devRef .tc main_v23) = ReadP.val_main_v23 (F := F) x4 x7)
    (h_v31 : W (Proc.devRef .tc main_v31) = ReadP.val_main_v31 (F := F) x5 x7)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v190 : W (Proc.devRef .tc main_v190) = ReadP.val_main_v190 (F := F) x2)
    (h_v192 : W (Proc.devRef .tc main_v192) = ReadP.val_main_v192 (F := F) x2)
    (h_v199 : W (Proc.devRef .tc main_v199) = ReadP.val_main_v199 (F := F) x0 x1 x2 x4 x6 x7 x8 x9 x10 x11 x12 x13)
    (h_v201 : W (Proc.devRef .tc main_v201) = ReadP.val_main_v201 (F := F) x2)
    (h_c_35 : W (Proc.devRef .tc main_c_35) = ReadP.val_main_c_35 (F := F)) :
    after c08 W (Proc.devRef .tc main_arg0) = x0
      ∧ after c08 W (Proc.devRef .tc main_arg1) = x1
      ∧ after c08 W (Proc.devRef .tc main_arg2) = x2
      ∧ after c08 W (Proc.devRef .tc main_arg3) = x3
      ∧ after c08 W (Proc.devRef .tc main_arg4) = x4
      ∧ after c08 W (Proc.devRef .tc main_arg5) = x5
      ∧ after c08 W (Proc.devRef .tc main_arg6) = x6
      ∧ after c08 W (Proc.devRef .tc main_arg7) = x7
      ∧ after c08 W (Proc.devRef .tc main_arg8) = x8
      ∧ after c08 W (Proc.devRef .tc main_arg9) = x9
      ∧ after c08 W (Proc.devRef .tc main_arg10) = x10
      ∧ after c08 W (Proc.devRef .tc main_arg11) = x11
      ∧ after c08 W (Proc.devRef .tc main_arg12) = x12
      ∧ after c08 W (Proc.devRef .tc main_arg13) = x13
      ∧ after c08 W (Proc.devRef .tc main_arg14) = x14
      ∧ after c08 W (Proc.devRef .tc main_arg15) = x15
      ∧ after c08 W (Proc.devRef .tc main_v151) = ReadP.val_main_v151 (F := F) x0 x1 x2 x4 x6 x7 x8 x9 x10 x11 x12 x13
      ∧ after c08 W (Proc.devRef .tc main_v188) = ReadP.val_main_v188 (F := F) x0 x1 x3 x5 x6 x7 x8 x9 x10 x11 x12 x13
      ∧ after c08 W (Proc.devRef .tc main_v215) = ReadP.val_main_v215 (F := F) x0 x1 x2 x4 x6 x7 x8 x9 x10 x11 x12 x13
      ∧ after c08 W (Proc.devRef .tc main_v219) = ReadP.val_main_v219 (F := F) x3
      ∧ after c08 W (Proc.devRef .tc main_v234) = ReadP.val_main_v234 (F := F) x0 x1 x3 x5 x6 x7 x8 x9 x10 x11 x12 x13 := by
  rw [c08_split, StableHlo.after_append, StableHlo.after_append]
  obtain ⟨e0_arg0, e0_arg1, e0_arg2, e0_arg3, e0_arg4, e0_arg5, e0_arg6, e0_arg7, e0_arg8, e0_arg9, e0_arg10, e0_arg11, e0_arg12, e0_arg13, e0_arg14, e0_arg15, e0_v23, e0_v31, e0_v151, e0_v188, e0_v192, e0_v199, e0_v206⟩ :=
    spec08a x0 x1 x2 x3 x4 x5 x6 x7 x8 x9 x10 x11 x12 x13 x14 x15 W h_arg0 h_arg1 h_arg2 h_arg3 h_arg4 h_arg5 h_arg6 h_arg7 h_arg8 h_arg9 h_arg10 h_arg11 h_arg12 h_arg13 h_arg14 h_arg15 h_v23 h_v31 h_v151 h_v188 h_v190 h_v192 h_v199 h_v201 h_c_35
  obtain ⟨e1_arg0, e1_arg1, e1_arg2, e1_arg3, e1_arg4, e1_arg5, e1_arg6, e1_arg7, e1_arg8, e1_arg9, e1_arg10, e1_arg11, e1_arg12, e1_arg13, e1_arg14, e1_arg15, e1_v31, e1_v151, e1_v188, e1_v215, e1_v219, e1_v226, e1_v233⟩ :=
    spec08b x0 x1 x2 x3 x4 x5 x6 x7 x8 x9 x10 x11 x12 x13 x14 x15 (after c08a W) e0_arg0 e0_arg1 e0_arg2 e0_arg3 e0_arg4 e0_arg5 e0_arg6 e0_arg7 e0_arg8 e0_arg9 e0_arg10 e0_arg11 e0_arg12 e0_arg13 e0_arg14 e0_arg15 e0_v23 e0_v31 e0_v151 e0_v188 e0_v192 e0_v199 e0_v206
  exact spec08c x0 x1 x2 x3 x4 x5 x6 x7 x8 x9 x10 x11 x12 x13 x14 x15 (after c08b (after c08a W)) e1_arg0 e1_arg1 e1_arg2 e1_arg3 e1_arg4 e1_arg5 e1_arg6 e1_arg7 e1_arg8 e1_arg9 e1_arg10 e1_arg11 e1_arg12 e1_arg13 e1_arg14 e1_arg15 e1_v31 e1_v151 e1_v188 e1_v215 e1_v219 e1_v226 e1_v233

end Cert.RefRun

end
-- ==== Proof.Val.RefRunS09.lean ====
import proofs.«407386_j15839839387945_2_alg».proof.Proof.Val.RefRunW4

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

set_option maxHeartbeats 1000000 in
/-- Operations 285 … 308: if on entering each buffer still read holds its stage (an argument its launch contents),
    then on leaving each buffer still read holds its stage. -/
theorem spec09 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v215 : W (Proc.devRef .tc main_v215) = ReadP.val_main_v215 (F := F) x0 x1 x2 x4 x6 x7 x8 x9 x10 x11 x12 x13)
    (h_v219 : W (Proc.devRef .tc main_v219) = ReadP.val_main_v219 (F := F) x3)
    (h_v234 : W (Proc.devRef .tc main_v234) = ReadP.val_main_v234 (F := F) x0 x1 x3 x5 x6 x7 x8 x9 x10 x11 x12 x13) :
    after c09 W (Proc.devRef .tc main_arg0) = x0
      ∧ after c09 W (Proc.devRef .tc main_arg1) = x1
      ∧ after c09 W (Proc.devRef .tc main_arg2) = x2
      ∧ after c09 W (Proc.devRef .tc main_arg3) = x3
      ∧ after c09 W (Proc.devRef .tc main_arg4) = x4
      ∧ after c09 W (Proc.devRef .tc main_arg5) = x5
      ∧ after c09 W (Proc.devRef .tc main_arg6) = x6
      ∧ after c09 W (Proc.devRef .tc main_arg7) = x7
      ∧ after c09 W (Proc.devRef .tc main_arg8) = x8
      ∧ after c09 W (Proc.devRef .tc main_arg9) = x9
      ∧ after c09 W (Proc.devRef .tc main_arg10) = x10
      ∧ after c09 W (Proc.devRef .tc main_arg11) = x11
      ∧ after c09 W (Proc.devRef .tc main_arg12) = x12
      ∧ after c09 W (Proc.devRef .tc main_arg13) = x13
      ∧ after c09 W (Proc.devRef .tc main_arg14) = x14
      ∧ after c09 W (Proc.devRef .tc main_arg15) = x15
      ∧ after c09 W (Proc.devRef .tc main_v151) = ReadP.val_main_v151 (F := F) x0 x1 x2 x4 x6 x7 x8 x9 x10 x11 x12 x13
      ∧ after c09 W (Proc.devRef .tc main_v188) = ReadP.val_main_v188 (F := F) x0 x1 x3 x5 x6 x7 x8 x9 x10 x11 x12 x13
      ∧ after c09 W (Proc.devRef .tc main_v215) = ReadP.val_main_v215 (F := F) x0 x1 x2 x4 x6 x7 x8 x9 x10 x11 x12 x13
      ∧ after c09 W (Proc.devRef .tc main_v242) = ReadP.val_main_v242 (F := F) x0 x1 x3 x5 x6 x7 x8 x9 x10 x11 x12 x13
      ∧ after c09 W (Proc.devRef .tc main_v244) = ReadP.val_main_v244 (F := F) x0 x1 x2 x3 x4 x5 x6 x7 x8 x9 x10 x11 x12 x13
      ∧ after c09 W (Proc.devRef .tc main_v251) = ReadP.val_main_v251 (F := F) x0 x1 x2 x3 x4 x5 x6 x7 x8 x9 x10 x11 x12 x13
      ∧ after c09 W (Proc.devRef .tc main_v252) = ReadP.val_main_v252 (F := F) x0 x1 x2 x3 x4 x5 x6 x7 x8 x9 x10 x11 x12 x13 := by
  refine ⟨?_, ?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v151, h_v188, h_v215, h_v219, h_v234]

end Cert.RefRun

end
-- ==== Proof.Val.RefRunS10.lean ====
import proofs.«407386_j15839839387945_2_alg».proof.Proof.Val.RefRunW5

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

/-- Operations 309 … 330 of @main, in order. -/
abbrev c10a : List (HloOp τ sig (Elt F)) :=
  [ unary main_v252 main_v253 (broadcastInDim S10000x1 ![0] bcast_S10000_S10000x1_0 : (⟨S10000, .f32⟩ : BufTy).Contents (Elt F) → (⟨S10000x1, .f32⟩ : BufTy).Contents (Elt F)),
    unary main_v253 main_v254 (broadcastInDim S10000x10000 ![0, 1] bcast_S10000x1_S10000x10000_0_1 : (⟨S10000x1, .f32⟩ : BufTy).Contents (Elt F) → (⟨S10000x10000, .f32⟩ : BufTy).Contents (Elt F)),
    binary main_v251 main_v254 main_v255 (Host.divf : (⟨S10000x10000, .f32⟩ : BufTy).Contents (Elt F) → (⟨S10000x10000, .f32⟩ : BufTy).Contents (Elt F) → (⟨S10000x10000, .f32⟩ : BufTy).Contents (Elt F)),
    nullary main_cst_45 (constant S_ .f32 0xFF800000#32),
    binary main_v244 main_cst_45 main_v256 ((fun x v => Host.reduce FloatOps.maximumf x v reducesTo_S10000x10000_S10000_d0 h_S_) : (⟨S10000x10000, .f32⟩ : BufTy).Contents (Elt F) → (⟨S_, .f32⟩ : BufTy).Contents (Elt F) → (⟨S10000, .f32⟩ : BufTy).Contents (Elt F)),
    nullary main_cst_46 (constant S_ .f32 0xFF800000#32),
    unary main_cst_46 main_v257 (broadcastInDim S10000 ![] bcast_S_S10000 : (⟨S_, .f32⟩ : BufTy).Contents (Elt F) → (⟨S10000, .f32⟩ : BufTy).Contents (Elt F)),
    binary main_v257 main_v256 main_v258 (maximumf : (⟨S10000, .f32⟩ : BufTy).Contents (Elt F) → (⟨S10000, .f32⟩ : BufTy).Contents (Elt F) → (⟨S10000, .f32⟩ : BufTy).Contents (Elt F)),
    unary main_v258 main_v259 (broadcastInDim S1x10000 ![1] bcast_S10000_S1x10000_1 : (⟨S10000, .f32⟩ : BufTy).Contents (Elt F) → (⟨S1x10000, .f32⟩ : BufTy).Contents (Elt F)),
    unary main_v259 main_v260 (broadcastInDim S10000x10000 ![0, 1] bcast_S1x10000_S10000x10000_0_1 : (⟨S1x10000, .f32⟩ : BufTy).Contents (Elt F) → (⟨S10000x10000, .f32⟩ : BufTy).Contents (Elt F)),
    binary main_v244 main_v260 main_v261 (subf : (⟨S10000x10000, .f32⟩ : BufTy).Contents (Elt F) → (⟨S10000x10000, .f32⟩ : BufTy).Contents (Elt F) → (⟨S10000x10000, .f32⟩ : BufTy).Contents (Elt F)),
    unary main_v261 main_v262 (Host.exp : (⟨S10000x10000, .f32⟩ : BufTy).Contents (Elt F) → (⟨S10000x10000, .f32⟩ : BufTy).Contents (Elt F)),
    nullary main_cst_47 (constant S_ .f32 0x00000000#32),
    binary main_v262 main_cst_47 main_v263 ((fun x v => Host.reduceAdd x v reducesTo_S10000x10000_S10000_d0 h_S_) : (⟨S10000x10000, .f32⟩ : BufTy).Contents (Elt F) → (⟨S_, .f32⟩ : BufTy).Contents (Elt F) → (⟨S10000, .f32⟩ : BufTy).Contents (Elt F)),
    unary main_v263 main_v264 (broadcastInDim S1x10000 ![1] bcast_S10000_S1x10000_1 : (⟨S10000, .f32⟩ : BufTy).Contents (Elt F) → (⟨S1x10000, .f32⟩ : BufTy).Contents (Elt F)),
    unary main_v264 main_v265 (broadcastInDim S10000x10000 ![0, 1] bcast_S1x10000_S10000x10000_0_1 : (⟨S1x10000, .f32⟩ : BufTy).Contents (Elt F) → (⟨S10000x10000, .f32⟩ : BufTy).Contents (Elt F)),
    binary main_v262 main_v265 main_v266 (Host.divf : (⟨S10000x10000, .f32⟩ : BufTy).Contents (Elt F) → (⟨S10000x10000, .f32⟩ : BufTy).Contents (Elt F) → (⟨S10000x10000, .f32⟩ : BufTy).Contents (Elt F)),
    unary main_v266 main_v267 ((transpose S10000x10000 [1, 0] · transposes_S10000x10000_S10000x10000_1_0) : (⟨S10000x10000, .f32⟩ : BufTy).Contents (Elt F) → (⟨S10000x10000, .f32⟩ : BufTy).Contents (Elt F)),
    binary main_v255 main_v188 main_v268 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v151 main_v268 main_v269 (subf : (⟨S10000x128, .f32⟩ : BufTy).Contents (Elt F) → (⟨S10000x128, .f32⟩ : BufTy).Contents (Elt F) → (⟨S10000x128, .f32⟩ : BufTy).Contents (Elt F)),
    binary main_v267 main_v151 main_v270 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v188 main_v270 main_v271 (subf : (⟨S10000x128, .f32⟩ : BufTy).Contents (Elt F) → (⟨S10000x128, .f32⟩ : BufTy).Contents (Elt F) → (⟨S10000x128, .f32⟩ : BufTy).Contents (Elt F)) ]

/-- Operations 331 … 335 of @main, in order. -/
abbrev c10b : List (HloOp τ sig (Elt F)) :=
  [ binary main_v215 main_v269 main_v272 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v272 main_arg10 main_v273 ((fun l r => Host.dotGeneral dot_S10000x256_S256x384_S10000x384_1_0_0_1_n_n none l r) : (⟨S10000x256, .f32⟩ : BufTy).Contents (Elt F) → (⟨S256x384, .f32⟩ : BufTy).Contents (Elt F) → (⟨S10000x384, .f32⟩ : BufTy).Contents (Elt F)),
    unary main_arg11 main_v274 (broadcastInDim S1x384 ![1] bcast_S384_S1x384_1 : (⟨S384, .f32⟩ : BufTy).Contents (Elt F) → (⟨S1x384, .f32⟩ : BufTy).Contents (Elt F)),
    unary main_v274 main_v275 (broadcastInDim S10000x384 ![0, 1] bcast_S1x384_S10000x384_0_1 : (⟨S1x384, .f32⟩ : BufTy).Contents (Elt F) → (⟨S10000x384, .f32⟩ : BufTy).Contents (Elt F)),
    binary main_v273 main_v275 main_v276 (addf : (⟨S10000x384, .f32⟩ : BufTy).Contents (Elt F) → (⟨S10000x384, .f32⟩ : BufTy).Contents (Elt F) → (⟨S10000x384, .f32⟩ : BufTy).Contents (Elt F)) ]

set_option maxRecDepth 4096 in
/-- The line is its pieces end to end. -/
theorem c10_split : c10 (F := F) = c10a ++ (c10b) := rfl

set_option maxHeartbeats 1000000 in
/-- Operations 309 … 330: if on entering each buffer still read holds its stage (an argument its launch contents),
    then on leaving each buffer still read holds its stage. -/
theorem spec10a (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v215 : W (Proc.devRef .tc main_v215) = ReadP.val_main_v215 (F := F) x0 x1 x2 x4 x6 x7 x8 x9 x10 x11 x12 x13)
    (h_v242 : W (Proc.devRef .tc main_v242) = ReadP.val_main_v242 (F := F) x0 x1 x3 x5 x6 x7 x8 x9 x10 x11 x12 x13)
    (h_v244 : W (Proc.devRef .tc main_v244) = ReadP.val_main_v244 (F := F) x0 x1 x2 x3 x4 x5 x6 x7 x8 x9 x10 x11 x12 x13)
    (h_v251 : W (Proc.devRef .tc main_v251) = ReadP.val_main_v251 (F := F) x0 x1 x2 x3 x4 x5 x6 x7 x8 x9 x10 x11 x12 x13)
    (h_v252 : W (Proc.devRef .tc main_v252) = ReadP.val_main_v252 (F := F) x0 x1 x2 x3 x4 x5 x6 x7 x8 x9 x10 x11 x12 x13) :
    after c10a W (Proc.devRef .tc main_arg0) = x0
      ∧ after c10a W (Proc.devRef .tc main_arg1) = x1
      ∧ after c10a W (Proc.devRef .tc main_arg2) = x2
      ∧ after c10a W (Proc.devRef .tc main_arg3) = x3
      ∧ after c10a W (Proc.devRef .tc main_arg4) = x4
      ∧ after c10a W (Proc.devRef .tc main_arg5) = x5
      ∧ after c10a W (Proc.devRef .tc main_arg6) = x6
      ∧ after c10a W (Proc.devRef .tc main_arg7) = x7
      ∧ after c10a W (Proc.devRef .tc main_arg8) = x8
      ∧ after c10a W (Proc.devRef .tc main_arg9) = x9
      ∧ after c10a W (Proc.devRef .tc main_arg10) = x10
      ∧ after c10a W (Proc.devRef .tc main_arg11) = x11
      ∧ after c10a W (Proc.devRef .tc main_arg12) = x12
      ∧ after c10a W (Proc.devRef .tc main_arg13) = x13
      ∧ after c10a W (Proc.devRef .tc main_arg14) = x14
      ∧ after c10a W (Proc.devRef .tc main_arg15) = x15
      ∧ after c10a W (Proc.devRef .tc main_v151) = ReadP.val_main_v151 (F := F) x0 x1 x2 x4 x6 x7 x8 x9 x10 x11 x12 x13
      ∧ after c10a W (Proc.devRef .tc main_v188) = ReadP.val_main_v188 (F := F) x0 x1 x3 x5 x6 x7 x8 x9 x10 x11 x12 x13
      ∧ after c10a W (Proc.devRef .tc main_v215) = ReadP.val_main_v215 (F := F) x0 x1 x2 x4 x6 x7 x8 x9 x10 x11 x12 x13
      ∧ after c10a W (Proc.devRef .tc main_v242) = ReadP.val_main_v242 (F := F) x0 x1 x3 x5 x6 x7 x8 x9 x10 x11 x12 x13
      ∧ after c10a W (Proc.devRef .tc main_v269) = ReadP.val_main_v269 (F := F) x0 x1 x2 x3 x4 x5 x6 x7 x8 x9 x10 x11 x12 x13
      ∧ after c10a W (Proc.devRef .tc main_v271) = ReadP.val_main_v271 (F := F) x0 x1 x2 x3 x4 x5 x6 x7 x8 x9 x10 x11 x12 x13 := by
  refine ⟨?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v151, h_v188, h_v215, h_v242, h_v244, h_v251, h_v252]

set_option maxHeartbeats 1000000 in
/-- Operations 331 … 335: if on entering each buffer still read holds its stage (an argument its launch contents),
    then on leaving each buffer still read holds its stage. -/
theorem spec10b (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v215 : W (Proc.devRef .tc main_v215) = ReadP.val_main_v215 (F := F) x0 x1 x2 x4 x6 x7 x8 x9 x10 x11 x12 x13)
    (h_v242 : W (Proc.devRef .tc main_v242) = ReadP.val_main_v242 (F := F) x0 x1 x3 x5 x6 x7 x8 x9 x10 x11 x12 x13)
    (h_v269 : W (Proc.devRef .tc main_v269) = ReadP.val_main_v269 (F := F) x0 x1 x2 x3 x4 x5 x6 x7 x8 x9 x10 x11 x12 x13)
    (h_v271 : W (Proc.devRef .tc main_v271) = ReadP.val_main_v271 (F := F) x0 x1 x2 x3 x4 x5 x6 x7 x8 x9 x10 x11 x12 x13) :
    after c10b W (Proc.devRef .tc main_arg0) = x0
      ∧ after c10b W (Proc.devRef .tc main_arg1) = x1
      ∧ after c10b W (Proc.devRef .tc main_arg2) = x2
      ∧ after c10b W (Proc.devRef .tc main_arg3) = x3
      ∧ after c10b W (Proc.devRef .tc main_arg4) = x4
      ∧ after c10b W (Proc.devRef .tc main_arg5) = x5
      ∧ after c10b W (Proc.devRef .tc main_arg6) = x6
      ∧ after c10b W (Proc.devRef .tc main_arg7) = x7
      ∧ after c10b W (Proc.devRef .tc main_arg8) = x8
      ∧ after c10b W (Proc.devRef .tc main_arg9) = x9
      ∧ after c10b W (Proc.devRef .tc main_arg10) = x10
      ∧ after c10b W (Proc.devRef .tc main_arg11) = x11
      ∧ after c10b W (Proc.devRef .tc main_arg12) = x12
      ∧ after c10b W (Proc.devRef .tc main_arg13) = x13
      ∧ after c10b W (Proc.devRef .tc main_arg14) = x14
      ∧ after c10b W (Proc.devRef .tc main_arg15) = x15
      ∧ after c10b W (Proc.devRef .tc main_v151) = ReadP.val_main_v151 (F := F) x0 x1 x2 x4 x6 x7 x8 x9 x10 x11 x12 x13
      ∧ after c10b W (Proc.devRef .tc main_v188) = ReadP.val_main_v188 (F := F) x0 x1 x3 x5 x6 x7 x8 x9 x10 x11 x12 x13
      ∧ after c10b W (Proc.devRef .tc main_v242) = ReadP.val_main_v242 (F := F) x0 x1 x3 x5 x6 x7 x8 x9 x10 x11 x12 x13
      ∧ after c10b W (Proc.devRef .tc main_v271) = ReadP.val_main_v271 (F := F) x0 x1 x2 x3 x4 x5 x6 x7 x8 x9 x10 x11 x12 x13
      ∧ after c10b W (Proc.devRef .tc main_v276) = ReadP.val_main_v276 (F := F) x0 x1 x2 x3 x4 x5 x6 x7 x8 x9 x10 x11 x12 x13 := by
  refine ⟨?_, ?_, ?_, ?_, ?_, ?_, ?_, ?_, ?_, ?_, ?_, ?_, ?_, ?_, ?_, ?_, ?_, ?_, ?_, ?_, ?_⟩
  all_goals line_results
  all_goals try simp only [h_arg0, h_arg1, h_arg2, h_arg3, h_arg4, h_arg5, h_arg6, h_arg7, h_arg8, h_arg9, h_arg10, h_arg11, h_arg12, h_arg13, h_arg14, h_arg15, h_v151, h_v188, h_v215, h_v242, h_v269, h_v271]
  all_goals try rw [h_v215]
  all_goals try rw [h_v269]
  all_goals try simp only [TRef.ofBuf, TRef.toBuf, cast_eq]
  all_goals try rfl

/-- Operations 309 … 335: if on entering each buffer still read holds its stage (an argument its launch contents),
    then on leaving each buffer still read holds its stage. -/
theorem spec10 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v215 : W (Proc.devRef .tc main_v215) = ReadP.val_main_v215 (F := F) x0 x1 x2 x4 x6 x7 x8 x9 x10 x11 x12 x13)
    (h_v242 : W (Proc.devRef .tc main_v242) = ReadP.val_main_v242 (F := F) x0 x1 x3 x5 x6 x7 x8 x9 x10 x11 x12 x13)
    (h_v244 : W (Proc.devRef .tc main_v244) = ReadP.val_main_v244 (F := F) x0 x1 x2 x3 x4 x5 x6 x7 x8 x9 x10 x11 x12 x13)
    (h_v251 : W (Proc.devRef .tc main_v251) = ReadP.val_main_v251 (F := F) x0 x1 x2 x3 x4 x5 x6 x7 x8 x9 x10 x11 x12 x13)
    (h_v252 : W (Proc.devRef .tc main_v252) = ReadP.val_main_v252 (F := F) x0 x1 x2 x3 x4 x5 x6 x7 x8 x9 x10 x11 x12 x13) :
    after c10 W (Proc.devRef .tc main_arg0) = x0
      ∧ after c10 W (Proc.devRef .tc main_arg1) = x1
      ∧ after c10 W (Proc.devRef .tc main_arg2) = x2
      ∧ after c10 W (Proc.devRef .tc main_arg3) = x3
      ∧ after c10 W (Proc.devRef .tc main_arg4) = x4
      ∧ after c10 W (Proc.devRef .tc main_arg5) = x5
      ∧ after c10 W (Proc.devRef .tc main_arg6) = x6
      ∧ after c10 W (Proc.devRef .tc main_arg7) = x7
      ∧ after c10 W (Proc.devRef .tc main_arg8) = x8
      ∧ after c10 W (Proc.devRef .tc main_arg9) = x9
      ∧ after c10 W (Proc.devRef .tc main_arg10) = x10
      ∧ after c10 W (Proc.devRef .tc main_arg11) = x11
      ∧ after c10 W (Proc.devRef .tc main_arg12) = x12
      ∧ after c10 W (Proc.devRef .tc main_arg13) = x13
      ∧ after c10 W (Proc.devRef .tc main_arg14) = x14
      ∧ after c10 W (Proc.devRef .tc main_arg15) = x15
      ∧ after c10 W (Proc.devRef .tc main_v151) = ReadP.val_main_v151 (F := F) x0 x1 x2 x4 x6 x7 x8 x9 x10 x11 x12 x13
      ∧ after c10 W (Proc.devRef .tc main_v188) = ReadP.val_main_v188 (F := F) x0 x1 x3 x5 x6 x7 x8 x9 x10 x11 x12 x13
      ∧ after c10 W (Proc.devRef .tc main_v242) = ReadP.val_main_v242 (F := F) x0 x1 x3 x5 x6 x7 x8 x9 x10 x11 x12 x13
      ∧ after c10 W (Proc.devRef .tc main_v271) = ReadP.val_main_v271 (F := F) x0 x1 x2 x3 x4 x5 x6 x7 x8 x9 x10 x11 x12 x13
      ∧ after c10 W (Proc.devRef .tc main_v276) = ReadP.val_main_v276 (F := F) x0 x1 x2 x3 x4 x5 x6 x7 x8 x9 x10 x11 x12 x13 := by
  rw [c10_split, StableHlo.after_append]
  obtain ⟨e0_arg0, e0_arg1, e0_arg2, e0_arg3, e0_arg4, e0_arg5, e0_arg6, e0_arg7, e0_arg8, e0_arg9, e0_arg10, e0_arg11, e0_arg12, e0_arg13, e0_arg14, e0_arg15, e0_v151, e0_v188, e0_v215, e0_v242, e0_v269, e0_v271⟩ :=
    spec10a x0 x1 x2 x3 x4 x5 x6 x7 x8 x9 x10 x11 x12 x13 x14 x15 W h_arg0 h_arg1 h_arg2 h_arg3 h_arg4 h_arg5 h_arg6 h_arg7 h_arg8 h_arg9 h_arg10 h_arg11 h_arg12 h_arg13 h_arg14 h_arg15 h_v151 h_v188 h_v215 h_v242 h_v244 h_v251 h_v252
  exact spec10b x0 x1 x2 x3 x4 x5 x6 x7 x8 x9 x10 x11 x12 x13 x14 x15 (after c10a W) e0_arg0 e0_arg1 e0_arg2 e0_arg3 e0_arg4 e0_arg5 e0_arg6 e0_arg7 e0_arg8 e0_arg9 e0_arg10 e0_arg11 e0_arg12 e0_arg13 e0_arg14 e0_arg15 e0_v151 e0_v188 e0_v215 e0_v242 e0_v269 e0_v271

end Cert.RefRun

end
-- ==== Proof.Val.RefRunS11.lean ====
import proofs.«407386_j15839839387945_2_alg».proof.Proof.Val.RefRunW5

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

set_option maxHeartbeats 1000000 in
/-- Operations 336 … 368: if on entering each buffer still read holds its stage (an argument its launch contents),
    then on leaving each buffer still read holds its stage. -/
theorem spec11 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v242 : W (Proc.devRef .tc main_v242) = ReadP.val_main_v242 (F := F) x0 x1 x3 x5 x6 x7 x8 x9 x10 x11 x12 x13)
    (h_v271 : W (Proc.devRef .tc main_v271) = ReadP.val_main_v271 (F := F) x0 x1 x2 x3 x4 x5 x6 x7 x8 x9 x10 x11 x12 x13)
    (h_v276 : W (Proc.devRef .tc main_v276) = ReadP.val_main_v276 (F := F) x0 x1 x2 x3 x4 x5 x6 x7 x8 x9 x10 x11 x12 x13) :
    after c11 W (Proc.devRef .tc main_arg0) = x0
      ∧ after c11 W (Proc.devRef .tc main_arg1) = x1
      ∧ after c11 W (Proc.devRef .tc main_arg2) = x2
      ∧ after c11 W (Proc.devRef .tc main_arg3) = x3
      ∧ after c11 W (Proc.devRef .tc main_arg4) = x4
      ∧ after c11 W (Proc.devRef .tc main_arg5) = x5
      ∧ after c11 W (Proc.devRef .tc main_arg6) = x6
      ∧ after c11 W (Proc.devRef .tc main_arg7) = x7
      ∧ after c11 W (Proc.devRef .tc main_arg8) = x8
      ∧ after c11 W (Proc.devRef .tc main_arg9) = x9
      ∧ after c11 W (Proc.devRef .tc main_arg10) = x10
      ∧ after c11 W (Proc.devRef .tc main_arg11) = x11
      ∧ after c11 W (Proc.devRef .tc main_arg12) = x12
      ∧ after c11 W (Proc.devRef .tc main_arg13) = x13
      ∧ after c11 W (Proc.devRef .tc main_arg14) = x14
      ∧ after c11 W (Proc.devRef .tc main_arg15) = x15
      ∧ after c11 W (Proc.devRef .tc main_v151) = ReadP.val_main_v151 (F := F) x0 x1 x2 x4 x6 x7 x8 x9 x10 x11 x12 x13
      ∧ after c11 W (Proc.devRef .tc main_v188) = ReadP.val_main_v188 (F := F) x0 x1 x3 x5 x6 x7 x8 x9 x10 x11 x12 x13
      ∧ after c11 W (Proc.devRef .tc main_v242) = ReadP.val_main_v242 (F := F) x0 x1 x3 x5 x6 x7 x8 x9 x10 x11 x12 x13
      ∧ after c11 W (Proc.devRef .tc main_v271) = ReadP.val_main_v271 (F := F) x0 x1 x2 x3 x4 x5 x6 x7 x8 x9 x10 x11 x12 x13
      ∧ after c11 W (Proc.devRef .tc main_v300) = ReadP.val_main_v300 (F := F) x0 x1 x2 x3 x4 x5 x6 x7 x8 x9 x10 x11 x12 x13
      ∧ after c11 W (Proc.devRef .tc main_v303) = ReadP.val_main_v303 (F := F) x0 x1 x2 x3 x4 x5 x6 x7 x8 x9 x10 x11 x12 x13
      ∧ after c11 W (Proc.devRef .tc main_v304) = ReadP.val_main_v304 (F := F) := by
  refine ⟨?_, ?_, ?_, ?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v151, h_v188, h_v242, h_v271, h_v276]

end Cert.RefRun

end
-- ==== Proof.Val.RefRunS12.lean ====
import proofs.«407386_j15839839387945_2_alg».proof.Proof.Val.RefRunW6

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

/-- Operations 369 … 372 of @main, in order. -/
abbrev c12a : List (HloOp τ sig (Elt F)) :=
  [ binary main_v304 main_v300 main_v305 (subf : (⟨S10000x128, .f32⟩ : BufTy).Contents (Elt F) → (⟨S10000x128, .f32⟩ : BufTy).Contents (Elt F) → (⟨S10000x128, .f32⟩ : BufTy).Contents (Elt F)),
    binary main_v305 main_v303 main_v306 (mulf : (⟨S10000x128, .f32⟩ : BufTy).Contents (Elt F) → (⟨S10000x128, .f32⟩ : BufTy).Contents (Elt F) → (⟨S10000x128, .f32⟩ : BufTy).Contents (Elt F)),
    binary main_v300 main_v151 main_v307 (mulf : (⟨S10000x128, .f32⟩ : BufTy).Contents (Elt F) → (⟨S10000x128, .f32⟩ : BufTy).Contents (Elt F) → (⟨S10000x128, .f32⟩ : BufTy).Contents (Elt F)),
    binary main_v306 main_v307 main_v308 (addf : (⟨S10000x128, .f32⟩ : BufTy).Contents (Elt F) → (⟨S10000x128, .f32⟩ : BufTy).Contents (Elt F) → (⟨S10000x128, .f32⟩ : BufTy).Contents (Elt F)) ]

/-- Operations 373 … 406 of @main, in order. -/
abbrev c12b : List (HloOp τ sig (Elt F)) :=
  [ binary main_v242 main_v271 main_v309 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    binary main_v309 main_arg10 main_v310 ((fun l r => Host.dotGeneral dot_S10000x256_S256x384_S10000x384_1_0_0_1_n_n none l r) : (⟨S10000x256, .f32⟩ : BufTy).Contents (Elt F) → (⟨S256x384, .f32⟩ : BufTy).Contents (Elt F) → (⟨S10000x384, .f32⟩ : BufTy).Contents (Elt F)),
    unary main_arg11 main_v311 (broadcastInDim S1x384 ![1] bcast_S384_S1x384_1 : (⟨S384, .f32⟩ : BufTy).Contents (Elt F) → (⟨S1x384, .f32⟩ : BufTy).Contents (Elt F)),
    unary main_v311 main_v312 (broadcastInDim S10000x384 ![0, 1] bcast_S1x384_S10000x384_0_1 : (⟨S1x384, .f32⟩ : BufTy).Contents (Elt F) → (⟨S10000x384, .f32⟩ : BufTy).Contents (Elt F)),
    binary main_v310 main_v312 main_v313 (addf : (⟨S10000x384, .f32⟩ : BufTy).Contents (Elt F) → (⟨S10000x384, .f32⟩ : BufTy).Contents (Elt F) → (⟨S10000x384, .f32⟩ : BufTy).Contents (Elt F)),
    binary main_v188 main_arg12 main_v314 ((fun l r => Host.dotGeneral dot_S10000x128_S128x384_S10000x384_1_0_0_1_n_n none l r) : (⟨S10000x128, .f32⟩ : BufTy).Contents (Elt F) → (⟨S128x384, .f32⟩ : BufTy).Contents (Elt F) → (⟨S10000x384, .f32⟩ : BufTy).Contents (Elt F)),
    unary main_arg13 main_v315 (broadcastInDim S1x384 ![1] bcast_S384_S1x384_1 : (⟨S384, .f32⟩ : BufTy).Contents (Elt F) → (⟨S1x384, .f32⟩ : BufTy).Contents (Elt F)),
    unary main_v315 main_v316 (broadcastInDim S10000x384 ![0, 1] bcast_S1x384_S10000x384_0_1 : (⟨S1x384, .f32⟩ : BufTy).Contents (Elt F) → (⟨S10000x384, .f32⟩ : BufTy).Contents (Elt F)),
    binary main_v314 main_v316 main_v317 (addf : (⟨S10000x384, .f32⟩ : BufTy).Contents (Elt F) → (⟨S10000x384, .f32⟩ : BufTy).Contents (Elt F) → (⟨S10000x384, .f32⟩ : BufTy).Contents (Elt F)),
    unary main_v313 main_v318 ((extractStridedSlice S10000x128 ![0, 0] · slices_S10000x384_S10000x128_0_0) : (⟨S10000x384, .f32⟩ : BufTy).Contents (Elt F) → (⟨S10000x128, .f32⟩ : BufTy).Contents (Elt F)),
    unary main_v313 main_v319 ((extractStridedSlice S10000x128 ![0, 128] · slices_S10000x384_S10000x128_0_128) : (⟨S10000x384, .f32⟩ : BufTy).Contents (Elt F) → (⟨S10000x128, .f32⟩ : BufTy).Contents (Elt F)),
    unary main_v313 main_v320 ((extractStridedSlice S10000x128 ![0, 256] · slices_S10000x384_S10000x128_0_256) : (⟨S10000x384, .f32⟩ : BufTy).Contents (Elt F) → (⟨S10000x128, .f32⟩ : BufTy).Contents (Elt F)),
    unary main_v317 main_v321 ((extractStridedSlice S10000x128 ![0, 0] · slices_S10000x384_S10000x128_0_0) : (⟨S10000x384, .f32⟩ : BufTy).Contents (Elt F) → (⟨S10000x128, .f32⟩ : BufTy).Contents (Elt F)),
    unary main_v317 main_v322 ((extractStridedSlice S10000x128 ![0, 128] · slices_S10000x384_S10000x128_0_128) : (⟨S10000x384, .f32⟩ : BufTy).Contents (Elt F) → (⟨S10000x128, .f32⟩ : BufTy).Contents (Elt F)),
    unary main_v317 main_v323 ((extractStridedSlice S10000x128 ![0, 256] · slices_S10000x384_S10000x128_0_256) : (⟨S10000x384, .f32⟩ : BufTy).Contents (Elt F) → (⟨S10000x128, .f32⟩ : BufTy).Contents (Elt F)),
    binary main_v318 main_v321 main_v324 (addf : (⟨S10000x128, .f32⟩ : BufTy).Contents (Elt F) → (⟨S10000x128, .f32⟩ : BufTy).Contents (Elt F) → (⟨S10000x128, .f32⟩ : BufTy).Contents (Elt F)),
    unary main_v324 main_v325 (Host.negf : (⟨S10000x128, .f32⟩ : BufTy).Contents (Elt F) → (⟨S10000x128, .f32⟩ : BufTy).Contents (Elt F)),
    unary main_v325 main_v326 (Host.exp : (⟨S10000x128, .f32⟩ : BufTy).Contents (Elt F) → (⟨S10000x128, .f32⟩ : BufTy).Contents (Elt F)),
    nullary main_cst_53 (constant S_ .f32 0x3F800000#32),
    unary main_cst_53 main_v327 (broadcastInDim S10000x128 ![] bcast_S_S10000x128 : (⟨S_, .f32⟩ : BufTy).Contents (Elt F) → (⟨S10000x128, .f32⟩ : BufTy).Contents (Elt F)),
    binary main_v327 main_v326 main_v328 (addf : (⟨S10000x128, .f32⟩ : BufTy).Contents (Elt F) → (⟨S10000x128, .f32⟩ : BufTy).Contents (Elt F) → (⟨S10000x128, .f32⟩ : BufTy).Contents (Elt F)),
    nullary main_cst_54 (constant S_ .f32 0x3F800000#32),
    unary main_cst_54 main_v329 (broadcastInDim S10000x128 ![] bcast_S_S10000x128 : (⟨S_, .f32⟩ : BufTy).Contents (Elt F) → (⟨S10000x128, .f32⟩ : BufTy).Contents (Elt F)),
    binary main_v329 main_v328 main_v330 (Host.divf : (⟨S10000x128, .f32⟩ : BufTy).Contents (Elt F) → (⟨S10000x128, .f32⟩ : BufTy).Contents (Elt F) → (⟨S10000x128, .f32⟩ : BufTy).Contents (Elt F)),
    binary main_v319 main_v322 main_v331 (addf : (⟨S10000x128, .f32⟩ : BufTy).Contents (Elt F) → (⟨S10000x128, .f32⟩ : BufTy).Contents (Elt F) → (⟨S10000x128, .f32⟩ : BufTy).Contents (Elt F)),
    unary main_v331 main_v332 (Host.negf : (⟨S10000x128, .f32⟩ : BufTy).Contents (Elt F) → (⟨S10000x128, .f32⟩ : BufTy).Contents (Elt F)),
    unary main_v332 main_v333 (Host.exp : (⟨S10000x128, .f32⟩ : BufTy).Contents (Elt F) → (⟨S10000x128, .f32⟩ : BufTy).Contents (Elt F)),
    nullary main_cst_55 (constant S_ .f32 0x3F800000#32),
    unary main_cst_55 main_v334 (broadcastInDim S10000x128 ![] bcast_S_S10000x128 : (⟨S_, .f32⟩ : BufTy).Contents (Elt F) → (⟨S10000x128, .f32⟩ : BufTy).Contents (Elt F)),
    binary main_v334 main_v333 main_v335 (addf : (⟨S10000x128, .f32⟩ : BufTy).Contents (Elt F) → (⟨S10000x128, .f32⟩ : BufTy).Contents (Elt F) → (⟨S10000x128, .f32⟩ : BufTy).Contents (Elt F)),
    nullary main_cst_56 (constant S_ .f32 0x3F800000#32),
    unary main_cst_56 main_v336 (broadcastInDim S10000x128 ![] bcast_S_S10000x128 : (⟨S_, .f32⟩ : BufTy).Contents (Elt F) → (⟨S10000x128, .f32⟩ : BufTy).Contents (Elt F)),
    binary main_v336 main_v335 main_v337 (Host.divf : (⟨S10000x128, .f32⟩ : BufTy).Contents (Elt F) → (⟨S10000x128, .f32⟩ : BufTy).Contents (Elt F) → (⟨S10000x128, .f32⟩ : BufTy).Contents (Elt F)),
    binary main_v330 main_v323 main_v338 (mulf : (⟨S10000x128, .f32⟩ : BufTy).Contents (Elt F) → (⟨S10000x128, .f32⟩ : BufTy).Contents (Elt F) → (⟨S10000x128, .f32⟩ : BufTy).Contents (Elt F)) ]

set_option maxRecDepth 4096 in
/-- The line is its pieces end to end. -/
theorem c12_split : c12 (F := F) = c12a ++ (c12b) := rfl

set_option maxHeartbeats 1000000 in
/-- Operations 369 … 372: if on entering each buffer still read holds its stage (an argument its launch contents),
    then on leaving each buffer still read holds its stage. -/
theorem spec12a (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v242 : W (Proc.devRef .tc main_v242) = ReadP.val_main_v242 (F := F) x0 x1 x3 x5 x6 x7 x8 x9 x10 x11 x12 x13)
    (h_v271 : W (Proc.devRef .tc main_v271) = ReadP.val_main_v271 (F := F) x0 x1 x2 x3 x4 x5 x6 x7 x8 x9 x10 x11 x12 x13)
    (h_v300 : W (Proc.devRef .tc main_v300) = ReadP.val_main_v300 (F := F) x0 x1 x2 x3 x4 x5 x6 x7 x8 x9 x10 x11 x12 x13)
    (h_v303 : W (Proc.devRef .tc main_v303) = ReadP.val_main_v303 (F := F) x0 x1 x2 x3 x4 x5 x6 x7 x8 x9 x10 x11 x12 x13)
    (h_v304 : W (Proc.devRef .tc main_v304) = ReadP.val_main_v304 (F := F)) :
    after c12a W (Proc.devRef .tc main_arg0) = x0
      ∧ after c12a W (Proc.devRef .tc main_arg1) = x1
      ∧ after c12a W (Proc.devRef .tc main_arg2) = x2
      ∧ after c12a W (Proc.devRef .tc main_arg3) = x3
      ∧ after c12a W (Proc.devRef .tc main_arg4) = x4
      ∧ after c12a W (Proc.devRef .tc main_arg5) = x5
      ∧ after c12a W (Proc.devRef .tc main_arg6) = x6
      ∧ after c12a W (Proc.devRef .tc main_arg7) = x7
      ∧ after c12a W (Proc.devRef .tc main_arg8) = x8
      ∧ after c12a W (Proc.devRef .tc main_arg9) = x9
      ∧ after c12a W (Proc.devRef .tc main_arg10) = x10
      ∧ after c12a W (Proc.devRef .tc main_arg11) = x11
      ∧ after c12a W (Proc.devRef .tc main_arg12) = x12
      ∧ after c12a W (Proc.devRef .tc main_arg13) = x13
      ∧ after c12a W (Proc.devRef .tc main_arg14) = x14
      ∧ after c12a W (Proc.devRef .tc main_arg15) = x15
      ∧ after c12a W (Proc.devRef .tc main_v188) = ReadP.val_main_v188 (F := F) x0 x1 x3 x5 x6 x7 x8 x9 x10 x11 x12 x13
      ∧ after c12a W (Proc.devRef .tc main_v242) = ReadP.val_main_v242 (F := F) x0 x1 x3 x5 x6 x7 x8 x9 x10 x11 x12 x13
      ∧ after c12a W (Proc.devRef .tc main_v271) = ReadP.val_main_v271 (F := F) x0 x1 x2 x3 x4 x5 x6 x7 x8 x9 x10 x11 x12 x13
      ∧ after c12a W (Proc.devRef .tc main_v308) = ReadP.val_main_v308 (F := F) x0 x1 x2 x3 x4 x5 x6 x7 x8 x9 x10 x11 x12 x13 := by
  refine ⟨?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v151, h_v188, h_v242, h_v271, h_v300, h_v303, h_v304]

set_option maxHeartbeats 1000000 in
/-- Operations 373 … 406: if on entering each buffer still read holds its stage (an argument its launch contents),
    then on leaving each buffer still read holds its stage. -/
theorem spec12b (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v188 : W (Proc.devRef .tc main_v188) = ReadP.val_main_v188 (F := F) x0 x1 x3 x5 x6 x7 x8 x9 x10 x11 x12 x13)
    (h_v242 : W (Proc.devRef .tc main_v242) = ReadP.val_main_v242 (F := F) x0 x1 x3 x5 x6 x7 x8 x9 x10 x11 x12 x13)
    (h_v271 : W (Proc.devRef .tc main_v271) = ReadP.val_main_v271 (F := F) x0 x1 x2 x3 x4 x5 x6 x7 x8 x9 x10 x11 x12 x13)
    (h_v308 : W (Proc.devRef .tc main_v308) = ReadP.val_main_v308 (F := F) x0 x1 x2 x3 x4 x5 x6 x7 x8 x9 x10 x11 x12 x13) :
    after c12b W (Proc.devRef .tc main_arg0) = x0
      ∧ after c12b W (Proc.devRef .tc main_arg1) = x1
      ∧ after c12b W (Proc.devRef .tc main_arg2) = x2
      ∧ after c12b W (Proc.devRef .tc main_arg3) = x3
      ∧ after c12b W (Proc.devRef .tc main_arg4) = x4
      ∧ after c12b W (Proc.devRef .tc main_arg5) = x5
      ∧ after c12b W (Proc.devRef .tc main_arg6) = x6
      ∧ after c12b W (Proc.devRef .tc main_arg7) = x7
      ∧ after c12b W (Proc.devRef .tc main_arg8) = x8
      ∧ after c12b W (Proc.devRef .tc main_arg9) = x9
      ∧ after c12b W (Proc.devRef .tc main_arg10) = x10
      ∧ after c12b W (Proc.devRef .tc main_arg11) = x11
      ∧ after c12b W (Proc.devRef .tc main_arg12) = x12
      ∧ after c12b W (Proc.devRef .tc main_arg13) = x13
      ∧ after c12b W (Proc.devRef .tc main_arg14) = x14
      ∧ after c12b W (Proc.devRef .tc main_arg15) = x15
      ∧ after c12b W (Proc.devRef .tc main_v188) = ReadP.val_main_v188 (F := F) x0 x1 x3 x5 x6 x7 x8 x9 x10 x11 x12 x13
      ∧ after c12b W (Proc.devRef .tc main_v308) = ReadP.val_main_v308 (F := F) x0 x1 x2 x3 x4 x5 x6 x7 x8 x9 x10 x11 x12 x13
      ∧ after c12b W (Proc.devRef .tc main_v320) = ReadP.val_main_v320 (F := F) x0 x1 x2 x3 x4 x5 x6 x7 x8 x9 x10 x11 x12 x13
      ∧ after c12b W (Proc.devRef .tc main_v337) = ReadP.val_main_v337 (F := F) x0 x1 x2 x3 x4 x5 x6 x7 x8 x9 x10 x11 x12 x13
      ∧ after c12b W (Proc.devRef .tc main_v338) = ReadP.val_main_v338 (F := F) x0 x1 x2 x3 x4 x5 x6 x7 x8 x9 x10 x11 x12 x13 := by
  refine ⟨?_, ?_, ?_, ?_, ?_, ?_, ?_, ?_, ?_, ?_, ?_, ?_, ?_, ?_, ?_, ?_, ?_, ?_, ?_, ?_, ?_⟩
  all_goals line_results
  all_goals try simp only [h_arg0, h_arg1, h_arg2, h_arg3, h_arg4, h_arg5, h_arg6, h_arg7, h_arg8, h_arg9, h_arg10, h_arg11, h_arg12, h_arg13, h_arg14, h_arg15, h_v188, h_v242, h_v271, h_v308]
  all_goals try rw [h_v242]
  all_goals try rw [h_v271]
  all_goals try simp only [TRef.ofBuf, TRef.toBuf, cast_eq]
  all_goals try rfl

/-- Operations 369 … 406: if on entering each buffer still read holds its stage (an argument its launch contents),
    then on leaving each buffer still read holds its stage. -/
theorem spec12 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v151 : W (Proc.devRef .tc main_v151) = ReadP.val_main_v151 (F := F) x0 x1 x2 x4 x6 x7 x8 x9 x10 x11 x12 x13)
    (h_v188 : W (Proc.devRef .tc main_v188) = ReadP.val_main_v188 (F := F) x0 x1 x3 x5 x6 x7 x8 x9 x10 x11 x12 x13)
    (h_v242 : W (Proc.devRef .tc main_v242) = ReadP.val_main_v242 (F := F) x0 x1 x3 x5 x6 x7 x8 x9 x10 x11 x12 x13)
    (h_v271 : W (Proc.devRef .tc main_v271) = ReadP.val_main_v271 (F := F) x0 x1 x2 x3 x4 x5 x6 x7 x8 x9 x10 x11 x12 x13)
    (h_v300 : W (Proc.devRef .tc main_v300) = ReadP.val_main_v300 (F := F) x0 x1 x2 x3 x4 x5 x6 x7 x8 x9 x10 x11 x12 x13)
    (h_v303 : W (Proc.devRef .tc main_v303) = ReadP.val_main_v303 (F := F) x0 x1 x2 x3 x4 x5 x6 x7 x8 x9 x10 x11 x12 x13)
    (h_v304 : W (Proc.devRef .tc main_v304) = ReadP.val_main_v304 (F := F)) :
    after c12 W (Proc.devRef .tc main_arg0) = x0
      ∧ after c12 W (Proc.devRef .tc main_arg1) = x1
      ∧ after c12 W (Proc.devRef .tc main_arg2) = x2
      ∧ after c12 W (Proc.devRef .tc main_arg3) = x3
      ∧ after c12 W (Proc.devRef .tc main_arg4) = x4
      ∧ after c12 W (Proc.devRef .tc main_arg5) = x5
      ∧ after c12 W (Proc.devRef .tc main_arg6) = x6
      ∧ after c12 W (Proc.devRef .tc main_arg7) = x7
      ∧ after c12 W (Proc.devRef .tc main_arg8) = x8
      ∧ after c12 W (Proc.devRef .tc main_arg9) = x9
      ∧ after c12 W (Proc.devRef .tc main_arg10) = x10
      ∧ after c12 W (Proc.devRef .tc main_arg11) = x11
      ∧ after c12 W (Proc.devRef .tc main_arg12) = x12
      ∧ after c12 W (Proc.devRef .tc main_arg13) = x13
      ∧ after c12 W (Proc.devRef .tc main_arg14) = x14
      ∧ after c12 W (Proc.devRef .tc main_arg15) = x15
      ∧ after c12 W (Proc.devRef .tc main_v188) = ReadP.val_main_v188 (F := F) x0 x1 x3 x5 x6 x7 x8 x9 x10 x11 x12 x13
      ∧ after c12 W (Proc.devRef .tc main_v308) = ReadP.val_main_v308 (F := F) x0 x1 x2 x3 x4 x5 x6 x7 x8 x9 x10 x11 x12 x13
      ∧ after c12 W (Proc.devRef .tc main_v320) = ReadP.val_main_v320 (F := F) x0 x1 x2 x3 x4 x5 x6 x7 x8 x9 x10 x11 x12 x13
      ∧ after c12 W (Proc.devRef .tc main_v337) = ReadP.val_main_v337 (F := F) x0 x1 x2 x3 x4 x5 x6 x7 x8 x9 x10 x11 x12 x13
      ∧ after c12 W (Proc.devRef .tc main_v338) = ReadP.val_main_v338 (F := F) x0 x1 x2 x3 x4 x5 x6 x7 x8 x9 x10 x11 x12 x13 := by
  rw [c12_split, StableHlo.after_append]
  obtain ⟨e0_arg0, e0_arg1, e0_arg2, e0_arg3, e0_arg4, e0_arg5, e0_arg6, e0_arg7, e0_arg8, e0_arg9, e0_arg10, e0_arg11, e0_arg12, e0_arg13, e0_arg14, e0_arg15, e0_v188, e0_v242, e0_v271, e0_v308⟩ :=
    spec12a x0 x1 x2 x3 x4 x5 x6 x7 x8 x9 x10 x11 x12 x13 x14 x15 W h_arg0 h_arg1 h_arg2 h_arg3 h_arg4 h_arg5 h_arg6 h_arg7 h_arg8 h_arg9 h_arg10 h_arg11 h_arg12 h_arg13 h_arg14 h_arg15 h_v151 h_v188 h_v242 h_v271 h_v300 h_v303 h_v304
  exact spec12b x0 x1 x2 x3 x4 x5 x6 x7 x8 x9 x10 x11 x12 x13 x14 x15 (after c12a W) e0_arg0 e0_arg1 e0_arg2 e0_arg3 e0_arg4 e0_arg5 e0_arg6 e0_arg7 e0_arg8 e0_arg9 e0_arg10 e0_arg11 e0_arg12 e0_arg13 e0_arg14 e0_arg15 e0_v188 e0_v242 e0_v271 e0_v308

end Cert.RefRun

end
-- ==== Proof.Val.RefRunS13.lean ====
import proofs.«407386_j15839839387945_2_alg».proof.Proof.Val.RefRunW6

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

set_option maxHeartbeats 1000000 in
/-- Operations 407 … 428: if on entering each buffer still read holds its stage (an argument its launch contents),
    then on leaving each buffer still read holds its stage. -/
theorem spec13 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v188 : W (Proc.devRef .tc main_v188) = ReadP.val_main_v188 (F := F) x0 x1 x3 x5 x6 x7 x8 x9 x10 x11 x12 x13)
    (h_v308 : W (Proc.devRef .tc main_v308) = ReadP.val_main_v308 (F := F) x0 x1 x2 x3 x4 x5 x6 x7 x8 x9 x10 x11 x12 x13)
    (h_v320 : W (Proc.devRef .tc main_v320) = ReadP.val_main_v320 (F := F) x0 x1 x2 x3 x4 x5 x6 x7 x8 x9 x10 x11 x12 x13)
    (h_v337 : W (Proc.devRef .tc main_v337) = ReadP.val_main_v337 (F := F) x0 x1 x2 x3 x4 x5 x6 x7 x8 x9 x10 x11 x12 x13)
    (h_v338 : W (Proc.devRef .tc main_v338) = ReadP.val_main_v338 (F := F) x0 x1 x2 x3 x4 x5 x6 x7 x8 x9 x10 x11 x12 x13) :
    after c13 W (Proc.devRef .tc main_arg0) = x0
      ∧ after c13 W (Proc.devRef .tc main_arg1) = x1
      ∧ after c13 W (Proc.devRef .tc main_arg2) = x2
      ∧ after c13 W (Proc.devRef .tc main_arg3) = x3
      ∧ after c13 W (Proc.devRef .tc main_arg4) = x4
      ∧ after c13 W (Proc.devRef .tc main_arg5) = x5
      ∧ after c13 W (Proc.devRef .tc main_arg6) = x6
      ∧ after c13 W (Proc.devRef .tc main_arg7) = x7
      ∧ after c13 W (Proc.devRef .tc main_arg8) = x8
      ∧ after c13 W (Proc.devRef .tc main_arg9) = x9
      ∧ after c13 W (Proc.devRef .tc main_arg10) = x10
      ∧ after c13 W (Proc.devRef .tc main_arg11) = x11
      ∧ after c13 W (Proc.devRef .tc main_arg12) = x12
      ∧ after c13 W (Proc.devRef .tc main_arg13) = x13
      ∧ after c13 W (Proc.devRef .tc main_arg14) = x14
      ∧ after c13 W (Proc.devRef .tc main_arg15) = x15
      ∧ after c13 W (Proc.devRef .tc main_v308) = ReadP.val_main_v308 (F := F) x0 x1 x2 x3 x4 x5 x6 x7 x8 x9 x10 x11 x12 x13
      ∧ after c13 W (Proc.devRef .tc main_v345) = ReadP.val_main_v345 (F := F) x0 x1 x2 x3 x4 x5 x6 x7 x8 x9 x10 x11 x12 x13
      ∧ after c13 W (Proc.devRef .tc main_v355) = ReadP.val_main_v355 (F := F) x0 x1 x2 x3 x4 x5 x6 x7 x8 x9 x10 x11 x12 x13 x14 x15
      ∧ after c13 W (Proc.devRef .tc main_v356) = ReadP.val_main_v356 (F := F) x0 x1 x2 x3 x4 x5 x6 x7 x8 x9 x10 x11 x12 x13 x14 x15 := by
  refine ⟨?_, ?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v188, h_v308, h_v320, h_v337, h_v338]

end Cert.RefRun

end
-- ==== Proof.Val.RefRunS14.lean ====
import proofs.«407386_j15839839387945_2_alg».proof.Proof.Val.RefRunW7

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

set_option maxHeartbeats 1000000 in
/-- Operations 429 … 451: if on entering each buffer still read holds its stage (an argument its launch contents),
    then on leaving each buffer still read holds its stage. -/
theorem spec14 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v308 : W (Proc.devRef .tc main_v308) = ReadP.val_main_v308 (F := F) x0 x1 x2 x3 x4 x5 x6 x7 x8 x9 x10 x11 x12 x13)
    (h_v345 : W (Proc.devRef .tc main_v345) = ReadP.val_main_v345 (F := F) x0 x1 x2 x3 x4 x5 x6 x7 x8 x9 x10 x11 x12 x13)
    (h_v355 : W (Proc.devRef .tc main_v355) = ReadP.val_main_v355 (F := F) x0 x1 x2 x3 x4 x5 x6 x7 x8 x9 x10 x11 x12 x13 x14 x15)
    (h_v356 : W (Proc.devRef .tc main_v356) = ReadP.val_main_v356 (F := F) x0 x1 x2 x3 x4 x5 x6 x7 x8 x9 x10 x11 x12 x13 x14 x15) :
    after c14 W (Proc.devRef .tc main_arg0) = x0
      ∧ after c14 W (Proc.devRef .tc main_arg1) = x1
      ∧ after c14 W (Proc.devRef .tc main_arg2) = x2
      ∧ after c14 W (Proc.devRef .tc main_arg3) = x3
      ∧ after c14 W (Proc.devRef .tc main_arg4) = x4
      ∧ after c14 W (Proc.devRef .tc main_arg5) = x5
      ∧ after c14 W (Proc.devRef .tc main_arg6) = x6
      ∧ after c14 W (Proc.devRef .tc main_arg7) = x7
      ∧ after c14 W (Proc.devRef .tc main_arg8) = x8
      ∧ after c14 W (Proc.devRef .tc main_arg9) = x9
      ∧ after c14 W (Proc.devRef .tc main_arg10) = x10
      ∧ after c14 W (Proc.devRef .tc main_arg11) = x11
      ∧ after c14 W (Proc.devRef .tc main_arg12) = x12
      ∧ after c14 W (Proc.devRef .tc main_arg13) = x13
      ∧ after c14 W (Proc.devRef .tc main_arg14) = x14
      ∧ after c14 W (Proc.devRef .tc main_arg15) = x15
      ∧ after c14 W (Proc.devRef .tc main_v345) = ReadP.val_main_v345 (F := F) x0 x1 x2 x3 x4 x5 x6 x7 x8 x9 x10 x11 x12 x13
      ∧ after c14 W (Proc.devRef .tc main_v370) = ReadP.val_main_v370 (F := F) x0 x1 x2 x3 x4 x5 x6 x7 x8 x9 x10 x11 x12 x13 x14 x15
      ∧ after c14 W (Proc.devRef .tc main_v376) = ReadP.val_main_v376 (F := F) x0 x1 x2 x3 x4 x5 x6 x7 x8 x9 x10 x11 x12 x13 x14 x15 := by
  refine ⟨?_, ?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v308, h_v345, h_v355, h_v356]

end Cert.RefRun

end
-- ==== Proof.Val.RefRunS15.lean ====
import proofs.«407386_j15839839387945_2_alg».proof.Proof.Val.RefRunW7

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
variable (x0 x1 : (⟨S10000x1, .i32⟩ : BufTy).Contents (Elt F)) (x2 x3 : (⟨S2x160000, .i32⟩ : BufTy).Contents (Elt F)) (x4 x5 : (⟨S160000x1, .i32⟩ : BufTy).Contents (Elt F)) (x6 : (⟨S32000x128, .f32⟩ : BufTy).Contents (Elt F)) (x7 : (⟨S20x128, .f32⟩ : BufTy).Contents (Elt F)) (x8 : (⟨S384x128, .f32⟩ : BufTy).Contents (Elt F)) (x9 : (⟨S128, .f32⟩ : BufTy).Contents (Elt F)) (x10 : (⟨S256x384, .f32⟩ : BufTy).Contents (Elt F)) (x11 : (⟨S384, .f32⟩ : BufTy).Contents (Elt F)) (x12 : (⟨S128x384, .f32⟩ : BufTy).Contents (Elt F)) (x13 : (⟨S384, .f32⟩ : BufTy).Contents (Elt F)) (x14 : (⟨S128x1, .f32⟩ : BufTy).Contents (Elt F)) (x15 : (⟨S1, .f32⟩ : BufTy).Contents (Elt F))

set_option maxHeartbeats 1000000 in
/-- Operations 452 … 476: if on entering each buffer still read holds its stage (an argument its launch contents),
    then on leaving each buffer still read holds its stage. -/
theorem spec15 (W : Valuation τ sig (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15)
    (h_v345 : W (Proc.devRef .tc main_v345) = ReadP.val_main_v345 (F := F) x0 x1 x2 x3 x4 x5 x6 x7 x8 x9 x10 x11 x12 x13)
    (h_v370 : W (Proc.devRef .tc main_v370) = ReadP.val_main_v370 (F := F) x0 x1 x2 x3 x4 x5 x6 x7 x8 x9 x10 x11 x12 x13 x14 x15)
    (h_v376 : W (Proc.devRef .tc main_v376) = ReadP.val_main_v376 (F := F) x0 x1 x2 x3 x4 x5 x6 x7 x8 x9 x10 x11 x12 x13 x14 x15) :
    after c15 W (Proc.devRef .tc main_arg0) = x0
      ∧ after c15 W (Proc.devRef .tc main_arg1) = x1
      ∧ after c15 W (Proc.devRef .tc main_arg2) = x2
      ∧ after c15 W (Proc.devRef .tc main_arg3) = x3
      ∧ after c15 W (Proc.devRef .tc main_arg4) = x4
      ∧ after c15 W (Proc.devRef .tc main_arg5) = x5
      ∧ after c15 W (Proc.devRef .tc main_arg6) = x6
      ∧ after c15 W (Proc.devRef .tc main_arg7) = x7
      ∧ after c15 W (Proc.devRef .tc main_arg8) = x8
      ∧ after c15 W (Proc.devRef .tc main_arg9) = x9
      ∧ after c15 W (Proc.devRef .tc main_arg10) = x10
      ∧ after c15 W (Proc.devRef .tc main_arg11) = x11
      ∧ after c15 W (Proc.devRef .tc main_arg12) = x12
      ∧ after c15 W (Proc.devRef .tc main_arg13) = x13
      ∧ after c15 W (Proc.devRef .tc main_arg14) = x14
      ∧ after c15 W (Proc.devRef .tc main_arg15) = x15
      ∧ after c15 W (Proc.devRef .tc main_v370) = ReadP.val_main_v370 (F := F) x0 x1 x2 x3 x4 x5 x6 x7 x8 x9 x10 x11 x12 x13 x14 x15
      ∧ after c15 W (Proc.devRef .tc main_v395) = ReadP.val_main_v395 (F := F) x0 x1 x2 x3 x4 x5 x6 x7 x8 x9 x10 x11 x12 x13 x14 x15 := by
  refine ⟨?_, ?_, ?_, ?_, ?_, ?_, ?_, ?_, ?_, ?_, ?_, ?_, ?_, ?_, ?_, ?_, ?_, ?_⟩ <;> stage_of [h_arg0, h_arg1, h_arg2, h_arg3, h_arg4, h_arg5, h_arg6, h_arg7, h_arg8, h_arg9, h_arg10, h_arg11, h_arg12, h_arg13, h_arg14, h_arg15, h_v345, h_v370, h_v376]

end Cert.RefRun

end
-- ==== Proof.Val.RefRunT.lean ====
import proofs.«407386_j15839839387945_2_alg».proof.Proof.Val.RefRunS00
import proofs.«407386_j15839839387945_2_alg».proof.Proof.Val.RefRunS01
import proofs.«407386_j15839839387945_2_alg».proof.Proof.Val.RefRunS02
import proofs.«407386_j15839839387945_2_alg».proof.Proof.Val.RefRunS03
import proofs.«407386_j15839839387945_2_alg».proof.Proof.Val.RefRunS04
import proofs.«407386_j15839839387945_2_alg».proof.Proof.Val.RefRunS05
import proofs.«407386_j15839839387945_2_alg».proof.Proof.Val.RefRunS06
import proofs.«407386_j15839839387945_2_alg».proof.Proof.Val.RefRunS07
import proofs.«407386_j15839839387945_2_alg».proof.Proof.Val.RefRunS08
import proofs.«407386_j15839839387945_2_alg».proof.Proof.Val.RefRunS09
import proofs.«407386_j15839839387945_2_alg».proof.Proof.Val.RefRunS10
import proofs.«407386_j15839839387945_2_alg».proof.Proof.Val.RefRunS11
import proofs.«407386_j15839839387945_2_alg».proof.Proof.Val.RefRunS12
import proofs.«407386_j15839839387945_2_alg».proof.Proof.Val.RefRunS13
import proofs.«407386_j15839839387945_2_alg».proof.Proof.Val.RefRunS14
import proofs.«407386_j15839839387945_2_alg».proof.Proof.Val.RefRunS15

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- From any contents V, after all the lines in order: the two results hold their stages of V's arguments, and every
    argument holds what it held. -/
theorem all_stages (V : Valuation τ sig (Elt F)) :
    after c15 (after c14 (after c13 (after c12 (after c11 (after c10 (after c09 (after c08 (after c07 (after c06 (after c05 (after c04 (after c03 (after c02 (after c01 (after c00 V))))))))))))))) (Proc.devRef .tc main_v370) = ReadP.val_main_v370 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))
      ∧ after c15 (after c14 (after c13 (after c12 (after c11 (after c10 (after c09 (after c08 (after c07 (after c06 (after c05 (after c04 (after c03 (after c02 (after c01 (after c00 V))))))))))))))) (Proc.devRef .tc main_v395) = ReadP.val_main_v395 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))
      ∧ after c15 (after c14 (after c13 (after c12 (after c11 (after c10 (after c09 (after c08 (after c07 (after c06 (after c05 (after c04 (after c03 (after c02 (after c01 (after c00 V))))))))))))))) (Proc.devRef .tc main_arg0) = V (Proc.devRef .tc main_arg0)
      ∧ after c15 (after c14 (after c13 (after c12 (after c11 (after c10 (after c09 (after c08 (after c07 (after c06 (after c05 (after c04 (after c03 (after c02 (after c01 (after c00 V))))))))))))))) (Proc.devRef .tc main_arg1) = V (Proc.devRef .tc main_arg1)
      ∧ after c15 (after c14 (after c13 (after c12 (after c11 (after c10 (after c09 (after c08 (after c07 (after c06 (after c05 (after c04 (after c03 (after c02 (after c01 (after c00 V))))))))))))))) (Proc.devRef .tc main_arg2) = V (Proc.devRef .tc main_arg2)
      ∧ after c15 (after c14 (after c13 (after c12 (after c11 (after c10 (after c09 (after c08 (after c07 (after c06 (after c05 (after c04 (after c03 (after c02 (after c01 (after c00 V))))))))))))))) (Proc.devRef .tc main_arg3) = V (Proc.devRef .tc main_arg3)
      ∧ after c15 (after c14 (after c13 (after c12 (after c11 (after c10 (after c09 (after c08 (after c07 (after c06 (after c05 (after c04 (after c03 (after c02 (after c01 (after c00 V))))))))))))))) (Proc.devRef .tc main_arg4) = V (Proc.devRef .tc main_arg4)
      ∧ after c15 (after c14 (after c13 (after c12 (after c11 (after c10 (after c09 (after c08 (after c07 (after c06 (after c05 (after c04 (after c03 (after c02 (after c01 (after c00 V))))))))))))))) (Proc.devRef .tc main_arg5) = V (Proc.devRef .tc main_arg5)
      ∧ after c15 (after c14 (after c13 (after c12 (after c11 (after c10 (after c09 (after c08 (after c07 (after c06 (after c05 (after c04 (after c03 (after c02 (after c01 (after c00 V))))))))))))))) (Proc.devRef .tc main_arg6) = V (Proc.devRef .tc main_arg6)
      ∧ after c15 (after c14 (after c13 (after c12 (after c11 (after c10 (after c09 (after c08 (after c07 (after c06 (after c05 (after c04 (after c03 (after c02 (after c01 (after c00 V))))))))))))))) (Proc.devRef .tc main_arg7) = V (Proc.devRef .tc main_arg7)
      ∧ after c15 (after c14 (after c13 (after c12 (after c11 (after c10 (after c09 (after c08 (after c07 (after c06 (after c05 (after c04 (after c03 (after c02 (after c01 (after c00 V))))))))))))))) (Proc.devRef .tc main_arg8) = V (Proc.devRef .tc main_arg8)
      ∧ after c15 (after c14 (after c13 (after c12 (after c11 (after c10 (after c09 (after c08 (after c07 (after c06 (after c05 (after c04 (after c03 (after c02 (after c01 (after c00 V))))))))))))))) (Proc.devRef .tc main_arg9) = V (Proc.devRef .tc main_arg9)
      ∧ after c15 (after c14 (after c13 (after c12 (after c11 (after c10 (after c09 (after c08 (after c07 (after c06 (after c05 (after c04 (after c03 (after c02 (after c01 (after c00 V))))))))))))))) (Proc.devRef .tc main_arg10) = V (Proc.devRef .tc main_arg10)
      ∧ after c15 (after c14 (after c13 (after c12 (after c11 (after c10 (after c09 (after c08 (after c07 (after c06 (after c05 (after c04 (after c03 (after c02 (after c01 (after c00 V))))))))))))))) (Proc.devRef .tc main_arg11) = V (Proc.devRef .tc main_arg11)
      ∧ after c15 (after c14 (after c13 (after c12 (after c11 (after c10 (after c09 (after c08 (after c07 (after c06 (after c05 (after c04 (after c03 (after c02 (after c01 (after c00 V))))))))))))))) (Proc.devRef .tc main_arg12) = V (Proc.devRef .tc main_arg12)
      ∧ after c15 (after c14 (after c13 (after c12 (after c11 (after c10 (after c09 (after c08 (after c07 (after c06 (after c05 (after c04 (after c03 (after c02 (after c01 (after c00 V))))))))))))))) (Proc.devRef .tc main_arg13) = V (Proc.devRef .tc main_arg13)
      ∧ after c15 (after c14 (after c13 (after c12 (after c11 (after c10 (after c09 (after c08 (after c07 (after c06 (after c05 (after c04 (after c03 (after c02 (after c01 (after c00 V))))))))))))))) (Proc.devRef .tc main_arg14) = V (Proc.devRef .tc main_arg14)
      ∧ after c15 (after c14 (after c13 (after c12 (after c11 (after c10 (after c09 (after c08 (after c07 (after c06 (after c05 (after c04 (after c03 (after c02 (after c01 (after c00 V))))))))))))))) (Proc.devRef .tc main_arg15) = V (Proc.devRef .tc main_arg15) := by
  obtain ⟨e0_arg0, e0_arg1, e0_arg2, e0_arg3, e0_arg4, e0_arg5, e0_arg6, e0_arg7, e0_arg8, e0_arg9, e0_arg10, e0_arg11, e0_arg12, e0_arg13, e0_arg14, e0_arg15, e0_v7, e0_v15, e0_v23⟩ :=
    spec00 _ _ _ _ _ _ _ _ _ _ _ _ _ _ _ _ V rfl rfl rfl rfl rfl rfl rfl rfl rfl rfl rfl rfl rfl rfl rfl rfl
  obtain ⟨e1_arg0, e1_arg1, e1_arg2, e1_arg3, e1_arg4, e1_arg5, e1_arg6, e1_arg7, e1_arg8, e1_arg9, e1_arg10, e1_arg11, e1_arg12, e1_arg13, e1_arg14, e1_arg15, e1_v7, e1_v15, e1_v23, e1_v31, e1_v35, e1_v42, e1_v47⟩ :=
    spec01 _ _ _ _ _ _ _ _ _ _ _ _ _ _ _ _ (after c00 V) e0_arg0 e0_arg1 e0_arg2 e0_arg3 e0_arg4 e0_arg5 e0_arg6 e0_arg7 e0_arg8 e0_arg9 e0_arg10 e0_arg11 e0_arg12 e0_arg13 e0_arg14 e0_arg15 e0_v7 e0_v15 e0_v23
  obtain ⟨e2_arg0, e2_arg1, e2_arg2, e2_arg3, e2_arg4, e2_arg5, e2_arg6, e2_arg7, e2_arg8, e2_arg9, e2_arg10, e2_arg11, e2_arg12, e2_arg13, e2_arg14, e2_arg15, e2_v7, e2_v15, e2_v23, e2_v31, e2_v58, e2_v62, e2_v77⟩ :=
    spec02 _ _ _ _ _ _ _ _ _ _ _ _ _ _ _ _ (after c01 (after c00 V)) e1_arg0 e1_arg1 e1_arg2 e1_arg3 e1_arg4 e1_arg5 e1_arg6 e1_arg7 e1_arg8 e1_arg9 e1_arg10 e1_arg11 e1_arg12 e1_arg13 e1_arg14 e1_arg15 e1_v7 e1_v15 e1_v23 e1_v31 e1_v35 e1_v42 e1_v47
  obtain ⟨e3_arg0, e3_arg1, e3_arg2, e3_arg3, e3_arg4, e3_arg5, e3_arg6, e3_arg7, e3_arg8, e3_arg9, e3_arg10, e3_arg11, e3_arg12, e3_arg13, e3_arg14, e3_arg15, e3_v7, e3_v15, e3_v23, e3_v31, e3_v58, e3_v85, e3_v87, e3_v98⟩ :=
    spec03 _ _ _ _ _ _ _ _ _ _ _ _ _ _ _ _ (after c02 (after c01 (after c00 V))) e2_arg0 e2_arg1 e2_arg2 e2_arg3 e2_arg4 e2_arg5 e2_arg6 e2_arg7 e2_arg8 e2_arg9 e2_arg10 e2_arg11 e2_arg12 e2_arg13 e2_arg14 e2_arg15 e2_v7 e2_v15 e2_v23 e2_v31 e2_v58 e2_v62 e2_v77
  obtain ⟨e4_arg0, e4_arg1, e4_arg2, e4_arg3, e4_arg4, e4_arg5, e4_arg6, e4_arg7, e4_arg8, e4_arg9, e4_arg10, e4_arg11, e4_arg12, e4_arg13, e4_arg14, e4_arg15, e4_v7, e4_v15, e4_v23, e4_v31, e4_v85, e4_v114, e4_v119⟩ :=
    spec04 _ _ _ _ _ _ _ _ _ _ _ _ _ _ _ _ (after c03 (after c02 (after c01 (after c00 V)))) e3_arg0 e3_arg1 e3_arg2 e3_arg3 e3_arg4 e3_arg5 e3_arg6 e3_arg7 e3_arg8 e3_arg9 e3_arg10 e3_arg11 e3_arg12 e3_arg13 e3_arg14 e3_arg15 e3_v7 e3_v15 e3_v23 e3_v31 e3_v58 e3_v85 e3_v87 e3_v98
  obtain ⟨e5_arg0, e5_arg1, e5_arg2, e5_arg3, e5_arg4, e5_arg5, e5_arg6, e5_arg7, e5_arg8, e5_arg9, e5_arg10, e5_arg11, e5_arg12, e5_arg13, e5_arg14, e5_arg15, e5_v15, e5_v23, e5_v31, e5_v85, e5_v114, e5_v149, e5_v150⟩ :=
    spec05 _ _ _ _ _ _ _ _ _ _ _ _ _ _ _ _ (after c04 (after c03 (after c02 (after c01 (after c00 V))))) e4_arg0 e4_arg1 e4_arg2 e4_arg3 e4_arg4 e4_arg5 e4_arg6 e4_arg7 e4_arg8 e4_arg9 e4_arg10 e4_arg11 e4_arg12 e4_arg13 e4_arg14 e4_arg15 e4_v7 e4_v15 e4_v23 e4_v31 e4_v85 e4_v114 e4_v119
  obtain ⟨e6_arg0, e6_arg1, e6_arg2, e6_arg3, e6_arg4, e6_arg5, e6_arg6, e6_arg7, e6_arg8, e6_arg9, e6_arg10, e6_arg11, e6_arg12, e6_arg13, e6_arg14, e6_arg15, e6_v15, e6_v23, e6_v31, e6_v151, e6_v180, e6_v182⟩ :=
    spec06 _ _ _ _ _ _ _ _ _ _ _ _ _ _ _ _ (after c05 (after c04 (after c03 (after c02 (after c01 (after c00 V)))))) e5_arg0 e5_arg1 e5_arg2 e5_arg3 e5_arg4 e5_arg5 e5_arg6 e5_arg7 e5_arg8 e5_arg9 e5_arg10 e5_arg11 e5_arg12 e5_arg13 e5_arg14 e5_arg15 e5_v15 e5_v23 e5_v31 e5_v85 e5_v114 e5_v149 e5_v150
  obtain ⟨e7_arg0, e7_arg1, e7_arg2, e7_arg3, e7_arg4, e7_arg5, e7_arg6, e7_arg7, e7_arg8, e7_arg9, e7_arg10, e7_arg11, e7_arg12, e7_arg13, e7_arg14, e7_arg15, e7_v23, e7_v31, e7_v151, e7_v188, e7_v190, e7_v192, e7_v199, e7_v201, e7_c_35⟩ :=
    spec07 _ _ _ _ _ _ _ _ _ _ _ _ _ _ _ _ (after c06 (after c05 (after c04 (after c03 (after c02 (after c01 (after c00 V))))))) e6_arg0 e6_arg1 e6_arg2 e6_arg3 e6_arg4 e6_arg5 e6_arg6 e6_arg7 e6_arg8 e6_arg9 e6_arg10 e6_arg11 e6_arg12 e6_arg13 e6_arg14 e6_arg15 e6_v15 e6_v23 e6_v31 e6_v151 e6_v180 e6_v182
  obtain ⟨e8_arg0, e8_arg1, e8_arg2, e8_arg3, e8_arg4, e8_arg5, e8_arg6, e8_arg7, e8_arg8, e8_arg9, e8_arg10, e8_arg11, e8_arg12, e8_arg13, e8_arg14, e8_arg15, e8_v151, e8_v188, e8_v215, e8_v219, e8_v234⟩ :=
    spec08 _ _ _ _ _ _ _ _ _ _ _ _ _ _ _ _ (after c07 (after c06 (after c05 (after c04 (after c03 (after c02 (after c01 (after c00 V)))))))) e7_arg0 e7_arg1 e7_arg2 e7_arg3 e7_arg4 e7_arg5 e7_arg6 e7_arg7 e7_arg8 e7_arg9 e7_arg10 e7_arg11 e7_arg12 e7_arg13 e7_arg14 e7_arg15 e7_v23 e7_v31 e7_v151 e7_v188 e7_v190 e7_v192 e7_v199 e7_v201 e7_c_35
  obtain ⟨e9_arg0, e9_arg1, e9_arg2, e9_arg3, e9_arg4, e9_arg5, e9_arg6, e9_arg7, e9_arg8, e9_arg9, e9_arg10, e9_arg11, e9_arg12, e9_arg13, e9_arg14, e9_arg15, e9_v151, e9_v188, e9_v215, e9_v242, e9_v244, e9_v251, e9_v252⟩ :=
    spec09 _ _ _ _ _ _ _ _ _ _ _ _ _ _ _ _ (after c08 (after c07 (after c06 (after c05 (after c04 (after c03 (after c02 (after c01 (after c00 V))))))))) e8_arg0 e8_arg1 e8_arg2 e8_arg3 e8_arg4 e8_arg5 e8_arg6 e8_arg7 e8_arg8 e8_arg9 e8_arg10 e8_arg11 e8_arg12 e8_arg13 e8_arg14 e8_arg15 e8_v151 e8_v188 e8_v215 e8_v219 e8_v234
  obtain ⟨e10_arg0, e10_arg1, e10_arg2, e10_arg3, e10_arg4, e10_arg5, e10_arg6, e10_arg7, e10_arg8, e10_arg9, e10_arg10, e10_arg11, e10_arg12, e10_arg13, e10_arg14, e10_arg15, e10_v151, e10_v188, e10_v242, e10_v271, e10_v276⟩ :=
    spec10 _ _ _ _ _ _ _ _ _ _ _ _ _ _ _ _ (after c09 (after c08 (after c07 (after c06 (after c05 (after c04 (after c03 (after c02 (after c01 (after c00 V)))))))))) e9_arg0 e9_arg1 e9_arg2 e9_arg3 e9_arg4 e9_arg5 e9_arg6 e9_arg7 e9_arg8 e9_arg9 e9_arg10 e9_arg11 e9_arg12 e9_arg13 e9_arg14 e9_arg15 e9_v151 e9_v188 e9_v215 e9_v242 e9_v244 e9_v251 e9_v252
  obtain ⟨e11_arg0, e11_arg1, e11_arg2, e11_arg3, e11_arg4, e11_arg5, e11_arg6, e11_arg7, e11_arg8, e11_arg9, e11_arg10, e11_arg11, e11_arg12, e11_arg13, e11_arg14, e11_arg15, e11_v151, e11_v188, e11_v242, e11_v271, e11_v300, e11_v303, e11_v304⟩ :=
    spec11 _ _ _ _ _ _ _ _ _ _ _ _ _ _ _ _ (after c10 (after c09 (after c08 (after c07 (after c06 (after c05 (after c04 (after c03 (after c02 (after c01 (after c00 V))))))))))) e10_arg0 e10_arg1 e10_arg2 e10_arg3 e10_arg4 e10_arg5 e10_arg6 e10_arg7 e10_arg8 e10_arg9 e10_arg10 e10_arg11 e10_arg12 e10_arg13 e10_arg14 e10_arg15 e10_v151 e10_v188 e10_v242 e10_v271 e10_v276
  obtain ⟨e12_arg0, e12_arg1, e12_arg2, e12_arg3, e12_arg4, e12_arg5, e12_arg6, e12_arg7, e12_arg8, e12_arg9, e12_arg10, e12_arg11, e12_arg12, e12_arg13, e12_arg14, e12_arg15, e12_v188, e12_v308, e12_v320, e12_v337, e12_v338⟩ :=
    spec12 _ _ _ _ _ _ _ _ _ _ _ _ _ _ _ _ (after c11 (after c10 (after c09 (after c08 (after c07 (after c06 (after c05 (after c04 (after c03 (after c02 (after c01 (after c00 V)))))))))))) e11_arg0 e11_arg1 e11_arg2 e11_arg3 e11_arg4 e11_arg5 e11_arg6 e11_arg7 e11_arg8 e11_arg9 e11_arg10 e11_arg11 e11_arg12 e11_arg13 e11_arg14 e11_arg15 e11_v151 e11_v188 e11_v242 e11_v271 e11_v300 e11_v303 e11_v304
  obtain ⟨e13_arg0, e13_arg1, e13_arg2, e13_arg3, e13_arg4, e13_arg5, e13_arg6, e13_arg7, e13_arg8, e13_arg9, e13_arg10, e13_arg11, e13_arg12, e13_arg13, e13_arg14, e13_arg15, e13_v308, e13_v345, e13_v355, e13_v356⟩ :=
    spec13 _ _ _ _ _ _ _ _ _ _ _ _ _ _ _ _ (after c12 (after c11 (after c10 (after c09 (after c08 (after c07 (after c06 (after c05 (after c04 (after c03 (after c02 (after c01 (after c00 V))))))))))))) e12_arg0 e12_arg1 e12_arg2 e12_arg3 e12_arg4 e12_arg5 e12_arg6 e12_arg7 e12_arg8 e12_arg9 e12_arg10 e12_arg11 e12_arg12 e12_arg13 e12_arg14 e12_arg15 e12_v188 e12_v308 e12_v320 e12_v337 e12_v338
  obtain ⟨e14_arg0, e14_arg1, e14_arg2, e14_arg3, e14_arg4, e14_arg5, e14_arg6, e14_arg7, e14_arg8, e14_arg9, e14_arg10, e14_arg11, e14_arg12, e14_arg13, e14_arg14, e14_arg15, e14_v345, e14_v370, e14_v376⟩ :=
    spec14 _ _ _ _ _ _ _ _ _ _ _ _ _ _ _ _ (after c13 (after c12 (after c11 (after c10 (after c09 (after c08 (after c07 (after c06 (after c05 (after c04 (after c03 (after c02 (after c01 (after c00 V)))))))))))))) e13_arg0 e13_arg1 e13_arg2 e13_arg3 e13_arg4 e13_arg5 e13_arg6 e13_arg7 e13_arg8 e13_arg9 e13_arg10 e13_arg11 e13_arg12 e13_arg13 e13_arg14 e13_arg15 e13_v308 e13_v345 e13_v355 e13_v356
  obtain ⟨e15_arg0, e15_arg1, e15_arg2, e15_arg3, e15_arg4, e15_arg5, e15_arg6, e15_arg7, e15_arg8, e15_arg9, e15_arg10, e15_arg11, e15_arg12, e15_arg13, e15_arg14, e15_arg15, e15_v370, e15_v395⟩ :=
    spec15 _ _ _ _ _ _ _ _ _ _ _ _ _ _ _ _ (after c14 (after c13 (after c12 (after c11 (after c10 (after c09 (after c08 (after c07 (after c06 (after c05 (after c04 (after c03 (after c02 (after c01 (after c00 V))))))))))))))) e14_arg0 e14_arg1 e14_arg2 e14_arg3 e14_arg4 e14_arg5 e14_arg6 e14_arg7 e14_arg8 e14_arg9 e14_arg10 e14_arg11 e14_arg12 e14_arg13 e14_arg14 e14_arg15 e14_v345 e14_v370 e14_v376
  exact ⟨e15_v370, e15_v395, e15_arg0, e15_arg1, e15_arg2, e15_arg3, e15_arg4, e15_arg5, e15_arg6, e15_arg7, e15_arg8, e15_arg9, e15_arg10, e15_arg11, e15_arg12, e15_arg13, e15_arg14, e15_arg15⟩

end Cert.RefRun

end
-- ==== Proof.Val.RefRun.lean ====
import proofs.«407386_j15839839387945_2_alg».proof.Proof.Val.RefRunMain
import proofs.«407386_j15839839387945_2_alg».proof.Proof.Val.RefRunT

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem ref_run (m : (ℓ : Loc nD τ sig) → Buf (Elt F) ℓ) (ρ : Dev nD → PrngReg) :
    θ_run Cert.ReferenceIdeal.defs (onTc (τ := Cert.ReferenceIdeal.τ) (Cert.ReferenceIdeal.main (F := F))) ⟨m, fun _ => 0, ρ⟩ fun r => ∀ c : Dev nD,
      r.2.mem ((c.tc : Thread nD τ).loc main_v370) = ReadP.val_main_v370 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v395) = ReadP.val_main_v395 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run Cert.ReferenceIdeal.defs _ _).mono (fun r h c => ?_)
    (run_seq scopedRefs_eq scopedSems_eq Cert.ReferenceIdeal.defs (Cert.ReferenceIdeal.main (F := F)) (fun _ => opsAll (F := F))
      main_eq (fun _ => opsAll_sub) m ρ (fun _ => opsAll_fresh))

  have key := all_stages (F := F) (launchContents m c)
  rw [← after_opsAll] at key
  obtain ⟨k370, k395, k0, k1, k2, k3, k4, k5, k6, k7, k8, k9, k10, k11, k12, k13, k14, k15⟩ := key
  exact ⟨(h c main_v370).trans k370, (h c main_v395).trans k395, (h c main_arg0).trans k0, (h c main_arg1).trans k1,
    (h c main_arg2).trans k2, (h c main_arg3).trans k3, (h c main_arg4).trans k4, (h c main_arg5).trans k5,
    (h c main_arg6).trans k6, (h c main_arg7).trans k7, (h c main_arg8).trans k8, (h c main_arg9).trans k9,
    (h c main_arg10).trans k10, (h c main_arg11).trans k11, (h c main_arg12).trans k12, (h c main_arg13).trans k13,
    (h c main_arg14).trans k14, (h c main_arg15).trans k15⟩

end Cert.RefRun

end
-- ==== Proof.lean ====
/- A two-layer graph matching network: the kernel computes the edge messages and the cross-graph updates in eight regions
   and the rest in host operations, the reference everything in host operations. Along the kernel's run every buffer is the
   reference's stage of the sixteen arguments, so both programs end at the same two functions of arguments that agree. -/
import proofs.«407386_j15839839387945_2_alg».proof.Defs
import proofs.«407386_j15839839387945_2_alg».proof.Proof.Gen.Kernel
import proofs.«407386_j15839839387945_2_alg».proof.Proof.Gen.KernelIdeal
import proofs.«407386_j15839839387945_2_alg».proof.Proof.Gen.ReferenceIdeal
import proofs.«407386_j15839839387945_2_alg».proof.Proof.Gen.Pre_finite_inputs
import proofs.«407386_j15839839387945_2_alg».proof.Proof.K.RunMain
import proofs.«407386_j15839839387945_2_alg».proof.Proof.K.RunArgs
import proofs.«407386_j15839839387945_2_alg».proof.Proof.KI.RunMain
import proofs.«407386_j15839839387945_2_alg».proof.Proof.KI.RunArgs
import proofs.«407386_j15839839387945_2_alg».proof.Proof.Val.KernelValue
import proofs.«407386_j15839839387945_2_alg».proof.Proof.Val.RefRun
import Idealize.ShloMosaic.Adequacy
import Idealize.ShloMosaic.Init

set_option maxRecDepth 16384

noncomputable section

namespace Cert.Proof

open Idealize.ShloMosaic Idealize.ShloMosaic.TcCoe Idealize.SL.Sem

theorem mem_uc_K (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩

theorem mem_uc_KI (b : Ref Cert.KernelIdeal.sig .tc)
    (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem frame_k : Cert.frame_Kernel := fun m g _ =>
  (θ_run Cert.Kernel.defs _ _).mono (fun r h c =>
    ⟨(h c _ (mem_uc_K Cert.Kernel.main_arg0 (by decide))).trans (Cert.Kernel.Hand.W15_arg m g c Cert.Kernel.main_arg0 (by decide)),
     (h c _ (mem_uc_K Cert.Kernel.main_arg1 (by decide))).trans (Cert.Kernel.Hand.W15_arg m g c Cert.Kernel.main_arg1 (by decide)),
     (h c _ (mem_uc_K Cert.Kernel.main_arg2 (by decide))).trans (Cert.Kernel.Hand.W15_arg m g c Cert.Kernel.main_arg2 (by decide)),
     (h c _ (mem_uc_K Cert.Kernel.main_arg3 (by decide))).trans (Cert.Kernel.Hand.W15_arg m g c Cert.Kernel.main_arg3 (by decide)),
     (h c _ (mem_uc_K Cert.Kernel.main_arg4 (by decide))).trans (Cert.Kernel.Hand.W15_arg m g c Cert.Kernel.main_arg4 (by decide)),
     (h c _ (mem_uc_K Cert.Kernel.main_arg5 (by decide))).trans (Cert.Kernel.Hand.W15_arg m g c Cert.Kernel.main_arg5 (by decide)),
     (h c _ (mem_uc_K Cert.Kernel.main_arg6 (by decide))).trans (Cert.Kernel.Hand.W15_arg m g c Cert.Kernel.main_arg6 (by decide)),
     (h c _ (mem_uc_K Cert.Kernel.main_arg7 (by decide))).trans (Cert.Kernel.Hand.W15_arg m g c Cert.Kernel.main_arg7 (by decide)),
     (h c _ (mem_uc_K Cert.Kernel.main_arg8 (by decide))).trans (Cert.Kernel.Hand.W15_arg m g c Cert.Kernel.main_arg8 (by decide)),
     (h c _ (mem_uc_K Cert.Kernel.main_arg9 (by decide))).trans (Cert.Kernel.Hand.W15_arg m g c Cert.Kernel.main_arg9 (by decide)),
     (h c _ (mem_uc_K Cert.Kernel.main_arg10 (by decide))).trans (Cert.Kernel.Hand.W15_arg m g c Cert.Kernel.main_arg10 (by decide)),
     (h c _ (mem_uc_K Cert.Kernel.main_arg11 (by decide))).trans (Cert.Kernel.Hand.W15_arg m g c Cert.Kernel.main_arg11 (by decide)),
     (h c _ (mem_uc_K Cert.Kernel.main_arg12 (by decide))).trans (Cert.Kernel.Hand.W15_arg m g c Cert.Kernel.main_arg12 (by decide)),
     (h c _ (mem_uc_K Cert.Kernel.main_arg13 (by decide))).trans (Cert.Kernel.Hand.W15_arg m g c Cert.Kernel.main_arg13 (by decide)),
     (h c _ (mem_uc_K Cert.Kernel.main_arg14 (by decide))).trans (Cert.Kernel.Hand.W15_arg m g c Cert.Kernel.main_arg14 (by decide)),
     (h c _ (mem_uc_K Cert.Kernel.main_arg15 (by decide))).trans (Cert.Kernel.Hand.W15_arg m g c Cert.Kernel.main_arg15 (by decide))⟩)
    (Cert.Kernel.Hand.run_all (F := Bits) m g)

theorem frame_ki : Cert.frame_KernelIdeal := fun m g _ =>
  (θ_run Cert.KernelIdeal.defs _ _).mono (fun r h c =>
    ⟨(h c _ (mem_uc_KI Cert.KernelIdeal.main_arg0 (by decide))).trans (Cert.KernelIdeal.Hand.W15_arg m g c Cert.KernelIdeal.main_arg0 (by decide)),
     (h c _ (mem_uc_KI Cert.KernelIdeal.main_arg1 (by decide))).trans (Cert.KernelIdeal.Hand.W15_arg m g c Cert.KernelIdeal.main_arg1 (by decide)),
     (h c _ (mem_uc_KI Cert.KernelIdeal.main_arg2 (by decide))).trans (Cert.KernelIdeal.Hand.W15_arg m g c Cert.KernelIdeal.main_arg2 (by decide)),
     (h c _ (mem_uc_KI Cert.KernelIdeal.main_arg3 (by decide))).trans (Cert.KernelIdeal.Hand.W15_arg m g c Cert.KernelIdeal.main_arg3 (by decide)),
     (h c _ (mem_uc_KI Cert.KernelIdeal.main_arg4 (by decide))).trans (Cert.KernelIdeal.Hand.W15_arg m g c Cert.KernelIdeal.main_arg4 (by decide)),
     (h c _ (mem_uc_KI Cert.KernelIdeal.main_arg5 (by decide))).trans (Cert.KernelIdeal.Hand.W15_arg m g c Cert.KernelIdeal.main_arg5 (by decide)),
     (h c _ (mem_uc_KI Cert.KernelIdeal.main_arg6 (by decide))).trans (Cert.KernelIdeal.Hand.W15_arg m g c Cert.KernelIdeal.main_arg6 (by decide)),
     (h c _ (mem_uc_KI Cert.KernelIdeal.main_arg7 (by decide))).trans (Cert.KernelIdeal.Hand.W15_arg m g c Cert.KernelIdeal.main_arg7 (by decide)),
     (h c _ (mem_uc_KI Cert.KernelIdeal.main_arg8 (by decide))).trans (Cert.KernelIdeal.Hand.W15_arg m g c Cert.KernelIdeal.main_arg8 (by decide)),
     (h c _ (mem_uc_KI Cert.KernelIdeal.main_arg9 (by decide))).trans (Cert.KernelIdeal.Hand.W15_arg m g c Cert.KernelIdeal.main_arg9 (by decide)),
     (h c _ (mem_uc_KI Cert.KernelIdeal.main_arg10 (by decide))).trans (Cert.KernelIdeal.Hand.W15_arg m g c Cert.KernelIdeal.main_arg10 (by decide)),
     (h c _ (mem_uc_KI Cert.KernelIdeal.main_arg11 (by decide))).trans (Cert.KernelIdeal.Hand.W15_arg m g c Cert.KernelIdeal.main_arg11 (by decide)),
     (h c _ (mem_uc_KI Cert.KernelIdeal.main_arg12 (by decide))).trans (Cert.KernelIdeal.Hand.W15_arg m g c Cert.KernelIdeal.main_arg12 (by decide)),
     (h c _ (mem_uc_KI Cert.KernelIdeal.main_arg13 (by decide))).trans (Cert.KernelIdeal.Hand.W15_arg m g c Cert.KernelIdeal.main_arg13 (by decide)),
     (h c _ (mem_uc_KI Cert.KernelIdeal.main_arg14 (by decide))).trans (Cert.KernelIdeal.Hand.W15_arg m g c Cert.KernelIdeal.main_arg14 (by decide)),
     (h c _ (mem_uc_KI Cert.KernelIdeal.main_arg15 (by decide))).trans (Cert.KernelIdeal.Hand.W15_arg m g c Cert.KernelIdeal.main_arg15 (by decide))⟩)
    (Cert.KernelIdeal.Hand.run_all (F := Ideal) m g)

theorem frame_ri : Cert.frame_ReferenceIdeal := fun m g _ =>
  (θ_run Cert.ReferenceIdeal.defs _ _).mono (fun _ h c => (h c).2.2) (Cert.RefRun.ref_run (F := Ideal) m g)

theorem algebraic : Cert.algebraic_KernelIdeal_ReferenceIdeal := by
  intro m g m' g' hpre hagree
  refine ⟨fun c => Cert.ReferenceIdeal.ReadP.val_main_v370 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)),
    fun c => Cert.ReferenceIdeal.ReadP.val_main_v395 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.Hand.run_all (F := Ideal) m g)
    have kv := Cert.KernelIdeal.Val.kernel_value m g c (hpre c)
    exact ⟨(h c _ (mem_uc_KI Cert.KernelIdeal.main_v294 (by decide))).trans kv.1,
      (h c _ (mem_uc_KI Cert.KernelIdeal.main_v319 (by decide))).trans kv.2,
      (h c _ (mem_uc_KI Cert.KernelIdeal.main_arg0 (by decide))).trans (Cert.KernelIdeal.Hand.W15_arg m g c Cert.KernelIdeal.main_arg0 (by decide)),
      (h c _ (mem_uc_KI Cert.KernelIdeal.main_arg1 (by decide))).trans (Cert.KernelIdeal.Hand.W15_arg m g c Cert.KernelIdeal.main_arg1 (by decide)),
      (h c _ (mem_uc_KI Cert.KernelIdeal.main_arg2 (by decide))).trans (Cert.KernelIdeal.Hand.W15_arg m g c Cert.KernelIdeal.main_arg2 (by decide)),
      (h c _ (mem_uc_KI Cert.KernelIdeal.main_arg3 (by decide))).trans (Cert.KernelIdeal.Hand.W15_arg m g c Cert.KernelIdeal.main_arg3 (by decide)),
      (h c _ (mem_uc_KI Cert.KernelIdeal.main_arg4 (by decide))).trans (Cert.KernelIdeal.Hand.W15_arg m g c Cert.KernelIdeal.main_arg4 (by decide)),
      (h c _ (mem_uc_KI Cert.KernelIdeal.main_arg5 (by decide))).trans (Cert.KernelIdeal.Hand.W15_arg m g c Cert.KernelIdeal.main_arg5 (by decide)),
      (h c _ (mem_uc_KI Cert.KernelIdeal.main_arg6 (by decide))).trans (Cert.KernelIdeal.Hand.W15_arg m g c Cert.KernelIdeal.main_arg6 (by decide)),
      (h c _ (mem_uc_KI Cert.KernelIdeal.main_arg7 (by decide))).trans (Cert.KernelIdeal.Hand.W15_arg m g c Cert.KernelIdeal.main_arg7 (by decide)),
      (h c _ (mem_uc_KI Cert.KernelIdeal.main_arg8 (by decide))).trans (Cert.KernelIdeal.Hand.W15_arg m g c Cert.KernelIdeal.main_arg8 (by decide)),
      (h c _ (mem_uc_KI Cert.KernelIdeal.main_arg9 (by decide))).trans (Cert.KernelIdeal.Hand.W15_arg m g c Cert.KernelIdeal.main_arg9 (by decide)),
      (h c _ (mem_uc_KI Cert.KernelIdeal.main_arg10 (by decide))).trans (Cert.KernelIdeal.Hand.W15_arg m g c Cert.KernelIdeal.main_arg10 (by decide)),
      (h c _ (mem_uc_KI Cert.KernelIdeal.main_arg11 (by decide))).trans (Cert.KernelIdeal.Hand.W15_arg m g c Cert.KernelIdeal.main_arg11 (by decide)),
      (h c _ (mem_uc_KI Cert.KernelIdeal.main_arg12 (by decide))).trans (Cert.KernelIdeal.Hand.W15_arg m g c Cert.KernelIdeal.main_arg12 (by decide)),
      (h c _ (mem_uc_KI Cert.KernelIdeal.main_arg13 (by decide))).trans (Cert.KernelIdeal.Hand.W15_arg m g c Cert.KernelIdeal.main_arg13 (by decide)),
      (h c _ (mem_uc_KI Cert.KernelIdeal.main_arg14 (by decide))).trans (Cert.KernelIdeal.Hand.W15_arg m g c Cert.KernelIdeal.main_arg14 (by decide)),
      (h c _ (mem_uc_KI Cert.KernelIdeal.main_arg15 (by decide))).trans (Cert.KernelIdeal.Hand.W15_arg m g c Cert.KernelIdeal.main_arg15 (by decide))⟩
  · refine (θ_run Cert.ReferenceIdeal.defs _ _).mono (fun r h c => ?_) (Cert.RefRun.ref_run (F := Ideal) m' g')
    obtain ⟨e0, e1, e2, e3, e4, e5, e6, e7, e8, e9, e10, e11, e12, e13, e14, e15⟩ := hagree c
    refine ⟨(h c).1.trans ?_, (h c).2.1.trans ?_, (h c).2.2⟩
    · rw [e0, e1, e2, e3, e4, e5, e6, e7, e8, e9, e10, e11, e12, e13, e14, e15]
    · rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
